-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x80000 : Shape := ⟨2, ![2, 80000]⟩
abbrev S2x160000 : Shape := ⟨2, ![2, 160000]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S1024x2 : Shape := ⟨2, ![1024, 2]⟩
abbrev S512x2 : Shape := ⟨2, ![512, 2]⟩
abbrev S128x2 : Shape := ⟨2, ![128, 2]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1024x2 : S_.BroadcastsInDim S1024x2 (![] : Fin 0 → Fin S1024x2.rank)
  reducesTo_S1024x2_S_d0_1 : S1024x2.ReducesTo [0, 1] S_
  bcast_S_S512x2 : S_.BroadcastsInDim S512x2 (![] : Fin 0 → Fin S512x2.rank)
  reducesTo_S512x2_S_d0_1 : S512x2.ReducesTo [0, 1] S_
  bcast_S_S128x2 : S_.BroadcastsInDim S128x2 (![] : Fin 0 → Fin S128x2.rank)
  reducesTo_S128x2_S_d0_1 : S128x2.ReducesTo [0, 1] S_
  bcast_S_S2x80000 : S_.BroadcastsInDim S2x80000 (![] : Fin 0 → Fin S2x80000.rank)
  reducesTo_S2x80000_S_d0_1 : S2x80000.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part5 {F : FTy → Type} [FloatOps F] (main_arg2 : IVec S2x160000 32) (main_v78 : IVec S_ 1) (main_v84 : IVec S_ 1) : IVec S_ 1 :=
  let main_v85 : IVec S_ 1 := andi main_v78 main_v84
  let main_c_33 : IVec S_ 32 := constantI S_ 32 0#32
  let main_v86 : IVec S2x160000 32 := broadcastInDim S2x160000 ![] bcast_S_S2x160000 main_c_33
  let main_v87 : IVec S2x160000 1 := cmpi .sge main_arg2 main_v86
  let main_c_34 : IVec S_ 32 := constantI S_ 32 10000#32
  let main_v88 : IVec S2x160000 32 := broadcastInDim S2x160000 ![] bcast_S_S2x160000 main_c_34
  let main_v89 : IVec S2x160000 1 := cmpi .slt main_arg2 main_v88
  let main_v90 : IVec S2x160000 1 := andi main_v87 main_v89
  let main_c_35 : IVec S_ 1 := constantI S_ 1 1#1
  let main_v91 : IVec S_ 1 := (fun x v => Host.reduce IntOp.andi x v reducesTo_S2x160000_S_d0_1 h_S_) main_v90 main_c_35
  let main_v92 : IVec S_ 1 := andi main_v85 main_v91
  main_v92

def fn_part4 {F : FTy → Type} [FloatOps F] (main_arg1 : IVec S2x80000 32) (main_arg2 : IVec S2x160000 32) (main_arg16 : FVec F S512x2 .f32) (main_arg17 : FVec F S128x2 .f32) (main_v63 : IVec S_ 1) (main_v67 : IVec S_ 1) : IVec S_ 1 :=
  let main_v68 : IVec S_ 1 := andi main_v63 main_v67
  let main_v69 : FVec F S512x2 .f32 := Host.absf main_arg16
  let main_cst_26 : FVec F S_ .f32 := constant S_ .f32 0x7F800000#32
  let main_v70 : FVec F S512x2 .f32 := broadcastInDim S512x2 ![] bcast_S_S512x2 main_cst_26
  let main_v71 : IVec S512x2 1 := cmpf .olt main_v69 main_v70
  let main_c_27 : IVec S_ 1 := constantI S_ 1 1#1
  let main_v72 : IVec S_ 1 := (fun x v => Host.reduce IntOp.andi x v reducesTo_S512x2_S_d0_1 h_S_) main_v71 main_c_27
  let main_v73 : IVec S_ 1 := andi main_v68 main_v72
  let main_v74 : FVec F S128x2 .f32 := Host.absf main_arg17
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_c_30 : IVec S_ 32 := constantI S_ 32 0#32
  let main_v79 : IVec S2x80000 32 := broadcastInDim S2x80000 ![] bcast_S_S2x80000 main_c_30
  let main_v80 : IVec S2x80000 1 := cmpi .sge main_arg1 main_v79
  let main_c_31 : IVec S_ 32 := constantI S_ 32 10000#32
  let main_v81 : IVec S2x80000 32 := broadcastInDim S2x80000 ![] bcast_S_S2x80000 main_c_31
  let main_v82 : IVec S2x80000 1 := cmpi .slt main_arg1 main_v81
  let main_v83 : IVec S2x80000 1 := andi main_v80 main_v82
  let main_c_32 : IVec S_ 1 := constantI S_ 1 1#1
  let main_v84 : IVec S_ 1 := (fun x v => Host.reduce IntOp.andi x v reducesTo_S2x80000_S_d0_1 h_S_) main_v83 main_c_32
  fn_part5 (F := F) main_arg2 main_v78 main_v84

def fn_part3 {F : FTy → Type} [FloatOps F] (main_arg1 : IVec S2x80000 32) (main_arg2 : IVec S2x160000 32) (main_arg13 : FVec F S512x128 .f32) (main_arg14 : FVec F S128 .f32) (main_arg15 : FVec F S1024x2 .f32) (main_arg16 : FVec F S512x2 .f32) (main_arg17 : FVec F S128x2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S512x128 .f32 := Host.absf main_arg13
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1024x2 .f32 := Host.absf main_arg15
  let main_cst_24 : FVec F S_ .f32 := constant S_ .f32 0x7F800000#32
  let main_v65 : FVec F S1024x2 .f32 := broadcastInDim S1024x2 ![] bcast_S_S1024x2 main_cst_24
  let main_v66 : IVec S1024x2 1 := cmpf .olt main_v64 main_v65
  let main_c_25 : IVec S_ 1 := constantI S_ 1 1#1
  let main_v67 : IVec S_ 1 := (fun x v => Host.reduce IntOp.andi x v reducesTo_S1024x2_S_d0_1 h_S_) main_v66 main_c_25
  fn_part4 (F := F) main_arg1 main_arg2 main_arg16 main_arg17 main_v63 main_v67

def fn_part2 {F : FTy → Type} [FloatOps F] (main_arg1 : IVec S2x80000 32) (main_arg2 : IVec S2x160000 32) (main_arg9 : FVec F S1024x512 .f32) (main_arg10 : FVec F S512 .f32) (main_arg11 : FVec F S512x128 .f32) (main_arg12 : FVec F S128 .f32) (main_arg13 : FVec F S512x128 .f32) (main_arg14 : FVec F S128 .f32) (main_arg15 : FVec F S1024x2 .f32) (main_arg16 : FVec F S512x2 .f32) (main_arg17 : FVec F S128x2 .f32) (main_v33 : IVec S_ 1) : IVec S_ 1 :=
  let main_v34 : FVec F S1024x512 .f32 := Host.absf main_arg9
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg11
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg2 main_arg13 main_arg14 main_arg15 main_arg16 main_arg17 main_v48 main_v49 main_v50

def fn_part1 {F : FTy → Type} [FloatOps F] (main_arg1 : IVec S2x80000 32) (main_arg2 : IVec S2x160000 32) (main_arg6 : FVec F S1024 .f32) (main_arg7 : FVec F S1024x512 .f32) (main_arg8 : FVec F S512 .f32) (main_arg9 : FVec F S1024x512 .f32) (main_arg10 : FVec F S512 .f32) (main_arg11 : FVec F S512x128 .f32) (main_arg12 : FVec F S128 .f32) (main_arg13 : FVec F S512x128 .f32) (main_arg14 : FVec F S128 .f32) (main_arg15 : FVec F S1024x2 .f32) (main_arg16 : FVec F S512x2 .f32) (main_arg17 : FVec F S128x2 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg7
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg2 main_arg9 main_arg10 main_arg11 main_arg12 main_arg13 main_arg14 main_arg15 main_arg16 main_arg17 main_v33

def fn {F : FTy → Type} [FloatOps F] (main_arg0 : FVec F S10000x512 .f32) (main_arg1 : IVec S2x80000 32) (main_arg2 : IVec S2x160000 32) (main_arg3 : FVec F S512x1024 .f32) (main_arg4 : FVec F S1024 .f32) (main_arg5 : FVec F S512x1024 .f32) (main_arg6 : FVec F S1024 .f32) (main_arg7 : FVec F S1024x512 .f32) (main_arg8 : FVec F S512 .f32) (main_arg9 : FVec F S1024x512 .f32) (main_arg10 : FVec F S512 .f32) (main_arg11 : FVec F S512x128 .f32) (main_arg12 : FVec F S128 .f32) (main_arg13 : FVec F S512x128 .f32) (main_arg14 : FVec F S128 .f32) (main_arg15 : FVec F S1024x2 .f32) (main_arg16 : FVec F S512x2 .f32) (main_arg17 : FVec F S128x2 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x1024 .f32 := Host.absf main_arg3
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x1024 .f32 := Host.absf main_arg5
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg1 main_arg2 main_arg6 main_arg7 main_arg8 main_arg9 main_arg10 main_arg11 main_arg12 main_arg13 main_arg14 main_arg15 main_arg16 main_arg17 main_v13 main_v16
-- ==== Kernel.lean ====
abbrev S10000x512 : Shape := ⟨2, ![10000, 512]⟩
abbrev S2x80000 : Shape := ⟨2, ![2, 80000]⟩
abbrev S2x160000 : Shape := ⟨2, ![2, 160000]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S1024x2 : Shape := ⟨2, ![1024, 2]⟩
abbrev S512x2 : Shape := ⟨2, ![512, 2]⟩
abbrev S128x2 : Shape := ⟨2, ![128, 2]⟩
abbrev S1x80000 : Shape := ⟨2, ![1, 80000]⟩
abbrev S80000 : Shape := ⟨1, ![80000]⟩
abbrev S10000 : Shape := ⟨1, ![10000]⟩
abbrev S90000 : Shape := ⟨1, ![90000]⟩
abbrev S_ : Shape := ⟨0, ![]⟩
abbrev S90000x1 : Shape := ⟨2, ![90000, 1]⟩
abbrev S10240x10240 : Shape := ⟨2, ![10240, 10240]⟩
abbrev S90000x2 : Shape := ⟨2, ![90000, 2]⟩
abbrev S1x160000 : Shape := ⟨2, ![1, 160000]⟩
abbrev S160000 : Shape := ⟨1, ![160000]⟩
abbrev S170000 : Shape := ⟨1, ![170000]⟩
abbrev S170000x1 : Shape := ⟨2, ![170000, 1]⟩
abbrev S170000x2 : Shape := ⟨2, ![170000, 2]⟩
abbrev S10240x512 : Shape := ⟨2, ![10240, 512]⟩
abbrev S512x512 : Shape := ⟨2, ![512, 512]⟩
abbrev S10240x1024 : Shape := ⟨2, ![10240, 1024]⟩
abbrev S1x1024 : Shape := ⟨2, ![1, 1024]⟩
abbrev S1024x1 : Shape := ⟨2, ![1024, 1]⟩
abbrev S1x512 : Shape := ⟨2, ![1, 512]⟩
abbrev S512x1 : Shape := ⟨2, ![512, 1]⟩
abbrev S10240x128 : Shape := ⟨2, ![10240, 128]⟩
abbrev S1x128 : Shape := ⟨2, ![1, 128]⟩
abbrev S128x1 : Shape := ⟨2, ![128, 1]⟩
abbrev S10000x128 : Shape := ⟨2, ![10000, 128]⟩

abbrev nBuf : Space → Nat
  | .hbm => 354
  | .vmem => 78
  | .smem => 0
  | _ => 0

abbrev hbmTy0_0 (i : Nat) : BufTy := match i % 128 with
  | 0 => ⟨S10000x512, .f32⟩
  | 1 => ⟨S2x80000, .i32⟩
  | 2 => ⟨S2x160000, .i32⟩
  | 3 => ⟨S512x1024, .f32⟩
  | 4 => ⟨S1024, .f32⟩
  | 5 => ⟨S512x1024, .f32⟩
  | 6 => ⟨S1024, .f32⟩
  | 7 => ⟨S1024x512, .f32⟩
  | 8 => ⟨S512, .f32⟩
  | 9 => ⟨S1024x512, .f32⟩
  | 10 => ⟨S512, .f32⟩
  | 11 => ⟨S512x128, .f32⟩
  | 12 => ⟨S128, .f32⟩
  | 13 => ⟨S512x128, .f32⟩
  | 14 => ⟨S128, .f32⟩
  | 15 => ⟨S1024x2, .f32⟩
  | 16 => ⟨S512x2, .f32⟩
  | 17 => ⟨S128x2, .f32⟩
  | 18 => ⟨S1x80000, .i32⟩
  | 19 => ⟨S80000, .i32⟩
  | 20 => ⟨S1x80000, .i32⟩
  | 21 => ⟨S80000, .i32⟩
  | 22 => ⟨S10000, .i32⟩
  | 23 => ⟨S90000, .i32⟩
  | 24 => ⟨S90000, .i32⟩
  | 25 => ⟨S_, .f32⟩
  | 26 => ⟨S10000, .f32⟩
  | 27 => ⟨S_, .i32⟩
  | 28 => ⟨S90000, .i32⟩
  | 29 => ⟨S90000, .i1⟩
  | 30 => ⟨S_, .i32⟩
  | 31 => ⟨S90000, .i32⟩
  | 32 => ⟨S90000, .i32⟩
  | 33 => ⟨S90000, .i32⟩
  | 34 => ⟨S90000x1, .i32⟩
  | 35 => ⟨S_, .f32⟩
  | 36 => ⟨S90000, .f32⟩
  | 37 => ⟨S10000, .f32⟩
  | 38 => ⟨S_, .f32⟩
  | 39 => ⟨S10000, .f32⟩
  | 40 => ⟨S10000, .f32⟩
  | 41 => ⟨S10000, .f32⟩
  | 42 => ⟨S_, .i32⟩
  | 43 => ⟨S90000, .i32⟩
  | 44 => ⟨S90000, .i1⟩
  | 45 => ⟨S_, .i32⟩
  | 46 => ⟨S90000, .i32⟩
  | 47 => ⟨S90000, .i32⟩
  | 48 => ⟨S90000, .i32⟩
  | 49 => ⟨S90000x1, .i32⟩
  | 50 => ⟨S90000, .f32⟩
  | 51 => ⟨S_, .i32⟩
  | 52 => ⟨S90000, .i32⟩
  | 53 => ⟨S90000, .i1⟩
  | 54 => ⟨S_, .i32⟩
  | 55 => ⟨S90000, .i32⟩
  | 56 => ⟨S90000, .i32⟩
  | 57 => ⟨S90000, .i32⟩
  | 58 => ⟨S90000x1, .i32⟩
  | 59 => ⟨S90000, .f32⟩
  | 60 => ⟨S90000, .f32⟩
  | 61 => ⟨S_, .f32⟩
  | 62 => ⟨S10240x10240, .f32⟩
  | 63 => ⟨S_, .i32⟩
  | 64 => ⟨S90000, .i32⟩
  | 65 => ⟨S90000, .i1⟩
  | 66 => ⟨S_, .i32⟩
  | 67 => ⟨S90000, .i32⟩
  | 68 => ⟨S90000, .i32⟩
  | 69 => ⟨S90000, .i32⟩
  | 70 => ⟨S_, .i32⟩
  | 71 => ⟨S90000, .i32⟩
  | 72 => ⟨S90000, .i1⟩
  | 73 => ⟨S_, .i32⟩
  | 74 => ⟨S90000, .i32⟩
  | 75 => ⟨S90000, .i32⟩
  | 76 => ⟨S90000, .i32⟩
  | 77 => ⟨S90000x1, .i32⟩
  | 78 => ⟨S90000x1, .i32⟩
  | 79 => ⟨S90000x2, .i32⟩
  | 80 => ⟨S10240x10240, .f32⟩
  | 81 => ⟨S10240x10240, .bf16⟩
  | 82 => ⟨S1x160000, .i32⟩
  | 83 => ⟨S160000, .i32⟩
  | 84 => ⟨S1x160000, .i32⟩
  | 85 => ⟨S160000, .i32⟩
  | 86 => ⟨S10000, .i32⟩
  | 87 => ⟨S170000, .i32⟩
  | 88 => ⟨S170000, .i32⟩
  | 89 => ⟨S_, .f32⟩
  | 90 => ⟨S10000, .f32⟩
  | 91 => ⟨S_, .i32⟩
  | 92 => ⟨S170000, .i32⟩
  | 93 => ⟨S170000, .i1⟩
  | 94 => ⟨S_, .i32⟩
  | 95 => ⟨S170000, .i32⟩
  | 96 => ⟨S170000, .i32⟩
  | 97 => ⟨S170000, .i32⟩
  | 98 => ⟨S170000x1, .i32⟩
  | 99 => ⟨S_, .f32⟩
  | 100 => ⟨S170000, .f32⟩
  | 101 => ⟨S10000, .f32⟩
  | 102 => ⟨S_, .f32⟩
  | 103 => ⟨S10000, .f32⟩
  | 104 => ⟨S10000, .f32⟩
  | 105 => ⟨S10000, .f32⟩
  | 106 => ⟨S_, .i32⟩
  | 107 => ⟨S170000, .i32⟩
  | 108 => ⟨S170000, .i1⟩
  | 109 => ⟨S_, .i32⟩
  | 110 => ⟨S170000, .i32⟩
  | 111 => ⟨S170000, .i32⟩
  | 112 => ⟨S170000, .i32⟩
  | 113 => ⟨S170000x1, .i32⟩
  | 114 => ⟨S170000, .f32⟩
  | 115 => ⟨S_, .i32⟩
  | 116 => ⟨S170000, .i32⟩
  | 117 => ⟨S170000, .i1⟩
  | 118 => ⟨S_, .i32⟩
  | 119 => ⟨S170000, .i32⟩
  | 120 => ⟨S170000, .i32⟩
  | 121 => ⟨S170000, .i32⟩
  | 122 => ⟨S170000x1, .i32⟩
  | 123 => ⟨S170000, .f32⟩
  | 124 => ⟨S170000, .f32⟩
  | 125 => ⟨S_, .f32⟩
  | 126 => ⟨S10240x10240, .f32⟩
  | 127 => ⟨S_, .i32⟩
  | _ => ⟨S10000x512, .f32⟩

abbrev hbmTy0_1 (i : Nat) : BufTy := match i % 128 with
  | 0 => ⟨S170000, .i32⟩
  | 1 => ⟨S170000, .i1⟩
  | 2 => ⟨S_, .i32⟩
  | 3 => ⟨S170000, .i32⟩
  | 4 => ⟨S170000, .i32⟩
  | 5 => ⟨S170000, .i32⟩
  | 6 => ⟨S_, .i32⟩
  | 7 => ⟨S170000, .i32⟩
  | 8 => ⟨S170000, .i1⟩
  | 9 => ⟨S_, .i32⟩
  | 10 => ⟨S170000, .i32⟩
  | 11 => ⟨S170000, .i32⟩
  | 12 => ⟨S170000, .i32⟩
  | 13 => ⟨S170000x1, .i32⟩
  | 14 => ⟨S170000x1, .i32⟩
  | 15 => ⟨S170000x2, .i32⟩
  | 16 => ⟨S10240x10240, .f32⟩
  | 17 => ⟨S10240x10240, .bf16⟩
  | 18 => ⟨S_, .i32⟩
  | 19 => ⟨S_, .f32⟩
  | 20 => ⟨S10240x512, .f32⟩
  | 21 => ⟨S10240x512, .bf16⟩
  | 22 => ⟨S512x1024, .bf16⟩
  | 23 => ⟨S10240x512, .bf16⟩
  | 24 => ⟨S10240x1024, .f32⟩
  | 25 => ⟨S1x1024, .f32⟩
  | 26 => ⟨S10240x1024, .f32⟩
  | 27 => ⟨S10240x1024, .f32⟩
  | 28 => ⟨S_, .f32⟩
  | 29 => ⟨S10240x1024, .f32⟩
  | 30 => ⟨S10240x1024, .i1⟩
  | 31 => ⟨S_, .f32⟩
  | 32 => ⟨S10240x1024, .f32⟩
  | 33 => ⟨S10240x1024, .i1⟩
  | 34 => ⟨S_, .f32⟩
  | 35 => ⟨S_, .f32⟩
  | 36 => ⟨S10240x1024, .f32⟩
  | 37 => ⟨S10240x1024, .f32⟩
  | 38 => ⟨S10240x1024, .f32⟩
  | 39 => ⟨S_, .f32⟩
  | 40 => ⟨S10240x1024, .f32⟩
  | 41 => ⟨S10240x1024, .f32⟩
  | 42 => ⟨S10240x1024, .f32⟩
  | 43 => ⟨S512x1024, .bf16⟩
  | 44 => ⟨S10240x512, .bf16⟩
  | 45 => ⟨S10240x1024, .f32⟩
  | 46 => ⟨S1x1024, .f32⟩
  | 47 => ⟨S10240x1024, .f32⟩
  | 48 => ⟨S10240x1024, .f32⟩
  | 49 => ⟨S_, .f32⟩
  | 50 => ⟨S10240x1024, .f32⟩
  | 51 => ⟨S10240x1024, .i1⟩
  | 52 => ⟨S_, .f32⟩
  | 53 => ⟨S10240x1024, .f32⟩
  | 54 => ⟨S10240x1024, .i1⟩
  | 55 => ⟨S_, .f32⟩
  | 56 => ⟨S_, .f32⟩
  | 57 => ⟨S10240x1024, .f32⟩
  | 58 => ⟨S10240x1024, .f32⟩
  | 59 => ⟨S10240x1024, .f32⟩
  | 60 => ⟨S_, .f32⟩
  | 61 => ⟨S10240x1024, .f32⟩
  | 62 => ⟨S10240x1024, .f32⟩
  | 63 => ⟨S10240x1024, .f32⟩
  | 64 => ⟨S_, .f32⟩
  | 65 => ⟨S1024, .f32⟩
  | 66 => ⟨S_, .f32⟩
  | 67 => ⟨S1024, .f32⟩
  | 68 => ⟨S1024, .f32⟩
  | 69 => ⟨S1024x1, .f32⟩
  | 70 => ⟨S1024x2, .f32⟩
  | 71 => ⟨S1024x2, .f32⟩
  | 72 => ⟨S1024x2, .f32⟩
  | 73 => ⟨S_, .f32⟩
  | 74 => ⟨S1024, .f32⟩
  | 75 => ⟨S1024x1, .f32⟩
  | 76 => ⟨S1024x2, .f32⟩
  | 77 => ⟨S1024x2, .f32⟩
  | 78 => ⟨S1024x1, .f32⟩
  | 79 => ⟨S1024, .f32⟩
  | 80 => ⟨S1x1024, .f32⟩
  | 81 => ⟨S10240x1024, .f32⟩
  | 82 => ⟨S10240x1024, .f32⟩
  | 83 => ⟨S1024x1, .f32⟩
  | 84 => ⟨S1024, .f32⟩
  | 85 => ⟨S1x1024, .f32⟩
  | 86 => ⟨S10240x1024, .f32⟩
  | 87 => ⟨S10240x1024, .f32⟩
  | 88 => ⟨S10240x1024, .f32⟩
  | 89 => ⟨S10240x1024, .bf16⟩
  | 90 => ⟨S1024x512, .bf16⟩
  | 91 => ⟨S10240x512, .bf16⟩
  | 92 => ⟨S10240x512, .f32⟩
  | 93 => ⟨S1x512, .f32⟩
  | 94 => ⟨S10240x512, .f32⟩
  | 95 => ⟨S10240x512, .f32⟩
  | 96 => ⟨S_, .f32⟩
  | 97 => ⟨S10240x512, .f32⟩
  | 98 => ⟨S10240x512, .i1⟩
  | 99 => ⟨S_, .f32⟩
  | 100 => ⟨S10240x512, .f32⟩
  | 101 => ⟨S10240x512, .i1⟩
  | 102 => ⟨S_, .f32⟩
  | 103 => ⟨S_, .f32⟩
  | 104 => ⟨S10240x512, .f32⟩
  | 105 => ⟨S10240x512, .f32⟩
  | 106 => ⟨S10240x512, .f32⟩
  | 107 => ⟨S_, .f32⟩
  | 108 => ⟨S10240x512, .f32⟩
  | 109 => ⟨S10240x512, .f32⟩
  | 110 => ⟨S10240x512, .f32⟩
  | 111 => ⟨S1024x512, .bf16⟩
  | 112 => ⟨S10240x512, .bf16⟩
  | 113 => ⟨S10240x512, .f32⟩
  | 114 => ⟨S1x512, .f32⟩
  | 115 => ⟨S10240x512, .f32⟩
  | 116 => ⟨S10240x512, .f32⟩
  | 117 => ⟨S_, .f32⟩
  | 118 => ⟨S10240x512, .f32⟩
  | 119 => ⟨S10240x512, .i1⟩
  | 120 => ⟨S_, .f32⟩
  | 121 => ⟨S10240x512, .f32⟩
  | 122 => ⟨S10240x512, .i1⟩
  | 123 => ⟨S_, .f32⟩
  | 124 => ⟨S_, .f32⟩
  | 125 => ⟨S10240x512, .f32⟩
  | 126 => ⟨S10240x512, .f32⟩
  | 127 => ⟨S10240x512, .f32⟩
  | _ => ⟨S10000x512, .f32⟩

abbrev hbmTy0_2 (i : Nat) : BufTy := match i % 128 with
  | 0 => ⟨S_, .f32⟩
  | 1 => ⟨S10240x512, .f32⟩
  | 2 => ⟨S10240x512, .f32⟩
  | 3 => ⟨S10240x512, .f32⟩
  | 4 => ⟨S_, .f32⟩
  | 5 => ⟨S512, .f32⟩
  | 6 => ⟨S_, .f32⟩
  | 7 => ⟨S512, .f32⟩
  | 8 => ⟨S512, .f32⟩
  | 9 => ⟨S512x1, .f32⟩
  | 10 => ⟨S512x2, .f32⟩
  | 11 => ⟨S512x2, .f32⟩
  | 12 => ⟨S512x2, .f32⟩
  | 13 => ⟨S_, .f32⟩
  | 14 => ⟨S512, .f32⟩
  | 15 => ⟨S512x1, .f32⟩
  | 16 => ⟨S512x2, .f32⟩
  | 17 => ⟨S512x2, .f32⟩
  | 18 => ⟨S512x1, .f32⟩
  | 19 => ⟨S512, .f32⟩
  | 20 => ⟨S1x512, .f32⟩
  | 21 => ⟨S10240x512, .f32⟩
  | 22 => ⟨S10240x512, .f32⟩
  | 23 => ⟨S512x1, .f32⟩
  | 24 => ⟨S512, .f32⟩
  | 25 => ⟨S1x512, .f32⟩
  | 26 => ⟨S10240x512, .f32⟩
  | 27 => ⟨S10240x512, .f32⟩
  | 28 => ⟨S10240x512, .f32⟩
  | 29 => ⟨S10240x512, .bf16⟩
  | 30 => ⟨S512x128, .bf16⟩
  | 31 => ⟨S10240x128, .bf16⟩
  | 32 => ⟨S10240x128, .f32⟩
  | 33 => ⟨S1x128, .f32⟩
  | 34 => ⟨S10240x128, .f32⟩
  | 35 => ⟨S10240x128, .f32⟩
  | 36 => ⟨S_, .f32⟩
  | 37 => ⟨S10240x128, .f32⟩
  | 38 => ⟨S10240x128, .i1⟩
  | 39 => ⟨S_, .f32⟩
  | 40 => ⟨S10240x128, .f32⟩
  | 41 => ⟨S10240x128, .i1⟩
  | 42 => ⟨S_, .f32⟩
  | 43 => ⟨S_, .f32⟩
  | 44 => ⟨S10240x128, .f32⟩
  | 45 => ⟨S10240x128, .f32⟩
  | 46 => ⟨S10240x128, .f32⟩
  | 47 => ⟨S_, .f32⟩
  | 48 => ⟨S10240x128, .f32⟩
  | 49 => ⟨S10240x128, .f32⟩
  | 50 => ⟨S10240x128, .f32⟩
  | 51 => ⟨S512x128, .bf16⟩
  | 52 => ⟨S10240x128, .bf16⟩
  | 53 => ⟨S10240x128, .f32⟩
  | 54 => ⟨S1x128, .f32⟩
  | 55 => ⟨S10240x128, .f32⟩
  | 56 => ⟨S10240x128, .f32⟩
  | 57 => ⟨S_, .f32⟩
  | 58 => ⟨S10240x128, .f32⟩
  | 59 => ⟨S10240x128, .i1⟩
  | 60 => ⟨S_, .f32⟩
  | 61 => ⟨S10240x128, .f32⟩
  | 62 => ⟨S10240x128, .i1⟩
  | 63 => ⟨S_, .f32⟩
  | 64 => ⟨S_, .f32⟩
  | 65 => ⟨S10240x128, .f32⟩
  | 66 => ⟨S10240x128, .f32⟩
  | 67 => ⟨S10240x128, .f32⟩
  | 68 => ⟨S_, .f32⟩
  | 69 => ⟨S10240x128, .f32⟩
  | 70 => ⟨S10240x128, .f32⟩
  | 71 => ⟨S10240x128, .f32⟩
  | 72 => ⟨S_, .f32⟩
  | 73 => ⟨S128, .f32⟩
  | 74 => ⟨S_, .f32⟩
  | 75 => ⟨S128, .f32⟩
  | 76 => ⟨S128, .f32⟩
  | 77 => ⟨S128x1, .f32⟩
  | 78 => ⟨S128x2, .f32⟩
  | 79 => ⟨S128x2, .f32⟩
  | 80 => ⟨S128x2, .f32⟩
  | 81 => ⟨S_, .f32⟩
  | 82 => ⟨S128, .f32⟩
  | 83 => ⟨S128x1, .f32⟩
  | 84 => ⟨S128x2, .f32⟩
  | 85 => ⟨S128x2, .f32⟩
  | 86 => ⟨S128x1, .f32⟩
  | 87 => ⟨S128, .f32⟩
  | 88 => ⟨S1x128, .f32⟩
  | 89 => ⟨S10240x128, .f32⟩
  | 90 => ⟨S10240x128, .f32⟩
  | 91 => ⟨S128x1, .f32⟩
  | 92 => ⟨S128, .f32⟩
  | 93 => ⟨S1x128, .f32⟩
  | 94 => ⟨S10240x128, .f32⟩
  | 95 => ⟨S10240x128, .f32⟩
  | 96 => ⟨S10240x128, .f32⟩
  | 97 => ⟨S10000x128, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S1024x512, .bf16⟩
  | .local _ .vmem, ⟨29, _⟩ => ⟨S512x512, .bf16⟩
  | .local _ .vmem, ⟨30, _⟩ => ⟨S512x512, .bf16⟩
  | .local _ .vmem, ⟨31, _⟩ => ⟨S512x512, .f32⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x1024, .bf16⟩
  | .local _ .vmem, ⟨40, _⟩ => ⟨S512x1024, .bf16⟩
  | .local _ .vmem, ⟨41, _⟩ => ⟨S1024x512, .bf16⟩
  | .local _ .vmem, ⟨42, _⟩ => ⟨S512x512, .bf16⟩
  | .local _ .vmem, ⟨43, _⟩ => ⟨S512x512, .bf16⟩
  | .local _ .vmem, ⟨44, _⟩ => ⟨S512x512, .f32⟩
  | .local _ .vmem, ⟨45, _⟩ => ⟨S512x512, .bf16⟩
  | .local _ .vmem, ⟨46, _⟩ => ⟨S512x512, .bf16⟩
  | .local _ .vmem, ⟨47, _⟩ => ⟨S512x512, .bf16⟩
  | .local _ .vmem, ⟨48, _⟩ => ⟨S512x512, .bf16⟩
  | .local _ .vmem, ⟨49, _⟩ => ⟨S512x512, .f32⟩
  | .local _ .vmem, ⟨50, _⟩ => ⟨S512x512, .f32⟩
  | .local _ .vmem, ⟨51, _⟩ => ⟨S512x512, .f32⟩
  | .local _ .vmem, ⟨52, _⟩ => ⟨S512x512, .bf16⟩
  | .local _ .vmem, ⟨53, _⟩ => ⟨S512x512, .bf16⟩
  | .local _ .vmem, ⟨54, _⟩ => ⟨S512x128, .bf16⟩
  | .local _ .vmem, ⟨55, _⟩ => ⟨S512x128, .bf16⟩
  | .local _ .vmem, ⟨56, _⟩ => ⟨S512x128, .bf16⟩
  | .local _ .vmem, ⟨57, _⟩ => ⟨S512x128, .f32⟩
  | .local _ .vmem, ⟨58, _⟩ => ⟨S512x512, .bf16⟩
  | .local _ .vmem, ⟨59, _⟩ => ⟨S512x512, .bf16⟩
  | .local _ .vmem, ⟨60, _⟩ => ⟨S512x128, .bf16⟩
  | .local _ .vmem, ⟨61, _⟩ => ⟨S512x128, .bf16⟩
  | .local _ .vmem, ⟨62, _⟩ => ⟨S512x128, .f32⟩
  | .local _ .vmem, ⟨63, _⟩ => ⟨S512x128, .f32⟩
  | .local _ .vmem, ⟨64, _⟩ => ⟨S512x128, .f32⟩
  | .local _ .vmem, ⟨65, _⟩ => ⟨S512x512, .bf16⟩
  | .local _ .vmem, ⟨66, _⟩ => ⟨S512x512, .bf16⟩
  | .local _ .vmem, ⟨67, _⟩ => ⟨S512x128, .bf16⟩
  | .local _ .vmem, ⟨68, _⟩ => ⟨S512x128, .bf16⟩
  | .local _ .vmem, ⟨69, _⟩ => ⟨S512x128, .bf16⟩
  | .local _ .vmem, ⟨70, _⟩ => ⟨S512x128, .f32⟩
  | .local _ .vmem, ⟨71, _⟩ => ⟨S512x512, .bf16⟩
  | .local _ .vmem, ⟨72, _⟩ => ⟨S512x512, .bf16⟩
  | .local _ .vmem, ⟨73, _⟩ => ⟨S512x128, .bf16⟩
  | .local _ .vmem, ⟨74, _⟩ => ⟨S512x128, .bf16⟩
  | .local _ .vmem, ⟨75, _⟩ => ⟨S512x128, .f32⟩
  | .local _ .vmem, ⟨76, _⟩ => ⟨S512x128, .f32⟩
  | .local _ .vmem, ⟨77, _⟩ => ⟨S512x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_10 : Ref sig .tc := ⟨.hbm, 70, rfl⟩
abbrev main_v40 : Ref sig .tc := ⟨.hbm, 71, rfl⟩
abbrev main_v41 : Ref sig .tc := ⟨.hbm, 72, rfl⟩
abbrev main_c_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_c_13 : Ref sig .tc := ⟨.hbm, 91, rfl⟩
abbrev main_v58 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_17 : Ref sig .tc := ⟨.hbm, 106, rfl⟩
abbrev main_v69 : Ref sig .tc := ⟨.hbm, 107, rfl⟩
abbrev main_v70 : Ref sig .tc := ⟨.hbm, 108, rfl⟩
abbrev main_c_18 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_19 : Ref sig .tc := ⟨.hbm, 115, rfl⟩
abbrev main_v76 : Ref sig .tc := ⟨.hbm, 116, rfl⟩
abbrev main_v77 : Ref sig .tc := ⟨.hbm, 117, rfl⟩
abbrev main_c_20 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_21 : Ref sig .tc := ⟨.hbm, 125, rfl⟩
abbrev main_v84 : Ref sig .tc := ⟨.hbm, 126, rfl⟩
abbrev main_c_22 : Ref sig .tc := ⟨.hbm, 127, rfl⟩
abbrev main_v85 : Ref sig .tc := ⟨.hbm, 128, rfl⟩
abbrev main_v86 : Ref sig .tc := ⟨.hbm, 129, rfl⟩
abbrev main_c_23 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_24 : Ref sig .tc := ⟨.hbm, 134, rfl⟩
abbrev main_v90 : Ref sig .tc := ⟨.hbm, 135, rfl⟩
abbrev main_v91 : Ref sig .tc := ⟨.hbm, 136, rfl⟩
abbrev main_c_25 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_26 : Ref sig .tc := ⟨.hbm, 146, rfl⟩
abbrev main_call0_v0 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_cst_0 : Ref sig .tc := ⟨.hbm, 159, rfl⟩
abbrev main_call1_v2 : Ref sig .tc := ⟨.hbm, 160, rfl⟩
abbrev main_call1_v3 : Ref sig .tc := ⟨.hbm, 161, rfl⟩
abbrev main_call1_cst_1 : Ref sig .tc := ⟨.hbm, 162, rfl⟩
abbrev main_call1_call0_v0 : Ref sig .tc := ⟨.hbm, 163, rfl⟩
abbrev main_call1_call0_v1 : Ref sig .tc := ⟨.hbm, 164, rfl⟩
abbrev main_call1_v4 : Ref sig .tc := ⟨.hbm, 165, rfl⟩
abbrev main_call1_v5 : Ref sig .tc := ⟨.hbm, 166, rfl⟩
abbrev main_call1_cst_2 : Ref sig .tc := ⟨.hbm, 167, rfl⟩
abbrev main_call1_v6 : Ref sig .tc := ⟨.hbm, 168, rfl⟩
abbrev main_call1_v7 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_cst_0 : Ref sig .tc := ⟨.hbm, 180, rfl⟩
abbrev main_call2_v2 : Ref sig .tc := ⟨.hbm, 181, rfl⟩
abbrev main_call2_v3 : Ref sig .tc := ⟨.hbm, 182, rfl⟩
abbrev main_call2_cst_1 : Ref sig .tc := ⟨.hbm, 183, rfl⟩
abbrev main_call2_call0_v0 : Ref sig .tc := ⟨.hbm, 184, rfl⟩
abbrev main_call2_call0_v1 : Ref sig .tc := ⟨.hbm, 185, rfl⟩
abbrev main_call2_v4 : Ref sig .tc := ⟨.hbm, 186, rfl⟩
abbrev main_call2_v5 : Ref sig .tc := ⟨.hbm, 187, rfl⟩
abbrev main_call2_cst_2 : Ref sig .tc := ⟨.hbm, 188, rfl⟩
abbrev main_call2_v6 : Ref sig .tc := ⟨.hbm, 189, rfl⟩
abbrev main_call2_v7 : Ref sig .tc := ⟨.hbm, 190, rfl⟩
abbrev main_v115 : Ref sig .tc := ⟨.hbm, 191, rfl⟩
abbrev main_cst_27 : Ref sig .tc := ⟨.hbm, 192, rfl⟩
abbrev main_v116 : Ref sig .tc := ⟨.hbm, 193, rfl⟩
abbrev main_cst_28 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_cst_29 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_call3_cst : Ref sig .tc := ⟨.hbm, 224, rfl⟩
abbrev main_call3_v0 : Ref sig .tc := ⟨.hbm, 225, rfl⟩
abbrev main_call3_v1 : Ref sig .tc := ⟨.hbm, 226, rfl⟩
abbrev main_call3_cst_0 : Ref sig .tc := ⟨.hbm, 227, rfl⟩
abbrev main_call3_v2 : Ref sig .tc := ⟨.hbm, 228, rfl⟩
abbrev main_call3_v3 : Ref sig .tc := ⟨.hbm, 229, rfl⟩
abbrev main_call3_cst_1 : Ref sig .tc := ⟨.hbm, 230, rfl⟩
abbrev main_call3_call0_v0 : Ref sig .tc := ⟨.hbm, 231, rfl⟩
abbrev main_call3_call0_v1 : Ref sig .tc := ⟨.hbm, 232, rfl⟩
abbrev main_call3_v4 : Ref sig .tc := ⟨.hbm, 233, rfl⟩
abbrev main_call3_v5 : Ref sig .tc := ⟨.hbm, 234, rfl⟩
abbrev main_call3_cst_2 : Ref sig .tc := ⟨.hbm, 235, rfl⟩
abbrev main_call3_v6 : Ref sig .tc := ⟨.hbm, 236, rfl⟩
abbrev main_call3_v7 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_call4_cst : Ref sig .tc := ⟨.hbm, 245, rfl⟩
abbrev main_call4_v0 : Ref sig .tc := ⟨.hbm, 246, rfl⟩
abbrev main_call4_v1 : Ref sig .tc := ⟨.hbm, 247, rfl⟩
abbrev main_call4_cst_0 : Ref sig .tc := ⟨.hbm, 248, rfl⟩
abbrev main_call4_v2 : Ref sig .tc := ⟨.hbm, 249, rfl⟩
abbrev main_call4_v3 : Ref sig .tc := ⟨.hbm, 250, rfl⟩
abbrev main_call4_cst_1 : Ref sig .tc := ⟨.hbm, 251, rfl⟩
abbrev main_call4_call0_v0 : Ref sig .tc := ⟨.hbm, 252, rfl⟩
abbrev main_call4_call0_v1 : Ref sig .tc := ⟨.hbm, 253, rfl⟩
abbrev main_call4_v4 : Ref sig .tc := ⟨.hbm, 254, rfl⟩
abbrev main_call4_v5 : Ref sig .tc := ⟨.hbm, 255, rfl⟩
abbrev main_call4_cst_2 : Ref sig .tc := ⟨.hbm, 256, rfl⟩
abbrev main_call4_v6 : Ref sig .tc := ⟨.hbm, 257, rfl⟩
abbrev main_call4_v7 : Ref sig .tc := ⟨.hbm, 258, rfl⟩
abbrev main_v152 : Ref sig .tc := ⟨.hbm, 259, rfl⟩
abbrev main_cst_30 : Ref sig .tc := ⟨.hbm, 260, rfl⟩
abbrev main_v153 : Ref sig .tc := ⟨.hbm, 261, rfl⟩
abbrev main_cst_31 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_cst_32 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_call5_cst : Ref sig .tc := ⟨.hbm, 292, rfl⟩
abbrev main_call5_v0 : Ref sig .tc := ⟨.hbm, 293, rfl⟩
abbrev main_call5_v1 : Ref sig .tc := ⟨.hbm, 294, rfl⟩
abbrev main_call5_cst_0 : Ref sig .tc := ⟨.hbm, 295, rfl⟩
abbrev main_call5_v2 : Ref sig .tc := ⟨.hbm, 296, rfl⟩
abbrev main_call5_v3 : Ref sig .tc := ⟨.hbm, 297, rfl⟩
abbrev main_call5_cst_1 : Ref sig .tc := ⟨.hbm, 298, rfl⟩
abbrev main_call5_call0_v0 : Ref sig .tc := ⟨.hbm, 299, rfl⟩
abbrev main_call5_call0_v1 : Ref sig .tc := ⟨.hbm, 300, rfl⟩
abbrev main_call5_v4 : Ref sig .tc := ⟨.hbm, 301, rfl⟩
abbrev main_call5_v5 : Ref sig .tc := ⟨.hbm, 302, rfl⟩
abbrev main_call5_cst_2 : Ref sig .tc := ⟨.hbm, 303, rfl⟩
abbrev main_call5_v6 : Ref sig .tc := ⟨.hbm, 304, rfl⟩
abbrev main_call5_v7 : Ref sig .tc := ⟨.hbm, 305, rfl⟩
abbrev main_v182 : Ref sig .tc := ⟨.hbm, 306, rfl⟩
abbrev main_v183 : Ref sig .tc := ⟨.hbm, 307, rfl⟩
abbrev main_v184 : Ref sig .tc := ⟨.hbm, 308, rfl⟩
abbrev main_v185 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_call6_cst : Ref sig .tc := ⟨.hbm, 313, rfl⟩
abbrev main_call6_v0 : Ref sig .tc := ⟨.hbm, 314, rfl⟩
abbrev main_call6_v1 : Ref sig .tc := ⟨.hbm, 315, rfl⟩
abbrev main_call6_cst_0 : Ref sig .tc := ⟨.hbm, 316, rfl⟩
abbrev main_call6_v2 : Ref sig .tc := ⟨.hbm, 317, rfl⟩
abbrev main_call6_v3 : Ref sig .tc := ⟨.hbm, 318, rfl⟩
abbrev main_call6_cst_1 : Ref sig .tc := ⟨.hbm, 319, rfl⟩
abbrev main_call6_call0_v0 : Ref sig .tc := ⟨.hbm, 320, rfl⟩
abbrev main_call6_call0_v1 : Ref sig .tc := ⟨.hbm, 321, rfl⟩
abbrev main_call6_v4 : Ref sig .tc := ⟨.hbm, 322, rfl⟩
abbrev main_call6_v5 : Ref sig .tc := ⟨.hbm, 323, rfl⟩
abbrev main_call6_cst_2 : Ref sig .tc := ⟨.hbm, 324, rfl⟩
abbrev main_call6_v6 : Ref sig .tc := ⟨.hbm, 325, rfl⟩
abbrev main_call6_v7 : Ref sig .tc := ⟨.hbm, 326, rfl⟩
abbrev main_v189 : Ref sig .tc := ⟨.hbm, 327, rfl⟩
abbrev main_cst_33 : Ref sig .tc := ⟨.hbm, 328, rfl⟩
abbrev main_v190 : Ref sig .tc := ⟨.hbm, 329, rfl⟩
abbrev main_cst_34 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_cst_35 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_v203 : Ref sig .tc := ⟨.hbm, 344, rfl⟩
abbrev main_v204 : Ref sig .tc := ⟨.hbm, 345, rfl⟩
abbrev main_v205 : Ref sig .tc := ⟨.hbm, 346, rfl⟩
abbrev main_v206 : Ref sig .tc := ⟨.hbm, 347, rfl⟩
abbrev main_v207 : Ref sig .tc := ⟨.hbm, 348, rfl⟩
abbrev main_v208 : Ref sig .tc := ⟨.hbm, 349, rfl⟩
abbrev main_v209 : Ref sig .tc := ⟨.hbm, 350, rfl⟩
abbrev main_v210 : Ref sig .tc := ⟨.hbm, 351, rfl⟩
abbrev main_v211 : Ref sig .tc := ⟨.hbm, 352, rfl⟩
abbrev main_v212 : Ref sig .tc := ⟨.hbm, 353, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc6_scratch0 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc7_scratch0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc8_scratch0 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg1_1 : Ref sig .tc := ⟨.vmem, 61, rfl⟩
abbrev cc9_stg2_0 : Ref sig .tc := ⟨.vmem, 62, rfl⟩
abbrev cc9_stg2_1 : Ref sig .tc := ⟨.vmem, 63, rfl⟩
abbrev cc9_scratch0 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc10_scratch0 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg1_1 : Ref sig .tc := ⟨.vmem, 74, rfl⟩
abbrev cc11_stg2_0 : Ref sig .tc := ⟨.vmem, 75, rfl⟩
abbrev cc11_stg2_1 : Ref sig .tc := ⟨.vmem, 76, rfl⟩
abbrev cc11_scratch0 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem1_1 : DmaSem sig := 52
abbrev cc9_sem2_0 : DmaSem sig := 53
abbrev cc9_sem2_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem2_1 : DmaSem sig := 59
abbrev cc11_sem0_0 : DmaSem sig := 60
abbrev cc11_sem0_1 : DmaSem sig := 61
abbrev cc11_sem1_0 : DmaSem sig := 62
abbrev cc11_sem1_1 : DmaSem sig := 63
abbrev cc11_sem2_0 : DmaSem sig := 64
abbrev cc11_sem2_1 : DmaSem sig := 65

abbrev nD : Nat := 1
abbrev τ : Topo := Topo.v7x

variable {F : FTy → Type} [FloatOps F]

abbrev grid0 : Pipeline.Grid := ⟨3, ![20, 1, 20], ![false, false, false]⟩

def k0_cond2 (i : grid0.Coords) : BitVec 1 :=
  let arg2 : BitVec 32 := BitVec.ofNat 32 (i 2).val
  let c19_i32 : BitVec 32 := 19#32
  let v13 : BitVec 1 := Scalar.cmpi .eq arg2 c19_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![20, 1, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![20, 1, 20], ![false, false, false]⟩

def k2_cond2 (i : grid2.Coords) : BitVec 1 :=
  let arg2 : BitVec 32 := BitVec.ofNat 32 (i 2).val
  let c19_i32 : BitVec 32 := 19#32
  let v13 : BitVec 1 := Scalar.cmpi .eq arg2 c19_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![20, 1, 1], ![false, false, false]⟩

def k3_cond2 (i : grid3.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![20, 1, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![20, 1, 20], ![false, false, false]⟩

def k5_cond2 (i : grid5.Coords) : BitVec 1 :=
  let arg2 : BitVec 32 := BitVec.ofNat 32 (i 2).val
  let c19_i32 : BitVec 32 := 19#32
  let v13 : BitVec 1 := Scalar.cmpi .eq arg2 c19_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![20, 1, 1], ![false, false, false]⟩

def k6_cond2 (i : grid6.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![20, 1, 20], ![false, false, false]⟩

def k7_cond2 (i : grid7.Coords) : BitVec 1 :=
  let arg2 : BitVec 32 := BitVec.ofNat 32 (i 2).val
  let c19_i32 : BitVec 32 := 19#32
  let v13 : BitVec 1 := Scalar.cmpi .eq arg2 c19_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![20, 1, 1], ![false, false, false]⟩

def k8_cond2 (i : grid8.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S512x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S512x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S512x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![20, 1, 20], ![false, false, false]⟩

def k9_cond2 (i : grid9.Coords) : BitVec 1 :=
  let arg2 : BitVec 32 := BitVec.ofNat 32 (i 2).val
  let c19_i32 : BitVec 32 := 19#32
  let v13 : BitVec 1 := Scalar.cmpi .eq arg2 c19_i32
  let v14 : BitVec 32 := Scalar.extui v13
  let c0_i32_8 : BitVec 32 := 0#32
  let v15 : BitVec 1 := Scalar.cmpi .ne v14 c0_i32_8
  v15

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S512x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S512x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![20, 1, 1], ![false, false, false]⟩

def k10_cond2 (i : grid10.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S512x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S512x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S512x128 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![20, 1, 20], ![false, false, false]⟩

def k11_cond2 (i : grid11.Coords) : BitVec 1 :=
  let arg2 : BitVec 32 := BitVec.ofNat 32 (i 2).val
  let c19_i32 : BitVec 32 := 19#32
  let v13 : BitVec 1 := Scalar.cmpi .eq arg2 c19_i32
  let v14 : BitVec 32 := Scalar.extui v13
  let c0_i32_8 : BitVec 32 := 0#32
  let v15 : BitVec 1 := Scalar.cmpi .ne v14 c0_i32_8
  v15

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S512x512 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S512x128 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S512x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  concatenates_S80000_S10000_S90000_d0 : Shape.Concatenates [S80000, S10000] S90000 0
  bcast_S_S10000 : S_.BroadcastsInDim S10000 (![] : Fin 0 → Fin S10000.rank)
  bcast_S_S90000 : S_.BroadcastsInDim S90000 (![] : Fin 0 → Fin S90000.rank)
  bcast_S90000_S90000x1_0 : S90000.BroadcastsInDim S90000x1 (![0] : Fin 1 → Fin S90000x1.rank)
  bcast_S_S10240x10240 : S_.BroadcastsInDim S10240x10240 (![] : Fin 0 → Fin S10240x10240.rank)
  concatenates_S90000x1_S90000x1_S90000x2_d1 : Shape.Concatenates [S90000x1, S90000x1] S90000x2 1
  bitsLt_bf16_f32 : FTy.bits .bf16 < FTy.bits .f32
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S170000_S170000x1_0 : S170000.BroadcastsInDim S170000x1 (![0] : Fin 1 → Fin S170000x1.rank)
  concatenates_S170000x1_S170000x1_S170000x2_d1 : Shape.Concatenates [S170000x1, S170000x1] S170000x2 1
  pads_S10000x512_S10240x512_02400_000 : S10000x512.Pads (![0, 0] : Fin 2 → Nat) ![240, 0] ![0, 0] S10240x512
  h_S_ : 0 < S_.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bcast_S1024_S1x1024_1 : S1024.BroadcastsInDim S1x1024 (![1] : Fin 1 → Fin S1x1024.rank)
  bcast_S1x1024_S10240x1024_0_1 : S1x1024.BroadcastsInDim S10240x1024 (![0, 1] : Fin 2 → Fin S10240x1024.rank)
  bcast_S_S10240x1024 : S_.BroadcastsInDim S10240x1024 (![] : Fin 0 → Fin S10240x1024.rank)
  reducesTo_S1024x2_S1024_d1 : S1024x2.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  slices_S1024x2_S1024x1_0_0 : S1024x2.Slices ![0, 0] S1024x1
  shapeCasts_S1024x1_S1024 : S1024x1.ShapeCasts S1024
  slices_S1024x2_S1024x1_0_1 : S1024x2.Slices ![0, 1] S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bcast_S512_S1x512_1 : S512.BroadcastsInDim S1x512 (![1] : Fin 1 → Fin S1x512.rank)
  bcast_S1x512_S10240x512_0_1 : S1x512.BroadcastsInDim S10240x512 (![0, 1] : Fin 2 → Fin S10240x512.rank)
  bcast_S_S10240x512 : S_.BroadcastsInDim S10240x512 (![] : Fin 0 → Fin S10240x512.rank)
  reducesTo_S512x2_S512_d1 : S512x2.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  slices_S512x2_S512x1_0_0 : S512x2.Slices ![0, 0] S512x1
  shapeCasts_S512x1_S512 : S512x1.ShapeCasts S512
  slices_S512x2_S512x1_0_1 : S512x2.Slices ![0, 1] S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  packedbf16_S512x128_S512x128_0_0 : (Rect.unit (s := S512x128) ![0, 0] S512x128.size inb_S512x128_S512x128_0_0).PackedRows (EltTy.packing .bf16)
  bcast_S128_S1x128_1 : S128.BroadcastsInDim S1x128 (![1] : Fin 1 → Fin S1x128.rank)
  bcast_S1x128_S10240x128_0_1 : S1x128.BroadcastsInDim S10240x128 (![0, 1] : Fin 2 → Fin S10240x128.rank)
  bcast_S_S10240x128 : S_.BroadcastsInDim S10240x128 (![] : Fin 0 → Fin S10240x128.rank)
  reducesTo_S128x2_S128_d1 : S128x2.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  slices_S128x2_S128x1_0_0 : S128x2.Slices ![0, 0] S128x1
  shapeCasts_S128x1_S128 : S128x1.ShapeCasts S128
  slices_S128x2_S128x1_0_1 : S128x2.Slices ![0, 1] S128x1
  slices_S10240x128_S10000x128_0_0 : S10240x128.Slices ![0, 0] S10000x128
  scatter_S10000_S90000x1_S90000_n_0_0_1_wf : ScatterDims.WF S10000 S90000x1 S90000 [] [0] [0] 1
  gather_S10000_S90000x1_S90000_n_0_n_n_0_1_1_wf : GatherDims.WF S10000 S90000x1 S90000 [] [0] [] [0] [] 1 ![1]
  scatter_S10240x10240_S90000x2_S90000_n_01_01_1_wf : ScatterDims.WF S10240x10240 S90000x2 S90000 [] [0, 1] [0, 1] 1
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  dot_S512x512_S512x512_S512x512_1_0_0_1_n_n_wf : DotDims.WF S512x512 S512x512 S512x512 [1] [0] [0] [1] [] []
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S10240x10240.size a
  hwx0_0 : ∀ i : grid0.Coords, EltTy.bits .bf16 = 32 ∨ (Rect.block (s := S10240x10240) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S10240x512.size a
  hwx0_1 : ∀ i : grid0.Coords, EltTy.bits .bf16 = 32 ∨ (Rect.block (s := S10240x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S10240x512.size a
  hwx0_2 : ∀ i : grid0.Coords, EltTy.bits .bf16 = 32 ∨ (Rect.block (s := S10240x512) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S10240x512.size a
  hwx1_0 : ∀ i : grid1.Coords, EltTy.bits .bf16 = 32 ∨ (Rect.block (s := S10240x512) S512x512.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .bf16 = 32 ∨ (Rect.block (s := S512x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S10240x1024.size a
  hwx1_2 : ∀ i : grid1.Coords, EltTy.bits .f32 = 32 ∨ (Rect.block (s := S10240x1024) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S10240x10240.size a
  hwx2_0 : ∀ i : grid2.Coords, EltTy.bits .bf16 = 32 ∨ (Rect.block (s := S10240x10240) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S10240x512.size a
  hwx2_1 : ∀ i : grid2.Coords, EltTy.bits .bf16 = 32 ∨ (Rect.block (s := S10240x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S10240x512.size a
  hwx2_2 : ∀ i : grid2.Coords, EltTy.bits .bf16 = 32 ∨ (Rect.block (s := S10240x512) S512x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S10240x512.size a
  hwx3_0 : ∀ i : grid3.Coords, EltTy.bits .bf16 = 32 ∨ (Rect.block (s := S10240x512) S512x512.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S512x1024.size a
  hwx3_1 : ∀ i : grid3.Coords, EltTy.bits .bf16 = 32 ∨ (Rect.block (s := S512x1024) S512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S10240x1024.size a
  hwx3_2 : ∀ i : grid3.Coords, EltTy.bits .f32 = 32 ∨ (Rect.block (s := S10240x1024) S512x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S10240x1024.size a
  hwx4_0 : ∀ i : grid4.Coords, EltTy.bits .bf16 = 32 ∨ (Rect.block (s := S10240x1024) S512x1024.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S1024x512.size a
  hwx4_1 : ∀ i : grid4.Coords, EltTy.bits .bf16 = 32 ∨ (Rect.block (s := S1024x512) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S10240x512.size a
  hwx4_2 : ∀ i : grid4.Coords, EltTy.bits .bf16 = 32 ∨ (Rect.block (s := S10240x512) S512x512.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x512.size a ≤ S10240x10240.size a
  hwx5_0 : ∀ i : grid5.Coords, EltTy.bits .bf16 = 32 ∨ (Rect.block (s := S10240x10240) S512x512.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S10240x512.size a
  hwx5_1 : ∀ i : grid5.Coords, EltTy.bits .bf16 = 32 ∨ (Rect.block (s := S10240x512) S512x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S10240x512.size a
  hwx5_2 : ∀ i : grid5.Coords, EltTy.bits .f32 = 32 ∨ (Rect.block (s := S10240x512) S512x512.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x1024.size a ≤ S10240x1024.size a
  hwx6_0 : ∀ i : grid6.Coords, EltTy.bits .bf16 = 32 ∨ (Rect.block (s := S10240x1024) S512x1024.size (cc6_transform_0 i) (hinb6_0 i)).WholeWords (EltTy.packing .bf16)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S1024x512.size a
  hwx6_1 : ∀ i : grid6.Coords, EltTy.bits .bf16 = 32 ∨ (Rect.block (s := S1024x512) S1024x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S10240x512.size a
  hwx6_2 : ∀ i : grid6.Coords, EltTy.bits .bf16 = 32 ∨ (Rect.block (s := S10240x512) S512x512.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S10240x10240.size a
  hwx7_0 : ∀ i : grid7.Coords, EltTy.bits .bf16 = 32 ∨ (Rect.block (s := S10240x10240) S512x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S10240x512.size a
  hwx7_1 : ∀ i : grid7.Coords, EltTy.bits .bf16 = 32 ∨ (Rect.block (s := S10240x512) S512x512.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x512.size a ≤ S10240x512.size a
  hwx7_2 : ∀ i : grid7.Coords, EltTy.bits .f32 = 32 ∨ (Rect.block (s := S10240x512) S512x512.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x512.size a ≤ S10240x512.size a
  hwx8_0 : ∀ i : grid8.Coords, EltTy.bits .bf16 = 32 ∨ (Rect.block (s := S10240x512) S512x512.size (cc8_transform_0 i) (hinb8_0 i)).WholeWords (EltTy.packing .bf16)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S512x128.size a ≤ S512x128.size a
  hwx8_1 : ∀ i : grid8.Coords, EltTy.bits .bf16 = 32 ∨ (Rect.block (s := S512x128) S512x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x128.size a ≤ S10240x128.size a
  hwx8_2 : ∀ i : grid8.Coords, EltTy.bits .bf16 = 32 ∨ (Rect.block (s := S10240x128) S512x128.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x512.size a ≤ S10240x10240.size a
  hwx9_0 : ∀ i : grid9.Coords, EltTy.bits .bf16 = 32 ∨ (Rect.block (s := S10240x10240) S512x512.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S512x128.size a ≤ S10240x128.size a
  hwx9_1 : ∀ i : grid9.Coords, EltTy.bits .bf16 = 32 ∨ (Rect.block (s := S10240x128) S512x128.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S512x128.size a ≤ S10240x128.size a
  hwx9_2 : ∀ i : grid9.Coords, EltTy.bits .f32 = 32 ∨ (Rect.block (s := S10240x128) S512x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x512.size a ≤ S10240x512.size a
  hwx10_0 : ∀ i : grid10.Coords, EltTy.bits .bf16 = 32 ∨ (Rect.block (s := S10240x512) S512x512.size (cc10_transform_0 i) (hinb10_0 i)).WholeWords (EltTy.packing .bf16)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S512x128.size a ≤ S512x128.size a
  hwx10_1 : ∀ i : grid10.Coords, EltTy.bits .bf16 = 32 ∨ (Rect.block (s := S512x128) S512x128.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S512x128.size a ≤ S10240x128.size a
  hwx10_2 : ∀ i : grid10.Coords, EltTy.bits .bf16 = 32 ∨ (Rect.block (s := S10240x128) S512x128.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x512.size a ≤ S10240x10240.size a
  hwx11_0 : ∀ i : grid11.Coords, EltTy.bits .bf16 = 32 ∨ (Rect.block (s := S10240x10240) S512x512.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S512x128.size a ≤ S10240x128.size a
  hwx11_1 : ∀ i : grid11.Coords, EltTy.bits .bf16 = 32 ∨ (Rect.block (s := S10240x128) S512x128.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S512x128.size a ≤ S10240x128.size a
  hwx11_2 : ∀ i : grid11.Coords, EltTy.bits .f32 = 32 ∨ (Rect.block (s := S10240x128) S512x128.size (cc11_transform_2 i) (hinb11_2 i)).WholeWords (EltTy.packing .f32)

variable [Facts₀]

def scatter_S10000_S90000x1_S90000_n_0_0_1 : ScatterDims S10000 S90000x1 S90000 where
  updateWindowDims := []
  insertedWindowDims := [0]
  scatterDimsToOperandDims := [0]
  indexVectorDim := 1
  wf := scatter_S10000_S90000x1_S90000_n_0_0_1_wf
def gather_S10000_S90000x1_S90000_n_0_n_n_0_1_1 : GatherDims S10000 S90000x1 S90000 where
  offsetDims := []
  collapsedSliceDims := [0]
  operandBatchingDims := []
  startIndicesBatchingDims := []
  startIndexMap := [0]
  indexVectorDim := 1
  sliceSizes := ![1]
  wf := gather_S10000_S90000x1_S90000_n_0_n_n_0_1_1_wf
def scatter_S10240x10240_S90000x2_S90000_n_01_01_1 : ScatterDims S10240x10240 S90000x2 S90000 where
  updateWindowDims := []
  insertedWindowDims := [0, 1]
  scatterDimsToOperandDims := [0, 1]
  indexVectorDim := 1
  wf := scatter_S10240x10240_S90000x2_S90000_n_01_01_1_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v49) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v103) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v103) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v102) S512x1024.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v104) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v99) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v101) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v110) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v110) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v109) S512x1024.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v111) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v138) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v139) S1024x512.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v140) S512x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v49) S512x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v140) S512x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v141) S512x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v138) S512x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v146) S1024x512.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v147) S512x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v99) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v147) S512x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v148) S512x512.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v175) S512x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v176) S512x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v177) S512x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v49) S512x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v177) S512x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v178) S512x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v175) S512x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v183) S512x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v184) S512x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v99) S512x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v184) S512x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v185) S512x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

class Facts : Prop extends Facts₀ where

variable [Facts]
-- ==== ReferenceIdeal.lean ====
abbrev S10000x512 : Shape := ⟨2, ![10000, 512]⟩
abbrev S2x80000 : Shape := ⟨2, ![2, 80000]⟩
abbrev S2x160000 : Shape := ⟨2, ![2, 160000]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S1024x2 : Shape := ⟨2, ![1024, 2]⟩
abbrev S512x2 : Shape := ⟨2, ![512, 2]⟩
abbrev S128x2 : Shape := ⟨2, ![128, 2]⟩
abbrev S1x80000 : Shape := ⟨2, ![1, 80000]⟩
abbrev S80000 : Shape := ⟨1, ![80000]⟩
abbrev S1x160000 : Shape := ⟨2, ![1, 160000]⟩
abbrev S160000 : Shape := ⟨1, ![160000]⟩
abbrev S10000x1024 : Shape := ⟨2, ![10000, 1024]⟩
abbrev S10000 : Shape := ⟨1, ![10000]⟩
abbrev S90000 : Shape := ⟨1, ![90000]⟩
abbrev S_ : Shape := ⟨0, ![]⟩
abbrev S90000x1 : Shape := ⟨2, ![90000, 1]⟩
abbrev S90000x1024 : Shape := ⟨2, ![90000, 1024]⟩
abbrev S1x1024 : Shape := ⟨2, ![1, 1024]⟩
abbrev S170000 : Shape := ⟨1, ![170000]⟩
abbrev S170000x1 : Shape := ⟨2, ![170000, 1]⟩
abbrev S170000x1024 : Shape := ⟨2, ![170000, 1024]⟩
abbrev S1024x1 : Shape := ⟨2, ![1024, 1]⟩
abbrev S90000x512 : Shape := ⟨2, ![90000, 512]⟩
abbrev S1x512 : Shape := ⟨2, ![1, 512]⟩
abbrev S170000x512 : Shape := ⟨2, ![170000, 512]⟩
abbrev S512x1 : Shape := ⟨2, ![512, 1]⟩
abbrev S10000x128 : Shape := ⟨2, ![10000, 128]⟩
abbrev S90000x128 : Shape := ⟨2, ![90000, 128]⟩
abbrev S1x128 : Shape := ⟨2, ![1, 128]⟩
abbrev S170000x128 : Shape := ⟨2, ![170000, 128]⟩
abbrev S128x1 : Shape := ⟨2, ![128, 1]⟩

abbrev nBuf : Space → Nat
  | .hbm => 545
  | .vmem => 0
  | .smem => 0
  | _ => 0

abbrev hbmTy0_0 (i : Nat) : BufTy := match i % 128 with
  | 0 => ⟨S10000x512, .f32⟩
  | 1 => ⟨S2x80000, .i32⟩
  | 2 => ⟨S2x160000, .i32⟩
  | 3 => ⟨S512x1024, .f32⟩
  | 4 => ⟨S1024, .f32⟩
  | 5 => ⟨S512x1024, .f32⟩
  | 6 => ⟨S1024, .f32⟩
  | 7 => ⟨S1024x512, .f32⟩
  | 8 => ⟨S512, .f32⟩
  | 9 => ⟨S1024x512, .f32⟩
  | 10 => ⟨S512, .f32⟩
  | 11 => ⟨S512x128, .f32⟩
  | 12 => ⟨S128, .f32⟩
  | 13 => ⟨S512x128, .f32⟩
  | 14 => ⟨S128, .f32⟩
  | 15 => ⟨S1024x2, .f32⟩
  | 16 => ⟨S512x2, .f32⟩
  | 17 => ⟨S128x2, .f32⟩
  | 18 => ⟨S1x80000, .i32⟩
  | 19 => ⟨S80000, .i32⟩
  | 20 => ⟨S1x80000, .i32⟩
  | 21 => ⟨S80000, .i32⟩
  | 22 => ⟨S1x160000, .i32⟩
  | 23 => ⟨S160000, .i32⟩
  | 24 => ⟨S1x160000, .i32⟩
  | 25 => ⟨S160000, .i32⟩
  | 26 => ⟨S10000x1024, .f32⟩
  | 27 => ⟨S10000, .i32⟩
  | 28 => ⟨S90000, .i32⟩
  | 29 => ⟨S90000, .i32⟩
  | 30 => ⟨S_, .f32⟩
  | 31 => ⟨S10000, .f32⟩
  | 32 => ⟨S_, .i32⟩
  | 33 => ⟨S90000, .i32⟩
  | 34 => ⟨S90000, .i1⟩
  | 35 => ⟨S_, .i32⟩
  | 36 => ⟨S90000, .i32⟩
  | 37 => ⟨S90000, .i32⟩
  | 38 => ⟨S90000, .i32⟩
  | 39 => ⟨S90000x1, .i32⟩
  | 40 => ⟨S_, .f32⟩
  | 41 => ⟨S90000, .f32⟩
  | 42 => ⟨S10000, .f32⟩
  | 43 => ⟨S_, .f32⟩
  | 44 => ⟨S10000, .f32⟩
  | 45 => ⟨S10000, .f32⟩
  | 46 => ⟨S10000, .f32⟩
  | 47 => ⟨S_, .i32⟩
  | 48 => ⟨S90000, .i32⟩
  | 49 => ⟨S90000, .i1⟩
  | 50 => ⟨S_, .i32⟩
  | 51 => ⟨S90000, .i32⟩
  | 52 => ⟨S90000, .i32⟩
  | 53 => ⟨S90000, .i32⟩
  | 54 => ⟨S90000x1, .i32⟩
  | 55 => ⟨S90000, .f32⟩
  | 56 => ⟨S_, .i32⟩
  | 57 => ⟨S90000, .i32⟩
  | 58 => ⟨S90000, .i1⟩
  | 59 => ⟨S_, .i32⟩
  | 60 => ⟨S90000, .i32⟩
  | 61 => ⟨S90000, .i32⟩
  | 62 => ⟨S90000, .i32⟩
  | 63 => ⟨S90000x1, .i32⟩
  | 64 => ⟨S90000, .f32⟩
  | 65 => ⟨S90000, .f32⟩
  | 66 => ⟨S_, .i32⟩
  | 67 => ⟨S90000, .i32⟩
  | 68 => ⟨S90000, .i1⟩
  | 69 => ⟨S_, .i32⟩
  | 70 => ⟨S90000, .i32⟩
  | 71 => ⟨S90000, .i32⟩
  | 72 => ⟨S90000, .i32⟩
  | 73 => ⟨S90000x1, .i32⟩
  | 74 => ⟨S90000x1024, .f32⟩
  | 75 => ⟨S90000x1, .f32⟩
  | 76 => ⟨S90000x1024, .f32⟩
  | 77 => ⟨S90000x1024, .f32⟩
  | 78 => ⟨S_, .f32⟩
  | 79 => ⟨S10000x1024, .f32⟩
  | 80 => ⟨S90000x1, .i32⟩
  | 81 => ⟨S10000x1024, .f32⟩
  | 82 => ⟨S1x1024, .f32⟩
  | 83 => ⟨S10000x1024, .f32⟩
  | 84 => ⟨S10000x1024, .f32⟩
  | 85 => ⟨S_, .f32⟩
  | 86 => ⟨S10000x1024, .f32⟩
  | 87 => ⟨S10000x1024, .i1⟩
  | 88 => ⟨S_, .f32⟩
  | 89 => ⟨S10000x1024, .f32⟩
  | 90 => ⟨S10000x1024, .i1⟩
  | 91 => ⟨S_, .f32⟩
  | 92 => ⟨S_, .f32⟩
  | 93 => ⟨S10000x1024, .f32⟩
  | 94 => ⟨S10000x1024, .f32⟩
  | 95 => ⟨S10000x1024, .f32⟩
  | 96 => ⟨S_, .f32⟩
  | 97 => ⟨S10000x1024, .f32⟩
  | 98 => ⟨S10000x1024, .f32⟩
  | 99 => ⟨S10000x1024, .f32⟩
  | 100 => ⟨S10000x1024, .f32⟩
  | 101 => ⟨S10000, .i32⟩
  | 102 => ⟨S170000, .i32⟩
  | 103 => ⟨S170000, .i32⟩
  | 104 => ⟨S_, .f32⟩
  | 105 => ⟨S10000, .f32⟩
  | 106 => ⟨S_, .i32⟩
  | 107 => ⟨S170000, .i32⟩
  | 108 => ⟨S170000, .i1⟩
  | 109 => ⟨S_, .i32⟩
  | 110 => ⟨S170000, .i32⟩
  | 111 => ⟨S170000, .i32⟩
  | 112 => ⟨S170000, .i32⟩
  | 113 => ⟨S170000x1, .i32⟩
  | 114 => ⟨S_, .f32⟩
  | 115 => ⟨S170000, .f32⟩
  | 116 => ⟨S10000, .f32⟩
  | 117 => ⟨S_, .f32⟩
  | 118 => ⟨S10000, .f32⟩
  | 119 => ⟨S10000, .f32⟩
  | 120 => ⟨S10000, .f32⟩
  | 121 => ⟨S_, .i32⟩
  | 122 => ⟨S170000, .i32⟩
  | 123 => ⟨S170000, .i1⟩
  | 124 => ⟨S_, .i32⟩
  | 125 => ⟨S170000, .i32⟩
  | 126 => ⟨S170000, .i32⟩
  | 127 => ⟨S170000, .i32⟩
  | _ => ⟨S10000x512, .f32⟩

abbrev hbmTy0_1 (i : Nat) : BufTy := match i % 128 with
  | 0 => ⟨S170000x1, .i32⟩
  | 1 => ⟨S170000, .f32⟩
  | 2 => ⟨S_, .i32⟩
  | 3 => ⟨S170000, .i32⟩
  | 4 => ⟨S170000, .i1⟩
  | 5 => ⟨S_, .i32⟩
  | 6 => ⟨S170000, .i32⟩
  | 7 => ⟨S170000, .i32⟩
  | 8 => ⟨S170000, .i32⟩
  | 9 => ⟨S170000x1, .i32⟩
  | 10 => ⟨S170000, .f32⟩
  | 11 => ⟨S170000, .f32⟩
  | 12 => ⟨S_, .i32⟩
  | 13 => ⟨S170000, .i32⟩
  | 14 => ⟨S170000, .i1⟩
  | 15 => ⟨S_, .i32⟩
  | 16 => ⟨S170000, .i32⟩
  | 17 => ⟨S170000, .i32⟩
  | 18 => ⟨S170000, .i32⟩
  | 19 => ⟨S170000x1, .i32⟩
  | 20 => ⟨S170000x1024, .f32⟩
  | 21 => ⟨S170000x1, .f32⟩
  | 22 => ⟨S170000x1024, .f32⟩
  | 23 => ⟨S170000x1024, .f32⟩
  | 24 => ⟨S_, .f32⟩
  | 25 => ⟨S10000x1024, .f32⟩
  | 26 => ⟨S170000x1, .i32⟩
  | 27 => ⟨S10000x1024, .f32⟩
  | 28 => ⟨S1x1024, .f32⟩
  | 29 => ⟨S10000x1024, .f32⟩
  | 30 => ⟨S10000x1024, .f32⟩
  | 31 => ⟨S_, .f32⟩
  | 32 => ⟨S10000x1024, .f32⟩
  | 33 => ⟨S10000x1024, .i1⟩
  | 34 => ⟨S_, .f32⟩
  | 35 => ⟨S10000x1024, .f32⟩
  | 36 => ⟨S10000x1024, .i1⟩
  | 37 => ⟨S_, .f32⟩
  | 38 => ⟨S_, .f32⟩
  | 39 => ⟨S10000x1024, .f32⟩
  | 40 => ⟨S10000x1024, .f32⟩
  | 41 => ⟨S10000x1024, .f32⟩
  | 42 => ⟨S_, .f32⟩
  | 43 => ⟨S10000x1024, .f32⟩
  | 44 => ⟨S10000x1024, .f32⟩
  | 45 => ⟨S10000x1024, .f32⟩
  | 46 => ⟨S_, .f32⟩
  | 47 => ⟨S1024, .f32⟩
  | 48 => ⟨S_, .f32⟩
  | 49 => ⟨S1024, .f32⟩
  | 50 => ⟨S1024, .f32⟩
  | 51 => ⟨S1024x1, .f32⟩
  | 52 => ⟨S1024x2, .f32⟩
  | 53 => ⟨S1024x2, .f32⟩
  | 54 => ⟨S1024x2, .f32⟩
  | 55 => ⟨S_, .f32⟩
  | 56 => ⟨S1024, .f32⟩
  | 57 => ⟨S1024x1, .f32⟩
  | 58 => ⟨S1024x2, .f32⟩
  | 59 => ⟨S1024x2, .f32⟩
  | 60 => ⟨S1024x1, .f32⟩
  | 61 => ⟨S1024, .f32⟩
  | 62 => ⟨S1x1024, .f32⟩
  | 63 => ⟨S10000x1024, .f32⟩
  | 64 => ⟨S10000x1024, .f32⟩
  | 65 => ⟨S1024x1, .f32⟩
  | 66 => ⟨S1024, .f32⟩
  | 67 => ⟨S1x1024, .f32⟩
  | 68 => ⟨S10000x1024, .f32⟩
  | 69 => ⟨S10000x1024, .f32⟩
  | 70 => ⟨S10000x1024, .f32⟩
  | 71 => ⟨S10000x512, .f32⟩
  | 72 => ⟨S10000, .i32⟩
  | 73 => ⟨S90000, .i32⟩
  | 74 => ⟨S90000, .i32⟩
  | 75 => ⟨S_, .f32⟩
  | 76 => ⟨S10000, .f32⟩
  | 77 => ⟨S_, .i32⟩
  | 78 => ⟨S90000, .i32⟩
  | 79 => ⟨S90000, .i1⟩
  | 80 => ⟨S_, .i32⟩
  | 81 => ⟨S90000, .i32⟩
  | 82 => ⟨S90000, .i32⟩
  | 83 => ⟨S90000, .i32⟩
  | 84 => ⟨S90000x1, .i32⟩
  | 85 => ⟨S_, .f32⟩
  | 86 => ⟨S90000, .f32⟩
  | 87 => ⟨S10000, .f32⟩
  | 88 => ⟨S_, .f32⟩
  | 89 => ⟨S10000, .f32⟩
  | 90 => ⟨S10000, .f32⟩
  | 91 => ⟨S10000, .f32⟩
  | 92 => ⟨S_, .i32⟩
  | 93 => ⟨S90000, .i32⟩
  | 94 => ⟨S90000, .i1⟩
  | 95 => ⟨S_, .i32⟩
  | 96 => ⟨S90000, .i32⟩
  | 97 => ⟨S90000, .i32⟩
  | 98 => ⟨S90000, .i32⟩
  | 99 => ⟨S90000x1, .i32⟩
  | 100 => ⟨S90000, .f32⟩
  | 101 => ⟨S_, .i32⟩
  | 102 => ⟨S90000, .i32⟩
  | 103 => ⟨S90000, .i1⟩
  | 104 => ⟨S_, .i32⟩
  | 105 => ⟨S90000, .i32⟩
  | 106 => ⟨S90000, .i32⟩
  | 107 => ⟨S90000, .i32⟩
  | 108 => ⟨S90000x1, .i32⟩
  | 109 => ⟨S90000, .f32⟩
  | 110 => ⟨S90000, .f32⟩
  | 111 => ⟨S_, .i32⟩
  | 112 => ⟨S90000, .i32⟩
  | 113 => ⟨S90000, .i1⟩
  | 114 => ⟨S_, .i32⟩
  | 115 => ⟨S90000, .i32⟩
  | 116 => ⟨S90000, .i32⟩
  | 117 => ⟨S90000, .i32⟩
  | 118 => ⟨S90000x1, .i32⟩
  | 119 => ⟨S90000x512, .f32⟩
  | 120 => ⟨S90000x1, .f32⟩
  | 121 => ⟨S90000x512, .f32⟩
  | 122 => ⟨S90000x512, .f32⟩
  | 123 => ⟨S_, .f32⟩
  | 124 => ⟨S10000x512, .f32⟩
  | 125 => ⟨S90000x1, .i32⟩
  | 126 => ⟨S10000x512, .f32⟩
  | 127 => ⟨S1x512, .f32⟩
  | _ => ⟨S10000x512, .f32⟩

abbrev hbmTy0_2 (i : Nat) : BufTy := match i % 128 with
  | 0 => ⟨S10000x512, .f32⟩
  | 1 => ⟨S10000x512, .f32⟩
  | 2 => ⟨S_, .f32⟩
  | 3 => ⟨S10000x512, .f32⟩
  | 4 => ⟨S10000x512, .i1⟩
  | 5 => ⟨S_, .f32⟩
  | 6 => ⟨S10000x512, .f32⟩
  | 7 => ⟨S10000x512, .i1⟩
  | 8 => ⟨S_, .f32⟩
  | 9 => ⟨S_, .f32⟩
  | 10 => ⟨S10000x512, .f32⟩
  | 11 => ⟨S10000x512, .f32⟩
  | 12 => ⟨S10000x512, .f32⟩
  | 13 => ⟨S_, .f32⟩
  | 14 => ⟨S10000x512, .f32⟩
  | 15 => ⟨S10000x512, .f32⟩
  | 16 => ⟨S10000x512, .f32⟩
  | 17 => ⟨S10000x512, .f32⟩
  | 18 => ⟨S10000, .i32⟩
  | 19 => ⟨S170000, .i32⟩
  | 20 => ⟨S170000, .i32⟩
  | 21 => ⟨S_, .f32⟩
  | 22 => ⟨S10000, .f32⟩
  | 23 => ⟨S_, .i32⟩
  | 24 => ⟨S170000, .i32⟩
  | 25 => ⟨S170000, .i1⟩
  | 26 => ⟨S_, .i32⟩
  | 27 => ⟨S170000, .i32⟩
  | 28 => ⟨S170000, .i32⟩
  | 29 => ⟨S170000, .i32⟩
  | 30 => ⟨S170000x1, .i32⟩
  | 31 => ⟨S_, .f32⟩
  | 32 => ⟨S170000, .f32⟩
  | 33 => ⟨S10000, .f32⟩
  | 34 => ⟨S_, .f32⟩
  | 35 => ⟨S10000, .f32⟩
  | 36 => ⟨S10000, .f32⟩
  | 37 => ⟨S10000, .f32⟩
  | 38 => ⟨S_, .i32⟩
  | 39 => ⟨S170000, .i32⟩
  | 40 => ⟨S170000, .i1⟩
  | 41 => ⟨S_, .i32⟩
  | 42 => ⟨S170000, .i32⟩
  | 43 => ⟨S170000, .i32⟩
  | 44 => ⟨S170000, .i32⟩
  | 45 => ⟨S170000x1, .i32⟩
  | 46 => ⟨S170000, .f32⟩
  | 47 => ⟨S_, .i32⟩
  | 48 => ⟨S170000, .i32⟩
  | 49 => ⟨S170000, .i1⟩
  | 50 => ⟨S_, .i32⟩
  | 51 => ⟨S170000, .i32⟩
  | 52 => ⟨S170000, .i32⟩
  | 53 => ⟨S170000, .i32⟩
  | 54 => ⟨S170000x1, .i32⟩
  | 55 => ⟨S170000, .f32⟩
  | 56 => ⟨S170000, .f32⟩
  | 57 => ⟨S_, .i32⟩
  | 58 => ⟨S170000, .i32⟩
  | 59 => ⟨S170000, .i1⟩
  | 60 => ⟨S_, .i32⟩
  | 61 => ⟨S170000, .i32⟩
  | 62 => ⟨S170000, .i32⟩
  | 63 => ⟨S170000, .i32⟩
  | 64 => ⟨S170000x1, .i32⟩
  | 65 => ⟨S170000x512, .f32⟩
  | 66 => ⟨S170000x1, .f32⟩
  | 67 => ⟨S170000x512, .f32⟩
  | 68 => ⟨S170000x512, .f32⟩
  | 69 => ⟨S_, .f32⟩
  | 70 => ⟨S10000x512, .f32⟩
  | 71 => ⟨S170000x1, .i32⟩
  | 72 => ⟨S10000x512, .f32⟩
  | 73 => ⟨S1x512, .f32⟩
  | 74 => ⟨S10000x512, .f32⟩
  | 75 => ⟨S10000x512, .f32⟩
  | 76 => ⟨S_, .f32⟩
  | 77 => ⟨S10000x512, .f32⟩
  | 78 => ⟨S10000x512, .i1⟩
  | 79 => ⟨S_, .f32⟩
  | 80 => ⟨S10000x512, .f32⟩
  | 81 => ⟨S10000x512, .i1⟩
  | 82 => ⟨S_, .f32⟩
  | 83 => ⟨S_, .f32⟩
  | 84 => ⟨S10000x512, .f32⟩
  | 85 => ⟨S10000x512, .f32⟩
  | 86 => ⟨S10000x512, .f32⟩
  | 87 => ⟨S_, .f32⟩
  | 88 => ⟨S10000x512, .f32⟩
  | 89 => ⟨S10000x512, .f32⟩
  | 90 => ⟨S10000x512, .f32⟩
  | 91 => ⟨S_, .f32⟩
  | 92 => ⟨S512, .f32⟩
  | 93 => ⟨S_, .f32⟩
  | 94 => ⟨S512, .f32⟩
  | 95 => ⟨S512, .f32⟩
  | 96 => ⟨S512x1, .f32⟩
  | 97 => ⟨S512x2, .f32⟩
  | 98 => ⟨S512x2, .f32⟩
  | 99 => ⟨S512x2, .f32⟩
  | 100 => ⟨S_, .f32⟩
  | 101 => ⟨S512, .f32⟩
  | 102 => ⟨S512x1, .f32⟩
  | 103 => ⟨S512x2, .f32⟩
  | 104 => ⟨S512x2, .f32⟩
  | 105 => ⟨S512x1, .f32⟩
  | 106 => ⟨S512, .f32⟩
  | 107 => ⟨S1x512, .f32⟩
  | 108 => ⟨S10000x512, .f32⟩
  | 109 => ⟨S10000x512, .f32⟩
  | 110 => ⟨S512x1, .f32⟩
  | 111 => ⟨S512, .f32⟩
  | 112 => ⟨S1x512, .f32⟩
  | 113 => ⟨S10000x512, .f32⟩
  | 114 => ⟨S10000x512, .f32⟩
  | 115 => ⟨S10000x512, .f32⟩
  | 116 => ⟨S10000x128, .f32⟩
  | 117 => ⟨S10000, .i32⟩
  | 118 => ⟨S90000, .i32⟩
  | 119 => ⟨S90000, .i32⟩
  | 120 => ⟨S_, .f32⟩
  | 121 => ⟨S10000, .f32⟩
  | 122 => ⟨S_, .i32⟩
  | 123 => ⟨S90000, .i32⟩
  | 124 => ⟨S90000, .i1⟩
  | 125 => ⟨S_, .i32⟩
  | 126 => ⟨S90000, .i32⟩
  | 127 => ⟨S90000, .i32⟩
  | _ => ⟨S10000x512, .f32⟩

abbrev hbmTy0_3 (i : Nat) : BufTy := match i % 128 with
  | 0 => ⟨S90000, .i32⟩
  | 1 => ⟨S90000x1, .i32⟩
  | 2 => ⟨S_, .f32⟩
  | 3 => ⟨S90000, .f32⟩
  | 4 => ⟨S10000, .f32⟩
  | 5 => ⟨S_, .f32⟩
  | 6 => ⟨S10000, .f32⟩
  | 7 => ⟨S10000, .f32⟩
  | 8 => ⟨S10000, .f32⟩
  | 9 => ⟨S_, .i32⟩
  | 10 => ⟨S90000, .i32⟩
  | 11 => ⟨S90000, .i1⟩
  | 12 => ⟨S_, .i32⟩
  | 13 => ⟨S90000, .i32⟩
  | 14 => ⟨S90000, .i32⟩
  | 15 => ⟨S90000, .i32⟩
  | 16 => ⟨S90000x1, .i32⟩
  | 17 => ⟨S90000, .f32⟩
  | 18 => ⟨S_, .i32⟩
  | 19 => ⟨S90000, .i32⟩
  | 20 => ⟨S90000, .i1⟩
  | 21 => ⟨S_, .i32⟩
  | 22 => ⟨S90000, .i32⟩
  | 23 => ⟨S90000, .i32⟩
  | 24 => ⟨S90000, .i32⟩
  | 25 => ⟨S90000x1, .i32⟩
  | 26 => ⟨S90000, .f32⟩
  | 27 => ⟨S90000, .f32⟩
  | 28 => ⟨S_, .i32⟩
  | 29 => ⟨S90000, .i32⟩
  | 30 => ⟨S90000, .i1⟩
  | 31 => ⟨S_, .i32⟩
  | 32 => ⟨S90000, .i32⟩
  | 33 => ⟨S90000, .i32⟩
  | 34 => ⟨S90000, .i32⟩
  | 35 => ⟨S90000x1, .i32⟩
  | 36 => ⟨S90000x128, .f32⟩
  | 37 => ⟨S90000x1, .f32⟩
  | 38 => ⟨S90000x128, .f32⟩
  | 39 => ⟨S90000x128, .f32⟩
  | 40 => ⟨S_, .f32⟩
  | 41 => ⟨S10000x128, .f32⟩
  | 42 => ⟨S90000x1, .i32⟩
  | 43 => ⟨S10000x128, .f32⟩
  | 44 => ⟨S1x128, .f32⟩
  | 45 => ⟨S10000x128, .f32⟩
  | 46 => ⟨S10000x128, .f32⟩
  | 47 => ⟨S_, .f32⟩
  | 48 => ⟨S10000x128, .f32⟩
  | 49 => ⟨S10000x128, .i1⟩
  | 50 => ⟨S_, .f32⟩
  | 51 => ⟨S10000x128, .f32⟩
  | 52 => ⟨S10000x128, .i1⟩
  | 53 => ⟨S_, .f32⟩
  | 54 => ⟨S_, .f32⟩
  | 55 => ⟨S10000x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S10000x128, .f32⟩
  | 62 => ⟨S10000x128, .f32⟩
  | 63 => ⟨S10000, .i32⟩
  | 64 => ⟨S170000, .i32⟩
  | 65 => ⟨S170000, .i32⟩
  | 66 => ⟨S_, .f32⟩
  | 67 => ⟨S10000, .f32⟩
  | 68 => ⟨S_, .i32⟩
  | 69 => ⟨S170000, .i32⟩
  | 70 => ⟨S170000, .i1⟩
  | 71 => ⟨S_, .i32⟩
  | 72 => ⟨S170000, .i32⟩
  | 73 => ⟨S170000, .i32⟩
  | 74 => ⟨S170000, .i32⟩
  | 75 => ⟨S170000x1, .i32⟩
  | 76 => ⟨S_, .f32⟩
  | 77 => ⟨S170000, .f32⟩
  | 78 => ⟨S10000, .f32⟩
  | 79 => ⟨S_, .f32⟩
  | 80 => ⟨S10000, .f32⟩
  | 81 => ⟨S10000, .f32⟩
  | 82 => ⟨S10000, .f32⟩
  | 83 => ⟨S_, .i32⟩
  | 84 => ⟨S170000, .i32⟩
  | 85 => ⟨S170000, .i1⟩
  | 86 => ⟨S_, .i32⟩
  | 87 => ⟨S170000, .i32⟩
  | 88 => ⟨S170000, .i32⟩
  | 89 => ⟨S170000, .i32⟩
  | 90 => ⟨S170000x1, .i32⟩
  | 91 => ⟨S170000, .f32⟩
  | 92 => ⟨S_, .i32⟩
  | 93 => ⟨S170000, .i32⟩
  | 94 => ⟨S170000, .i1⟩
  | 95 => ⟨S_, .i32⟩
  | 96 => ⟨S170000, .i32⟩
  | 97 => ⟨S170000, .i32⟩
  | 98 => ⟨S170000, .i32⟩
  | 99 => ⟨S170000x1, .i32⟩
  | 100 => ⟨S170000, .f32⟩
  | 101 => ⟨S170000, .f32⟩
  | 102 => ⟨S_, .i32⟩
  | 103 => ⟨S170000, .i32⟩
  | 104 => ⟨S170000, .i1⟩
  | 105 => ⟨S_, .i32⟩
  | 106 => ⟨S170000, .i32⟩
  | 107 => ⟨S170000, .i32⟩
  | 108 => ⟨S170000, .i32⟩
  | 109 => ⟨S170000x1, .i32⟩
  | 110 => ⟨S170000x128, .f32⟩
  | 111 => ⟨S170000x1, .f32⟩
  | 112 => ⟨S170000x128, .f32⟩
  | 113 => ⟨S170000x128, .f32⟩
  | 114 => ⟨S_, .f32⟩
  | 115 => ⟨S10000x128, .f32⟩
  | 116 => ⟨S170000x1, .i32⟩
  | 117 => ⟨S10000x128, .f32⟩
  | 118 => ⟨S1x128, .f32⟩
  | 119 => ⟨S10000x128, .f32⟩
  | 120 => ⟨S10000x128, .f32⟩
  | 121 => ⟨S_, .f32⟩
  | 122 => ⟨S10000x128, .f32⟩
  | 123 => ⟨S10000x128, .i1⟩
  | 124 => ⟨S_, .f32⟩
  | 125 => ⟨S10000x128, .f32⟩
  | 126 => ⟨S10000x128, .i1⟩
  | 127 => ⟨S_, .f32⟩
  | _ => ⟨S10000x512, .f32⟩

abbrev hbmTy0_4 (i : Nat) : BufTy := match i % 128 with
  | 0 => ⟨S_, .f32⟩
  | 1 => ⟨S10000x128, .f32⟩
  | 2 => ⟨S10000x128, .f32⟩
  | 3 => ⟨S10000x128, .f32⟩
  | 4 => ⟨S_, .f32⟩
  | 5 => ⟨S10000x128, .f32⟩
  | 6 => ⟨S10000x128, .f32⟩
  | 7 => ⟨S10000x128, .f32⟩
  | 8 => ⟨S_, .f32⟩
  | 9 => ⟨S128, .f32⟩
  | 10 => ⟨S_, .f32⟩
  | 11 => ⟨S128, .f32⟩
  | 12 => ⟨S128, .f32⟩
  | 13 => ⟨S128x1, .f32⟩
  | 14 => ⟨S128x2, .f32⟩
  | 15 => ⟨S128x2, .f32⟩
  | 16 => ⟨S128x2, .f32⟩
  | 17 => ⟨S_, .f32⟩
  | 18 => ⟨S128, .f32⟩
  | 19 => ⟨S128x1, .f32⟩
  | 20 => ⟨S128x2, .f32⟩
  | 21 => ⟨S128x2, .f32⟩
  | 22 => ⟨S128x1, .f32⟩
  | 23 => ⟨S128, .f32⟩
  | 24 => ⟨S1x128, .f32⟩
  | 25 => ⟨S10000x128, .f32⟩
  | 26 => ⟨S10000x128, .f32⟩
  | 27 => ⟨S128x1, .f32⟩
  | 28 => ⟨S128, .f32⟩
  | 29 => ⟨S1x128, .f32⟩
  | 30 => ⟨S10000x128, .f32⟩
  | 31 => ⟨S10000x128, .f32⟩
  | 32 => ⟨S10000x128, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_cst_0 : Ref sig .tc := ⟨.hbm, 88, rfl⟩
abbrev main_call0_v2 : Ref sig .tc := ⟨.hbm, 89, rfl⟩
abbrev main_call0_v3 : Ref sig .tc := ⟨.hbm, 90, rfl⟩
abbrev main_call0_cst_1 : Ref sig .tc := ⟨.hbm, 91, rfl⟩
abbrev main_call0_call0_v0 : Ref sig .tc := ⟨.hbm, 92, rfl⟩
abbrev main_call0_call0_v1 : Ref sig .tc := ⟨.hbm, 93, rfl⟩
abbrev main_call0_v4 : Ref sig .tc := ⟨.hbm, 94, rfl⟩
abbrev main_call0_v5 : Ref sig .tc := ⟨.hbm, 95, rfl⟩
abbrev main_call0_cst_2 : Ref sig .tc := ⟨.hbm, 96, rfl⟩
abbrev main_call0_v6 : Ref sig .tc := ⟨.hbm, 97, rfl⟩
abbrev main_call0_v7 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_10 : Ref sig .tc := ⟨.hbm, 104, rfl⟩
abbrev main_v60 : Ref sig .tc := ⟨.hbm, 105, rfl⟩
abbrev main_c_11 : Ref sig .tc := ⟨.hbm, 106, rfl⟩
abbrev main_v61 : Ref sig .tc := ⟨.hbm, 107, rfl⟩
abbrev main_v62 : Ref sig .tc := ⟨.hbm, 108, rfl⟩
abbrev main_c_12 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_13 : Ref sig .tc := ⟨.hbm, 114, rfl⟩
abbrev main_v67 : Ref sig .tc := ⟨.hbm, 115, rfl⟩
abbrev main_v68 : Ref sig .tc := ⟨.hbm, 116, rfl⟩
abbrev main_cst_14 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_15 : Ref sig .tc := ⟨.hbm, 121, rfl⟩
abbrev main_v72 : Ref sig .tc := ⟨.hbm, 122, rfl⟩
abbrev main_v73 : Ref sig .tc := ⟨.hbm, 123, rfl⟩
abbrev main_c_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_17 : Ref sig .tc := ⟨.hbm, 130, rfl⟩
abbrev main_v79 : Ref sig .tc := ⟨.hbm, 131, rfl⟩
abbrev main_v80 : Ref sig .tc := ⟨.hbm, 132, rfl⟩
abbrev main_c_18 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c_19 : Ref sig .tc := ⟨.hbm, 140, rfl⟩
abbrev main_v87 : Ref sig .tc := ⟨.hbm, 141, rfl⟩
abbrev main_v88 : Ref sig .tc := ⟨.hbm, 142, rfl⟩
abbrev main_c_20 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_21 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call1_cst : Ref sig .tc := ⟨.hbm, 159, rfl⟩
abbrev main_call1_v0 : Ref sig .tc := ⟨.hbm, 160, rfl⟩
abbrev main_call1_v1 : Ref sig .tc := ⟨.hbm, 161, rfl⟩
abbrev main_call1_cst_0 : Ref sig .tc := ⟨.hbm, 162, rfl⟩
abbrev main_call1_v2 : Ref sig .tc := ⟨.hbm, 163, rfl⟩
abbrev main_call1_v3 : Ref sig .tc := ⟨.hbm, 164, rfl⟩
abbrev main_call1_cst_1 : Ref sig .tc := ⟨.hbm, 165, rfl⟩
abbrev main_call1_call0_v0 : Ref sig .tc := ⟨.hbm, 166, rfl⟩
abbrev main_call1_call0_v1 : Ref sig .tc := ⟨.hbm, 167, rfl⟩
abbrev main_call1_v4 : Ref sig .tc := ⟨.hbm, 168, rfl⟩
abbrev main_call1_v5 : Ref sig .tc := ⟨.hbm, 169, rfl⟩
abbrev main_call1_cst_2 : Ref sig .tc := ⟨.hbm, 170, rfl⟩
abbrev main_call1_v6 : Ref sig .tc := ⟨.hbm, 171, rfl⟩
abbrev main_call1_v7 : Ref sig .tc := ⟨.hbm, 172, rfl⟩
abbrev main_v103 : Ref sig .tc := ⟨.hbm, 173, rfl⟩
abbrev main_cst_22 : Ref sig .tc := ⟨.hbm, 174, rfl⟩
abbrev main_v104 : Ref sig .tc := ⟨.hbm, 175, rfl⟩
abbrev main_cst_23 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_cst_24 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_cst_25 : Ref sig .tc := ⟨.hbm, 203, rfl⟩
abbrev main_v130 : Ref sig .tc := ⟨.hbm, 204, rfl⟩
abbrev main_c_26 : Ref sig .tc := ⟨.hbm, 205, rfl⟩
abbrev main_v131 : Ref sig .tc := ⟨.hbm, 206, rfl⟩
abbrev main_v132 : Ref sig .tc := ⟨.hbm, 207, rfl⟩
abbrev main_c_27 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_cst_28 : Ref sig .tc := ⟨.hbm, 213, rfl⟩
abbrev main_v137 : Ref sig .tc := ⟨.hbm, 214, rfl⟩
abbrev main_v138 : Ref sig .tc := ⟨.hbm, 215, rfl⟩
abbrev main_cst_29 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_c_30 : Ref sig .tc := ⟨.hbm, 220, rfl⟩
abbrev main_v142 : Ref sig .tc := ⟨.hbm, 221, rfl⟩
abbrev main_v143 : Ref sig .tc := ⟨.hbm, 222, rfl⟩
abbrev main_c_31 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_c_32 : Ref sig .tc := ⟨.hbm, 229, rfl⟩
abbrev main_v149 : Ref sig .tc := ⟨.hbm, 230, rfl⟩
abbrev main_v150 : Ref sig .tc := ⟨.hbm, 231, rfl⟩
abbrev main_c_33 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_c_34 : Ref sig .tc := ⟨.hbm, 239, rfl⟩
abbrev main_v157 : Ref sig .tc := ⟨.hbm, 240, rfl⟩
abbrev main_v158 : Ref sig .tc := ⟨.hbm, 241, rfl⟩
abbrev main_c_35 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_cst_36 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_call2_cst : Ref sig .tc := ⟨.hbm, 258, rfl⟩
abbrev main_call2_v0 : Ref sig .tc := ⟨.hbm, 259, rfl⟩
abbrev main_call2_v1 : Ref sig .tc := ⟨.hbm, 260, rfl⟩
abbrev main_call2_cst_0 : Ref sig .tc := ⟨.hbm, 261, rfl⟩
abbrev main_call2_v2 : Ref sig .tc := ⟨.hbm, 262, rfl⟩
abbrev main_call2_v3 : Ref sig .tc := ⟨.hbm, 263, rfl⟩
abbrev main_call2_cst_1 : Ref sig .tc := ⟨.hbm, 264, rfl⟩
abbrev main_call2_call0_v0 : Ref sig .tc := ⟨.hbm, 265, rfl⟩
abbrev main_call2_call0_v1 : Ref sig .tc := ⟨.hbm, 266, rfl⟩
abbrev main_call2_v4 : Ref sig .tc := ⟨.hbm, 267, rfl⟩
abbrev main_call2_v5 : Ref sig .tc := ⟨.hbm, 268, rfl⟩
abbrev main_call2_cst_2 : Ref sig .tc := ⟨.hbm, 269, rfl⟩
abbrev main_call2_v6 : Ref sig .tc := ⟨.hbm, 270, rfl⟩
abbrev main_call2_v7 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_cst_37 : Ref sig .tc := ⟨.hbm, 277, rfl⟩
abbrev main_v178 : Ref sig .tc := ⟨.hbm, 278, rfl⟩
abbrev main_c_38 : Ref sig .tc := ⟨.hbm, 279, rfl⟩
abbrev main_v179 : Ref sig .tc := ⟨.hbm, 280, rfl⟩
abbrev main_v180 : Ref sig .tc := ⟨.hbm, 281, rfl⟩
abbrev main_c_39 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_cst_40 : Ref sig .tc := ⟨.hbm, 287, rfl⟩
abbrev main_v185 : Ref sig .tc := ⟨.hbm, 288, rfl⟩
abbrev main_v186 : Ref sig .tc := ⟨.hbm, 289, rfl⟩
abbrev main_cst_41 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_c_42 : Ref sig .tc := ⟨.hbm, 294, rfl⟩
abbrev main_v190 : Ref sig .tc := ⟨.hbm, 295, rfl⟩
abbrev main_v191 : Ref sig .tc := ⟨.hbm, 296, rfl⟩
abbrev main_c_43 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_c_44 : Ref sig .tc := ⟨.hbm, 303, rfl⟩
abbrev main_v197 : Ref sig .tc := ⟨.hbm, 304, rfl⟩
abbrev main_v198 : Ref sig .tc := ⟨.hbm, 305, rfl⟩
abbrev main_c_45 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_c_46 : Ref sig .tc := ⟨.hbm, 313, rfl⟩
abbrev main_v205 : Ref sig .tc := ⟨.hbm, 314, rfl⟩
abbrev main_v206 : Ref sig .tc := ⟨.hbm, 315, rfl⟩
abbrev main_c_47 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_cst_48 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_call3_cst : Ref sig .tc := ⟨.hbm, 332, rfl⟩
abbrev main_call3_v0 : Ref sig .tc := ⟨.hbm, 333, rfl⟩
abbrev main_call3_v1 : Ref sig .tc := ⟨.hbm, 334, rfl⟩
abbrev main_call3_cst_0 : Ref sig .tc := ⟨.hbm, 335, rfl⟩
abbrev main_call3_v2 : Ref sig .tc := ⟨.hbm, 336, rfl⟩
abbrev main_call3_v3 : Ref sig .tc := ⟨.hbm, 337, rfl⟩
abbrev main_call3_cst_1 : Ref sig .tc := ⟨.hbm, 338, rfl⟩
abbrev main_call3_call0_v0 : Ref sig .tc := ⟨.hbm, 339, rfl⟩
abbrev main_call3_call0_v1 : Ref sig .tc := ⟨.hbm, 340, rfl⟩
abbrev main_call3_v4 : Ref sig .tc := ⟨.hbm, 341, rfl⟩
abbrev main_call3_v5 : Ref sig .tc := ⟨.hbm, 342, rfl⟩
abbrev main_call3_cst_2 : Ref sig .tc := ⟨.hbm, 343, rfl⟩
abbrev main_call3_v6 : Ref sig .tc := ⟨.hbm, 344, rfl⟩
abbrev main_call3_v7 : Ref sig .tc := ⟨.hbm, 345, rfl⟩
abbrev main_v221 : Ref sig .tc := ⟨.hbm, 346, rfl⟩
abbrev main_cst_49 : Ref sig .tc := ⟨.hbm, 347, rfl⟩
abbrev main_v222 : Ref sig .tc := ⟨.hbm, 348, rfl⟩
abbrev main_cst_50 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_v226 : Ref sig .tc := ⟨.hbm, 353, rfl⟩
abbrev main_v227 : Ref sig .tc := ⟨.hbm, 354, rfl⟩
abbrev main_v228 : Ref sig .tc := ⟨.hbm, 355, rfl⟩
abbrev main_cst_51 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_v237 : Ref sig .tc := ⟨.hbm, 365, rfl⟩
abbrev main_v238 : Ref sig .tc := ⟨.hbm, 366, rfl⟩
abbrev main_v239 : Ref sig .tc := ⟨.hbm, 367, rfl⟩
abbrev main_v240 : Ref sig .tc := ⟨.hbm, 368, rfl⟩
abbrev main_v241 : Ref sig .tc := ⟨.hbm, 369, rfl⟩
abbrev main_v242 : Ref sig .tc := ⟨.hbm, 370, rfl⟩
abbrev main_v243 : Ref sig .tc := ⟨.hbm, 371, rfl⟩
abbrev main_v244 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_cst_52 : Ref sig .tc := ⟨.hbm, 376, rfl⟩
abbrev main_v248 : Ref sig .tc := ⟨.hbm, 377, rfl⟩
abbrev main_c_53 : Ref sig .tc := ⟨.hbm, 378, rfl⟩
abbrev main_v249 : Ref sig .tc := ⟨.hbm, 379, rfl⟩
abbrev main_v250 : Ref sig .tc := ⟨.hbm, 380, rfl⟩
abbrev main_c_54 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_cst_55 : Ref sig .tc := ⟨.hbm, 386, rfl⟩
abbrev main_v255 : Ref sig .tc := ⟨.hbm, 387, rfl⟩
abbrev main_v256 : Ref sig .tc := ⟨.hbm, 388, rfl⟩
abbrev main_cst_56 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_c_57 : Ref sig .tc := ⟨.hbm, 393, rfl⟩
abbrev main_v260 : Ref sig .tc := ⟨.hbm, 394, rfl⟩
abbrev main_v261 : Ref sig .tc := ⟨.hbm, 395, rfl⟩
abbrev main_c_58 : Ref sig .tc := ⟨.hbm, 396, rfl⟩
abbrev main_v262 : Ref sig .tc := ⟨.hbm, 397, rfl⟩
abbrev main_v263 : Ref sig .tc := ⟨.hbm, 398, rfl⟩
abbrev main_v264 : Ref sig .tc := ⟨.hbm, 399, rfl⟩
abbrev main_v265 : Ref sig .tc := ⟨.hbm, 400, rfl⟩
abbrev main_v266 : Ref sig .tc := ⟨.hbm, 401, rfl⟩
abbrev main_c_59 : Ref sig .tc := ⟨.hbm, 402, rfl⟩
abbrev main_v267 : Ref sig .tc := ⟨.hbm, 403, rfl⟩
abbrev main_v268 : Ref sig .tc := ⟨.hbm, 404, rfl⟩
abbrev main_c_60 : Ref sig .tc := ⟨.hbm, 405, rfl⟩
abbrev main_v269 : Ref sig .tc := ⟨.hbm, 406, rfl⟩
abbrev main_v270 : Ref sig .tc := ⟨.hbm, 407, rfl⟩
abbrev main_v271 : Ref sig .tc := ⟨.hbm, 408, rfl⟩
abbrev main_v272 : Ref sig .tc := ⟨.hbm, 409, rfl⟩
abbrev main_v273 : Ref sig .tc := ⟨.hbm, 410, rfl⟩
abbrev main_v274 : Ref sig .tc := ⟨.hbm, 411, rfl⟩
abbrev main_c_61 : Ref sig .tc := ⟨.hbm, 412, rfl⟩
abbrev main_v275 : Ref sig .tc := ⟨.hbm, 413, rfl⟩
abbrev main_v276 : Ref sig .tc := ⟨.hbm, 414, rfl⟩
abbrev main_c_62 : Ref sig .tc := ⟨.hbm, 415, rfl⟩
abbrev main_v277 : Ref sig .tc := ⟨.hbm, 416, rfl⟩
abbrev main_v278 : Ref sig .tc := ⟨.hbm, 417, rfl⟩
abbrev main_v279 : Ref sig .tc := ⟨.hbm, 418, rfl⟩
abbrev main_v280 : Ref sig .tc := ⟨.hbm, 419, rfl⟩
abbrev main_v281 : Ref sig .tc := ⟨.hbm, 420, rfl⟩
abbrev main_v282 : Ref sig .tc := ⟨.hbm, 421, rfl⟩
abbrev main_v283 : Ref sig .tc := ⟨.hbm, 422, rfl⟩
abbrev main_v284 : Ref sig .tc := ⟨.hbm, 423, rfl⟩
abbrev main_cst_63 : Ref sig .tc := ⟨.hbm, 424, rfl⟩
abbrev main_v285 : Ref sig .tc := ⟨.hbm, 425, rfl⟩
abbrev main_v286 : Ref sig .tc := ⟨.hbm, 426, rfl⟩
abbrev main_v287 : Ref sig .tc := ⟨.hbm, 427, rfl⟩
abbrev main_v288 : Ref sig .tc := ⟨.hbm, 428, rfl⟩
abbrev main_v289 : Ref sig .tc := ⟨.hbm, 429, rfl⟩
abbrev main_v290 : Ref sig .tc := ⟨.hbm, 430, rfl⟩
abbrev main_call4_cst : Ref sig .tc := ⟨.hbm, 431, rfl⟩
abbrev main_call4_v0 : Ref sig .tc := ⟨.hbm, 432, rfl⟩
abbrev main_call4_v1 : Ref sig .tc := ⟨.hbm, 433, rfl⟩
abbrev main_call4_cst_0 : Ref sig .tc := ⟨.hbm, 434, rfl⟩
abbrev main_call4_v2 : Ref sig .tc := ⟨.hbm, 435, rfl⟩
abbrev main_call4_v3 : Ref sig .tc := ⟨.hbm, 436, rfl⟩
abbrev main_call4_cst_1 : Ref sig .tc := ⟨.hbm, 437, rfl⟩
abbrev main_call4_call0_v0 : Ref sig .tc := ⟨.hbm, 438, rfl⟩
abbrev main_call4_call0_v1 : Ref sig .tc := ⟨.hbm, 439, rfl⟩
abbrev main_call4_v4 : Ref sig .tc := ⟨.hbm, 440, rfl⟩
abbrev main_call4_v5 : Ref sig .tc := ⟨.hbm, 441, rfl⟩
abbrev main_call4_cst_2 : Ref sig .tc := ⟨.hbm, 442, rfl⟩
abbrev main_call4_v6 : Ref sig .tc := ⟨.hbm, 443, rfl⟩
abbrev main_call4_v7 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_cst_64 : Ref sig .tc := ⟨.hbm, 450, rfl⟩
abbrev main_v296 : Ref sig .tc := ⟨.hbm, 451, rfl⟩
abbrev main_c_65 : Ref sig .tc := ⟨.hbm, 452, rfl⟩
abbrev main_v297 : Ref sig .tc := ⟨.hbm, 453, rfl⟩
abbrev main_v298 : Ref sig .tc := ⟨.hbm, 454, rfl⟩
abbrev main_c_66 : Ref sig .tc := ⟨.hbm, 455, rfl⟩
abbrev main_v299 : Ref sig .tc := ⟨.hbm, 456, rfl⟩
abbrev main_v300 : Ref sig .tc := ⟨.hbm, 457, rfl⟩
abbrev main_v301 : Ref sig .tc := ⟨.hbm, 458, rfl⟩
abbrev main_v302 : Ref sig .tc := ⟨.hbm, 459, rfl⟩
abbrev main_cst_67 : Ref sig .tc := ⟨.hbm, 460, rfl⟩
abbrev main_v303 : Ref sig .tc := ⟨.hbm, 461, rfl⟩
abbrev main_v304 : Ref sig .tc := ⟨.hbm, 462, rfl⟩
abbrev main_cst_68 : Ref sig .tc := ⟨.hbm, 463, rfl⟩
abbrev main_v305 : Ref sig .tc := ⟨.hbm, 464, rfl⟩
abbrev main_v306 : Ref sig .tc := ⟨.hbm, 465, rfl⟩
abbrev main_v307 : Ref sig .tc := ⟨.hbm, 466, rfl⟩
abbrev main_c_69 : Ref sig .tc := ⟨.hbm, 467, rfl⟩
abbrev main_v308 : Ref sig .tc := ⟨.hbm, 468, rfl⟩
abbrev main_v309 : Ref sig .tc := ⟨.hbm, 469, rfl⟩
abbrev main_c_70 : Ref sig .tc := ⟨.hbm, 470, rfl⟩
abbrev main_v310 : Ref sig .tc := ⟨.hbm, 471, rfl⟩
abbrev main_v311 : Ref sig .tc := ⟨.hbm, 472, rfl⟩
abbrev main_v312 : Ref sig .tc := ⟨.hbm, 473, rfl⟩
abbrev main_v313 : Ref sig .tc := ⟨.hbm, 474, rfl⟩
abbrev main_v314 : Ref sig .tc := ⟨.hbm, 475, rfl⟩
abbrev main_c_71 : Ref sig .tc := ⟨.hbm, 476, rfl⟩
abbrev main_v315 : Ref sig .tc := ⟨.hbm, 477, rfl⟩
abbrev main_v316 : Ref sig .tc := ⟨.hbm, 478, rfl⟩
abbrev main_c_72 : Ref sig .tc := ⟨.hbm, 479, rfl⟩
abbrev main_v317 : Ref sig .tc := ⟨.hbm, 480, rfl⟩
abbrev main_v318 : Ref sig .tc := ⟨.hbm, 481, rfl⟩
abbrev main_v319 : Ref sig .tc := ⟨.hbm, 482, rfl⟩
abbrev main_v320 : Ref sig .tc := ⟨.hbm, 483, rfl⟩
abbrev main_v321 : Ref sig .tc := ⟨.hbm, 484, rfl⟩
abbrev main_v322 : Ref sig .tc := ⟨.hbm, 485, rfl⟩
abbrev main_c_73 : Ref sig .tc := ⟨.hbm, 486, rfl⟩
abbrev main_v323 : Ref sig .tc := ⟨.hbm, 487, rfl⟩
abbrev main_v324 : Ref sig .tc := ⟨.hbm, 488, rfl⟩
abbrev main_c_74 : Ref sig .tc := ⟨.hbm, 489, rfl⟩
abbrev main_v325 : Ref sig .tc := ⟨.hbm, 490, rfl⟩
abbrev main_v326 : Ref sig .tc := ⟨.hbm, 491, rfl⟩
abbrev main_v327 : Ref sig .tc := ⟨.hbm, 492, rfl⟩
abbrev main_v328 : Ref sig .tc := ⟨.hbm, 493, rfl⟩
abbrev main_v329 : Ref sig .tc := ⟨.hbm, 494, rfl⟩
abbrev main_v330 : Ref sig .tc := ⟨.hbm, 495, rfl⟩
abbrev main_v331 : Ref sig .tc := ⟨.hbm, 496, rfl⟩
abbrev main_v332 : Ref sig .tc := ⟨.hbm, 497, rfl⟩
abbrev main_cst_75 : Ref sig .tc := ⟨.hbm, 498, rfl⟩
abbrev main_v333 : Ref sig .tc := ⟨.hbm, 499, rfl⟩
abbrev main_v334 : Ref sig .tc := ⟨.hbm, 500, rfl⟩
abbrev main_v335 : Ref sig .tc := ⟨.hbm, 501, rfl⟩
abbrev main_v336 : Ref sig .tc := ⟨.hbm, 502, rfl⟩
abbrev main_v337 : Ref sig .tc := ⟨.hbm, 503, rfl⟩
abbrev main_v338 : Ref sig .tc := ⟨.hbm, 504, rfl⟩
abbrev main_call5_cst : Ref sig .tc := ⟨.hbm, 505, rfl⟩
abbrev main_call5_v0 : Ref sig .tc := ⟨.hbm, 506, rfl⟩
abbrev main_call5_v1 : Ref sig .tc := ⟨.hbm, 507, rfl⟩
abbrev main_call5_cst_0 : Ref sig .tc := ⟨.hbm, 508, rfl⟩
abbrev main_call5_v2 : Ref sig .tc := ⟨.hbm, 509, rfl⟩
abbrev main_call5_v3 : Ref sig .tc := ⟨.hbm, 510, rfl⟩
abbrev main_call5_cst_1 : Ref sig .tc := ⟨.hbm, 511, rfl⟩
abbrev main_call5_call0_v0 : Ref sig .tc := ⟨.hbm, 512, rfl⟩
abbrev main_call5_call0_v1 : Ref sig .tc := ⟨.hbm, 513, rfl⟩
abbrev main_call5_v4 : Ref sig .tc := ⟨.hbm, 514, rfl⟩
abbrev main_call5_v5 : Ref sig .tc := ⟨.hbm, 515, rfl⟩
abbrev main_call5_cst_2 : Ref sig .tc := ⟨.hbm, 516, rfl⟩
abbrev main_call5_v6 : Ref sig .tc := ⟨.hbm, 517, rfl⟩
abbrev main_call5_v7 : Ref sig .tc := ⟨.hbm, 518, rfl⟩
abbrev main_v339 : Ref sig .tc := ⟨.hbm, 519, rfl⟩
abbrev main_cst_76 : Ref sig .tc := ⟨.hbm, 520, rfl⟩
abbrev main_v340 : Ref sig .tc := ⟨.hbm, 521, rfl⟩
abbrev main_cst_77 : Ref sig .tc := ⟨.hbm, 522, rfl⟩
abbrev main_v341 : Ref sig .tc := ⟨.hbm, 523, rfl⟩
abbrev main_v342 : Ref sig .tc := ⟨.hbm, 524, rfl⟩
abbrev main_v343 : Ref sig .tc := ⟨.hbm, 525, rfl⟩
abbrev main_v344 : Ref sig .tc := ⟨.hbm, 526, rfl⟩
abbrev main_v345 : Ref sig .tc := ⟨.hbm, 527, rfl⟩
abbrev main_v346 : Ref sig .tc := ⟨.hbm, 528, rfl⟩
abbrev main_cst_78 : Ref sig .tc := ⟨.hbm, 529, rfl⟩
abbrev main_v347 : Ref sig .tc := ⟨.hbm, 530, rfl⟩
abbrev main_v348 : Ref sig .tc := ⟨.hbm, 531, rfl⟩
abbrev main_v349 : Ref sig .tc := ⟨.hbm, 532, rfl⟩
abbrev main_v350 : Ref sig .tc := ⟨.hbm, 533, rfl⟩
abbrev main_v351 : Ref sig .tc := ⟨.hbm, 534, rfl⟩
abbrev main_v352 : Ref sig .tc := ⟨.hbm, 535, rfl⟩
abbrev main_v353 : Ref sig .tc := ⟨.hbm, 536, rfl⟩
abbrev main_v354 : Ref sig .tc := ⟨.hbm, 537, rfl⟩
abbrev main_v355 : Ref sig .tc := ⟨.hbm, 538, rfl⟩
abbrev main_v356 : Ref sig .tc := ⟨.hbm, 539, rfl⟩
abbrev main_v357 : Ref sig .tc := ⟨.hbm, 540, rfl⟩
abbrev main_v358 : Ref sig .tc := ⟨.hbm, 541, rfl⟩
abbrev main_v359 : Ref sig .tc := ⟨.hbm, 542, rfl⟩
abbrev main_v360 : Ref sig .tc := ⟨.hbm, 543, rfl⟩
abbrev main_v361 : Ref sig .tc := ⟨.hbm, 544, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S80000_S10000_S90000_d0 : Shape.Concatenates [S80000, S10000] S90000 0
  bcast_S_S10000 : S_.BroadcastsInDim S10000 (![] : Fin 0 → Fin S10000.rank)
  bcast_S_S90000 : S_.BroadcastsInDim S90000 (![] : Fin 0 → Fin S90000.rank)
  bcast_S90000_S90000x1_0 : S90000.BroadcastsInDim S90000x1 (![0] : Fin 1 → Fin S90000x1.rank)
  bcast_S90000x1_S90000x1024_0_1 : S90000x1.BroadcastsInDim S90000x1024 (![0, 1] : Fin 2 → Fin S90000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  concatenates_S160000_S10000_S170000_d0 : Shape.Concatenates [S160000, S10000] S170000 0
  bcast_S_S170000 : S_.BroadcastsInDim S170000 (![] : Fin 0 → Fin S170000.rank)
  bcast_S170000_S170000x1_0 : S170000.BroadcastsInDim S170000x1 (![0] : Fin 1 → Fin S170000x1.rank)
  bcast_S170000x1_S170000x1024_0_1 : S170000x1.BroadcastsInDim S170000x1024 (![0, 1] : Fin 2 → Fin S170000x1024.rank)
  reducesTo_S1024x2_S1024_d1 : S1024x2.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S90000x1_S90000x512_0_1 : S90000x1.BroadcastsInDim S90000x512 (![0, 1] : Fin 2 → Fin S90000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S170000x1_S170000x512_0_1 : S170000x1.BroadcastsInDim S170000x512 (![0, 1] : Fin 2 → Fin S170000x512.rank)
  reducesTo_S512x2_S512_d1 : S512x2.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  slices_S512x2_S512x1_0_0 : S512x2.Slices ![0, 0] S512x1
  shapeCasts_S512x1_S512 : S512x1.ShapeCasts S512
  slices_S512x2_S512x1_0_1 : S512x2.Slices ![0, 1] S512x1
  bcast_S90000x1_S90000x128_0_1 : S90000x1.BroadcastsInDim S90000x128 (![0, 1] : Fin 2 → Fin S90000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S170000x1_S170000x128_0_1 : S170000x1.BroadcastsInDim S170000x128 (![0, 1] : Fin 2 → Fin S170000x128.rank)
  reducesTo_S128x2_S128_d1 : S128x2.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  slices_S128x2_S128x1_0_0 : S128x2.Slices ![0, 0] S128x1
  shapeCasts_S128x1_S128 : S128x1.ShapeCasts S128
  slices_S128x2_S128x1_0_1 : S128x2.Slices ![0, 1] S128x1
  dot_S10000x512_S512x1024_S10000x1024_1_0_0_1_n_n_wf : DotDims.WF S10000x512 S512x1024 S10000x1024 [1] [0] [0] [1] [] []
  scatter_S10000_S90000x1_S90000_n_0_0_1_wf : ScatterDims.WF S10000 S90000x1 S90000 [] [0] [0] 1
  gather_S10000_S90000x1_S90000_n_0_n_n_0_1_1_wf : GatherDims.WF S10000 S90000x1 S90000 [] [0] [] [0] [] 1 ![1]
  gather_S10000x1024_S90000x1_S90000x1024_1_0_n_n_0_1_11024_wf : GatherDims.WF S10000x1024 S90000x1 S90000x1024 [1] [0] [] [0] [] 1 ![1, 1024]
  scatter_S10000x1024_S90000x1_S90000x1024_1_0_0_1_wf : ScatterDims.WF S10000x1024 S90000x1 S90000x1024 [1] [0] [0] 1
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S10000x1024_S1024x512_S10000x512_1_0_0_1_n_n_wf : DotDims.WF S10000x1024 S1024x512 S10000x512 [1] [0] [0] [1] [] []
  gather_S10000x512_S90000x1_S90000x512_1_0_n_n_0_1_1512_wf : GatherDims.WF S10000x512 S90000x1 S90000x512 [1] [0] [] [0] [] 1 ![1, 512]
  scatter_S10000x512_S90000x1_S90000x512_1_0_0_1_wf : ScatterDims.WF S10000x512 S90000x1 S90000x512 [1] [0] [0] 1
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x128_S10000x128_1_0_0_1_n_n_wf : DotDims.WF S10000x512 S512x128 S10000x128 [1] [0] [0] [1] [] []
  gather_S10000x128_S90000x1_S90000x128_1_0_n_n_0_1_1128_wf : GatherDims.WF S10000x128 S90000x1 S90000x128 [1] [0] [] [0] [] 1 ![1, 128]
  scatter_S10000x128_S90000x1_S90000x128_1_0_0_1_wf : ScatterDims.WF S10000x128 S90000x1 S90000x128 [1] [0] [0] 1
  gather_S10000x128_S170000x1_S170000x128_1_0_n_n_0_1_1128_wf : GatherDims.WF S10000x128 S170000x1 S170000x128 [1] [0] [] [0] [] 1 ![1, 128]
  scatter_S10000x128_S170000x1_S170000x128_1_0_0_1_wf : ScatterDims.WF S10000x128 S170000x1 S170000x128 [1] [0] [0] 1

variable [Facts₀]

def dot_S10000x512_S512x1024_S10000x1024_1_0_0_1_n_n : DotDims S10000x512 S512x1024 S10000x1024 where
  lhsContracting := [1]
  rhsContracting := [0]
  lhsNonContracting := [0]
  rhsNonContracting := [1]
  lhsBatch := []
  rhsBatch := []
  wf := dot_S10000x512_S512x1024_S10000x1024_1_0_0_1_n_n_wf
def scatter_S10000_S90000x1_S90000_n_0_0_1 : ScatterDims S10000 S90000x1 S90000 where
  updateWindowDims := []
  insertedWindowDims := [0]
  scatterDimsToOperandDims := [0]
  indexVectorDim := 1
  wf := scatter_S10000_S90000x1_S90000_n_0_0_1_wf
def gather_S10000_S90000x1_S90000_n_0_n_n_0_1_1 : GatherDims S10000 S90000x1 S90000 where
  offsetDims := []
  collapsedSliceDims := [0]
  operandBatchingDims := []
  startIndicesBatchingDims := []
  startIndexMap := [0]
  indexVectorDim := 1
  sliceSizes := ![1]
  wf := gather_S10000_S90000x1_S90000_n_0_n_n_0_1_1_wf
def gather_S10000x1024_S90000x1_S90000x1024_1_0_n_n_0_1_11024 : GatherDims S10000x1024 S90000x1 S90000x1024 where
  offsetDims := [1]
  collapsedSliceDims := [0]
  operandBatchingDims := []
  startIndicesBatchingDims := []
  startIndexMap := [0]
  indexVectorDim := 1
  sliceSizes := ![1, 1024]
  wf := gather_S10000x1024_S90000x1_S90000x1024_1_0_n_n_0_1_11024_wf
def scatter_S10000x1024_S90000x1_S90000x1024_1_0_0_1 : ScatterDims S10000x1024 S90000x1 S90000x1024 where
  updateWindowDims := [1]
  insertedWindowDims := [0]
  scatterDimsToOperandDims := [0]
  indexVectorDim := 1
  wf := scatter_S10000x1024_S90000x1_S90000x1024_1_0_0_1_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf
def gather_S10000x512_S90000x1_S90000x512_1_0_n_n_0_1_1512 : GatherDims S10000x512 S90000x1 S90000x512 where
  offsetDims := [1]
  collapsedSliceDims := [0]
  operandBatchingDims := []
  startIndicesBatchingDims := []
  startIndexMap := [0]
  indexVectorDim := 1
  sliceSizes := ![1, 512]
  wf := gather_S10000x512_S90000x1_S90000x512_1_0_n_n_0_1_1512_wf
def scatter_S10000x512_S90000x1_S90000x512_1_0_0_1 : ScatterDims S10000x512 S90000x1 S90000x512 where
  updateWindowDims := [1]
  insertedWindowDims := [0]
  scatterDimsToOperandDims := [0]
  indexVectorDim := 1
  wf := scatter_S10000x512_S90000x1_S90000x512_1_0_0_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S10000x128_S90000x1_S90000x128_1_0_n_n_0_1_1128 : GatherDims S10000x128 S90000x1 S90000x128 where
  offsetDims := [1]
  collapsedSliceDims := [0]
  operandBatchingDims := []
  startIndicesBatchingDims := []
  startIndexMap := [0]
  indexVectorDim := 1
  sliceSizes := ![1, 128]
  wf := gather_S10000x128_S90000x1_S90000x128_1_0_n_n_0_1_1128_wf
def scatter_S10000x128_S90000x1_S90000x128_1_0_0_1 : ScatterDims S10000x128 S90000x1 S90000x128 where
  updateWindowDims := [1]
  insertedWindowDims := [0]
  scatterDimsToOperandDims := [0]
  indexVectorDim := 1
  wf := scatter_S10000x128_S90000x1_S90000x128_1_0_0_1_wf
def gather_S10000x128_S170000x1_S170000x128_1_0_n_n_0_1_1128 : GatherDims S10000x128 S170000x1 S170000x128 where
  offsetDims := [1]
  collapsedSliceDims := [0]
  operandBatchingDims := []
  startIndicesBatchingDims := []
  startIndexMap := [0]
  indexVectorDim := 1
  sliceSizes := ![1, 128]
  wf := gather_S10000x128_S170000x1_S170000x128_1_0_n_n_0_1_1128_wf
def scatter_S10000x128_S170000x1_S170000x128_1_0_0_1 : ScatterDims S10000x128 S170000x1 S170000x128 where
  updateWindowDims := [1]
  insertedWindowDims := [0]
  scatterDimsToOperandDims := [0]
  indexVectorDim := 1
  wf := scatter_S10000x128_S170000x1_S170000x128_1_0_0_1_wf

class Facts : Prop extends Facts₀ where

variable [Facts]
-- ==== Proof.LibWhole.lean ====
import Idealize.ShloMosaic.Lib.Pipeline.FrameBody
import Idealize.ShloMosaic.Lib.Pipeline.Value
import Idealize.ShloMosaic.Lib.Tactic

namespace Cert.Hand.Whole

open Idealize.ShloMosaic Idealize.ShloMosaic.TcCoe Idealize.ShloMosaic.Tactic Idealize.SL.Sem

variable {Val : EltTy → Type} [∀ e, Nonempty (Val e)] {sg : RefSig} {κ : Kind} {sp : Space} {S : Shape} {e : EltTy}

-- a store over the whole buffer, heading any list of pieces, reads back as the stored value
theorem read_store_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ fun y => ⟨_, List.mem_cons_self, View.mem_set_unit_zero h inb y⟩).trans
    (View.canon_cons_unit_zero h inb w L)

-- a load over the whole buffer is the buffer's contents
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

theorem zeros2 : (![0, 0] : Fin 2 → ℕ) = fun _ => 0 := by funext a; fin_cases a <;> rfl

end Cert.Hand.Whole
-- ==== Proof.LibDat.lean ====
import Idealize.ShloMosaic.Lib.Pipeline.FrameBody
import Idealize.ShloMosaic.Lib.Tactic

namespace Cert.Hand.Dat

open Idealize.SL Idealize.SL.BI
open scoped Idealize.SL.BI
open Idealize.SL.BI.BIBase Idealize.SL.BI.Laws Idealize.SL.ProofMode

section Gen

variable {α β : Type _}

/-- A running value that restarts from `init` at every multiple of `p` and is advanced by `step` elsewhere. -/
def accOf (p : ℕ) (init : ℕ → α) (step : α → ℕ → α) : ℕ → α
  | 0 => init 0
  | n + 1 => if (n + 1) % p = 0 then init (n + 1) else step (accOf p init step n) (n + 1)

theorem accOf_reset {p : ℕ} {init : ℕ → α} {step : α → ℕ → α} {n : ℕ} (h : n % p = 0) :
    accOf p init step n = init n := by
  cases n with
  | zero => rfl
  | succ n => exact if_pos h

theorem accOf_step {p : ℕ} {init : ℕ → α} {step : α → ℕ → α} {n : ℕ} (h : n % p ≠ 0) :
    accOf p init step n = step (accOf p init step (n - 1)) n := by
  cases n with
  | zero => exact absurd (Nat.zero_mod _) h
  | succ n => exact if_neg h

/-- A family over `Fin N` read at any natural number (at `0` past the end). -/
def natExt {N : ℕ} (hN : 0 < N) (f : Fin N → β) (n : ℕ) : β := if h : n < N then f ⟨n, h⟩ else f ⟨0, hN⟩

theorem natExt_val {N : ℕ} (hN : 0 < N) (f : Fin N → β) (t : Fin N) : natExt hN f t.val = f t := by
  unfold natExt; rw [dif_pos t.isLt]

variable {PROP : Type _} [BIClass PROP]

/-- The invariant of a reduction: before the first step `P0`, after step `n` the accumulator at `acc n`; `R` is framed. -/
def PhiOf (P0 : PROP) (own : α → PROP) (acc : ℕ → α) (R : PROP) : ℕ → PROP
  | 0 => iprop(P0 ∗ R)
  | n + 1 => iprop(own (acc n) ∗ R)

theorem PhiOf_pos {P0 : PROP} {own : α → PROP} {acc : ℕ → α} {R : PROP} {n : ℕ} (h : n ≠ 0) :
    PhiOf P0 own acc R n = iprop(own (acc (n - 1)) ∗ R) := by
  cases n with
  | zero => exact absurd rfl h
  | succ n => rfl

theorem PhiOf_any {P0 : PROP} {own : α → PROP} {acc : ℕ → α} {R : PROP} (h0 : P0 ⊢ ∃ d, own d) (n : ℕ) :
    PhiOf P0 own acc R n ⊢ iprop((∃ d, own d) ∗ R) := by
  cases n with
  | zero => exact sep_mono_left h0
  | succ n => exact sep_mono_left (exists_intro _)

/-- A body run that takes `A0 ∗ A1 ∗ A2' ∗ S` to `A0 ∗ A1 ∗ B2 ∗ S'` proves the step from `Φ` to `S' ∗ R`: the rest is framed. -/
theorem body_shuffle {D0 D1 D2 ι : Type _} {u : ι} {Wk : (ι → PROP) → PROP} {Φ S R Ho A0 A1 S' Q2 : PROP} {A2 A2' B2 : D2 → PROP}
    (hrun : ∀ d K, iprop(A0 ∗ A1 ∗ A2' d ∗ S ∗ (iprop(A0 ∗ A1 ∗ B2 d ∗ S') -∗ K u)) ⊢ Wk K)
    (hΦ : Φ ⊢ iprop(S ∗ R)) (hin : ∀ d, A2 d ⊢ A2' d) (hout : ∀ d, B2 d ⊢ Q2) :
    iprop(Φ ∗ Ho ∗ (∃ _ : D0, A0) ∗ (∃ _ : D1, A1) ∗ (∃ d, A2 d)) ⊢ Wk fun _ => iprop((S' ∗ R) ∗ Ho ∗ A0 ∗ A1 ∗ Q2) := by
  iintro ⟨HΦ, Ho, ⟨%d0, H0⟩, ⟨%d1, H1⟩, ⟨%d2, H2⟩⟩
  ihave HΦ' := hΦ $$ HΦ
  icases HΦ' with ⟨HS, Hr⟩
  ihave H2' := (hin d2) $$ H2
  iapply (hrun d2)
  isplitl [H0]; · iexact H0
  isplitl [H1]; · iexact H1
  isplitl [H2']; · iexact H2'
  isplitl [HS]; · iexact HS
  iintro ⟨H0, H1, H2, HS⟩
  ihave H2'' := (hout d2) $$ H2
  isplitl [HS Hr]
  · isplitl [HS]; · iexact HS
    iexact Hr
  isplitl [Ho]; · iexact Ho
  isplitl [H0]; · iexact H0
  isplitl [H1]; · iexact H1
  iexact H2''

end Gen

end Cert.Hand.Dat
-- ==== Proof.K.R0Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL0" => S512x512
local notation "SR0" => S512x512
local notation "SO0" => S512x512
local notation "inbL0" => inb_S512x512_S512x512_0_0
local notation "inbR0" => inb_S512x512_S512x512_0_0
local notation "inbO0" => inb_S512x512_S512x512_0_0

abbrev cond0_1 (i : grid0.Coords) : Prop :=
  (Scalar.cmpi .ne (Scalar.extui (Scalar.cmpi .eq (BitVec.ofNat 32 (i 2).val) 0#32)) 0#32) = 1#1
abbrev cond0_2 (i : grid0.Coords) : Prop := k0_cond2 i = 1#1

theorem hcond0_1 : ∀ t : Fin cfg0.N, cond0_1 (grid0.coords t) ↔ t.val % 20 = 0 :=
  (by decide +kernel : ∀ t : Fin grid0.N, cond0_1 (grid0.coords t) ↔ t.val % 20 = 0)
theorem hcond0_2 : ∀ t : Fin cfg0.N, cond0_2 (grid0.coords t) ↔ t.val % 20 = 19 :=
  (by decide +kernel : ∀ t : Fin grid0.N, cond0_2 (grid0.coords t) ↔ t.val % 20 = 19)

section Run

variable (c : Dev nD) (E : Set ℕ) (i : grid0.Coords)
    (arg3 : Memref sig .tc .vmem SL0 .bf16) (harg3 : arg3.IsWhole) (arg4 : Memref sig .tc .vmem SR0 .bf16) (harg4 : arg4.IsWhole)
    (arg5 : Memref sig .tc .vmem SO0 .bf16) (harg5 : arg5.IsWhole) (arg6 : Memref sig .tc .vmem SO0 .f32) (harg6 : arg6.IsWhole)
    (x0 : Vec F SL0 .bf16) (x1 : Vec F SR0 .bf16)

set_option maxHeartbeats 1000000 in
theorem run0_A (hc1 : cond0_1 i) (hc2 : ¬cond0_2 i) (xo : Vec F SO0 .bf16) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO0 _ _).trans ?_
  sl_unfold_run_names
  rw [View.readCov_unit_zero (S := SO0) _ zeros2]
  simp only [View.readAt_eq_ld, View.ld_unit_zero (S := SL0) zeros2, View.ld_unit_zero (S := SR0) zeros2]

set_option maxHeartbeats 1000000 in
theorem run0_B (hc1 : ¬cond0_1 i) (hc2 : ¬cond0_2 i) (xo : Vec F SO0 .bf16) (s : Vec F SO0 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO0 _ _).trans ?_
  try sl_unfold_run_names
  simp only [View.readAt_eq_ld, View.ld_unit_zero (S := SL0) zeros2, View.ld_unit_zero (S := SR0) zeros2, View.ld_unit_zero (S := SO0) zeros2]

set_option maxHeartbeats 1000000 in
theorem run0_C (hc1 : ¬cond0_1 i) (hc2 : cond0_2 i) (s : Vec F SO0 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 s x0 x1))
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO0 _ _).trans ?_
    try sl_unfold_run_names
    rw [View.readCov_unit_zero (S := SO0) _ zeros2]
    simp only [View.readAt_eq_ld, View.ld_unit_zero (S := SL0) zeros2, View.ld_unit_zero (S := SR0) zeros2, View.ld_unit_zero (S := SO0) zeros2]
  iexists _; isplitr
  swap; · iexact H3
  ipureintro
  refine (read_store_whole _ _ zeros2 inbO0 _ _).trans ?_
  try sl_unfold_run_names
  simp only [View.readAt_eq_ld, View.ld_unit_zero (S := SL0) zeros2, View.ld_unit_zero (S := SR0) zeros2, View.ld_unit_zero (S := SO0) zeros2]

end Run

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem N_pos0 : 0 < cfg0.N := by rw [show cfg0.N = _ from N_0]; decide

def lhs0 (c : Dev nD) : ℕ → Vec F SL0 .bf16 := natExt N_pos0 fun t => iblk0 V c 0 t
def rhs0 (c : Dev nD) : ℕ → Vec F SR0 .bf16 := natExt N_pos0 fun t => iblk0 V c 1 t

def acc0 (c : Dev nD) : ℕ → Vec F SO0 .f32 :=
  accOf 20 (fun n => k0_pay2 (k0_pay1 (F := F)) (lhs0 V c n) (rhs0 V c n)) fun a n => k0_pay2 a (lhs0 V c n) (rhs0 V c n)

theorem acc0_reset (c : Dev nD) (t : Fin cfg0.N) (h : t.val % 20 = 0) :
    acc0 V c t.val = k0_pay2 (k0_pay1 (F := F)) (iblk0 V c 0 t) (iblk0 V c 1 t) :=
  (accOf_reset h).trans (by unfold lhs0 rhs0; rw [natExt_val, natExt_val])

theorem acc0_step (c : Dev nD) (t : Fin cfg0.N) (h : t.val % 20 ≠ 0) :
    acc0 V c t.val = k0_pay2 (acc0 V c (t.val - 1)) (iblk0 V c 0 t) (iblk0 V c 1 t) :=
  (accOf_step h).trans (by unfold lhs0 rhs0; rw [natExt_val, natExt_val]; rfl)

abbrev scM0 : Memref sig .tc .vmem SO0 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

def Phi0 (c : Dev nD) : ℕ → sProp 𝕄 :=
  PhiOf iprop(∃ f : Buf (Elt F) ((c : Thread nD τ).loc cc0_scratch0), ((c : Thread nD τ).loc cc0_scratch0) ↦{fullShare} f)
    (owns (c : Thread nD τ) scM0 fullShare) (acc0 V c) (rest0 c)

theorem Phi0_pos (c : Dev nD) (n : ℕ) (h : n ≠ 0) :
    Phi0 V c n = iprop(owns (c : Thread nD τ) scM0 fullShare (acc0 V c (n - 1)) ∗ rest0 (F := F) c) := PhiOf_pos h

theorem Phi0_any (c : Dev nD) (n : ℕ) :
    Phi0 V c n ⊢ iprop((∃ d, owns (c : Thread nD τ) scM0 fullShare d) ∗ rest0 (F := F) c) :=
  PhiOf_any (by iintro ⟨%f, H⟩; iexists f; rw [owns_whole]; iexact H) n

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val)
  Φ t := Phi0 V c t.val
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = k0_pay3 (acc0 V c t.val) := by dsimp only [dat0]

theorem Phi0_first (c : Dev nD) : (dat0 V c).Φ 0 = iprop((∃ f : Buf (Elt F) ((c : Thread nD τ).loc cc0_scratch0), ((c : Thread nD τ).loc cc0_scratch0) ↦{fullShare} f)
      ∗ Pipeline.scopedRestBut (Ix := Unit) (Name := ℕ) (U := UR sig nD τ) (Lvl := ℕ) (Val := Elt F) spec0 c [cc0_scratch0]) := by
  dsimp only [dat0]; rfl

theorem Phi0_last (c : Dev nD) : (dat0 V c).Φ (Fin.last cfg0.N) = iprop(owns (c : Thread nD τ) scM0 fullShare (acc0 V c (cfg0.N - 1))
      ∗ Pipeline.scopedRestBut (Ix := Unit) (Name := ℕ) (U := UR sig nD τ) (Lvl := ℕ) (Val := Elt F) spec0 c [cc0_scratch0]) := by
  dsimp only [dat0]
  rw [Fin.val_last, Phi0_pos V c _ (Nat.pos_iff_ne_zero.mp N_pos0)]

theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

theorem idle0_2 (i : grid0.Coords) (h : ¬cond0_2 i) : cfg0.idle 2 i = true := by
  show (!(k0_cond2 i == 1#1)) = true
  rw [beq_eq_false_iff_ne.mpr h]; rfl
theorem live0_2 (i : grid0.Coords) (h : cond0_2 i) : cfg0.idle 2 i = false := by
  show (!(k0_cond2 i == 1#1)) = false
  rw [show k0_cond2 i = 1#1 from h]; rfl
theorem noFlush0_2 (t : Fin cfg0.N) (h : ¬t.val % 20 = 19) : (cfg0.win 2).flush t = false :=
  Bool.eq_false_iff.mpr fun hf => h ((flush0_2 t).mp hf)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.castSucc = Phi0 V c t.val from rfl,
    show (dat0 V c).Φ t.succ = iprop(owns (c : Thread nD τ) scM0 fullShare (acc0 V c t.val) ∗ rest0 (F := F) c) from rfl,
    show (dat0 V c).leavesExact 0 t = owns (c : Thread nD τ) (st0_0 t) fullShare (iblk0 V c 0 t) from rfl,
    show (dat0 V c).leavesExact 1 t = owns (c : Thread nD τ) (st0_1 t) fullShare (iblk0 V c 1 t) from rfl]
  by_cases h2 : t.val % 20 = 19
  · have h1 : ¬t.val % 20 = 0 := by omega
    rw [show (dat0 V c).leavesExact 2 t = owns (c : Thread nD τ) (st0_2 t) fullShare ((dat0 V c).after 2 t) from by
      unfold Dat.leavesExact; rw [live0_2 _ ((hcond0_2 t).mpr h2)], after0_2]
    rw [acc0_step V c t h1]
    exact body_shuffle (fun _ => run0_C c Set.univ (grid0.coords t) (st0_0 t) _ (st0_1 t) _ (st0_2 t) _ scM0 _ (iblk0 V c 0 t) (iblk0 V c 1 t)
      (fun h => h1 ((hcond0_1 t).mp h)) ((hcond0_2 t).mpr h2) (acc0 V c (t.val - 1))) (.of_eq (Phi0_pos V c _ (by omega))) (fun _ => exists_intro _) fun _ => .rfl
  · rw [Dat.leavesExact_idle (dat0 V c) 2 t (idle0_2 _ fun h => h2 ((hcond0_2 t).mp h)) (noFlush0_2 t h2)]
    by_cases h1 : t.val % 20 = 0
    · rw [acc0_reset V c t h1]
      exact body_shuffle (fun d => run0_A c Set.univ (grid0.coords t) (st0_0 t) _ (st0_1 t) _ (st0_2 t) _ scM0 _ (iblk0 V c 0 t) (iblk0 V c 1 t)
        ((hcond0_1 t).mpr h1) (fun h => h2 ((hcond0_2 t).mp h)) ((dat0 V c).before 2 t d)) (Phi0_any V c t.val) (fun _ => .rfl) fun d => by iintro H; iexists d; iexact H
    · rw [acc0_step V c t h1]
      exact body_shuffle (fun d => run0_B c Set.univ (grid0.coords t) (st0_0 t) _ (st0_1 t) _ (st0_2 t) _ scM0 _ (iblk0 V c 0 t) (iblk0 V c 1 t)
        (fun h => h1 ((hcond0_1 t).mp h)) (fun h => h2 ((hcond0_2 t).mp h)) ((dat0 V c).before 2 t d) (acc0 V c (t.val - 1))) (.of_eq (Phi0_pos V c _ (by omega))) (fun _ => .rfl) fun d => by iintro H; iexists d; iexact H

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

theorem hcond1_0 : ∀ t : Fin cfg1.N, cond1_0 (grid1.coords t) :=
  (by decide +kernel : ∀ t : Fin grid1.N, cond1_0 (grid1.coords t))
theorem hcond1_1 : ∀ t : Fin cfg1.N, cond1_1 (grid1.coords t) :=
  (by decide +kernel : ∀ t : Fin grid1.N, cond1_1 (grid1.coords t))

set_option maxHeartbeats 1000000 in
theorem sound_kernel1 (c : Dev nD) (E : Set ℕ) (i : grid1.Coords) (hcF : cond1_0 i) (hcL : cond1_1 i)
    (mA : Memref sig .tc .vmem S512x512 .bf16) (hmA : mA.IsWhole) (mB : Memref sig .tc .vmem S512x1024 .bf16) (hmB : mB.IsWhole)
    (mC : Memref sig .tc .vmem S512x1024 .f32) (hmC : mC.IsWhole) (mS : Memref sig .tc .vmem S512x1024 .f32) (hmS : mS.IsWhole)
    (a : Vec F S512x512 .bf16) (b : Vec F S512x1024 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k1_pay2 k1_pay1 a b) ∗ owns (c : Thread nD τ) mS fullShare (k1_pay2 k1_pay1 a b)) -∗ K ⟨⟩))
      ⊢ wp frame (wpE (defs₀ (F := F)) Variants.none c none) E (cc1__matmul_kernel i mA hmA mB hmB mC hmC mS hmS) K := by
  simp only [cc1__matmul_kernel_eq_skeleton]; unfold cc1__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) (n : ℕ) : Vec F S512x1024 .f32 :=
  if h : n < cfg1.N then k1_pay2 k1_pay1 (iblk1 V c 0 ⟨n, h⟩) (iblk1 V c 1 ⟨n, h⟩) else k1_pay1

theorem acc1_reset (c : Dev nD) (t : Fin cfg1.N) :
    acc1 V c t.val = k1_pay2 k1_pay1 (iblk1 V c 0 t) (iblk1 V c 1 t) := dif_pos t.isLt

def Phi1 (c : Dev nD) : ℕ → sProp 𝕄 :=
  PhiOf iprop(∃ f : Buf (Elt F) ((c : Thread nD τ).loc cc1_scratch0), ((c : Thread nD τ).loc cc1_scratch0) ↦{fullShare} f)
    (owns (c : Thread nD τ) (Memref.whole cc1_scratch0) fullShare) (acc1 V c) (Pipeline.scopedRestBut (Ix := Unit) (Name := ℕ) (U := UR sig nD τ) (Lvl := ℕ) (Val := Elt F) spec1 c [cc1_scratch0])

theorem Phi1_any (c : Dev nD) (n : ℕ) :
    Phi1 V c n ⊢ iprop((∃ d, owns (c : Thread nD τ) (Memref.whole cc1_scratch0) fullShare d)
      ∗ Pipeline.scopedRestBut (Ix := Unit) (Name := ℕ) (U := UR sig nD τ) (Lvl := ℕ) (Val := Elt F) spec1 c [cc1_scratch0]) :=
  PhiOf_any (by iintro ⟨%f, H⟩; iexists f; rw [owns_whole]; iexact H) n

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val := by dsimp only [dat1]

theorem Phi1_zero (c : Dev nD) : (dat1 V c).Φ 0 = Phi1 V c 0 := by dsimp only [dat1]; rfl
theorem Phi1_last (c : Dev nD) : (dat1 V c).Φ (Fin.last cfg1.N) = Phi1 V c cfg1.N := by dsimp only [dat1]; rfl

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem liveAt1_2 : ∀ t : Fin cfg1.N, cfg1.idle 2 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(owns (c : Thread nD τ) (Memref.whole cc1_scratch0) fullShare (acc1 V c t.val)
      ∗ Pipeline.scopedRestBut (Ix := Unit) (Name := ℕ) (U := UR sig nD τ) (Lvl := ℕ) (Val := Elt F) spec1 c [cc1_scratch0]) from rfl,
    show (dat1 V c).Φ t.castSucc = Phi1 V c t.val from rfl,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from by
      unfold Dat.leavesExact; rw [liveAt1_2 t],
    after1_0, after1_1, after1_2, acc1_reset]
  exact body_shuffle (fun _ => sound_kernel1 c Set.univ (grid1.coords t) (hcond1_0 t) (hcond1_1 t) (st1_0 t) _ (st1_1 t) _ (st1_2 t) _
    (Memref.whole cc1_scratch0) _ (iblk1 V c 0 t) (iblk1 V c 1 t)) (Phi1_any V c t.val) (fun _ => exists_intro _) fun _ => .rfl

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL2" => S512x512
local notation "SR2" => S512x512
local notation "SO2" => S512x512
local notation "inbL2" => inb_S512x512_S512x512_0_0
local notation "inbR2" => inb_S512x512_S512x512_0_0
local notation "inbO2" => inb_S512x512_S512x512_0_0

abbrev cond2_1 (i : grid2.Coords) : Prop :=
  (Scalar.cmpi .ne (Scalar.extui (Scalar.cmpi .eq (BitVec.ofNat 32 (i 2).val) 0#32)) 0#32) = 1#1
abbrev cond2_2 (i : grid2.Coords) : Prop := k2_cond2 i = 1#1

theorem hcond2_1 : ∀ t : Fin cfg2.N, cond2_1 (grid2.coords t) ↔ t.val % 20 = 0 :=
  (by decide +kernel : ∀ t : Fin grid2.N, cond2_1 (grid2.coords t) ↔ t.val % 20 = 0)
theorem hcond2_2 : ∀ t : Fin cfg2.N, cond2_2 (grid2.coords t) ↔ t.val % 20 = 19 :=
  (by decide +kernel : ∀ t : Fin grid2.N, cond2_2 (grid2.coords t) ↔ t.val % 20 = 19)

section Run

variable (c : Dev nD) (E : Set ℕ) (i : grid2.Coords)
    (arg3 : Memref sig .tc .vmem SL2 .bf16) (harg3 : arg3.IsWhole) (arg4 : Memref sig .tc .vmem SR2 .bf16) (harg4 : arg4.IsWhole)
    (arg5 : Memref sig .tc .vmem SO2 .bf16) (harg5 : arg5.IsWhole) (arg6 : Memref sig .tc .vmem SO2 .f32) (harg6 : arg6.IsWhole)
    (x0 : Vec F SL2 .bf16) (x1 : Vec F SR2 .bf16)

set_option maxHeartbeats 1000000 in
theorem run2_A (hc1 : cond2_1 i) (hc2 : ¬cond2_2 i) (xo : Vec F SO2 .bf16) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k2_pay2 (k2_pay1 (F := F)) x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO2 _ _).trans ?_
  sl_unfold_run_names
  rw [View.readCov_unit_zero (S := SO2) _ zeros2]
  simp only [View.readAt_eq_ld, View.ld_unit_zero (S := SL2) zeros2, View.ld_unit_zero (S := SR2) zeros2]

set_option maxHeartbeats 1000000 in
theorem run2_B (hc1 : ¬cond2_1 i) (hc2 : ¬cond2_2 i) (xo : Vec F SO2 .bf16) (s : Vec F SO2 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k2_pay2 s x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO2 _ _).trans ?_
  try sl_unfold_run_names
  simp only [View.readAt_eq_ld, View.ld_unit_zero (S := SL2) zeros2, View.ld_unit_zero (S := SR2) zeros2, View.ld_unit_zero (S := SO2) zeros2]

set_option maxHeartbeats 1000000 in
theorem run2_C (hc1 : ¬cond2_1 i) (hc2 : cond2_2 i) (s : Vec F SO2 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k2_pay3 (k2_pay2 s x0 x1))
            ∗ owns (c : Thread nD τ) arg6 fullShare (k2_pay2 s x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO2 _ _).trans ?_
    try sl_unfold_run_names
    rw [View.readCov_unit_zero (S := SO2) _ zeros2]
    simp only [View.readAt_eq_ld, View.ld_unit_zero (S := SL2) zeros2, View.ld_unit_zero (S := SR2) zeros2, View.ld_unit_zero (S := SO2) zeros2]
  iexists _; isplitr
  swap; · iexact H3
  ipureintro
  refine (read_store_whole _ _ zeros2 inbO2 _ _).trans ?_
  try sl_unfold_run_names
  simp only [View.readAt_eq_ld, View.ld_unit_zero (S := SL2) zeros2, View.ld_unit_zero (S := SR2) zeros2, View.ld_unit_zero (S := SO2) zeros2]

end Run

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N_pos2 : 0 < cfg2.N := by rw [show cfg2.N = _ from N_2]; decide

def lhs2 (c : Dev nD) : ℕ → Vec F SL2 .bf16 := natExt N_pos2 fun t => iblk2 V c 0 t
def rhs2 (c : Dev nD) : ℕ → Vec F SR2 .bf16 := natExt N_pos2 fun t => iblk2 V c 1 t

def acc2 (c : Dev nD) : ℕ → Vec F SO2 .f32 :=
  accOf 20 (fun n => k2_pay2 (k2_pay1 (F := F)) (lhs2 V c n) (rhs2 V c n)) fun a n => k2_pay2 a (lhs2 V c n) (rhs2 V c n)

theorem acc2_reset (c : Dev nD) (t : Fin cfg2.N) (h : t.val % 20 = 0) :
    acc2 V c t.val = k2_pay2 (k2_pay1 (F := F)) (iblk2 V c 0 t) (iblk2 V c 1 t) :=
  (accOf_reset h).trans (by unfold lhs2 rhs2; rw [natExt_val, natExt_val])

theorem acc2_step (c : Dev nD) (t : Fin cfg2.N) (h : t.val % 20 ≠ 0) :
    acc2 V c t.val = k2_pay2 (acc2 V c (t.val - 1)) (iblk2 V c 0 t) (iblk2 V c 1 t) :=
  (accOf_step h).trans (by unfold lhs2 rhs2; rw [natExt_val, natExt_val]; rfl)

abbrev scM2 : Memref sig .tc .vmem SO2 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

def Phi2 (c : Dev nD) : ℕ → sProp 𝕄 :=
  PhiOf iprop(∃ f : Buf (Elt F) ((c : Thread nD τ).loc cc2_scratch0), ((c : Thread nD τ).loc cc2_scratch0) ↦{fullShare} f)
    (owns (c : Thread nD τ) scM2 fullShare) (acc2 V c) (rest2 c)

theorem Phi2_pos (c : Dev nD) (n : ℕ) (h : n ≠ 0) :
    Phi2 V c n = iprop(owns (c : Thread nD τ) scM2 fullShare (acc2 V c (n - 1)) ∗ rest2 (F := F) c) := PhiOf_pos h

theorem Phi2_any (c : Dev nD) (n : ℕ) :
    Phi2 V c n ⊢ iprop((∃ d, owns (c : Thread nD τ) scM2 fullShare d) ∗ rest2 (F := F) c) :=
  PhiOf_any (by iintro ⟨%f, H⟩; iexists f; rw [owns_whole]; iexact H) n

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val)
  Φ t := Phi2 V c t.val
  q _ := fullShare
  owed _ := 0

theorem A_eq2 (c : Dev nD) (w : Fin cfg2.W) : (dat2 V c).A w = V c (Pipeline.arrRef spec2 w) := by
  dsimp only [dat2]
theorem after2_2 (c : Dev nD) (t : Fin cfg2.N) : (dat2 V c).after 2 t = k2_pay3 (acc2 V c t.val) := by dsimp only [dat2]

theorem Phi2_first (c : Dev nD) : (dat2 V c).Φ 0 = iprop((∃ f : Buf (Elt F) ((c : Thread nD τ).loc cc2_scratch0), ((c : Thread nD τ).loc cc2_scratch0) ↦{fullShare} f)
      ∗ Pipeline.scopedRestBut (Ix := Unit) (Name := ℕ) (U := UR sig nD τ) (Lvl := ℕ) (Val := Elt F) spec2 c [cc2_scratch0]) := by
  dsimp only [dat2]; rfl

theorem Phi2_last (c : Dev nD) : (dat2 V c).Φ (Fin.last cfg2.N) = iprop(owns (c : Thread nD τ) scM2 fullShare (acc2 V c (cfg2.N - 1))
      ∗ Pipeline.scopedRestBut (Ix := Unit) (Name := ℕ) (U := UR sig nD τ) (Lvl := ℕ) (Val := Elt F) spec2 c [cc2_scratch0]) := by
  dsimp only [dat2]
  rw [Fin.val_last, Phi2_pos V c _ (Nat.pos_iff_ne_zero.mp N_pos2)]

theorem before2_0 (c : Dev nD) (t : Fin cfg2.N) (d) : (dat2 V c).before 0 t d = iblk2 V c 0 t :=
  ((dat2 V c).before_fetched 0 t (fetch2_0 t) d).trans (by unfold Dat.fetched Dat.blockOf iblk2; rw [A_eq2]; try rfl)
theorem before2_1 (c : Dev nD) (t : Fin cfg2.N) (d) : (dat2 V c).before 1 t d = iblk2 V c 1 t :=
  ((dat2 V c).before_fetched 1 t (fetch2_1 t) d).trans (by unfold Dat.fetched Dat.blockOf iblk2; rw [A_eq2]; try rfl)

theorem idle2_2 (i : grid2.Coords) (h : ¬cond2_2 i) : cfg2.idle 2 i = true := by
  show (!(k2_cond2 i == 1#1)) = true
  rw [beq_eq_false_iff_ne.mpr h]; rfl
theorem live2_2 (i : grid2.Coords) (h : cond2_2 i) : cfg2.idle 2 i = false := by
  show (!(k2_cond2 i == 1#1)) = false
  rw [show k2_cond2 i = 1#1 from h]; rfl
theorem noFlush2_2 (t : Fin cfg2.N) (h : ¬t.val % 20 = 19) : (cfg2.win 2).flush t = false :=
  Bool.eq_false_iff.mpr fun hf => h ((flush2_2 t).mp hf)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.castSucc = Phi2 V c t.val from rfl,
    show (dat2 V c).Φ t.succ = iprop(owns (c : Thread nD τ) scM2 fullShare (acc2 V c t.val) ∗ rest2 (F := F) c) from rfl,
    show (dat2 V c).leavesExact 0 t = owns (c : Thread nD τ) (st2_0 t) fullShare (iblk2 V c 0 t) from rfl,
    show (dat2 V c).leavesExact 1 t = owns (c : Thread nD τ) (st2_1 t) fullShare (iblk2 V c 1 t) from rfl]
  by_cases h2 : t.val % 20 = 19
  · have h1 : ¬t.val % 20 = 0 := by omega
    rw [show (dat2 V c).leavesExact 2 t = owns (c : Thread nD τ) (st2_2 t) fullShare ((dat2 V c).after 2 t) from by
      unfold Dat.leavesExact; rw [live2_2 _ ((hcond2_2 t).mpr h2)], after2_2]
    rw [acc2_step V c t h1]
    exact body_shuffle (fun _ => run2_C c Set.univ (grid2.coords t) (st2_0 t) _ (st2_1 t) _ (st2_2 t) _ scM2 _ (iblk2 V c 0 t) (iblk2 V c 1 t)
      (fun h => h1 ((hcond2_1 t).mp h)) ((hcond2_2 t).mpr h2) (acc2 V c (t.val - 1))) (.of_eq (Phi2_pos V c _ (by omega))) (fun _ => exists_intro _) fun _ => .rfl
  · rw [Dat.leavesExact_idle (dat2 V c) 2 t (idle2_2 _ fun h => h2 ((hcond2_2 t).mp h)) (noFlush2_2 t h2)]
    by_cases h1 : t.val % 20 = 0
    · rw [acc2_reset V c t h1]
      exact body_shuffle (fun d => run2_A c Set.univ (grid2.coords t) (st2_0 t) _ (st2_1 t) _ (st2_2 t) _ scM2 _ (iblk2 V c 0 t) (iblk2 V c 1 t)
        ((hcond2_1 t).mpr h1) (fun h => h2 ((hcond2_2 t).mp h)) ((dat2 V c).before 2 t d)) (Phi2_any V c t.val) (fun _ => .rfl) fun d => by iintro H; iexists d; iexact H
    · rw [acc2_step V c t h1]
      exact body_shuffle (fun d => run2_B c Set.univ (grid2.coords t) (st2_0 t) _ (st2_1 t) _ (st2_2 t) _ scM2 _ (iblk2 V c 0 t) (iblk2 V c 1 t)
        (fun h => h1 ((hcond2_1 t).mp h)) (fun h => h2 ((hcond2_2 t).mp h)) ((dat2 V c).before 2 t d) (acc2 V c (t.val - 1))) (.of_eq (Phi2_pos V c _ (by omega))) (fun _ => .rfl) fun d => by iintro H; iexists d; iexact H

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 2).val) 0#32)) 0#32) = 1#1
abbrev cond3_1 (i : grid3.Coords) : Prop := k3_cond2 i = 1#1

theorem hcond3_0 : ∀ t : Fin cfg3.N, cond3_0 (grid3.coords t) :=
  (by decide +kernel : ∀ t : Fin grid3.N, cond3_0 (grid3.coords t))
theorem hcond3_1 : ∀ t : Fin cfg3.N, cond3_1 (grid3.coords t) :=
  (by decide +kernel : ∀ t : Fin grid3.N, cond3_1 (grid3.coords t))

set_option maxHeartbeats 1000000 in
theorem sound_kernel3 (c : Dev nD) (E : Set ℕ) (i : grid3.Coords) (hcF : cond3_0 i) (hcL : cond3_1 i)
    (mA : Memref sig .tc .vmem S512x512 .bf16) (hmA : mA.IsWhole) (mB : Memref sig .tc .vmem S512x1024 .bf16) (hmB : mB.IsWhole)
    (mC : Memref sig .tc .vmem S512x1024 .f32) (hmC : mC.IsWhole) (mS : Memref sig .tc .vmem S512x1024 .f32) (hmS : mS.IsWhole)
    (a : Vec F S512x512 .bf16) (b : Vec F S512x1024 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k3_pay2 k3_pay1 a b) ∗ owns (c : Thread nD τ) mS fullShare (k3_pay2 k3_pay1 a b)) -∗ K ⟨⟩))
      ⊢ wp frame (wpE (defs₀ (F := F)) Variants.none c none) E (cc3__matmul_kernel i mA hmA mB hmB mC hmC mS hmS) K := by
  simp only [cc3__matmul_kernel_eq_skeleton]; unfold cc3__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) (n : ℕ) : Vec F S512x1024 .f32 :=
  if h : n < cfg3.N then k3_pay2 k3_pay1 (iblk3 V c 0 ⟨n, h⟩) (iblk3 V c 1 ⟨n, h⟩) else k3_pay1

theorem acc3_reset (c : Dev nD) (t : Fin cfg3.N) :
    acc3 V c t.val = k3_pay2 k3_pay1 (iblk3 V c 0 t) (iblk3 V c 1 t) := dif_pos t.isLt

def Phi3 (c : Dev nD) : ℕ → sProp 𝕄 :=
  PhiOf iprop(∃ f : Buf (Elt F) ((c : Thread nD τ).loc cc3_scratch0), ((c : Thread nD τ).loc cc3_scratch0) ↦{fullShare} f)
    (owns (c : Thread nD τ) (Memref.whole cc3_scratch0) fullShare) (acc3 V c) (Pipeline.scopedRestBut (Ix := Unit) (Name := ℕ) (U := UR sig nD τ) (Lvl := ℕ) (Val := Elt F) spec3 c [cc3_scratch0])

theorem Phi3_any (c : Dev nD) (n : ℕ) :
    Phi3 V c n ⊢ iprop((∃ d, owns (c : Thread nD τ) (Memref.whole cc3_scratch0) fullShare d)
      ∗ Pipeline.scopedRestBut (Ix := Unit) (Name := ℕ) (U := UR sig nD τ) (Lvl := ℕ) (Val := Elt F) spec3 c [cc3_scratch0]) :=
  PhiOf_any (by iintro ⟨%f, H⟩; iexists f; rw [owns_whole]; iexact H) n

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val := by dsimp only [dat3]

theorem Phi3_zero (c : Dev nD) : (dat3 V c).Φ 0 = Phi3 V c 0 := by dsimp only [dat3]; rfl
theorem Phi3_last (c : Dev nD) : (dat3 V c).Φ (Fin.last cfg3.N) = Phi3 V c cfg3.N := by dsimp only [dat3]; rfl

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem liveAt3_2 : ∀ t : Fin cfg3.N, cfg3.idle 2 (grid3.coords t) = false := by decide +kernel

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = iprop(owns (c : Thread nD τ) (Memref.whole cc3_scratch0) fullShare (acc3 V c t.val)
      ∗ Pipeline.scopedRestBut (Ix := Unit) (Name := ℕ) (U := UR sig nD τ) (Lvl := ℕ) (Val := Elt F) spec3 c [cc3_scratch0]) from rfl,
    show (dat3 V c).Φ t.castSucc = Phi3 V c t.val from rfl,
    show (dat3 V c).leavesExact 0 t = owns (c : Thread nD τ) (st3_0 t) fullShare ((dat3 V c).after 0 t) from rfl,
    show (dat3 V c).leavesExact 1 t = owns (c : Thread nD τ) (st3_1 t) fullShare ((dat3 V c).after 1 t) from rfl,
    show (dat3 V c).leavesExact 2 t = owns (c : Thread nD τ) (st3_2 t) fullShare ((dat3 V c).after 2 t) from by
      unfold Dat.leavesExact; rw [liveAt3_2 t],
    after3_0, after3_1, after3_2, acc3_reset]
  exact body_shuffle (fun _ => sound_kernel3 c Set.univ (grid3.coords t) (hcond3_0 t) (hcond3_1 t) (st3_0 t) _ (st3_1 t) _ (st3_2 t) _
    (Memref.whole cc3_scratch0) _ (iblk3 V c 0 t) (iblk3 V c 1 t)) (Phi3_any V c t.val) (fun _ => exists_intro _) fun _ => .rfl

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 2).val) 0#32)) 0#32) = 1#1
abbrev cond4_1 (i : grid4.Coords) : Prop := k4_cond2 i = 1#1

theorem hcond4_0 : ∀ t : Fin cfg4.N, cond4_0 (grid4.coords t) :=
  (by decide +kernel : ∀ t : Fin grid4.N, cond4_0 (grid4.coords t))
theorem hcond4_1 : ∀ t : Fin cfg4.N, cond4_1 (grid4.coords t) :=
  (by decide +kernel : ∀ t : Fin grid4.N, cond4_1 (grid4.coords t))

set_option maxHeartbeats 1000000 in
theorem sound_kernel4 (c : Dev nD) (E : Set ℕ) (i : grid4.Coords) (hcF : cond4_0 i) (hcL : cond4_1 i)
    (mA : Memref sig .tc .vmem S512x1024 .bf16) (hmA : mA.IsWhole) (mB : Memref sig .tc .vmem S1024x512 .bf16) (hmB : mB.IsWhole)
    (mC : Memref sig .tc .vmem S512x512 .bf16) (hmC : mC.IsWhole) (mS : Memref sig .tc .vmem S512x512 .f32) (hmS : mS.IsWhole)
    (a : Vec F S512x1024 .bf16) (b : Vec F S1024x512 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k4_pay3 (k4_pay2 k4_pay1 a b)) ∗ owns (c : Thread nD τ) mS fullShare (k4_pay2 k4_pay1 a b)) -∗ K ⟨⟩))
      ⊢ wp frame (wpE (defs₀ (F := F)) Variants.none c none) E (cc4__matmul_kernel i mA hmA mB hmB mC hmC mS hmS) K := by
  simp only [cc4__matmul_kernel_eq_skeleton]; unfold cc4__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) (n : ℕ) : Vec F S512x512 .f32 :=
  if h : n < cfg4.N then k4_pay2 k4_pay1 (iblk4 V c 0 ⟨n, h⟩) (iblk4 V c 1 ⟨n, h⟩) else k4_pay1

theorem acc4_reset (c : Dev nD) (t : Fin cfg4.N) :
    acc4 V c t.val = k4_pay2 k4_pay1 (iblk4 V c 0 t) (iblk4 V c 1 t) := dif_pos t.isLt

def Phi4 (c : Dev nD) : ℕ → sProp 𝕄 :=
  PhiOf iprop(∃ f : Buf (Elt F) ((c : Thread nD τ).loc cc4_scratch0), ((c : Thread nD τ).loc cc4_scratch0) ↦{fullShare} f)
    (owns (c : Thread nD τ) (Memref.whole cc4_scratch0) fullShare) (acc4 V c) (Pipeline.scopedRestBut (Ix := Unit) (Name := ℕ) (U := UR sig nD τ) (Lvl := ℕ) (Val := Elt F) spec4 c [cc4_scratch0])

theorem Phi4_any (c : Dev nD) (n : ℕ) :
    Phi4 V c n ⊢ iprop((∃ d, owns (c : Thread nD τ) (Memref.whole cc4_scratch0) fullShare d)
      ∗ Pipeline.scopedRestBut (Ix := Unit) (Name := ℕ) (U := UR sig nD τ) (Lvl := ℕ) (Val := Elt F) spec4 c [cc4_scratch0]) :=
  PhiOf_any (by iintro ⟨%f, H⟩; iexists f; rw [owns_whole]; iexact H) n

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (acc4 V c t.val) := by dsimp only [dat4]

theorem Phi4_zero (c : Dev nD) : (dat4 V c).Φ 0 = Phi4 V c 0 := by dsimp only [dat4]; rfl
theorem Phi4_last (c : Dev nD) : (dat4 V c).Φ (Fin.last cfg4.N) = Phi4 V c cfg4.N := by dsimp only [dat4]; rfl

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem liveAt4_2 : ∀ t : Fin cfg4.N, cfg4.idle 2 (grid4.coords t) = false := by decide +kernel

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = iprop(owns (c : Thread nD τ) (Memref.whole cc4_scratch0) fullShare (acc4 V c t.val)
      ∗ Pipeline.scopedRestBut (Ix := Unit) (Name := ℕ) (U := UR sig nD τ) (Lvl := ℕ) (Val := Elt F) spec4 c [cc4_scratch0]) from rfl,
    show (dat4 V c).Φ t.castSucc = Phi4 V c t.val from rfl,
    show (dat4 V c).leavesExact 0 t = owns (c : Thread nD τ) (st4_0 t) fullShare ((dat4 V c).after 0 t) from rfl,
    show (dat4 V c).leavesExact 1 t = owns (c : Thread nD τ) (st4_1 t) fullShare ((dat4 V c).after 1 t) from rfl,
    show (dat4 V c).leavesExact 2 t = owns (c : Thread nD τ) (st4_2 t) fullShare ((dat4 V c).after 2 t) from by
      unfold Dat.leavesExact; rw [liveAt4_2 t],
    after4_0, after4_1, after4_2, acc4_reset]
  exact body_shuffle (fun _ => sound_kernel4 c Set.univ (grid4.coords t) (hcond4_0 t) (hcond4_1 t) (st4_0 t) _ (st4_1 t) _ (st4_2 t) _
    (Memref.whole cc4_scratch0) _ (iblk4 V c 0 t) (iblk4 V c 1 t)) (Phi4_any V c t.val) (fun _ => exists_intro _) fun _ => .rfl

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL5" => S512x512
local notation "SR5" => S512x512
local notation "SO5" => S512x512
local notation "inbL5" => inb_S512x512_S512x512_0_0
local notation "inbR5" => inb_S512x512_S512x512_0_0
local notation "inbO5" => inb_S512x512_S512x512_0_0

abbrev cond5_1 (i : grid5.Coords) : Prop :=
  (Scalar.cmpi .ne (Scalar.extui (Scalar.cmpi .eq (BitVec.ofNat 32 (i 2).val) 0#32)) 0#32) = 1#1
abbrev cond5_2 (i : grid5.Coords) : Prop := k5_cond2 i = 1#1

theorem hcond5_1 : ∀ t : Fin cfg5.N, cond5_1 (grid5.coords t) ↔ t.val % 20 = 0 :=
  (by decide +kernel : ∀ t : Fin grid5.N, cond5_1 (grid5.coords t) ↔ t.val % 20 = 0)
theorem hcond5_2 : ∀ t : Fin cfg5.N, cond5_2 (grid5.coords t) ↔ t.val % 20 = 19 :=
  (by decide +kernel : ∀ t : Fin grid5.N, cond5_2 (grid5.coords t) ↔ t.val % 20 = 19)

section Run

variable (c : Dev nD) (E : Set ℕ) (i : grid5.Coords)
    (arg3 : Memref sig .tc .vmem SL5 .bf16) (harg3 : arg3.IsWhole) (arg4 : Memref sig .tc .vmem SR5 .bf16) (harg4 : arg4.IsWhole)
    (arg5 : Memref sig .tc .vmem SO5 .f32) (harg5 : arg5.IsWhole) (arg6 : Memref sig .tc .vmem SO5 .f32) (harg6 : arg6.IsWhole)
    (x0 : Vec F SL5 .bf16) (x1 : Vec F SR5 .bf16)

set_option maxHeartbeats 1000000 in
theorem run5_A (hc1 : cond5_1 i) (hc2 : ¬cond5_2 i) (xo : Vec F SO5 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k5_pay2 (k5_pay1 (F := F)) x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO5 _ _).trans ?_
  sl_unfold_run_names
  rw [View.readCov_unit_zero (S := SO5) _ zeros2]
  simp only [View.readAt_eq_ld, View.ld_unit_zero (S := SL5) zeros2, View.ld_unit_zero (S := SR5) zeros2]

set_option maxHeartbeats 1000000 in
theorem run5_B (hc1 : ¬cond5_1 i) (hc2 : ¬cond5_2 i) (xo : Vec F SO5 .f32) (s : Vec F SO5 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k5_pay2 s x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO5 _ _).trans ?_
  try sl_unfold_run_names
  simp only [View.readAt_eq_ld, View.ld_unit_zero (S := SL5) zeros2, View.ld_unit_zero (S := SR5) zeros2, View.ld_unit_zero (S := SO5) zeros2]

set_option maxHeartbeats 1000000 in
theorem run5_C (hc1 : ¬cond5_1 i) (hc2 : cond5_2 i) (s : Vec F SO5 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k5_pay2 s x0 x1)
            ∗ owns (c : Thread nD τ) arg6 fullShare (k5_pay2 s x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO5 _ _).trans ?_
    try sl_unfold_run_names
    rw [View.readCov_unit_zero (S := SO5) _ zeros2]
    simp only [View.readAt_eq_ld, View.ld_unit_zero (S := SL5) zeros2, View.ld_unit_zero (S := SR5) zeros2, View.ld_unit_zero (S := SO5) zeros2]
  iexists _; isplitr
  swap; · iexact H3
  ipureintro
  refine (read_store_whole _ _ zeros2 inbO5 _ _).trans ?_
  try sl_unfold_run_names
  simp only [View.readAt_eq_ld, View.ld_unit_zero (S := SL5) zeros2, View.ld_unit_zero (S := SR5) zeros2, View.ld_unit_zero (S := SO5) zeros2]

end Run

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem N_pos5 : 0 < cfg5.N := by rw [show cfg5.N = _ from N_5]; decide

def lhs5 (c : Dev nD) : ℕ → Vec F SL5 .bf16 := natExt N_pos5 fun t => iblk5 V c 0 t
def rhs5 (c : Dev nD) : ℕ → Vec F SR5 .bf16 := natExt N_pos5 fun t => iblk5 V c 1 t

def acc5 (c : Dev nD) : ℕ → Vec F SO5 .f32 :=
  accOf 20 (fun n => k5_pay2 (k5_pay1 (F := F)) (lhs5 V c n) (rhs5 V c n)) fun a n => k5_pay2 a (lhs5 V c n) (rhs5 V c n)

theorem acc5_reset (c : Dev nD) (t : Fin cfg5.N) (h : t.val % 20 = 0) :
    acc5 V c t.val = k5_pay2 (k5_pay1 (F := F)) (iblk5 V c 0 t) (iblk5 V c 1 t) :=
  (accOf_reset h).trans (by unfold lhs5 rhs5; rw [natExt_val, natExt_val])

theorem acc5_step (c : Dev nD) (t : Fin cfg5.N) (h : t.val % 20 ≠ 0) :
    acc5 V c t.val = k5_pay2 (acc5 V c (t.val - 1)) (iblk5 V c 0 t) (iblk5 V c 1 t) :=
  (accOf_step h).trans (by unfold lhs5 rhs5; rw [natExt_val, natExt_val]; rfl)

abbrev scM5 : Memref sig .tc .vmem SO5 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

def Phi5 (c : Dev nD) : ℕ → sProp 𝕄 :=
  PhiOf iprop(∃ f : Buf (Elt F) ((c : Thread nD τ).loc cc5_scratch0), ((c : Thread nD τ).loc cc5_scratch0) ↦{fullShare} f)
    (owns (c : Thread nD τ) scM5 fullShare) (acc5 V c) (rest5 c)

theorem Phi5_pos (c : Dev nD) (n : ℕ) (h : n ≠ 0) :
    Phi5 V c n = iprop(owns (c : Thread nD τ) scM5 fullShare (acc5 V c (n - 1)) ∗ rest5 (F := F) c) := PhiOf_pos h

theorem Phi5_any (c : Dev nD) (n : ℕ) :
    Phi5 V c n ⊢ iprop((∃ d, owns (c : Thread nD τ) scM5 fullShare d) ∗ rest5 (F := F) c) :=
  PhiOf_any (by iintro ⟨%f, H⟩; iexists f; rw [owns_whole]; iexact H) n

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val
  Φ t := Phi5 V c t.val
  q _ := fullShare
  owed _ := 0

theorem A_eq5 (c : Dev nD) (w : Fin cfg5.W) : (dat5 V c).A w = V c (Pipeline.arrRef spec5 w) := by
  dsimp only [dat5]
theorem after5_2 (c : Dev nD) (t : Fin cfg5.N) : (dat5 V c).after 2 t = acc5 V c t.val := by dsimp only [dat5]

theorem Phi5_first (c : Dev nD) : (dat5 V c).Φ 0 = iprop((∃ f : Buf (Elt F) ((c : Thread nD τ).loc cc5_scratch0), ((c : Thread nD τ).loc cc5_scratch0) ↦{fullShare} f)
      ∗ Pipeline.scopedRestBut (Ix := Unit) (Name := ℕ) (U := UR sig nD τ) (Lvl := ℕ) (Val := Elt F) spec5 c [cc5_scratch0]) := by
  dsimp only [dat5]; rfl

theorem Phi5_last (c : Dev nD) : (dat5 V c).Φ (Fin.last cfg5.N) = iprop(owns (c : Thread nD τ) scM5 fullShare (acc5 V c (cfg5.N - 1))
      ∗ Pipeline.scopedRestBut (Ix := Unit) (Name := ℕ) (U := UR sig nD τ) (Lvl := ℕ) (Val := Elt F) spec5 c [cc5_scratch0]) := by
  dsimp only [dat5]
  rw [Fin.val_last, Phi5_pos V c _ (Nat.pos_iff_ne_zero.mp N_pos5)]

theorem before5_0 (c : Dev nD) (t : Fin cfg5.N) (d) : (dat5 V c).before 0 t d = iblk5 V c 0 t :=
  ((dat5 V c).before_fetched 0 t (fetch5_0 t) d).trans (by unfold Dat.fetched Dat.blockOf iblk5; rw [A_eq5]; try rfl)
theorem before5_1 (c : Dev nD) (t : Fin cfg5.N) (d) : (dat5 V c).before 1 t d = iblk5 V c 1 t :=
  ((dat5 V c).before_fetched 1 t (fetch5_1 t) d).trans (by unfold Dat.fetched Dat.blockOf iblk5; rw [A_eq5]; try rfl)

theorem idle5_2 (i : grid5.Coords) (h : ¬cond5_2 i) : cfg5.idle 2 i = true := by
  show (!(k5_cond2 i == 1#1)) = true
  rw [beq_eq_false_iff_ne.mpr h]; rfl
theorem live5_2 (i : grid5.Coords) (h : cond5_2 i) : cfg5.idle 2 i = false := by
  show (!(k5_cond2 i == 1#1)) = false
  rw [show k5_cond2 i = 1#1 from h]; rfl
theorem noFlush5_2 (t : Fin cfg5.N) (h : ¬t.val % 20 = 19) : (cfg5.win 2).flush t = false :=
  Bool.eq_false_iff.mpr fun hf => h ((flush5_2 t).mp hf)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    show (dat5 V c).Φ t.castSucc = Phi5 V c t.val from rfl,
    show (dat5 V c).Φ t.succ = iprop(owns (c : Thread nD τ) scM5 fullShare (acc5 V c t.val) ∗ rest5 (F := F) c) from rfl,
    show (dat5 V c).leavesExact 0 t = owns (c : Thread nD τ) (st5_0 t) fullShare (iblk5 V c 0 t) from rfl,
    show (dat5 V c).leavesExact 1 t = owns (c : Thread nD τ) (st5_1 t) fullShare (iblk5 V c 1 t) from rfl]
  by_cases h2 : t.val % 20 = 19
  · have h1 : ¬t.val % 20 = 0 := by omega
    rw [show (dat5 V c).leavesExact 2 t = owns (c : Thread nD τ) (st5_2 t) fullShare ((dat5 V c).after 2 t) from by
      unfold Dat.leavesExact; rw [live5_2 _ ((hcond5_2 t).mpr h2)], after5_2]
    rw [acc5_step V c t h1]
    exact body_shuffle (fun _ => run5_C c Set.univ (grid5.coords t) (st5_0 t) _ (st5_1 t) _ (st5_2 t) _ scM5 _ (iblk5 V c 0 t) (iblk5 V c 1 t)
      (fun h => h1 ((hcond5_1 t).mp h)) ((hcond5_2 t).mpr h2) (acc5 V c (t.val - 1))) (.of_eq (Phi5_pos V c _ (by omega))) (fun _ => exists_intro _) fun _ => .rfl
  · rw [Dat.leavesExact_idle (dat5 V c) 2 t (idle5_2 _ fun h => h2 ((hcond5_2 t).mp h)) (noFlush5_2 t h2)]
    by_cases h1 : t.val % 20 = 0
    · rw [acc5_reset V c t h1]
      exact body_shuffle (fun d => run5_A c Set.univ (grid5.coords t) (st5_0 t) _ (st5_1 t) _ (st5_2 t) _ scM5 _ (iblk5 V c 0 t) (iblk5 V c 1 t)
        ((hcond5_1 t).mpr h1) (fun h => h2 ((hcond5_2 t).mp h)) ((dat5 V c).before 2 t d)) (Phi5_any V c t.val) (fun _ => .rfl) fun d => by iintro H; iexists d; iexact H
    · rw [acc5_step V c t h1]
      exact body_shuffle (fun d => run5_B c Set.univ (grid5.coords t) (st5_0 t) _ (st5_1 t) _ (st5_2 t) _ scM5 _ (iblk5 V c 0 t) (iblk5 V c 1 t)
        (fun h => h1 ((hcond5_1 t).mp h)) (fun h => h2 ((hcond5_2 t).mp h)) ((dat5 V c).before 2 t d) (acc5 V c (t.val - 1))) (.of_eq (Phi5_pos V c _ (by omega))) (fun _ => .rfl) fun d => by iintro H; iexists d; iexact H

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond6_0 (i : grid6.Coords) : Prop := (Scalar.cmpi .ne (Scalar.extui (Scalar.cmpi .eq (BitVec.ofNat 32 (i 2).val) 0#32)) 0#32) = 1#1
abbrev cond6_1 (i : grid6.Coords) : Prop := k6_cond2 i = 1#1

theorem hcond6_0 : ∀ t : Fin cfg6.N, cond6_0 (grid6.coords t) :=
  (by decide +kernel : ∀ t : Fin grid6.N, cond6_0 (grid6.coords t))
theorem hcond6_1 : ∀ t : Fin cfg6.N, cond6_1 (grid6.coords t) :=
  (by decide +kernel : ∀ t : Fin grid6.N, cond6_1 (grid6.coords t))

set_option maxHeartbeats 1000000 in
theorem sound_kernel6 (c : Dev nD) (E : Set ℕ) (i : grid6.Coords) (hcF : cond6_0 i) (hcL : cond6_1 i)
    (mA : Memref sig .tc .vmem S512x1024 .bf16) (hmA : mA.IsWhole) (mB : Memref sig .tc .vmem S1024x512 .bf16) (hmB : mB.IsWhole)
    (mC : Memref sig .tc .vmem S512x512 .bf16) (hmC : mC.IsWhole) (mS : Memref sig .tc .vmem S512x512 .f32) (hmS : mS.IsWhole)
    (a : Vec F S512x1024 .bf16) (b : Vec F S1024x512 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k6_pay3 (k6_pay2 k6_pay1 a b)) ∗ owns (c : Thread nD τ) mS fullShare (k6_pay2 k6_pay1 a b)) -∗ K ⟨⟩))
      ⊢ wp frame (wpE (defs₀ (F := F)) Variants.none c none) E (cc6__matmul_kernel i mA hmA mB hmB mC hmC mS hmS) K := by
  simp only [cc6__matmul_kernel_eq_skeleton]; unfold cc6__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) (n : ℕ) : Vec F S512x512 .f32 :=
  if h : n < cfg6.N then k6_pay2 k6_pay1 (iblk6 V c 0 ⟨n, h⟩) (iblk6 V c 1 ⟨n, h⟩) else k6_pay1

theorem acc6_reset (c : Dev nD) (t : Fin cfg6.N) :
    acc6 V c t.val = k6_pay2 k6_pay1 (iblk6 V c 0 t) (iblk6 V c 1 t) := dif_pos t.isLt

def Phi6 (c : Dev nD) : ℕ → sProp 𝕄 :=
  PhiOf iprop(∃ f : Buf (Elt F) ((c : Thread nD τ).loc cc6_scratch0), ((c : Thread nD τ).loc cc6_scratch0) ↦{fullShare} f)
    (owns (c : Thread nD τ) (Memref.whole cc6_scratch0) fullShare) (acc6 V c) (Pipeline.scopedRestBut (Ix := Unit) (Name := ℕ) (U := UR sig nD τ) (Lvl := ℕ) (Val := Elt F) spec6 c [cc6_scratch0])

theorem Phi6_any (c : Dev nD) (n : ℕ) :
    Phi6 V c n ⊢ iprop((∃ d, owns (c : Thread nD τ) (Memref.whole cc6_scratch0) fullShare d)
      ∗ Pipeline.scopedRestBut (Ix := Unit) (Name := ℕ) (U := UR sig nD τ) (Lvl := ℕ) (Val := Elt F) spec6 c [cc6_scratch0]) :=
  PhiOf_any (by iintro ⟨%f, H⟩; iexists f; rw [owns_whole]; iexact H) n

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (acc6 V c t.val)
  Φ t := Phi6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay3 (acc6 V c t.val) := by dsimp only [dat6]

theorem Phi6_zero (c : Dev nD) : (dat6 V c).Φ 0 = Phi6 V c 0 := by dsimp only [dat6]; rfl
theorem Phi6_last (c : Dev nD) : (dat6 V c).Φ (Fin.last cfg6.N) = Phi6 V c cfg6.N := by dsimp only [dat6]; rfl

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)

theorem liveAt6_2 : ∀ t : Fin cfg6.N, cfg6.idle 2 (grid6.coords t) = false := by decide +kernel

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = iprop(owns (c : Thread nD τ) (Memref.whole cc6_scratch0) fullShare (acc6 V c t.val)
      ∗ Pipeline.scopedRestBut (Ix := Unit) (Name := ℕ) (U := UR sig nD τ) (Lvl := ℕ) (Val := Elt F) spec6 c [cc6_scratch0]) from rfl,
    show (dat6 V c).Φ t.castSucc = Phi6 V c t.val from rfl,
    show (dat6 V c).leavesExact 0 t = owns (c : Thread nD τ) (st6_0 t) fullShare ((dat6 V c).after 0 t) from rfl,
    show (dat6 V c).leavesExact 1 t = owns (c : Thread nD τ) (st6_1 t) fullShare ((dat6 V c).after 1 t) from rfl,
    show (dat6 V c).leavesExact 2 t = owns (c : Thread nD τ) (st6_2 t) fullShare ((dat6 V c).after 2 t) from by
      unfold Dat.leavesExact; rw [liveAt6_2 t],
    after6_0, after6_1, after6_2, acc6_reset]
  exact body_shuffle (fun _ => sound_kernel6 c Set.univ (grid6.coords t) (hcond6_0 t) (hcond6_1 t) (st6_0 t) _ (st6_1 t) _ (st6_2 t) _
    (Memref.whole cc6_scratch0) _ (iblk6 V c 0 t) (iblk6 V c 1 t)) (Phi6_any V c t.val) (fun _ => exists_intro _) fun _ => .rfl

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL7" => S512x512
local notation "SR7" => S512x512
local notation "SO7" => S512x512
local notation "inbL7" => inb_S512x512_S512x512_0_0
local notation "inbR7" => inb_S512x512_S512x512_0_0
local notation "inbO7" => inb_S512x512_S512x512_0_0

abbrev cond7_1 (i : grid7.Coords) : Prop :=
  (Scalar.cmpi .ne (Scalar.extui (Scalar.cmpi .eq (BitVec.ofNat 32 (i 2).val) 0#32)) 0#32) = 1#1
abbrev cond7_2 (i : grid7.Coords) : Prop := k7_cond2 i = 1#1

theorem hcond7_1 : ∀ t : Fin cfg7.N, cond7_1 (grid7.coords t) ↔ t.val % 20 = 0 :=
  (by decide +kernel : ∀ t : Fin grid7.N, cond7_1 (grid7.coords t) ↔ t.val % 20 = 0)
theorem hcond7_2 : ∀ t : Fin cfg7.N, cond7_2 (grid7.coords t) ↔ t.val % 20 = 19 :=
  (by decide +kernel : ∀ t : Fin grid7.N, cond7_2 (grid7.coords t) ↔ t.val % 20 = 19)

section Run

variable (c : Dev nD) (E : Set ℕ) (i : grid7.Coords)
    (arg3 : Memref sig .tc .vmem SL7 .bf16) (harg3 : arg3.IsWhole) (arg4 : Memref sig .tc .vmem SR7 .bf16) (harg4 : arg4.IsWhole)
    (arg5 : Memref sig .tc .vmem SO7 .f32) (harg5 : arg5.IsWhole) (arg6 : Memref sig .tc .vmem SO7 .f32) (harg6 : arg6.IsWhole)
    (x0 : Vec F SL7 .bf16) (x1 : Vec F SR7 .bf16)

set_option maxHeartbeats 1000000 in
theorem run7_A (hc1 : cond7_1 i) (hc2 : ¬cond7_2 i) (xo : Vec F SO7 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k7_pay2 (k7_pay1 (F := F)) x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO7 _ _).trans ?_
  sl_unfold_run_names
  rw [View.readCov_unit_zero (S := SO7) _ zeros2]
  simp only [View.readAt_eq_ld, View.ld_unit_zero (S := SL7) zeros2, View.ld_unit_zero (S := SR7) zeros2]

set_option maxHeartbeats 1000000 in
theorem run7_B (hc1 : ¬cond7_1 i) (hc2 : ¬cond7_2 i) (xo : Vec F SO7 .f32) (s : Vec F SO7 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k7_pay2 s x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO7 _ _).trans ?_
  try sl_unfold_run_names
  simp only [View.readAt_eq_ld, View.ld_unit_zero (S := SL7) zeros2, View.ld_unit_zero (S := SR7) zeros2, View.ld_unit_zero (S := SO7) zeros2]

set_option maxHeartbeats 1000000 in
theorem run7_C (hc1 : ¬cond7_1 i) (hc2 : cond7_2 i) (s : Vec F SO7 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k7_pay2 s x0 x1)
            ∗ owns (c : Thread nD τ) arg6 fullShare (k7_pay2 s x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO7 _ _).trans ?_
    try sl_unfold_run_names
    rw [View.readCov_unit_zero (S := SO7) _ zeros2]
    simp only [View.readAt_eq_ld, View.ld_unit_zero (S := SL7) zeros2, View.ld_unit_zero (S := SR7) zeros2, View.ld_unit_zero (S := SO7) zeros2]
  iexists _; isplitr
  swap; · iexact H3
  ipureintro
  refine (read_store_whole _ _ zeros2 inbO7 _ _).trans ?_
  try sl_unfold_run_names
  simp only [View.readAt_eq_ld, View.ld_unit_zero (S := SL7) zeros2, View.ld_unit_zero (S := SR7) zeros2, View.ld_unit_zero (S := SO7) zeros2]

end Run

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem N_pos7 : 0 < cfg7.N := by rw [show cfg7.N = _ from N_7]; decide

def lhs7 (c : Dev nD) : ℕ → Vec F SL7 .bf16 := natExt N_pos7 fun t => iblk7 V c 0 t
def rhs7 (c : Dev nD) : ℕ → Vec F SR7 .bf16 := natExt N_pos7 fun t => iblk7 V c 1 t

def acc7 (c : Dev nD) : ℕ → Vec F SO7 .f32 :=
  accOf 20 (fun n => k7_pay2 (k7_pay1 (F := F)) (lhs7 V c n) (rhs7 V c n)) fun a n => k7_pay2 a (lhs7 V c n) (rhs7 V c n)

theorem acc7_reset (c : Dev nD) (t : Fin cfg7.N) (h : t.val % 20 = 0) :
    acc7 V c t.val = k7_pay2 (k7_pay1 (F := F)) (iblk7 V c 0 t) (iblk7 V c 1 t) :=
  (accOf_reset h).trans (by unfold lhs7 rhs7; rw [natExt_val, natExt_val])

theorem acc7_step (c : Dev nD) (t : Fin cfg7.N) (h : t.val % 20 ≠ 0) :
    acc7 V c t.val = k7_pay2 (acc7 V c (t.val - 1)) (iblk7 V c 0 t) (iblk7 V c 1 t) :=
  (accOf_step h).trans (by unfold lhs7 rhs7; rw [natExt_val, natExt_val]; rfl)

abbrev scM7 : Memref sig .tc .vmem SO7 .f32 := Memref.whole cc7_scratch0

abbrev rest7 (c : Dev nD) : sProp 𝕄 :=
  Pipeline.scopedRestBut (Ix := Unit) (Name := ℕ) (U := UR sig nD τ) (Lvl := ℕ) (Val := Elt F) spec7 c [cc7_scratch0]

def Phi7 (c : Dev nD) : ℕ → sProp 𝕄 :=
  PhiOf iprop(∃ f : Buf (Elt F) ((c : Thread nD τ).loc cc7_scratch0), ((c : Thread nD τ).loc cc7_scratch0) ↦{fullShare} f)
    (owns (c : Thread nD τ) scM7 fullShare) (acc7 V c) (rest7 c)

theorem Phi7_pos (c : Dev nD) (n : ℕ) (h : n ≠ 0) :
    Phi7 V c n = iprop(owns (c : Thread nD τ) scM7 fullShare (acc7 V c (n - 1)) ∗ rest7 (F := F) c) := PhiOf_pos h

theorem Phi7_any (c : Dev nD) (n : ℕ) :
    Phi7 V c n ⊢ iprop((∃ d, owns (c : Thread nD τ) scM7 fullShare d) ∗ rest7 (F := F) c) :=
  PhiOf_any (by iintro ⟨%f, H⟩; iexists f; rw [owns_whole]; iexact H) n

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val
  Φ t := Phi7 V c t.val
  q _ := fullShare
  owed _ := 0

theorem A_eq7 (c : Dev nD) (w : Fin cfg7.W) : (dat7 V c).A w = V c (Pipeline.arrRef spec7 w) := by
  dsimp only [dat7]
theorem after7_2 (c : Dev nD) (t : Fin cfg7.N) : (dat7 V c).after 2 t = acc7 V c t.val := by dsimp only [dat7]

theorem Phi7_first (c : Dev nD) : (dat7 V c).Φ 0 = iprop((∃ f : Buf (Elt F) ((c : Thread nD τ).loc cc7_scratch0), ((c : Thread nD τ).loc cc7_scratch0) ↦{fullShare} f)
      ∗ Pipeline.scopedRestBut (Ix := Unit) (Name := ℕ) (U := UR sig nD τ) (Lvl := ℕ) (Val := Elt F) spec7 c [cc7_scratch0]) := by
  dsimp only [dat7]; rfl

theorem Phi7_last (c : Dev nD) : (dat7 V c).Φ (Fin.last cfg7.N) = iprop(owns (c : Thread nD τ) scM7 fullShare (acc7 V c (cfg7.N - 1))
      ∗ Pipeline.scopedRestBut (Ix := Unit) (Name := ℕ) (U := UR sig nD τ) (Lvl := ℕ) (Val := Elt F) spec7 c [cc7_scratch0]) := by
  dsimp only [dat7]
  rw [Fin.val_last, Phi7_pos V c _ (Nat.pos_iff_ne_zero.mp N_pos7)]

theorem before7_0 (c : Dev nD) (t : Fin cfg7.N) (d) : (dat7 V c).before 0 t d = iblk7 V c 0 t :=
  ((dat7 V c).before_fetched 0 t (fetch7_0 t) d).trans (by unfold Dat.fetched Dat.blockOf iblk7; rw [A_eq7]; try rfl)
theorem before7_1 (c : Dev nD) (t : Fin cfg7.N) (d) : (dat7 V c).before 1 t d = iblk7 V c 1 t :=
  ((dat7 V c).before_fetched 1 t (fetch7_1 t) d).trans (by unfold Dat.fetched Dat.blockOf iblk7; rw [A_eq7]; try rfl)

theorem idle7_2 (i : grid7.Coords) (h : ¬cond7_2 i) : cfg7.idle 2 i = true := by
  show (!(k7_cond2 i == 1#1)) = true
  rw [beq_eq_false_iff_ne.mpr h]; rfl
theorem live7_2 (i : grid7.Coords) (h : cond7_2 i) : cfg7.idle 2 i = false := by
  show (!(k7_cond2 i == 1#1)) = false
  rw [show k7_cond2 i = 1#1 from h]; rfl
theorem noFlush7_2 (t : Fin cfg7.N) (h : ¬t.val % 20 = 19) : (cfg7.win 2).flush t = false :=
  Bool.eq_false_iff.mpr fun hf => h ((flush7_2 t).mp hf)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl,
    show (dat7 V c).Φ t.castSucc = Phi7 V c t.val from rfl,
    show (dat7 V c).Φ t.succ = iprop(owns (c : Thread nD τ) scM7 fullShare (acc7 V c t.val) ∗ rest7 (F := F) c) from rfl,
    show (dat7 V c).leavesExact 0 t = owns (c : Thread nD τ) (st7_0 t) fullShare (iblk7 V c 0 t) from rfl,
    show (dat7 V c).leavesExact 1 t = owns (c : Thread nD τ) (st7_1 t) fullShare (iblk7 V c 1 t) from rfl]
  by_cases h2 : t.val % 20 = 19
  · have h1 : ¬t.val % 20 = 0 := by omega
    rw [show (dat7 V c).leavesExact 2 t = owns (c : Thread nD τ) (st7_2 t) fullShare ((dat7 V c).after 2 t) from by
      unfold Dat.leavesExact; rw [live7_2 _ ((hcond7_2 t).mpr h2)], after7_2]
    rw [acc7_step V c t h1]
    exact body_shuffle (fun _ => run7_C c Set.univ (grid7.coords t) (st7_0 t) _ (st7_1 t) _ (st7_2 t) _ scM7 _ (iblk7 V c 0 t) (iblk7 V c 1 t)
      (fun h => h1 ((hcond7_1 t).mp h)) ((hcond7_2 t).mpr h2) (acc7 V c (t.val - 1))) (.of_eq (Phi7_pos V c _ (by omega))) (fun _ => exists_intro _) fun _ => .rfl
  · rw [Dat.leavesExact_idle (dat7 V c) 2 t (idle7_2 _ fun h => h2 ((hcond7_2 t).mp h)) (noFlush7_2 t h2)]
    by_cases h1 : t.val % 20 = 0
    · rw [acc7_reset V c t h1]
      exact body_shuffle (fun d => run7_A c Set.univ (grid7.coords t) (st7_0 t) _ (st7_1 t) _ (st7_2 t) _ scM7 _ (iblk7 V c 0 t) (iblk7 V c 1 t)
        ((hcond7_1 t).mpr h1) (fun h => h2 ((hcond7_2 t).mp h)) ((dat7 V c).before 2 t d)) (Phi7_any V c t.val) (fun _ => .rfl) fun d => by iintro H; iexists d; iexact H
    · rw [acc7_step V c t h1]
      exact body_shuffle (fun d => run7_B c Set.univ (grid7.coords t) (st7_0 t) _ (st7_1 t) _ (st7_2 t) _ scM7 _ (iblk7 V c 0 t) (iblk7 V c 1 t)
        (fun h => h1 ((hcond7_1 t).mp h)) (fun h => h2 ((hcond7_2 t).mp h)) ((dat7 V c).before 2 t d) (acc7 V c (t.val - 1))) (.of_eq (Phi7_pos V c _ (by omega))) (fun _ => .rfl) fun d => by iintro H; iexists d; iexact H

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond8_0 (i : grid8.Coords) : Prop := (Scalar.cmpi .ne (Scalar.extui (Scalar.cmpi .eq (BitVec.ofNat 32 (i 2).val) 0#32)) 0#32) = 1#1
abbrev cond8_1 (i : grid8.Coords) : Prop := k8_cond2 i = 1#1

theorem hcond8_0 : ∀ t : Fin cfg8.N, cond8_0 (grid8.coords t) :=
  (by decide +kernel : ∀ t : Fin grid8.N, cond8_0 (grid8.coords t))
theorem hcond8_1 : ∀ t : Fin cfg8.N, cond8_1 (grid8.coords t) :=
  (by decide +kernel : ∀ t : Fin grid8.N, cond8_1 (grid8.coords t))

set_option maxHeartbeats 1000000 in
theorem sound_kernel8 (c : Dev nD) (E : Set ℕ) (i : grid8.Coords) (hcF : cond8_0 i) (hcL : cond8_1 i)
    (mA : Memref sig .tc .vmem S512x512 .bf16) (hmA : mA.IsWhole) (mB : Memref sig .tc .vmem S512x128 .bf16) (hmB : mB.IsWhole)
    (mC : Memref sig .tc .vmem S512x128 .bf16) (hmC : mC.IsWhole) (mS : Memref sig .tc .vmem S512x128 .f32) (hmS : mS.IsWhole)
    (a : Vec F S512x512 .bf16) (b : Vec F S512x128 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k8_pay3 (k8_pay2 k8_pay1 a b)) ∗ owns (c : Thread nD τ) mS fullShare (k8_pay2 k8_pay1 a b)) -∗ K ⟨⟩))
      ⊢ wp frame (wpE (defs₀ (F := F)) Variants.none c none) E (cc8__matmul_kernel i mA hmA mB hmB mC hmC mS hmS) K := by
  simp only [cc8__matmul_kernel_eq_skeleton]; unfold cc8__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) (n : ℕ) : Vec F S512x128 .f32 :=
  if h : n < cfg8.N then k8_pay2 k8_pay1 (iblk8 V c 0 ⟨n, h⟩) (iblk8 V c 1 ⟨n, h⟩) else k8_pay1

theorem acc8_reset (c : Dev nD) (t : Fin cfg8.N) :
    acc8 V c t.val = k8_pay2 k8_pay1 (iblk8 V c 0 t) (iblk8 V c 1 t) := dif_pos t.isLt

def Phi8 (c : Dev nD) : ℕ → sProp 𝕄 :=
  PhiOf iprop(∃ f : Buf (Elt F) ((c : Thread nD τ).loc cc8_scratch0), ((c : Thread nD τ).loc cc8_scratch0) ↦{fullShare} f)
    (owns (c : Thread nD τ) (Memref.whole cc8_scratch0) fullShare) (acc8 V c) (Pipeline.scopedRestBut (Ix := Unit) (Name := ℕ) (U := UR sig nD τ) (Lvl := ℕ) (Val := Elt F) spec8 c [cc8_scratch0])

theorem Phi8_any (c : Dev nD) (n : ℕ) :
    Phi8 V c n ⊢ iprop((∃ d, owns (c : Thread nD τ) (Memref.whole cc8_scratch0) fullShare d)
      ∗ Pipeline.scopedRestBut (Ix := Unit) (Name := ℕ) (U := UR sig nD τ) (Lvl := ℕ) (Val := Elt F) spec8 c [cc8_scratch0]) :=
  PhiOf_any (by iintro ⟨%f, H⟩; iexists f; rw [owns_whole]; iexact H) n

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (acc8 V c t.val)
  Φ t := Phi8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = k8_pay3 (acc8 V c t.val) := by dsimp only [dat8]

theorem Phi8_zero (c : Dev nD) : (dat8 V c).Φ 0 = Phi8 V c 0 := by dsimp only [dat8]; rfl
theorem Phi8_last (c : Dev nD) : (dat8 V c).Φ (Fin.last cfg8.N) = Phi8 V c cfg8.N := by dsimp only [dat8]; rfl

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)

theorem liveAt8_2 : ∀ t : Fin cfg8.N, cfg8.idle 2 (grid8.coords t) = false := by decide +kernel

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.succ = iprop(owns (c : Thread nD τ) (Memref.whole cc8_scratch0) fullShare (acc8 V c t.val)
      ∗ Pipeline.scopedRestBut (Ix := Unit) (Name := ℕ) (U := UR sig nD τ) (Lvl := ℕ) (Val := Elt F) spec8 c [cc8_scratch0]) from rfl,
    show (dat8 V c).Φ t.castSucc = Phi8 V c t.val from rfl,
    show (dat8 V c).leavesExact 0 t = owns (c : Thread nD τ) (st8_0 t) fullShare ((dat8 V c).after 0 t) from rfl,
    show (dat8 V c).leavesExact 1 t = owns (c : Thread nD τ) (st8_1 t) fullShare ((dat8 V c).after 1 t) from rfl,
    show (dat8 V c).leavesExact 2 t = owns (c : Thread nD τ) (st8_2 t) fullShare ((dat8 V c).after 2 t) from by
      unfold Dat.leavesExact; rw [liveAt8_2 t],
    after8_0, after8_1, after8_2, acc8_reset]
  exact body_shuffle (fun _ => sound_kernel8 c Set.univ (grid8.coords t) (hcond8_0 t) (hcond8_1 t) (st8_0 t) _ (st8_1 t) _ (st8_2 t) _
    (Memref.whole cc8_scratch0) _ (iblk8 V c 0 t) (iblk8 V c 1 t)) (Phi8_any V c t.val) (fun _ => exists_intro _) fun _ => .rfl

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL9" => S512x512
local notation "SR9" => S512x128
local notation "SO9" => S512x128
local notation "inbL9" => inb_S512x512_S512x512_0_0
local notation "inbR9" => inb_S512x128_S512x128_0_0
local notation "inbO9" => inb_S512x128_S512x128_0_0

abbrev cond9_1 (i : grid9.Coords) : Prop :=
  (Scalar.cmpi .ne (Scalar.extui (Scalar.cmpi .eq (BitVec.ofNat 32 (i 2).val) 0#32)) 0#32) = 1#1
abbrev cond9_2 (i : grid9.Coords) : Prop := k9_cond2 i = 1#1

theorem hcond9_1 : ∀ t : Fin cfg9.N, cond9_1 (grid9.coords t) ↔ t.val % 20 = 0 :=
  (by decide +kernel : ∀ t : Fin grid9.N, cond9_1 (grid9.coords t) ↔ t.val % 20 = 0)
theorem hcond9_2 : ∀ t : Fin cfg9.N, cond9_2 (grid9.coords t) ↔ t.val % 20 = 19 :=
  (by decide +kernel : ∀ t : Fin grid9.N, cond9_2 (grid9.coords t) ↔ t.val % 20 = 19)

section Run

variable (c : Dev nD) (E : Set ℕ) (i : grid9.Coords)
    (arg3 : Memref sig .tc .vmem SL9 .bf16) (harg3 : arg3.IsWhole) (arg4 : Memref sig .tc .vmem SR9 .bf16) (harg4 : arg4.IsWhole)
    (arg5 : Memref sig .tc .vmem SO9 .f32) (harg5 : arg5.IsWhole) (arg6 : Memref sig .tc .vmem SO9 .f32) (harg6 : arg6.IsWhole)
    (x0 : Vec F SL9 .bf16) (x1 : Vec F SR9 .bf16)

set_option maxHeartbeats 1000000 in
theorem run9_A (hc1 : cond9_1 i) (hc2 : ¬cond9_2 i) (xo : Vec F SO9 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k9_pay2 (k9_pay1 (F := F)) x0 x1)) -∗ K ⟨⟩))
      ⊢ wp frame (wpE (defs₀ (F := F)) Variants.none c none) E (cc9__matmul_kernel i arg3 harg3 arg4 harg4 arg5 harg5 arg6 harg6) K := by
  simp only [cc9__matmul_kernel_eq_skeleton]; unfold cc9__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO9 _ _).trans ?_
  sl_unfold_run_names
  rw [View.readCov_unit_zero (S := SO9) _ zeros2]
  simp only [View.readAt_eq_ld, View.ld_unit_zero (S := SL9) zeros2, View.ld_unit_zero (S := SR9) zeros2]

set_option maxHeartbeats 1000000 in
theorem run9_B (hc1 : ¬cond9_1 i) (hc2 : ¬cond9_2 i) (xo : Vec F SO9 .f32) (s : Vec F SO9 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k9_pay2 s x0 x1)) -∗ K ⟨⟩))
      ⊢ wp frame (wpE (defs₀ (F := F)) Variants.none c none) E (cc9__matmul_kernel i arg3 harg3 arg4 harg4 arg5 harg5 arg6 harg6) K := by
  simp only [cc9__matmul_kernel_eq_skeleton]; unfold cc9__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO9 _ _).trans ?_
  try sl_unfold_run_names
  simp only [View.readAt_eq_ld, View.ld_unit_zero (S := SL9) zeros2, View.ld_unit_zero (S := SR9) zeros2, View.ld_unit_zero (S := SO9) zeros2]

set_option maxHeartbeats 1000000 in
theorem run9_C (hc1 : ¬cond9_1 i) (hc2 : cond9_2 i) (s : Vec F SO9 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k9_pay2 s x0 x1)
            ∗ owns (c : Thread nD τ) arg6 fullShare (k9_pay2 s x0 x1)) -∗ K ⟨⟩))
      ⊢ wp frame (wpE (defs₀ (F := F)) Variants.none c none) E (cc9__matmul_kernel i arg3 harg3 arg4 harg4 arg5 harg5 arg6 harg6) K := by
  simp only [cc9__matmul_kernel_eq_skeleton]; unfold cc9__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO9 _ _).trans ?_
    try sl_unfold_run_names
    rw [View.readCov_unit_zero (S := SO9) _ zeros2]
    simp only [View.readAt_eq_ld, View.ld_unit_zero (S := SL9) zeros2, View.ld_unit_zero (S := SR9) zeros2, View.ld_unit_zero (S := SO9) zeros2]
  iexists _; isplitr
  swap; · iexact H3
  ipureintro
  refine (read_store_whole _ _ zeros2 inbO9 _ _).trans ?_
  try sl_unfold_run_names
  simp only [View.readAt_eq_ld, View.ld_unit_zero (S := SL9) zeros2, View.ld_unit_zero (S := SR9) zeros2, View.ld_unit_zero (S := SO9) zeros2]

end Run

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem N_pos9 : 0 < cfg9.N := by rw [show cfg9.N = _ from N_9]; decide

def lhs9 (c : Dev nD) : ℕ → Vec F SL9 .bf16 := natExt N_pos9 fun t => iblk9 V c 0 t
def rhs9 (c : Dev nD) : ℕ → Vec F SR9 .bf16 := natExt N_pos9 fun t => iblk9 V c 1 t

def acc9 (c : Dev nD) : ℕ → Vec F SO9 .f32 :=
  accOf 20 (fun n => k9_pay2 (k9_pay1 (F := F)) (lhs9 V c n) (rhs9 V c n)) fun a n => k9_pay2 a (lhs9 V c n) (rhs9 V c n)

theorem acc9_reset (c : Dev nD) (t : Fin cfg9.N) (h : t.val % 20 = 0) :
    acc9 V c t.val = k9_pay2 (k9_pay1 (F := F)) (iblk9 V c 0 t) (iblk9 V c 1 t) :=
  (accOf_reset h).trans (by unfold lhs9 rhs9; rw [natExt_val, natExt_val])

theorem acc9_step (c : Dev nD) (t : Fin cfg9.N) (h : t.val % 20 ≠ 0) :
    acc9 V c t.val = k9_pay2 (acc9 V c (t.val - 1)) (iblk9 V c 0 t) (iblk9 V c 1 t) :=
  (accOf_step h).trans (by unfold lhs9 rhs9; rw [natExt_val, natExt_val]; rfl)

abbrev scM9 : Memref sig .tc .vmem SO9 .f32 := Memref.whole cc9_scratch0

abbrev rest9 (c : Dev nD) : sProp 𝕄 :=
  Pipeline.scopedRestBut (Ix := Unit) (Name := ℕ) (U := UR sig nD τ) (Lvl := ℕ) (Val := Elt F) spec9 c [cc9_scratch0]

def Phi9 (c : Dev nD) : ℕ → sProp 𝕄 :=
  PhiOf iprop(∃ f : Buf (Elt F) ((c : Thread nD τ).loc cc9_scratch0), ((c : Thread nD τ).loc cc9_scratch0) ↦{fullShare} f)
    (owns (c : Thread nD τ) scM9 fullShare) (acc9 V c) (rest9 c)

theorem Phi9_pos (c : Dev nD) (n : ℕ) (h : n ≠ 0) :
    Phi9 V c n = iprop(owns (c : Thread nD τ) scM9 fullShare (acc9 V c (n - 1)) ∗ rest9 (F := F) c) := PhiOf_pos h

theorem Phi9_any (c : Dev nD) (n : ℕ) :
    Phi9 V c n ⊢ iprop((∃ d, owns (c : Thread nD τ) scM9 fullShare d) ∗ rest9 (F := F) c) :=
  PhiOf_any (by iintro ⟨%f, H⟩; iexists f; rw [owns_whole]; iexact H) n

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => acc9 V c t.val
  Φ t := Phi9 V c t.val
  q _ := fullShare
  owed _ := 0

theorem A_eq9 (c : Dev nD) (w : Fin cfg9.W) : (dat9 V c).A w = V c (Pipeline.arrRef spec9 w) := by
  dsimp only [dat9]
theorem after9_2 (c : Dev nD) (t : Fin cfg9.N) : (dat9 V c).after 2 t = acc9 V c t.val := by dsimp only [dat9]

theorem Phi9_first (c : Dev nD) : (dat9 V c).Φ 0 = iprop((∃ f : Buf (Elt F) ((c : Thread nD τ).loc cc9_scratch0), ((c : Thread nD τ).loc cc9_scratch0) ↦{fullShare} f)
      ∗ Pipeline.scopedRestBut (Ix := Unit) (Name := ℕ) (U := UR sig nD τ) (Lvl := ℕ) (Val := Elt F) spec9 c [cc9_scratch0]) := by
  dsimp only [dat9]; rfl

theorem Phi9_last (c : Dev nD) : (dat9 V c).Φ (Fin.last cfg9.N) = iprop(owns (c : Thread nD τ) scM9 fullShare (acc9 V c (cfg9.N - 1))
      ∗ Pipeline.scopedRestBut (Ix := Unit) (Name := ℕ) (U := UR sig nD τ) (Lvl := ℕ) (Val := Elt F) spec9 c [cc9_scratch0]) := by
  dsimp only [dat9]
  rw [Fin.val_last, Phi9_pos V c _ (Nat.pos_iff_ne_zero.mp N_pos9)]

theorem before9_0 (c : Dev nD) (t : Fin cfg9.N) (d) : (dat9 V c).before 0 t d = iblk9 V c 0 t :=
  ((dat9 V c).before_fetched 0 t (fetch9_0 t) d).trans (by unfold Dat.fetched Dat.blockOf iblk9; rw [A_eq9]; try rfl)
theorem before9_1 (c : Dev nD) (t : Fin cfg9.N) (d) : (dat9 V c).before 1 t d = iblk9 V c 1 t :=
  ((dat9 V c).before_fetched 1 t (fetch9_1 t) d).trans (by unfold Dat.fetched Dat.blockOf iblk9; rw [A_eq9]; try rfl)

theorem idle9_2 (i : grid9.Coords) (h : ¬cond9_2 i) : cfg9.idle 2 i = true := by
  show (!(k9_cond2 i == 1#1)) = true
  rw [beq_eq_false_iff_ne.mpr h]; rfl
theorem live9_2 (i : grid9.Coords) (h : cond9_2 i) : cfg9.idle 2 i = false := by
  show (!(k9_cond2 i == 1#1)) = false
  rw [show k9_cond2 i = 1#1 from h]; rfl
theorem noFlush9_2 (t : Fin cfg9.N) (h : ¬t.val % 20 = 19) : (cfg9.win 2).flush t = false :=
  Bool.eq_false_iff.mpr fun hf => h ((flush9_2 t).mp hf)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl,
    show (dat9 V c).Φ t.castSucc = Phi9 V c t.val from rfl,
    show (dat9 V c).Φ t.succ = iprop(owns (c : Thread nD τ) scM9 fullShare (acc9 V c t.val) ∗ rest9 (F := F) c) from rfl,
    show (dat9 V c).leavesExact 0 t = owns (c : Thread nD τ) (st9_0 t) fullShare (iblk9 V c 0 t) from rfl,
    show (dat9 V c).leavesExact 1 t = owns (c : Thread nD τ) (st9_1 t) fullShare (iblk9 V c 1 t) from rfl]
  by_cases h2 : t.val % 20 = 19
  · have h1 : ¬t.val % 20 = 0 := by omega
    rw [show (dat9 V c).leavesExact 2 t = owns (c : Thread nD τ) (st9_2 t) fullShare ((dat9 V c).after 2 t) from by
      unfold Dat.leavesExact; rw [live9_2 _ ((hcond9_2 t).mpr h2)], after9_2]
    rw [acc9_step V c t h1]
    exact body_shuffle (fun _ => run9_C c Set.univ (grid9.coords t) (st9_0 t) _ (st9_1 t) _ (st9_2 t) _ scM9 _ (iblk9 V c 0 t) (iblk9 V c 1 t)
      (fun h => h1 ((hcond9_1 t).mp h)) ((hcond9_2 t).mpr h2) (acc9 V c (t.val - 1))) (.of_eq (Phi9_pos V c _ (by omega))) (fun _ => exists_intro _) fun _ => .rfl
  · rw [Dat.leavesExact_idle (dat9 V c) 2 t (idle9_2 _ fun h => h2 ((hcond9_2 t).mp h)) (noFlush9_2 t h2)]
    by_cases h1 : t.val % 20 = 0
    · rw [acc9_reset V c t h1]
      exact body_shuffle (fun d => run9_A c Set.univ (grid9.coords t) (st9_0 t) _ (st9_1 t) _ (st9_2 t) _ scM9 _ (iblk9 V c 0 t) (iblk9 V c 1 t)
        ((hcond9_1 t).mpr h1) (fun h => h2 ((hcond9_2 t).mp h)) ((dat9 V c).before 2 t d)) (Phi9_any V c t.val) (fun _ => .rfl) fun d => by iintro H; iexists d; iexact H
    · rw [acc9_step V c t h1]
      exact body_shuffle (fun d => run9_B c Set.univ (grid9.coords t) (st9_0 t) _ (st9_1 t) _ (st9_2 t) _ scM9 _ (iblk9 V c 0 t) (iblk9 V c 1 t)
        (fun h => h1 ((hcond9_1 t).mp h)) (fun h => h2 ((hcond9_2 t).mp h)) ((dat9 V c).before 2 t d) (acc9 V c (t.val - 1))) (.of_eq (Phi9_pos V c _ (by omega))) (fun _ => .rfl) fun d => by iintro H; iexists d; iexact H

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond10_0 (i : grid10.Coords) : Prop := (Scalar.cmpi .ne (Scalar.extui (Scalar.cmpi .eq (BitVec.ofNat 32 (i 2).val) 0#32)) 0#32) = 1#1
abbrev cond10_1 (i : grid10.Coords) : Prop := k10_cond2 i = 1#1

theorem hcond10_0 : ∀ t : Fin cfg10.N, cond10_0 (grid10.coords t) :=
  (by decide +kernel : ∀ t : Fin grid10.N, cond10_0 (grid10.coords t))
theorem hcond10_1 : ∀ t : Fin cfg10.N, cond10_1 (grid10.coords t) :=
  (by decide +kernel : ∀ t : Fin grid10.N, cond10_1 (grid10.coords t))

set_option maxHeartbeats 1000000 in
theorem sound_kernel10 (c : Dev nD) (E : Set ℕ) (i : grid10.Coords) (hcF : cond10_0 i) (hcL : cond10_1 i)
    (mA : Memref sig .tc .vmem S512x512 .bf16) (hmA : mA.IsWhole) (mB : Memref sig .tc .vmem S512x128 .bf16) (hmB : mB.IsWhole)
    (mC : Memref sig .tc .vmem S512x128 .bf16) (hmC : mC.IsWhole) (mS : Memref sig .tc .vmem S512x128 .f32) (hmS : mS.IsWhole)
    (a : Vec F S512x512 .bf16) (b : Vec F S512x128 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k10_pay3 (k10_pay2 k10_pay1 a b)) ∗ owns (c : Thread nD τ) mS fullShare (k10_pay2 k10_pay1 a b)) -∗ K ⟨⟩))
      ⊢ wp frame (wpE (defs₀ (F := F)) Variants.none c none) E (cc10__matmul_kernel i mA hmA mB hmB mC hmC mS hmS) K := by
  simp only [cc10__matmul_kernel_eq_skeleton]; unfold cc10__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def acc10 (c : Dev nD) (n : ℕ) : Vec F S512x128 .f32 :=
  if h : n < cfg10.N then k10_pay2 k10_pay1 (iblk10 V c 0 ⟨n, h⟩) (iblk10 V c 1 ⟨n, h⟩) else k10_pay1

theorem acc10_reset (c : Dev nD) (t : Fin cfg10.N) :
    acc10 V c t.val = k10_pay2 k10_pay1 (iblk10 V c 0 t) (iblk10 V c 1 t) := dif_pos t.isLt

def Phi10 (c : Dev nD) : ℕ → sProp 𝕄 :=
  PhiOf iprop(∃ f : Buf (Elt F) ((c : Thread nD τ).loc cc10_scratch0), ((c : Thread nD τ).loc cc10_scratch0) ↦{fullShare} f)
    (owns (c : Thread nD τ) (Memref.whole cc10_scratch0) fullShare) (acc10 V c) (Pipeline.scopedRestBut (Ix := Unit) (Name := ℕ) (U := UR sig nD τ) (Lvl := ℕ) (Val := Elt F) spec10 c [cc10_scratch0])

theorem Phi10_any (c : Dev nD) (n : ℕ) :
    Phi10 V c n ⊢ iprop((∃ d, owns (c : Thread nD τ) (Memref.whole cc10_scratch0) fullShare d)
      ∗ Pipeline.scopedRestBut (Ix := Unit) (Name := ℕ) (U := UR sig nD τ) (Lvl := ℕ) (Val := Elt F) spec10 c [cc10_scratch0]) :=
  PhiOf_any (by iintro ⟨%f, H⟩; iexists f; rw [owns_whole]; iexact H) n

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (acc10 V c t.val)
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (acc10 V c t.val) := by dsimp only [dat10]

theorem Phi10_zero (c : Dev nD) : (dat10 V c).Φ 0 = Phi10 V c 0 := by dsimp only [dat10]; rfl
theorem Phi10_last (c : Dev nD) : (dat10 V c).Φ (Fin.last cfg10.N) = Phi10 V c cfg10.N := by dsimp only [dat10]; rfl

theorem before10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)

theorem liveAt10_2 : ∀ t : Fin cfg10.N, cfg10.idle 2 (grid10.coords t) = false := by decide +kernel

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl,
    show (dat10 V c).Φ t.succ = iprop(owns (c : Thread nD τ) (Memref.whole cc10_scratch0) fullShare (acc10 V c t.val)
      ∗ Pipeline.scopedRestBut (Ix := Unit) (Name := ℕ) (U := UR sig nD τ) (Lvl := ℕ) (Val := Elt F) spec10 c [cc10_scratch0]) from rfl,
    show (dat10 V c).Φ t.castSucc = Phi10 V c t.val from rfl,
    show (dat10 V c).leavesExact 0 t = owns (c : Thread nD τ) (st10_0 t) fullShare ((dat10 V c).after 0 t) from rfl,
    show (dat10 V c).leavesExact 1 t = owns (c : Thread nD τ) (st10_1 t) fullShare ((dat10 V c).after 1 t) from rfl,
    show (dat10 V c).leavesExact 2 t = owns (c : Thread nD τ) (st10_2 t) fullShare ((dat10 V c).after 2 t) from by
      unfold Dat.leavesExact; rw [liveAt10_2 t],
    after10_0, after10_1, after10_2, acc10_reset]
  exact body_shuffle (fun _ => sound_kernel10 c Set.univ (grid10.coords t) (hcond10_0 t) (hcond10_1 t) (st10_0 t) _ (st10_1 t) _ (st10_2 t) _
    (Memref.whole cc10_scratch0) _ (iblk10 V c 0 t) (iblk10 V c 1 t)) (Phi10_any V c t.val) (fun _ => exists_intro _) fun _ => .rfl

theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11Dat.lean ====
import proofs.«177890_j48524540510773_1_alg».proof.Proof.Gen.Kernel.Launch
import proofs.«177890_j48524540510773_1_alg».proof.Proof.Gen.Kernel.Skeleton
import proofs.«177890_j48524540510773_1_alg».proof.Proof.Gen.Kernel.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL11" => S512x512
local notation "SR11" => S512x128
local notation "SO11" => S512x128
local notation "inbL11" => inb_S512x512_S512x512_0_0
local notation "inbR11" => inb_S512x128_S512x128_0_0
local notation "inbO11" => inb_S512x128_S512x128_0_0

abbrev cond11_1 (i : grid11.Coords) : Prop :=
  (Scalar.cmpi .ne (Scalar.extui (Scalar.cmpi .eq (BitVec.ofNat 32 (i 2).val) 0#32)) 0#32) = 1#1
abbrev cond11_2 (i : grid11.Coords) : Prop := k11_cond2 i = 1#1

theorem hcond11_1 : ∀ t : Fin cfg11.N, cond11_1 (grid11.coords t) ↔ t.val % 20 = 0 :=
  (by decide +kernel : ∀ t : Fin grid11.N, cond11_1 (grid11.coords t) ↔ t.val % 20 = 0)
theorem hcond11_2 : ∀ t : Fin cfg11.N, cond11_2 (grid11.coords t) ↔ t.val % 20 = 19 :=
  (by decide +kernel : ∀ t : Fin grid11.N, cond11_2 (grid11.coords t) ↔ t.val % 20 = 19)

section Run

variable (c : Dev nD) (E : Set ℕ) (i : grid11.Coords)
    (arg3 : Memref sig .tc .vmem SL11 .bf16) (harg3 : arg3.IsWhole) (arg4 : Memref sig .tc .vmem SR11 .bf16) (harg4 : arg4.IsWhole)
    (arg5 : Memref sig .tc .vmem SO11 .f32) (harg5 : arg5.IsWhole) (arg6 : Memref sig .tc .vmem SO11 .f32) (harg6 : arg6.IsWhole)
    (x0 : Vec F SL11 .bf16) (x1 : Vec F SR11 .bf16)

set_option maxHeartbeats 1000000 in
theorem run11_A (hc1 : cond11_1 i) (hc2 : ¬cond11_2 i) (xo : Vec F SO11 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k11_pay2 (k11_pay1 (F := F)) x0 x1)) -∗ K ⟨⟩))
      ⊢ wp frame (wpE (defs₀ (F := F)) Variants.none c none) E (cc11__matmul_kernel i arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO11 _ _).trans ?_
  sl_unfold_run_names
  rw [View.readCov_unit_zero (S := SO11) _ zeros2]
  simp only [View.readAt_eq_ld, View.ld_unit_zero (S := SL11) zeros2, View.ld_unit_zero (S := SR11) zeros2]

set_option maxHeartbeats 1000000 in
theorem run11_B (hc1 : ¬cond11_1 i) (hc2 : ¬cond11_2 i) (xo : Vec F SO11 .f32) (s : Vec F SO11 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k11_pay2 s x0 x1)) -∗ K ⟨⟩))
      ⊢ wp frame (wpE (defs₀ (F := F)) Variants.none c none) E (cc11__matmul_kernel i arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO11 _ _).trans ?_
  try sl_unfold_run_names
  simp only [View.readAt_eq_ld, View.ld_unit_zero (S := SL11) zeros2, View.ld_unit_zero (S := SR11) zeros2, View.ld_unit_zero (S := SO11) zeros2]

set_option maxHeartbeats 1000000 in
theorem run11_C (hc1 : ¬cond11_1 i) (hc2 : cond11_2 i) (s : Vec F SO11 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k11_pay2 s x0 x1)
            ∗ owns (c : Thread nD τ) arg6 fullShare (k11_pay2 s x0 x1)) -∗ K ⟨⟩))
      ⊢ wp frame (wpE (defs₀ (F := F)) Variants.none c none) E (cc11__matmul_kernel i arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO11 _ _).trans ?_
    try sl_unfold_run_names
    rw [View.readCov_unit_zero (S := SO11) _ zeros2]
    simp only [View.readAt_eq_ld, View.ld_unit_zero (S := SL11) zeros2, View.ld_unit_zero (S := SR11) zeros2, View.ld_unit_zero (S := SO11) zeros2]
  iexists _; isplitr
  swap; · iexact H3
  ipureintro
  refine (read_store_whole _ _ zeros2 inbO11 _ _).trans ?_
  try sl_unfold_run_names
  simp only [View.readAt_eq_ld, View.ld_unit_zero (S := SL11) zeros2, View.ld_unit_zero (S := SR11) zeros2, View.ld_unit_zero (S := SO11) zeros2]

end Run

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem N_pos11 : 0 < cfg11.N := by rw [show cfg11.N = _ from N_11]; decide

def lhs11 (c : Dev nD) : ℕ → Vec F SL11 .bf16 := natExt N_pos11 fun t => iblk11 V c 0 t
def rhs11 (c : Dev nD) : ℕ → Vec F SR11 .bf16 := natExt N_pos11 fun t => iblk11 V c 1 t

def acc11 (c : Dev nD) : ℕ → Vec F SO11 .f32 :=
  accOf 20 (fun n => k11_pay2 (k11_pay1 (F := F)) (lhs11 V c n) (rhs11 V c n)) fun a n => k11_pay2 a (lhs11 V c n) (rhs11 V c n)

theorem acc11_reset (c : Dev nD) (t : Fin cfg11.N) (h : t.val % 20 = 0) :
    acc11 V c t.val = k11_pay2 (k11_pay1 (F := F)) (iblk11 V c 0 t) (iblk11 V c 1 t) :=
  (accOf_reset h).trans (by unfold lhs11 rhs11; rw [natExt_val, natExt_val])

theorem acc11_step (c : Dev nD) (t : Fin cfg11.N) (h : t.val % 20 ≠ 0) :
    acc11 V c t.val = k11_pay2 (acc11 V c (t.val - 1)) (iblk11 V c 0 t) (iblk11 V c 1 t) :=
  (accOf_step h).trans (by unfold lhs11 rhs11; rw [natExt_val, natExt_val]; rfl)

abbrev scM11 : Memref sig .tc .vmem SO11 .f32 := Memref.whole cc11_scratch0

abbrev rest11 (c : Dev nD) : sProp 𝕄 :=
  Pipeline.scopedRestBut (Ix := Unit) (Name := ℕ) (U := UR sig nD τ) (Lvl := ℕ) (Val := Elt F) spec11 c [cc11_scratch0]

def Phi11 (c : Dev nD) : ℕ → sProp 𝕄 :=
  PhiOf iprop(∃ f : Buf (Elt F) ((c : Thread nD τ).loc cc11_scratch0), ((c : Thread nD τ).loc cc11_scratch0) ↦{fullShare} f)
    (owns (c : Thread nD τ) scM11 fullShare) (acc11 V c) (rest11 c)

theorem Phi11_pos (c : Dev nD) (n : ℕ) (h : n ≠ 0) :
    Phi11 V c n = iprop(owns (c : Thread nD τ) scM11 fullShare (acc11 V c (n - 1)) ∗ rest11 (F := F) c) := PhiOf_pos h

theorem Phi11_any (c : Dev nD) (n : ℕ) :
    Phi11 V c n ⊢ iprop((∃ d, owns (c : Thread nD τ) scM11 fullShare d) ∗ rest11 (F := F) c) :=
  PhiOf_any (by iintro ⟨%f, H⟩; iexists f; rw [owns_whole]; iexact H) n

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => acc11 V c t.val
  Φ t := Phi11 V c t.val
  q _ := fullShare
  owed _ := 0

theorem A_eq11 (c : Dev nD) (w : Fin cfg11.W) : (dat11 V c).A w = V c (Pipeline.arrRef spec11 w) := by
  dsimp only [dat11]
theorem after11_2 (c : Dev nD) (t : Fin cfg11.N) : (dat11 V c).after 2 t = acc11 V c t.val := by dsimp only [dat11]

theorem Phi11_first (c : Dev nD) : (dat11 V c).Φ 0 = iprop((∃ f : Buf (Elt F) ((c : Thread nD τ).loc cc11_scratch0), ((c : Thread nD τ).loc cc11_scratch0) ↦{fullShare} f)
      ∗ Pipeline.scopedRestBut (Ix := Unit) (Name := ℕ) (U := UR sig nD τ) (Lvl := ℕ) (Val := Elt F) spec11 c [cc11_scratch0]) := by
  dsimp only [dat11]; rfl

theorem Phi11_last (c : Dev nD) : (dat11 V c).Φ (Fin.last cfg11.N) = iprop(owns (c : Thread nD τ) scM11 fullShare (acc11 V c (cfg11.N - 1))
      ∗ Pipeline.scopedRestBut (Ix := Unit) (Name := ℕ) (U := UR sig nD τ) (Lvl := ℕ) (Val := Elt F) spec11 c [cc11_scratch0]) := by
  dsimp only [dat11]
  rw [Fin.val_last, Phi11_pos V c _ (Nat.pos_iff_ne_zero.mp N_pos11)]

theorem before11_0 (c : Dev nD) (t : Fin cfg11.N) (d) : (dat11 V c).before 0 t d = iblk11 V c 0 t :=
  ((dat11 V c).before_fetched 0 t (fetch11_0 t) d).trans (by unfold Dat.fetched Dat.blockOf iblk11; rw [A_eq11]; try rfl)
theorem before11_1 (c : Dev nD) (t : Fin cfg11.N) (d) : (dat11 V c).before 1 t d = iblk11 V c 1 t :=
  ((dat11 V c).before_fetched 1 t (fetch11_1 t) d).trans (by unfold Dat.fetched Dat.blockOf iblk11; rw [A_eq11]; try rfl)

theorem idle11_2 (i : grid11.Coords) (h : ¬cond11_2 i) : cfg11.idle 2 i = true := by
  show (!(k11_cond2 i == 1#1)) = true
  rw [beq_eq_false_iff_ne.mpr h]; rfl
theorem live11_2 (i : grid11.Coords) (h : cond11_2 i) : cfg11.idle 2 i = false := by
  show (!(k11_cond2 i == 1#1)) = false
  rw [show k11_cond2 i = 1#1 from h]; rfl
theorem noFlush11_2 (t : Fin cfg11.N) (h : ¬t.val % 20 = 19) : (cfg11.win 2).flush t = false :=
  Bool.eq_false_iff.mpr fun hf => h ((flush11_2 t).mp hf)

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl,
    show (dat11 V c).Φ t.castSucc = Phi11 V c t.val from rfl,
    show (dat11 V c).Φ t.succ = iprop(owns (c : Thread nD τ) scM11 fullShare (acc11 V c t.val) ∗ rest11 (F := F) c) from rfl,
    show (dat11 V c).leavesExact 0 t = owns (c : Thread nD τ) (st11_0 t) fullShare (iblk11 V c 0 t) from rfl,
    show (dat11 V c).leavesExact 1 t = owns (c : Thread nD τ) (st11_1 t) fullShare (iblk11 V c 1 t) from rfl]
  by_cases h2 : t.val % 20 = 19
  · have h1 : ¬t.val % 20 = 0 := by omega
    rw [show (dat11 V c).leavesExact 2 t = owns (c : Thread nD τ) (st11_2 t) fullShare ((dat11 V c).after 2 t) from by
      unfold Dat.leavesExact; rw [live11_2 _ ((hcond11_2 t).mpr h2)], after11_2]
    rw [acc11_step V c t h1]
    exact body_shuffle (fun _ => run11_C c Set.univ (grid11.coords t) (st11_0 t) _ (st11_1 t) _ (st11_2 t) _ scM11 _ (iblk11 V c 0 t) (iblk11 V c 1 t)
      (fun h => h1 ((hcond11_1 t).mp h)) ((hcond11_2 t).mpr h2) (acc11 V c (t.val - 1))) (.of_eq (Phi11_pos V c _ (by omega))) (fun _ => exists_intro _) fun _ => .rfl
  · rw [Dat.leavesExact_idle (dat11 V c) 2 t (idle11_2 _ fun h => h2 ((hcond11_2 t).mp h)) (noFlush11_2 t h2)]
    by_cases h1 : t.val % 20 = 0
    · rw [acc11_reset V c t h1]
      exact body_shuffle (fun d => run11_A c Set.univ (grid11.coords t) (st11_0 t) _ (st11_1 t) _ (st11_2 t) _ scM11 _ (iblk11 V c 0 t) (iblk11 V c 1 t)
        ((hcond11_1 t).mpr h1) (fun h => h2 ((hcond11_2 t).mp h)) ((dat11 V c).before 2 t d)) (Phi11_any V c t.val) (fun _ => .rfl) fun d => by iintro H; iexists d; iexact H
    · rw [acc11_step V c t h1]
      exact body_shuffle (fun d => run11_B c Set.univ (grid11.coords t) (st11_0 t) _ (st11_1 t) _ (st11_2 t) _ scM11 _ (iblk11 V c 0 t) (iblk11 V c 1 t)
        (fun h => h1 ((hcond11_1 t).mp h)) (fun h => h2 ((hcond11_2 t).mp h)) ((dat11 V c).before 2 t d) (acc11 V c (t.val - 1))) (.of_eq (Phi11_pos V c _ (by omega))) (fun _ => .rfl) fun d => by iintro H; iexists d; iexact H

theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Fold.lean ====
import proofs.«177890_j48524540510773_1_alg».proof.Proof.K.R0Dat
import proofs.«177890_j48524540510773_1_alg».proof.Proof.K.R1Dat
import proofs.«177890_j48524540510773_1_alg».proof.Proof.K.R2Dat
import proofs.«177890_j48524540510773_1_alg».proof.Proof.K.R3Dat
import proofs.«177890_j48524540510773_1_alg».proof.Proof.K.R4Dat
import proofs.«177890_j48524540510773_1_alg».proof.Proof.K.R5Dat
import proofs.«177890_j48524540510773_1_alg».proof.Proof.K.R6Dat
import proofs.«177890_j48524540510773_1_alg».proof.Proof.K.R7Dat
import proofs.«177890_j48524540510773_1_alg».proof.Proof.K.R8Dat
import proofs.«177890_j48524540510773_1_alg».proof.Proof.K.R9Dat
import proofs.«177890_j48524540510773_1_alg».proof.Proof.K.R10Dat
import proofs.«177890_j48524540510773_1_alg».proof.Proof.K.R11Dat

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not_img {n : ℕ} {a : Fin n → Ref sig .tc} {b : Ref sig .tc} (hb : b ∉ Finset.univ.image a) (w : Fin n) : a w ≠ b :=
  fun e => hb (Finset.mem_image.mpr ⟨w, Finset.mem_univ _, e⟩)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)

abbrev W_entry0 : Dev nD → Valuation τ sig (Elt F) := W3 m ρ
abbrev V_entry0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V_entry0 m ρ) c).arrAt w cfg0.N
theorem W4_arr (c : Dev nD) (w : Fin cfg0.W) :
    W4 m ρ c (Proc.devRef .tc (Pipeline.arrRef spec0 w)) = (dat0 (V_entry0 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev W_after0 : Dev nD → Valuation τ sig (Elt F) := W4 m ρ
abbrev V_after0 : (c : Dev nD) → (b : Ref sig .tc) → Buf (Elt F) ((c : Thread nD τ).loc b) := fun c b => W4 m ρ c b
theorem hF0 (c : Dev nD) (w : Fin cfg0.W) : (dat0 (V_entry0 m ρ) c).arrAt w cfg0.N = V_after0 m ρ c (Pipeline.arrRef spec0 w) :=
  (W4_arr m ρ c w).symm
theorem hrest0 (c : Dev nD) : ∀ b, b ∉ Finset.univ.image (Pipeline.arrRef spec0) → V_after0 m ρ c b = V_entry0 m ρ c b :=
  fun b hb => W4_of_ne m ρ c b (not_img hb)

abbrev W_entry1 : Dev nD → Valuation τ sig (Elt F) := W4 m ρ
abbrev V_entry1 : (c : Dev nD) → (b : Ref sig .tc) → Buf (Elt F) ((c : Thread nD τ).loc b) := fun c b => W4 m ρ c b
def W5 (c : Dev nD) : Valuation τ sig (Elt F) :=
  Pipeline.withArrays spec1 c (W4 m ρ c) fun w => (dat1 (V_entry1 m ρ) c).arrAt w cfg1.N
theorem W5_arr (c : Dev nD) (w : Fin cfg1.W) :
    W5 m ρ c (Proc.devRef .tc (Pipeline.arrRef spec1 w)) = (dat1 (V_entry1 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev W_after1 : Dev nD → Valuation τ sig (Elt F) := W5 m ρ
abbrev V_after1 : (c : Dev nD) → (b : Ref sig .tc) → Buf (Elt F) ((c : Thread nD τ).loc b) := fun c b => W5 m ρ c b
theorem hF1 (c : Dev nD) (w : Fin cfg1.W) : (dat1 (V_entry1 m ρ) c).arrAt w cfg1.N = V_after1 m ρ c (Pipeline.arrRef spec1 w) :=
  (W5_arr m ρ c w).symm
theorem hrest1 (c : Dev nD) : ∀ b, b ∉ Finset.univ.image (Pipeline.arrRef spec1) → V_after1 m ρ c b = V_entry1 m ρ c b :=
  fun b hb => W5_of_ne m ρ c b (not_img hb)

abbrev W6 : Dev nD → Valuation τ sig (Elt F) := fun c => StableHlo.after hostOps2 (W5 m ρ c)
abbrev W7 : Dev nD → Valuation τ sig (Elt F) := fun c => StableHlo.after hostOps2_1 (W6 m ρ c)
abbrev W8 : Dev nD → Valuation τ sig (Elt F) := fun c => StableHlo.after hostOps2_2 (W7 m ρ c)

abbrev W_entry2 : Dev nD → Valuation τ sig (Elt F) := W8 m ρ
abbrev V_entry2 : (c : Dev nD) → (b : Ref sig .tc) → Buf (Elt F) ((c : Thread nD τ).loc b) := fun c b => W8 m ρ c b
def W9 (c : Dev nD) : Valuation τ sig (Elt F) :=
  Pipeline.withArrays spec2 c (W8 m ρ c) fun w => (dat2 (V_entry2 m ρ) c).arrAt w cfg2.N
theorem W9_arr (c : Dev nD) (w : Fin cfg2.W) :
    W9 m ρ c (Proc.devRef .tc (Pipeline.arrRef spec2 w)) = (dat2 (V_entry2 m ρ) c).arrAt w cfg2.N :=
  Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) :=
  Pipeline.withArrays_of_ne spec2 c _ _ b hb
abbrev W_after2 : Dev nD → Valuation τ sig (Elt F) := W9 m ρ
abbrev V_after2 : (c : Dev nD) → (b : Ref sig .tc) → Buf (Elt F) ((c : Thread nD τ).loc b) := fun c b => W9 m ρ c b
theorem hF2 (c : Dev nD) (w : Fin cfg2.W) : (dat2 (V_entry2 m ρ) c).arrAt w cfg2.N = V_after2 m ρ c (Pipeline.arrRef spec2 w) :=
  (W9_arr m ρ c w).symm
theorem hrest2 (c : Dev nD) : ∀ b, b ∉ Finset.univ.image (Pipeline.arrRef spec2) → V_after2 m ρ c b = V_entry2 m ρ c b :=
  fun b hb => W9_of_ne m ρ c b (not_img hb)

abbrev W_entry3 : Dev nD → Valuation τ sig (Elt F) := W9 m ρ
abbrev V_entry3 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V_entry3 m ρ) c).arrAt w cfg3.N
theorem W10_arr (c : Dev nD) (w : Fin cfg3.W) :
    W10 m ρ c (Proc.devRef .tc (Pipeline.arrRef spec3 w)) = (dat3 (V_entry3 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb
abbrev W_after3 : Dev nD → Valuation τ sig (Elt F) := W10 m ρ
abbrev V_after3 : (c : Dev nD) → (b : Ref sig .tc) → Buf (Elt F) ((c : Thread nD τ).loc b) := fun c b => W10 m ρ c b
theorem hF3 (c : Dev nD) (w : Fin cfg3.W) : (dat3 (V_entry3 m ρ) c).arrAt w cfg3.N = V_after3 m ρ c (Pipeline.arrRef spec3 w) :=
  (W10_arr m ρ c w).symm
theorem hrest3 (c : Dev nD) : ∀ b, b ∉ Finset.univ.image (Pipeline.arrRef spec3) → V_after3 m ρ c b = V_entry3 m ρ c b :=
  fun b hb => W10_of_ne m ρ c b (not_img hb)

abbrev W11 : Dev nD → Valuation τ sig (Elt F) := fun c => StableHlo.after hostOps4 (W10 m ρ c)
abbrev W12 : Dev nD → Valuation τ sig (Elt F) := fun c => StableHlo.after hostOps4_1 (W11 m ρ c)
abbrev W13 : Dev nD → Valuation τ sig (Elt F) := fun c => StableHlo.after hostOps4_2 (W12 m ρ c)

abbrev W_entry4 : Dev nD → Valuation τ sig (Elt F) := W13 m ρ
abbrev V_entry4 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (V_entry4 m ρ) c).arrAt w cfg4.N
theorem W14_arr (c : Dev nD) (w : Fin cfg4.W) :
    W14 m ρ c (Proc.devRef .tc (Pipeline.arrRef spec4 w)) = (dat4 (V_entry4 m ρ) c).arrAt w cfg4.N :=
  Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) :=
  Pipeline.withArrays_of_ne spec4 c _ _ b hb
abbrev W_after4 : Dev nD → Valuation τ sig (Elt F) := W14 m ρ
abbrev V_after4 : (c : Dev nD) → (b : Ref sig .tc) → Buf (Elt F) ((c : Thread nD τ).loc b) := fun c b => W14 m ρ c b
theorem hF4 (c : Dev nD) (w : Fin cfg4.W) : (dat4 (V_entry4 m ρ) c).arrAt w cfg4.N = V_after4 m ρ c (Pipeline.arrRef spec4 w) :=
  (W14_arr m ρ c w).symm
theorem hrest4 (c : Dev nD) : ∀ b, b ∉ Finset.univ.image (Pipeline.arrRef spec4) → V_after4 m ρ c b = V_entry4 m ρ c b :=
  fun b hb => W14_of_ne m ρ c b (not_img hb)

abbrev W_entry5 : Dev nD → Valuation τ sig (Elt F) := W14 m ρ
abbrev V_entry5 : (c : Dev nD) → (b : Ref sig .tc) → Buf (Elt F) ((c : Thread nD τ).loc b) := fun c b => W14 m ρ c b
def W15 (c : Dev nD) : Valuation τ sig (Elt F) :=
  Pipeline.withArrays spec5 c (W14 m ρ c) fun w => (dat5 (V_entry5 m ρ) c).arrAt w cfg5.N
theorem W15_arr (c : Dev nD) (w : Fin cfg5.W) :
    W15 m ρ c (Proc.devRef .tc (Pipeline.arrRef spec5 w)) = (dat5 (V_entry5 m ρ) c).arrAt w cfg5.N :=
  Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) :=
  Pipeline.withArrays_of_ne spec5 c _ _ b hb
abbrev W_after5 : Dev nD → Valuation τ sig (Elt F) := W15 m ρ
abbrev V_after5 : (c : Dev nD) → (b : Ref sig .tc) → Buf (Elt F) ((c : Thread nD τ).loc b) := fun c b => W15 m ρ c b
theorem hF5 (c : Dev nD) (w : Fin cfg5.W) : (dat5 (V_entry5 m ρ) c).arrAt w cfg5.N = V_after5 m ρ c (Pipeline.arrRef spec5 w) :=
  (W15_arr m ρ c w).symm
theorem hrest5 (c : Dev nD) : ∀ b, b ∉ Finset.univ.image (Pipeline.arrRef spec5) → V_after5 m ρ c b = V_entry5 m ρ c b :=
  fun b hb => W15_of_ne m ρ c b (not_img hb)

abbrev W16 : Dev nD → Valuation τ sig (Elt F) := fun c => StableHlo.after hostOps6 (W15 m ρ c)
abbrev W17 : Dev nD → Valuation τ sig (Elt F) := fun c => StableHlo.after hostOps6_1 (W16 m ρ c)
abbrev W18 : Dev nD → Valuation τ sig (Elt F) := fun c => StableHlo.after hostOps6_2 (W17 m ρ c)

abbrev W_entry6 : Dev nD → Valuation τ sig (Elt F) := W18 m ρ
abbrev V_entry6 : (c : Dev nD) → (b : Ref sig .tc) → Buf (Elt F) ((c : Thread nD τ).loc b) := fun c b => W18 m ρ c b
def W19 (c : Dev nD) : Valuation τ sig (Elt F) :=
  Pipeline.withArrays spec6 c (W18 m ρ c) fun w => (dat6 (V_entry6 m ρ) c).arrAt w cfg6.N
theorem W19_arr (c : Dev nD) (w : Fin cfg6.W) :
    W19 m ρ c (Proc.devRef .tc (Pipeline.arrRef spec6 w)) = (dat6 (V_entry6 m ρ) c).arrAt w cfg6.N :=
  Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) :=
  Pipeline.withArrays_of_ne spec6 c _ _ b hb
abbrev W_after6 : Dev nD → Valuation τ sig (Elt F) := W19 m ρ
abbrev V_after6 : (c : Dev nD) → (b : Ref sig .tc) → Buf (Elt F) ((c : Thread nD τ).loc b) := fun c b => W19 m ρ c b
theorem hF6 (c : Dev nD) (w : Fin cfg6.W) : (dat6 (V_entry6 m ρ) c).arrAt w cfg6.N = V_after6 m ρ c (Pipeline.arrRef spec6 w) :=
  (W19_arr m ρ c w).symm
theorem hrest6 (c : Dev nD) : ∀ b, b ∉ Finset.univ.image (Pipeline.arrRef spec6) → V_after6 m ρ c b = V_entry6 m ρ c b :=
  fun b hb => W19_of_ne m ρ c b (not_img hb)

abbrev W_entry7 : Dev nD → Valuation τ sig (Elt F) := W19 m ρ
abbrev V_entry7 : (c : Dev nD) → (b : Ref sig .tc) → Buf (Elt F) ((c : Thread nD τ).loc b) := fun c b => W19 m ρ c b
def W20 (c : Dev nD) : Valuation τ sig (Elt F) :=
  Pipeline.withArrays spec7 c (W19 m ρ c) fun w => (dat7 (V_entry7 m ρ) c).arrAt w cfg7.N
theorem W20_arr (c : Dev nD) (w : Fin cfg7.W) :
    W20 m ρ c (Proc.devRef .tc (Pipeline.arrRef spec7 w)) = (dat7 (V_entry7 m ρ) c).arrAt w cfg7.N :=
  Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) :=
  Pipeline.withArrays_of_ne spec7 c _ _ b hb
abbrev W_after7 : Dev nD → Valuation τ sig (Elt F) := W20 m ρ
abbrev V_after7 : (c : Dev nD) → (b : Ref sig .tc) → Buf (Elt F) ((c : Thread nD τ).loc b) := fun c b => W20 m ρ c b
theorem hF7 (c : Dev nD) (w : Fin cfg7.W) : (dat7 (V_entry7 m ρ) c).arrAt w cfg7.N = V_after7 m ρ c (Pipeline.arrRef spec7 w) :=
  (W20_arr m ρ c w).symm
theorem hrest7 (c : Dev nD) : ∀ b, b ∉ Finset.univ.image (Pipeline.arrRef spec7) → V_after7 m ρ c b = V_entry7 m ρ c b :=
  fun b hb => W20_of_ne m ρ c b (not_img hb)

abbrev W21 : Dev nD → Valuation τ sig (Elt F) := fun c => StableHlo.after hostOps8 (W20 m ρ c)
abbrev W22 : Dev nD → Valuation τ sig (Elt F) := fun c => StableHlo.after hostOps8_1 (W21 m ρ c)
abbrev W23 : Dev nD → Valuation τ sig (Elt F) := fun c => StableHlo.after hostOps8_2 (W22 m ρ c)

abbrev W_entry8 : Dev nD → Valuation τ sig (Elt F) := W23 m ρ
abbrev V_entry8 : (c : Dev nD) → (b : Ref sig .tc) → Buf (Elt F) ((c : Thread nD τ).loc b) := fun c b => W23 m ρ c b
def W24 (c : Dev nD) : Valuation τ sig (Elt F) :=
  Pipeline.withArrays spec8 c (W23 m ρ c) fun w => (dat8 (V_entry8 m ρ) c).arrAt w cfg8.N
theorem W24_arr (c : Dev nD) (w : Fin cfg8.W) :
    W24 m ρ c (Proc.devRef .tc (Pipeline.arrRef spec8 w)) = (dat8 (V_entry8 m ρ) c).arrAt w cfg8.N :=
  Pipeline.withArrays_arr spec8 launch8.win.arr_inj c _ _ w
theorem W24_of_ne (c : Dev nD) (b : Ref sig .tc) (hb : ∀ w, Pipeline.arrRef spec8 w ≠ b) :
    W24 m ρ c (Proc.devRef .tc b) = W23 m ρ c (Proc.devRef .tc b) :=
  Pipeline.withArrays_of_ne spec8 c _ _ b hb
abbrev W_after8 : Dev nD → Valuation τ sig (Elt F) := W24 m ρ
abbrev V_after8 : (c : Dev nD) → (b : Ref sig .tc) → Buf (Elt F) ((c : Thread nD τ).loc b) := fun c b => W24 m ρ c b
theorem hF8 (c : Dev nD) (w : Fin cfg8.W) : (dat8 (V_entry8 m ρ) c).arrAt w cfg8.N = V_after8 m ρ c (Pipeline.arrRef spec8 w) :=
  (W24_arr m ρ c w).symm
theorem hrest8 (c : Dev nD) : ∀ b, b ∉ Finset.univ.image (Pipeline.arrRef spec8) → V_after8 m ρ c b = V_entry8 m ρ c b :=
  fun b hb => W24_of_ne m ρ c b (not_img hb)

abbrev W_entry9 : Dev nD → Valuation τ sig (Elt F) := W24 m ρ
abbrev V_entry9 : (c : Dev nD) → (b : Ref sig .tc) → Buf (Elt F) ((c : Thread nD τ).loc b) := fun c b => W24 m ρ c b
def W25 (c : Dev nD) : Valuation τ sig (Elt F) :=
  Pipeline.withArrays spec9 c (W24 m ρ c) fun w => (dat9 (V_entry9 m ρ) c).arrAt w cfg9.N
theorem W25_arr (c : Dev nD) (w : Fin cfg9.W) :
    W25 m ρ c (Proc.devRef .tc (Pipeline.arrRef spec9 w)) = (dat9 (V_entry9 m ρ) c).arrAt w cfg9.N :=
  Pipeline.withArrays_arr spec9 launch9.win.arr_inj c _ _ w
theorem W25_of_ne (c : Dev nD) (b : Ref sig .tc) (hb : ∀ w, Pipeline.arrRef spec9 w ≠ b) :
    W25 m ρ c (Proc.devRef .tc b) = W24 m ρ c (Proc.devRef .tc b) :=
  Pipeline.withArrays_of_ne spec9 c _ _ b hb
abbrev W_after9 : Dev nD → Valuation τ sig (Elt F) := W25 m ρ
abbrev V_after9 : (c : Dev nD) → (b : Ref sig .tc) → Buf (Elt F) ((c : Thread nD τ).loc b) := fun c b => W25 m ρ c b
theorem hF9 (c : Dev nD) (w : Fin cfg9.W) : (dat9 (V_entry9 m ρ) c).arrAt w cfg9.N = V_after9 m ρ c (Pipeline.arrRef spec9 w) :=
  (W25_arr m ρ c w).symm
theorem hrest9 (c : Dev nD) : ∀ b, b ∉ Finset.univ.image (Pipeline.arrRef spec9) → V_after9 m ρ c b = V_entry9 m ρ c b :=
  fun b hb => W25_of_ne m ρ c b (not_img hb)

abbrev W26 : Dev nD → Valuation τ sig (Elt F) := fun c => StableHlo.after hostOps10 (W25 m ρ c)
abbrev W27 : Dev nD → Valuation τ sig (Elt F) := fun c => StableHlo.after hostOps10_1 (W26 m ρ c)
abbrev W28 : Dev nD → Valuation τ sig (Elt F) := fun c => StableHlo.after hostOps10_2 (W27 m ρ c)

abbrev W_entry10 : Dev nD → Valuation τ sig (Elt F) := W28 m ρ
abbrev V_entry10 : (c : Dev nD) → (b : Ref sig .tc) → Buf (Elt F) ((c : Thread nD τ).loc b) := fun c b => W28 m ρ c b
def W29 (c : Dev nD) : Valuation τ sig (Elt F) :=
  Pipeline.withArrays spec10 c (W28 m ρ c) fun w => (dat10 (V_entry10 m ρ) c).arrAt w cfg10.N
theorem W29_arr (c : Dev nD) (w : Fin cfg10.W) :
    W29 m ρ c (Proc.devRef .tc (Pipeline.arrRef spec10 w)) = (dat10 (V_entry10 m ρ) c).arrAt w cfg10.N :=
  Pipeline.withArrays_arr spec10 launch10.win.arr_inj c _ _ w
theorem W29_of_ne (c : Dev nD) (b : Ref sig .tc) (hb : ∀ w, Pipeline.arrRef spec10 w ≠ b) :
    W29 m ρ c (Proc.devRef .tc b) = W28 m ρ c (Proc.devRef .tc b) :=
  Pipeline.withArrays_of_ne spec10 c _ _ b hb
abbrev W_after10 : Dev nD → Valuation τ sig (Elt F) := W29 m ρ
abbrev V_after10 : (c : Dev nD) → (b : Ref sig .tc) → Buf (Elt F) ((c : Thread nD τ).loc b) := fun c b => W29 m ρ c b
theorem hF10 (c : Dev nD) (w : Fin cfg10.W) : (dat10 (V_entry10 m ρ) c).arrAt w cfg10.N = V_after10 m ρ c (Pipeline.arrRef spec10 w) :=
  (W29_arr m ρ c w).symm
theorem hrest10 (c : Dev nD) : ∀ b, b ∉ Finset.univ.image (Pipeline.arrRef spec10) → V_after10 m ρ c b = V_entry10 m ρ c b :=
  fun b hb => W29_of_ne m ρ c b (not_img hb)

abbrev W_entry11 : Dev nD → Valuation τ sig (Elt F) := W29 m ρ
abbrev V_entry11 : (c : Dev nD) → (b : Ref sig .tc) → Buf (Elt F) ((c : Thread nD τ).loc b) := fun c b => W29 m ρ c b
def W30 (c : Dev nD) : Valuation τ sig (Elt F) :=
  Pipeline.withArrays spec11 c (W29 m ρ c) fun w => (dat11 (V_entry11 m ρ) c).arrAt w cfg11.N
theorem W30_arr (c : Dev nD) (w : Fin cfg11.W) :
    W30 m ρ c (Proc.devRef .tc (Pipeline.arrRef spec11 w)) = (dat11 (V_entry11 m ρ) c).arrAt w cfg11.N :=
  Pipeline.withArrays_arr spec11 launch11.win.arr_inj c _ _ w
theorem W30_of_ne (c : Dev nD) (b : Ref sig .tc) (hb : ∀ w, Pipeline.arrRef spec11 w ≠ b) :
    W30 m ρ c (Proc.devRef .tc b) = W29 m ρ c (Proc.devRef .tc b) :=
  Pipeline.withArrays_of_ne spec11 c _ _ b hb
abbrev W_after11 : Dev nD → Valuation τ sig (Elt F) := W30 m ρ
abbrev V_after11 : (c : Dev nD) → (b : Ref sig .tc) → Buf (Elt F) ((c : Thread nD τ).loc b) := fun c b => W30 m ρ c b
theorem hF11 (c : Dev nD) (w : Fin cfg11.W) : (dat11 (V_entry11 m ρ) c).arrAt w cfg11.N = V_after11 m ρ c (Pipeline.arrRef spec11 w) :=
  (W30_arr m ρ c w).symm
theorem hrest11 (c : Dev nD) : ∀ b, b ∉ Finset.univ.image (Pipeline.arrRef spec11) → V_after11 m ρ c b = V_entry11 m ρ c b :=
  fun b hb => W30_of_ne m ρ c b (not_img hb)

abbrev W31 : Dev nD → Valuation τ sig (Elt F) := fun c => StableHlo.after hostOps12 (W30 m ρ c)
abbrev W32 : Dev nD → Valuation τ sig (Elt F) := fun c => StableHlo.after hostOps12_1 (W31 m ρ c)
abbrev W33 : Dev nD → Valuation τ sig (Elt F) := fun c => StableHlo.after hostOps12_2 (W32 m ρ c)
abbrev Wlast : Dev nD → Valuation τ sig (Elt F) := W33 m ρ

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17]

abbrev NW (ops : List (HloOp τ sig (Elt F))) : Prop :=
  ops.Forall fun op => ∃ y, op.writes = {Proc.devRef .tc y} ∧ y ∉ mainArgs
-- a buffer that no operation of the list writes is left as it was
theorem host_arg {ops : List (HloOp τ sig (Elt F))} (h : NW ops) {r : Ref sig .tc} (hr : r ∈ mainArgs)
    {V : Valuation τ sig (Elt F)} {x} (hV : V (Proc.devRef .tc r) = x) :
    StableHlo.after ops V (Proc.devRef .tc r) = x :=
  (StableHlo.after_of_forall_not_mem _ _ fun op hop hb => by
    obtain ⟨y, hw, hy⟩ := List.forall_iff_forall_mem.mp h op hop
    rw [hw, Finset.mem_singleton] at hb
    exact hy (Proc.devRef_injective _ hb ▸ hr)).trans hV
theorem reg_arg {n : ℕ} {a : Fin n → Ref sig .tc} (ha : ∀ w, a w ∉ mainArgs) {r : Ref sig .tc} (hr : r ∈ mainArgs) :
    ∀ w, a w ≠ r := fun w e => ha w (e ▸ hr)

theorem nw0 : NW (F := F) hostOps0 := by simp only [NW, List.Forall]; (repeat' constructor); all_goals decide
theorem nw0_1 : NW (F := F) hostOps0_1 := by simp only [NW, List.Forall]; (repeat' constructor); all_goals decide
theorem nw0_2 : NW (F := F) hostOps0_2 := by simp only [NW, List.Forall]; (repeat' constructor); all_goals decide
theorem nw2 : NW (F := F) hostOps2 := by simp only [NW, List.Forall]; (repeat' constructor); all_goals decide
theorem nw2_1 : NW (F := F) hostOps2_1 := by simp only [NW, List.Forall]; (repeat' constructor); all_goals decide
theorem nw2_2 : NW (F := F) hostOps2_2 := by simp only [NW, List.Forall]; (repeat' constructor); all_goals decide
theorem nw4 : NW (F := F) hostOps4 := by simp only [NW, List.Forall]; (repeat' constructor); all_goals decide
theorem nw4_1 : NW (F := F) hostOps4_1 := by simp only [NW, List.Forall]; (repeat' constructor); all_goals decide
theorem nw4_2 : NW (F := F) hostOps4_2 := by simp only [NW, List.Forall]; (repeat' constructor); all_goals decide
theorem nw6 : NW (F := F) hostOps6 := by simp only [NW, List.Forall]; (repeat' constructor); all_goals decide
theorem nw6_1 : NW (F := F) hostOps6_1 := by simp only [NW, List.Forall]; (repeat' constructor); all_goals decide
theorem nw6_2 : NW (F := F) hostOps6_2 := by simp only [NW, List.Forall]; (repeat' constructor); all_goals decide
theorem nw8 : NW (F := F) hostOps8 := by simp only [NW, List.Forall]; (repeat' constructor); all_goals decide
theorem nw8_1 : NW (F := F) hostOps8_1 := by simp only [NW, List.Forall]; (repeat' constructor); all_goals decide
theorem nw8_2 : NW (F := F) hostOps8_2 := by simp only [NW, List.Forall]; (repeat' constructor); all_goals decide
theorem nw10 : NW (F := F) hostOps10 := by simp only [NW, List.Forall]; (repeat' constructor); all_goals decide
theorem nw10_1 : NW (F := F) hostOps10_1 := by simp only [NW, List.Forall]; (repeat' constructor); all_goals decide
theorem nw10_2 : NW (F := F) hostOps10_2 := by simp only [NW, List.Forall]; (repeat' constructor); all_goals decide
theorem nw12 : NW (F := F) hostOps12 := by simp only [NW, List.Forall]; (repeat' constructor); all_goals decide
theorem nw12_1 : NW (F := F) hostOps12_1 := by simp only [NW, List.Forall]; (repeat' constructor); all_goals decide
theorem nw12_2 : NW (F := F) hostOps12_2 := by simp only [NW, List.Forall]; (repeat' constructor); all_goals decide

theorem W5_arg (c : Dev nD) (r : Ref sig .tc) (hr : r ∈ mainArgs) : W5 m ρ c (Proc.devRef .tc r) = m ((c : Thread nD τ).loc r) :=
  (W5_of_ne m ρ c r (reg_arg (by decide) hr)).trans <| (W4_of_ne m ρ c r (reg_arg (by decide) hr)).trans <|
    host_arg nw0_2 hr <| host_arg nw0_1 hr <| host_arg nw0 hr rfl
theorem W10_arg (c : Dev nD) (r : Ref sig .tc) (hr : r ∈ mainArgs) : W10 m ρ c (Proc.devRef .tc r) = m ((c : Thread nD τ).loc r) :=
  (W10_of_ne m ρ c r (reg_arg (by decide) hr)).trans <| (W9_of_ne m ρ c r (reg_arg (by decide) hr)).trans <|
    host_arg nw2_2 hr <| host_arg nw2_1 hr <| host_arg nw2 hr (W5_arg m ρ c r hr)
theorem W15_arg (c : Dev nD) (r : Ref sig .tc) (hr : r ∈ mainArgs) : W15 m ρ c (Proc.devRef .tc r) = m ((c : Thread nD τ).loc r) :=
  (W15_of_ne m ρ c r (reg_arg (by decide) hr)).trans <| (W14_of_ne m ρ c r (reg_arg (by decide) hr)).trans <|
    host_arg nw4_2 hr <| host_arg nw4_1 hr <| host_arg nw4 hr (W10_arg m ρ c r hr)
theorem W20_arg (c : Dev nD) (r : Ref sig .tc) (hr : r ∈ mainArgs) : W20 m ρ c (Proc.devRef .tc r) = m ((c : Thread nD τ).loc r) :=
  (W20_of_ne m ρ c r (reg_arg (by decide) hr)).trans <| (W19_of_ne m ρ c r (reg_arg (by decide) hr)).trans <|
    host_arg nw6_2 hr <| host_arg nw6_1 hr <| host_arg nw6 hr (W15_arg m ρ c r hr)
theorem W25_arg (c : Dev nD) (r : Ref sig .tc) (hr : r ∈ mainArgs) : W25 m ρ c (Proc.devRef .tc r) = m ((c : Thread nD τ).loc r) :=
  (W25_of_ne m ρ c r (reg_arg (by decide) hr)).trans <| (W24_of_ne m ρ c r (reg_arg (by decide) hr)).trans <|
    host_arg nw8_2 hr <| host_arg nw8_1 hr <| host_arg nw8 hr (W20_arg m ρ c r hr)
theorem W30_arg (c : Dev nD) (r : Ref sig .tc) (hr : r ∈ mainArgs) : W30 m ρ c (Proc.devRef .tc r) = m ((c : Thread nD τ).loc r) :=
  (W30_of_ne m ρ c r (reg_arg (by decide) hr)).trans <| (W29_of_ne m ρ c r (reg_arg (by decide) hr)).trans <|
    host_arg nw10_2 hr <| host_arg nw10_1 hr <| host_arg nw10 hr (W25_arg m ρ c r hr)
theorem W33_arg (c : Dev nD) (r : Ref sig .tc) (hr : r ∈ mainArgs) : W33 m ρ c (Proc.devRef .tc r) = m ((c : Thread nD τ).loc r) :=
  host_arg nw12_2 hr <| host_arg nw12_1 hr <| host_arg nw12 hr (W30_arg m ρ c r hr)

theorem Wlast_main_arg0 (c : Dev nD) : Wlast m ρ c (Proc.devRef .tc main_arg0) = m ((c : Thread nD τ).loc main_arg0) :=
  W33_arg m ρ c main_arg0 (by decide)
theorem Wlast_main_arg1 (c : Dev nD) : Wlast m ρ c (Proc.devRef .tc main_arg1) = m ((c : Thread nD τ).loc main_arg1) :=
  W33_arg m ρ c main_arg1 (by decide)
theorem Wlast_main_arg2 (c : Dev nD) : Wlast m ρ c (Proc.devRef .tc main_arg2) = m ((c : Thread nD τ).loc main_arg2) :=
  W33_arg m ρ c main_arg2 (by decide)
theorem Wlast_main_arg3 (c : Dev nD) : Wlast m ρ c (Proc.devRef .tc main_arg3) = m ((c : Thread nD τ).loc main_arg3) :=
  W33_arg m ρ c main_arg3 (by decide)
theorem Wlast_main_arg4 (c : Dev nD) : Wlast m ρ c (Proc.devRef .tc main_arg4) = m ((c : Thread nD τ).loc main_arg4) :=
  W33_arg m ρ c main_arg4 (by decide)
theorem Wlast_main_arg5 (c : Dev nD) : Wlast m ρ c (Proc.devRef .tc main_arg5) = m ((c : Thread nD τ).loc main_arg5) :=
  W33_arg m ρ c main_arg5 (by decide)
theorem Wlast_main_arg6 (c : Dev nD) : Wlast m ρ c (Proc.devRef .tc main_arg6) = m ((c : Thread nD τ).loc main_arg6) :=
  W33_arg m ρ c main_arg6 (by decide)
theorem Wlast_main_arg7 (c : Dev nD) : Wlast m ρ c (Proc.devRef .tc main_arg7) = m ((c : Thread nD τ).loc main_arg7) :=
  W33_arg m ρ c main_arg7 (by decide)
theorem Wlast_main_arg8 (c : Dev nD) : Wlast m ρ c (Proc.devRef .tc main_arg8) = m ((c : Thread nD τ).loc main_arg8) :=
  W33_arg m ρ c main_arg8 (by decide)
theorem Wlast_main_arg9 (c : Dev nD) : Wlast m ρ c (Proc.devRef .tc main_arg9) = m ((c : Thread nD τ).loc main_arg9) :=
  W33_arg m ρ c main_arg9 (by decide)
theorem Wlast_main_arg10 (c : Dev nD) : Wlast m ρ c (Proc.devRef .tc main_arg10) = m ((c : Thread nD τ).loc main_arg10) :=
  W33_arg m ρ c main_arg10 (by decide)
theorem Wlast_main_arg11 (c : Dev nD) : Wlast m ρ c (Proc.devRef .tc main_arg11) = m ((c : Thread nD τ).loc main_arg11) :=
  W33_arg m ρ c main_arg11 (by decide)
theorem Wlast_main_arg12 (c : Dev nD) : Wlast m ρ c (Proc.devRef .tc main_arg12) = m ((c : Thread nD τ).loc main_arg12) :=
  W33_arg m ρ c main_arg12 (by decide)
theorem Wlast_main_arg13 (c : Dev nD) : Wlast m ρ c (Proc.devRef .tc main_arg13) = m ((c : Thread nD τ).loc main_arg13) :=
  W33_arg m ρ c main_arg13 (by decide)
theorem Wlast_main_arg14 (c : Dev nD) : Wlast m ρ c (Proc.devRef .tc main_arg14) = m ((c : Thread nD τ).loc main_arg14) :=
  W33_arg m ρ c main_arg14 (by decide)
theorem Wlast_main_arg15 (c : Dev nD) : Wlast m ρ c (Proc.devRef .tc main_arg15) = m ((c : Thread nD τ).loc main_arg15) :=
  W33_arg m ρ c main_arg15 (by decide)
theorem Wlast_main_arg16 (c : Dev nD) : Wlast m ρ c (Proc.devRef .tc main_arg16) = m ((c : Thread nD τ).loc main_arg16) :=
  W33_arg m ρ c main_arg16 (by decide)
theorem Wlast_main_arg17 (c : Dev nD) : Wlast m ρ c (Proc.devRef .tc main_arg17) = m ((c : Thread nD τ).loc main_arg17) :=
  W33_arg m ρ c main_arg17 (by decide)

abbrev adm : (p : Fin 12) → (pcfgs (F := F) p).Adm := fun p => (cfgs p).toPCfg_adm
def pdats : (p : Fin 12) → (c : Dev nD) → Dat τ (Elt F) Unit ℕ (UR sig nD τ) ℕ (Pipeline.pin (pcfgs (F := F)) adm p) c
  | ⟨0, _⟩ => fun c => dat0 (V_entry0 m ρ) c
  | ⟨1, _⟩ => fun c => dat1 (V_entry1 m ρ) c
  | ⟨2, _⟩ => fun c => dat2 (V_entry2 m ρ) c
  | ⟨3, _⟩ => fun c => dat3 (V_entry3 m ρ) c
  | ⟨4, _⟩ => fun c => dat4 (V_entry4 m ρ) c
  | ⟨5, _⟩ => fun c => dat5 (V_entry5 m ρ) c
  | ⟨6, _⟩ => fun c => dat6 (V_entry6 m ρ) c
  | ⟨7, _⟩ => fun c => dat7 (V_entry7 m ρ) c
  | ⟨8, _⟩ => fun c => dat8 (V_entry8 m ρ) c
  | ⟨9, _⟩ => fun c => dat9 (V_entry9 m ρ) c
  | ⟨10, _⟩ => fun c => dat10 (V_entry10 m ρ) c
  | ⟨11, _⟩ => fun c => dat11 (V_entry11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps6_1_fresh : (hostOps6_1 : List (HloOp τ sig (Elt F))).Forall fun op => op.fresh = ∅ := by
  simp only [List.Forall]; repeat' constructor
theorem hostOps6_2_fresh : (hostOps6_2 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps8_1_fresh : (hostOps8_1 : List (HloOp τ sig (Elt F))).Forall fun op => op.fresh = ∅ := by
  simp only [List.Forall]; repeat' constructor
theorem hostOps8_2_fresh : (hostOps8_2 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps10_1_fresh : (hostOps10_1 : List (HloOp τ sig (Elt F))).Forall fun op => op.fresh = ∅ := by
  simp only [List.Forall]; repeat' constructor
theorem hostOps10_2_fresh : (hostOps10_2 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps12_1_fresh : (hostOps12_1 : List (HloOp τ sig (Elt F))).Forall fun op => op.fresh = ∅ := by
  simp only [List.Forall]; repeat' constructor
theorem hostOps12_2_fresh : (hostOps12_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wlast m ρ c) ∗ ∃ r, prngReg c r)

end Cert.Kernel.Hand

end
-- ==== Proof.K.RegLib.lean ====
import proofs.«177890_j48524540510773_1_alg».proof.Proof.K.Fold

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Contents owned at a given value are owned at some value.
theorem owns_some {P Q : sProp 𝕄} (c : Dev nD) (s : Ref sig .tc) {X : BufTy.Contents (Elt F) s.ty}
    (h : P = iprop(owns (c : Thread nD τ) (Memref.whole s) fullShare X ∗ Q)) :
    P ⊢ iprop((∃ d, owns (c : Thread nD τ) (Memref.whole s) fullShare d) ∗ Q) := by
  rw [h]
  iintro ⟨H, Hr⟩
  isplitl [H]; · iexists _; iexact H
  iexact Hr

-- The windows' arrays are among the held buffers: entry splits them off, exit rejoins them at the updated valuation.
def regOf (p : Fin 12) (lf : Pipeline.LaunchFacts (nD := nD) (τ := τ) cfgs p) (We Wa : Dev nD → Valuation τ sig (Elt F))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c, (pdats m ρ p c).recorded 0 = Set.univ)
    (hA : ∀ c w, (pdats m ρ p c).A w = We c (Pipeline.arrRef (cfgs p).spec w))
    (hF : ∀ c w, (pdats m ρ p c).arrAt w (cfgs p).N = Wa c (Pipeline.arrRef (cfgs p).spec w))
    (hrest : ∀ c (b : Ref sig .tc), b ∉ Finset.univ.image (Pipeline.arrRef (cfgs p).spec) → Wa c b = We c b)
    (s : Ref sig .tc)
    (hsc : ∀ c : Dev nD, (Pipeline.scopedRest (cfgs p).spec c : sProp 𝕄)
      = iprop((∃ f : Buf (Elt F) ((c : Thread nD τ).loc s), ((c : Thread nD τ).loc s) ↦{fullShare} f) ∗ Pipeline.scopedRestBut (cfgs p).spec c [s]))
    (hin : ∀ c : Dev nD, (pdats m ρ p c).Φ 0
      = iprop((∃ f : Buf (Elt F) ((c : Thread nD τ).loc s), ((c : Thread nD τ).loc s) ↦{fullShare} f) ∗ Pipeline.scopedRestBut (cfgs p).spec c [s]))
    (hout : ∀ c : Dev nD, (pdats m ρ p c).Φ (Fin.last (cfgs p).N) ⊢ iprop((∃ d, owns (c : Thread nD τ) (Memref.whole s) fullShare d) ∗ Pipeline.scopedRestBut (cfgs p).spec c [s])) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (We c) ∗ R c)
  post c := iprop(StableHlo.held (c : Thread nD τ) (Pipeline.ucRefs τ sig) (Wa c) ∗ R c)
  X _ := BI.emp
  Y _ := BI.emp
  Z c := iprop(Pipeline.unscopedRest (cfgs p).spec c (fun b => We c b) ∗ ∃ r, prngReg c r)
  hentry c := by
    have hsplit := Pipeline.arrays_of_unscopedBufs (p := p) (pcfgs (F := F)) adm (pdats m ρ) lf.win lf.arr_whole c
      ((pdats m ρ p c).share_full (hq c)) (fun b => We c b) (hA c)
    rw [Pipeline.unscopedBufs_held] at hsplit
    rw [Pipeline.ownSems0_none]
    unfold Pipeline.Dat.owesAt Pipeline.owesWithin Pipeline.prefHeld
    rw [howed c 0, show (Finset.univ : Finset (Fin 0)) = ∅ from rfl, BI.bigSep_empty]
    iintro ⟨⟨Hub, Hp, HO⟩, -, -⟩
    ihave H := hsplit $$ Hub
    icases H with ⟨Ha, Hrest⟩
    imodintro
    isplitl [Ha]; · iexact Ha
    isplitr; · iempintro
    isplitl [HO]
    · icases HO with ⟨%W, HO⟩; iexists W; isplitr; · ipureintro; exact fun _ _ => Or.inl ((hrec c).symm ▸ trivial)
      iexact HO
    isplitr; · iempintro
    isplitl [Hrest]; · iexact Hrest
    iexact Hp
  hin c := by
    iintro ⟨-, -, Hr⟩
    iapply (Entails.of_eq ((hsc c).trans (hin c).symm))
    iexact Hr
  hout c := by
    rw [Pipeline.ownSems0_none]
    iintro H
    isplitr; · iempintro
    isplitr; · iempintro
    iapply (Entails.of_eq (hsc c).symm)
    ihave H := (hout c) $$ H
    icases H with ⟨⟨%d, H⟩, Hr⟩
    isplitl [H]
    · iexists d; iapply (Entails.of_eq (owns_whole (c : Thread nD τ) s fullShare d)); iexact H
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => We c b) (fun b => Wa c b) ((pdats m ρ p c).arrAt · (cfgs p).N) (hF c) (hrest c)
    rw [Pipeline.unscopedBufs_held] at hjoin
    unfold Pipeline.Dat.owesAt Pipeline.owesWithin
    rw [howed c]
    iintro ⟨Ha, HO, -, Hrest, Hp⟩
    imodintro
    isplitl [Ha Hrest]
    · iapply hjoin; isplitl [Ha] <;> iassumption
    isplitl [Hp]; · iexact Hp
    icases HO with ⟨%W, -, HO⟩; iexists W; iexact HO

end Cert.Kernel.Hand

end
-- ==== Proof.K.R0Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  regOf m ρ 0 launch0 (W_entry0 m ρ) (W_after0 m ρ) (body_obligation0 (V_entry0 m ρ)) (fun _ _ => rfl) (fun _ _ => rfl)
    (fun _ => rfl) (fun _ _ => rfl) (hF0 m ρ) (hrest0 m ρ) cc0_scratch0 scopedRest0_split (Phi0_first (V_entry0 m ρ))
    fun c => owns_some c _ (Phi0_last (V_entry0 m ρ) c)

end Cert.Kernel.Hand

end
-- ==== Proof.K.R1Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

abbrev pipe1 : Fin 12 := cfg1.body

def reg1 : Pipeline.RegionSeg (pcfgs (F := F)) adm (pdats m ρ) () defs₀ 𝒱₀ L lv pipe1 :=
  regOf m ρ pipe1 launch1 (W_entry1 m ρ) (W_after1 m ρ) (body_obligation1 (V_entry1 m ρ)) (fun _ _ => rfl) (fun _ _ => rfl)
    (fun _ => rfl) (fun _ _ => rfl) (hF1 m ρ) (hrest1 m ρ) cc1_scratch0 scopedRest1_split (Phi1_zero (V_entry1 m ρ))
    fun c => .trans (.of_eq (Phi1_last (V_entry1 m ρ) c)) (Phi1_any (V_entry1 m ρ) c cfg1.N)

end Cert.Kernel.Hand

end
-- ==== Proof.K.R2Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

def reg2 : Pipeline.RegionSeg (pcfgs (F := F)) adm (pdats m ρ) () defs₀ 𝒱₀ L lv 2 :=
  regOf m ρ 2 launch2 (W_entry2 m ρ) (W_after2 m ρ) (body_obligation2 (V_entry2 m ρ)) (fun _ _ => rfl) (fun _ _ => rfl)
    (fun _ => rfl) (fun _ _ => rfl) (hF2 m ρ) (hrest2 m ρ) cc2_scratch0 scopedRest2_split (Phi2_first (V_entry2 m ρ))
    fun c => owns_some c _ (Phi2_last (V_entry2 m ρ) c)

end Cert.Kernel.Hand

end
-- ==== Proof.K.R3Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

abbrev pipe3 : Fin 12 := cfg3.body

def reg3 : Pipeline.RegionSeg (pcfgs (F := F)) adm (pdats m ρ) () defs₀ 𝒱₀ L lv pipe3 :=
  regOf m ρ pipe3 launch3 (W_entry3 m ρ) (W_after3 m ρ) (body_obligation3 (V_entry3 m ρ)) (fun _ _ => rfl) (fun _ _ => rfl)
    (fun _ => rfl) (fun _ _ => rfl) (hF3 m ρ) (hrest3 m ρ) cc3_scratch0 scopedRest3_split (Phi3_zero (V_entry3 m ρ))
    fun c => .trans (.of_eq (Phi3_last (V_entry3 m ρ) c)) (Phi3_any (V_entry3 m ρ) c cfg3.N)

end Cert.Kernel.Hand

end
-- ==== Proof.K.R4Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

abbrev pipe4 : Fin 12 := cfg4.body

def reg4 : Pipeline.RegionSeg (pcfgs (F := F)) adm (pdats m ρ) () defs₀ 𝒱₀ L lv pipe4 :=
  regOf m ρ pipe4 launch4 (W_entry4 m ρ) (W_after4 m ρ) (body_obligation4 (V_entry4 m ρ)) (fun _ _ => rfl) (fun _ _ => rfl)
    (fun _ => rfl) (fun _ _ => rfl) (hF4 m ρ) (hrest4 m ρ) cc4_scratch0 scopedRest4_split (Phi4_zero (V_entry4 m ρ))
    fun c => .trans (.of_eq (Phi4_last (V_entry4 m ρ) c)) (Phi4_any (V_entry4 m ρ) c cfg4.N)

end Cert.Kernel.Hand

end
-- ==== Proof.K.R5Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

def reg5 : Pipeline.RegionSeg (pcfgs (F := F)) adm (pdats m ρ) () defs₀ 𝒱₀ L lv 5 :=
  regOf m ρ 5 launch5 (W_entry5 m ρ) (W_after5 m ρ) (body_obligation5 (V_entry5 m ρ)) (fun _ _ => rfl) (fun _ _ => rfl)
    (fun _ => rfl) (fun _ _ => rfl) (hF5 m ρ) (hrest5 m ρ) cc5_scratch0 scopedRest5_split (Phi5_first (V_entry5 m ρ))
    fun c => owns_some c _ (Phi5_last (V_entry5 m ρ) c)

end Cert.Kernel.Hand

end
-- ==== Proof.K.R6Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

abbrev pipe6 : Fin 12 := cfg6.body

def reg6 : Pipeline.RegionSeg (pcfgs (F := F)) adm (pdats m ρ) () defs₀ 𝒱₀ L lv pipe6 :=
  regOf m ρ pipe6 launch6 (W_entry6 m ρ) (W_after6 m ρ) (body_obligation6 (V_entry6 m ρ)) (fun _ _ => rfl) (fun _ _ => rfl)
    (fun _ => rfl) (fun _ _ => rfl) (hF6 m ρ) (hrest6 m ρ) cc6_scratch0 scopedRest6_split (Phi6_zero (V_entry6 m ρ))
    fun c => .trans (.of_eq (Phi6_last (V_entry6 m ρ) c)) (Phi6_any (V_entry6 m ρ) c cfg6.N)

end Cert.Kernel.Hand

end
-- ==== Proof.K.R7Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

def reg7 : Pipeline.RegionSeg (pcfgs (F := F)) adm (pdats m ρ) () defs₀ 𝒱₀ L lv 7 :=
  regOf m ρ 7 launch7 (W_entry7 m ρ) (W_after7 m ρ) (body_obligation7 (V_entry7 m ρ)) (fun _ _ => rfl) (fun _ _ => rfl)
    (fun _ => rfl) (fun _ _ => rfl) (hF7 m ρ) (hrest7 m ρ) cc7_scratch0 scopedRest7_split (Phi7_first (V_entry7 m ρ))
    fun c => owns_some c _ (Phi7_last (V_entry7 m ρ) c)

end Cert.Kernel.Hand

end
-- ==== Proof.K.R8Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

abbrev pipe8 : Fin 12 := cfg8.body

def reg8 : Pipeline.RegionSeg (pcfgs (F := F)) adm (pdats m ρ) () defs₀ 𝒱₀ L lv pipe8 :=
  regOf m ρ pipe8 launch8 (W_entry8 m ρ) (W_after8 m ρ) (body_obligation8 (V_entry8 m ρ)) (fun _ _ => rfl) (fun _ _ => rfl)
    (fun _ => rfl) (fun _ _ => rfl) (hF8 m ρ) (hrest8 m ρ) cc8_scratch0 scopedRest8_split (Phi8_zero (V_entry8 m ρ))
    fun c => .trans (.of_eq (Phi8_last (V_entry8 m ρ) c)) (Phi8_any (V_entry8 m ρ) c cfg8.N)

end Cert.Kernel.Hand

end
-- ==== Proof.K.R9Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

def reg9 : Pipeline.RegionSeg (pcfgs (F := F)) adm (pdats m ρ) () defs₀ 𝒱₀ L lv 9 :=
  regOf m ρ 9 launch9 (W_entry9 m ρ) (W_after9 m ρ) (body_obligation9 (V_entry9 m ρ)) (fun _ _ => rfl) (fun _ _ => rfl)
    (fun _ => rfl) (fun _ _ => rfl) (hF9 m ρ) (hrest9 m ρ) cc9_scratch0 scopedRest9_split (Phi9_first (V_entry9 m ρ))
    fun c => owns_some c _ (Phi9_last (V_entry9 m ρ) c)

end Cert.Kernel.Hand

end
-- ==== Proof.K.R10Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

abbrev pipe10 : Fin 12 := cfg10.body

def reg10 : Pipeline.RegionSeg (pcfgs (F := F)) adm (pdats m ρ) () defs₀ 𝒱₀ L lv pipe10 :=
  regOf m ρ pipe10 launch10 (W_entry10 m ρ) (W_after10 m ρ) (body_obligation10 (V_entry10 m ρ)) (fun _ _ => rfl) (fun _ _ => rfl)
    (fun _ => rfl) (fun _ _ => rfl) (hF10 m ρ) (hrest10 m ρ) cc10_scratch0 scopedRest10_split (Phi10_zero (V_entry10 m ρ))
    fun c => .trans (.of_eq (Phi10_last (V_entry10 m ρ) c)) (Phi10_any (V_entry10 m ρ) c cfg10.N)

end Cert.Kernel.Hand

end
-- ==== Proof.K.R11Reg.lean ====
import proofs.«177890_j48524540510773_1_alg».proof.Proof.K.RegLib

noncomputable section

namespace Cert.Kernel.Hand

open Cert.Kernel.Gen Idealize.ShloMosaic

variable {F : FTy → Type} [FloatOps F] (m : (ℓ : Loc nD τ sig) → Buf (Elt F) ℓ) (ρ : Dev nD → PrngReg)

def reg11 : Pipeline.RegionSeg (pcfgs (F := F)) adm (pdats m ρ) () defs₀ 𝒱₀ L lv 11 :=
  regOf m ρ 11 launch11 (W_entry11 m ρ) (W_after11 m ρ) (body_obligation11 (V_entry11 m ρ)) (fun _ _ => rfl) (fun _ _ => rfl)
    (fun _ => rfl) (fun _ _ => rfl) (hF11 m ρ) (hrest11 m ρ) cc11_scratch0 scopedRest11_split (Phi11_first (V_entry11 m ρ))
    fun c => owns_some c _ (Phi11_last (V_entry11 m ρ) c)

end Cert.Kernel.Hand

end
-- ==== Proof.K.Run.lean ====
import proofs.«177890_j48524540510773_1_alg».proof.Proof.K.Fold
import proofs.«177890_j48524540510773_1_alg».proof.Proof.K.R0Reg
import proofs.«177890_j48524540510773_1_alg».proof.Proof.K.R1Reg
import proofs.«177890_j48524540510773_1_alg».proof.Proof.K.R2Reg
import proofs.«177890_j48524540510773_1_alg».proof.Proof.K.R3Reg
import proofs.«177890_j48524540510773_1_alg».proof.Proof.K.R4Reg
import proofs.«177890_j48524540510773_1_alg».proof.Proof.K.R5Reg
import proofs.«177890_j48524540510773_1_alg».proof.Proof.K.R6Reg
import proofs.«177890_j48524540510773_1_alg».proof.Proof.K.R7Reg
import proofs.«177890_j48524540510773_1_alg».proof.Proof.K.R8Reg
import proofs.«177890_j48524540510773_1_alg».proof.Proof.K.R9Reg
import proofs.«177890_j48524540510773_1_alg».proof.Proof.K.R10Reg
import proofs.«177890_j48524540510773_1_alg».proof.Proof.K.R11Reg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)),
    .region (reg2 m ρ),
    .region (reg3 m ρ),
    .host (hseg hostOps4 hostOps4_sub hostOps4_fresh (W10 m ρ)),
    .host (hseg hostOps4_1 hostOps4_1_sub hostOps4_1_fresh (W11 m ρ)),
    .host (hseg hostOps4_2 hostOps4_2_sub hostOps4_2_fresh (W12 m ρ)),
    .region (reg4 m ρ),
    .region (reg5 m ρ),
    .host (hseg hostOps6 hostOps6_sub hostOps6_fresh (W15 m ρ)),
    .host (hseg hostOps6_1 hostOps6_1_sub hostOps6_1_fresh (W16 m ρ)),
    .host (hseg hostOps6_2 hostOps6_2_sub hostOps6_2_fresh (W17 m ρ)),
    .region (reg6 m ρ),
    .region (reg7 m ρ),
    .host (hseg hostOps8 hostOps8_sub hostOps8_fresh (W20 m ρ)),
    .host (hseg hostOps8_1 hostOps8_1_sub hostOps8_1_fresh (W21 m ρ)),
    .host (hseg hostOps8_2 hostOps8_2_sub hostOps8_2_fresh (W22 m ρ)),
    .region (reg8 m ρ),
    .region (reg9 m ρ),
    .host (hseg hostOps10 hostOps10_sub hostOps10_fresh (W25 m ρ)),
    .host (hseg hostOps10_1 hostOps10_1_sub hostOps10_1_fresh (W26 m ρ)),
    .host (hseg hostOps10_2 hostOps10_2_sub hostOps10_2_fresh (W27 m ρ)),
    .region (reg10 m ρ),
    .region (reg11 m ρ),
    .host (hseg hostOps12 hostOps12_sub hostOps12_fresh (W30 m ρ)),
    .host (hseg hostOps12_1 hostOps12_1_sub hostOps12_1_fresh (W31 m ρ)),
    .host (hseg hostOps12_2 hostOps12_2_sub hostOps12_2_fresh (W32 m ρ)) ]

theorem main_run (c : Dev nD) : main (F := F) c = Pipeline.Seg.run (segs m ρ) := (main_chain c).trans (by chain_rfl)

theorem chain_end (c : Dev nD) :
    iprop(StableHlo.held (c : Thread nD τ) (Pipeline.ucRefs τ sig) (Wlast m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
set_option maxHeartbeats 4000000 in
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c : Thread nD τ).loc b) = Wlast m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun c => chain_end m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h c b hb => h c _ (mem_uc b hb))

end Cert.Kernel.Hand

end
-- ==== Proof.KI.R0Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL0" => S512x512
local notation "SR0" => S512x512
local notation "SO0" => S512x512
local notation "inbL0" => inb_S512x512_S512x512_0_0
local notation "inbR0" => inb_S512x512_S512x512_0_0
local notation "inbO0" => inb_S512x512_S512x512_0_0

abbrev cond0_1 (i : grid0.Coords) : Prop :=
  (Scalar.cmpi .ne (Scalar.extui (Scalar.cmpi .eq (BitVec.ofNat 32 (i 2).val) 0#32)) 0#32) = 1#1
abbrev cond0_2 (i : grid0.Coords) : Prop := k0_cond2 i = 1#1

theorem hcond0_1 : ∀ t : Fin cfg0.N, cond0_1 (grid0.coords t) ↔ t.val % 20 = 0 :=
  (by decide +kernel : ∀ t : Fin grid0.N, cond0_1 (grid0.coords t) ↔ t.val % 20 = 0)
theorem hcond0_2 : ∀ t : Fin cfg0.N, cond0_2 (grid0.coords t) ↔ t.val % 20 = 19 :=
  (by decide +kernel : ∀ t : Fin grid0.N, cond0_2 (grid0.coords t) ↔ t.val % 20 = 19)

section Run

variable (c : Dev nD) (E : Set ℕ) (i : grid0.Coords)
    (arg3 : Memref sig .tc .vmem SL0 .bf16) (harg3 : arg3.IsWhole) (arg4 : Memref sig .tc .vmem SR0 .bf16) (harg4 : arg4.IsWhole)
    (arg5 : Memref sig .tc .vmem SO0 .bf16) (harg5 : arg5.IsWhole) (arg6 : Memref sig .tc .vmem SO0 .f32) (harg6 : arg6.IsWhole)
    (x0 : Vec F SL0 .bf16) (x1 : Vec F SR0 .bf16)

set_option maxHeartbeats 1000000 in
theorem run0_A (hc1 : cond0_1 i) (hc2 : ¬cond0_2 i) (xo : Vec F SO0 .bf16) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO0 _ _).trans ?_
  sl_unfold_run_names
  rw [View.readCov_unit_zero (S := SO0) _ zeros2]
  simp only [View.readAt_eq_ld, View.ld_unit_zero (S := SL0) zeros2, View.ld_unit_zero (S := SR0) zeros2]

set_option maxHeartbeats 1000000 in
theorem run0_B (hc1 : ¬cond0_1 i) (hc2 : ¬cond0_2 i) (xo : Vec F SO0 .bf16) (s : Vec F SO0 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO0 _ _).trans ?_
  try sl_unfold_run_names
  simp only [View.readAt_eq_ld, View.ld_unit_zero (S := SL0) zeros2, View.ld_unit_zero (S := SR0) zeros2, View.ld_unit_zero (S := SO0) zeros2]

set_option maxHeartbeats 1000000 in
theorem run0_C (hc1 : ¬cond0_1 i) (hc2 : cond0_2 i) (s : Vec F SO0 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 s x0 x1))
            ∗ owns (c : Thread nD τ) arg6 fullShare (k0_pay2 s x0 x1)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO0 _ _).trans ?_
    try sl_unfold_run_names
    rw [View.readCov_unit_zero (S := SO0) _ zeros2]
    simp only [View.readAt_eq_ld, View.ld_unit_zero (S := SL0) zeros2, View.ld_unit_zero (S := SR0) zeros2, View.ld_unit_zero (S := SO0) zeros2]
  iexists _; isplitr
  swap; · iexact H3
  ipureintro
  refine (read_store_whole _ _ zeros2 inbO0 _ _).trans ?_
  try sl_unfold_run_names
  simp only [View.readAt_eq_ld, View.ld_unit_zero (S := SL0) zeros2, View.ld_unit_zero (S := SR0) zeros2, View.ld_unit_zero (S := SO0) zeros2]

end Run

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem N_pos0 : 0 < cfg0.N := by rw [show cfg0.N = _ from N_0]; decide

def lhs0 (c : Dev nD) : ℕ → Vec F SL0 .bf16 := natExt N_pos0 fun t => iblk0 V c 0 t
def rhs0 (c : Dev nD) : ℕ → Vec F SR0 .bf16 := natExt N_pos0 fun t => iblk0 V c 1 t

def acc0 (c : Dev nD) : ℕ → Vec F SO0 .f32 :=
  accOf 20 (fun n => k0_pay2 (k0_pay1 (F := F)) (lhs0 V c n) (rhs0 V c n)) fun a n => k0_pay2 a (lhs0 V c n) (rhs0 V c n)

theorem acc0_reset (c : Dev nD) (t : Fin cfg0.N) (h : t.val % 20 = 0) :
    acc0 V c t.val = k0_pay2 (k0_pay1 (F := F)) (iblk0 V c 0 t) (iblk0 V c 1 t) :=
  (accOf_reset h).trans (by unfold lhs0 rhs0; rw [natExt_val, natExt_val])

theorem acc0_step (c : Dev nD) (t : Fin cfg0.N) (h : t.val % 20 ≠ 0) :
    acc0 V c t.val = k0_pay2 (acc0 V c (t.val - 1)) (iblk0 V c 0 t) (iblk0 V c 1 t) :=
  (accOf_step h).trans (by unfold lhs0 rhs0; rw [natExt_val, natExt_val]; rfl)

abbrev scM0 : Memref sig .tc .vmem SO0 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

def Phi0 (c : Dev nD) : ℕ → sProp 𝕄 :=
  PhiOf iprop(∃ f : Buf (Elt F) ((c : Thread nD τ).loc cc0_scratch0), ((c : Thread nD τ).loc cc0_scratch0) ↦{fullShare} f)
    (owns (c : Thread nD τ) scM0 fullShare) (acc0 V c) (rest0 c)

theorem Phi0_pos (c : Dev nD) (n : ℕ) (h : n ≠ 0) :
    Phi0 V c n = iprop(owns (c : Thread nD τ) scM0 fullShare (acc0 V c (n - 1)) ∗ rest0 (F := F) c) := PhiOf_pos h

theorem Phi0_any (c : Dev nD) (n : ℕ) :
    Phi0 V c n ⊢ iprop((∃ d, owns (c : Thread nD τ) scM0 fullShare d) ∗ rest0 (F := F) c) :=
  PhiOf_any (by iintro ⟨%f, H⟩; iexists f; rw [owns_whole]; iexact H) n

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val)
  Φ t := Phi0 V c t.val
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = k0_pay3 (acc0 V c t.val) := by dsimp only [dat0]

theorem Phi0_first (c : Dev nD) : (dat0 V c).Φ 0 = iprop((∃ f : Buf (Elt F) ((c : Thread nD τ).loc cc0_scratch0), ((c : Thread nD τ).loc cc0_scratch0) ↦{fullShare} f)
      ∗ Pipeline.scopedRestBut (Ix := Unit) (Name := ℕ) (U := UR sig nD τ) (Lvl := ℕ) (Val := Elt F) spec0 c [cc0_scratch0]) := by
  dsimp only [dat0]; rfl

theorem Phi0_last (c : Dev nD) : (dat0 V c).Φ (Fin.last cfg0.N) = iprop(owns (c : Thread nD τ) scM0 fullShare (acc0 V c (cfg0.N - 1))
      ∗ Pipeline.scopedRestBut (Ix := Unit) (Name := ℕ) (U := UR sig nD τ) (Lvl := ℕ) (Val := Elt F) spec0 c [cc0_scratch0]) := by
  dsimp only [dat0]
  rw [Fin.val_last, Phi0_pos V c _ (Nat.pos_iff_ne_zero.mp N_pos0)]

theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

theorem idle0_2 (i : grid0.Coords) (h : ¬cond0_2 i) : cfg0.idle 2 i = true := by
  show (!(k0_cond2 i == 1#1)) = true
  rw [beq_eq_false_iff_ne.mpr h]; rfl
theorem live0_2 (i : grid0.Coords) (h : cond0_2 i) : cfg0.idle 2 i = false := by
  show (!(k0_cond2 i == 1#1)) = false
  rw [show k0_cond2 i = 1#1 from h]; rfl
theorem noFlush0_2 (t : Fin cfg0.N) (h : ¬t.val % 20 = 19) : (cfg0.win 2).flush t = false :=
  Bool.eq_false_iff.mpr fun hf => h ((flush0_2 t).mp hf)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.castSucc = Phi0 V c t.val from rfl,
    show (dat0 V c).Φ t.succ = iprop(owns (c : Thread nD τ) scM0 fullShare (acc0 V c t.val) ∗ rest0 (F := F) c) from rfl,
    show (dat0 V c).leavesExact 0 t = owns (c : Thread nD τ) (st0_0 t) fullShare (iblk0 V c 0 t) from rfl,
    show (dat0 V c).leavesExact 1 t = owns (c : Thread nD τ) (st0_1 t) fullShare (iblk0 V c 1 t) from rfl]
  by_cases h2 : t.val % 20 = 19
  · have h1 : ¬t.val % 20 = 0 := by omega
    rw [show (dat0 V c).leavesExact 2 t = owns (c : Thread nD τ) (st0_2 t) fullShare ((dat0 V c).after 2 t) from by
      unfold Dat.leavesExact; rw [live0_2 _ ((hcond0_2 t).mpr h2)], after0_2]
    rw [acc0_step V c t h1]
    exact body_shuffle (fun _ => run0_C c Set.univ (grid0.coords t) (st0_0 t) _ (st0_1 t) _ (st0_2 t) _ scM0 _ (iblk0 V c 0 t) (iblk0 V c 1 t)
      (fun h => h1 ((hcond0_1 t).mp h)) ((hcond0_2 t).mpr h2) (acc0 V c (t.val - 1))) (.of_eq (Phi0_pos V c _ (by omega))) (fun _ => exists_intro _) fun _ => .rfl
  · rw [Dat.leavesExact_idle (dat0 V c) 2 t (idle0_2 _ fun h => h2 ((hcond0_2 t).mp h)) (noFlush0_2 t h2)]
    by_cases h1 : t.val % 20 = 0
    · rw [acc0_reset V c t h1]
      exact body_shuffle (fun d => run0_A c Set.univ (grid0.coords t) (st0_0 t) _ (st0_1 t) _ (st0_2 t) _ scM0 _ (iblk0 V c 0 t) (iblk0 V c 1 t)
        ((hcond0_1 t).mpr h1) (fun h => h2 ((hcond0_2 t).mp h)) ((dat0 V c).before 2 t d)) (Phi0_any V c t.val) (fun _ => .rfl) fun d => by iintro H; iexists d; iexact H
    · rw [acc0_step V c t h1]
      exact body_shuffle (fun d => run0_B c Set.univ (grid0.coords t) (st0_0 t) _ (st0_1 t) _ (st0_2 t) _ scM0 _ (iblk0 V c 0 t) (iblk0 V c 1 t)
        (fun h => h1 ((hcond0_1 t).mp h)) (fun h => h2 ((hcond0_2 t).mp h)) ((dat0 V c).before 2 t d) (acc0 V c (t.val - 1))) (.of_eq (Phi0_pos V c _ (by omega))) (fun _ => .rfl) fun d => by iintro H; iexists d; iexact H

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

theorem hcond1_0 : ∀ t : Fin cfg1.N, cond1_0 (grid1.coords t) :=
  (by decide +kernel : ∀ t : Fin grid1.N, cond1_0 (grid1.coords t))
theorem hcond1_1 : ∀ t : Fin cfg1.N, cond1_1 (grid1.coords t) :=
  (by decide +kernel : ∀ t : Fin grid1.N, cond1_1 (grid1.coords t))

set_option maxHeartbeats 1000000 in
theorem sound_kernel1 (c : Dev nD) (E : Set ℕ) (i : grid1.Coords) (hcF : cond1_0 i) (hcL : cond1_1 i)
    (mA : Memref sig .tc .vmem S512x512 .bf16) (hmA : mA.IsWhole) (mB : Memref sig .tc .vmem S512x1024 .bf16) (hmB : mB.IsWhole)
    (mC : Memref sig .tc .vmem S512x1024 .f32) (hmC : mC.IsWhole) (mS : Memref sig .tc .vmem S512x1024 .f32) (hmS : mS.IsWhole)
    (a : Vec F S512x512 .bf16) (b : Vec F S512x1024 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k1_pay2 k1_pay1 a b) ∗ owns (c : Thread nD τ) mS fullShare (k1_pay2 k1_pay1 a b)) -∗ K ⟨⟩))
      ⊢ wp frame (wpE (defs₀ (F := F)) Variants.none c none) E (cc1__matmul_kernel i mA hmA mB hmB mC hmC mS hmS) K := by
  simp only [cc1__matmul_kernel_eq_skeleton]; unfold cc1__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) (n : ℕ) : Vec F S512x1024 .f32 :=
  if h : n < cfg1.N then k1_pay2 k1_pay1 (iblk1 V c 0 ⟨n, h⟩) (iblk1 V c 1 ⟨n, h⟩) else k1_pay1

theorem acc1_reset (c : Dev nD) (t : Fin cfg1.N) :
    acc1 V c t.val = k1_pay2 k1_pay1 (iblk1 V c 0 t) (iblk1 V c 1 t) := dif_pos t.isLt

def Phi1 (c : Dev nD) : ℕ → sProp 𝕄 :=
  PhiOf iprop(∃ f : Buf (Elt F) ((c : Thread nD τ).loc cc1_scratch0), ((c : Thread nD τ).loc cc1_scratch0) ↦{fullShare} f)
    (owns (c : Thread nD τ) (Memref.whole cc1_scratch0) fullShare) (acc1 V c) (Pipeline.scopedRestBut (Ix := Unit) (Name := ℕ) (U := UR sig nD τ) (Lvl := ℕ) (Val := Elt F) spec1 c [cc1_scratch0])

theorem Phi1_any (c : Dev nD) (n : ℕ) :
    Phi1 V c n ⊢ iprop((∃ d, owns (c : Thread nD τ) (Memref.whole cc1_scratch0) fullShare d)
      ∗ Pipeline.scopedRestBut (Ix := Unit) (Name := ℕ) (U := UR sig nD τ) (Lvl := ℕ) (Val := Elt F) spec1 c [cc1_scratch0]) :=
  PhiOf_any (by iintro ⟨%f, H⟩; iexists f; rw [owns_whole]; iexact H) n

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val := by dsimp only [dat1]

theorem Phi1_zero (c : Dev nD) : (dat1 V c).Φ 0 = Phi1 V c 0 := by dsimp only [dat1]; rfl
theorem Phi1_last (c : Dev nD) : (dat1 V c).Φ (Fin.last cfg1.N) = Phi1 V c cfg1.N := by dsimp only [dat1]; rfl

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem liveAt1_2 : ∀ t : Fin cfg1.N, cfg1.idle 2 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(owns (c : Thread nD τ) (Memref.whole cc1_scratch0) fullShare (acc1 V c t.val)
      ∗ Pipeline.scopedRestBut (Ix := Unit) (Name := ℕ) (U := UR sig nD τ) (Lvl := ℕ) (Val := Elt F) spec1 c [cc1_scratch0]) from rfl,
    show (dat1 V c).Φ t.castSucc = Phi1 V c t.val from rfl,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from by
      unfold Dat.leavesExact; rw [liveAt1_2 t],
    after1_0, after1_1, after1_2, acc1_reset]
  exact body_shuffle (fun _ => sound_kernel1 c Set.univ (grid1.coords t) (hcond1_0 t) (hcond1_1 t) (st1_0 t) _ (st1_1 t) _ (st1_2 t) _
    (Memref.whole cc1_scratch0) _ (iblk1 V c 0 t) (iblk1 V c 1 t)) (Phi1_any V c t.val) (fun _ => exists_intro _) fun _ => .rfl

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL2" => S512x512
local notation "SR2" => S512x512
local notation "SO2" => S512x512
local notation "inbL2" => inb_S512x512_S512x512_0_0
local notation "inbR2" => inb_S512x512_S512x512_0_0
local notation "inbO2" => inb_S512x512_S512x512_0_0

abbrev cond2_1 (i : grid2.Coords) : Prop :=
  (Scalar.cmpi .ne (Scalar.extui (Scalar.cmpi .eq (BitVec.ofNat 32 (i 2).val) 0#32)) 0#32) = 1#1
abbrev cond2_2 (i : grid2.Coords) : Prop := k2_cond2 i = 1#1

theorem hcond2_1 : ∀ t : Fin cfg2.N, cond2_1 (grid2.coords t) ↔ t.val % 20 = 0 :=
  (by decide +kernel : ∀ t : Fin grid2.N, cond2_1 (grid2.coords t) ↔ t.val % 20 = 0)
theorem hcond2_2 : ∀ t : Fin cfg2.N, cond2_2 (grid2.coords t) ↔ t.val % 20 = 19 :=
  (by decide +kernel : ∀ t : Fin grid2.N, cond2_2 (grid2.coords t) ↔ t.val % 20 = 19)

section Run

variable (c : Dev nD) (E : Set ℕ) (i : grid2.Coords)
    (arg3 : Memref sig .tc .vmem SL2 .bf16) (harg3 : arg3.IsWhole) (arg4 : Memref sig .tc .vmem SR2 .bf16) (harg4 : arg4.IsWhole)
    (arg5 : Memref sig .tc .vmem SO2 .bf16) (harg5 : arg5.IsWhole) (arg6 : Memref sig .tc .vmem SO2 .f32) (harg6 : arg6.IsWhole)
    (x0 : Vec F SL2 .bf16) (x1 : Vec F SR2 .bf16)

set_option maxHeartbeats 1000000 in
theorem run2_A (hc1 : cond2_1 i) (hc2 : ¬cond2_2 i) (xo : Vec F SO2 .bf16) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k2_pay2 (k2_pay1 (F := F)) x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO2 _ _).trans ?_
  sl_unfold_run_names
  rw [View.readCov_unit_zero (S := SO2) _ zeros2]
  simp only [View.readAt_eq_ld, View.ld_unit_zero (S := SL2) zeros2, View.ld_unit_zero (S := SR2) zeros2]

set_option maxHeartbeats 1000000 in
theorem run2_B (hc1 : ¬cond2_1 i) (hc2 : ¬cond2_2 i) (xo : Vec F SO2 .bf16) (s : Vec F SO2 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k2_pay2 s x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO2 _ _).trans ?_
  try sl_unfold_run_names
  simp only [View.readAt_eq_ld, View.ld_unit_zero (S := SL2) zeros2, View.ld_unit_zero (S := SR2) zeros2, View.ld_unit_zero (S := SO2) zeros2]

set_option maxHeartbeats 1000000 in
theorem run2_C (hc1 : ¬cond2_1 i) (hc2 : cond2_2 i) (s : Vec F SO2 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k2_pay3 (k2_pay2 s x0 x1))
            ∗ owns (c : Thread nD τ) arg6 fullShare (k2_pay2 s x0 x1)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO2 _ _).trans ?_
    try sl_unfold_run_names
    rw [View.readCov_unit_zero (S := SO2) _ zeros2]
    simp only [View.readAt_eq_ld, View.ld_unit_zero (S := SL2) zeros2, View.ld_unit_zero (S := SR2) zeros2, View.ld_unit_zero (S := SO2) zeros2]
  iexists _; isplitr
  swap; · iexact H3
  ipureintro
  refine (read_store_whole _ _ zeros2 inbO2 _ _).trans ?_
  try sl_unfold_run_names
  simp only [View.readAt_eq_ld, View.ld_unit_zero (S := SL2) zeros2, View.ld_unit_zero (S := SR2) zeros2, View.ld_unit_zero (S := SO2) zeros2]

end Run

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N_pos2 : 0 < cfg2.N := by rw [show cfg2.N = _ from N_2]; decide

def lhs2 (c : Dev nD) : ℕ → Vec F SL2 .bf16 := natExt N_pos2 fun t => iblk2 V c 0 t
def rhs2 (c : Dev nD) : ℕ → Vec F SR2 .bf16 := natExt N_pos2 fun t => iblk2 V c 1 t

def acc2 (c : Dev nD) : ℕ → Vec F SO2 .f32 :=
  accOf 20 (fun n => k2_pay2 (k2_pay1 (F := F)) (lhs2 V c n) (rhs2 V c n)) fun a n => k2_pay2 a (lhs2 V c n) (rhs2 V c n)

theorem acc2_reset (c : Dev nD) (t : Fin cfg2.N) (h : t.val % 20 = 0) :
    acc2 V c t.val = k2_pay2 (k2_pay1 (F := F)) (iblk2 V c 0 t) (iblk2 V c 1 t) :=
  (accOf_reset h).trans (by unfold lhs2 rhs2; rw [natExt_val, natExt_val])

theorem acc2_step (c : Dev nD) (t : Fin cfg2.N) (h : t.val % 20 ≠ 0) :
    acc2 V c t.val = k2_pay2 (acc2 V c (t.val - 1)) (iblk2 V c 0 t) (iblk2 V c 1 t) :=
  (accOf_step h).trans (by unfold lhs2 rhs2; rw [natExt_val, natExt_val]; rfl)

abbrev scM2 : Memref sig .tc .vmem SO2 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

def Phi2 (c : Dev nD) : ℕ → sProp 𝕄 :=
  PhiOf iprop(∃ f : Buf (Elt F) ((c : Thread nD τ).loc cc2_scratch0), ((c : Thread nD τ).loc cc2_scratch0) ↦{fullShare} f)
    (owns (c : Thread nD τ) scM2 fullShare) (acc2 V c) (rest2 c)

theorem Phi2_pos (c : Dev nD) (n : ℕ) (h : n ≠ 0) :
    Phi2 V c n = iprop(owns (c : Thread nD τ) scM2 fullShare (acc2 V c (n - 1)) ∗ rest2 (F := F) c) := PhiOf_pos h

theorem Phi2_any (c : Dev nD) (n : ℕ) :
    Phi2 V c n ⊢ iprop((∃ d, owns (c : Thread nD τ) scM2 fullShare d) ∗ rest2 (F := F) c) :=
  PhiOf_any (by iintro ⟨%f, H⟩; iexists f; rw [owns_whole]; iexact H) n

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val)
  Φ t := Phi2 V c t.val
  q _ := fullShare
  owed _ := 0

theorem A_eq2 (c : Dev nD) (w : Fin cfg2.W) : (dat2 V c).A w = V c (Pipeline.arrRef spec2 w) := by
  dsimp only [dat2]
theorem after2_2 (c : Dev nD) (t : Fin cfg2.N) : (dat2 V c).after 2 t = k2_pay3 (acc2 V c t.val) := by dsimp only [dat2]

theorem Phi2_first (c : Dev nD) : (dat2 V c).Φ 0 = iprop((∃ f : Buf (Elt F) ((c : Thread nD τ).loc cc2_scratch0), ((c : Thread nD τ).loc cc2_scratch0) ↦{fullShare} f)
      ∗ Pipeline.scopedRestBut (Ix := Unit) (Name := ℕ) (U := UR sig nD τ) (Lvl := ℕ) (Val := Elt F) spec2 c [cc2_scratch0]) := by
  dsimp only [dat2]; rfl

theorem Phi2_last (c : Dev nD) : (dat2 V c).Φ (Fin.last cfg2.N) = iprop(owns (c : Thread nD τ) scM2 fullShare (acc2 V c (cfg2.N - 1))
      ∗ Pipeline.scopedRestBut (Ix := Unit) (Name := ℕ) (U := UR sig nD τ) (Lvl := ℕ) (Val := Elt F) spec2 c [cc2_scratch0]) := by
  dsimp only [dat2]
  rw [Fin.val_last, Phi2_pos V c _ (Nat.pos_iff_ne_zero.mp N_pos2)]

theorem before2_0 (c : Dev nD) (t : Fin cfg2.N) (d) : (dat2 V c).before 0 t d = iblk2 V c 0 t :=
  ((dat2 V c).before_fetched 0 t (fetch2_0 t) d).trans (by unfold Dat.fetched Dat.blockOf iblk2; rw [A_eq2]; try rfl)
theorem before2_1 (c : Dev nD) (t : Fin cfg2.N) (d) : (dat2 V c).before 1 t d = iblk2 V c 1 t :=
  ((dat2 V c).before_fetched 1 t (fetch2_1 t) d).trans (by unfold Dat.fetched Dat.blockOf iblk2; rw [A_eq2]; try rfl)

theorem idle2_2 (i : grid2.Coords) (h : ¬cond2_2 i) : cfg2.idle 2 i = true := by
  show (!(k2_cond2 i == 1#1)) = true
  rw [beq_eq_false_iff_ne.mpr h]; rfl
theorem live2_2 (i : grid2.Coords) (h : cond2_2 i) : cfg2.idle 2 i = false := by
  show (!(k2_cond2 i == 1#1)) = false
  rw [show k2_cond2 i = 1#1 from h]; rfl
theorem noFlush2_2 (t : Fin cfg2.N) (h : ¬t.val % 20 = 19) : (cfg2.win 2).flush t = false :=
  Bool.eq_false_iff.mpr fun hf => h ((flush2_2 t).mp hf)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.castSucc = Phi2 V c t.val from rfl,
    show (dat2 V c).Φ t.succ = iprop(owns (c : Thread nD τ) scM2 fullShare (acc2 V c t.val) ∗ rest2 (F := F) c) from rfl,
    show (dat2 V c).leavesExact 0 t = owns (c : Thread nD τ) (st2_0 t) fullShare (iblk2 V c 0 t) from rfl,
    show (dat2 V c).leavesExact 1 t = owns (c : Thread nD τ) (st2_1 t) fullShare (iblk2 V c 1 t) from rfl]
  by_cases h2 : t.val % 20 = 19
  · have h1 : ¬t.val % 20 = 0 := by omega
    rw [show (dat2 V c).leavesExact 2 t = owns (c : Thread nD τ) (st2_2 t) fullShare ((dat2 V c).after 2 t) from by
      unfold Dat.leavesExact; rw [live2_2 _ ((hcond2_2 t).mpr h2)], after2_2]
    rw [acc2_step V c t h1]
    exact body_shuffle (fun _ => run2_C c Set.univ (grid2.coords t) (st2_0 t) _ (st2_1 t) _ (st2_2 t) _ scM2 _ (iblk2 V c 0 t) (iblk2 V c 1 t)
      (fun h => h1 ((hcond2_1 t).mp h)) ((hcond2_2 t).mpr h2) (acc2 V c (t.val - 1))) (.of_eq (Phi2_pos V c _ (by omega))) (fun _ => exists_intro _) fun _ => .rfl
  · rw [Dat.leavesExact_idle (dat2 V c) 2 t (idle2_2 _ fun h => h2 ((hcond2_2 t).mp h)) (noFlush2_2 t h2)]
    by_cases h1 : t.val % 20 = 0
    · rw [acc2_reset V c t h1]
      exact body_shuffle (fun d => run2_A c Set.univ (grid2.coords t) (st2_0 t) _ (st2_1 t) _ (st2_2 t) _ scM2 _ (iblk2 V c 0 t) (iblk2 V c 1 t)
        ((hcond2_1 t).mpr h1) (fun h => h2 ((hcond2_2 t).mp h)) ((dat2 V c).before 2 t d)) (Phi2_any V c t.val) (fun _ => .rfl) fun d => by iintro H; iexists d; iexact H
    · rw [acc2_step V c t h1]
      exact body_shuffle (fun d => run2_B c Set.univ (grid2.coords t) (st2_0 t) _ (st2_1 t) _ (st2_2 t) _ scM2 _ (iblk2 V c 0 t) (iblk2 V c 1 t)
        (fun h => h1 ((hcond2_1 t).mp h)) (fun h => h2 ((hcond2_2 t).mp h)) ((dat2 V c).before 2 t d) (acc2 V c (t.val - 1))) (.of_eq (Phi2_pos V c _ (by omega))) (fun _ => .rfl) fun d => by iintro H; iexists d; iexact H

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 2).val) 0#32)) 0#32) = 1#1
abbrev cond3_1 (i : grid3.Coords) : Prop := k3_cond2 i = 1#1

theorem hcond3_0 : ∀ t : Fin cfg3.N, cond3_0 (grid3.coords t) :=
  (by decide +kernel : ∀ t : Fin grid3.N, cond3_0 (grid3.coords t))
theorem hcond3_1 : ∀ t : Fin cfg3.N, cond3_1 (grid3.coords t) :=
  (by decide +kernel : ∀ t : Fin grid3.N, cond3_1 (grid3.coords t))

set_option maxHeartbeats 1000000 in
theorem sound_kernel3 (c : Dev nD) (E : Set ℕ) (i : grid3.Coords) (hcF : cond3_0 i) (hcL : cond3_1 i)
    (mA : Memref sig .tc .vmem S512x512 .bf16) (hmA : mA.IsWhole) (mB : Memref sig .tc .vmem S512x1024 .bf16) (hmB : mB.IsWhole)
    (mC : Memref sig .tc .vmem S512x1024 .f32) (hmC : mC.IsWhole) (mS : Memref sig .tc .vmem S512x1024 .f32) (hmS : mS.IsWhole)
    (a : Vec F S512x512 .bf16) (b : Vec F S512x1024 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k3_pay2 k3_pay1 a b) ∗ owns (c : Thread nD τ) mS fullShare (k3_pay2 k3_pay1 a b)) -∗ K ⟨⟩))
      ⊢ wp frame (wpE (defs₀ (F := F)) Variants.none c none) E (cc3__matmul_kernel i mA hmA mB hmB mC hmC mS hmS) K := by
  simp only [cc3__matmul_kernel_eq_skeleton]; unfold cc3__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) (n : ℕ) : Vec F S512x1024 .f32 :=
  if h : n < cfg3.N then k3_pay2 k3_pay1 (iblk3 V c 0 ⟨n, h⟩) (iblk3 V c 1 ⟨n, h⟩) else k3_pay1

theorem acc3_reset (c : Dev nD) (t : Fin cfg3.N) :
    acc3 V c t.val = k3_pay2 k3_pay1 (iblk3 V c 0 t) (iblk3 V c 1 t) := dif_pos t.isLt

def Phi3 (c : Dev nD) : ℕ → sProp 𝕄 :=
  PhiOf iprop(∃ f : Buf (Elt F) ((c : Thread nD τ).loc cc3_scratch0), ((c : Thread nD τ).loc cc3_scratch0) ↦{fullShare} f)
    (owns (c : Thread nD τ) (Memref.whole cc3_scratch0) fullShare) (acc3 V c) (Pipeline.scopedRestBut (Ix := Unit) (Name := ℕ) (U := UR sig nD τ) (Lvl := ℕ) (Val := Elt F) spec3 c [cc3_scratch0])

theorem Phi3_any (c : Dev nD) (n : ℕ) :
    Phi3 V c n ⊢ iprop((∃ d, owns (c : Thread nD τ) (Memref.whole cc3_scratch0) fullShare d)
      ∗ Pipeline.scopedRestBut (Ix := Unit) (Name := ℕ) (U := UR sig nD τ) (Lvl := ℕ) (Val := Elt F) spec3 c [cc3_scratch0]) :=
  PhiOf_any (by iintro ⟨%f, H⟩; iexists f; rw [owns_whole]; iexact H) n

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val := by dsimp only [dat3]

theorem Phi3_zero (c : Dev nD) : (dat3 V c).Φ 0 = Phi3 V c 0 := by dsimp only [dat3]; rfl
theorem Phi3_last (c : Dev nD) : (dat3 V c).Φ (Fin.last cfg3.N) = Phi3 V c cfg3.N := by dsimp only [dat3]; rfl

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem liveAt3_2 : ∀ t : Fin cfg3.N, cfg3.idle 2 (grid3.coords t) = false := by decide +kernel

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = iprop(owns (c : Thread nD τ) (Memref.whole cc3_scratch0) fullShare (acc3 V c t.val)
      ∗ Pipeline.scopedRestBut (Ix := Unit) (Name := ℕ) (U := UR sig nD τ) (Lvl := ℕ) (Val := Elt F) spec3 c [cc3_scratch0]) from rfl,
    show (dat3 V c).Φ t.castSucc = Phi3 V c t.val from rfl,
    show (dat3 V c).leavesExact 0 t = owns (c : Thread nD τ) (st3_0 t) fullShare ((dat3 V c).after 0 t) from rfl,
    show (dat3 V c).leavesExact 1 t = owns (c : Thread nD τ) (st3_1 t) fullShare ((dat3 V c).after 1 t) from rfl,
    show (dat3 V c).leavesExact 2 t = owns (c : Thread nD τ) (st3_2 t) fullShare ((dat3 V c).after 2 t) from by
      unfold Dat.leavesExact; rw [liveAt3_2 t],
    after3_0, after3_1, after3_2, acc3_reset]
  exact body_shuffle (fun _ => sound_kernel3 c Set.univ (grid3.coords t) (hcond3_0 t) (hcond3_1 t) (st3_0 t) _ (st3_1 t) _ (st3_2 t) _
    (Memref.whole cc3_scratch0) _ (iblk3 V c 0 t) (iblk3 V c 1 t)) (Phi3_any V c t.val) (fun _ => exists_intro _) fun _ => .rfl

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 2).val) 0#32)) 0#32) = 1#1
abbrev cond4_1 (i : grid4.Coords) : Prop := k4_cond2 i = 1#1

theorem hcond4_0 : ∀ t : Fin cfg4.N, cond4_0 (grid4.coords t) :=
  (by decide +kernel : ∀ t : Fin grid4.N, cond4_0 (grid4.coords t))
theorem hcond4_1 : ∀ t : Fin cfg4.N, cond4_1 (grid4.coords t) :=
  (by decide +kernel : ∀ t : Fin grid4.N, cond4_1 (grid4.coords t))

set_option maxHeartbeats 1000000 in
theorem sound_kernel4 (c : Dev nD) (E : Set ℕ) (i : grid4.Coords) (hcF : cond4_0 i) (hcL : cond4_1 i)
    (mA : Memref sig .tc .vmem S512x1024 .bf16) (hmA : mA.IsWhole) (mB : Memref sig .tc .vmem S1024x512 .bf16) (hmB : mB.IsWhole)
    (mC : Memref sig .tc .vmem S512x512 .bf16) (hmC : mC.IsWhole) (mS : Memref sig .tc .vmem S512x512 .f32) (hmS : mS.IsWhole)
    (a : Vec F S512x1024 .bf16) (b : Vec F S1024x512 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k4_pay3 (k4_pay2 k4_pay1 a b)) ∗ owns (c : Thread nD τ) mS fullShare (k4_pay2 k4_pay1 a b)) -∗ K ⟨⟩))
      ⊢ wp frame (wpE (defs₀ (F := F)) Variants.none c none) E (cc4__matmul_kernel i mA hmA mB hmB mC hmC mS hmS) K := by
  simp only [cc4__matmul_kernel_eq_skeleton]; unfold cc4__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) (n : ℕ) : Vec F S512x512 .f32 :=
  if h : n < cfg4.N then k4_pay2 k4_pay1 (iblk4 V c 0 ⟨n, h⟩) (iblk4 V c 1 ⟨n, h⟩) else k4_pay1

theorem acc4_reset (c : Dev nD) (t : Fin cfg4.N) :
    acc4 V c t.val = k4_pay2 k4_pay1 (iblk4 V c 0 t) (iblk4 V c 1 t) := dif_pos t.isLt

def Phi4 (c : Dev nD) : ℕ → sProp 𝕄 :=
  PhiOf iprop(∃ f : Buf (Elt F) ((c : Thread nD τ).loc cc4_scratch0), ((c : Thread nD τ).loc cc4_scratch0) ↦{fullShare} f)
    (owns (c : Thread nD τ) (Memref.whole cc4_scratch0) fullShare) (acc4 V c) (Pipeline.scopedRestBut (Ix := Unit) (Name := ℕ) (U := UR sig nD τ) (Lvl := ℕ) (Val := Elt F) spec4 c [cc4_scratch0])

theorem Phi4_any (c : Dev nD) (n : ℕ) :
    Phi4 V c n ⊢ iprop((∃ d, owns (c : Thread nD τ) (Memref.whole cc4_scratch0) fullShare d)
      ∗ Pipeline.scopedRestBut (Ix := Unit) (Name := ℕ) (U := UR sig nD τ) (Lvl := ℕ) (Val := Elt F) spec4 c [cc4_scratch0]) :=
  PhiOf_any (by iintro ⟨%f, H⟩; iexists f; rw [owns_whole]; iexact H) n

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (acc4 V c t.val) := by dsimp only [dat4]

theorem Phi4_zero (c : Dev nD) : (dat4 V c).Φ 0 = Phi4 V c 0 := by dsimp only [dat4]; rfl
theorem Phi4_last (c : Dev nD) : (dat4 V c).Φ (Fin.last cfg4.N) = Phi4 V c cfg4.N := by dsimp only [dat4]; rfl

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem liveAt4_2 : ∀ t : Fin cfg4.N, cfg4.idle 2 (grid4.coords t) = false := by decide +kernel

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = iprop(owns (c : Thread nD τ) (Memref.whole cc4_scratch0) fullShare (acc4 V c t.val)
      ∗ Pipeline.scopedRestBut (Ix := Unit) (Name := ℕ) (U := UR sig nD τ) (Lvl := ℕ) (Val := Elt F) spec4 c [cc4_scratch0]) from rfl,
    show (dat4 V c).Φ t.castSucc = Phi4 V c t.val from rfl,
    show (dat4 V c).leavesExact 0 t = owns (c : Thread nD τ) (st4_0 t) fullShare ((dat4 V c).after 0 t) from rfl,
    show (dat4 V c).leavesExact 1 t = owns (c : Thread nD τ) (st4_1 t) fullShare ((dat4 V c).after 1 t) from rfl,
    show (dat4 V c).leavesExact 2 t = owns (c : Thread nD τ) (st4_2 t) fullShare ((dat4 V c).after 2 t) from by
      unfold Dat.leavesExact; rw [liveAt4_2 t],
    after4_0, after4_1, after4_2, acc4_reset]
  exact body_shuffle (fun _ => sound_kernel4 c Set.univ (grid4.coords t) (hcond4_0 t) (hcond4_1 t) (st4_0 t) _ (st4_1 t) _ (st4_2 t) _
    (Memref.whole cc4_scratch0) _ (iblk4 V c 0 t) (iblk4 V c 1 t)) (Phi4_any V c t.val) (fun _ => exists_intro _) fun _ => .rfl

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL5" => S512x512
local notation "SR5" => S512x512
local notation "SO5" => S512x512
local notation "inbL5" => inb_S512x512_S512x512_0_0
local notation "inbR5" => inb_S512x512_S512x512_0_0
local notation "inbO5" => inb_S512x512_S512x512_0_0

abbrev cond5_1 (i : grid5.Coords) : Prop :=
  (Scalar.cmpi .ne (Scalar.extui (Scalar.cmpi .eq (BitVec.ofNat 32 (i 2).val) 0#32)) 0#32) = 1#1
abbrev cond5_2 (i : grid5.Coords) : Prop := k5_cond2 i = 1#1

theorem hcond5_1 : ∀ t : Fin cfg5.N, cond5_1 (grid5.coords t) ↔ t.val % 20 = 0 :=
  (by decide +kernel : ∀ t : Fin grid5.N, cond5_1 (grid5.coords t) ↔ t.val % 20 = 0)
theorem hcond5_2 : ∀ t : Fin cfg5.N, cond5_2 (grid5.coords t) ↔ t.val % 20 = 19 :=
  (by decide +kernel : ∀ t : Fin grid5.N, cond5_2 (grid5.coords t) ↔ t.val % 20 = 19)

section Run

variable (c : Dev nD) (E : Set ℕ) (i : grid5.Coords)
    (arg3 : Memref sig .tc .vmem SL5 .bf16) (harg3 : arg3.IsWhole) (arg4 : Memref sig .tc .vmem SR5 .bf16) (harg4 : arg4.IsWhole)
    (arg5 : Memref sig .tc .vmem SO5 .f32) (harg5 : arg5.IsWhole) (arg6 : Memref sig .tc .vmem SO5 .f32) (harg6 : arg6.IsWhole)
    (x0 : Vec F SL5 .bf16) (x1 : Vec F SR5 .bf16)

set_option maxHeartbeats 1000000 in
theorem run5_A (hc1 : cond5_1 i) (hc2 : ¬cond5_2 i) (xo : Vec F SO5 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k5_pay2 (k5_pay1 (F := F)) x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO5 _ _).trans ?_
  sl_unfold_run_names
  rw [View.readCov_unit_zero (S := SO5) _ zeros2]
  simp only [View.readAt_eq_ld, View.ld_unit_zero (S := SL5) zeros2, View.ld_unit_zero (S := SR5) zeros2]

set_option maxHeartbeats 1000000 in
theorem run5_B (hc1 : ¬cond5_1 i) (hc2 : ¬cond5_2 i) (xo : Vec F SO5 .f32) (s : Vec F SO5 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k5_pay2 s x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO5 _ _).trans ?_
  try sl_unfold_run_names
  simp only [View.readAt_eq_ld, View.ld_unit_zero (S := SL5) zeros2, View.ld_unit_zero (S := SR5) zeros2, View.ld_unit_zero (S := SO5) zeros2]

set_option maxHeartbeats 1000000 in
theorem run5_C (hc1 : ¬cond5_1 i) (hc2 : cond5_2 i) (s : Vec F SO5 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k5_pay2 s x0 x1)
            ∗ owns (c : Thread nD τ) arg6 fullShare (k5_pay2 s x0 x1)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO5 _ _).trans ?_
    try sl_unfold_run_names
    rw [View.readCov_unit_zero (S := SO5) _ zeros2]
    simp only [View.readAt_eq_ld, View.ld_unit_zero (S := SL5) zeros2, View.ld_unit_zero (S := SR5) zeros2, View.ld_unit_zero (S := SO5) zeros2]
  iexists _; isplitr
  swap; · iexact H3
  ipureintro
  refine (read_store_whole _ _ zeros2 inbO5 _ _).trans ?_
  try sl_unfold_run_names
  simp only [View.readAt_eq_ld, View.ld_unit_zero (S := SL5) zeros2, View.ld_unit_zero (S := SR5) zeros2, View.ld_unit_zero (S := SO5) zeros2]

end Run

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem N_pos5 : 0 < cfg5.N := by rw [show cfg5.N = _ from N_5]; decide

def lhs5 (c : Dev nD) : ℕ → Vec F SL5 .bf16 := natExt N_pos5 fun t => iblk5 V c 0 t
def rhs5 (c : Dev nD) : ℕ → Vec F SR5 .bf16 := natExt N_pos5 fun t => iblk5 V c 1 t

def acc5 (c : Dev nD) : ℕ → Vec F SO5 .f32 :=
  accOf 20 (fun n => k5_pay2 (k5_pay1 (F := F)) (lhs5 V c n) (rhs5 V c n)) fun a n => k5_pay2 a (lhs5 V c n) (rhs5 V c n)

theorem acc5_reset (c : Dev nD) (t : Fin cfg5.N) (h : t.val % 20 = 0) :
    acc5 V c t.val = k5_pay2 (k5_pay1 (F := F)) (iblk5 V c 0 t) (iblk5 V c 1 t) :=
  (accOf_reset h).trans (by unfold lhs5 rhs5; rw [natExt_val, natExt_val])

theorem acc5_step (c : Dev nD) (t : Fin cfg5.N) (h : t.val % 20 ≠ 0) :
    acc5 V c t.val = k5_pay2 (acc5 V c (t.val - 1)) (iblk5 V c 0 t) (iblk5 V c 1 t) :=
  (accOf_step h).trans (by unfold lhs5 rhs5; rw [natExt_val, natExt_val]; rfl)

abbrev scM5 : Memref sig .tc .vmem SO5 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

def Phi5 (c : Dev nD) : ℕ → sProp 𝕄 :=
  PhiOf iprop(∃ f : Buf (Elt F) ((c : Thread nD τ).loc cc5_scratch0), ((c : Thread nD τ).loc cc5_scratch0) ↦{fullShare} f)
    (owns (c : Thread nD τ) scM5 fullShare) (acc5 V c) (rest5 c)

theorem Phi5_pos (c : Dev nD) (n : ℕ) (h : n ≠ 0) :
    Phi5 V c n = iprop(owns (c : Thread nD τ) scM5 fullShare (acc5 V c (n - 1)) ∗ rest5 (F := F) c) := PhiOf_pos h

theorem Phi5_any (c : Dev nD) (n : ℕ) :
    Phi5 V c n ⊢ iprop((∃ d, owns (c : Thread nD τ) scM5 fullShare d) ∗ rest5 (F := F) c) :=
  PhiOf_any (by iintro ⟨%f, H⟩; iexists f; rw [owns_whole]; iexact H) n

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val
  Φ t := Phi5 V c t.val
  q _ := fullShare
  owed _ := 0

theorem A_eq5 (c : Dev nD) (w : Fin cfg5.W) : (dat5 V c).A w = V c (Pipeline.arrRef spec5 w) := by
  dsimp only [dat5]
theorem after5_2 (c : Dev nD) (t : Fin cfg5.N) : (dat5 V c).after 2 t = acc5 V c t.val := by dsimp only [dat5]

theorem Phi5_first (c : Dev nD) : (dat5 V c).Φ 0 = iprop((∃ f : Buf (Elt F) ((c : Thread nD τ).loc cc5_scratch0), ((c : Thread nD τ).loc cc5_scratch0) ↦{fullShare} f)
      ∗ Pipeline.scopedRestBut (Ix := Unit) (Name := ℕ) (U := UR sig nD τ) (Lvl := ℕ) (Val := Elt F) spec5 c [cc5_scratch0]) := by
  dsimp only [dat5]; rfl

theorem Phi5_last (c : Dev nD) : (dat5 V c).Φ (Fin.last cfg5.N) = iprop(owns (c : Thread nD τ) scM5 fullShare (acc5 V c (cfg5.N - 1))
      ∗ Pipeline.scopedRestBut (Ix := Unit) (Name := ℕ) (U := UR sig nD τ) (Lvl := ℕ) (Val := Elt F) spec5 c [cc5_scratch0]) := by
  dsimp only [dat5]
  rw [Fin.val_last, Phi5_pos V c _ (Nat.pos_iff_ne_zero.mp N_pos5)]

theorem before5_0 (c : Dev nD) (t : Fin cfg5.N) (d) : (dat5 V c).before 0 t d = iblk5 V c 0 t :=
  ((dat5 V c).before_fetched 0 t (fetch5_0 t) d).trans (by unfold Dat.fetched Dat.blockOf iblk5; rw [A_eq5]; try rfl)
theorem before5_1 (c : Dev nD) (t : Fin cfg5.N) (d) : (dat5 V c).before 1 t d = iblk5 V c 1 t :=
  ((dat5 V c).before_fetched 1 t (fetch5_1 t) d).trans (by unfold Dat.fetched Dat.blockOf iblk5; rw [A_eq5]; try rfl)

theorem idle5_2 (i : grid5.Coords) (h : ¬cond5_2 i) : cfg5.idle 2 i = true := by
  show (!(k5_cond2 i == 1#1)) = true
  rw [beq_eq_false_iff_ne.mpr h]; rfl
theorem live5_2 (i : grid5.Coords) (h : cond5_2 i) : cfg5.idle 2 i = false := by
  show (!(k5_cond2 i == 1#1)) = false
  rw [show k5_cond2 i = 1#1 from h]; rfl
theorem noFlush5_2 (t : Fin cfg5.N) (h : ¬t.val % 20 = 19) : (cfg5.win 2).flush t = false :=
  Bool.eq_false_iff.mpr fun hf => h ((flush5_2 t).mp hf)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl,
    show (dat5 V c).Φ t.castSucc = Phi5 V c t.val from rfl,
    show (dat5 V c).Φ t.succ = iprop(owns (c : Thread nD τ) scM5 fullShare (acc5 V c t.val) ∗ rest5 (F := F) c) from rfl,
    show (dat5 V c).leavesExact 0 t = owns (c : Thread nD τ) (st5_0 t) fullShare (iblk5 V c 0 t) from rfl,
    show (dat5 V c).leavesExact 1 t = owns (c : Thread nD τ) (st5_1 t) fullShare (iblk5 V c 1 t) from rfl]
  by_cases h2 : t.val % 20 = 19
  · have h1 : ¬t.val % 20 = 0 := by omega
    rw [show (dat5 V c).leavesExact 2 t = owns (c : Thread nD τ) (st5_2 t) fullShare ((dat5 V c).after 2 t) from by
      unfold Dat.leavesExact; rw [live5_2 _ ((hcond5_2 t).mpr h2)], after5_2]
    rw [acc5_step V c t h1]
    exact body_shuffle (fun _ => run5_C c Set.univ (grid5.coords t) (st5_0 t) _ (st5_1 t) _ (st5_2 t) _ scM5 _ (iblk5 V c 0 t) (iblk5 V c 1 t)
      (fun h => h1 ((hcond5_1 t).mp h)) ((hcond5_2 t).mpr h2) (acc5 V c (t.val - 1))) (.of_eq (Phi5_pos V c _ (by omega))) (fun _ => exists_intro _) fun _ => .rfl
  · rw [Dat.leavesExact_idle (dat5 V c) 2 t (idle5_2 _ fun h => h2 ((hcond5_2 t).mp h)) (noFlush5_2 t h2)]
    by_cases h1 : t.val % 20 = 0
    · rw [acc5_reset V c t h1]
      exact body_shuffle (fun d => run5_A c Set.univ (grid5.coords t) (st5_0 t) _ (st5_1 t) _ (st5_2 t) _ scM5 _ (iblk5 V c 0 t) (iblk5 V c 1 t)
        ((hcond5_1 t).mpr h1) (fun h => h2 ((hcond5_2 t).mp h)) ((dat5 V c).before 2 t d)) (Phi5_any V c t.val) (fun _ => .rfl) fun d => by iintro H; iexists d; iexact H
    · rw [acc5_step V c t h1]
      exact body_shuffle (fun d => run5_B c Set.univ (grid5.coords t) (st5_0 t) _ (st5_1 t) _ (st5_2 t) _ scM5 _ (iblk5 V c 0 t) (iblk5 V c 1 t)
        (fun h => h1 ((hcond5_1 t).mp h)) (fun h => h2 ((hcond5_2 t).mp h)) ((dat5 V c).before 2 t d) (acc5 V c (t.val - 1))) (.of_eq (Phi5_pos V c _ (by omega))) (fun _ => .rfl) fun d => by iintro H; iexists d; iexact H

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond6_0 (i : grid6.Coords) : Prop := (Scalar.cmpi .ne (Scalar.extui (Scalar.cmpi .eq (BitVec.ofNat 32 (i 2).val) 0#32)) 0#32) = 1#1
abbrev cond6_1 (i : grid6.Coords) : Prop := k6_cond2 i = 1#1

theorem hcond6_0 : ∀ t : Fin cfg6.N, cond6_0 (grid6.coords t) :=
  (by decide +kernel : ∀ t : Fin grid6.N, cond6_0 (grid6.coords t))
theorem hcond6_1 : ∀ t : Fin cfg6.N, cond6_1 (grid6.coords t) :=
  (by decide +kernel : ∀ t : Fin grid6.N, cond6_1 (grid6.coords t))

set_option maxHeartbeats 1000000 in
theorem sound_kernel6 (c : Dev nD) (E : Set ℕ) (i : grid6.Coords) (hcF : cond6_0 i) (hcL : cond6_1 i)
    (mA : Memref sig .tc .vmem S512x1024 .bf16) (hmA : mA.IsWhole) (mB : Memref sig .tc .vmem S1024x512 .bf16) (hmB : mB.IsWhole)
    (mC : Memref sig .tc .vmem S512x512 .bf16) (hmC : mC.IsWhole) (mS : Memref sig .tc .vmem S512x512 .f32) (hmS : mS.IsWhole)
    (a : Vec F S512x1024 .bf16) (b : Vec F S1024x512 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k6_pay3 (k6_pay2 k6_pay1 a b)) ∗ owns (c : Thread nD τ) mS fullShare (k6_pay2 k6_pay1 a b)) -∗ K ⟨⟩))
      ⊢ wp frame (wpE (defs₀ (F := F)) Variants.none c none) E (cc6__matmul_kernel i mA hmA mB hmB mC hmC mS hmS) K := by
  simp only [cc6__matmul_kernel_eq_skeleton]; unfold cc6__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) (n : ℕ) : Vec F S512x512 .f32 :=
  if h : n < cfg6.N then k6_pay2 k6_pay1 (iblk6 V c 0 ⟨n, h⟩) (iblk6 V c 1 ⟨n, h⟩) else k6_pay1

theorem acc6_reset (c : Dev nD) (t : Fin cfg6.N) :
    acc6 V c t.val = k6_pay2 k6_pay1 (iblk6 V c 0 t) (iblk6 V c 1 t) := dif_pos t.isLt

def Phi6 (c : Dev nD) : ℕ → sProp 𝕄 :=
  PhiOf iprop(∃ f : Buf (Elt F) ((c : Thread nD τ).loc cc6_scratch0), ((c : Thread nD τ).loc cc6_scratch0) ↦{fullShare} f)
    (owns (c : Thread nD τ) (Memref.whole cc6_scratch0) fullShare) (acc6 V c) (Pipeline.scopedRestBut (Ix := Unit) (Name := ℕ) (U := UR sig nD τ) (Lvl := ℕ) (Val := Elt F) spec6 c [cc6_scratch0])

theorem Phi6_any (c : Dev nD) (n : ℕ) :
    Phi6 V c n ⊢ iprop((∃ d, owns (c : Thread nD τ) (Memref.whole cc6_scratch0) fullShare d)
      ∗ Pipeline.scopedRestBut (Ix := Unit) (Name := ℕ) (U := UR sig nD τ) (Lvl := ℕ) (Val := Elt F) spec6 c [cc6_scratch0]) :=
  PhiOf_any (by iintro ⟨%f, H⟩; iexists f; rw [owns_whole]; iexact H) n

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (acc6 V c t.val)
  Φ t := Phi6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay3 (acc6 V c t.val) := by dsimp only [dat6]

theorem Phi6_zero (c : Dev nD) : (dat6 V c).Φ 0 = Phi6 V c 0 := by dsimp only [dat6]; rfl
theorem Phi6_last (c : Dev nD) : (dat6 V c).Φ (Fin.last cfg6.N) = Phi6 V c cfg6.N := by dsimp only [dat6]; rfl

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)

theorem liveAt6_2 : ∀ t : Fin cfg6.N, cfg6.idle 2 (grid6.coords t) = false := by decide +kernel

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = iprop(owns (c : Thread nD τ) (Memref.whole cc6_scratch0) fullShare (acc6 V c t.val)
      ∗ Pipeline.scopedRestBut (Ix := Unit) (Name := ℕ) (U := UR sig nD τ) (Lvl := ℕ) (Val := Elt F) spec6 c [cc6_scratch0]) from rfl,
    show (dat6 V c).Φ t.castSucc = Phi6 V c t.val from rfl,
    show (dat6 V c).leavesExact 0 t = owns (c : Thread nD τ) (st6_0 t) fullShare ((dat6 V c).after 0 t) from rfl,
    show (dat6 V c).leavesExact 1 t = owns (c : Thread nD τ) (st6_1 t) fullShare ((dat6 V c).after 1 t) from rfl,
    show (dat6 V c).leavesExact 2 t = owns (c : Thread nD τ) (st6_2 t) fullShare ((dat6 V c).after 2 t) from by
      unfold Dat.leavesExact; rw [liveAt6_2 t],
    after6_0, after6_1, after6_2, acc6_reset]
  exact body_shuffle (fun _ => sound_kernel6 c Set.univ (grid6.coords t) (hcond6_0 t) (hcond6_1 t) (st6_0 t) _ (st6_1 t) _ (st6_2 t) _
    (Memref.whole cc6_scratch0) _ (iblk6 V c 0 t) (iblk6 V c 1 t)) (Phi6_any V c t.val) (fun _ => exists_intro _) fun _ => .rfl

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL7" => S512x512
local notation "SR7" => S512x512
local notation "SO7" => S512x512
local notation "inbL7" => inb_S512x512_S512x512_0_0
local notation "inbR7" => inb_S512x512_S512x512_0_0
local notation "inbO7" => inb_S512x512_S512x512_0_0

abbrev cond7_1 (i : grid7.Coords) : Prop :=
  (Scalar.cmpi .ne (Scalar.extui (Scalar.cmpi .eq (BitVec.ofNat 32 (i 2).val) 0#32)) 0#32) = 1#1
abbrev cond7_2 (i : grid7.Coords) : Prop := k7_cond2 i = 1#1

theorem hcond7_1 : ∀ t : Fin cfg7.N, cond7_1 (grid7.coords t) ↔ t.val % 20 = 0 :=
  (by decide +kernel : ∀ t : Fin grid7.N, cond7_1 (grid7.coords t) ↔ t.val % 20 = 0)
theorem hcond7_2 : ∀ t : Fin cfg7.N, cond7_2 (grid7.coords t) ↔ t.val % 20 = 19 :=
  (by decide +kernel : ∀ t : Fin grid7.N, cond7_2 (grid7.coords t) ↔ t.val % 20 = 19)

section Run

variable (c : Dev nD) (E : Set ℕ) (i : grid7.Coords)
    (arg3 : Memref sig .tc .vmem SL7 .bf16) (harg3 : arg3.IsWhole) (arg4 : Memref sig .tc .vmem SR7 .bf16) (harg4 : arg4.IsWhole)
    (arg5 : Memref sig .tc .vmem SO7 .f32) (harg5 : arg5.IsWhole) (arg6 : Memref sig .tc .vmem SO7 .f32) (harg6 : arg6.IsWhole)
    (x0 : Vec F SL7 .bf16) (x1 : Vec F SR7 .bf16)

set_option maxHeartbeats 1000000 in
theorem run7_A (hc1 : cond7_1 i) (hc2 : ¬cond7_2 i) (xo : Vec F SO7 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k7_pay2 (k7_pay1 (F := F)) x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO7 _ _).trans ?_
  sl_unfold_run_names
  rw [View.readCov_unit_zero (S := SO7) _ zeros2]
  simp only [View.readAt_eq_ld, View.ld_unit_zero (S := SL7) zeros2, View.ld_unit_zero (S := SR7) zeros2]

set_option maxHeartbeats 1000000 in
theorem run7_B (hc1 : ¬cond7_1 i) (hc2 : ¬cond7_2 i) (xo : Vec F SO7 .f32) (s : Vec F SO7 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k7_pay2 s x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO7 _ _).trans ?_
  try sl_unfold_run_names
  simp only [View.readAt_eq_ld, View.ld_unit_zero (S := SL7) zeros2, View.ld_unit_zero (S := SR7) zeros2, View.ld_unit_zero (S := SO7) zeros2]

set_option maxHeartbeats 1000000 in
theorem run7_C (hc1 : ¬cond7_1 i) (hc2 : cond7_2 i) (s : Vec F SO7 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k7_pay2 s x0 x1)
            ∗ owns (c : Thread nD τ) arg6 fullShare (k7_pay2 s x0 x1)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO7 _ _).trans ?_
    try sl_unfold_run_names
    rw [View.readCov_unit_zero (S := SO7) _ zeros2]
    simp only [View.readAt_eq_ld, View.ld_unit_zero (S := SL7) zeros2, View.ld_unit_zero (S := SR7) zeros2, View.ld_unit_zero (S := SO7) zeros2]
  iexists _; isplitr
  swap; · iexact H3
  ipureintro
  refine (read_store_whole _ _ zeros2 inbO7 _ _).trans ?_
  try sl_unfold_run_names
  simp only [View.readAt_eq_ld, View.ld_unit_zero (S := SL7) zeros2, View.ld_unit_zero (S := SR7) zeros2, View.ld_unit_zero (S := SO7) zeros2]

end Run

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem N_pos7 : 0 < cfg7.N := by rw [show cfg7.N = _ from N_7]; decide

def lhs7 (c : Dev nD) : ℕ → Vec F SL7 .bf16 := natExt N_pos7 fun t => iblk7 V c 0 t
def rhs7 (c : Dev nD) : ℕ → Vec F SR7 .bf16 := natExt N_pos7 fun t => iblk7 V c 1 t

def acc7 (c : Dev nD) : ℕ → Vec F SO7 .f32 :=
  accOf 20 (fun n => k7_pay2 (k7_pay1 (F := F)) (lhs7 V c n) (rhs7 V c n)) fun a n => k7_pay2 a (lhs7 V c n) (rhs7 V c n)

theorem acc7_reset (c : Dev nD) (t : Fin cfg7.N) (h : t.val % 20 = 0) :
    acc7 V c t.val = k7_pay2 (k7_pay1 (F := F)) (iblk7 V c 0 t) (iblk7 V c 1 t) :=
  (accOf_reset h).trans (by unfold lhs7 rhs7; rw [natExt_val, natExt_val])

theorem acc7_step (c : Dev nD) (t : Fin cfg7.N) (h : t.val % 20 ≠ 0) :
    acc7 V c t.val = k7_pay2 (acc7 V c (t.val - 1)) (iblk7 V c 0 t) (iblk7 V c 1 t) :=
  (accOf_step h).trans (by unfold lhs7 rhs7; rw [natExt_val, natExt_val]; rfl)

abbrev scM7 : Memref sig .tc .vmem SO7 .f32 := Memref.whole cc7_scratch0

abbrev rest7 (c : Dev nD) : sProp 𝕄 :=
  Pipeline.scopedRestBut (Ix := Unit) (Name := ℕ) (U := UR sig nD τ) (Lvl := ℕ) (Val := Elt F) spec7 c [cc7_scratch0]

def Phi7 (c : Dev nD) : ℕ → sProp 𝕄 :=
  PhiOf iprop(∃ f : Buf (Elt F) ((c : Thread nD τ).loc cc7_scratch0), ((c : Thread nD τ).loc cc7_scratch0) ↦{fullShare} f)
    (owns (c : Thread nD τ) scM7 fullShare) (acc7 V c) (rest7 c)

theorem Phi7_pos (c : Dev nD) (n : ℕ) (h : n ≠ 0) :
    Phi7 V c n = iprop(owns (c : Thread nD τ) scM7 fullShare (acc7 V c (n - 1)) ∗ rest7 (F := F) c) := PhiOf_pos h

theorem Phi7_any (c : Dev nD) (n : ℕ) :
    Phi7 V c n ⊢ iprop((∃ d, owns (c : Thread nD τ) scM7 fullShare d) ∗ rest7 (F := F) c) :=
  PhiOf_any (by iintro ⟨%f, H⟩; iexists f; rw [owns_whole]; iexact H) n

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val
  Φ t := Phi7 V c t.val
  q _ := fullShare
  owed _ := 0

theorem A_eq7 (c : Dev nD) (w : Fin cfg7.W) : (dat7 V c).A w = V c (Pipeline.arrRef spec7 w) := by
  dsimp only [dat7]
theorem after7_2 (c : Dev nD) (t : Fin cfg7.N) : (dat7 V c).after 2 t = acc7 V c t.val := by dsimp only [dat7]

theorem Phi7_first (c : Dev nD) : (dat7 V c).Φ 0 = iprop((∃ f : Buf (Elt F) ((c : Thread nD τ).loc cc7_scratch0), ((c : Thread nD τ).loc cc7_scratch0) ↦{fullShare} f)
      ∗ Pipeline.scopedRestBut (Ix := Unit) (Name := ℕ) (U := UR sig nD τ) (Lvl := ℕ) (Val := Elt F) spec7 c [cc7_scratch0]) := by
  dsimp only [dat7]; rfl

theorem Phi7_last (c : Dev nD) : (dat7 V c).Φ (Fin.last cfg7.N) = iprop(owns (c : Thread nD τ) scM7 fullShare (acc7 V c (cfg7.N - 1))
      ∗ Pipeline.scopedRestBut (Ix := Unit) (Name := ℕ) (U := UR sig nD τ) (Lvl := ℕ) (Val := Elt F) spec7 c [cc7_scratch0]) := by
  dsimp only [dat7]
  rw [Fin.val_last, Phi7_pos V c _ (Nat.pos_iff_ne_zero.mp N_pos7)]

theorem before7_0 (c : Dev nD) (t : Fin cfg7.N) (d) : (dat7 V c).before 0 t d = iblk7 V c 0 t :=
  ((dat7 V c).before_fetched 0 t (fetch7_0 t) d).trans (by unfold Dat.fetched Dat.blockOf iblk7; rw [A_eq7]; try rfl)
theorem before7_1 (c : Dev nD) (t : Fin cfg7.N) (d) : (dat7 V c).before 1 t d = iblk7 V c 1 t :=
  ((dat7 V c).before_fetched 1 t (fetch7_1 t) d).trans (by unfold Dat.fetched Dat.blockOf iblk7; rw [A_eq7]; try rfl)

theorem idle7_2 (i : grid7.Coords) (h : ¬cond7_2 i) : cfg7.idle 2 i = true := by
  show (!(k7_cond2 i == 1#1)) = true
  rw [beq_eq_false_iff_ne.mpr h]; rfl
theorem live7_2 (i : grid7.Coords) (h : cond7_2 i) : cfg7.idle 2 i = false := by
  show (!(k7_cond2 i == 1#1)) = false
  rw [show k7_cond2 i = 1#1 from h]; rfl
theorem noFlush7_2 (t : Fin cfg7.N) (h : ¬t.val % 20 = 19) : (cfg7.win 2).flush t = false :=
  Bool.eq_false_iff.mpr fun hf => h ((flush7_2 t).mp hf)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl,
    show (dat7 V c).Φ t.castSucc = Phi7 V c t.val from rfl,
    show (dat7 V c).Φ t.succ = iprop(owns (c : Thread nD τ) scM7 fullShare (acc7 V c t.val) ∗ rest7 (F := F) c) from rfl,
    show (dat7 V c).leavesExact 0 t = owns (c : Thread nD τ) (st7_0 t) fullShare (iblk7 V c 0 t) from rfl,
    show (dat7 V c).leavesExact 1 t = owns (c : Thread nD τ) (st7_1 t) fullShare (iblk7 V c 1 t) from rfl]
  by_cases h2 : t.val % 20 = 19
  · have h1 : ¬t.val % 20 = 0 := by omega
    rw [show (dat7 V c).leavesExact 2 t = owns (c : Thread nD τ) (st7_2 t) fullShare ((dat7 V c).after 2 t) from by
      unfold Dat.leavesExact; rw [live7_2 _ ((hcond7_2 t).mpr h2)], after7_2]
    rw [acc7_step V c t h1]
    exact body_shuffle (fun _ => run7_C c Set.univ (grid7.coords t) (st7_0 t) _ (st7_1 t) _ (st7_2 t) _ scM7 _ (iblk7 V c 0 t) (iblk7 V c 1 t)
      (fun h => h1 ((hcond7_1 t).mp h)) ((hcond7_2 t).mpr h2) (acc7 V c (t.val - 1))) (.of_eq (Phi7_pos V c _ (by omega))) (fun _ => exists_intro _) fun _ => .rfl
  · rw [Dat.leavesExact_idle (dat7 V c) 2 t (idle7_2 _ fun h => h2 ((hcond7_2 t).mp h)) (noFlush7_2 t h2)]
    by_cases h1 : t.val % 20 = 0
    · rw [acc7_reset V c t h1]
      exact body_shuffle (fun d => run7_A c Set.univ (grid7.coords t) (st7_0 t) _ (st7_1 t) _ (st7_2 t) _ scM7 _ (iblk7 V c 0 t) (iblk7 V c 1 t)
        ((hcond7_1 t).mpr h1) (fun h => h2 ((hcond7_2 t).mp h)) ((dat7 V c).before 2 t d)) (Phi7_any V c t.val) (fun _ => .rfl) fun d => by iintro H; iexists d; iexact H
    · rw [acc7_step V c t h1]
      exact body_shuffle (fun d => run7_B c Set.univ (grid7.coords t) (st7_0 t) _ (st7_1 t) _ (st7_2 t) _ scM7 _ (iblk7 V c 0 t) (iblk7 V c 1 t)
        (fun h => h1 ((hcond7_1 t).mp h)) (fun h => h2 ((hcond7_2 t).mp h)) ((dat7 V c).before 2 t d) (acc7 V c (t.val - 1))) (.of_eq (Phi7_pos V c _ (by omega))) (fun _ => .rfl) fun d => by iintro H; iexists d; iexact H

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond8_0 (i : grid8.Coords) : Prop := (Scalar.cmpi .ne (Scalar.extui (Scalar.cmpi .eq (BitVec.ofNat 32 (i 2).val) 0#32)) 0#32) = 1#1
abbrev cond8_1 (i : grid8.Coords) : Prop := k8_cond2 i = 1#1

theorem hcond8_0 : ∀ t : Fin cfg8.N, cond8_0 (grid8.coords t) :=
  (by decide +kernel : ∀ t : Fin grid8.N, cond8_0 (grid8.coords t))
theorem hcond8_1 : ∀ t : Fin cfg8.N, cond8_1 (grid8.coords t) :=
  (by decide +kernel : ∀ t : Fin grid8.N, cond8_1 (grid8.coords t))

set_option maxHeartbeats 1000000 in
theorem sound_kernel8 (c : Dev nD) (E : Set ℕ) (i : grid8.Coords) (hcF : cond8_0 i) (hcL : cond8_1 i)
    (mA : Memref sig .tc .vmem S512x512 .bf16) (hmA : mA.IsWhole) (mB : Memref sig .tc .vmem S512x128 .bf16) (hmB : mB.IsWhole)
    (mC : Memref sig .tc .vmem S512x128 .bf16) (hmC : mC.IsWhole) (mS : Memref sig .tc .vmem S512x128 .f32) (hmS : mS.IsWhole)
    (a : Vec F S512x512 .bf16) (b : Vec F S512x128 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k8_pay3 (k8_pay2 k8_pay1 a b)) ∗ owns (c : Thread nD τ) mS fullShare (k8_pay2 k8_pay1 a b)) -∗ K ⟨⟩))
      ⊢ wp frame (wpE (defs₀ (F := F)) Variants.none c none) E (cc8__matmul_kernel i mA hmA mB hmB mC hmC mS hmS) K := by
  simp only [cc8__matmul_kernel_eq_skeleton]; unfold cc8__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) (n : ℕ) : Vec F S512x128 .f32 :=
  if h : n < cfg8.N then k8_pay2 k8_pay1 (iblk8 V c 0 ⟨n, h⟩) (iblk8 V c 1 ⟨n, h⟩) else k8_pay1

theorem acc8_reset (c : Dev nD) (t : Fin cfg8.N) :
    acc8 V c t.val = k8_pay2 k8_pay1 (iblk8 V c 0 t) (iblk8 V c 1 t) := dif_pos t.isLt

def Phi8 (c : Dev nD) : ℕ → sProp 𝕄 :=
  PhiOf iprop(∃ f : Buf (Elt F) ((c : Thread nD τ).loc cc8_scratch0), ((c : Thread nD τ).loc cc8_scratch0) ↦{fullShare} f)
    (owns (c : Thread nD τ) (Memref.whole cc8_scratch0) fullShare) (acc8 V c) (Pipeline.scopedRestBut (Ix := Unit) (Name := ℕ) (U := UR sig nD τ) (Lvl := ℕ) (Val := Elt F) spec8 c [cc8_scratch0])

theorem Phi8_any (c : Dev nD) (n : ℕ) :
    Phi8 V c n ⊢ iprop((∃ d, owns (c : Thread nD τ) (Memref.whole cc8_scratch0) fullShare d)
      ∗ Pipeline.scopedRestBut (Ix := Unit) (Name := ℕ) (U := UR sig nD τ) (Lvl := ℕ) (Val := Elt F) spec8 c [cc8_scratch0]) :=
  PhiOf_any (by iintro ⟨%f, H⟩; iexists f; rw [owns_whole]; iexact H) n

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (acc8 V c t.val)
  Φ t := Phi8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = k8_pay3 (acc8 V c t.val) := by dsimp only [dat8]

theorem Phi8_zero (c : Dev nD) : (dat8 V c).Φ 0 = Phi8 V c 0 := by dsimp only [dat8]; rfl
theorem Phi8_last (c : Dev nD) : (dat8 V c).Φ (Fin.last cfg8.N) = Phi8 V c cfg8.N := by dsimp only [dat8]; rfl

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)

theorem liveAt8_2 : ∀ t : Fin cfg8.N, cfg8.idle 2 (grid8.coords t) = false := by decide +kernel

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.succ = iprop(owns (c : Thread nD τ) (Memref.whole cc8_scratch0) fullShare (acc8 V c t.val)
      ∗ Pipeline.scopedRestBut (Ix := Unit) (Name := ℕ) (U := UR sig nD τ) (Lvl := ℕ) (Val := Elt F) spec8 c [cc8_scratch0]) from rfl,
    show (dat8 V c).Φ t.castSucc = Phi8 V c t.val from rfl,
    show (dat8 V c).leavesExact 0 t = owns (c : Thread nD τ) (st8_0 t) fullShare ((dat8 V c).after 0 t) from rfl,
    show (dat8 V c).leavesExact 1 t = owns (c : Thread nD τ) (st8_1 t) fullShare ((dat8 V c).after 1 t) from rfl,
    show (dat8 V c).leavesExact 2 t = owns (c : Thread nD τ) (st8_2 t) fullShare ((dat8 V c).after 2 t) from by
      unfold Dat.leavesExact; rw [liveAt8_2 t],
    after8_0, after8_1, after8_2, acc8_reset]
  exact body_shuffle (fun _ => sound_kernel8 c Set.univ (grid8.coords t) (hcond8_0 t) (hcond8_1 t) (st8_0 t) _ (st8_1 t) _ (st8_2 t) _
    (Memref.whole cc8_scratch0) _ (iblk8 V c 0 t) (iblk8 V c 1 t)) (Phi8_any V c t.val) (fun _ => exists_intro _) fun _ => .rfl

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL9" => S512x512
local notation "SR9" => S512x128
local notation "SO9" => S512x128
local notation "inbL9" => inb_S512x512_S512x512_0_0
local notation "inbR9" => inb_S512x128_S512x128_0_0
local notation "inbO9" => inb_S512x128_S512x128_0_0

abbrev cond9_1 (i : grid9.Coords) : Prop :=
  (Scalar.cmpi .ne (Scalar.extui (Scalar.cmpi .eq (BitVec.ofNat 32 (i 2).val) 0#32)) 0#32) = 1#1
abbrev cond9_2 (i : grid9.Coords) : Prop := k9_cond2 i = 1#1

theorem hcond9_1 : ∀ t : Fin cfg9.N, cond9_1 (grid9.coords t) ↔ t.val % 20 = 0 :=
  (by decide +kernel : ∀ t : Fin grid9.N, cond9_1 (grid9.coords t) ↔ t.val % 20 = 0)
theorem hcond9_2 : ∀ t : Fin cfg9.N, cond9_2 (grid9.coords t) ↔ t.val % 20 = 19 :=
  (by decide +kernel : ∀ t : Fin grid9.N, cond9_2 (grid9.coords t) ↔ t.val % 20 = 19)

section Run

variable (c : Dev nD) (E : Set ℕ) (i : grid9.Coords)
    (arg3 : Memref sig .tc .vmem SL9 .bf16) (harg3 : arg3.IsWhole) (arg4 : Memref sig .tc .vmem SR9 .bf16) (harg4 : arg4.IsWhole)
    (arg5 : Memref sig .tc .vmem SO9 .f32) (harg5 : arg5.IsWhole) (arg6 : Memref sig .tc .vmem SO9 .f32) (harg6 : arg6.IsWhole)
    (x0 : Vec F SL9 .bf16) (x1 : Vec F SR9 .bf16)

set_option maxHeartbeats 1000000 in
theorem run9_A (hc1 : cond9_1 i) (hc2 : ¬cond9_2 i) (xo : Vec F SO9 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k9_pay2 (k9_pay1 (F := F)) x0 x1)) -∗ K ⟨⟩))
      ⊢ wp frame (wpE (defs₀ (F := F)) Variants.none c none) E (cc9__matmul_kernel i arg3 harg3 arg4 harg4 arg5 harg5 arg6 harg6) K := by
  simp only [cc9__matmul_kernel_eq_skeleton]; unfold cc9__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO9 _ _).trans ?_
  sl_unfold_run_names
  rw [View.readCov_unit_zero (S := SO9) _ zeros2]
  simp only [View.readAt_eq_ld, View.ld_unit_zero (S := SL9) zeros2, View.ld_unit_zero (S := SR9) zeros2]

set_option maxHeartbeats 1000000 in
theorem run9_B (hc1 : ¬cond9_1 i) (hc2 : ¬cond9_2 i) (xo : Vec F SO9 .f32) (s : Vec F SO9 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k9_pay2 s x0 x1)) -∗ K ⟨⟩))
      ⊢ wp frame (wpE (defs₀ (F := F)) Variants.none c none) E (cc9__matmul_kernel i arg3 harg3 arg4 harg4 arg5 harg5 arg6 harg6) K := by
  simp only [cc9__matmul_kernel_eq_skeleton]; unfold cc9__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO9 _ _).trans ?_
  try sl_unfold_run_names
  simp only [View.readAt_eq_ld, View.ld_unit_zero (S := SL9) zeros2, View.ld_unit_zero (S := SR9) zeros2, View.ld_unit_zero (S := SO9) zeros2]

set_option maxHeartbeats 1000000 in
theorem run9_C (hc1 : ¬cond9_1 i) (hc2 : cond9_2 i) (s : Vec F SO9 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k9_pay2 s x0 x1)
            ∗ owns (c : Thread nD τ) arg6 fullShare (k9_pay2 s x0 x1)) -∗ K ⟨⟩))
      ⊢ wp frame (wpE (defs₀ (F := F)) Variants.none c none) E (cc9__matmul_kernel i arg3 harg3 arg4 harg4 arg5 harg5 arg6 harg6) K := by
  simp only [cc9__matmul_kernel_eq_skeleton]; unfold cc9__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO9 _ _).trans ?_
    try sl_unfold_run_names
    rw [View.readCov_unit_zero (S := SO9) _ zeros2]
    simp only [View.readAt_eq_ld, View.ld_unit_zero (S := SL9) zeros2, View.ld_unit_zero (S := SR9) zeros2, View.ld_unit_zero (S := SO9) zeros2]
  iexists _; isplitr
  swap; · iexact H3
  ipureintro
  refine (read_store_whole _ _ zeros2 inbO9 _ _).trans ?_
  try sl_unfold_run_names
  simp only [View.readAt_eq_ld, View.ld_unit_zero (S := SL9) zeros2, View.ld_unit_zero (S := SR9) zeros2, View.ld_unit_zero (S := SO9) zeros2]

end Run

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem N_pos9 : 0 < cfg9.N := by rw [show cfg9.N = _ from N_9]; decide

def lhs9 (c : Dev nD) : ℕ → Vec F SL9 .bf16 := natExt N_pos9 fun t => iblk9 V c 0 t
def rhs9 (c : Dev nD) : ℕ → Vec F SR9 .bf16 := natExt N_pos9 fun t => iblk9 V c 1 t

def acc9 (c : Dev nD) : ℕ → Vec F SO9 .f32 :=
  accOf 20 (fun n => k9_pay2 (k9_pay1 (F := F)) (lhs9 V c n) (rhs9 V c n)) fun a n => k9_pay2 a (lhs9 V c n) (rhs9 V c n)

theorem acc9_reset (c : Dev nD) (t : Fin cfg9.N) (h : t.val % 20 = 0) :
    acc9 V c t.val = k9_pay2 (k9_pay1 (F := F)) (iblk9 V c 0 t) (iblk9 V c 1 t) :=
  (accOf_reset h).trans (by unfold lhs9 rhs9; rw [natExt_val, natExt_val])

theorem acc9_step (c : Dev nD) (t : Fin cfg9.N) (h : t.val % 20 ≠ 0) :
    acc9 V c t.val = k9_pay2 (acc9 V c (t.val - 1)) (iblk9 V c 0 t) (iblk9 V c 1 t) :=
  (accOf_step h).trans (by unfold lhs9 rhs9; rw [natExt_val, natExt_val]; rfl)

abbrev scM9 : Memref sig .tc .vmem SO9 .f32 := Memref.whole cc9_scratch0

abbrev rest9 (c : Dev nD) : sProp 𝕄 :=
  Pipeline.scopedRestBut (Ix := Unit) (Name := ℕ) (U := UR sig nD τ) (Lvl := ℕ) (Val := Elt F) spec9 c [cc9_scratch0]

def Phi9 (c : Dev nD) : ℕ → sProp 𝕄 :=
  PhiOf iprop(∃ f : Buf (Elt F) ((c : Thread nD τ).loc cc9_scratch0), ((c : Thread nD τ).loc cc9_scratch0) ↦{fullShare} f)
    (owns (c : Thread nD τ) scM9 fullShare) (acc9 V c) (rest9 c)

theorem Phi9_pos (c : Dev nD) (n : ℕ) (h : n ≠ 0) :
    Phi9 V c n = iprop(owns (c : Thread nD τ) scM9 fullShare (acc9 V c (n - 1)) ∗ rest9 (F := F) c) := PhiOf_pos h

theorem Phi9_any (c : Dev nD) (n : ℕ) :
    Phi9 V c n ⊢ iprop((∃ d, owns (c : Thread nD τ) scM9 fullShare d) ∗ rest9 (F := F) c) :=
  PhiOf_any (by iintro ⟨%f, H⟩; iexists f; rw [owns_whole]; iexact H) n

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => acc9 V c t.val
  Φ t := Phi9 V c t.val
  q _ := fullShare
  owed _ := 0

theorem A_eq9 (c : Dev nD) (w : Fin cfg9.W) : (dat9 V c).A w = V c (Pipeline.arrRef spec9 w) := by
  dsimp only [dat9]
theorem after9_2 (c : Dev nD) (t : Fin cfg9.N) : (dat9 V c).after 2 t = acc9 V c t.val := by dsimp only [dat9]

theorem Phi9_first (c : Dev nD) : (dat9 V c).Φ 0 = iprop((∃ f : Buf (Elt F) ((c : Thread nD τ).loc cc9_scratch0), ((c : Thread nD τ).loc cc9_scratch0) ↦{fullShare} f)
      ∗ Pipeline.scopedRestBut (Ix := Unit) (Name := ℕ) (U := UR sig nD τ) (Lvl := ℕ) (Val := Elt F) spec9 c [cc9_scratch0]) := by
  dsimp only [dat9]; rfl

theorem Phi9_last (c : Dev nD) : (dat9 V c).Φ (Fin.last cfg9.N) = iprop(owns (c : Thread nD τ) scM9 fullShare (acc9 V c (cfg9.N - 1))
      ∗ Pipeline.scopedRestBut (Ix := Unit) (Name := ℕ) (U := UR sig nD τ) (Lvl := ℕ) (Val := Elt F) spec9 c [cc9_scratch0]) := by
  dsimp only [dat9]
  rw [Fin.val_last, Phi9_pos V c _ (Nat.pos_iff_ne_zero.mp N_pos9)]

theorem before9_0 (c : Dev nD) (t : Fin cfg9.N) (d) : (dat9 V c).before 0 t d = iblk9 V c 0 t :=
  ((dat9 V c).before_fetched 0 t (fetch9_0 t) d).trans (by unfold Dat.fetched Dat.blockOf iblk9; rw [A_eq9]; try rfl)
theorem before9_1 (c : Dev nD) (t : Fin cfg9.N) (d) : (dat9 V c).before 1 t d = iblk9 V c 1 t :=
  ((dat9 V c).before_fetched 1 t (fetch9_1 t) d).trans (by unfold Dat.fetched Dat.blockOf iblk9; rw [A_eq9]; try rfl)

theorem idle9_2 (i : grid9.Coords) (h : ¬cond9_2 i) : cfg9.idle 2 i = true := by
  show (!(k9_cond2 i == 1#1)) = true
  rw [beq_eq_false_iff_ne.mpr h]; rfl
theorem live9_2 (i : grid9.Coords) (h : cond9_2 i) : cfg9.idle 2 i = false := by
  show (!(k9_cond2 i == 1#1)) = false
  rw [show k9_cond2 i = 1#1 from h]; rfl
theorem noFlush9_2 (t : Fin cfg9.N) (h : ¬t.val % 20 = 19) : (cfg9.win 2).flush t = false :=
  Bool.eq_false_iff.mpr fun hf => h ((flush9_2 t).mp hf)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl,
    show (dat9 V c).Φ t.castSucc = Phi9 V c t.val from rfl,
    show (dat9 V c).Φ t.succ = iprop(owns (c : Thread nD τ) scM9 fullShare (acc9 V c t.val) ∗ rest9 (F := F) c) from rfl,
    show (dat9 V c).leavesExact 0 t = owns (c : Thread nD τ) (st9_0 t) fullShare (iblk9 V c 0 t) from rfl,
    show (dat9 V c).leavesExact 1 t = owns (c : Thread nD τ) (st9_1 t) fullShare (iblk9 V c 1 t) from rfl]
  by_cases h2 : t.val % 20 = 19
  · have h1 : ¬t.val % 20 = 0 := by omega
    rw [show (dat9 V c).leavesExact 2 t = owns (c : Thread nD τ) (st9_2 t) fullShare ((dat9 V c).after 2 t) from by
      unfold Dat.leavesExact; rw [live9_2 _ ((hcond9_2 t).mpr h2)], after9_2]
    rw [acc9_step V c t h1]
    exact body_shuffle (fun _ => run9_C c Set.univ (grid9.coords t) (st9_0 t) _ (st9_1 t) _ (st9_2 t) _ scM9 _ (iblk9 V c 0 t) (iblk9 V c 1 t)
      (fun h => h1 ((hcond9_1 t).mp h)) ((hcond9_2 t).mpr h2) (acc9 V c (t.val - 1))) (.of_eq (Phi9_pos V c _ (by omega))) (fun _ => exists_intro _) fun _ => .rfl
  · rw [Dat.leavesExact_idle (dat9 V c) 2 t (idle9_2 _ fun h => h2 ((hcond9_2 t).mp h)) (noFlush9_2 t h2)]
    by_cases h1 : t.val % 20 = 0
    · rw [acc9_reset V c t h1]
      exact body_shuffle (fun d => run9_A c Set.univ (grid9.coords t) (st9_0 t) _ (st9_1 t) _ (st9_2 t) _ scM9 _ (iblk9 V c 0 t) (iblk9 V c 1 t)
        ((hcond9_1 t).mpr h1) (fun h => h2 ((hcond9_2 t).mp h)) ((dat9 V c).before 2 t d)) (Phi9_any V c t.val) (fun _ => .rfl) fun d => by iintro H; iexists d; iexact H
    · rw [acc9_step V c t h1]
      exact body_shuffle (fun d => run9_B c Set.univ (grid9.coords t) (st9_0 t) _ (st9_1 t) _ (st9_2 t) _ scM9 _ (iblk9 V c 0 t) (iblk9 V c 1 t)
        (fun h => h1 ((hcond9_1 t).mp h)) (fun h => h2 ((hcond9_2 t).mp h)) ((dat9 V c).before 2 t d) (acc9 V c (t.val - 1))) (.of_eq (Phi9_pos V c _ (by omega))) (fun _ => .rfl) fun d => by iintro H; iexists d; iexact H

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand.Whole Cert.Hand.Dat
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond10_0 (i : grid10.Coords) : Prop := (Scalar.cmpi .ne (Scalar.extui (Scalar.cmpi .eq (BitVec.ofNat 32 (i 2).val) 0#32)) 0#32) = 1#1
abbrev cond10_1 (i : grid10.Coords) : Prop := k10_cond2 i = 1#1

theorem hcond10_0 : ∀ t : Fin cfg10.N, cond10_0 (grid10.coords t) :=
  (by decide +kernel : ∀ t : Fin grid10.N, cond10_0 (grid10.coords t))
theorem hcond10_1 : ∀ t : Fin cfg10.N, cond10_1 (grid10.coords t) :=
  (by decide +kernel : ∀ t : Fin grid10.N, cond10_1 (grid10.coords t))

set_option maxHeartbeats 1000000 in
theorem sound_kernel10 (c : Dev nD) (E : Set ℕ) (i : grid10.Coords) (hcF : cond10_0 i) (hcL : cond10_1 i)
    (mA : Memref sig .tc .vmem S512x512 .bf16) (hmA : mA.IsWhole) (mB : Memref sig .tc .vmem S512x128 .bf16) (hmB : mB.IsWhole)
    (mC : Memref sig .tc .vmem S512x128 .bf16) (hmC : mC.IsWhole) (mS : Memref sig .tc .vmem S512x128 .f32) (hmS : mS.IsWhole)
    (a : Vec F S512x512 .bf16) (b : Vec F S512x128 .bf16) (K : PUnit → sProp 𝕄) :
    iprop(owns (c : Thread nD τ) mA fullShare a ∗ owns (c : Thread nD τ) mB fullShare b
        ∗ (∃ d, owns (c : Thread nD τ) mC fullShare d) ∗ (∃ d, owns (c : Thread nD τ) mS fullShare d)
        ∗ (iprop(owns (c : Thread nD τ) mA fullShare a ∗ owns (c : Thread nD τ) mB fullShare b
            ∗ owns (c : Thread nD τ) mC fullShare (k10_pay3 (k10_pay2 k10_pay1 a b)) ∗ owns (c : Thread nD τ) mS fullShare (k10_pay2 k10_pay1 a b)) -∗ K ⟨⟩))
      ⊢ wp frame (wpE (defs₀ (F := F)) Variants.none c none) E (cc10__matmul_kernel i mA hmA mB hmB mC hmC mS hmS) K := by
  simp only [cc10__matmul_kernel_eq_skeleton]; unfold cc10__matmul_kernel_skel
  unfold owns
  iintro ⟨⟨%fA, %hfA, HA⟩, ⟨%fB, %hfB, HB⟩, ⟨%dC, %fC, -, HC⟩, ⟨%dS, %fS, -, HS⟩, Hk⟩
  subst hfA; subst hfB
  sl_exec (disch := first | exact hcF | exact hcL)
  sl_step
  iapply Hk
  isplitl [HA]
  · iexists fA; isplitr; · ipureintro; rfl
    iexact HA
  isplitl [HB]
  · iexists fB; isplitr; · ipureintro; rfl
    iexact HB
  isplitl [HC]
  · iexists _; isplitr
    swap; · iexact HC
    ipureintro
    sl_unfold_run_names
    rw [read_store_whole _ _ zeros2, View.readCov_cons_toLoadRect, View.readCov_cons_toLoadRect,
      readAt_whole _ _ zeros2, readAt_whole _ _ zeros2]
  iexists _; isplitr
  swap; · iexact HS
  ipureintro
  sl_unfold_run_names
  rw [read_store_whole _ _ zeros2, View.readCov_cons_toLoadRect, readAt_whole _ _ zeros2, readAt_whole _ _ zeros2]

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def acc10 (c : Dev nD) (n : ℕ) : Vec F S512x128 .f32 :=
  if h : n < cfg10.N then k10_pay2 k10_pay1 (iblk10 V c 0 ⟨n, h⟩) (iblk10 V c 1 ⟨n, h⟩) else k10_pay1

theorem acc10_reset (c : Dev nD) (t : Fin cfg10.N) :
    acc10 V c t.val = k10_pay2 k10_pay1 (iblk10 V c 0 t) (iblk10 V c 1 t) := dif_pos t.isLt

def Phi10 (c : Dev nD) : ℕ → sProp 𝕄 :=
  PhiOf iprop(∃ f : Buf (Elt F) ((c : Thread nD τ).loc cc10_scratch0), ((c : Thread nD τ).loc cc10_scratch0) ↦{fullShare} f)
    (owns (c : Thread nD τ) (Memref.whole cc10_scratch0) fullShare) (acc10 V c) (Pipeline.scopedRestBut (Ix := Unit) (Name := ℕ) (U := UR sig nD τ) (Lvl := ℕ) (Val := Elt F) spec10 c [cc10_scratch0])

theorem Phi10_any (c : Dev nD) (n : ℕ) :
    Phi10 V c n ⊢ iprop((∃ d, owns (c : Thread nD τ) (Memref.whole cc10_scratch0) fullShare d)
      ∗ Pipeline.scopedRestBut (Ix := Unit) (Name := ℕ) (U := UR sig nD τ) (Lvl := ℕ) (Val := Elt F) spec10 c [cc10_scratch0]) :=
  PhiOf_any (by iintro ⟨%f, H⟩; iexists f; rw [owns_whole]; iexact H) n

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (acc10 V c t.val)
  Φ t := Phi10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (acc10 V c t.val) := by dsimp only [dat10]

theorem Phi10_zero (c : Dev nD) : (dat10 V c).Φ 0 = Phi10 V c 0 := by dsimp only [dat10]; rfl
theorem Phi10_last (c : Dev nD) : (dat10 V c).Φ (Fin.last cfg10.N) = Phi10 V c cfg10.N := by dsimp only [dat10]; rfl

theorem before10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)

theorem liveAt10_2 : ∀ t : Fin cfg10.N, cfg10.idle 2 (grid10.coords t) = false := by decide +kernel

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl,
    show (dat10 V c).Φ t.succ = iprop(owns (c : Thread nD τ) (Memref.whole cc10_scratch0) fullShare (acc10 V c t.val)
      ∗ Pipeline.scopedRestBut (Ix := Unit) (Name := ℕ) (U := UR sig nD τ) (Lvl := ℕ) (Val := Elt F) spec10 c [cc10_scratch0]) from rfl,
    show (dat10 V c).Φ t.castSucc = Phi10 V c t.val from rfl,
    show (dat10 V c).leavesExact 0 t = owns (c : Thread nD τ) (st10_0 t) fullShare ((dat10 V c).after 0 t) from rfl,
    show (dat10 V c).leavesExact 1 t = owns (c : Thread nD τ) (st10_1 t) fullShare ((dat10 V c).after 1 t) from rfl,
    show (dat10 V c).leavesExact 2 t = owns (c : Thread nD τ) (st10_2 t) fullShare ((dat10 V c).after 2 t) from by
      unfold Dat.leavesExact; rw [liveAt10_2 t],
    after10_0, after10_1, after10_2, acc10_reset]
  exact body_shuffle (fun _ => sound_kernel10 c Set.univ (grid10.coords t) (hcond10_0 t) (hcond10_1 t) (st10_0 t) _ (st10_1 t) _ (st10_2 t) _
    (Memref.whole cc10_scratch0) _ (iblk10 V c 0 t) (iblk10 V c 1 t)) (Phi10_any V c t.val) (fun _ => exists_intro _) fun _ => .rfl

theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11Dat.lean ====
import proofs.«177890_j48524540510773_1_alg».proof.Proof.Gen.KernelIdeal.Launch
import proofs.«177890_j48524540510773_1_alg».proof.Proof.Gen.KernelIdeal.Skeleton
import proofs.«177890_j48524540510773_1_alg».proof.Proof.Gen.KernelIdeal.Points
import proofs.«177890_j48524540510773_1_alg».proof.Proof.LibWhole
import proofs.«177890_j48524540510773_1_alg».proof.Proof.LibDat
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Hand.Whole Cert.Hand.Dat

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SL11" => S512x512
local notation "SR11" => S512x128
local notation "SO11" => S512x128
local notation "inbL11" => inb_S512x512_S512x512_0_0
local notation "inbR11" => inb_S512x128_S512x128_0_0
local notation "inbO11" => inb_S512x128_S512x128_0_0

abbrev cond11_1 (i : grid11.Coords) : Prop :=
  (Scalar.cmpi .ne (Scalar.extui (Scalar.cmpi .eq (BitVec.ofNat 32 (i 2).val) 0#32)) 0#32) = 1#1
abbrev cond11_2 (i : grid11.Coords) : Prop := k11_cond2 i = 1#1

theorem hcond11_1 : ∀ t : Fin cfg11.N, cond11_1 (grid11.coords t) ↔ t.val % 20 = 0 :=
  (by decide +kernel : ∀ t : Fin grid11.N, cond11_1 (grid11.coords t) ↔ t.val % 20 = 0)
theorem hcond11_2 : ∀ t : Fin cfg11.N, cond11_2 (grid11.coords t) ↔ t.val % 20 = 19 :=
  (by decide +kernel : ∀ t : Fin grid11.N, cond11_2 (grid11.coords t) ↔ t.val % 20 = 19)

section Run

variable (c : Dev nD) (E : Set ℕ) (i : grid11.Coords)
    (arg3 : Memref sig .tc .vmem SL11 .bf16) (harg3 : arg3.IsWhole) (arg4 : Memref sig .tc .vmem SR11 .bf16) (harg4 : arg4.IsWhole)
    (arg5 : Memref sig .tc .vmem SO11 .f32) (harg5 : arg5.IsWhole) (arg6 : Memref sig .tc .vmem SO11 .f32) (harg6 : arg6.IsWhole)
    (x0 : Vec F SL11 .bf16) (x1 : Vec F SR11 .bf16)

set_option maxHeartbeats 1000000 in
theorem run11_A (hc1 : cond11_1 i) (hc2 : ¬cond11_2 i) (xo : Vec F SO11 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k11_pay2 (k11_pay1 (F := F)) x0 x1)) -∗ K ⟨⟩))
      ⊢ wp frame (wpE (defs₀ (F := F)) Variants.none c none) E (cc11__matmul_kernel i arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO11 _ _).trans ?_
  sl_unfold_run_names
  rw [View.readCov_unit_zero (S := SO11) _ zeros2]
  simp only [View.readAt_eq_ld, View.ld_unit_zero (S := SL11) zeros2, View.ld_unit_zero (S := SR11) zeros2]

set_option maxHeartbeats 1000000 in
theorem run11_B (hc1 : ¬cond11_1 i) (hc2 : ¬cond11_2 i) (xo : Vec F SO11 .f32) (s : Vec F SO11 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k11_pay2 s x0 x1)) -∗ K ⟨⟩))
      ⊢ wp frame (wpE (defs₀ (F := F)) Variants.none c none) E (cc11__matmul_kernel i arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_whole _ _ zeros2 inbO11 _ _).trans ?_
  try sl_unfold_run_names
  simp only [View.readAt_eq_ld, View.ld_unit_zero (S := SL11) zeros2, View.ld_unit_zero (S := SR11) zeros2, View.ld_unit_zero (S := SO11) zeros2]

set_option maxHeartbeats 1000000 in
theorem run11_C (hc1 : ¬cond11_1 i) (hc2 : cond11_2 i) (s : Vec F SO11 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
            ∗ owns (c : Thread nD τ) arg5 fullShare (k11_pay2 s x0 x1)
            ∗ owns (c : Thread nD τ) arg6 fullShare (k11_pay2 s x0 x1)) -∗ K ⟨⟩))
      ⊢ wp frame (wpE (defs₀ (F := F)) Variants.none c none) E (cc11__matmul_kernel i arg3 harg3 arg4 harg4 arg5 harg5 arg6 harg6) K := by
  simp only [cc11__matmul_kernel_eq_skeleton]; unfold cc11__matmul_kernel_skel
  unfold owns
  iintro ⟨⟨%f0, %hf0, H0⟩, ⟨%f1, %hf1, H1⟩, ⟨%d, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zeros2 inbO11 _ _).trans ?_
    try sl_unfold_run_names
    rw [View.readCov_unit_zero (S := SO11) _ zeros2]
    simp only [View.readAt_eq_ld, View.ld_unit_zero (S := SL11) zeros2, View.ld_unit_zero (S := SR11) zeros2, View.ld_unit_zero (S := SO11) zeros2]
  iexists _; isplitr
  swap; · iexact H3
  ipureintro
  refine (read_store_whole _ _ zeros2 inbO11 _ _).trans ?_
  try sl_unfold_run_names
  simp only [View.readAt_eq_ld, View.ld_unit_zero (S := SL11) zeros2, View.ld_unit_zero (S := SR11) zeros2, View.ld_unit_zero (S := SO11) zeros2]

end Run

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem N_pos11 : 0 < cfg11.N := by rw [show cfg11.N = _ from N_11]; decide

def lhs11 (c : Dev nD) : ℕ → Vec F SL11 .bf16 := natExt N_pos11 fun t => iblk11 V c 0 t
def rhs11 (c : Dev nD) : ℕ → Vec F SR11 .bf16 := natExt N_pos11 fun t => iblk11 V c 1 t

def acc11 (c : Dev nD) : ℕ → Vec F SO11 .f32 :=
  accOf 20 (fun n => k11_pay2 (k11_pay1 (F := F)) (lhs11 V c n) (rhs11 V c n)) fun a n => k11_pay2 a (lhs11 V c n) (rhs11 V c n)

theorem acc11_reset (c : Dev nD) (t : Fin cfg11.N) (h : t.val % 20 = 0) :
    acc11 V c t.val = k11_pay2 (k11_pay1 (F := F)) (iblk11 V c 0 t) (iblk11 V c 1 t) :=
  (accOf_reset h).trans (by unfold lhs11 rhs11; rw [natExt_val, natExt_val])

theorem acc11_step (c : Dev nD) (t : Fin cfg11.N) (h : t.val % 20 ≠ 0) :
    acc11 V c t.val = k11_pay2 (acc11 V c (t.val - 1)) (iblk11 V c 0 t) (iblk11 V c 1 t) :=
  (accOf_step h).trans (by unfold lhs11 rhs11; rw [natExt_val, natExt_val]; rfl)

abbrev scM11 : Memref sig .tc .vmem SO11 .f32 := Memref.whole cc11_scratch0

abbrev rest11 (c : Dev nD) : sProp 𝕄 :=
  Pipeline.scopedRestBut (Ix := Unit) (Name := ℕ) (U := UR sig nD τ) (Lvl := ℕ) (Val := Elt F) spec11 c [cc11_scratch0]

def Phi11 (c : Dev nD) : ℕ → sProp 𝕄 :=
  PhiOf iprop(∃ f : Buf (Elt F) ((c : Thread nD τ).loc cc11_scratch0), ((c : Thread nD τ).loc cc11_scratch0) ↦{fullShare} f)
    (owns (c : Thread nD τ) scM11 fullShare) (acc11 V c) (rest11 c)

theorem Phi11_pos (c : Dev nD) (n : ℕ) (h : n ≠ 0) :
    Phi11 V c n = iprop(owns (c : Thread nD τ) scM11 fullShare (acc11 V c (n - 1)) ∗ rest11 (F := F) c) := PhiOf_pos h

theorem Phi11_any (c : Dev nD) (n : ℕ) :
    Phi11 V c n ⊢ iprop((∃ d, owns (c : Thread nD τ) scM11 fullShare d) ∗ rest11 (F := F) c) :=
  PhiOf_any (by iintro ⟨%f, H⟩; iexists f; rw [owns_whole]; iexact H) n

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => acc11 V c t.val
  Φ t := Phi11 V c t.val
  q _ := fullShare
  owed _ := 0

theorem A_eq11 (c : Dev nD) (w : Fin cfg11.W) : (dat11 V c).A w = V c (Pipeline.arrRef spec11 w) := by
  dsimp only [dat11]
theorem after11_2 (c : Dev nD) (t : Fin cfg11.N) : (dat11 V c).after 2 t = acc11 V c t.val := by dsimp only [dat11]

theorem Phi11_first (c : Dev nD) : (dat11 V c).Φ 0 = iprop((∃ f : Buf (Elt F) ((c : Thread nD τ).loc cc11_scratch0), ((c : Thread nD τ).loc cc11_scratch0) ↦{fullShare} f)
      ∗ Pipeline.scopedRestBut (Ix := Unit) (Name := ℕ) (U := UR sig nD τ) (Lvl := ℕ) (Val := Elt F) spec11 c [cc11_scratch0]) := by
  dsimp only [dat11]; rfl

theorem Phi11_last (c : Dev nD) : (dat11 V c).Φ (Fin.last cfg11.N) = iprop(owns (c : Thread nD τ) scM11 fullShare (acc11 V c (cfg11.N - 1))
      ∗ Pipeline.scopedRestBut (Ix := Unit) (Name := ℕ) (U := UR sig nD τ) (Lvl := ℕ) (Val := Elt F) spec11 c [cc11_scratch0]) := by
  dsimp only [dat11]
  rw [Fin.val_last, Phi11_pos V c _ (Nat.pos_iff_ne_zero.mp N_pos11)]

theorem before11_0 (c : Dev nD) (t : Fin cfg11.N) (d) : (dat11 V c).before 0 t d = iblk11 V c 0 t :=
  ((dat11 V c).before_fetched 0 t (fetch11_0 t) d).trans (by unfold Dat.fetched Dat.blockOf iblk11; rw [A_eq11]; try rfl)
theorem before11_1 (c : Dev nD) (t : Fin cfg11.N) (d) : (dat11 V c).before 1 t d = iblk11 V c 1 t :=
  ((dat11 V c).before_fetched 1 t (fetch11_1 t) d).trans (by unfold Dat.fetched Dat.blockOf iblk11; rw [A_eq11]; try rfl)

theorem idle11_2 (i : grid11.Coords) (h : ¬cond11_2 i) : cfg11.idle 2 i = true := by
  show (!(k11_cond2 i == 1#1)) = true
  rw [beq_eq_false_iff_ne.mpr h]; rfl
theorem live11_2 (i : grid11.Coords) (h : cond11_2 i) : cfg11.idle 2 i = false := by
  show (!(k11_cond2 i == 1#1)) = false
  rw [show k11_cond2 i = 1#1 from h]; rfl
theorem noFlush11_2 (t : Fin cfg11.N) (h : ¬t.val % 20 = 19) : (cfg11.win 2).flush t = false :=
  Bool.eq_false_iff.mpr fun hf => h ((flush11_2 t).mp hf)

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl,
    show (dat11 V c).Φ t.castSucc = Phi11 V c t.val from rfl,
    show (dat11 V c).Φ t.succ = iprop(owns (c : Thread nD τ) scM11 fullShare (acc11 V c t.val) ∗ rest11 (F := F) c) from rfl,
    show (dat11 V c).leavesExact 0 t = owns (c : Thread nD τ) (st11_0 t) fullShare (iblk11 V c 0 t) from rfl,
    show (dat11 V c).leavesExact 1 t = owns (c : Thread nD τ) (st11_1 t) fullShare (iblk11 V c 1 t) from rfl]
  by_cases h2 : t.val % 20 = 19
  · have h1 : ¬t.val % 20 = 0 := by omega
    rw [show (dat11 V c).leavesExact 2 t = owns (c : Thread nD τ) (st11_2 t) fullShare ((dat11 V c).after 2 t) from by
      unfold Dat.leavesExact; rw [live11_2 _ ((hcond11_2 t).mpr h2)], after11_2]
    rw [acc11_step V c t h1]
    exact body_shuffle (fun _ => run11_C c Set.univ (grid11.coords t) (st11_0 t) _ (st11_1 t) _ (st11_2 t) _ scM11 _ (iblk11 V c 0 t) (iblk11 V c 1 t)
      (fun h => h1 ((hcond11_1 t).mp h)) ((hcond11_2 t).mpr h2) (acc11 V c (t.val - 1))) (.of_eq (Phi11_pos V c _ (by omega))) (fun _ => exists_intro _) fun _ => .rfl
  · rw [Dat.leavesExact_idle (dat11 V c) 2 t (idle11_2 _ fun h => h2 ((hcond11_2 t).mp h)) (noFlush11_2 t h2)]
    by_cases h1 : t.val % 20 = 0
    · rw [acc11_reset V c t h1]
      exact body_shuffle (fun d => run11_A c Set.univ (grid11.coords t) (st11_0 t) _ (st11_1 t) _ (st11_2 t) _ scM11 _ (iblk11 V c 0 t) (iblk11 V c 1 t)
        ((hcond11_1 t).mpr h1) (fun h => h2 ((hcond11_2 t).mp h)) ((dat11 V c).before 2 t d)) (Phi11_any V c t.val) (fun _ => .rfl) fun d => by iintro H; iexists d; iexact H
    · rw [acc11_step V c t h1]
      exact body_shuffle (fun d => run11_B c Set.univ (grid11.coords t) (st11_0 t) _ (st11_1 t) _ (st11_2 t) _ scM11 _ (iblk11 V c 0 t) (iblk11 V c 1 t)
        (fun h => h1 ((hcond11_1 t).mp h)) (fun h => h2 ((hcond11_2 t).mp h)) ((dat11 V c).before 2 t d) (acc11 V c (t.val - 1))) (.of_eq (Phi11_pos V c _ (by omega))) (fun _ => .rfl) fun d => by iintro H; iexists d; iexact H

theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Fold.lean ====
import proofs.«177890_j48524540510773_1_alg».proof.Proof.KI.R0Dat
import proofs.«177890_j48524540510773_1_alg».proof.Proof.KI.R1Dat
import proofs.«177890_j48524540510773_1_alg».proof.Proof.KI.R2Dat
import proofs.«177890_j48524540510773_1_alg».proof.Proof.KI.R3Dat
import proofs.«177890_j48524540510773_1_alg».proof.Proof.KI.R4Dat
import proofs.«177890_j48524540510773_1_alg».proof.Proof.KI.R5Dat
import proofs.«177890_j48524540510773_1_alg».proof.Proof.KI.R6Dat
import proofs.«177890_j48524540510773_1_alg».proof.Proof.KI.R7Dat
import proofs.«177890_j48524540510773_1_alg».proof.Proof.KI.R8Dat
import proofs.«177890_j48524540510773_1_alg».proof.Proof.KI.R9Dat
import proofs.«177890_j48524540510773_1_alg».proof.Proof.KI.R10Dat
import proofs.«177890_j48524540510773_1_alg».proof.Proof.KI.R11Dat

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem not_img {n : ℕ} {a : Fin n → Ref sig .tc} {b : Ref sig .tc} (hb : b ∉ Finset.univ.image a) (w : Fin n) : a w ≠ b :=
  fun e => hb (Finset.mem_image.mpr ⟨w, Finset.mem_univ _, e⟩)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)

abbrev W_entry0 : Dev nD → Valuation τ sig (Elt F) := W3 m ρ
abbrev V_entry0 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V_entry0 m ρ) c).arrAt w cfg0.N
theorem W4_arr (c : Dev nD) (w : Fin cfg0.W) :
    W4 m ρ c (Proc.devRef .tc (Pipeline.arrRef spec0 w)) = (dat0 (V_entry0 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev W_after0 : Dev nD → Valuation τ sig (Elt F) := W4 m ρ
abbrev V_after0 : (c : Dev nD) → (b : Ref sig .tc) → Buf (Elt F) ((c : Thread nD τ).loc b) := fun c b => W4 m ρ c b
theorem hF0 (c : Dev nD) (w : Fin cfg0.W) : (dat0 (V_entry0 m ρ) c).arrAt w cfg0.N = V_after0 m ρ c (Pipeline.arrRef spec0 w) :=
  (W4_arr m ρ c w).symm
theorem hrest0 (c : Dev nD) : ∀ b, b ∉ Finset.univ.image (Pipeline.arrRef spec0) → V_after0 m ρ c b = V_entry0 m ρ c b :=
  fun b hb => W4_of_ne m ρ c b (not_img hb)

abbrev W_entry1 : Dev nD → Valuation τ sig (Elt F) := W4 m ρ
abbrev V_entry1 : (c : Dev nD) → (b : Ref sig .tc) → Buf (Elt F) ((c : Thread nD τ).loc b) := fun c b => W4 m ρ c b
def W5 (c : Dev nD) : Valuation τ sig (Elt F) :=
  Pipeline.withArrays spec1 c (W4 m ρ c) fun w => (dat1 (V_entry1 m ρ) c).arrAt w cfg1.N
theorem W5_arr (c : Dev nD) (w : Fin cfg1.W) :
    W5 m ρ c (Proc.devRef .tc (Pipeline.arrRef spec1 w)) = (dat1 (V_entry1 m ρ) c).arrAt w cfg1.N :=
  Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) :=
  Pipeline.withArrays_of_ne spec1 c _ _ b hb
abbrev W_after1 : Dev nD → Valuation τ sig (Elt F) := W5 m ρ
abbrev V_after1 : (c : Dev nD) → (b : Ref sig .tc) → Buf (Elt F) ((c : Thread nD τ).loc b) := fun c b => W5 m ρ c b
theorem hF1 (c : Dev nD) (w : Fin cfg1.W) : (dat1 (V_entry1 m ρ) c).arrAt w cfg1.N = V_after1 m ρ c (Pipeline.arrRef spec1 w) :=
  (W5_arr m ρ c w).symm
theorem hrest1 (c : Dev nD) : ∀ b, b ∉ Finset.univ.image (Pipeline.arrRef spec1) → V_after1 m ρ c b = V_entry1 m ρ c b :=
  fun b hb => W5_of_ne m ρ c b (not_img hb)

abbrev W6 : Dev nD → Valuation τ sig (Elt F) := fun c => StableHlo.after hostOps2 (W5 m ρ c)
abbrev W7 : Dev nD → Valuation τ sig (Elt F) := fun c => StableHlo.after hostOps2_1 (W6 m ρ c)
abbrev W8 : Dev nD → Valuation τ sig (Elt F) := fun c => StableHlo.after hostOps2_2 (W7 m ρ c)

abbrev W_entry2 : Dev nD → Valuation τ sig (Elt F) := W8 m ρ
abbrev V_entry2 : (c : Dev nD) → (b : Ref sig .tc) → Buf (Elt F) ((c : Thread nD τ).loc b) := fun c b => W8 m ρ c b
def W9 (c : Dev nD) : Valuation τ sig (Elt F) :=
  Pipeline.withArrays spec2 c (W8 m ρ c) fun w => (dat2 (V_entry2 m ρ) c).arrAt w cfg2.N
theorem W9_arr (c : Dev nD) (w : Fin cfg2.W) :
    W9 m ρ c (Proc.devRef .tc (Pipeline.arrRef spec2 w)) = (dat2 (V_entry2 m ρ) c).arrAt w cfg2.N :=
  Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) :=
  Pipeline.withArrays_of_ne spec2 c _ _ b hb
abbrev W_after2 : Dev nD → Valuation τ sig (Elt F) := W9 m ρ
abbrev V_after2 : (c : Dev nD) → (b : Ref sig .tc) → Buf (Elt F) ((c : Thread nD τ).loc b) := fun c b => W9 m ρ c b
theorem hF2 (c : Dev nD) (w : Fin cfg2.W) : (dat2 (V_entry2 m ρ) c).arrAt w cfg2.N = V_after2 m ρ c (Pipeline.arrRef spec2 w) :=
  (W9_arr m ρ c w).symm
theorem hrest2 (c : Dev nD) : ∀ b, b ∉ Finset.univ.image (Pipeline.arrRef spec2) → V_after2 m ρ c b = V_entry2 m ρ c b :=
  fun b hb => W9_of_ne m ρ c b (not_img hb)

abbrev W_entry3 : Dev nD → Valuation τ sig (Elt F) := W9 m ρ
abbrev V_entry3 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V_entry3 m ρ) c).arrAt w cfg3.N
theorem W10_arr (c : Dev nD) (w : Fin cfg3.W) :
    W10 m ρ c (Proc.devRef .tc (Pipeline.arrRef spec3 w)) = (dat3 (V_entry3 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb
abbrev W_after3 : Dev nD → Valuation τ sig (Elt F) := W10 m ρ
abbrev V_after3 : (c : Dev nD) → (b : Ref sig .tc) → Buf (Elt F) ((c : Thread nD τ).loc b) := fun c b => W10 m ρ c b
theorem hF3 (c : Dev nD) (w : Fin cfg3.W) : (dat3 (V_entry3 m ρ) c).arrAt w cfg3.N = V_after3 m ρ c (Pipeline.arrRef spec3 w) :=
  (W10_arr m ρ c w).symm
theorem hrest3 (c : Dev nD) : ∀ b, b ∉ Finset.univ.image (Pipeline.arrRef spec3) → V_after3 m ρ c b = V_entry3 m ρ c b :=
  fun b hb => W10_of_ne m ρ c b (not_img hb)

abbrev W11 : Dev nD → Valuation τ sig (Elt F) := fun c => StableHlo.after hostOps4 (W10 m ρ c)
abbrev W12 : Dev nD → Valuation τ sig (Elt F) := fun c => StableHlo.after hostOps4_1 (W11 m ρ c)
abbrev W13 : Dev nD → Valuation τ sig (Elt F) := fun c => StableHlo.after hostOps4_2 (W12 m ρ c)

abbrev W_entry4 : Dev nD → Valuation τ sig (Elt F) := W13 m ρ
abbrev V_entry4 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (V_entry4 m ρ) c).arrAt w cfg4.N
theorem W14_arr (c : Dev nD) (w : Fin cfg4.W) :
    W14 m ρ c (Proc.devRef .tc (Pipeline.arrRef spec4 w)) = (dat4 (V_entry4 m ρ) c).arrAt w cfg4.N :=
  Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) :=
  Pipeline.withArrays_of_ne spec4 c _ _ b hb
abbrev W_after4 : Dev nD → Valuation τ sig (Elt F) := W14 m ρ
abbrev V_after4 : (c : Dev nD) → (b : Ref sig .tc) → Buf (Elt F) ((c : Thread nD τ).loc b) := fun c b => W14 m ρ c b
theorem hF4 (c : Dev nD) (w : Fin cfg4.W) : (dat4 (V_entry4 m ρ) c).arrAt w cfg4.N = V_after4 m ρ c (Pipeline.arrRef spec4 w) :=
  (W14_arr m ρ c w).symm
theorem hrest4 (c : Dev nD) : ∀ b, b ∉ Finset.univ.image (Pipeline.arrRef spec4) → V_after4 m ρ c b = V_entry4 m ρ c b :=
  fun b hb => W14_of_ne m ρ c b (not_img hb)

abbrev W_entry5 : Dev nD → Valuation τ sig (Elt F) := W14 m ρ
abbrev V_entry5 : (c : Dev nD) → (b : Ref sig .tc) → Buf (Elt F) ((c : Thread nD τ).loc b) := fun c b => W14 m ρ c b
def W15 (c : Dev nD) : Valuation τ sig (Elt F) :=
  Pipeline.withArrays spec5 c (W14 m ρ c) fun w => (dat5 (V_entry5 m ρ) c).arrAt w cfg5.N
theorem W15_arr (c : Dev nD) (w : Fin cfg5.W) :
    W15 m ρ c (Proc.devRef .tc (Pipeline.arrRef spec5 w)) = (dat5 (V_entry5 m ρ) c).arrAt w cfg5.N :=
  Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) :=
  Pipeline.withArrays_of_ne spec5 c _ _ b hb
abbrev W_after5 : Dev nD → Valuation τ sig (Elt F) := W15 m ρ
abbrev V_after5 : (c : Dev nD) → (b : Ref sig .tc) → Buf (Elt F) ((c : Thread nD τ).loc b) := fun c b => W15 m ρ c b
theorem hF5 (c : Dev nD) (w : Fin cfg5.W) : (dat5 (V_entry5 m ρ) c).arrAt w cfg5.N = V_after5 m ρ c (Pipeline.arrRef spec5 w) :=
  (W15_arr m ρ c w).symm
theorem hrest5 (c : Dev nD) : ∀ b, b ∉ Finset.univ.image (Pipeline.arrRef spec5) → V_after5 m ρ c b = V_entry5 m ρ c b :=
  fun b hb => W15_of_ne m ρ c b (not_img hb)

abbrev W16 : Dev nD → Valuation τ sig (Elt F) := fun c => StableHlo.after hostOps6 (W15 m ρ c)
abbrev W17 : Dev nD → Valuation τ sig (Elt F) := fun c => StableHlo.after hostOps6_1 (W16 m ρ c)
abbrev W18 : Dev nD → Valuation τ sig (Elt F) := fun c => StableHlo.after hostOps6_2 (W17 m ρ c)

abbrev W_entry6 : Dev nD → Valuation τ sig (Elt F) := W18 m ρ
abbrev V_entry6 : (c : Dev nD) → (b : Ref sig .tc) → Buf (Elt F) ((c : Thread nD τ).loc b) := fun c b => W18 m ρ c b
def W19 (c : Dev nD) : Valuation τ sig (Elt F) :=
  Pipeline.withArrays spec6 c (W18 m ρ c) fun w => (dat6 (V_entry6 m ρ) c).arrAt w cfg6.N
theorem W19_arr (c : Dev nD) (w : Fin cfg6.W) :
    W19 m ρ c (Proc.devRef .tc (Pipeline.arrRef spec6 w)) = (dat6 (V_entry6 m ρ) c).arrAt w cfg6.N :=
  Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) :=
  Pipeline.withArrays_of_ne spec6 c _ _ b hb
abbrev W_after6 : Dev nD → Valuation τ sig (Elt F) := W19 m ρ
abbrev V_after6 : (c : Dev nD) → (b : Ref sig .tc) → Buf (Elt F) ((c : Thread nD τ).loc b) := fun c b => W19 m ρ c b
theorem hF6 (c : Dev nD) (w : Fin cfg6.W) : (dat6 (V_entry6 m ρ) c).arrAt w cfg6.N = V_after6 m ρ c (Pipeline.arrRef spec6 w) :=
  (W19_arr m ρ c w).symm
theorem hrest6 (c : Dev nD) : ∀ b, b ∉ Finset.univ.image (Pipeline.arrRef spec6) → V_after6 m ρ c b = V_entry6 m ρ c b :=
  fun b hb => W19_of_ne m ρ c b (not_img hb)

abbrev W_entry7 : Dev nD → Valuation τ sig (Elt F) := W19 m ρ
abbrev V_entry7 : (c : Dev nD) → (b : Ref sig .tc) → Buf (Elt F) ((c : Thread nD τ).loc b) := fun c b => W19 m ρ c b
def W20 (c : Dev nD) : Valuation τ sig (Elt F) :=
  Pipeline.withArrays spec7 c (W19 m ρ c) fun w => (dat7 (V_entry7 m ρ) c).arrAt w cfg7.N
theorem W20_arr (c : Dev nD) (w : Fin cfg7.W) :
    W20 m ρ c (Proc.devRef .tc (Pipeline.arrRef spec7 w)) = (dat7 (V_entry7 m ρ) c).arrAt w cfg7.N :=
  Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) :=
  Pipeline.withArrays_of_ne spec7 c _ _ b hb
abbrev W_after7 : Dev nD → Valuation τ sig (Elt F) := W20 m ρ
abbrev V_after7 : (c : Dev nD) → (b : Ref sig .tc) → Buf (Elt F) ((c : Thread nD τ).loc b) := fun c b => W20 m ρ c b
theorem hF7 (c : Dev nD) (w : Fin cfg7.W) : (dat7 (V_entry7 m ρ) c).arrAt w cfg7.N = V_after7 m ρ c (Pipeline.arrRef spec7 w) :=
  (W20_arr m ρ c w).symm
theorem hrest7 (c : Dev nD) : ∀ b, b ∉ Finset.univ.image (Pipeline.arrRef spec7) → V_after7 m ρ c b = V_entry7 m ρ c b :=
  fun b hb => W20_of_ne m ρ c b (not_img hb)

abbrev W21 : Dev nD → Valuation τ sig (Elt F) := fun c => StableHlo.after hostOps8 (W20 m ρ c)
abbrev W22 : Dev nD → Valuation τ sig (Elt F) := fun c => StableHlo.after hostOps8_1 (W21 m ρ c)
abbrev W23 : Dev nD → Valuation τ sig (Elt F) := fun c => StableHlo.after hostOps8_2 (W22 m ρ c)

abbrev W_entry8 : Dev nD → Valuation τ sig (Elt F) := W23 m ρ
abbrev V_entry8 : (c : Dev nD) → (b : Ref sig .tc) → Buf (Elt F) ((c : Thread nD τ).loc b) := fun c b => W23 m ρ c b
def W24 (c : Dev nD) : Valuation τ sig (Elt F) :=
  Pipeline.withArrays spec8 c (W23 m ρ c) fun w => (dat8 (V_entry8 m ρ) c).arrAt w cfg8.N
theorem W24_arr (c : Dev nD) (w : Fin cfg8.W) :
    W24 m ρ c (Proc.devRef .tc (Pipeline.arrRef spec8 w)) = (dat8 (V_entry8 m ρ) c).arrAt w cfg8.N :=
  Pipeline.withArrays_arr spec8 launch8.win.arr_inj c _ _ w
theorem W24_of_ne (c : Dev nD) (b : Ref sig .tc) (hb : ∀ w, Pipeline.arrRef spec8 w ≠ b) :
    W24 m ρ c (Proc.devRef .tc b) = W23 m ρ c (Proc.devRef .tc b) :=
  Pipeline.withArrays_of_ne spec8 c _ _ b hb
abbrev W_after8 : Dev nD → Valuation τ sig (Elt F) := W24 m ρ
abbrev V_after8 : (c : Dev nD) → (b : Ref sig .tc) → Buf (Elt F) ((c : Thread nD τ).loc b) := fun c b => W24 m ρ c b
theorem hF8 (c : Dev nD) (w : Fin cfg8.W) : (dat8 (V_entry8 m ρ) c).arrAt w cfg8.N = V_after8 m ρ c (Pipeline.arrRef spec8 w) :=
  (W24_arr m ρ c w).symm
theorem hrest8 (c : Dev nD) : ∀ b, b ∉ Finset.univ.image (Pipeline.arrRef spec8) → V_after8 m ρ c b = V_entry8 m ρ c b :=
  fun b hb => W24_of_ne m ρ c b (not_img hb)

abbrev W_entry9 : Dev nD → Valuation τ sig (Elt F) := W24 m ρ
abbrev V_entry9 : (c : Dev nD) → (b : Ref sig .tc) → Buf (Elt F) ((c : Thread nD τ).loc b) := fun c b => W24 m ρ c b
def W25 (c : Dev nD) : Valuation τ sig (Elt F) :=
  Pipeline.withArrays spec9 c (W24 m ρ c) fun w => (dat9 (V_entry9 m ρ) c).arrAt w cfg9.N
theorem W25_arr (c : Dev nD) (w : Fin cfg9.W) :
    W25 m ρ c (Proc.devRef .tc (Pipeline.arrRef spec9 w)) = (dat9 (V_entry9 m ρ) c).arrAt w cfg9.N :=
  Pipeline.withArrays_arr spec9 launch9.win.arr_inj c _ _ w
theorem W25_of_ne (c : Dev nD) (b : Ref sig .tc) (hb : ∀ w, Pipeline.arrRef spec9 w ≠ b) :
    W25 m ρ c (Proc.devRef .tc b) = W24 m ρ c (Proc.devRef .tc b) :=
  Pipeline.withArrays_of_ne spec9 c _ _ b hb
abbrev W_after9 : Dev nD → Valuation τ sig (Elt F) := W25 m ρ
abbrev V_after9 : (c : Dev nD) → (b : Ref sig .tc) → Buf (Elt F) ((c : Thread nD τ).loc b) := fun c b => W25 m ρ c b
theorem hF9 (c : Dev nD) (w : Fin cfg9.W) : (dat9 (V_entry9 m ρ) c).arrAt w cfg9.N = V_after9 m ρ c (Pipeline.arrRef spec9 w) :=
  (W25_arr m ρ c w).symm
theorem hrest9 (c : Dev nD) : ∀ b, b ∉ Finset.univ.image (Pipeline.arrRef spec9) → V_after9 m ρ c b = V_entry9 m ρ c b :=
  fun b hb => W25_of_ne m ρ c b (not_img hb)

abbrev W26 : Dev nD → Valuation τ sig (Elt F) := fun c => StableHlo.after hostOps10 (W25 m ρ c)
abbrev W27 : Dev nD → Valuation τ sig (Elt F) := fun c => StableHlo.after hostOps10_1 (W26 m ρ c)
abbrev W28 : Dev nD → Valuation τ sig (Elt F) := fun c => StableHlo.after hostOps10_2 (W27 m ρ c)

abbrev W_entry10 : Dev nD → Valuation τ sig (Elt F) := W28 m ρ
abbrev V_entry10 : (c : Dev nD) → (b : Ref sig .tc) → Buf (Elt F) ((c : Thread nD τ).loc b) := fun c b => W28 m ρ c b
def W29 (c : Dev nD) : Valuation τ sig (Elt F) :=
  Pipeline.withArrays spec10 c (W28 m ρ c) fun w => (dat10 (V_entry10 m ρ) c).arrAt w cfg10.N
theorem W29_arr (c : Dev nD) (w : Fin cfg10.W) :
    W29 m ρ c (Proc.devRef .tc (Pipeline.arrRef spec10 w)) = (dat10 (V_entry10 m ρ) c).arrAt w cfg10.N :=
  Pipeline.withArrays_arr spec10 launch10.win.arr_inj c _ _ w
theorem W29_of_ne (c : Dev nD) (b : Ref sig .tc) (hb : ∀ w, Pipeline.arrRef spec10 w ≠ b) :
    W29 m ρ c (Proc.devRef .tc b) = W28 m ρ c (Proc.devRef .tc b) :=
  Pipeline.withArrays_of_ne spec10 c _ _ b hb
abbrev W_after10 : Dev nD → Valuation τ sig (Elt F) := W29 m ρ
abbrev V_after10 : (c : Dev nD) → (b : Ref sig .tc) → Buf (Elt F) ((c : Thread nD τ).loc b) := fun c b => W29 m ρ c b
theorem hF10 (c : Dev nD) (w : Fin cfg10.W) : (dat10 (V_entry10 m ρ) c).arrAt w cfg10.N = V_after10 m ρ c (Pipeline.arrRef spec10 w) :=
  (W29_arr m ρ c w).symm
theorem hrest10 (c : Dev nD) : ∀ b, b ∉ Finset.univ.image (Pipeline.arrRef spec10) → V_after10 m ρ c b = V_entry10 m ρ c b :=
  fun b hb => W29_of_ne m ρ c b (not_img hb)

abbrev W_entry11 : Dev nD → Valuation τ sig (Elt F) := W29 m ρ
abbrev V_entry11 : (c : Dev nD) → (b : Ref sig .tc) → Buf (Elt F) ((c : Thread nD τ).loc b) := fun c b => W29 m ρ c b
def W30 (c : Dev nD) : Valuation τ sig (Elt F) :=
  Pipeline.withArrays spec11 c (W29 m ρ c) fun w => (dat11 (V_entry11 m ρ) c).arrAt w cfg11.N
theorem W30_arr (c : Dev nD) (w : Fin cfg11.W) :
    W30 m ρ c (Proc.devRef .tc (Pipeline.arrRef spec11 w)) = (dat11 (V_entry11 m ρ) c).arrAt w cfg11.N :=
  Pipeline.withArrays_arr spec11 launch11.win.arr_inj c _ _ w
theorem W30_of_ne (c : Dev nD) (b : Ref sig .tc) (hb : ∀ w, Pipeline.arrRef spec11 w ≠ b) :
    W30 m ρ c (Proc.devRef .tc b) = W29 m ρ c (Proc.devRef .tc b) :=
  Pipeline.withArrays_of_ne spec11 c _ _ b hb
abbrev W_after11 : Dev nD → Valuation τ sig (Elt F) := W30 m ρ
abbrev V_after11 : (c : Dev nD) → (b : Ref sig .tc) → Buf (Elt F) ((c : Thread nD τ).loc b) := fun c b => W30 m ρ c b
theorem hF11 (c : Dev nD) (w : Fin cfg11.W) : (dat11 (V_entry11 m ρ) c).arrAt w cfg11.N = V_after11 m ρ c (Pipeline.arrRef spec11 w) :=
  (W30_arr m ρ c w).symm
theorem hrest11 (c : Dev nD) : ∀ b, b ∉ Finset.univ.image (Pipeline.arrRef spec11) → V_after11 m ρ c b = V_entry11 m ρ c b :=
  fun b hb => W30_of_ne m ρ c b (not_img hb)

abbrev W31 : Dev nD → Valuation τ sig (Elt F) := fun c => StableHlo.after hostOps12 (W30 m ρ c)
abbrev W32 : Dev nD → Valuation τ sig (Elt F) := fun c => StableHlo.after hostOps12_1 (W31 m ρ c)
abbrev W33 : Dev nD → Valuation τ sig (Elt F) := fun c => StableHlo.after hostOps12_2 (W32 m ρ c)
abbrev Wlast : Dev nD → Valuation τ sig (Elt F) := W33 m ρ

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17]

abbrev NW (ops : List (HloOp τ sig (Elt F))) : Prop :=
  ops.Forall fun op => ∃ y, op.writes = {Proc.devRef .tc y} ∧ y ∉ mainArgs
-- a buffer that no operation of the list writes is left as it was
theorem host_arg {ops : List (HloOp τ sig (Elt F))} (h : NW ops) {r : Ref sig .tc} (hr : r ∈ mainArgs)
    {V : Valuation τ sig (Elt F)} {x} (hV : V (Proc.devRef .tc r) = x) :
    StableHlo.after ops V (Proc.devRef .tc r) = x :=
  (StableHlo.after_of_forall_not_mem _ _ fun op hop hb => by
    obtain ⟨y, hw, hy⟩ := List.forall_iff_forall_mem.mp h op hop
    rw [hw, Finset.mem_singleton] at hb
    exact hy (Proc.devRef_injective _ hb ▸ hr)).trans hV
theorem reg_arg {n : ℕ} {a : Fin n → Ref sig .tc} (ha : ∀ w, a w ∉ mainArgs) {r : Ref sig .tc} (hr : r ∈ mainArgs) :
    ∀ w, a w ≠ r := fun w e => ha w (e ▸ hr)

theorem nw0 : NW (F := F) hostOps0 := by simp only [NW, List.Forall]; (repeat' constructor); all_goals decide
theorem nw0_1 : NW (F := F) hostOps0_1 := by simp only [NW, List.Forall]; (repeat' constructor); all_goals decide
theorem nw0_2 : NW (F := F) hostOps0_2 := by simp only [NW, List.Forall]; (repeat' constructor); all_goals decide
theorem nw2 : NW (F := F) hostOps2 := by simp only [NW, List.Forall]; (repeat' constructor); all_goals decide
theorem nw2_1 : NW (F := F) hostOps2_1 := by simp only [NW, List.Forall]; (repeat' constructor); all_goals decide
theorem nw2_2 : NW (F := F) hostOps2_2 := by simp only [NW, List.Forall]; (repeat' constructor); all_goals decide
theorem nw4 : NW (F := F) hostOps4 := by simp only [NW, List.Forall]; (repeat' constructor); all_goals decide
theorem nw4_1 : NW (F := F) hostOps4_1 := by simp only [NW, List.Forall]; (repeat' constructor); all_goals decide
theorem nw4_2 : NW (F := F) hostOps4_2 := by simp only [NW, List.Forall]; (repeat' constructor); all_goals decide
theorem nw6 : NW (F := F) hostOps6 := by simp only [NW, List.Forall]; (repeat' constructor); all_goals decide
theorem nw6_1 : NW (F := F) hostOps6_1 := by simp only [NW, List.Forall]; (repeat' constructor); all_goals decide
theorem nw6_2 : NW (F := F) hostOps6_2 := by simp only [NW, List.Forall]; (repeat' constructor); all_goals decide
theorem nw8 : NW (F := F) hostOps8 := by simp only [NW, List.Forall]; (repeat' constructor); all_goals decide
theorem nw8_1 : NW (F := F) hostOps8_1 := by simp only [NW, List.Forall]; (repeat' constructor); all_goals decide
theorem nw8_2 : NW (F := F) hostOps8_2 := by simp only [NW, List.Forall]; (repeat' constructor); all_goals decide
theorem nw10 : NW (F := F) hostOps10 := by simp only [NW, List.Forall]; (repeat' constructor); all_goals decide
theorem nw10_1 : NW (F := F) hostOps10_1 := by simp only [NW, List.Forall]; (repeat' constructor); all_goals decide
theorem nw10_2 : NW (F := F) hostOps10_2 := by simp only [NW, List.Forall]; (repeat' constructor); all_goals decide
theorem nw12 : NW (F := F) hostOps12 := by simp only [NW, List.Forall]; (repeat' constructor); all_goals decide
theorem nw12_1 : NW (F := F) hostOps12_1 := by simp only [NW, List.Forall]; (repeat' constructor); all_goals decide
theorem nw12_2 : NW (F := F) hostOps12_2 := by simp only [NW, List.Forall]; (repeat' constructor); all_goals decide

theorem W5_arg (c : Dev nD) (r : Ref sig .tc) (hr : r ∈ mainArgs) : W5 m ρ c (Proc.devRef .tc r) = m ((c : Thread nD τ).loc r) :=
  (W5_of_ne m ρ c r (reg_arg (by decide) hr)).trans <| (W4_of_ne m ρ c r (reg_arg (by decide) hr)).trans <|
    host_arg nw0_2 hr <| host_arg nw0_1 hr <| host_arg nw0 hr rfl
theorem W10_arg (c : Dev nD) (r : Ref sig .tc) (hr : r ∈ mainArgs) : W10 m ρ c (Proc.devRef .tc r) = m ((c : Thread nD τ).loc r) :=
  (W10_of_ne m ρ c r (reg_arg (by decide) hr)).trans <| (W9_of_ne m ρ c r (reg_arg (by decide) hr)).trans <|
    host_arg nw2_2 hr <| host_arg nw2_1 hr <| host_arg nw2 hr (W5_arg m ρ c r hr)
theorem W15_arg (c : Dev nD) (r : Ref sig .tc) (hr : r ∈ mainArgs) : W15 m ρ c (Proc.devRef .tc r) = m ((c : Thread nD τ).loc r) :=
  (W15_of_ne m ρ c r (reg_arg (by decide) hr)).trans <| (W14_of_ne m ρ c r (reg_arg (by decide) hr)).trans <|
    host_arg nw4_2 hr <| host_arg nw4_1 hr <| host_arg nw4 hr (W10_arg m ρ c r hr)
theorem W20_arg (c : Dev nD) (r : Ref sig .tc) (hr : r ∈ mainArgs) : W20 m ρ c (Proc.devRef .tc r) = m ((c : Thread nD τ).loc r) :=
  (W20_of_ne m ρ c r (reg_arg (by decide) hr)).trans <| (W19_of_ne m ρ c r (reg_arg (by decide) hr)).trans <|
    host_arg nw6_2 hr <| host_arg nw6_1 hr <| host_arg nw6 hr (W15_arg m ρ c r hr)
theorem W25_arg (c : Dev nD) (r : Ref sig .tc) (hr : r ∈ mainArgs) : W25 m ρ c (Proc.devRef .tc r) = m ((c : Thread nD τ).loc r) :=
  (W25_of_ne m ρ c r (reg_arg (by decide) hr)).trans <| (W24_of_ne m ρ c r (reg_arg (by decide) hr)).trans <|
    host_arg nw8_2 hr <| host_arg nw8_1 hr <| host_arg nw8 hr (W20_arg m ρ c r hr)
theorem W30_arg (c : Dev nD) (r : Ref sig .tc) (hr : r ∈ mainArgs) : W30 m ρ c (Proc.devRef .tc r) = m ((c : Thread nD τ).loc r) :=
  (W30_of_ne m ρ c r (reg_arg (by decide) hr)).trans <| (W29_of_ne m ρ c r (reg_arg (by decide) hr)).trans <|
    host_arg nw10_2 hr <| host_arg nw10_1 hr <| host_arg nw10 hr (W25_arg m ρ c r hr)
theorem W33_arg (c : Dev nD) (r : Ref sig .tc) (hr : r ∈ mainArgs) : W33 m ρ c (Proc.devRef .tc r) = m ((c : Thread nD τ).loc r) :=
  host_arg nw12_2 hr <| host_arg nw12_1 hr <| host_arg nw12 hr (W30_arg m ρ c r hr)

theorem Wlast_main_arg0 (c : Dev nD) : Wlast m ρ c (Proc.devRef .tc main_arg0) = m ((c : Thread nD τ).loc main_arg0) :=
  W33_arg m ρ c main_arg0 (by decide)
theorem Wlast_main_arg1 (c : Dev nD) : Wlast m ρ c (Proc.devRef .tc main_arg1) = m ((c : Thread nD τ).loc main_arg1) :=
  W33_arg m ρ c main_arg1 (by decide)
theorem Wlast_main_arg2 (c : Dev nD) : Wlast m ρ c (Proc.devRef .tc main_arg2) = m ((c : Thread nD τ).loc main_arg2) :=
  W33_arg m ρ c main_arg2 (by decide)
theorem Wlast_main_arg3 (c : Dev nD) : Wlast m ρ c (Proc.devRef .tc main_arg3) = m ((c : Thread nD τ).loc main_arg3) :=
  W33_arg m ρ c main_arg3 (by decide)
theorem Wlast_main_arg4 (c : Dev nD) : Wlast m ρ c (Proc.devRef .tc main_arg4) = m ((c : Thread nD τ).loc main_arg4) :=
  W33_arg m ρ c main_arg4 (by decide)
theorem Wlast_main_arg5 (c : Dev nD) : Wlast m ρ c (Proc.devRef .tc main_arg5) = m ((c : Thread nD τ).loc main_arg5) :=
  W33_arg m ρ c main_arg5 (by decide)
theorem Wlast_main_arg6 (c : Dev nD) : Wlast m ρ c (Proc.devRef .tc main_arg6) = m ((c : Thread nD τ).loc main_arg6) :=
  W33_arg m ρ c main_arg6 (by decide)
theorem Wlast_main_arg7 (c : Dev nD) : Wlast m ρ c (Proc.devRef .tc main_arg7) = m ((c : Thread nD τ).loc main_arg7) :=
  W33_arg m ρ c main_arg7 (by decide)
theorem Wlast_main_arg8 (c : Dev nD) : Wlast m ρ c (Proc.devRef .tc main_arg8) = m ((c : Thread nD τ).loc main_arg8) :=
  W33_arg m ρ c main_arg8 (by decide)
theorem Wlast_main_arg9 (c : Dev nD) : Wlast m ρ c (Proc.devRef .tc main_arg9) = m ((c : Thread nD τ).loc main_arg9) :=
  W33_arg m ρ c main_arg9 (by decide)
theorem Wlast_main_arg10 (c : Dev nD) : Wlast m ρ c (Proc.devRef .tc main_arg10) = m ((c : Thread nD τ).loc main_arg10) :=
  W33_arg m ρ c main_arg10 (by decide)
theorem Wlast_main_arg11 (c : Dev nD) : Wlast m ρ c (Proc.devRef .tc main_arg11) = m ((c : Thread nD τ).loc main_arg11) :=
  W33_arg m ρ c main_arg11 (by decide)
theorem Wlast_main_arg12 (c : Dev nD) : Wlast m ρ c (Proc.devRef .tc main_arg12) = m ((c : Thread nD τ).loc main_arg12) :=
  W33_arg m ρ c main_arg12 (by decide)
theorem Wlast_main_arg13 (c : Dev nD) : Wlast m ρ c (Proc.devRef .tc main_arg13) = m ((c : Thread nD τ).loc main_arg13) :=
  W33_arg m ρ c main_arg13 (by decide)
theorem Wlast_main_arg14 (c : Dev nD) : Wlast m ρ c (Proc.devRef .tc main_arg14) = m ((c : Thread nD τ).loc main_arg14) :=
  W33_arg m ρ c main_arg14 (by decide)
theorem Wlast_main_arg15 (c : Dev nD) : Wlast m ρ c (Proc.devRef .tc main_arg15) = m ((c : Thread nD τ).loc main_arg15) :=
  W33_arg m ρ c main_arg15 (by decide)
theorem Wlast_main_arg16 (c : Dev nD) : Wlast m ρ c (Proc.devRef .tc main_arg16) = m ((c : Thread nD τ).loc main_arg16) :=
  W33_arg m ρ c main_arg16 (by decide)
theorem Wlast_main_arg17 (c : Dev nD) : Wlast m ρ c (Proc.devRef .tc main_arg17) = m ((c : Thread nD τ).loc main_arg17) :=
  W33_arg m ρ c main_arg17 (by decide)

abbrev adm : (p : Fin 12) → (pcfgs (F := F) p).Adm := fun p => (cfgs p).toPCfg_adm
def pdats : (p : Fin 12) → (c : Dev nD) → Dat τ (Elt F) Unit ℕ (UR sig nD τ) ℕ (Pipeline.pin (pcfgs (F := F)) adm p) c
  | ⟨0, _⟩ => fun c => dat0 (V_entry0 m ρ) c
  | ⟨1, _⟩ => fun c => dat1 (V_entry1 m ρ) c
  | ⟨2, _⟩ => fun c => dat2 (V_entry2 m ρ) c
  | ⟨3, _⟩ => fun c => dat3 (V_entry3 m ρ) c
  | ⟨4, _⟩ => fun c => dat4 (V_entry4 m ρ) c
  | ⟨5, _⟩ => fun c => dat5 (V_entry5 m ρ) c
  | ⟨6, _⟩ => fun c => dat6 (V_entry6 m ρ) c
  | ⟨7, _⟩ => fun c => dat7 (V_entry7 m ρ) c
  | ⟨8, _⟩ => fun c => dat8 (V_entry8 m ρ) c
  | ⟨9, _⟩ => fun c => dat9 (V_entry9 m ρ) c
  | ⟨10, _⟩ => fun c => dat10 (V_entry10 m ρ) c
  | ⟨11, _⟩ => fun c => dat11 (V_entry11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps6_1_fresh : (hostOps6_1 : List (HloOp τ sig (Elt F))).Forall fun op => op.fresh = ∅ := by
  simp only [List.Forall]; repeat' constructor
theorem hostOps6_2_fresh : (hostOps6_2 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps8_1_fresh : (hostOps8_1 : List (HloOp τ sig (Elt F))).Forall fun op => op.fresh = ∅ := by
  simp only [List.Forall]; repeat' constructor
theorem hostOps8_2_fresh : (hostOps8_2 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps10_1_fresh : (hostOps10_1 : List (HloOp τ sig (Elt F))).Forall fun op => op.fresh = ∅ := by
  simp only [List.Forall]; repeat' constructor
theorem hostOps10_2_fresh : (hostOps10_2 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps12_1_fresh : (hostOps12_1 : List (HloOp τ sig (Elt F))).Forall fun op => op.fresh = ∅ := by
  simp only [List.Forall]; repeat' constructor
theorem hostOps12_2_fresh : (hostOps12_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wlast m ρ c) ∗ ∃ r, prngReg c r)

end Cert.KernelIdeal.Hand

end
-- ==== Proof.KI.RegLib.lean ====
import proofs.«177890_j48524540510773_1_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Contents owned at a given value are owned at some value.
theorem owns_some {P Q : sProp 𝕄} (c : Dev nD) (s : Ref sig .tc) {X : BufTy.Contents (Elt F) s.ty}
    (h : P = iprop(owns (c : Thread nD τ) (Memref.whole s) fullShare X ∗ Q)) :
    P ⊢ iprop((∃ d, owns (c : Thread nD τ) (Memref.whole s) fullShare d) ∗ Q) := by
  rw [h]
  iintro ⟨H, Hr⟩
  isplitl [H]; · iexists _; iexact H
  iexact Hr

-- The windows' arrays are among the held buffers: entry splits them off, exit rejoins them at the updated valuation.
def regOf (p : Fin 12) (lf : Pipeline.LaunchFacts (nD := nD) (τ := τ) cfgs p) (We Wa : Dev nD → Valuation τ sig (Elt F))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c, (pdats m ρ p c).recorded 0 = Set.univ)
    (hA : ∀ c w, (pdats m ρ p c).A w = We c (Pipeline.arrRef (cfgs p).spec w))
    (hF : ∀ c w, (pdats m ρ p c).arrAt w (cfgs p).N = Wa c (Pipeline.arrRef (cfgs p).spec w))
    (hrest : ∀ c (b : Ref sig .tc), b ∉ Finset.univ.image (Pipeline.arrRef (cfgs p).spec) → Wa c b = We c b)
    (s : Ref sig .tc)
    (hsc : ∀ c : Dev nD, (Pipeline.scopedRest (cfgs p).spec c : sProp 𝕄)
      = iprop((∃ f : Buf (Elt F) ((c : Thread nD τ).loc s), ((c : Thread nD τ).loc s) ↦{fullShare} f) ∗ Pipeline.scopedRestBut (cfgs p).spec c [s]))
    (hin : ∀ c : Dev nD, (pdats m ρ p c).Φ 0
      = iprop((∃ f : Buf (Elt F) ((c : Thread nD τ).loc s), ((c : Thread nD τ).loc s) ↦{fullShare} f) ∗ Pipeline.scopedRestBut (cfgs p).spec c [s]))
    (hout : ∀ c : Dev nD, (pdats m ρ p c).Φ (Fin.last (cfgs p).N) ⊢ iprop((∃ d, owns (c : Thread nD τ) (Memref.whole s) fullShare d) ∗ Pipeline.scopedRestBut (cfgs p).spec c [s])) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (We c) ∗ R c)
  post c := iprop(StableHlo.held (c : Thread nD τ) (Pipeline.ucRefs τ sig) (Wa c) ∗ R c)
  X _ := BI.emp
  Y _ := BI.emp
  Z c := iprop(Pipeline.unscopedRest (cfgs p).spec c (fun b => We c b) ∗ ∃ r, prngReg c r)
  hentry c := by
    have hsplit := Pipeline.arrays_of_unscopedBufs (p := p) (pcfgs (F := F)) adm (pdats m ρ) lf.win lf.arr_whole c
      ((pdats m ρ p c).share_full (hq c)) (fun b => We c b) (hA c)
    rw [Pipeline.unscopedBufs_held] at hsplit
    rw [Pipeline.ownSems0_none]
    unfold Pipeline.Dat.owesAt Pipeline.owesWithin Pipeline.prefHeld
    rw [howed c 0, show (Finset.univ : Finset (Fin 0)) = ∅ from rfl, BI.bigSep_empty]
    iintro ⟨⟨Hub, Hp, HO⟩, -, -⟩
    ihave H := hsplit $$ Hub
    icases H with ⟨Ha, Hrest⟩
    imodintro
    isplitl [Ha]; · iexact Ha
    isplitr; · iempintro
    isplitl [HO]
    · icases HO with ⟨%W, HO⟩; iexists W; isplitr; · ipureintro; exact fun _ _ => Or.inl ((hrec c).symm ▸ trivial)
      iexact HO
    isplitr; · iempintro
    isplitl [Hrest]; · iexact Hrest
    iexact Hp
  hin c := by
    iintro ⟨-, -, Hr⟩
    iapply (Entails.of_eq ((hsc c).trans (hin c).symm))
    iexact Hr
  hout c := by
    rw [Pipeline.ownSems0_none]
    iintro H
    isplitr; · iempintro
    isplitr; · iempintro
    iapply (Entails.of_eq (hsc c).symm)
    ihave H := (hout c) $$ H
    icases H with ⟨⟨%d, H⟩, Hr⟩
    isplitl [H]
    · iexists d; iapply (Entails.of_eq (owns_whole (c : Thread nD τ) s fullShare d)); iexact H
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => We c b) (fun b => Wa c b) ((pdats m ρ p c).arrAt · (cfgs p).N) (hF c) (hrest c)
    rw [Pipeline.unscopedBufs_held] at hjoin
    unfold Pipeline.Dat.owesAt Pipeline.owesWithin
    rw [howed c]
    iintro ⟨Ha, HO, -, Hrest, Hp⟩
    imodintro
    isplitl [Ha Hrest]
    · iapply hjoin; isplitl [Ha] <;> iassumption
    isplitl [Hp]; · iexact Hp
    icases HO with ⟨%W, -, HO⟩; iexists W; iexact HO

end Cert.KernelIdeal.Hand

end
-- ==== Proof.KI.R0Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  regOf m ρ 0 launch0 (W_entry0 m ρ) (W_after0 m ρ) (body_obligation0 (V_entry0 m ρ)) (fun _ _ => rfl) (fun _ _ => rfl)
    (fun _ => rfl) (fun _ _ => rfl) (hF0 m ρ) (hrest0 m ρ) cc0_scratch0 scopedRest0_split (Phi0_first (V_entry0 m ρ))
    fun c => owns_some c _ (Phi0_last (V_entry0 m ρ) c)

end Cert.KernelIdeal.Hand

end
-- ==== Proof.KI.R1Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

abbrev pipe1 : Fin 12 := cfg1.body

def reg1 : Pipeline.RegionSeg (pcfgs (F := F)) adm (pdats m ρ) () defs₀ 𝒱₀ L lv pipe1 :=
  regOf m ρ pipe1 launch1 (W_entry1 m ρ) (W_after1 m ρ) (body_obligation1 (V_entry1 m ρ)) (fun _ _ => rfl) (fun _ _ => rfl)
    (fun _ => rfl) (fun _ _ => rfl) (hF1 m ρ) (hrest1 m ρ) cc1_scratch0 scopedRest1_split (Phi1_zero (V_entry1 m ρ))
    fun c => .trans (.of_eq (Phi1_last (V_entry1 m ρ) c)) (Phi1_any (V_entry1 m ρ) c cfg1.N)

end Cert.KernelIdeal.Hand

end
-- ==== Proof.KI.R2Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

def reg2 : Pipeline.RegionSeg (pcfgs (F := F)) adm (pdats m ρ) () defs₀ 𝒱₀ L lv 2 :=
  regOf m ρ 2 launch2 (W_entry2 m ρ) (W_after2 m ρ) (body_obligation2 (V_entry2 m ρ)) (fun _ _ => rfl) (fun _ _ => rfl)
    (fun _ => rfl) (fun _ _ => rfl) (hF2 m ρ) (hrest2 m ρ) cc2_scratch0 scopedRest2_split (Phi2_first (V_entry2 m ρ))
    fun c => owns_some c _ (Phi2_last (V_entry2 m ρ) c)

end Cert.KernelIdeal.Hand

end
-- ==== Proof.KI.R3Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

abbrev pipe3 : Fin 12 := cfg3.body

def reg3 : Pipeline.RegionSeg (pcfgs (F := F)) adm (pdats m ρ) () defs₀ 𝒱₀ L lv pipe3 :=
  regOf m ρ pipe3 launch3 (W_entry3 m ρ) (W_after3 m ρ) (body_obligation3 (V_entry3 m ρ)) (fun _ _ => rfl) (fun _ _ => rfl)
    (fun _ => rfl) (fun _ _ => rfl) (hF3 m ρ) (hrest3 m ρ) cc3_scratch0 scopedRest3_split (Phi3_zero (V_entry3 m ρ))
    fun c => .trans (.of_eq (Phi3_last (V_entry3 m ρ) c)) (Phi3_any (V_entry3 m ρ) c cfg3.N)

end Cert.KernelIdeal.Hand

end
-- ==== Proof.KI.R4Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

abbrev pipe4 : Fin 12 := cfg4.body

def reg4 : Pipeline.RegionSeg (pcfgs (F := F)) adm (pdats m ρ) () defs₀ 𝒱₀ L lv pipe4 :=
  regOf m ρ pipe4 launch4 (W_entry4 m ρ) (W_after4 m ρ) (body_obligation4 (V_entry4 m ρ)) (fun _ _ => rfl) (fun _ _ => rfl)
    (fun _ => rfl) (fun _ _ => rfl) (hF4 m ρ) (hrest4 m ρ) cc4_scratch0 scopedRest4_split (Phi4_zero (V_entry4 m ρ))
    fun c => .trans (.of_eq (Phi4_last (V_entry4 m ρ) c)) (Phi4_any (V_entry4 m ρ) c cfg4.N)

end Cert.KernelIdeal.Hand

end
-- ==== Proof.KI.R5Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

def reg5 : Pipeline.RegionSeg (pcfgs (F := F)) adm (pdats m ρ) () defs₀ 𝒱₀ L lv 5 :=
  regOf m ρ 5 launch5 (W_entry5 m ρ) (W_after5 m ρ) (body_obligation5 (V_entry5 m ρ)) (fun _ _ => rfl) (fun _ _ => rfl)
    (fun _ => rfl) (fun _ _ => rfl) (hF5 m ρ) (hrest5 m ρ) cc5_scratch0 scopedRest5_split (Phi5_first (V_entry5 m ρ))
    fun c => owns_some c _ (Phi5_last (V_entry5 m ρ) c)

end Cert.KernelIdeal.Hand

end
-- ==== Proof.KI.R6Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

abbrev pipe6 : Fin 12 := cfg6.body

def reg6 : Pipeline.RegionSeg (pcfgs (F := F)) adm (pdats m ρ) () defs₀ 𝒱₀ L lv pipe6 :=
  regOf m ρ pipe6 launch6 (W_entry6 m ρ) (W_after6 m ρ) (body_obligation6 (V_entry6 m ρ)) (fun _ _ => rfl) (fun _ _ => rfl)
    (fun _ => rfl) (fun _ _ => rfl) (hF6 m ρ) (hrest6 m ρ) cc6_scratch0 scopedRest6_split (Phi6_zero (V_entry6 m ρ))
    fun c => .trans (.of_eq (Phi6_last (V_entry6 m ρ) c)) (Phi6_any (V_entry6 m ρ) c cfg6.N)

end Cert.KernelIdeal.Hand

end
-- ==== Proof.KI.R7Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

def reg7 : Pipeline.RegionSeg (pcfgs (F := F)) adm (pdats m ρ) () defs₀ 𝒱₀ L lv 7 :=
  regOf m ρ 7 launch7 (W_entry7 m ρ) (W_after7 m ρ) (body_obligation7 (V_entry7 m ρ)) (fun _ _ => rfl) (fun _ _ => rfl)
    (fun _ => rfl) (fun _ _ => rfl) (hF7 m ρ) (hrest7 m ρ) cc7_scratch0 scopedRest7_split (Phi7_first (V_entry7 m ρ))
    fun c => owns_some c _ (Phi7_last (V_entry7 m ρ) c)

end Cert.KernelIdeal.Hand

end
-- ==== Proof.KI.R8Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

abbrev pipe8 : Fin 12 := cfg8.body

def reg8 : Pipeline.RegionSeg (pcfgs (F := F)) adm (pdats m ρ) () defs₀ 𝒱₀ L lv pipe8 :=
  regOf m ρ pipe8 launch8 (W_entry8 m ρ) (W_after8 m ρ) (body_obligation8 (V_entry8 m ρ)) (fun _ _ => rfl) (fun _ _ => rfl)
    (fun _ => rfl) (fun _ _ => rfl) (hF8 m ρ) (hrest8 m ρ) cc8_scratch0 scopedRest8_split (Phi8_zero (V_entry8 m ρ))
    fun c => .trans (.of_eq (Phi8_last (V_entry8 m ρ) c)) (Phi8_any (V_entry8 m ρ) c cfg8.N)

end Cert.KernelIdeal.Hand

end
-- ==== Proof.KI.R9Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

def reg9 : Pipeline.RegionSeg (pcfgs (F := F)) adm (pdats m ρ) () defs₀ 𝒱₀ L lv 9 :=
  regOf m ρ 9 launch9 (W_entry9 m ρ) (W_after9 m ρ) (body_obligation9 (V_entry9 m ρ)) (fun _ _ => rfl) (fun _ _ => rfl)
    (fun _ => rfl) (fun _ _ => rfl) (hF9 m ρ) (hrest9 m ρ) cc9_scratch0 scopedRest9_split (Phi9_first (V_entry9 m ρ))
    fun c => owns_some c _ (Phi9_last (V_entry9 m ρ) c)

end Cert.KernelIdeal.Hand

end
-- ==== Proof.KI.R10Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

abbrev pipe10 : Fin 12 := cfg10.body

def reg10 : Pipeline.RegionSeg (pcfgs (F := F)) adm (pdats m ρ) () defs₀ 𝒱₀ L lv pipe10 :=
  regOf m ρ pipe10 launch10 (W_entry10 m ρ) (W_after10 m ρ) (body_obligation10 (V_entry10 m ρ)) (fun _ _ => rfl) (fun _ _ => rfl)
    (fun _ => rfl) (fun _ _ => rfl) (hF10 m ρ) (hrest10 m ρ) cc10_scratch0 scopedRest10_split (Phi10_zero (V_entry10 m ρ))
    fun c => .trans (.of_eq (Phi10_last (V_entry10 m ρ) c)) (Phi10_any (V_entry10 m ρ) c cfg10.N)

end Cert.KernelIdeal.Hand

end
-- ==== Proof.KI.R11Reg.lean ====
import proofs.«177890_j48524540510773_1_alg».proof.Proof.KI.RegLib

noncomputable section

namespace Cert.KernelIdeal.Hand

open Cert.KernelIdeal.Gen Idealize.ShloMosaic

variable {F : FTy → Type} [FloatOps F] (m : (ℓ : Loc nD τ sig) → Buf (Elt F) ℓ) (ρ : Dev nD → PrngReg)

def reg11 : Pipeline.RegionSeg (pcfgs (F := F)) adm (pdats m ρ) () defs₀ 𝒱₀ L lv 11 :=
  regOf m ρ 11 launch11 (W_entry11 m ρ) (W_after11 m ρ) (body_obligation11 (V_entry11 m ρ)) (fun _ _ => rfl) (fun _ _ => rfl)
    (fun _ => rfl) (fun _ _ => rfl) (hF11 m ρ) (hrest11 m ρ) cc11_scratch0 scopedRest11_split (Phi11_first (V_entry11 m ρ))
    fun c => owns_some c _ (Phi11_last (V_entry11 m ρ) c)

end Cert.KernelIdeal.Hand

end
-- ==== Proof.KI.Run.lean ====
import proofs.«177890_j48524540510773_1_alg».proof.Proof.KI.Fold
import proofs.«177890_j48524540510773_1_alg».proof.Proof.KI.R0Reg
import proofs.«177890_j48524540510773_1_alg».proof.Proof.KI.R1Reg
import proofs.«177890_j48524540510773_1_alg».proof.Proof.KI.R2Reg
import proofs.«177890_j48524540510773_1_alg».proof.Proof.KI.R3Reg
import proofs.«177890_j48524540510773_1_alg».proof.Proof.KI.R4Reg
import proofs.«177890_j48524540510773_1_alg».proof.Proof.KI.R5Reg
import proofs.«177890_j48524540510773_1_alg».proof.Proof.KI.R6Reg
import proofs.«177890_j48524540510773_1_alg».proof.Proof.KI.R7Reg
import proofs.«177890_j48524540510773_1_alg».proof.Proof.KI.R8Reg
import proofs.«177890_j48524540510773_1_alg».proof.Proof.KI.R9Reg
import proofs.«177890_j48524540510773_1_alg».proof.Proof.KI.R10Reg
import proofs.«177890_j48524540510773_1_alg».proof.Proof.KI.R11Reg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)),
    .region (reg2 m ρ),
    .region (reg3 m ρ),
    .host (hseg hostOps4 hostOps4_sub hostOps4_fresh (W10 m ρ)),
    .host (hseg hostOps4_1 hostOps4_1_sub hostOps4_1_fresh (W11 m ρ)),
    .host (hseg hostOps4_2 hostOps4_2_sub hostOps4_2_fresh (W12 m ρ)),
    .region (reg4 m ρ),
    .region (reg5 m ρ),
    .host (hseg hostOps6 hostOps6_sub hostOps6_fresh (W15 m ρ)),
    .host (hseg hostOps6_1 hostOps6_1_sub hostOps6_1_fresh (W16 m ρ)),
    .host (hseg hostOps6_2 hostOps6_2_sub hostOps6_2_fresh (W17 m ρ)),
    .region (reg6 m ρ),
    .region (reg7 m ρ),
    .host (hseg hostOps8 hostOps8_sub hostOps8_fresh (W20 m ρ)),
    .host (hseg hostOps8_1 hostOps8_1_sub hostOps8_1_fresh (W21 m ρ)),
    .host (hseg hostOps8_2 hostOps8_2_sub hostOps8_2_fresh (W22 m ρ)),
    .region (reg8 m ρ),
    .region (reg9 m ρ),
    .host (hseg hostOps10 hostOps10_sub hostOps10_fresh (W25 m ρ)),
    .host (hseg hostOps10_1 hostOps10_1_sub hostOps10_1_fresh (W26 m ρ)),
    .host (hseg hostOps10_2 hostOps10_2_sub hostOps10_2_fresh (W27 m ρ)),
    .region (reg10 m ρ),
    .region (reg11 m ρ),
    .host (hseg hostOps12 hostOps12_sub hostOps12_fresh (W30 m ρ)),
    .host (hseg hostOps12_1 hostOps12_1_sub hostOps12_1_fresh (W31 m ρ)),
    .host (hseg hostOps12_2 hostOps12_2_sub hostOps12_2_fresh (W32 m ρ)) ]

theorem main_run (c : Dev nD) : main (F := F) c = Pipeline.Seg.run (segs m ρ) := (main_chain c).trans (by chain_rfl)

theorem chain_end (c : Dev nD) :
    iprop(StableHlo.held (c : Thread nD τ) (Pipeline.ucRefs τ sig) (Wlast m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
set_option maxHeartbeats 4000000 in
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c : Thread nD τ).loc b) = Wlast m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun _ => .rfl, fun _ => .rfl,
      fun _ => .rfl, fun _ => .rfl, fun _ => .rfl, fun c => chain_end m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h c b hb => h c _ (mem_uc b hb))

end Cert.KernelIdeal.Hand

end
-- ==== Proof.KI.HostKeeps.lean ====
import proofs.«177890_j48524540510773_1_alg».proof.Proof.Gen.KernelIdeal.Launch
import Idealize.ShloMosaic.Lib.StableHlo.Run
import Idealize.ShloMosaic.Lib.ValueIdx

set_option maxRecDepth 16384

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem

variable {F : FTy → Type} [FloatOps F]

local macro "writes_in_list" : tactic =>
  `(tactic| (simp only [List.Forall]
             repeat' apply And.intro
             all_goals
               (simp only [StableHlo.nullary_writes, StableHlo.unary_writes, StableHlo.binary_writes, StableHlo.ternary_writes,
                  StableHlo.reshape_writes, Finset.singleton_subset_iff, List.mem_toFinset]
                exact List.mem_map_of_mem (by decide))))

-- three stretches in a row keep every reference none of them writes
theorem group_of {l0 l1 l2 : List (HloOp τ sig (Elt F))} {W0 W1 W2 : List (Ref sig .tc)}
    (h0 : l0.Forall fun op => op.writes ⊆ (W0.map (Proc.devRef (τ := τ) .tc)).toFinset)
    (h1 : l1.Forall fun op => op.writes ⊆ (W1.map (Proc.devRef (τ := τ) .tc)).toFinset)
    (h2 : l2.Forall fun op => op.writes ⊆ (W2.map (Proc.devRef (τ := τ) .tc)).toFinset)
    (V : Valuation τ sig (Elt F)) (r : Ref sig .tc) (h : r ∉ W0 ++ W1 ++ W2) :
    StableHlo.after l2 (StableHlo.after l1 (StableHlo.after l0 V)) (Proc.devRef .tc r) = V (Proc.devRef .tc r) := by
  simp only [List.mem_append, not_or] at h
  rw [StableHlo.after_of_writes_sub l2 _ h2 h.2, StableHlo.after_of_writes_sub l1 _ h1 h.1.2, StableHlo.after_of_writes_sub l0 _ h0 h.1.1]

abbrev hostOps2_W : List (Ref sig .tc) := [main_v105, main_v106, main_v107]
theorem hostOps2_writes : (hostOps2 : List (HloOp τ sig (Elt F))).Forall fun op =>
    op.writes ⊆ (hostOps2_W.map (Proc.devRef (τ := τ) .tc)).toFinset := by writes_in_list

abbrev hostOps2_1_W : List (Ref sig .tc) :=
  [main_call1_cst, main_call1_v0, main_call1_v1, main_call1_cst_0, main_call1_v2, main_call1_v3,
    main_call1_cst_1, main_call1_call0_v0, main_call1_call0_v1, main_call1_v4, main_call1_v5, main_call1_cst_2,
    main_call1_v6, main_call1_v7, main_v108]
theorem hostOps2_1_writes : (hostOps2_1 : List (HloOp τ sig (Elt F))).Forall fun op =>
    op.writes ⊆ (hostOps2_1_W.map (Proc.devRef (τ := τ) .tc)).toFinset := by writes_in_list

abbrev hostOps2_2_W : List (Ref sig .tc) := [main_v109]
theorem hostOps2_2_writes : (hostOps2_2 : List (HloOp τ sig (Elt F))).Forall fun op =>
    op.writes ⊆ (hostOps2_2_W.map (Proc.devRef (τ := τ) .tc)).toFinset := by writes_in_list

theorem group2_of (V : Valuation τ sig (Elt F)) (r : Ref sig .tc) (h : r ∉ hostOps2_W ++ hostOps2_1_W ++ hostOps2_2_W) :
    StableHlo.after hostOps2_2 (StableHlo.after hostOps2_1 (StableHlo.after hostOps2 V)) (Proc.devRef .tc r)
      = V (Proc.devRef .tc r) :=
  group_of hostOps2_writes hostOps2_1_writes hostOps2_2_writes V r h

abbrev hostOps4_W : List (Ref sig .tc) := [main_v112, main_v113, main_v114]
theorem hostOps4_writes : (hostOps4 : List (HloOp τ sig (Elt F))).Forall fun op =>
    op.writes ⊆ (hostOps4_W.map (Proc.devRef (τ := τ) .tc)).toFinset := by writes_in_list

abbrev hostOps4_1_W : List (Ref sig .tc) :=
  [main_call2_cst, main_call2_v0, main_call2_v1, main_call2_cst_0, main_call2_v2, main_call2_v3,
    main_call2_cst_1, main_call2_call0_v0, main_call2_call0_v1, main_call2_v4, main_call2_v5, main_call2_cst_2,
    main_call2_v6, main_call2_v7, main_v115]
theorem hostOps4_1_writes : (hostOps4_1 : List (HloOp τ sig (Elt F))).Forall fun op =>
    op.writes ⊆ (hostOps4_1_W.map (Proc.devRef (τ := τ) .tc)).toFinset := by writes_in_list

abbrev hostOps4_2_W : List (Ref sig .tc) :=
  [main_cst_27, main_v116, main_cst_28, main_v117, main_v118, main_v119, main_v120, main_v121, main_v122, main_cst_29,
    main_v123, main_v124, main_v125, main_v126, main_v127, main_v128, main_v129, main_v130, main_v131, main_v132,
    main_v133, main_v134, main_v135, main_v136, main_v137, main_v138, main_v139]
theorem hostOps4_2_writes : (hostOps4_2 : List (HloOp τ sig (Elt F))).Forall fun op =>
    op.writes ⊆ (hostOps4_2_W.map (Proc.devRef (τ := τ) .tc)).toFinset := by writes_in_list

theorem group4_of (V : Valuation τ sig (Elt F)) (r : Ref sig .tc) (h : r ∉ hostOps4_W ++ hostOps4_1_W ++ hostOps4_2_W) :
    StableHlo.after hostOps4_2 (StableHlo.after hostOps4_1 (StableHlo.after hostOps4 V)) (Proc.devRef .tc r)
      = V (Proc.devRef .tc r) :=
  group_of hostOps4_writes hostOps4_1_writes hostOps4_2_writes V r h

abbrev hostOps6_W : List (Ref sig .tc) := [main_v142, main_v143, main_v144]
theorem hostOps6_writes : (hostOps6 : List (HloOp τ sig (Elt F))).Forall fun op =>
    op.writes ⊆ (hostOps6_W.map (Proc.devRef (τ := τ) .tc)).toFinset := by writes_in_list

abbrev hostOps6_1_W : List (Ref sig .tc) :=
  [main_call3_cst, main_call3_v0, main_call3_v1, main_call3_cst_0, main_call3_v2, main_call3_v3,
    main_call3_cst_1, main_call3_call0_v0, main_call3_call0_v1, main_call3_v4, main_call3_v5, main_call3_cst_2,
    main_call3_v6, main_call3_v7, main_v145]
theorem hostOps6_1_writes : (hostOps6_1 : List (HloOp τ sig (Elt F))).Forall fun op =>
    op.writes ⊆ (hostOps6_1_W.map (Proc.devRef (τ := τ) .tc)).toFinset := by writes_in_list

abbrev hostOps6_2_W : List (Ref sig .tc) := [main_v146]
theorem hostOps6_2_writes : (hostOps6_2 : List (HloOp τ sig (Elt F))).Forall fun op =>
    op.writes ⊆ (hostOps6_2_W.map (Proc.devRef (τ := τ) .tc)).toFinset := by writes_in_list

theorem group6_of (V : Valuation τ sig (Elt F)) (r : Ref sig .tc) (h : r ∉ hostOps6_W ++ hostOps6_1_W ++ hostOps6_2_W) :
    StableHlo.after hostOps6_2 (StableHlo.after hostOps6_1 (StableHlo.after hostOps6 V)) (Proc.devRef .tc r)
      = V (Proc.devRef .tc r) :=
  group_of hostOps6_writes hostOps6_1_writes hostOps6_2_writes V r h

abbrev hostOps8_W : List (Ref sig .tc) := [main_v149, main_v150, main_v151]
theorem hostOps8_writes : (hostOps8 : List (HloOp τ sig (Elt F))).Forall fun op =>
    op.writes ⊆ (hostOps8_W.map (Proc.devRef (τ := τ) .tc)).toFinset := by writes_in_list

abbrev hostOps8_1_W : List (Ref sig .tc) :=
  [main_call4_cst, main_call4_v0, main_call4_v1, main_call4_cst_0, main_call4_v2, main_call4_v3,
    main_call4_cst_1, main_call4_call0_v0, main_call4_call0_v1, main_call4_v4, main_call4_v5, main_call4_cst_2,
    main_call4_v6, main_call4_v7, main_v152]
theorem hostOps8_1_writes : (hostOps8_1 : List (HloOp τ sig (Elt F))).Forall fun op =>
    op.writes ⊆ (hostOps8_1_W.map (Proc.devRef (τ := τ) .tc)).toFinset := by writes_in_list

abbrev hostOps8_2_W : List (Ref sig .tc) :=
  [main_cst_30, main_v153, main_cst_31, main_v154, main_v155, main_v156, main_v157, main_v158, main_v159, main_cst_32,
    main_v160, main_v161, main_v162, main_v163, main_v164, main_v165, main_v166, main_v167, main_v168, main_v169,
    main_v170, main_v171, main_v172, main_v173, main_v174, main_v175, main_v176]
theorem hostOps8_2_writes : (hostOps8_2 : List (HloOp τ sig (Elt F))).Forall fun op =>
    op.writes ⊆ (hostOps8_2_W.map (Proc.devRef (τ := τ) .tc)).toFinset := by writes_in_list

theorem group8_of (V : Valuation τ sig (Elt F)) (r : Ref sig .tc) (h : r ∉ hostOps8_W ++ hostOps8_1_W ++ hostOps8_2_W) :
    StableHlo.after hostOps8_2 (StableHlo.after hostOps8_1 (StableHlo.after hostOps8 V)) (Proc.devRef .tc r)
      = V (Proc.devRef .tc r) :=
  group_of hostOps8_writes hostOps8_1_writes hostOps8_2_writes V r h

abbrev hostOps10_W : List (Ref sig .tc) := [main_v179, main_v180, main_v181]
theorem hostOps10_writes : (hostOps10 : List (HloOp τ sig (Elt F))).Forall fun op =>
    op.writes ⊆ (hostOps10_W.map (Proc.devRef (τ := τ) .tc)).toFinset := by writes_in_list

abbrev hostOps10_1_W : List (Ref sig .tc) :=
  [main_call5_cst, main_call5_v0, main_call5_v1, main_call5_cst_0, main_call5_v2, main_call5_v3,
    main_call5_cst_1, main_call5_call0_v0, main_call5_call0_v1, main_call5_v4, main_call5_v5, main_call5_cst_2,
    main_call5_v6, main_call5_v7, main_v182]
theorem hostOps10_1_writes : (hostOps10_1 : List (HloOp τ sig (Elt F))).Forall fun op =>
    op.writes ⊆ (hostOps10_1_W.map (Proc.devRef (τ := τ) .tc)).toFinset := by writes_in_list

abbrev hostOps10_2_W : List (Ref sig .tc) := [main_v183]
theorem hostOps10_2_writes : (hostOps10_2 : List (HloOp τ sig (Elt F))).Forall fun op =>
    op.writes ⊆ (hostOps10_2_W.map (Proc.devRef (τ := τ) .tc)).toFinset := by writes_in_list

theorem group10_of (V : Valuation τ sig (Elt F)) (r : Ref sig .tc) (h : r ∉ hostOps10_W ++ hostOps10_1_W ++ hostOps10_2_W) :
    StableHlo.after hostOps10_2 (StableHlo.after hostOps10_1 (StableHlo.after hostOps10 V)) (Proc.devRef .tc r)
      = V (Proc.devRef .tc r) :=
  group_of hostOps10_writes hostOps10_1_writes hostOps10_2_writes V r h

end Cert.KernelIdeal.HandVal

end
-- ==== Proof.LibMatProd.lean ====
import Idealize.ShloMosaic.PureOps.Ideal
import Idealize.ShloMosaic.Lib.ValueIdx
import Mathlib.Data.EReal.Basic
import Mathlib.Algebra.BigOperators.Group.Finset.Basic

open Idealize.ShloMosaic Idealize.ShloMosaic.ValueIdx

namespace MatProd

noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.KI.ValLib.lean ====
import proofs.«177890_j48524540510773_1_alg».proof.Proof.LibMatProd
import Idealize.ShloMosaic.Lib.ValueIdx
import Idealize.ShloMosaic.Lib.Pipeline.Value
import Mathlib.Algebra.BigOperators.Fin
import Mathlib.Logic.Equiv.Fin.Basic

open Idealize.ShloMosaic Idealize.ShloMosaic.ValueIdx
open scoped BigOperators

namespace ValLib

-- The contraction index has one axis, so it is its coordinate, and both operand indices are then read off coordinatewise.
theorem dot_sum {M K N : ℕ} (D : DotDims ⟨2, ![M, K]⟩ ⟨2, ![K, N]⟩ ⟨2, ![M, N]⟩)
    (hr : D.contr.rank = 1) (hs : D.contr.size ⟨0, by omega⟩ = K)
    (hl : D.lhsContracting = [1]) (hrc : D.rhsContracting = [0])
    (h0 : ∀ j k, (D.lhsIdx j k 0).val = (j 0).val) (h1 : ∀ j k, (D.rhsIdx j k 1).val = (j 1).val)
    (A : (⟨2, ![M, K]⟩ : Shape).Idx → EReal) (B : (⟨2, ![K, N]⟩ : Shape).Idx → EReal) (p : Fin M) (q : Fin N) :
    ∑ k, A (D.lhsIdx (ix2 p q) k) * B (D.rhsIdx (ix2 p q) k) = ∑ l : Fin K, A (ix2 p l) * B (ix2 l q) := by
  rw [← Equiv.sum_comp (contrEquiv1 D K hr hs).symm]
  refine Finset.sum_congr rfl fun l _ => ?_
  have hk := contrEquiv1_symm_val D K hr hs l
  have el : D.lhsIdx (ix2 p q) ((contrEquiv1 D K hr hs).symm l) = ix2 p l := funext fun a => Fin.ext (by
    match a with
    | ⟨0, _⟩ => exact h0 _ _
    | ⟨1, _⟩ => exact (D.lhsIdx_val_of_single hl _ _).trans hk)
  have er : D.rhsIdx (ix2 p q) ((contrEquiv1 D K hr hs).symm l) = ix2 l q := funext fun a => Fin.ext (by
    match a with
    | ⟨0, _⟩ => exact (D.rhsIdx_val_of_single hrc _ _).trans hk
    | ⟨1, _⟩ => exact h1 _ _)
  rw [el, er]

-- With no batch axes, the one non-contracting axis of the left operand reads the result's first coordinate.
theorem lhsIdx_non {sl sr so : Shape} (D : DotDims sl sr so) {a : Fin sl.rank} (hb : D.lhsBatch = [])
    (hn : D.lhsNonContracting = [a]) (j : so.Idx) (k : D.contr.Idx) (h0 : 0 < so.rank) :
    (D.lhsIdx j k a).val = (j ⟨0, h0⟩).val := by
  have hnb : a ∉ D.lhsBatch := by simp [hb]
  have hm : a ∈ D.lhsNonContracting := by simp [hn]
  unfold DotDims.lhsIdx
  rw [dif_neg hnb, dif_pos hm]
  simp only [Fin.val_cast]
  have key : ∀ (p q : ℕ) (hp : p < so.rank) (hq : q < so.rank), p = q → (j ⟨p, hp⟩).val = (j ⟨q, hq⟩).val :=
    fun p q hp hq h => by subst h; rfl
  exact key _ _ _ _ (by simp [hb, hn])

-- Likewise the right operand's reads the coordinate after the left operand's one.
theorem rhsIdx_non {sl sr so : Shape} (D : DotDims sl sr so) {a : Fin sr.rank} {b : Fin sl.rank} (hb : D.rhsBatch = [])
    (hlb : D.lhsBatch = []) (hln : D.lhsNonContracting = [b]) (hn : D.rhsNonContracting = [a])
    (j : so.Idx) (k : D.contr.Idx) (h1 : 1 < so.rank) :
    (D.rhsIdx j k a).val = (j ⟨1, h1⟩).val := by
  have hnb : a ∉ D.rhsBatch := by simp [hb]
  have hm : a ∈ D.rhsNonContracting := by simp [hn]
  unfold DotDims.rhsIdx
  rw [dif_neg hnb, dif_pos hm]
  simp only [Fin.val_cast]
  have key : ∀ (p q : ℕ) (hp : p < so.rank) (hq : q < so.rank), p = q → (j ⟨p, hp⟩).val = (j ⟨q, hq⟩).val :=
    fun p q hp hq h => by subst h; rfl
  exact key _ _ _ _ (by simp [hlb, hln, hn])

-- The plain matrix product's dimension numbers: contract the left operand's axis 1 with the right operand's axis 0.
theorem dot_sum' {M K N : ℕ} (D : DotDims ⟨2, ![M, K]⟩ ⟨2, ![K, N]⟩ ⟨2, ![M, N]⟩) (w)
    (hD : D = ⟨[1], [0], [0], [1], [], [], w⟩)
    (A : (⟨2, ![M, K]⟩ : Shape).Idx → EReal) (B : (⟨2, ![K, N]⟩ : Shape).Idx → EReal) (p : Fin M) (q : Fin N) :
    ∑ k, A (D.lhsIdx (ix2 p q) k) * B (D.rhsIdx (ix2 p q) k) = ∑ l : Fin K, A (ix2 p l) * B (ix2 l q) := by
  subst hD
  exact dot_sum _ rfl rfl rfl rfl (fun j k => lhsIdx_non _ rfl rfl j k _) (fun j k => rhsIdx_non _ rfl rfl rfl rfl j k _) A B p q

-- A run that resets at its first step and then adds one term a step is the library's fold, opened at an index.
theorem fold_sum (B N : ℕ) (acc term : ℕ → EReal)
    (hreset : ∀ n, n < N → n % B = 0 → acc n = 0 + term n)
    (hstep : ∀ n, n < N → n % B ≠ 0 → acc n = acc (n - 1) + term n) (i k : ℕ) (hk : k < B) (hN : B * i + k < N) :
    acc (B * i + k) = ∑ k' ∈ Finset.range (k + 1), term (B * i + k') := by
  have h := Pipeline.eq_accAt (N := N) (fun n _ (_ : Unit) => acc n) B (fun n _ _ => 0 + term n)
    (fun n _ prev u => prev u + term n) (fun n h hm => funext fun _ => hreset n h hm)
    (fun n h hm => funext fun _ => hstep (n + 1) h hm) i k hk hN
  have h2 := Pipeline.accAt_add_apply (N := N) (fun n _ (_ : Unit) => 0 + term n) (fun n _ prev u => prev u + term n)
    (fun _ => 0) (fun n _ => term n) (B * i) k (fun _ _ => rfl) (fun _ _ _ _ _ _ => rfl) k le_rfl hN ()
  exact (congrFun h ()).trans (h2.trans (zero_add _))

-- Position y of block b on an axis cut into B blocks of S.
abbrev blk {B S n : ℕ} (h : B * S = n) (b : Fin B) (y : Fin S) : Fin n :=
  ⟨S * b.val + y.val, by
    subst h
    calc S * b.val + y.val < S * b.val + S := Nat.add_lt_add_left y.isLt _
      _ = S * (b.val + 1) := (Nat.mul_succ S b.val).symm
      _ ≤ S * B := Nat.mul_le_mul_left S b.isLt
      _ = B * S := Nat.mul_comm S B⟩

-- Fin (B * S) is Fin B × Fin S, block number first.
theorem sum_blocks {B S n : ℕ} (h : B * S = n) (f : Fin n → EReal) :
    ∑ j, f j = ∑ k : Fin B, ∑ l : Fin S, f (blk h k l) := by
  subst h
  refine ((Equiv.sum_comp finProdFinEquiv f).symm.trans (Fintype.sum_prod_type _)).trans ?_
  refine Finset.sum_congr rfl fun k _ => Finset.sum_congr rfl fun l _ => congrArg f (Fin.ext ?_)
  show l.val + S * k.val = S * k.val + l.val
  exact Nat.add_comm _ _

-- At a run's last step the accumulator has summed every block of the contraction axis.
theorem acc_blocks {B S n : ℕ} (h : B * S = n) (hB : 0 < B) (N : ℕ) (acc term : ℕ → EReal)
    (hreset : ∀ m, m < N → m % B = 0 → acc m = 0 + term m)
    (hstep : ∀ m, m < N → m % B ≠ 0 → acc m = acc (m - 1) + term m)
    (i : ℕ) (hN : B * i + B ≤ N) (F : Fin n → EReal)
    (hterm : ∀ k : Fin B, term (B * i + k) = ∑ l : Fin S, F (blk h k l)) :
    acc (B * i + (B - 1)) = ∑ j, F j := by
  rw [fold_sum B N acc term hreset hstep i (B - 1) (by omega) (by omega), Nat.sub_add_cancel hB,
    Finset.sum_range, sum_blocks h]
  exact Finset.sum_congr rfl fun k _ => hterm k

end ValLib
-- ==== Proof.KI.R0Val.lean ====
import proofs.«177890_j48524540510773_1_alg».proof.Proof.KI.R0Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

theorem k0_pay1_apply (x : S512x512.Idx) : (k0_pay1 (F := Ideal)) x = 0 := by
  unfold k0_pay1
  rw [shapeCast_self]
  exact Ideal.ofBits_zero_f32

theorem k0_pay2_apply (v3 : Vec Ideal S512x512 .f32) (v4 : Vec Ideal S512x512 .bf16) (v6 : Vec Ideal S512x512 .bf16)
    (p q : Fin 512) :
    k0_pay2 v3 v4 v6 (ix2 p q) = v3 (ix2 p q) + ∑ l : Fin 512, v4 (ix2 p l) * v6 (ix2 l q) := by
  unfold k0_pay2
  simp only [shapeCast_self, matmul]
  rw [addf_apply, Ideal.matmul_constant_zero_apply]
  exact congrArg (v3 (ix2 p q) + ·) (ValLib.dot_sum' dot_S512x512_S512x512_S512x512_1_0_0_1_n_n _ rfl v4 v6 p q)

abbrev blkIx0 (b : Fin 20) (y : Fin 512) : Fin 10240 := ValLib.blk rfl b y

variable (V : (c : Dev nD) → (b : Ref sig .tc) → Buf (Elt Ideal) ((c : Thread nD τ).loc b))

abbrev lhsArr0 (c : Dev nD) : Vec Ideal S10240x10240 .bf16 := V c (Pipeline.arrRef spec0 0)
abbrev rhsArr0 (c : Dev nD) : Vec Ideal S10240x512 .bf16 := V c (Pipeline.arrRef spec0 1)

abbrev prod0 (c : Dev nD) : Vec Ideal S10240x512 .bf16 := fun idx =>
  ∑ j : Fin 10240, lhsArr0 V c (ix2 (idx 0) j) * rhsArr0 V c (ix2 j (idx 1))

theorem idx_facts0 : ∀ t : Fin cfg0.N,
    win0_0.index t (0 : Fin 2) = t.val / 20 ∧ win0_0.index t (1 : Fin 2) = t.val % 20
    ∧ win0_1.index t (0 : Fin 2) = t.val % 20 ∧ win0_1.index t (1 : Fin 2) = 0
    ∧ win0_2.index t (0 : Fin 2) = t.val / 20 ∧ win0_2.index t (1 : Fin 2) = 0 :=
  (by decide +kernel : ∀ t : Fin grid0.N, _)

abbrev ablk0 (c : Dev nD) (t : Fin cfg0.N) : Vec Ideal S512x512 .bf16 := iblk0 V c 0 t
abbrev bblk0 (c : Dev nD) (t : Fin cfg0.N) : Vec Ideal S512x512 .bf16 := iblk0 V c 1 t

theorem ablk0_apply (c : Dev nD) (t : Fin cfg0.N) (i k : Fin 20) (ht : t.val = 20 * i.val + k.val) (p l : Fin 512) :
    ablk0 V c t (ix2 p l) = lhsArr0 V c (ix2 (blkIx0 i p) (blkIx0 k l)) := by
  obtain ⟨e0, e1, -, -, -, -⟩ := idx_facts0 t
  have hk := k.isLt
  unfold ablk0 iblk0
  rw [View.read_apply]
  show lhsArr0 V c (((cfg0.win 0).blk t).view.emb (ix2 p l)) = _
  congr 1
  funext a; apply Fin.ext
  match a with
  | ⟨0, _⟩ => show win0_0.index t (0 : Fin 2) * 512 + 1 * p.val = 512 * i.val + p.val; rw [e0]; omega
  | ⟨1, _⟩ => show win0_0.index t (1 : Fin 2) * 512 + 1 * l.val = 512 * k.val + l.val; rw [e1]; omega

theorem bblk0_apply (c : Dev nD) (t : Fin cfg0.N) (i k : Fin 20) (ht : t.val = 20 * i.val + k.val) (l : Fin 512) (q : Fin 512) :
    bblk0 V c t (ix2 l q) = rhsArr0 V c (ix2 (blkIx0 k l) q) := by
  obtain ⟨-, -, e2, e3, -, -⟩ := idx_facts0 t
  have hk := k.isLt
  unfold bblk0 iblk0
  rw [View.read_apply]
  show rhsArr0 V c (((cfg0.win 1).blk t).view.emb (ix2 l q)) = _
  congr 1
  funext a; apply Fin.ext
  match a with
  | ⟨0, _⟩ => show win0_1.index t (0 : Fin 2) * 512 + 1 * l.val = 512 * k.val + l.val; rw [e2]; omega
  | ⟨1, _⟩ => show win0_1.index t (1 : Fin 2) * 512 + 1 * q.val = q.val; rw [e3]; omega

def addend0 (c : Dev nD) (p q : Fin 512) (n : ℕ) : EReal :=
  if h : n < cfg0.N then
    ∑ l : Fin 512, ablk0 V c ⟨n, h⟩ (ix2 p l) * bblk0 V c ⟨n, h⟩ (ix2 l q)
  else 0

theorem acc0_last (c : Dev nD) (t : Fin cfg0.N) (i : Fin 20) (ht : t.val = 20 * i.val + 19) (p q : Fin 512) :
    acc0 V c t.val (ix2 p q) = ∑ j : Fin 10240, lhsArr0 V c (ix2 (blkIx0 i p) j) * rhsArr0 V c (ix2 j q) := by
  have hN : cfg0.N = 400 := N_0
  have hi := i.isLt
  rw [ht]
  refine ValLib.acc_blocks (B := 20) (S := 512) (n := 10240) rfl (by omega) cfg0.N (fun n => acc0 V c n (ix2 p q))
    (addend0 V c p q) (fun n hn hm => ?_) (fun n hn hm => ?_) i.val (by omega)
    (fun j => lhsArr0 V c (ix2 (blkIx0 i p) j) * rhsArr0 V c (ix2 j q)) fun k => ?_
  · refine (congrFun (acc0_reset V c ⟨n, hn⟩ hm) (ix2 p q)).trans ?_
    rw [k0_pay2_apply, k0_pay1_apply, addend0, dif_pos hn]
  · refine (congrFun (acc0_step V c ⟨n, hn⟩ hm) (ix2 p q)).trans ?_
    rw [k0_pay2_apply, addend0, dif_pos hn]
  · have hk : 20 * i.val + k.val < cfg0.N := by have := k.isLt; omega
    rw [addend0, dif_pos hk]
    refine Finset.sum_congr rfl fun l _ => ?_
    rw [ablk0_apply V c ⟨20 * i.val + k.val, hk⟩ i k rfl p l, bblk0_apply V c ⟨20 * i.val + k.val, hk⟩ i k rfl l q]

theorem flushed0_eq (c : Dev nD) (t : Fin cfg0.N) (hf : (cfg0.win 2).flush t = true) :
    (dat0 V c).flushed 2 t = ((cfg0.win 2).blk t).view.read (Elt Ideal) (prod0 V c) := by
  have hN : cfg0.N = 400 := N_0
  have h19 : t.val % 20 = 19 := (flush0_2 t).mp hf
  have hi : t.val / 20 < 20 := by have := t.isLt; omega
  obtain ⟨-, -, -, -, e4, e5⟩ := idx_facts0 t
  show (cfg0.win 2).cut (grid0.coords t) ((dat0 V c).after 2 t) = _
  rw [after0_2]
  funext y
  obtain ⟨p, q, rfl⟩ : ∃ (p : Fin 512) (q : Fin 512), y = ix2 p q := ⟨y 0, y 1, eq_ix2 (n0 := 512) (n1 := 512) y⟩
  rw [View.read_apply]
  show acc0 V c t.val (ix2 p q) = prod0 V c (((cfg0.win 2).blk t).view.emb (ix2 p q))
  rw [acc0_last V c t ⟨t.val / 20, hi⟩ (by show t.val = 20 * (t.val / 20) + 19; omega) p q]
  have h0 : (((cfg0.win 2).blk t).view.emb (ix2 p q)) 0 = blkIx0 ⟨t.val / 20, hi⟩ p := by
    apply Fin.ext
    show win0_2.index t (0 : Fin 2) * 512 + 1 * p.val = 512 * (t.val / 20) + p.val
    rw [e4]; omega
  have h1 : (((cfg0.win 2).blk t).view.emb (ix2 p q)) 1 = q := by
    apply Fin.ext
    show win0_2.index t (1 : Fin 2) * 512 + 1 * q.val = q.val
    rw [e5]; omega
  show _ = ∑ j : Fin 10240, lhsArr0 V c (ix2 ((((cfg0.win 2).blk t).view.emb (ix2 p q)) 0) j)
      * rhsArr0 V c (ix2 j ((((cfg0.win 2).blk t).view.emb (ix2 p q)) 1))
  rw [h0, h1]

theorem cover0 (i : S10240x512.Idx) :
    ∃ t : Fin cfg0.N, (cfg0.win 2).flush t = true ∧ i ∈ ((cfg0.win 2).blk t).view.set := by
  have hN : cfg0.N = 400 := N_0
  have hi0 : (i 0).val < 10240 := (i 0).isLt
  have hi1 : (i 1).val < 512 := (i 1).isLt
  obtain ⟨t, ht⟩ : ∃ t : Fin cfg0.N, t.val = 20 * ((i 0).val / 512) + 19 := ⟨⟨20 * ((i 0).val / 512) + 19, by omega⟩, rfl⟩
  obtain ⟨-, -, -, -, e4, e5⟩ := idx_facts0 t
  refine ⟨t, (flush0_2 t).mpr (by omega), ?_⟩
  show i ∈ ((View.whole (Pipeline.arrRef spec0 2)).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e4]; omega
  | ⟨1, _⟩ =>
    show win0_2.index t (1 : Fin 2) * 512 ≤ (i 1).val ∧ (i 1).val < win0_2.index t (1 : Fin 2) * 512 + 512
    rw [e5]; omega

theorem out0_val (c : Dev nD) : (dat0 V c).arrAt 2 cfg0.N = prod0 V c :=
  (dat0 V c).arrAt_eq_of_cover 2 (prod0 V c) (flushed0_eq V c) cover0

theorem in0_kept_0 (c : Dev nD) : (dat0 V c).arrAt 0 cfg0.N = V c (Pipeline.arrRef spec0 0) :=
  ((dat0 V c).arrAt_in 0 rfl _).trans (A_eq0 V c 0)
theorem in0_kept_1 (c : Dev nD) : (dat0 V c).arrAt 1 cfg0.N = V c (Pipeline.arrRef spec0 1) :=
  ((dat0 V c).arrAt_in 1 rfl _).trans (A_eq0 V c 1)

end Cert.KernelIdeal.HandVal

end
-- ==== Proof.KI.R1Val.lean ====
import proofs.«177890_j48524540510773_1_alg».proof.Proof.KI.R1Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

local notation "D1" => dot_S512x512_S512x1024_S512x1024_1_0_0_1_n_n

theorem k1_pay1_apply (p : Fin 512) (q : Fin 1024) : k1_pay1 (F := Ideal) (ix2 p q) = 0 := by
  unfold k1_pay1
  simp only [shapeCast_self, broadcast_apply]
  exact Ideal.ofBits_zero_f32

theorem k1_pay2_apply (v3 : Vec Ideal S512x1024 .f32) (v4 : Vec Ideal S512x512 .bf16) (v6 : Vec Ideal S512x1024 .bf16)
    (p : Fin 512) (q : Fin 1024) :
    k1_pay2 v3 v4 v6 (ix2 p q) = v3 (ix2 p q) + ∑ l : Fin 512, v4 (ix2 p l) * v6 (ix2 l q) := by
  unfold k1_pay2
  simp only [shapeCast_self, matmul]
  rw [addf_apply, Ideal.matmul_constant_zero_apply]
  exact congrArg (v3 (ix2 p q) + ·) (ValLib.dot_sum' (D1) _ rfl v4 v6 p q)

theorem k1_first_apply (v4 : Vec Ideal S512x512 .bf16) (v6 : Vec Ideal S512x1024 .bf16) (p : Fin 512) (q : Fin 1024) :
    k1_pay2 (k1_pay1 (F := Ideal)) v4 v6 (ix2 p q) = ∑ l : Fin 512, v4 (ix2 p l) * v6 (ix2 l q) := by
  rw [k1_pay2_apply, k1_pay1_apply, zero_add]

variable (V : (c : Dev nD) → (b : Ref sig .tc) → Buf (Elt Ideal) ((c : Thread nD τ).loc b))

def prod1 (A : S10240x512.Idx → EReal) (B : S512x1024.Idx → EReal) : S10240x1024.Idx → EReal :=
  fun idx => ∑ j : Fin 512, A (ix2 (idx 0) j) * B (ix2 j (idx 1))

theorem idx_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (1 : Fin 2) = 0 :=
  (by decide +kernel : ∀ t : Fin grid1.N, _)

theorem idx_onto1 : ∀ q0 : Fin 20, ∃ t : Fin cfg1.N, win1_2.index t = ![q0.val, 0] :=
  (by decide +kernel : ∀ q0 : Fin 20, ∃ t : Fin grid1.N, win1_2.index t = ![q0.val, 0])

theorem flushed1_eq (c : Dev nD) (t : Fin cfg1.N) :
    (dat1 (F := Ideal) V c).flushed 2 t
      = ((cfg1.win 2).blk t).view.read (Elt Ideal) (prod1 (V c (Pipeline.arrRef spec1 0)) (V c (Pipeline.arrRef spec1 1))) := by
  show (cfg1.win 2).cut (grid1.coords t) ((dat1 (F := Ideal) V c).after 2 t) = _
  rw [after1_2, acc1_reset]
  obtain ⟨e00, e01, e10, e11, e21⟩ := idx_facts1 t
  funext j
  have hp : (j 0).val < 512 := (j 0).isLt
  have hq : (j 1).val < 1024 := (j 1).isLt
  have hx : (cfg1.win 2).xinj (grid1.coords t) j = ix2 (⟨(j 0).val, hp⟩ : Fin 512) (⟨(j 1).val, hq⟩ : Fin 1024) :=
    funext fun a => Fin.ext (by match a with | ⟨0, _⟩ => rfl | ⟨1, _⟩ => rfl)
  refine (congrArg (k1_pay2 k1_pay1 (iblk1 V c 0 t) (iblk1 V c 1 t)) hx).trans ?_
  rw [k1_first_apply]
  show _ = prod1 (V c (Pipeline.arrRef spec1 0)) (V c (Pipeline.arrRef spec1 1)) (((cfg1.win 2).blk t).view.emb j)
  unfold prod1
  refine Finset.sum_congr rfl fun l _ => ?_
  have h0 : iblk1 V c 0 t (ix2 (⟨(j 0).val, hp⟩ : Fin 512) l)
      = V c (Pipeline.arrRef spec1 0) (ix2 ((((cfg1.win 2).blk t).view.emb j) 0) l) := by
    unfold iblk1
    show V c (Pipeline.arrRef spec1 0) (((cfg1.win 0).blk t).view.emb (ix2 (⟨(j 0).val, hp⟩ : Fin 512) l)) = _
    refine congrArg _ (funext fun a => Fin.ext ?_)
    match a with
    | ⟨0, _⟩ => show win1_0.index t (0 : Fin 2) * 512 + 1 * (j 0).val = win1_2.index t (0 : Fin 2) * 512 + 1 * (j 0).val; omega
    | ⟨1, _⟩ => show win1_0.index t (1 : Fin 2) * 512 + 1 * l.val = l.val; omega
  have h1 : iblk1 V c 1 t (ix2 l (⟨(j 1).val, hq⟩ : Fin 1024))
      = V c (Pipeline.arrRef spec1 1) (ix2 l ((((cfg1.win 2).blk t).view.emb j) 1)) := by
    unfold iblk1
    show V c (Pipeline.arrRef spec1 1) (((cfg1.win 1).blk t).view.emb (ix2 l (⟨(j 1).val, hq⟩ : Fin 1024))) = _
    refine congrArg _ (funext fun a => Fin.ext ?_)
    match a with
    | ⟨0, _⟩ => show win1_1.index t (0 : Fin 2) * 512 + 1 * l.val = l.val; omega
    | ⟨1, _⟩ => show win1_1.index t (1 : Fin 2) * 1024 + 1 * (j 1).val = win1_2.index t (1 : Fin 2) * 1024 + 1 * (j 1).val; omega
  rw [h0, h1]

theorem cover1 (i : S10240x1024.Idx) :
    ∃ t : Fin cfg1.N, (cfg1.win 2).flush t = true ∧ i ∈ ((cfg1.win 2).blk t).view.set := by
  have hi0 : (i 0).val < 10240 := (i 0).isLt
  have hi1 : (i 1).val < 1024 := (i 1).isLt
  obtain ⟨t, ht⟩ := idx_onto1 ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  show i ∈ ((View.whole (Pipeline.arrRef spec1 2)).slice (win1_2.rect t)).set
  rw [View.set_slice_whole, Rect.mem_set_unit]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

theorem out1_val (c : Dev nD) : (dat1 (F := Ideal) V c).arrAt 2 cfg1.N
    = prod1 (V c (Pipeline.arrRef spec1 0)) (V c (Pipeline.arrRef spec1 1)) :=
  (dat1 (F := Ideal) V c).arrAt_eq_of_cover 2 _ (fun t _ => flushed1_eq V c t) cover1

theorem in1_kept_0 (c : Dev nD) : (dat1 (F := Ideal) V c).arrAt 0 cfg1.N = V c (Pipeline.arrRef spec1 0) :=
  ((dat1 (F := Ideal) V c).arrAt_in 0 rfl _).trans (A_eq1 V c 0)
theorem in1_kept_1 (c : Dev nD) : (dat1 (F := Ideal) V c).arrAt 1 cfg1.N = V c (Pipeline.arrRef spec1 1) :=
  ((dat1 (F := Ideal) V c).arrAt_in 1 rfl _).trans (A_eq1 V c 1)

end Cert.KernelIdeal.HandVal

end
-- ==== Proof.KI.R2Val.lean ====
import proofs.«177890_j48524540510773_1_alg».proof.Proof.KI.R2Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

theorem k2_pay1_apply (x : S512x512.Idx) : (k2_pay1 (F := Ideal)) x = 0 := by
  unfold k2_pay1
  rw [shapeCast_self]
  exact Ideal.ofBits_zero_f32

theorem k2_pay2_apply (v3 : Vec Ideal S512x512 .f32) (v4 : Vec Ideal S512x512 .bf16) (v6 : Vec Ideal S512x512 .bf16)
    (p q : Fin 512) :
    k2_pay2 v3 v4 v6 (ix2 p q) = v3 (ix2 p q) + ∑ l : Fin 512, v4 (ix2 p l) * v6 (ix2 l q) := by
  unfold k2_pay2
  simp only [shapeCast_self, matmul]
  rw [addf_apply, Ideal.matmul_constant_zero_apply]
  exact congrArg (v3 (ix2 p q) + ·) (ValLib.dot_sum' dot_S512x512_S512x512_S512x512_1_0_0_1_n_n _ rfl v4 v6 p q)

abbrev blkIx2 (b : Fin 20) (y : Fin 512) : Fin 10240 := ValLib.blk rfl b y

variable (V : (c : Dev nD) → (b : Ref sig .tc) → Buf (Elt Ideal) ((c : Thread nD τ).loc b))

abbrev lhsArr2 (c : Dev nD) : Vec Ideal S10240x10240 .bf16 := V c (Pipeline.arrRef spec2 0)
abbrev rhsArr2 (c : Dev nD) : Vec Ideal S10240x512 .bf16 := V c (Pipeline.arrRef spec2 1)

abbrev prod2 (c : Dev nD) : Vec Ideal S10240x512 .bf16 := fun idx =>
  ∑ j : Fin 10240, lhsArr2 V c (ix2 (idx 0) j) * rhsArr2 V c (ix2 j (idx 1))

theorem idx_facts2 : ∀ t : Fin cfg2.N,
    win2_0.index t (0 : Fin 2) = t.val / 20 ∧ win2_0.index t (1 : Fin 2) = t.val % 20
    ∧ win2_1.index t (0 : Fin 2) = t.val % 20 ∧ win2_1.index t (1 : Fin 2) = 0
    ∧ win2_2.index t (0 : Fin 2) = t.val / 20 ∧ win2_2.index t (1 : Fin 2) = 0 :=
  (by decide +kernel : ∀ t : Fin grid2.N, _)

abbrev ablk2 (c : Dev nD) (t : Fin cfg2.N) : Vec Ideal S512x512 .bf16 := iblk2 V c 0 t
abbrev bblk2 (c : Dev nD) (t : Fin cfg2.N) : Vec Ideal S512x512 .bf16 := iblk2 V c 1 t

theorem ablk2_apply (c : Dev nD) (t : Fin cfg2.N) (i k : Fin 20) (ht : t.val = 20 * i.val + k.val) (p l : Fin 512) :
    ablk2 V c t (ix2 p l) = lhsArr2 V c (ix2 (blkIx2 i p) (blkIx2 k l)) := by
  obtain ⟨e0, e1, -, -, -, -⟩ := idx_facts2 t
  have hk := k.isLt
  unfold ablk2 iblk2
  rw [View.read_apply]
  show lhsArr2 V c (((cfg2.win 0).blk t).view.emb (ix2 p l)) = _
  congr 1
  funext a; apply Fin.ext
  match a with
  | ⟨0, _⟩ => show win2_0.index t (0 : Fin 2) * 512 + 1 * p.val = 512 * i.val + p.val; rw [e0]; omega
  | ⟨1, _⟩ => show win2_0.index t (1 : Fin 2) * 512 + 1 * l.val = 512 * k.val + l.val; rw [e1]; omega

theorem bblk2_apply (c : Dev nD) (t : Fin cfg2.N) (i k : Fin 20) (ht : t.val = 20 * i.val + k.val) (l : Fin 512) (q : Fin 512) :
    bblk2 V c t (ix2 l q) = rhsArr2 V c (ix2 (blkIx2 k l) q) := by
  obtain ⟨-, -, e2, e3, -, -⟩ := idx_facts2 t
  have hk := k.isLt
  unfold bblk2 iblk2
  rw [View.read_apply]
  show rhsArr2 V c (((cfg2.win 1).blk t).view.emb (ix2 l q)) = _
  congr 1
  funext a; apply Fin.ext
  match a with
  | ⟨0, _⟩ => show win2_1.index t (0 : Fin 2) * 512 + 1 * l.val = 512 * k.val + l.val; rw [e2]; omega
  | ⟨1, _⟩ => show win2_1.index t (1 : Fin 2) * 512 + 1 * q.val = q.val; rw [e3]; omega

def addend2 (c : Dev nD) (p q : Fin 512) (n : ℕ) : EReal :=
  if h : n < cfg2.N then
    ∑ l : Fin 512, ablk2 V c ⟨n, h⟩ (ix2 p l) * bblk2 V c ⟨n, h⟩ (ix2 l q)
  else 0

theorem acc2_last (c : Dev nD) (t : Fin cfg2.N) (i : Fin 20) (ht : t.val = 20 * i.val + 19) (p q : Fin 512) :
    acc2 V c t.val (ix2 p q) = ∑ j : Fin 10240, lhsArr2 V c (ix2 (blkIx2 i p) j) * rhsArr2 V c (ix2 j q) := by
  have hN : cfg2.N = 400 := N_2
  have hi := i.isLt
  rw [ht]
  refine ValLib.acc_blocks (B := 20) (S := 512) (n := 10240) rfl (by omega) cfg2.N (fun n => acc2 V c n (ix2 p q))
    (addend2 V c p q) (fun n hn hm => ?_) (fun n hn hm => ?_) i.val (by omega)
    (fun j => lhsArr2 V c (ix2 (blkIx2 i p) j) * rhsArr2 V c (ix2 j q)) fun k => ?_
  · refine (congrFun (acc2_reset V c ⟨n, hn⟩ hm) (ix2 p q)).trans ?_
    rw [k2_pay2_apply, k2_pay1_apply, addend2, dif_pos hn]
  · refine (congrFun (acc2_step V c ⟨n, hn⟩ hm) (ix2 p q)).trans ?_
    rw [k2_pay2_apply, addend2, dif_pos hn]
  · have hk : 20 * i.val + k.val < cfg2.N := by have := k.isLt; omega
    rw [addend2, dif_pos hk]
    refine Finset.sum_congr rfl fun l _ => ?_
    rw [ablk2_apply V c ⟨20 * i.val + k.val, hk⟩ i k rfl p l, bblk2_apply V c ⟨20 * i.val + k.val, hk⟩ i k rfl l q]

theorem flushed2_eq (c : Dev nD) (t : Fin cfg2.N) (hf : (cfg2.win 2).flush t = true) :
    (dat2 V c).flushed 2 t = ((cfg2.win 2).blk t).view.read (Elt Ideal) (prod2 V c) := by
  have hN : cfg2.N = 400 := N_2
  have h19 : t.val % 20 = 19 := (flush2_2 t).mp hf
  have hi : t.val / 20 < 20 := by have := t.isLt; omega
  obtain ⟨-, -, -, -, e4, e5⟩ := idx_facts2 t
  show (cfg2.win 2).cut (grid2.coords t) ((dat2 V c).after 2 t) = _
  rw [after2_2]
  funext y
  obtain ⟨p, q, rfl⟩ : ∃ (p : Fin 512) (q : Fin 512), y = ix2 p q := ⟨y 0, y 1, eq_ix2 (n0 := 512) (n1 := 512) y⟩
  rw [View.read_apply]
  show acc2 V c t.val (ix2 p q) = prod2 V c (((cfg2.win 2).blk t).view.emb (ix2 p q))
  rw [acc2_last V c t ⟨t.val / 20, hi⟩ (by show t.val = 20 * (t.val / 20) + 19; omega) p q]
  have h0 : (((cfg2.win 2).blk t).view.emb (ix2 p q)) 0 = blkIx2 ⟨t.val / 20, hi⟩ p := by
    apply Fin.ext
    show win2_2.index t (0 : Fin 2) * 512 + 1 * p.val = 512 * (t.val / 20) + p.val
    rw [e4]; omega
  have h1 : (((cfg2.win 2).blk t).view.emb (ix2 p q)) 1 = q := by
    apply Fin.ext
    show win2_2.index t (1 : Fin 2) * 512 + 1 * q.val = q.val
    rw [e5]; omega
  show _ = ∑ j : Fin 10240, lhsArr2 V c (ix2 ((((cfg2.win 2).blk t).view.emb (ix2 p q)) 0) j)
      * rhsArr2 V c (ix2 j ((((cfg2.win 2).blk t).view.emb (ix2 p q)) 1))
  rw [h0, h1]

theorem cover2 (i : S10240x512.Idx) :
    ∃ t : Fin cfg2.N, (cfg2.win 2).flush t = true ∧ i ∈ ((cfg2.win 2).blk t).view.set := by
  have hN : cfg2.N = 400 := N_2
  have hi0 : (i 0).val < 10240 := (i 0).isLt
  have hi1 : (i 1).val < 512 := (i 1).isLt
  obtain ⟨t, ht⟩ : ∃ t : Fin cfg2.N, t.val = 20 * ((i 0).val / 512) + 19 := ⟨⟨20 * ((i 0).val / 512) + 19, by omega⟩, rfl⟩
  obtain ⟨-, -, -, -, e4, e5⟩ := idx_facts2 t
  refine ⟨t, (flush2_2 t).mpr (by omega), ?_⟩
  show i ∈ ((View.whole (Pipeline.arrRef spec2 2)).slice (win2_2.rect t)).set
  rw [View.set_slice_whole, Rect.mem_set_unit]
  intro a
  match a with
  | ⟨0, _⟩ =>
    show win2_2.index t (0 : Fin 2) * 512 ≤ (i 0).val ∧ (i 0).val < win2_2.index t (0 : Fin 2) * 512 + 512
    rw [e4]; omega
  | ⟨1, _⟩ =>
    show win2_2.index t (1 : Fin 2) * 512 ≤ (i 1).val ∧ (i 1).val < win2_2.index t (1 : Fin 2) * 512 + 512
    rw [e5]; omega

theorem out2_val (c : Dev nD) : (dat2 V c).arrAt 2 cfg2.N = prod2 V c :=
  (dat2 V c).arrAt_eq_of_cover 2 (prod2 V c) (flushed2_eq V c) cover2

theorem in2_kept_0 (c : Dev nD) : (dat2 V c).arrAt 0 cfg2.N = V c (Pipeline.arrRef spec2 0) :=
  ((dat2 V c).arrAt_in 0 rfl _).trans (A_eq2 V c 0)
theorem in2_kept_1 (c : Dev nD) : (dat2 V c).arrAt 1 cfg2.N = V c (Pipeline.arrRef spec2 1) :=
  ((dat2 V c).arrAt_in 1 rfl _).trans (A_eq2 V c 1)

end Cert.KernelIdeal.HandVal

end
-- ==== Proof.KI.R3Val.lean ====
import proofs.«177890_j48524540510773_1_alg».proof.Proof.KI.R3Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

local notation "D3" => dot_S512x512_S512x1024_S512x1024_1_0_0_1_n_n

theorem k3_pay1_apply (p : Fin 512) (q : Fin 1024) : k3_pay1 (F := Ideal) (ix2 p q) = 0 := by
  unfold k3_pay1
  simp only [shapeCast_self, broadcast_apply]
  exact Ideal.ofBits_zero_f32

theorem k3_pay2_apply (v3 : Vec Ideal S512x1024 .f32) (v4 : Vec Ideal S512x512 .bf16) (v6 : Vec Ideal S512x1024 .bf16)
    (p : Fin 512) (q : Fin 1024) :
    k3_pay2 v3 v4 v6 (ix2 p q) = v3 (ix2 p q) + ∑ l : Fin 512, v4 (ix2 p l) * v6 (ix2 l q) := by
  unfold k3_pay2
  simp only [shapeCast_self, matmul]
  rw [addf_apply, Ideal.matmul_constant_zero_apply]
  exact congrArg (v3 (ix2 p q) + ·) (ValLib.dot_sum' (D3) _ rfl v4 v6 p q)

theorem k3_first_apply (v4 : Vec Ideal S512x512 .bf16) (v6 : Vec Ideal S512x1024 .bf16) (p : Fin 512) (q : Fin 1024) :
    k3_pay2 (k3_pay1 (F := Ideal)) v4 v6 (ix2 p q) = ∑ l : Fin 512, v4 (ix2 p l) * v6 (ix2 l q) := by
  rw [k3_pay2_apply, k3_pay1_apply, zero_add]

variable (V : (c : Dev nD) → (b : Ref sig .tc) → Buf (Elt Ideal) ((c : Thread nD τ).loc b))

def prod3 (A : S10240x512.Idx → EReal) (B : S512x1024.Idx → EReal) : S10240x1024.Idx → EReal :=
  fun idx => ∑ j : Fin 512, A (ix2 (idx 0) j) * B (ix2 j (idx 1))

theorem idx_facts3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = win3_2.index t (1 : Fin 2)
    ∧ win3_2.index t (1 : Fin 2) = 0 :=
  (by decide +kernel : ∀ t : Fin grid3.N, _)

theorem idx_onto3 : ∀ q0 : Fin 20, ∃ t : Fin cfg3.N, win3_2.index t = ![q0.val, 0] :=
  (by decide +kernel : ∀ q0 : Fin 20, ∃ t : Fin grid3.N, win3_2.index t = ![q0.val, 0])

theorem flushed3_eq (c : Dev nD) (t : Fin cfg3.N) :
    (dat3 (F := Ideal) V c).flushed 2 t
      = ((cfg3.win 2).blk t).view.read (Elt Ideal) (prod3 (V c (Pipeline.arrRef spec3 0)) (V c (Pipeline.arrRef spec3 1))) := by
  show (cfg3.win 2).cut (grid3.coords t) ((dat3 (F := Ideal) V c).after 2 t) = _
  rw [after3_2, acc3_reset]
  obtain ⟨e00, e01, e10, e11, e21⟩ := idx_facts3 t
  funext j
  have hp : (j 0).val < 512 := (j 0).isLt
  have hq : (j 1).val < 1024 := (j 1).isLt
  have hx : (cfg3.win 2).xinj (grid3.coords t) j = ix2 (⟨(j 0).val, hp⟩ : Fin 512) (⟨(j 1).val, hq⟩ : Fin 1024) :=
    funext fun a => Fin.ext (by match a with | ⟨0, _⟩ => rfl | ⟨1, _⟩ => rfl)
  refine (congrArg (k3_pay2 k3_pay1 (iblk3 V c 0 t) (iblk3 V c 1 t)) hx).trans ?_
  rw [k3_first_apply]
  show _ = prod3 (V c (Pipeline.arrRef spec3 0)) (V c (Pipeline.arrRef spec3 1)) (((cfg3.win 2).blk t).view.emb j)
  unfold prod3
  refine Finset.sum_congr rfl fun l _ => ?_
  have h0 : iblk3 V c 0 t (ix2 (⟨(j 0).val, hp⟩ : Fin 512) l)
      = V c (Pipeline.arrRef spec3 0) (ix2 ((((cfg3.win 2).blk t).view.emb j) 0) l) := by
    unfold iblk3
    show V c (Pipeline.arrRef spec3 0) (((cfg3.win 0).blk t).view.emb (ix2 (⟨(j 0).val, hp⟩ : Fin 512) l)) = _
    refine congrArg _ (funext fun a => Fin.ext ?_)
    match a with
    | ⟨0, _⟩ => show win3_0.index t (0 : Fin 2) * 512 + 1 * (j 0).val = win3_2.index t (0 : Fin 2) * 512 + 1 * (j 0).val; omega
    | ⟨1, _⟩ => show win3_0.index t (1 : Fin 2) * 512 + 1 * l.val = l.val; omega
  have h1 : iblk3 V c 1 t (ix2 l (⟨(j 1).val, hq⟩ : Fin 1024))
      = V c (Pipeline.arrRef spec3 1) (ix2 l ((((cfg3.win 2).blk t).view.emb j) 1)) := by
    unfold iblk3
    show V c (Pipeline.arrRef spec3 1) (((cfg3.win 1).blk t).view.emb (ix2 l (⟨(j 1).val, hq⟩ : Fin 1024))) = _
    refine congrArg _ (funext fun a => Fin.ext ?_)
    match a with
    | ⟨0, _⟩ => show win3_1.index t (0 : Fin 2) * 512 + 1 * l.val = l.val; omega
    | ⟨1, _⟩ => show win3_1.index t (1 : Fin 2) * 1024 + 1 * (j 1).val = win3_2.index t (1 : Fin 2) * 1024 + 1 * (j 1).val; omega
  rw [h0, h1]

theorem cover3 (i : S10240x1024.Idx) :
    ∃ t : Fin cfg3.N, (cfg3.win 2).flush t = true ∧ i ∈ ((cfg3.win 2).blk t).view.set := by
  have hi0 : (i 0).val < 10240 := (i 0).isLt
  have hi1 : (i 1).val < 1024 := (i 1).isLt
  obtain ⟨t, ht⟩ := idx_onto3 ⟨(i 0).val / 512, by omega⟩
  have q0 : win3_2.index t (0 : Fin 2) = (i 0).val / 512 := congrFun ht 0
  have q1 : win3_2.index t (1 : Fin 2) = 0 := congrFun ht 1
  refine ⟨t, flush3_2 t, ?_⟩
  show i ∈ ((View.whole (Pipeline.arrRef spec3 2)).slice (win3_2.rect t)).set
  rw [View.set_slice_whole, Rect.mem_set_unit]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 1024 ≤ (i 1).val ∧ (i 1).val < win3_2.index t (1 : Fin 2) * 1024 + 1024; omega

theorem out3_val (c : Dev nD) : (dat3 (F := Ideal) V c).arrAt 2 cfg3.N
    = prod3 (V c (Pipeline.arrRef spec3 0)) (V c (Pipeline.arrRef spec3 1)) :=
  (dat3 (F := Ideal) V c).arrAt_eq_of_cover 2 _ (fun t _ => flushed3_eq V c t) cover3

theorem in3_kept_0 (c : Dev nD) : (dat3 (F := Ideal) V c).arrAt 0 cfg3.N = V c (Pipeline.arrRef spec3 0) :=
  ((dat3 (F := Ideal) V c).arrAt_in 0 rfl _).trans (A_eq3 V c 0)
theorem in3_kept_1 (c : Dev nD) : (dat3 (F := Ideal) V c).arrAt 1 cfg3.N = V c (Pipeline.arrRef spec3 1) :=
  ((dat3 (F := Ideal) V c).arrAt_in 1 rfl _).trans (A_eq3 V c 1)

end Cert.KernelIdeal.HandVal

end
-- ==== Proof.KI.R4Val.lean ====
import proofs.«177890_j48524540510773_1_alg».proof.Proof.KI.R4Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

local notation "tmR" => 512
local notation "kdR" => 1024
local notation "tnR" => 512
local notation "mmR" => 10240
local notation "BlkA" => S512x1024
local notation "ArrA" => S10240x1024
local notation "ArrB" => S1024x512
local notation "BlkO" => S512x512
local notation "ArrO" => S10240x512
local notation "D4" => dot_S512x1024_S1024x512_S512x512_1_0_0_1_n_n

theorem k4_pay1_apply (p : Fin tmR) (q : Fin tnR) : k4_pay1 (F := Ideal) (ix2 p q) = 0 := by
  unfold k4_pay1
  simp only [shapeCast_self, broadcast_apply]
  exact Ideal.ofBits_zero_f32

theorem k4_pay2_apply (v3 : Vec Ideal BlkO .f32) (v4 : Vec Ideal BlkA .bf16) (v6 : Vec Ideal ArrB .bf16)
    (p : Fin tmR) (q : Fin tnR) :
    k4_pay2 v3 v4 v6 (ix2 p q) = v3 (ix2 p q) + ∑ l : Fin kdR, v4 (ix2 p l) * v6 (ix2 l q) := by
  unfold k4_pay2
  simp only [shapeCast_self, matmul]
  rw [addf_apply, Ideal.matmul_constant_zero_apply]
  exact congrArg (v3 (ix2 p q) + ·) (ValLib.dot_sum' (D4) _ rfl v4 v6 p q)

theorem k4_first_apply (v4 : Vec Ideal BlkA .bf16) (v6 : Vec Ideal ArrB .bf16) (p : Fin tmR) (q : Fin tnR) :
    k4_pay2 (k4_pay1 (F := Ideal)) v4 v6 (ix2 p q) = ∑ l : Fin kdR, v4 (ix2 p l) * v6 (ix2 l q) := by
  rw [k4_pay2_apply, k4_pay1_apply, zero_add]

theorem k4_pay3_apply (v16 : Vec Ideal BlkO .f32) (p : Fin tmR) (q : Fin tnR) :
    k4_pay3 v16 (ix2 p q) = v16 (ix2 p q) := rfl

variable (V : (c : Dev nD) → (b : Ref sig .tc) → Buf (Elt Ideal) ((c : Thread nD τ).loc b))

def prod4 (A : (ArrA).Idx → EReal) (B : (ArrB).Idx → EReal) : (ArrO).Idx → EReal :=
  fun idx => ∑ j : Fin kdR, A (ix2 (idx 0) j) * B (ix2 j (idx 1))

theorem idx_facts4 : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = win4_2.index t (1 : Fin 2)
    ∧ win4_2.index t (1 : Fin 2) = 0 :=
  (by decide +kernel : ∀ t : Fin grid4.N, _)

theorem idx_onto4 : ∀ q0 : Fin 20, ∃ t : Fin cfg4.N, win4_2.index t = ![q0.val, 0] :=
  (by decide +kernel : ∀ q0 : Fin 20, ∃ t : Fin grid4.N, win4_2.index t = ![q0.val, 0])

theorem flushed4_eq (c : Dev nD) (t : Fin cfg4.N) :
    (dat4 (F := Ideal) V c).flushed 2 t
      = ((cfg4.win 2).blk t).view.read (Elt Ideal) (prod4 (V c (Pipeline.arrRef spec4 0)) (V c (Pipeline.arrRef spec4 1))) := by
  show (cfg4.win 2).cut (grid4.coords t) ((dat4 (F := Ideal) V c).after 2 t) = _
  rw [after4_2, acc4_reset]
  obtain ⟨e00, e01, e10, e11, e21⟩ := idx_facts4 t
  funext j
  have hp : (j 0).val < tmR := (j 0).isLt
  have hq : (j 1).val < tnR := (j 1).isLt
  have hx : (cfg4.win 2).xinj (grid4.coords t) j = ix2 (⟨(j 0).val, hp⟩ : Fin tmR) (⟨(j 1).val, hq⟩ : Fin tnR) :=
    funext fun a => Fin.ext (by match a with | ⟨0, _⟩ => rfl | ⟨1, _⟩ => rfl)
  refine (congrArg (k4_pay3 (k4_pay2 k4_pay1 (iblk4 V c 0 t) (iblk4 V c 1 t))) hx).trans ?_
  rw [k4_pay3_apply, k4_first_apply]
  show _ = prod4 (V c (Pipeline.arrRef spec4 0)) (V c (Pipeline.arrRef spec4 1)) (((cfg4.win 2).blk t).view.emb j)
  unfold prod4
  refine Finset.sum_congr rfl fun l _ => ?_
  have h0 : iblk4 V c 0 t (ix2 (⟨(j 0).val, hp⟩ : Fin tmR) l)
      = V c (Pipeline.arrRef spec4 0) (ix2 ((((cfg4.win 2).blk t).view.emb j) 0) l) := by
    unfold iblk4
    show V c (Pipeline.arrRef spec4 0) (((cfg4.win 0).blk t).view.emb (ix2 (⟨(j 0).val, hp⟩ : Fin tmR) l)) = _
    refine congrArg _ (funext fun a => Fin.ext ?_)
    match a with
    | ⟨0, _⟩ => show win4_0.index t (0 : Fin 2) * tmR + 1 * (j 0).val = win4_2.index t (0 : Fin 2) * tmR + 1 * (j 0).val; omega
    | ⟨1, _⟩ => show win4_0.index t (1 : Fin 2) * kdR + 1 * l.val = l.val; omega
  have h1 : iblk4 V c 1 t (ix2 l (⟨(j 1).val, hq⟩ : Fin tnR))
      = V c (Pipeline.arrRef spec4 1) (ix2 l ((((cfg4.win 2).blk t).view.emb j) 1)) := by
    unfold iblk4
    show V c (Pipeline.arrRef spec4 1) (((cfg4.win 1).blk t).view.emb (ix2 l (⟨(j 1).val, hq⟩ : Fin tnR))) = _
    refine congrArg _ (funext fun a => Fin.ext ?_)
    match a with
    | ⟨0, _⟩ => show win4_1.index t (0 : Fin 2) * kdR + 1 * l.val = l.val; omega
    | ⟨1, _⟩ => show win4_1.index t (1 : Fin 2) * tnR + 1 * (j 1).val = win4_2.index t (1 : Fin 2) * tnR + 1 * (j 1).val; omega
  rw [h0, h1]

theorem cover4 (i : (ArrO).Idx) :
    ∃ t : Fin cfg4.N, (cfg4.win 2).flush t = true ∧ i ∈ ((cfg4.win 2).blk t).view.set := by
  have hi0 : (i 0).val < mmR := (i 0).isLt
  have hi1 : (i 1).val < tnR := (i 1).isLt
  obtain ⟨t, ht⟩ := idx_onto4 ⟨(i 0).val / tmR, by omega⟩
  have q0 : win4_2.index t (0 : Fin 2) = (i 0).val / tmR := congrFun ht 0
  have q1 : win4_2.index t (1 : Fin 2) = 0 := congrFun ht 1
  refine ⟨t, flush4_2 t, ?_⟩
  show i ∈ ((View.whole (Pipeline.arrRef spec4 2)).slice (win4_2.rect t)).set
  rw [View.set_slice_whole, Rect.mem_set_unit]
  intro a
  match a with
  | ⟨0, _⟩ => show win4_2.index t (0 : Fin 2) * tmR ≤ (i 0).val ∧ (i 0).val < win4_2.index t (0 : Fin 2) * tmR + tmR; omega
  | ⟨1, _⟩ => show win4_2.index t (1 : Fin 2) * tnR ≤ (i 1).val ∧ (i 1).val < win4_2.index t (1 : Fin 2) * tnR + tnR; omega

theorem out4_val (c : Dev nD) : (dat4 (F := Ideal) V c).arrAt 2 cfg4.N
    = prod4 (V c (Pipeline.arrRef spec4 0)) (V c (Pipeline.arrRef spec4 1)) :=
  (dat4 (F := Ideal) V c).arrAt_eq_of_cover 2 _ (fun t _ => flushed4_eq V c t) cover4

theorem in4_kept_0 (c : Dev nD) : (dat4 (F := Ideal) V c).arrAt 0 cfg4.N = V c (Pipeline.arrRef spec4 0) :=
  ((dat4 (F := Ideal) V c).arrAt_in 0 rfl _).trans (A_eq4 V c 0)
theorem in4_kept_1 (c : Dev nD) : (dat4 (F := Ideal) V c).arrAt 1 cfg4.N = V c (Pipeline.arrRef spec4 1) :=
  ((dat4 (F := Ideal) V c).arrAt_in 1 rfl _).trans (A_eq4 V c 1)

end Cert.KernelIdeal.HandVal

end
-- ==== Proof.KI.R5Val.lean ====
import proofs.«177890_j48524540510773_1_alg».proof.Proof.KI.R5Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

theorem k5_pay1_apply (x : S512x512.Idx) : (k5_pay1 (F := Ideal)) x = 0 := by
  unfold k5_pay1
  rw [shapeCast_self]
  exact Ideal.ofBits_zero_f32

theorem k5_pay2_apply (v3 : Vec Ideal S512x512 .f32) (v4 : Vec Ideal S512x512 .bf16) (v6 : Vec Ideal S512x512 .bf16)
    (p q : Fin 512) :
    k5_pay2 v3 v4 v6 (ix2 p q) = v3 (ix2 p q) + ∑ l : Fin 512, v4 (ix2 p l) * v6 (ix2 l q) := by
  unfold k5_pay2
  simp only [shapeCast_self, matmul]
  rw [addf_apply, Ideal.matmul_constant_zero_apply]
  exact congrArg (v3 (ix2 p q) + ·) (ValLib.dot_sum' dot_S512x512_S512x512_S512x512_1_0_0_1_n_n _ rfl v4 v6 p q)

abbrev blkIx5 (b : Fin 20) (y : Fin 512) : Fin 10240 := ValLib.blk rfl b y

variable (V : (c : Dev nD) → (b : Ref sig .tc) → Buf (Elt Ideal) ((c : Thread nD τ).loc b))

abbrev lhsArr5 (c : Dev nD) : Vec Ideal S10240x10240 .bf16 := V c (Pipeline.arrRef spec5 0)
abbrev rhsArr5 (c : Dev nD) : Vec Ideal S10240x512 .bf16 := V c (Pipeline.arrRef spec5 1)

abbrev prod5 (c : Dev nD) : Vec Ideal S10240x512 .f32 := fun idx =>
  ∑ j : Fin 10240, lhsArr5 V c (ix2 (idx 0) j) * rhsArr5 V c (ix2 j (idx 1))

theorem idx_facts5 : ∀ t : Fin cfg5.N,
    win5_0.index t (0 : Fin 2) = t.val / 20 ∧ win5_0.index t (1 : Fin 2) = t.val % 20
    ∧ win5_1.index t (0 : Fin 2) = t.val % 20 ∧ win5_1.index t (1 : Fin 2) = 0
    ∧ win5_2.index t (0 : Fin 2) = t.val / 20 ∧ win5_2.index t (1 : Fin 2) = 0 :=
  (by decide +kernel : ∀ t : Fin grid5.N, _)

abbrev ablk5 (c : Dev nD) (t : Fin cfg5.N) : Vec Ideal S512x512 .bf16 := iblk5 V c 0 t
abbrev bblk5 (c : Dev nD) (t : Fin cfg5.N) : Vec Ideal S512x512 .bf16 := iblk5 V c 1 t

theorem ablk5_apply (c : Dev nD) (t : Fin cfg5.N) (i k : Fin 20) (ht : t.val = 20 * i.val + k.val) (p l : Fin 512) :
    ablk5 V c t (ix2 p l) = lhsArr5 V c (ix2 (blkIx5 i p) (blkIx5 k l)) := by
  obtain ⟨e0, e1, -, -, -, -⟩ := idx_facts5 t
  have hk := k.isLt
  unfold ablk5 iblk5
  rw [View.read_apply]
  show lhsArr5 V c (((cfg5.win 0).blk t).view.emb (ix2 p l)) = _
  congr 1
  funext a; apply Fin.ext
  match a with
  | ⟨0, _⟩ => show win5_0.index t (0 : Fin 2) * 512 + 1 * p.val = 512 * i.val + p.val; rw [e0]; omega
  | ⟨1, _⟩ => show win5_0.index t (1 : Fin 2) * 512 + 1 * l.val = 512 * k.val + l.val; rw [e1]; omega

theorem bblk5_apply (c : Dev nD) (t : Fin cfg5.N) (i k : Fin 20) (ht : t.val = 20 * i.val + k.val) (l : Fin 512) (q : Fin 512) :
    bblk5 V c t (ix2 l q) = rhsArr5 V c (ix2 (blkIx5 k l) q) := by
  obtain ⟨-, -, e2, e3, -, -⟩ := idx_facts5 t
  have hk := k.isLt
  unfold bblk5 iblk5
  rw [View.read_apply]
  show rhsArr5 V c (((cfg5.win 1).blk t).view.emb (ix2 l q)) = _
  congr 1
  funext a; apply Fin.ext
  match a with
  | ⟨0, _⟩ => show win5_1.index t (0 : Fin 2) * 512 + 1 * l.val = 512 * k.val + l.val; rw [e2]; omega
  | ⟨1, _⟩ => show win5_1.index t (1 : Fin 2) * 512 + 1 * q.val = q.val; rw [e3]; omega

def addend5 (c : Dev nD) (p q : Fin 512) (n : ℕ) : EReal :=
  if h : n < cfg5.N then
    ∑ l : Fin 512, ablk5 V c ⟨n, h⟩ (ix2 p l) * bblk5 V c ⟨n, h⟩ (ix2 l q)
  else 0

theorem acc5_last (c : Dev nD) (t : Fin cfg5.N) (i : Fin 20) (ht : t.val = 20 * i.val + 19) (p q : Fin 512) :
    acc5 V c t.val (ix2 p q) = ∑ j : Fin 10240, lhsArr5 V c (ix2 (blkIx5 i p) j) * rhsArr5 V c (ix2 j q) := by
  have hN : cfg5.N = 400 := N_5
  have hi := i.isLt
  rw [ht]
  refine ValLib.acc_blocks (B := 20) (S := 512) (n := 10240) rfl (by omega) cfg5.N (fun n => acc5 V c n (ix2 p q))
    (addend5 V c p q) (fun n hn hm => ?_) (fun n hn hm => ?_) i.val (by omega)
    (fun j => lhsArr5 V c (ix2 (blkIx5 i p) j) * rhsArr5 V c (ix2 j q)) fun k => ?_
  · refine (congrFun (acc5_reset V c ⟨n, hn⟩ hm) (ix2 p q)).trans ?_
    rw [k5_pay2_apply, k5_pay1_apply, addend5, dif_pos hn]
  · refine (congrFun (acc5_step V c ⟨n, hn⟩ hm) (ix2 p q)).trans ?_
    rw [k5_pay2_apply, addend5, dif_pos hn]
  · have hk : 20 * i.val + k.val < cfg5.N := by have := k.isLt; omega
    rw [addend5, dif_pos hk]
    refine Finset.sum_congr rfl fun l _ => ?_
    rw [ablk5_apply V c ⟨20 * i.val + k.val, hk⟩ i k rfl p l, bblk5_apply V c ⟨20 * i.val + k.val, hk⟩ i k rfl l q]

theorem flushed5_eq (c : Dev nD) (t : Fin cfg5.N) (hf : (cfg5.win 2).flush t = true) :
    (dat5 V c).flushed 2 t = ((cfg5.win 2).blk t).view.read (Elt Ideal) (prod5 V c) := by
  have hN : cfg5.N = 400 := N_5
  have h19 : t.val % 20 = 19 := (flush5_2 t).mp hf
  have hi : t.val / 20 < 20 := by have := t.isLt; omega
  obtain ⟨-, -, -, -, e4, e5⟩ := idx_facts5 t
  show (cfg5.win 2).cut (grid5.coords t) ((dat5 V c).after 2 t) = _
  rw [after5_2]
  funext y
  obtain ⟨p, q, rfl⟩ : ∃ (p : Fin 512) (q : Fin 512), y = ix2 p q := ⟨y 0, y 1, eq_ix2 (n0 := 512) (n1 := 512) y⟩
  rw [View.read_apply]
  show acc5 V c t.val (ix2 p q) = prod5 V c (((cfg5.win 2).blk t).view.emb (ix2 p q))
  rw [acc5_last V c t ⟨t.val / 20, hi⟩ (by show t.val = 20 * (t.val / 20) + 19; omega) p q]
  have h0 : (((cfg5.win 2).blk t).view.emb (ix2 p q)) 0 = blkIx5 ⟨t.val / 20, hi⟩ p := by
    apply Fin.ext
    show win5_2.index t (0 : Fin 2) * 512 + 1 * p.val = 512 * (t.val / 20) + p.val
    rw [e4]; omega
  have h1 : (((cfg5.win 2).blk t).view.emb (ix2 p q)) 1 = q := by
    apply Fin.ext
    show win5_2.index t (1 : Fin 2) * 512 + 1 * q.val = q.val
    rw [e5]; omega
  show _ = ∑ j : Fin 10240, lhsArr5 V c (ix2 ((((cfg5.win 2).blk t).view.emb (ix2 p q)) 0) j)
      * rhsArr5 V c (ix2 j ((((cfg5.win 2).blk t).view.emb (ix2 p q)) 1))
  rw [h0, h1]

theorem cover5 (i : S10240x512.Idx) :
    ∃ t : Fin cfg5.N, (cfg5.win 2).flush t = true ∧ i ∈ ((cfg5.win 2).blk t).view.set := by
  have hN : cfg5.N = 400 := N_5
  have hi0 : (i 0).val < 10240 := (i 0).isLt
  have hi1 : (i 1).val < 512 := (i 1).isLt
  obtain ⟨t, ht⟩ : ∃ t : Fin cfg5.N, t.val = 20 * ((i 0).val / 512) + 19 := ⟨⟨20 * ((i 0).val / 512) + 19, by omega⟩, rfl⟩
  obtain ⟨-, -, -, -, e4, e5⟩ := idx_facts5 t
  refine ⟨t, (flush5_2 t).mpr (by omega), ?_⟩
  show i ∈ ((View.whole (Pipeline.arrRef spec5 2)).slice (win5_2.rect t)).set
  rw [View.set_slice_whole, Rect.mem_set_unit]
  intro a
  match a with
  | ⟨0, _⟩ =>
    show win5_2.index t (0 : Fin 2) * 512 ≤ (i 0).val ∧ (i 0).val < win5_2.index t (0 : Fin 2) * 512 + 512
    rw [e4]; omega
  | ⟨1, _⟩ =>
    show win5_2.index t (1 : Fin 2) * 512 ≤ (i 1).val ∧ (i 1).val < win5_2.index t (1 : Fin 2) * 512 + 512
    rw [e5]; omega

theorem out5_val (c : Dev nD) : (dat5 V c).arrAt 2 cfg5.N = prod5 V c :=
  (dat5 V c).arrAt_eq_of_cover 2 (prod5 V c) (flushed5_eq V c) cover5

theorem in5_kept_0 (c : Dev nD) : (dat5 V c).arrAt 0 cfg5.N = V c (Pipeline.arrRef spec5 0) :=
  ((dat5 V c).arrAt_in 0 rfl _).trans (A_eq5 V c 0)
theorem in5_kept_1 (c : Dev nD) : (dat5 V c).arrAt 1 cfg5.N = V c (Pipeline.arrRef spec5 1) :=
  ((dat5 V c).arrAt_in 1 rfl _).trans (A_eq5 V c 1)

end Cert.KernelIdeal.HandVal

end
-- ==== Proof.KI.R6Val.lean ====
import proofs.«177890_j48524540510773_1_alg».proof.Proof.KI.R6Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

local notation "tmR" => 512
local notation "kdR" => 1024
local notation "tnR" => 512
local notation "mmR" => 10240
local notation "BlkA" => S512x1024
local notation "ArrA" => S10240x1024
local notation "ArrB" => S1024x512
local notation "BlkO" => S512x512
local notation "ArrO" => S10240x512
local notation "D6" => dot_S512x1024_S1024x512_S512x512_1_0_0_1_n_n

theorem k6_pay1_apply (p : Fin tmR) (q : Fin tnR) : k6_pay1 (F := Ideal) (ix2 p q) = 0 := by
  unfold k6_pay1
  simp only [shapeCast_self, broadcast_apply]
  exact Ideal.ofBits_zero_f32

theorem k6_pay2_apply (v3 : Vec Ideal BlkO .f32) (v4 : Vec Ideal BlkA .bf16) (v6 : Vec Ideal ArrB .bf16)
    (p : Fin tmR) (q : Fin tnR) :
    k6_pay2 v3 v4 v6 (ix2 p q) = v3 (ix2 p q) + ∑ l : Fin kdR, v4 (ix2 p l) * v6 (ix2 l q) := by
  unfold k6_pay2
  simp only [shapeCast_self, matmul]
  rw [addf_apply, Ideal.matmul_constant_zero_apply]
  exact congrArg (v3 (ix2 p q) + ·) (ValLib.dot_sum' (D6) _ rfl v4 v6 p q)

theorem k6_first_apply (v4 : Vec Ideal BlkA .bf16) (v6 : Vec Ideal ArrB .bf16) (p : Fin tmR) (q : Fin tnR) :
    k6_pay2 (k6_pay1 (F := Ideal)) v4 v6 (ix2 p q) = ∑ l : Fin kdR, v4 (ix2 p l) * v6 (ix2 l q) := by
  rw [k6_pay2_apply, k6_pay1_apply, zero_add]

theorem k6_pay3_apply (v16 : Vec Ideal BlkO .f32) (p : Fin tmR) (q : Fin tnR) :
    k6_pay3 v16 (ix2 p q) = v16 (ix2 p q) := rfl

variable (V : (c : Dev nD) → (b : Ref sig .tc) → Buf (Elt Ideal) ((c : Thread nD τ).loc b))

def prod6 (A : (ArrA).Idx → EReal) (B : (ArrB).Idx → EReal) : (ArrO).Idx → EReal :=
  fun idx => ∑ j : Fin kdR, A (ix2 (idx 0) j) * B (ix2 j (idx 1))

theorem idx_facts6 : ∀ t : Fin cfg6.N,
    win6_0.index t (0 : Fin 2) = win6_2.index t (0 : Fin 2) ∧ win6_0.index t (1 : Fin 2) = 0
    ∧ win6_1.index t (0 : Fin 2) = 0 ∧ win6_1.index t (1 : Fin 2) = win6_2.index t (1 : Fin 2)
    ∧ win6_2.index t (1 : Fin 2) = 0 :=
  (by decide +kernel : ∀ t : Fin grid6.N, _)

theorem idx_onto6 : ∀ q0 : Fin 20, ∃ t : Fin cfg6.N, win6_2.index t = ![q0.val, 0] :=
  (by decide +kernel : ∀ q0 : Fin 20, ∃ t : Fin grid6.N, win6_2.index t = ![q0.val, 0])

theorem flushed6_eq (c : Dev nD) (t : Fin cfg6.N) :
    (dat6 (F := Ideal) V c).flushed 2 t
      = ((cfg6.win 2).blk t).view.read (Elt Ideal) (prod6 (V c (Pipeline.arrRef spec6 0)) (V c (Pipeline.arrRef spec6 1))) := by
  show (cfg6.win 2).cut (grid6.coords t) ((dat6 (F := Ideal) V c).after 2 t) = _
  rw [after6_2, acc6_reset]
  obtain ⟨e00, e01, e10, e11, e21⟩ := idx_facts6 t
  funext j
  have hp : (j 0).val < tmR := (j 0).isLt
  have hq : (j 1).val < tnR := (j 1).isLt
  have hx : (cfg6.win 2).xinj (grid6.coords t) j = ix2 (⟨(j 0).val, hp⟩ : Fin tmR) (⟨(j 1).val, hq⟩ : Fin tnR) :=
    funext fun a => Fin.ext (by match a with | ⟨0, _⟩ => rfl | ⟨1, _⟩ => rfl)
  refine (congrArg (k6_pay3 (k6_pay2 k6_pay1 (iblk6 V c 0 t) (iblk6 V c 1 t))) hx).trans ?_
  rw [k6_pay3_apply, k6_first_apply]
  show _ = prod6 (V c (Pipeline.arrRef spec6 0)) (V c (Pipeline.arrRef spec6 1)) (((cfg6.win 2).blk t).view.emb j)
  unfold prod6
  refine Finset.sum_congr rfl fun l _ => ?_
  have h0 : iblk6 V c 0 t (ix2 (⟨(j 0).val, hp⟩ : Fin tmR) l)
      = V c (Pipeline.arrRef spec6 0) (ix2 ((((cfg6.win 2).blk t).view.emb j) 0) l) := by
    unfold iblk6
    show V c (Pipeline.arrRef spec6 0) (((cfg6.win 0).blk t).view.emb (ix2 (⟨(j 0).val, hp⟩ : Fin tmR) l)) = _
    refine congrArg _ (funext fun a => Fin.ext ?_)
    match a with
    | ⟨0, _⟩ => show win6_0.index t (0 : Fin 2) * tmR + 1 * (j 0).val = win6_2.index t (0 : Fin 2) * tmR + 1 * (j 0).val; omega
    | ⟨1, _⟩ => show win6_0.index t (1 : Fin 2) * kdR + 1 * l.val = l.val; omega
  have h1 : iblk6 V c 1 t (ix2 l (⟨(j 1).val, hq⟩ : Fin tnR))
      = V c (Pipeline.arrRef spec6 1) (ix2 l ((((cfg6.win 2).blk t).view.emb j) 1)) := by
    unfold iblk6
    show V c (Pipeline.arrRef spec6 1) (((cfg6.win 1).blk t).view.emb (ix2 l (⟨(j 1).val, hq⟩ : Fin tnR))) = _
    refine congrArg _ (funext fun a => Fin.ext ?_)
    match a with
    | ⟨0, _⟩ => show win6_1.index t (0 : Fin 2) * kdR + 1 * l.val = l.val; omega
    | ⟨1, _⟩ => show win6_1.index t (1 : Fin 2) * tnR + 1 * (j 1).val = win6_2.index t (1 : Fin 2) * tnR + 1 * (j 1).val; omega
  rw [h0, h1]

theorem cover6 (i : (ArrO).Idx) :
    ∃ t : Fin cfg6.N, (cfg6.win 2).flush t = true ∧ i ∈ ((cfg6.win 2).blk t).view.set := by
  have hi0 : (i 0).val < mmR := (i 0).isLt
  have hi1 : (i 1).val < tnR := (i 1).isLt
  obtain ⟨t, ht⟩ := idx_onto6 ⟨(i 0).val / tmR, by omega⟩
  have q0 : win6_2.index t (0 : Fin 2) = (i 0).val / tmR := congrFun ht 0
  have q1 : win6_2.index t (1 : Fin 2) = 0 := congrFun ht 1
  refine ⟨t, flush6_2 t, ?_⟩
  show i ∈ ((View.whole (Pipeline.arrRef spec6 2)).slice (win6_2.rect t)).set
  rw [View.set_slice_whole, Rect.mem_set_unit]
  intro a
  match a with
  | ⟨0, _⟩ => show win6_2.index t (0 : Fin 2) * tmR ≤ (i 0).val ∧ (i 0).val < win6_2.index t (0 : Fin 2) * tmR + tmR; omega
  | ⟨1, _⟩ => show win6_2.index t (1 : Fin 2) * tnR ≤ (i 1).val ∧ (i 1).val < win6_2.index t (1 : Fin 2) * tnR + tnR; omega

theorem out6_val (c : Dev nD) : (dat6 (F := Ideal) V c).arrAt 2 cfg6.N
    = prod6 (V c (Pipeline.arrRef spec6 0)) (V c (Pipeline.arrRef spec6 1)) :=
  (dat6 (F := Ideal) V c).arrAt_eq_of_cover 2 _ (fun t _ => flushed6_eq V c t) cover6

theorem in6_kept_0 (c : Dev nD) : (dat6 (F := Ideal) V c).arrAt 0 cfg6.N = V c (Pipeline.arrRef spec6 0) :=
  ((dat6 (F := Ideal) V c).arrAt_in 0 rfl _).trans (A_eq6 V c 0)
theorem in6_kept_1 (c : Dev nD) : (dat6 (F := Ideal) V c).arrAt 1 cfg6.N = V c (Pipeline.arrRef spec6 1) :=
  ((dat6 (F := Ideal) V c).arrAt_in 1 rfl _).trans (A_eq6 V c 1)

end Cert.KernelIdeal.HandVal

end
-- ==== Proof.KI.R7Val.lean ====
import proofs.«177890_j48524540510773_1_alg».proof.Proof.KI.R7Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

theorem k7_pay1_apply (x : S512x512.Idx) : (k7_pay1 (F := Ideal)) x = 0 := by
  unfold k7_pay1
  rw [shapeCast_self]
  exact Ideal.ofBits_zero_f32

theorem k7_pay2_apply (v3 : Vec Ideal S512x512 .f32) (v4 : Vec Ideal S512x512 .bf16) (v6 : Vec Ideal S512x512 .bf16)
    (p q : Fin 512) :
    k7_pay2 v3 v4 v6 (ix2 p q) = v3 (ix2 p q) + ∑ l : Fin 512, v4 (ix2 p l) * v6 (ix2 l q) := by
  unfold k7_pay2
  simp only [shapeCast_self, matmul]
  rw [addf_apply, Ideal.matmul_constant_zero_apply]
  exact congrArg (v3 (ix2 p q) + ·) (ValLib.dot_sum' dot_S512x512_S512x512_S512x512_1_0_0_1_n_n _ rfl v4 v6 p q)

abbrev blkIx7 (b : Fin 20) (y : Fin 512) : Fin 10240 := ValLib.blk rfl b y

variable (V : (c : Dev nD) → (b : Ref sig .tc) → Buf (Elt Ideal) ((c : Thread nD τ).loc b))

abbrev lhsArr7 (c : Dev nD) : Vec Ideal S10240x10240 .bf16 := V c (Pipeline.arrRef spec7 0)
abbrev rhsArr7 (c : Dev nD) : Vec Ideal S10240x512 .bf16 := V c (Pipeline.arrRef spec7 1)

abbrev prod7 (c : Dev nD) : Vec Ideal S10240x512 .f32 := fun idx =>
  ∑ j : Fin 10240, lhsArr7 V c (ix2 (idx 0) j) * rhsArr7 V c (ix2 j (idx 1))

theorem idx_facts7 : ∀ t : Fin cfg7.N,
    win7_0.index t (0 : Fin 2) = t.val / 20 ∧ win7_0.index t (1 : Fin 2) = t.val % 20
    ∧ win7_1.index t (0 : Fin 2) = t.val % 20 ∧ win7_1.index t (1 : Fin 2) = 0
    ∧ win7_2.index t (0 : Fin 2) = t.val / 20 ∧ win7_2.index t (1 : Fin 2) = 0 :=
  (by decide +kernel : ∀ t : Fin grid7.N, _)

abbrev ablk7 (c : Dev nD) (t : Fin cfg7.N) : Vec Ideal S512x512 .bf16 := iblk7 V c 0 t
abbrev bblk7 (c : Dev nD) (t : Fin cfg7.N) : Vec Ideal S512x512 .bf16 := iblk7 V c 1 t

theorem ablk7_apply (c : Dev nD) (t : Fin cfg7.N) (i k : Fin 20) (ht : t.val = 20 * i.val + k.val) (p l : Fin 512) :
    ablk7 V c t (ix2 p l) = lhsArr7 V c (ix2 (blkIx7 i p) (blkIx7 k l)) := by
  obtain ⟨e0, e1, -, -, -, -⟩ := idx_facts7 t
  have hk := k.isLt
  unfold ablk7 iblk7
  rw [View.read_apply]
  show lhsArr7 V c (((cfg7.win 0).blk t).view.emb (ix2 p l)) = _
  congr 1
  funext a; apply Fin.ext
  match a with
  | ⟨0, _⟩ => show win7_0.index t (0 : Fin 2) * 512 + 1 * p.val = 512 * i.val + p.val; rw [e0]; omega
  | ⟨1, _⟩ => show win7_0.index t (1 : Fin 2) * 512 + 1 * l.val = 512 * k.val + l.val; rw [e1]; omega

theorem bblk7_apply (c : Dev nD) (t : Fin cfg7.N) (i k : Fin 20) (ht : t.val = 20 * i.val + k.val) (l : Fin 512) (q : Fin 512) :
    bblk7 V c t (ix2 l q) = rhsArr7 V c (ix2 (blkIx7 k l) q) := by
  obtain ⟨-, -, e2, e3, -, -⟩ := idx_facts7 t
  have hk := k.isLt
  unfold bblk7 iblk7
  rw [View.read_apply]
  show rhsArr7 V c (((cfg7.win 1).blk t).view.emb (ix2 l q)) = _
  congr 1
  funext a; apply Fin.ext
  match a with
  | ⟨0, _⟩ => show win7_1.index t (0 : Fin 2) * 512 + 1 * l.val = 512 * k.val + l.val; rw [e2]; omega
  | ⟨1, _⟩ => show win7_1.index t (1 : Fin 2) * 512 + 1 * q.val = q.val; rw [e3]; omega

def addend7 (c : Dev nD) (p q : Fin 512) (n : ℕ) : EReal :=
  if h : n < cfg7.N then
    ∑ l : Fin 512, ablk7 V c ⟨n, h⟩ (ix2 p l) * bblk7 V c ⟨n, h⟩ (ix2 l q)
  else 0

theorem acc7_last (c : Dev nD) (t : Fin cfg7.N) (i : Fin 20) (ht : t.val = 20 * i.val + 19) (p q : Fin 512) :
    acc7 V c t.val (ix2 p q) = ∑ j : Fin 10240, lhsArr7 V c (ix2 (blkIx7 i p) j) * rhsArr7 V c (ix2 j q) := by
  have hN : cfg7.N = 400 := N_7
  have hi := i.isLt
  rw [ht]
  refine ValLib.acc_blocks (B := 20) (S := 512) (n := 10240) rfl (by omega) cfg7.N (fun n => acc7 V c n (ix2 p q))
    (addend7 V c p q) (fun n hn hm => ?_) (fun n hn hm => ?_) i.val (by omega)
    (fun j => lhsArr7 V c (ix2 (blkIx7 i p) j) * rhsArr7 V c (ix2 j q)) fun k => ?_
  · refine (congrFun (acc7_reset V c ⟨n, hn⟩ hm) (ix2 p q)).trans ?_
    rw [k7_pay2_apply, k7_pay1_apply, addend7, dif_pos hn]
  · refine (congrFun (acc7_step V c ⟨n, hn⟩ hm) (ix2 p q)).trans ?_
    rw [k7_pay2_apply, addend7, dif_pos hn]
  · have hk : 20 * i.val + k.val < cfg7.N := by have := k.isLt; omega
    rw [addend7, dif_pos hk]
    refine Finset.sum_congr rfl fun l _ => ?_
    rw [ablk7_apply V c ⟨20 * i.val + k.val, hk⟩ i k rfl p l, bblk7_apply V c ⟨20 * i.val + k.val, hk⟩ i k rfl l q]

theorem flushed7_eq (c : Dev nD) (t : Fin cfg7.N) (hf : (cfg7.win 2).flush t = true) :
    (dat7 V c).flushed 2 t = ((cfg7.win 2).blk t).view.read (Elt Ideal) (prod7 V c) := by
  have hN : cfg7.N = 400 := N_7
  have h19 : t.val % 20 = 19 := (flush7_2 t).mp hf
  have hi : t.val / 20 < 20 := by have := t.isLt; omega
  obtain ⟨-, -, -, -, e4, e5⟩ := idx_facts7 t
  show (cfg7.win 2).cut (grid7.coords t) ((dat7 V c).after 2 t) = _
  rw [after7_2]
  funext y
  obtain ⟨p, q, rfl⟩ : ∃ (p : Fin 512) (q : Fin 512), y = ix2 p q := ⟨y 0, y 1, eq_ix2 (n0 := 512) (n1 := 512) y⟩
  rw [View.read_apply]
  show acc7 V c t.val (ix2 p q) = prod7 V c (((cfg7.win 2).blk t).view.emb (ix2 p q))
  rw [acc7_last V c t ⟨t.val / 20, hi⟩ (by show t.val = 20 * (t.val / 20) + 19; omega) p q]
  have h0 : (((cfg7.win 2).blk t).view.emb (ix2 p q)) 0 = blkIx7 ⟨t.val / 20, hi⟩ p := by
    apply Fin.ext
    show win7_2.index t (0 : Fin 2) * 512 + 1 * p.val = 512 * (t.val / 20) + p.val
    rw [e4]; omega
  have h1 : (((cfg7.win 2).blk t).view.emb (ix2 p q)) 1 = q := by
    apply Fin.ext
    show win7_2.index t (1 : Fin 2) * 512 + 1 * q.val = q.val
    rw [e5]; omega
  show _ = ∑ j : Fin 10240, lhsArr7 V c (ix2 ((((cfg7.win 2).blk t).view.emb (ix2 p q)) 0) j)
      * rhsArr7 V c (ix2 j ((((cfg7.win 2).blk t).view.emb (ix2 p q)) 1))
  rw [h0, h1]

theorem cover7 (i : S10240x512.Idx) :
    ∃ t : Fin cfg7.N, (cfg7.win 2).flush t = true ∧ i ∈ ((cfg7.win 2).blk t).view.set := by
  have hN : cfg7.N = 400 := N_7
  have hi0 : (i 0).val < 10240 := (i 0).isLt
  have hi1 : (i 1).val < 512 := (i 1).isLt
  obtain ⟨t, ht⟩ : ∃ t : Fin cfg7.N, t.val = 20 * ((i 0).val / 512) + 19 := ⟨⟨20 * ((i 0).val / 512) + 19, by omega⟩, rfl⟩
  obtain ⟨-, -, -, -, e4, e5⟩ := idx_facts7 t
  refine ⟨t, (flush7_2 t).mpr (by omega), ?_⟩
  show i ∈ ((View.whole (Pipeline.arrRef spec7 2)).slice (win7_2.rect t)).set
  rw [View.set_slice_whole, Rect.mem_set_unit]
  intro a
  match a with
  | ⟨0, _⟩ =>
    show win7_2.index t (0 : Fin 2) * 512 ≤ (i 0).val ∧ (i 0).val < win7_2.index t (0 : Fin 2) * 512 + 512
    rw [e4]; omega
  | ⟨1, _⟩ =>
    show win7_2.index t (1 : Fin 2) * 512 ≤ (i 1).val ∧ (i 1).val < win7_2.index t (1 : Fin 2) * 512 + 512
    rw [e5]; omega

theorem out7_val (c : Dev nD) : (dat7 V c).arrAt 2 cfg7.N = prod7 V c :=
  (dat7 V c).arrAt_eq_of_cover 2 (prod7 V c) (flushed7_eq V c) cover7

theorem in7_kept_0 (c : Dev nD) : (dat7 V c).arrAt 0 cfg7.N = V c (Pipeline.arrRef spec7 0) :=
  ((dat7 V c).arrAt_in 0 rfl _).trans (A_eq7 V c 0)
theorem in7_kept_1 (c : Dev nD) : (dat7 V c).arrAt 1 cfg7.N = V c (Pipeline.arrRef spec7 1) :=
  ((dat7 V c).arrAt_in 1 rfl _).trans (A_eq7 V c 1)

end Cert.KernelIdeal.HandVal

end
-- ==== Proof.KI.R8Val.lean ====
import proofs.«177890_j48524540510773_1_alg».proof.Proof.KI.R8Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

local notation "tmR" => 512
local notation "kdR" => 512
local notation "tnR" => 128
local notation "mmR" => 10240
local notation "BlkA" => S512x512
local notation "ArrA" => S10240x512
local notation "ArrB" => S512x128
local notation "BlkO" => S512x128
local notation "ArrO" => S10240x128
local notation "D8" => dot_S512x512_S512x128_S512x128_1_0_0_1_n_n

theorem k8_pay1_apply (p : Fin tmR) (q : Fin tnR) : k8_pay1 (F := Ideal) (ix2 p q) = 0 := by
  unfold k8_pay1
  simp only [shapeCast_self, broadcast_apply]
  exact Ideal.ofBits_zero_f32

theorem k8_pay2_apply (v3 : Vec Ideal BlkO .f32) (v4 : Vec Ideal BlkA .bf16) (v6 : Vec Ideal ArrB .bf16)
    (p : Fin tmR) (q : Fin tnR) :
    k8_pay2 v3 v4 v6 (ix2 p q) = v3 (ix2 p q) + ∑ l : Fin kdR, v4 (ix2 p l) * v6 (ix2 l q) := by
  unfold k8_pay2
  simp only [shapeCast_self, matmul]
  rw [addf_apply, Ideal.matmul_constant_zero_apply]
  exact congrArg (v3 (ix2 p q) + ·) (ValLib.dot_sum' (D8) _ rfl v4 v6 p q)

theorem k8_first_apply (v4 : Vec Ideal BlkA .bf16) (v6 : Vec Ideal ArrB .bf16) (p : Fin tmR) (q : Fin tnR) :
    k8_pay2 (k8_pay1 (F := Ideal)) v4 v6 (ix2 p q) = ∑ l : Fin kdR, v4 (ix2 p l) * v6 (ix2 l q) := by
  rw [k8_pay2_apply, k8_pay1_apply, zero_add]

theorem k8_pay3_apply (v16 : Vec Ideal BlkO .f32) (p : Fin tmR) (q : Fin tnR) :
    k8_pay3 v16 (ix2 p q) = v16 (ix2 p q) := rfl

variable (V : (c : Dev nD) → (b : Ref sig .tc) → Buf (Elt Ideal) ((c : Thread nD τ).loc b))

def prod8 (A : (ArrA).Idx → EReal) (B : (ArrB).Idx → EReal) : (ArrO).Idx → EReal :=
  fun idx => ∑ j : Fin kdR, A (ix2 (idx 0) j) * B (ix2 j (idx 1))

theorem idx_facts8 : ∀ t : Fin cfg8.N,
    win8_0.index t (0 : Fin 2) = win8_2.index t (0 : Fin 2) ∧ win8_0.index t (1 : Fin 2) = 0
    ∧ win8_1.index t (0 : Fin 2) = 0 ∧ win8_1.index t (1 : Fin 2) = win8_2.index t (1 : Fin 2)
    ∧ win8_2.index t (1 : Fin 2) = 0 :=
  (by decide +kernel : ∀ t : Fin grid8.N, _)

theorem idx_onto8 : ∀ q0 : Fin 20, ∃ t : Fin cfg8.N, win8_2.index t = ![q0.val, 0] :=
  (by decide +kernel : ∀ q0 : Fin 20, ∃ t : Fin grid8.N, win8_2.index t = ![q0.val, 0])

theorem flushed8_eq (c : Dev nD) (t : Fin cfg8.N) :
    (dat8 (F := Ideal) V c).flushed 2 t
      = ((cfg8.win 2).blk t).view.read (Elt Ideal) (prod8 (V c (Pipeline.arrRef spec8 0)) (V c (Pipeline.arrRef spec8 1))) := by
  show (cfg8.win 2).cut (grid8.coords t) ((dat8 (F := Ideal) V c).after 2 t) = _
  rw [after8_2, acc8_reset]
  obtain ⟨e00, e01, e10, e11, e21⟩ := idx_facts8 t
  funext j
  have hp : (j 0).val < tmR := (j 0).isLt
  have hq : (j 1).val < tnR := (j 1).isLt
  have hx : (cfg8.win 2).xinj (grid8.coords t) j = ix2 (⟨(j 0).val, hp⟩ : Fin tmR) (⟨(j 1).val, hq⟩ : Fin tnR) :=
    funext fun a => Fin.ext (by match a with | ⟨0, _⟩ => rfl | ⟨1, _⟩ => rfl)
  refine (congrArg (k8_pay3 (k8_pay2 k8_pay1 (iblk8 V c 0 t) (iblk8 V c 1 t))) hx).trans ?_
  rw [k8_pay3_apply, k8_first_apply]
  show _ = prod8 (V c (Pipeline.arrRef spec8 0)) (V c (Pipeline.arrRef spec8 1)) (((cfg8.win 2).blk t).view.emb j)
  unfold prod8
  refine Finset.sum_congr rfl fun l _ => ?_
  have h0 : iblk8 V c 0 t (ix2 (⟨(j 0).val, hp⟩ : Fin tmR) l)
      = V c (Pipeline.arrRef spec8 0) (ix2 ((((cfg8.win 2).blk t).view.emb j) 0) l) := by
    unfold iblk8
    show V c (Pipeline.arrRef spec8 0) (((cfg8.win 0).blk t).view.emb (ix2 (⟨(j 0).val, hp⟩ : Fin tmR) l)) = _
    refine congrArg _ (funext fun a => Fin.ext ?_)
    match a with
    | ⟨0, _⟩ => show win8_0.index t (0 : Fin 2) * tmR + 1 * (j 0).val = win8_2.index t (0 : Fin 2) * tmR + 1 * (j 0).val; omega
    | ⟨1, _⟩ => show win8_0.index t (1 : Fin 2) * kdR + 1 * l.val = l.val; omega
  have h1 : iblk8 V c 1 t (ix2 l (⟨(j 1).val, hq⟩ : Fin tnR))
      = V c (Pipeline.arrRef spec8 1) (ix2 l ((((cfg8.win 2).blk t).view.emb j) 1)) := by
    unfold iblk8
    show V c (Pipeline.arrRef spec8 1) (((cfg8.win 1).blk t).view.emb (ix2 l (⟨(j 1).val, hq⟩ : Fin tnR))) = _
    refine congrArg _ (funext fun a => Fin.ext ?_)
    match a with
    | ⟨0, _⟩ => show win8_1.index t (0 : Fin 2) * kdR + 1 * l.val = l.val; omega
    | ⟨1, _⟩ => show win8_1.index t (1 : Fin 2) * tnR + 1 * (j 1).val = win8_2.index t (1 : Fin 2) * tnR + 1 * (j 1).val; omega
  rw [h0, h1]

theorem cover8 (i : (ArrO).Idx) :
    ∃ t : Fin cfg8.N, (cfg8.win 2).flush t = true ∧ i ∈ ((cfg8.win 2).blk t).view.set := by
  have hi0 : (i 0).val < mmR := (i 0).isLt
  have hi1 : (i 1).val < tnR := (i 1).isLt
  obtain ⟨t, ht⟩ := idx_onto8 ⟨(i 0).val / tmR, by omega⟩
  have q0 : win8_2.index t (0 : Fin 2) = (i 0).val / tmR := congrFun ht 0
  have q1 : win8_2.index t (1 : Fin 2) = 0 := congrFun ht 1
  refine ⟨t, flush8_2 t, ?_⟩
  show i ∈ ((View.whole (Pipeline.arrRef spec8 2)).slice (win8_2.rect t)).set
  rw [View.set_slice_whole, Rect.mem_set_unit]
  intro a
  match a with
  | ⟨0, _⟩ => show win8_2.index t (0 : Fin 2) * tmR ≤ (i 0).val ∧ (i 0).val < win8_2.index t (0 : Fin 2) * tmR + tmR; omega
  | ⟨1, _⟩ => show win8_2.index t (1 : Fin 2) * tnR ≤ (i 1).val ∧ (i 1).val < win8_2.index t (1 : Fin 2) * tnR + tnR; omega

theorem out8_val (c : Dev nD) : (dat8 (F := Ideal) V c).arrAt 2 cfg8.N
    = prod8 (V c (Pipeline.arrRef spec8 0)) (V c (Pipeline.arrRef spec8 1)) :=
  (dat8 (F := Ideal) V c).arrAt_eq_of_cover 2 _ (fun t _ => flushed8_eq V c t) cover8

theorem in8_kept_0 (c : Dev nD) : (dat8 (F := Ideal) V c).arrAt 0 cfg8.N = V c (Pipeline.arrRef spec8 0) :=
  ((dat8 (F := Ideal) V c).arrAt_in 0 rfl _).trans (A_eq8 V c 0)
theorem in8_kept_1 (c : Dev nD) : (dat8 (F := Ideal) V c).arrAt 1 cfg8.N = V c (Pipeline.arrRef spec8 1) :=
  ((dat8 (F := Ideal) V c).arrAt_in 1 rfl _).trans (A_eq8 V c 1)

end Cert.KernelIdeal.HandVal

end
-- ==== Proof.KI.R9Val.lean ====
import proofs.«177890_j48524540510773_1_alg».proof.Proof.KI.R9Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

theorem k9_pay1_apply (x : S512x128.Idx) : (k9_pay1 (F := Ideal)) x = 0 := by
  unfold k9_pay1
  rw [shapeCast_self]
  exact Ideal.ofBits_zero_f32

theorem k9_pay2_apply (v3 : Vec Ideal S512x128 .f32) (v4 : Vec Ideal S512x512 .bf16) (v6 : Vec Ideal S512x128 .bf16)
    (p : Fin 512) (q : Fin 128) :
    k9_pay2 v3 v4 v6 (ix2 p q) = v3 (ix2 p q) + ∑ l : Fin 512, v4 (ix2 p l) * v6 (ix2 l q) := by
  unfold k9_pay2
  simp only [shapeCast_self, matmul]
  rw [addf_apply, Ideal.matmul_constant_zero_apply]
  exact congrArg (v3 (ix2 p q) + ·) (ValLib.dot_sum' dot_S512x512_S512x128_S512x128_1_0_0_1_n_n _ rfl v4 v6 p q)

abbrev blkIx9 (b : Fin 20) (y : Fin 512) : Fin 10240 := ValLib.blk rfl b y

variable (V : (c : Dev nD) → (b : Ref sig .tc) → Buf (Elt Ideal) ((c : Thread nD τ).loc b))

abbrev lhsArr9 (c : Dev nD) : Vec Ideal S10240x10240 .bf16 := V c (Pipeline.arrRef spec9 0)
abbrev rhsArr9 (c : Dev nD) : Vec Ideal S10240x128 .bf16 := V c (Pipeline.arrRef spec9 1)

abbrev prod9 (c : Dev nD) : Vec Ideal S10240x128 .f32 := fun idx =>
  ∑ j : Fin 10240, lhsArr9 V c (ix2 (idx 0) j) * rhsArr9 V c (ix2 j (idx 1))

theorem idx_facts9 : ∀ t : Fin cfg9.N,
    win9_0.index t (0 : Fin 2) = t.val / 20 ∧ win9_0.index t (1 : Fin 2) = t.val % 20
    ∧ win9_1.index t (0 : Fin 2) = t.val % 20 ∧ win9_1.index t (1 : Fin 2) = 0
    ∧ win9_2.index t (0 : Fin 2) = t.val / 20 ∧ win9_2.index t (1 : Fin 2) = 0 :=
  (by decide +kernel : ∀ t : Fin grid9.N, _)

abbrev ablk9 (c : Dev nD) (t : Fin cfg9.N) : Vec Ideal S512x512 .bf16 := iblk9 V c 0 t
abbrev bblk9 (c : Dev nD) (t : Fin cfg9.N) : Vec Ideal S512x128 .bf16 := iblk9 V c 1 t

theorem ablk9_apply (c : Dev nD) (t : Fin cfg9.N) (i k : Fin 20) (ht : t.val = 20 * i.val + k.val) (p l : Fin 512) :
    ablk9 V c t (ix2 p l) = lhsArr9 V c (ix2 (blkIx9 i p) (blkIx9 k l)) := by
  obtain ⟨e0, e1, -, -, -, -⟩ := idx_facts9 t
  have hk := k.isLt
  unfold ablk9 iblk9
  rw [View.read_apply]
  show lhsArr9 V c (((cfg9.win 0).blk t).view.emb (ix2 p l)) = _
  congr 1
  funext a; apply Fin.ext
  match a with
  | ⟨0, _⟩ => show win9_0.index t (0 : Fin 2) * 512 + 1 * p.val = 512 * i.val + p.val; rw [e0]; omega
  | ⟨1, _⟩ => show win9_0.index t (1 : Fin 2) * 512 + 1 * l.val = 512 * k.val + l.val; rw [e1]; omega

theorem bblk9_apply (c : Dev nD) (t : Fin cfg9.N) (i k : Fin 20) (ht : t.val = 20 * i.val + k.val) (l : Fin 512) (q : Fin 128) :
    bblk9 V c t (ix2 l q) = rhsArr9 V c (ix2 (blkIx9 k l) q) := by
  obtain ⟨-, -, e2, e3, -, -⟩ := idx_facts9 t
  have hk := k.isLt
  unfold bblk9 iblk9
  rw [View.read_apply]
  show rhsArr9 V c (((cfg9.win 1).blk t).view.emb (ix2 l q)) = _
  congr 1
  funext a; apply Fin.ext
  match a with
  | ⟨0, _⟩ => show win9_1.index t (0 : Fin 2) * 512 + 1 * l.val = 512 * k.val + l.val; rw [e2]; omega
  | ⟨1, _⟩ => show win9_1.index t (1 : Fin 2) * 128 + 1 * q.val = q.val; rw [e3]; omega

def addend9 (c : Dev nD) (p : Fin 512) (q : Fin 128) (n : ℕ) : EReal :=
  if h : n < cfg9.N then
    ∑ l : Fin 512, ablk9 V c ⟨n, h⟩ (ix2 p l) * bblk9 V c ⟨n, h⟩ (ix2 l q)
  else 0

theorem acc9_last (c : Dev nD) (t : Fin cfg9.N) (i : Fin 20) (ht : t.val = 20 * i.val + 19) (p : Fin 512) (q : Fin 128) :
    acc9 V c t.val (ix2 p q) = ∑ j : Fin 10240, lhsArr9 V c (ix2 (blkIx9 i p) j) * rhsArr9 V c (ix2 j q) := by
  have hN : cfg9.N = 400 := N_9
  have hi := i.isLt
  rw [ht]
  refine ValLib.acc_blocks (B := 20) (S := 512) (n := 10240) rfl (by omega) cfg9.N (fun n => acc9 V c n (ix2 p q))
    (addend9 V c p q) (fun n hn hm => ?_) (fun n hn hm => ?_) i.val (by omega)
    (fun j => lhsArr9 V c (ix2 (blkIx9 i p) j) * rhsArr9 V c (ix2 j q)) fun k => ?_
  · refine (congrFun (acc9_reset V c ⟨n, hn⟩ hm) (ix2 p q)).trans ?_
    rw [k9_pay2_apply, k9_pay1_apply, addend9, dif_pos hn]
  · refine (congrFun (acc9_step V c ⟨n, hn⟩ hm) (ix2 p q)).trans ?_
    rw [k9_pay2_apply, addend9, dif_pos hn]
  · have hk : 20 * i.val + k.val < cfg9.N := by have := k.isLt; omega
    rw [addend9, dif_pos hk]
    refine Finset.sum_congr rfl fun l _ => ?_
    rw [ablk9_apply V c ⟨20 * i.val + k.val, hk⟩ i k rfl p l, bblk9_apply V c ⟨20 * i.val + k.val, hk⟩ i k rfl l q]

theorem flushed9_eq (c : Dev nD) (t : Fin cfg9.N) (hf : (cfg9.win 2).flush t = true) :
    (dat9 V c).flushed 2 t = ((cfg9.win 2).blk t).view.read (Elt Ideal) (prod9 V c) := by
  have hN : cfg9.N = 400 := N_9
  have h19 : t.val % 20 = 19 := (flush9_2 t).mp hf
  have hi : t.val / 20 < 20 := by have := t.isLt; omega
  obtain ⟨-, -, -, -, e4, e5⟩ := idx_facts9 t
  show (cfg9.win 2).cut (grid9.coords t) ((dat9 V c).after 2 t) = _
  rw [after9_2]
  funext y
  obtain ⟨p, q, rfl⟩ : ∃ (p : Fin 512) (q : Fin 128), y = ix2 p q := ⟨y 0, y 1, eq_ix2 (n0 := 512) (n1 := 128) y⟩
  rw [View.read_apply]
  show acc9 V c t.val (ix2 p q) = prod9 V c (((cfg9.win 2).blk t).view.emb (ix2 p q))
  rw [acc9_last V c t ⟨t.val / 20, hi⟩ (by show t.val = 20 * (t.val / 20) + 19; omega) p q]
  have h0 : (((cfg9.win 2).blk t).view.emb (ix2 p q)) 0 = blkIx9 ⟨t.val / 20, hi⟩ p := by
    apply Fin.ext
    show win9_2.index t (0 : Fin 2) * 512 + 1 * p.val = 512 * (t.val / 20) + p.val
    rw [e4]; omega
  have h1 : (((cfg9.win 2).blk t).view.emb (ix2 p q)) 1 = q := by
    apply Fin.ext
    show win9_2.index t (1 : Fin 2) * 128 + 1 * q.val = q.val
    rw [e5]; omega
  show _ = ∑ j : Fin 10240, lhsArr9 V c (ix2 ((((cfg9.win 2).blk t).view.emb (ix2 p q)) 0) j)
      * rhsArr9 V c (ix2 j ((((cfg9.win 2).blk t).view.emb (ix2 p q)) 1))
  rw [h0, h1]

theorem cover9 (i : S10240x128.Idx) :
    ∃ t : Fin cfg9.N, (cfg9.win 2).flush t = true ∧ i ∈ ((cfg9.win 2).blk t).view.set := by
  have hN : cfg9.N = 400 := N_9
  have hi0 : (i 0).val < 10240 := (i 0).isLt
  have hi1 : (i 1).val < 128 := (i 1).isLt
  obtain ⟨t, ht⟩ : ∃ t : Fin cfg9.N, t.val = 20 * ((i 0).val / 512) + 19 := ⟨⟨20 * ((i 0).val / 512) + 19, by omega⟩, rfl⟩
  obtain ⟨-, -, -, -, e4, e5⟩ := idx_facts9 t
  refine ⟨t, (flush9_2 t).mpr (by omega), ?_⟩
  show i ∈ ((View.whole (Pipeline.arrRef spec9 2)).slice (win9_2.rect t)).set
  rw [View.set_slice_whole, Rect.mem_set_unit]
  intro a
  match a with
  | ⟨0, _⟩ =>
    show win9_2.index t (0 : Fin 2) * 512 ≤ (i 0).val ∧ (i 0).val < win9_2.index t (0 : Fin 2) * 512 + 512
    rw [e4]; omega
  | ⟨1, _⟩ =>
    show win9_2.index t (1 : Fin 2) * 128 ≤ (i 1).val ∧ (i 1).val < win9_2.index t (1 : Fin 2) * 128 + 128
    rw [e5]; omega

theorem out9_val (c : Dev nD) : (dat9 V c).arrAt 2 cfg9.N = prod9 V c :=
  (dat9 V c).arrAt_eq_of_cover 2 (prod9 V c) (flushed9_eq V c) cover9

theorem in9_kept_0 (c : Dev nD) : (dat9 V c).arrAt 0 cfg9.N = V c (Pipeline.arrRef spec9 0) :=
  ((dat9 V c).arrAt_in 0 rfl _).trans (A_eq9 V c 0)
theorem in9_kept_1 (c : Dev nD) : (dat9 V c).arrAt 1 cfg9.N = V c (Pipeline.arrRef spec9 1) :=
  ((dat9 V c).arrAt_in 1 rfl _).trans (A_eq9 V c 1)

end Cert.KernelIdeal.HandVal

end
-- ==== Proof.KI.R10Val.lean ====
import proofs.«177890_j48524540510773_1_alg».proof.Proof.KI.R10Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open scoped BigOperators

local notation "tmR" => 512
local notation "kdR" => 512
local notation "tnR" => 128
local notation "mmR" => 10240
local notation "BlkA" => S512x512
local notation "ArrA" => S10240x512
local notation "ArrB" => S512x128
local notation "BlkO" => S512x128
local notation "ArrO" => S10240x128
local notation "D10" => dot_S512x512_S512x128_S512x128_1_0_0_1_n_n

theorem k10_pay1_apply (p : Fin tmR) (q : Fin tnR) : k10_pay1 (F := Ideal) (ix2 p q) = 0 := by
  unfold k10_pay1
  simp only [shapeCast_self, broadcast_apply]
  exact Ideal.ofBits_zero_f32

theorem k10_pay2_apply (v3 : Vec Ideal BlkO .f32) (v4 : Vec Ideal BlkA .bf16) (v6 : Vec Ideal ArrB .bf16)
    (p : Fin tmR) (q : Fin tnR) :
    k10_pay2 v3 v4 v6 (ix2 p q) = v3 (ix2 p q) + ∑ l : Fin kdR, v4 (ix2 p l) * v6 (ix2 l q) := by
  unfold k10_pay2
  simp only [shapeCast_self, matmul]
  rw [addf_apply, Ideal.matmul_constant_zero_apply]
  exact congrArg (v3 (ix2 p q) + ·) (ValLib.dot_sum' (D10) _ rfl v4 v6 p q)

theorem k10_first_apply (v4 : Vec Ideal BlkA .bf16) (v6 : Vec Ideal ArrB .bf16) (p : Fin tmR) (q : Fin tnR) :
    k10_pay2 (k10_pay1 (F := Ideal)) v4 v6 (ix2 p q) = ∑ l : Fin kdR, v4 (ix2 p l) * v6 (ix2 l q) := by
  rw [k10_pay2_apply, k10_pay1_apply, zero_add]

theorem k10_pay3_apply (v16 : Vec Ideal BlkO .f32) (p : Fin tmR) (q : Fin tnR) :
    k10_pay3 v16 (ix2 p q) = v16 (ix2 p q) := rfl

variable (V : (c : Dev nD) → (b : Ref sig .tc) → Buf (Elt Ideal) ((c : Thread nD τ).loc b))

def prod10 (A : (ArrA).Idx → EReal) (B : (ArrB).Idx → EReal) : (ArrO).Idx → EReal :=
  fun idx => ∑ j : Fin kdR, A (ix2 (idx 0) j) * B (ix2 j (idx 1))

theorem idx_facts10 : ∀ t : Fin cfg10.N,
    win10_0.index t (0 : Fin 2) = win10_2.index t (0 : Fin 2) ∧ win10_0.index t (1 : Fin 2) = 0
    ∧ win10_1.index t (0 : Fin 2) = 0 ∧ win10_1.index t (1 : Fin 2) = win10_2.index t (1 : Fin 2)
    ∧ win10_2.index t (1 : Fin 2) = 0 :=
  (by decide +kernel : ∀ t : Fin grid10.N, _)

theorem idx_onto10 : ∀ q0 : Fin 20, ∃ t : Fin cfg10.N, win10_2.index t = ![q0.val, 0] :=
  (by decide +kernel : ∀ q0 : Fin 20, ∃ t : Fin grid10.N, win10_2.index t = ![q0.val, 0])

theorem flushed10_eq (c : Dev nD) (t : Fin cfg10.N) :
    (dat10 (F := Ideal) V c).flushed 2 t
      = ((cfg10.win 2).blk t).view.read (Elt Ideal) (prod10 (V c (Pipeline.arrRef spec10 0)) (V c (Pipeline.arrRef spec10 1))) := by
  show (cfg10.win 2).cut (grid10.coords t) ((dat10 (F := Ideal) V c).after 2 t) = _
  rw [after10_2, acc10_reset]
  obtain ⟨e00, e01, e10, e11, e21⟩ := idx_facts10 t
  funext j
  have hp : (j 0).val < tmR := (j 0).isLt
  have hq : (j 1).val < tnR := (j 1).isLt
  have hx : (cfg10.win 2).xinj (grid10.coords t) j = ix2 (⟨(j 0).val, hp⟩ : Fin tmR) (⟨(j 1).val, hq⟩ : Fin tnR) :=
    funext fun a => Fin.ext (by match a with | ⟨0, _⟩ => rfl | ⟨1, _⟩ => rfl)
  refine (congrArg (k10_pay3 (k10_pay2 k10_pay1 (iblk10 V c 0 t) (iblk10 V c 1 t))) hx).trans ?_
  rw [k10_pay3_apply, k10_first_apply]
  show _ = prod10 (V c (Pipeline.arrRef spec10 0)) (V c (Pipeline.arrRef spec10 1)) (((cfg10.win 2).blk t).view.emb j)
  unfold prod10
  refine Finset.sum_congr rfl fun l _ => ?_
  have h0 : iblk10 V c 0 t (ix2 (⟨(j 0).val, hp⟩ : Fin tmR) l)
      = V c (Pipeline.arrRef spec10 0) (ix2 ((((cfg10.win 2).blk t).view.emb j) 0) l) := by
    unfold iblk10
    show V c (Pipeline.arrRef spec10 0) (((cfg10.win 0).blk t).view.emb (ix2 (⟨(j 0).val, hp⟩ : Fin tmR) l)) = _
    refine congrArg _ (funext fun a => Fin.ext ?_)
    match a with
    | ⟨0, _⟩ => show win10_0.index t (0 : Fin 2) * tmR + 1 * (j 0).val = win10_2.index t (0 : Fin 2) * tmR + 1 * (j 0).val; omega
    | ⟨1, _⟩ => show win10_0.index t (1 : Fin 2) * kdR + 1 * l.val = l.val; omega
  have h1 : iblk10 V c 1 t (ix2 l (⟨(j 1).val, hq⟩ : Fin tnR))
      = V c (Pipeline.arrRef spec10 1) (ix2 l ((((cfg10.win 2).blk t).view.emb j) 1)) := by
    unfold iblk10
    show V c (Pipeline.arrRef spec10 1) (((cfg10.win 1).blk t).view.emb (ix2 l (⟨(j 1).val, hq⟩ : Fin tnR))) = _
    refine congrArg _ (funext fun a => Fin.ext ?_)
    match a with
    | ⟨0, _⟩ => show win10_1.index t (0 : Fin 2) * kdR + 1 * l.val = l.val; omega
    | ⟨1, _⟩ => show win10_1.index t (1 : Fin 2) * tnR + 1 * (j 1).val = win10_2.index t (1 : Fin 2) * tnR + 1 * (j 1).val; omega
  rw [h0, h1]

theorem cover10 (i : (ArrO).Idx) :
    ∃ t : Fin cfg10.N, (cfg10.win 2).flush t = true ∧ i ∈ ((cfg10.win 2).blk t).view.set := by
  have hi0 : (i 0).val < mmR := (i 0).isLt
  have hi1 : (i 1).val < tnR := (i 1).isLt
  obtain ⟨t, ht⟩ := idx_onto10 ⟨(i 0).val / tmR, by omega⟩
  have q0 : win10_2.index t (0 : Fin 2) = (i 0).val / tmR := congrFun ht 0
  have q1 : win10_2.index t (1 : Fin 2) = 0 := congrFun ht 1
  refine ⟨t, flush10_2 t, ?_⟩
  show i ∈ ((View.whole (Pipeline.arrRef spec10 2)).slice (win10_2.rect t)).set
  rw [View.set_slice_whole, Rect.mem_set_unit]
  intro a
  match a with
  | ⟨0, _⟩ => show win10_2.index t (0 : Fin 2) * tmR ≤ (i 0).val ∧ (i 0).val < win10_2.index t (0 : Fin 2) * tmR + tmR; omega
  | ⟨1, _⟩ => show win10_2.index t (1 : Fin 2) * tnR ≤ (i 1).val ∧ (i 1).val < win10_2.index t (1 : Fin 2) * tnR + tnR; omega

theorem out10_val (c : Dev nD) : (dat10 (F := Ideal) V c).arrAt 2 cfg10.N
    = prod10 (V c (Pipeline.arrRef spec10 0)) (V c (Pipeline.arrRef spec10 1)) :=
  (dat10 (F := Ideal) V c).arrAt_eq_of_cover 2 _ (fun t _ => flushed10_eq V c t) cover10

theorem in10_kept_0 (c : Dev nD) : (dat10 (F := Ideal) V c).arrAt 0 cfg10.N = V c (Pipeline.arrRef spec10 0) :=
  ((dat10 (F := Ideal) V c).arrAt_in 0 rfl _).trans (A_eq10 V c 0)
theorem in10_kept_1 (c : Dev nD) : (dat10 (F := Ideal) V c).arrAt 1 cfg10.N = V c (Pipeline.arrRef spec10 1) :=
  ((dat10 (F := Ideal) V c).arrAt_in 1 rfl _).trans (A_eq10 V c 1)

end Cert.KernelIdeal.HandVal

end
-- ==== Proof.KI.R11Val.lean ====
import proofs.«177890_j48524540510773_1_alg».proof.Proof.KI.R11Dat
import proofs.«177890_j48524540510773_1_alg».proof.Proof.KI.ValLib
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

theorem k11_pay1_apply (x : S512x128.Idx) : (k11_pay1 (F := Ideal)) x = 0 := by
  unfold k11_pay1
  rw [shapeCast_self]
  exact Ideal.ofBits_zero_f32

theorem k11_pay2_apply (v3 : Vec Ideal S512x128 .f32) (v4 : Vec Ideal S512x512 .bf16) (v6 : Vec Ideal S512x128 .bf16)
    (p : Fin 512) (q : Fin 128) :
    k11_pay2 v3 v4 v6 (ix2 p q) = v3 (ix2 p q) + ∑ l : Fin 512, v4 (ix2 p l) * v6 (ix2 l q) := by
  unfold k11_pay2
  simp only [shapeCast_self, matmul]
  rw [addf_apply, Ideal.matmul_constant_zero_apply]
  exact congrArg (v3 (ix2 p q) + ·) (ValLib.dot_sum' dot_S512x512_S512x128_S512x128_1_0_0_1_n_n _ rfl v4 v6 p q)

abbrev blkIx11 (b : Fin 20) (y : Fin 512) : Fin 10240 := ValLib.blk rfl b y

variable (V : (c : Dev nD) → (b : Ref sig .tc) → Buf (Elt Ideal) ((c : Thread nD τ).loc b))

abbrev lhsArr11 (c : Dev nD) : Vec Ideal S10240x10240 .bf16 := V c (Pipeline.arrRef spec11 0)
abbrev rhsArr11 (c : Dev nD) : Vec Ideal S10240x128 .bf16 := V c (Pipeline.arrRef spec11 1)

abbrev prod11 (c : Dev nD) : Vec Ideal S10240x128 .f32 := fun idx =>
  ∑ j : Fin 10240, lhsArr11 V c (ix2 (idx 0) j) * rhsArr11 V c (ix2 j (idx 1))

theorem idx_facts11 : ∀ t : Fin cfg11.N,
    win11_0.index t (0 : Fin 2) = t.val / 20 ∧ win11_0.index t (1 : Fin 2) = t.val % 20
    ∧ win11_1.index t (0 : Fin 2) = t.val % 20 ∧ win11_1.index t (1 : Fin 2) = 0
    ∧ win11_2.index t (0 : Fin 2) = t.val / 20 ∧ win11_2.index t (1 : Fin 2) = 0 :=
  (by decide +kernel : ∀ t : Fin grid11.N, _)

abbrev ablk11 (c : Dev nD) (t : Fin cfg11.N) : Vec Ideal S512x512 .bf16 := iblk11 V c 0 t
abbrev bblk11 (c : Dev nD) (t : Fin cfg11.N) : Vec Ideal S512x128 .bf16 := iblk11 V c 1 t

theorem ablk11_apply (c : Dev nD) (t : Fin cfg11.N) (i k : Fin 20) (ht : t.val = 20 * i.val + k.val) (p l : Fin 512) :
    ablk11 V c t (ix2 p l) = lhsArr11 V c (ix2 (blkIx11 i p) (blkIx11 k l)) := by
  obtain ⟨e0, e1, -, -, -, -⟩ := idx_facts11 t
  have hk := k.isLt
  unfold ablk11 iblk11
  rw [View.read_apply]
  show lhsArr11 V c (((cfg11.win 0).blk t).view.emb (ix2 p l)) = _
  congr 1
  funext a; apply Fin.ext
  match a with
  | ⟨0, _⟩ => show win11_0.index t (0 : Fin 2) * 512 + 1 * p.val = 512 * i.val + p.val; rw [e0]; omega
  | ⟨1, _⟩ => show win11_0.index t (1 : Fin 2) * 512 + 1 * l.val = 512 * k.val + l.val; rw [e1]; omega

theorem bblk11_apply (c : Dev nD) (t : Fin cfg11.N) (i k : Fin 20) (ht : t.val = 20 * i.val + k.val) (l : Fin 512) (q : Fin 128) :
    bblk11 V c t (ix2 l q) = rhsArr11 V c (ix2 (blkIx11 k l) q) := by
  obtain ⟨-, -, e2, e3, -, -⟩ := idx_facts11 t
  have hk := k.isLt
  unfold bblk11 iblk11
  rw [View.read_apply]
  show rhsArr11 V c (((cfg11.win 1).blk t).view.emb (ix2 l q)) = _
  congr 1
  funext a; apply Fin.ext
  match a with
  | ⟨0, _⟩ => show win11_1.index t (0 : Fin 2) * 512 + 1 * l.val = 512 * k.val + l.val; rw [e2]; omega
  | ⟨1, _⟩ => show win11_1.index t (1 : Fin 2) * 128 + 1 * q.val = q.val; rw [e3]; omega

def addend11 (c : Dev nD) (p : Fin 512) (q : Fin 128) (n : ℕ) : EReal :=
  if h : n < cfg11.N then
    ∑ l : Fin 512, ablk11 V c ⟨n, h⟩ (ix2 p l) * bblk11 V c ⟨n, h⟩ (ix2 l q)
  else 0

theorem acc11_last (c : Dev nD) (t : Fin cfg11.N) (i : Fin 20) (ht : t.val = 20 * i.val + 19) (p : Fin 512) (q : Fin 128) :
    acc11 V c t.val (ix2 p q) = ∑ j : Fin 10240, lhsArr11 V c (ix2 (blkIx11 i p) j) * rhsArr11 V c (ix2 j q) := by
  have hN : cfg11.N = 400 := N_11
  have hi := i.isLt
  rw [ht]
  refine ValLib.acc_blocks (B := 20) (S := 512) (n := 10240) rfl (by omega) cfg11.N (fun n => acc11 V c n (ix2 p q))
    (addend11 V c p q) (fun n hn hm => ?_) (fun n hn hm => ?_) i.val (by omega)
    (fun j => lhsArr11 V c (ix2 (blkIx11 i p) j) * rhsArr11 V c (ix2 j q)) fun k => ?_
  · refine (congrFun (acc11_reset V c ⟨n, hn⟩ hm) (ix2 p q)).trans ?_
    rw [k11_pay2_apply, k11_pay1_apply, addend11, dif_pos hn]
  · refine (congrFun (acc11_step V c ⟨n, hn⟩ hm) (ix2 p q)).trans ?_
    rw [k11_pay2_apply, addend11, dif_pos hn]
  · have hk : 20 * i.val + k.val < cfg11.N := by have := k.isLt; omega
    rw [addend11, dif_pos hk]
    refine Finset.sum_congr rfl fun l _ => ?_
    rw [ablk11_apply V c ⟨20 * i.val + k.val, hk⟩ i k rfl p l, bblk11_apply V c ⟨20 * i.val + k.val, hk⟩ i k rfl l q]

theorem flushed11_eq (c : Dev nD) (t : Fin cfg11.N) (hf : (cfg11.win 2).flush t = true) :
    (dat11 V c).flushed 2 t = ((cfg11.win 2).blk t).view.read (Elt Ideal) (prod11 V c) := by
  have hN : cfg11.N = 400 := N_11
  have h19 : t.val % 20 = 19 := (flush11_2 t).mp hf
  have hi : t.val / 20 < 20 := by have := t.isLt; omega
  obtain ⟨-, -, -, -, e4, e5⟩ := idx_facts11 t
  show (cfg11.win 2).cut (grid11.coords t) ((dat11 V c).after 2 t) = _
  rw [after11_2]
  funext y
  obtain ⟨p, q, rfl⟩ : ∃ (p : Fin 512) (q : Fin 128), y = ix2 p q := ⟨y 0, y 1, eq_ix2 (n0 := 512) (n1 := 128) y⟩
  rw [View.read_apply]
  show acc11 V c t.val (ix2 p q) = prod11 V c (((cfg11.win 2).blk t).view.emb (ix2 p q))
  rw [acc11_last V c t ⟨t.val / 20, hi⟩ (by show t.val = 20 * (t.val / 20) + 19; omega) p q]
  have h0 : (((cfg11.win 2).blk t).view.emb (ix2 p q)) 0 = blkIx11 ⟨t.val / 20, hi⟩ p := by
    apply Fin.ext
    show win11_2.index t (0 : Fin 2) * 512 + 1 * p.val = 512 * (t.val / 20) + p.val
    rw [e4]; omega
  have h1 : (((cfg11.win 2).blk t).view.emb (ix2 p q)) 1 = q := by
    apply Fin.ext
    show win11_2.index t (1 : Fin 2) * 128 + 1 * q.val = q.val
    rw [e5]; omega
  show _ = ∑ j : Fin 10240, lhsArr11 V c (ix2 ((((cfg11.win 2).blk t).view.emb (ix2 p q)) 0) j)
      * rhsArr11 V c (ix2 j ((((cfg11.win 2).blk t).view.emb (ix2 p q)) 1))
  rw [h0, h1]

theorem cover11 (i : S10240x128.Idx) :
    ∃ t : Fin cfg11.N, (cfg11.win 2).flush t = true ∧ i ∈ ((cfg11.win 2).blk t).view.set := by
  have hN : cfg11.N = 400 := N_11
  have hi0 : (i 0).val < 10240 := (i 0).isLt
  have hi1 : (i 1).val < 128 := (i 1).isLt
  obtain ⟨t, ht⟩ : ∃ t : Fin cfg11.N, t.val = 20 * ((i 0).val / 512) + 19 := ⟨⟨20 * ((i 0).val / 512) + 19, by omega⟩, rfl⟩
  obtain ⟨-, -, -, -, e4, e5⟩ := idx_facts11 t
  refine ⟨t, (flush11_2 t).mpr (by omega), ?_⟩
  show i ∈ ((View.whole (Pipeline.arrRef spec11 2)).slice (win11_2.rect t)).set
  rw [View.set_slice_whole, Rect.mem_set_unit]
  intro a
  match a with
  | ⟨0, _⟩ =>
    show win11_2.index t (0 : Fin 2) * 512 ≤ (i 0).val ∧ (i 0).val < win11_2.index t (0 : Fin 2) * 512 + 512
    rw [e4]; omega
  | ⟨1, _⟩ =>
    show win11_2.index t (1 : Fin 2) * 128 ≤ (i 1).val ∧ (i 1).val < win11_2.index t (1 : Fin 2) * 128 + 128
    rw [e5]; omega

theorem out11_val (c : Dev nD) : (dat11 V c).arrAt 2 cfg11.N = prod11 V c :=
  (dat11 V c).arrAt_eq_of_cover 2 (prod11 V c) (flushed11_eq V c) cover11

theorem in11_kept_0 (c : Dev nD) : (dat11 V c).arrAt 0 cfg11.N = V c (Pipeline.arrRef spec11 0) :=
  ((dat11 V c).arrAt_in 0 rfl _).trans (A_eq11 V c 0)
theorem in11_kept_1 (c : Dev nD) : (dat11 V c).arrAt 1 cfg11.N = V c (Pipeline.arrRef spec11 1) :=
  ((dat11 V c).arrAt_in 1 rfl _).trans (A_eq11 V c 1)

end Cert.KernelIdeal.HandVal

end
-- ==== Proof.KI.Keeps.lean ====
import proofs.«177890_j48524540510773_1_alg».proof.Proof.KI.Fold
import proofs.«177890_j48524540510773_1_alg».proof.Proof.KI.HostKeeps
import proofs.«177890_j48524540510773_1_alg».proof.Proof.LibMatProd
import proofs.«177890_j48524540510773_1_alg».proof.Proof.KI.R0Val
import proofs.«177890_j48524540510773_1_alg».proof.Proof.KI.R1Val
import proofs.«177890_j48524540510773_1_alg».proof.Proof.KI.R2Val
import proofs.«177890_j48524540510773_1_alg».proof.Proof.KI.R3Val
import proofs.«177890_j48524540510773_1_alg».proof.Proof.KI.R4Val
import proofs.«177890_j48524540510773_1_alg».proof.Proof.KI.R5Val
import proofs.«177890_j48524540510773_1_alg».proof.Proof.KI.R6Val
import proofs.«177890_j48524540510773_1_alg».proof.Proof.KI.R7Val
import proofs.«177890_j48524540510773_1_alg».proof.Proof.KI.R8Val
import proofs.«177890_j48524540510773_1_alg».proof.Proof.KI.R9Val
import proofs.«177890_j48524540510773_1_alg».proof.Proof.KI.R10Val
import proofs.«177890_j48524540510773_1_alg».proof.Proof.KI.R11Val

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open MatProd

variable (m : (ℓ : Loc nD τ sig) → Buf (Elt Ideal) ℓ) (ρ : Dev nD → PrngReg) (c : Dev nD)

-- a region changes only its result: the two operands come back as they were, every other reference is untouched
theorem keep_of {W' W : Valuation τ sig (Elt Ideal)} {a : Fin 3 → Ref sig .tc} {A : ∀ w : Fin 3, _}
    (hne : ∀ b, (∀ w, a w ≠ b) → W' (Proc.devRef .tc b) = W (Proc.devRef .tc b))
    (harr : ∀ w, W' (Proc.devRef .tc (a w)) = A w)
    (h0 : A 0 = W (Proc.devRef .tc (a 0))) (h1 : A 1 = W (Proc.devRef .tc (a 1)))
    (b : Ref sig .tc) (hb : b ≠ a 2) : W' (Proc.devRef .tc b) = W (Proc.devRef .tc b) := by
  by_cases e0 : b = a 0
  · subst e0; exact (harr 0).trans h0
  by_cases e1 : b = a 1
  · subst e1; exact (harr 1).trans h1
  exact hne b fun w => match w with
    | ⟨0, _⟩ => Ne.symm e0 | ⟨1, _⟩ => Ne.symm e1 | ⟨2, _⟩ => Ne.symm hb
    | ⟨n + 3, h⟩ => absurd h (Nat.not_lt.2 (Nat.le_add_left _ _))

theorem keep0 (b : Ref sig .tc) (hb : b ≠ main_v103) :
    W4 m ρ c (Proc.devRef .tc b) = W3 m ρ c (Proc.devRef .tc b) :=
  keep_of (W4_of_ne m ρ c) (W4_arr m ρ c) (in0_kept_0 (V_entry0 m ρ) c) (in0_kept_1 (V_entry0 m ρ) c) b hb
theorem out0_at : W4 m ρ c (Proc.devRef .tc main_v103)
    = mmP (M := 10240) (K := 10240) (N := 512) (W3 m ρ c (Proc.devRef .tc main_v49)) (W3 m ρ c (Proc.devRef .tc main_v101)) :=
  (W4_arr m ρ c 2).trans (out0_val (V_entry0 m ρ) c)

theorem keep1 (b : Ref sig .tc) (hb : b ≠ main_v104) :
    W5 m ρ c (Proc.devRef .tc b) = W4 m ρ c (Proc.devRef .tc b) :=
  keep_of (W5_of_ne m ρ c) (W5_arr m ρ c) (in1_kept_0 (V_entry1 m ρ) c) (in1_kept_1 (V_entry1 m ρ) c) b hb
theorem out1_at : W5 m ρ c (Proc.devRef .tc main_v104)
    = mmP (M := 10240) (K := 512) (N := 1024) (W4 m ρ c (Proc.devRef .tc main_v103)) (W4 m ρ c (Proc.devRef .tc main_v102)) :=
  (W5_arr m ρ c 2).trans (out1_val (V_entry1 m ρ) c)

theorem keep2 (b : Ref sig .tc) (hb : b ≠ main_v110) :
    W9 m ρ c (Proc.devRef .tc b) = W8 m ρ c (Proc.devRef .tc b) :=
  keep_of (W9_of_ne m ρ c) (W9_arr m ρ c) (in2_kept_0 (V_entry2 m ρ) c) (in2_kept_1 (V_entry2 m ρ) c) b hb
theorem out2_at : W9 m ρ c (Proc.devRef .tc main_v110)
    = mmP (M := 10240) (K := 10240) (N := 512) (W8 m ρ c (Proc.devRef .tc main_v99)) (W8 m ρ c (Proc.devRef .tc main_v101)) :=
  (W9_arr m ρ c 2).trans (out2_val (V_entry2 m ρ) c)

theorem keep3 (b : Ref sig .tc) (hb : b ≠ main_v111) :
    W10 m ρ c (Proc.devRef .tc b) = W9 m ρ c (Proc.devRef .tc b) :=
  keep_of (W10_of_ne m ρ c) (W10_arr m ρ c) (in3_kept_0 (V_entry3 m ρ) c) (in3_kept_1 (V_entry3 m ρ) c) b hb
theorem out3_at : W10 m ρ c (Proc.devRef .tc main_v111)
    = mmP (M := 10240) (K := 512) (N := 1024) (W9 m ρ c (Proc.devRef .tc main_v110)) (W9 m ρ c (Proc.devRef .tc main_v109)) :=
  (W10_arr m ρ c 2).trans (out3_val (V_entry3 m ρ) c)

theorem keep4 (b : Ref sig .tc) (hb : b ≠ main_v140) :
    W14 m ρ c (Proc.devRef .tc b) = W13 m ρ c (Proc.devRef .tc b) :=
  keep_of (W14_of_ne m ρ c) (W14_arr m ρ c) (in4_kept_0 (V_entry4 m ρ) c) (in4_kept_1 (V_entry4 m ρ) c) b hb
theorem out4_at : W14 m ρ c (Proc.devRef .tc main_v140)
    = mmP (M := 10240) (K := 1024) (N := 512) (W13 m ρ c (Proc.devRef .tc main_v138)) (W13 m ρ c (Proc.devRef .tc main_v139)) :=
  (W14_arr m ρ c 2).trans (out4_val (V_entry4 m ρ) c)

theorem keep5 (b : Ref sig .tc) (hb : b ≠ main_v141) :
    W15 m ρ c (Proc.devRef .tc b) = W14 m ρ c (Proc.devRef .tc b) :=
  keep_of (W15_of_ne m ρ c) (W15_arr m ρ c) (in5_kept_0 (V_entry5 m ρ) c) (in5_kept_1 (V_entry5 m ρ) c) b hb
theorem out5_at : W15 m ρ c (Proc.devRef .tc main_v141)
    = mmP (M := 10240) (K := 10240) (N := 512) (W14 m ρ c (Proc.devRef .tc main_v49)) (W14 m ρ c (Proc.devRef .tc main_v140)) :=
  (W15_arr m ρ c 2).trans (out5_val (V_entry5 m ρ) c)

theorem keep6 (b : Ref sig .tc) (hb : b ≠ main_v147) :
    W19 m ρ c (Proc.devRef .tc b) = W18 m ρ c (Proc.devRef .tc b) :=
  keep_of (W19_of_ne m ρ c) (W19_arr m ρ c) (in6_kept_0 (V_entry6 m ρ) c) (in6_kept_1 (V_entry6 m ρ) c) b hb
theorem out6_at : W19 m ρ c (Proc.devRef .tc main_v147)
    = mmP (M := 10240) (K := 1024) (N := 512) (W18 m ρ c (Proc.devRef .tc main_v138)) (W18 m ρ c (Proc.devRef .tc main_v146)) :=
  (W19_arr m ρ c 2).trans (out6_val (V_entry6 m ρ) c)

theorem keep7 (b : Ref sig .tc) (hb : b ≠ main_v148) :
    W20 m ρ c (Proc.devRef .tc b) = W19 m ρ c (Proc.devRef .tc b) :=
  keep_of (W20_of_ne m ρ c) (W20_arr m ρ c) (in7_kept_0 (V_entry7 m ρ) c) (in7_kept_1 (V_entry7 m ρ) c) b hb
theorem out7_at : W20 m ρ c (Proc.devRef .tc main_v148)
    = mmP (M := 10240) (K := 10240) (N := 512) (W19 m ρ c (Proc.devRef .tc main_v99)) (W19 m ρ c (Proc.devRef .tc main_v147)) :=
  (W20_arr m ρ c 2).trans (out7_val (V_entry7 m ρ) c)

theorem keep8 (b : Ref sig .tc) (hb : b ≠ main_v177) :
    W24 m ρ c (Proc.devRef .tc b) = W23 m ρ c (Proc.devRef .tc b) :=
  keep_of (W24_of_ne m ρ c) (W24_arr m ρ c) (in8_kept_0 (V_entry8 m ρ) c) (in8_kept_1 (V_entry8 m ρ) c) b hb
theorem out8_at : W24 m ρ c (Proc.devRef .tc main_v177)
    = mmP (M := 10240) (K := 512) (N := 128) (W23 m ρ c (Proc.devRef .tc main_v175)) (W23 m ρ c (Proc.devRef .tc main_v176)) :=
  (W24_arr m ρ c 2).trans (out8_val (V_entry8 m ρ) c)

theorem keep9 (b : Ref sig .tc) (hb : b ≠ main_v178) :
    W25 m ρ c (Proc.devRef .tc b) = W24 m ρ c (Proc.devRef .tc b) :=
  keep_of (W25_of_ne m ρ c) (W25_arr m ρ c) (in9_kept_0 (V_entry9 m ρ) c) (in9_kept_1 (V_entry9 m ρ) c) b hb
theorem out9_at : W25 m ρ c (Proc.devRef .tc main_v178)
    = mmP (M := 10240) (K := 10240) (N := 128) (W24 m ρ c (Proc.devRef .tc main_v49)) (W24 m ρ c (Proc.devRef .tc main_v177)) :=
  (W25_arr m ρ c 2).trans (out9_val (V_entry9 m ρ) c)

theorem keep10 (b : Ref sig .tc) (hb : b ≠ main_v184) :
    W29 m ρ c (Proc.devRef .tc b) = W28 m ρ c (Proc.devRef .tc b) :=
  keep_of (W29_of_ne m ρ c) (W29_arr m ρ c) (in10_kept_0 (V_entry10 m ρ) c) (in10_kept_1 (V_entry10 m ρ) c) b hb
theorem out10_at : W29 m ρ c (Proc.devRef .tc main_v184)
    = mmP (M := 10240) (K := 512) (N := 128) (W28 m ρ c (Proc.devRef .tc main_v175)) (W28 m ρ c (Proc.devRef .tc main_v183)) :=
  (W29_arr m ρ c 2).trans (out10_val (V_entry10 m ρ) c)

theorem keep11 (b : Ref sig .tc) (hb : b ≠ main_v185) :
    W30 m ρ c (Proc.devRef .tc b) = W29 m ρ c (Proc.devRef .tc b) :=
  keep_of (W30_of_ne m ρ c) (W30_arr m ρ c) (in11_kept_0 (V_entry11 m ρ) c) (in11_kept_1 (V_entry11 m ρ) c) b hb
theorem out11_at : W30 m ρ c (Proc.devRef .tc main_v185)
    = mmP (M := 10240) (K := 10240) (N := 128) (W29 m ρ c (Proc.devRef .tc main_v99)) (W29 m ρ c (Proc.devRef .tc main_v184)) :=
  (W30_arr m ρ c 2).trans (out11_val (V_entry11 m ρ) c)

theorem blk0 (b : Ref sig .tc) (h0 : b ≠ main_v103) (h1 : b ≠ main_v104) (hg : b ∉ hostOps2_W ++ hostOps2_1_W ++ hostOps2_2_W) :
    W8 m ρ c (Proc.devRef .tc b) = W3 m ρ c (Proc.devRef .tc b) :=
  ((group2_of (W5 m ρ c) b hg).trans (keep1 m ρ c b h1)).trans (keep0 m ρ c b h0)
theorem blk1 (b : Ref sig .tc) (h0 : b ≠ main_v110) (h1 : b ≠ main_v111) (hg : b ∉ hostOps4_W ++ hostOps4_1_W ++ hostOps4_2_W) :
    W13 m ρ c (Proc.devRef .tc b) = W8 m ρ c (Proc.devRef .tc b) :=
  ((group4_of (W10 m ρ c) b hg).trans (keep3 m ρ c b h1)).trans (keep2 m ρ c b h0)
theorem blk2 (b : Ref sig .tc) (h0 : b ≠ main_v140) (h1 : b ≠ main_v141) (hg : b ∉ hostOps6_W ++ hostOps6_1_W ++ hostOps6_2_W) :
    W18 m ρ c (Proc.devRef .tc b) = W13 m ρ c (Proc.devRef .tc b) :=
  ((group6_of (W15 m ρ c) b hg).trans (keep5 m ρ c b h1)).trans (keep4 m ρ c b h0)
theorem blk3 (b : Ref sig .tc) (h0 : b ≠ main_v147) (h1 : b ≠ main_v148) (hg : b ∉ hostOps8_W ++ hostOps8_1_W ++ hostOps8_2_W) :
    W23 m ρ c (Proc.devRef .tc b) = W18 m ρ c (Proc.devRef .tc b) :=
  ((group8_of (W20 m ρ c) b hg).trans (keep7 m ρ c b h1)).trans (keep6 m ρ c b h0)
theorem blk4 (b : Ref sig .tc) (h0 : b ≠ main_v177) (h1 : b ≠ main_v178) (hg : b ∉ hostOps10_W ++ hostOps10_1_W ++ hostOps10_2_W) :
    W28 m ρ c (Proc.devRef .tc b) = W23 m ρ c (Proc.devRef .tc b) :=
  ((group10_of (W25 m ρ c) b hg).trans (keep9 m ρ c b h1)).trans (keep8 m ρ c b h0)

theorem v49_at14 : W14 m ρ c (Proc.devRef .tc main_v49) = W3 m ρ c (Proc.devRef .tc main_v49) :=
  ((keep4 m ρ c main_v49 (by decide)).trans (blk1 m ρ c main_v49 (by decide) (by decide) (by decide))).trans (blk0 m ρ c main_v49 (by decide) (by decide) (by decide))
theorem v49_at24 : W24 m ρ c (Proc.devRef .tc main_v49) = W3 m ρ c (Proc.devRef .tc main_v49) :=
  ((((keep8 m ρ c main_v49 (by decide)).trans (blk3 m ρ c main_v49 (by decide) (by decide) (by decide))).trans (blk2 m ρ c main_v49 (by decide) (by decide) (by decide))).trans (blk1 m ρ c main_v49 (by decide) (by decide) (by decide))).trans (blk0 m ρ c main_v49 (by decide) (by decide) (by decide))
theorem v99_at8 : W8 m ρ c (Proc.devRef .tc main_v99) = W3 m ρ c (Proc.devRef .tc main_v99) :=
  blk0 m ρ c main_v99 (by decide) (by decide) (by decide)
theorem v99_at19 : W19 m ρ c (Proc.devRef .tc main_v99) = W3 m ρ c (Proc.devRef .tc main_v99) :=
  (((keep6 m ρ c main_v99 (by decide)).trans (blk2 m ρ c main_v99 (by decide) (by decide) (by decide))).trans (blk1 m ρ c main_v99 (by decide) (by decide) (by decide))).trans (blk0 m ρ c main_v99 (by decide) (by decide) (by decide))
theorem v99_at29 : W29 m ρ c (Proc.devRef .tc main_v99) = W3 m ρ c (Proc.devRef .tc main_v99) :=
  (((((keep10 m ρ c main_v99 (by decide)).trans (blk4 m ρ c main_v99 (by decide) (by decide) (by decide))).trans (blk3 m ρ c main_v99 (by decide) (by decide) (by decide))).trans (blk2 m ρ c main_v99 (by decide) (by decide) (by decide))).trans (blk1 m ρ c main_v99 (by decide) (by decide) (by decide))).trans (blk0 m ρ c main_v99 (by decide) (by decide) (by decide))
theorem v101_at8 : W8 m ρ c (Proc.devRef .tc main_v101) = W3 m ρ c (Proc.devRef .tc main_v101) :=
  blk0 m ρ c main_v101 (by decide) (by decide) (by decide)
theorem v102_at4 : W4 m ρ c (Proc.devRef .tc main_v102) = W3 m ρ c (Proc.devRef .tc main_v102) :=
  keep0 m ρ c main_v102 (by decide)
theorem v108_at10 : W10 m ρ c (Proc.devRef .tc main_v108) = W8 m ρ c (Proc.devRef .tc main_v108) :=
  (keep3 m ρ c main_v108 (by decide)).trans (keep2 m ρ c main_v108 (by decide))
theorem v109_at9 : W9 m ρ c (Proc.devRef .tc main_v109) = W8 m ρ c (Proc.devRef .tc main_v109) :=
  keep2 m ρ c main_v109 (by decide)
theorem v138_at18 : W18 m ρ c (Proc.devRef .tc main_v138) = W13 m ρ c (Proc.devRef .tc main_v138) :=
  blk2 m ρ c main_v138 (by decide) (by decide) (by decide)
theorem v145_at20 : W20 m ρ c (Proc.devRef .tc main_v145) = W18 m ρ c (Proc.devRef .tc main_v145) :=
  (keep7 m ρ c main_v145 (by decide)).trans (keep6 m ρ c main_v145 (by decide))
theorem v175_at28 : W28 m ρ c (Proc.devRef .tc main_v175) = W23 m ρ c (Proc.devRef .tc main_v175) :=
  blk4 m ρ c main_v175 (by decide) (by decide) (by decide)
theorem v182_at30 : W30 m ρ c (Proc.devRef .tc main_v182) = W28 m ρ c (Proc.devRef .tc main_v182) :=
  (keep11 m ρ c main_v182 (by decide)).trans (keep10 m ρ c main_v182 (by decide))

end Cert.KernelIdeal.HandVal

end
-- ==== Proof.Spec.lean ====
import Idealize.ShloMosaic.PureOps
import Idealize.ShloMosaic.PureOps.Ideal
import Idealize.ShloMosaic.Lib.ValueIdx
import Idealize.ShloMosaic.Lib.StableHlo

noncomputable section

namespace Cert.Hand.Spec

open Idealize.ShloMosaic Idealize.ShloMosaic.ValueIdx

abbrev S0 : Shape := ⟨0, ![]⟩
abbrev Vec (n : Nat) : Shape := ⟨1, ![n]⟩
abbrev Mat (r c : Nat) : Shape := ⟨2, ![r, c]⟩

structure EdgeShapes (E0 E : Nat) : Prop where
  slice0 : (Mat 2 E0).Slices ![0, 0] (Mat 1 E0)
  slice1 : (Mat 2 E0).Slices ![1, 0] (Mat 1 E0)
  cast : (Mat 1 E0).ShapeCasts (Vec E0)
  cat : Shape.Concatenates [Vec E0, Vec 10000] (Vec E) 0
  b0E : S0.BroadcastsInDim (Vec E) (![] : Fin 0 → Fin 1)
  bEE1 : (Vec E).BroadcastsInDim (Mat E 1) (![0] : Fin 1 → Fin 2)
  b0N : S0.BroadcastsInDim (Vec 10000) (![] : Fin 0 → Fin 1)
  scat : ScatterDims.WF (Vec 10000) (Mat E 1) (Vec E) [] [0] [0] 1
  gath : GatherDims.WF (Vec 10000) (Mat E 1) (Vec E) [] [0] [] [0] [] 1 ![1]

structure ConvShapes (E C : Nat) : Prop where
  gath : GatherDims.WF (Mat 10000 C) (Mat E 1) (Mat E C) [1] [0] [] [0] [] 1 ![1, C]
  scat : ScatterDims.WF (Mat 10000 C) (Mat E 1) (Mat E C) [1] [0] [0] 1
  bE1EC : (Mat E 1).BroadcastsInDim (Mat E C) (![0, 1] : Fin 2 → Fin 2)
  b0NC : S0.BroadcastsInDim (Mat 10000 C) (![] : Fin 0 → Fin 2)

structure RowShapes (R C : Nat) : Prop where
  b0RC : S0.BroadcastsInDim (Mat R C) (![] : Fin 0 → Fin 2)
  bC1C : (Vec C).BroadcastsInDim (Mat 1 C) (![1] : Fin 1 → Fin 2)
  b1CRC : (Mat 1 C).BroadcastsInDim (Mat R C) (![0, 1] : Fin 2 → Fin 2)

structure SoftShapes (C : Nat) : Prop where
  red : (Mat C 2).ReducesTo [1] (Vec C)
  pos : 0 < S0.numel
  b0C : S0.BroadcastsInDim (Vec C) (![] : Fin 0 → Fin 1)
  bCC1 : (Vec C).BroadcastsInDim (Mat C 1) (![0] : Fin 1 → Fin 2)
  bC1C2 : (Mat C 1).BroadcastsInDim (Mat C 2) (![0, 1] : Fin 2 → Fin 2)
  slice0 : (Mat C 2).Slices ![0, 0] (Mat C 1)
  slice1 : (Mat C 2).Slices ![0, 1] (Mat C 1)
  cast : (Mat C 1).ShapeCasts (Vec C)

section Edges

variable {E0 E : Nat} (h : EdgeShapes E0 E)

def row0 (e : IVec (Mat 2 E0) 32) : IVec (Vec E0) 32 :=
  shapeCast (Vec E0) (extractStridedSlice (Mat 1 E0) ![0, 0] e h.slice0) h.cast

def row1 (e : IVec (Mat 2 E0) 32) : IVec (Vec E0) 32 :=
  shapeCast (Vec E0) (extractStridedSlice (Mat 1 E0) ![1, 0] e h.slice1) h.cast

def withLoops (v : IVec (Vec E0) 32) : IVec (Vec E) 32 :=
  concatenate (Vec E) 0 [⟨Vec E0, v⟩, ⟨Vec 10000, iotaInDim (Vec 10000) 32 0⟩] h.cat

def srcOf (e : IVec (Mat 2 E0) 32) : IVec (Vec E) 32 := withLoops h (row0 h e)

def dstOf (e : IVec (Mat 2 E0) 32) : IVec (Vec E) 32 := withLoops h (row1 h e)

def wrap (v : IVec (Vec E) 32) : IVec (Vec E) 32 :=
  select (cmpi .slt v (broadcastInDim (Vec E) ![] h.b0E (constantI S0 32 0#32)))
    (addi v (broadcastInDim (Vec E) ![] h.b0E (constantI S0 32 10000#32))) v

def col {α : Type} (v : (Vec E).Idx → α) : (Mat E 1).Idx → α := broadcastInDim (Mat E 1) ![0] h.bEE1 v

def scatVec : ScatterDims (Vec 10000) (Mat E 1) (Vec E) where
  updateWindowDims := []
  insertedWindowDims := [0]
  scatterDimsToOperandDims := [0]
  indexVectorDim := 1
  wf := h.scat

def gathVec : GatherDims (Vec 10000) (Mat E 1) (Vec E) where
  offsetDims := []
  collapsedSliceDims := [0]
  operandBatchingDims := []
  startIndicesBatchingDims := []
  startIndexMap := [0]
  indexVectorDim := 1
  sliceSizes := ![1]
  wf := h.gath

def deg (d : IVec (Vec E) 32) : FVec Ideal (Vec 10000) .f32 :=
  Host.scatterAdd (scatVec h) (broadcastInDim (Vec 10000) ![] h.b0N (constant (F := Ideal) S0 .f32 0x00000000#32))
    (col h (wrap h d)) (broadcastInDim (Vec E) ![] h.b0E (constant (F := Ideal) S0 .f32 0x3F800000#32))

def dinv (d : IVec (Vec E) 32) : FVec Ideal (Vec 10000) .f32 :=
  Host.rsqrt (maximumf (deg h d) (broadcastInDim (Vec 10000) ![] h.b0N (constant (F := Ideal) S0 .f32 0x3F800000#32)))

def normOf (s d : IVec (Vec E) 32) : FVec Ideal (Vec E) .f32 :=
  mulf (Host.gather (gathVec h) (dinv h d) (col h (wrap h s))) (Host.gather (gathVec h) (dinv h d) (col h (wrap h d)))

variable {C : Nat} (g : ConvShapes E C)

def gathRows : GatherDims (Mat 10000 C) (Mat E 1) (Mat E C) where
  offsetDims := [1]
  collapsedSliceDims := [0]
  operandBatchingDims := []
  startIndicesBatchingDims := []
  startIndexMap := [0]
  indexVectorDim := 1
  sliceSizes := ![1, C]
  wf := g.gath

def scatRows : ScatterDims (Mat 10000 C) (Mat E 1) (Mat E C) where
  updateWindowDims := [1]
  insertedWindowDims := [0]
  scatterDimsToOperandDims := [0]
  indexVectorDim := 1
  wf := g.scat

def convCore (H : FVec Ideal (Mat 10000 C) .f32) (s d : IVec (Vec E) 32) (norm : FVec Ideal (Vec E) .f32) :
    FVec Ideal (Mat 10000 C) .f32 :=
  Host.scatterAdd (scatRows g) (broadcastInDim (Mat 10000 C) ![] g.b0NC (constant (F := Ideal) S0 .f32 0x00000000#32)) (col h d)
    (mulf (Host.gather (gathRows g) H (col h (wrap h s))) (broadcastInDim (Mat E C) ![0, 1] g.bE1EC (col h norm)))

end Edges

section Rows

variable {R C : Nat} (r : RowShapes R C)

def rowBcast (b : FVec Ideal (Vec C) .f32) : FVec Ideal (Mat R C) .f32 :=
  broadcastInDim (Mat R C) ![0, 1] r.b1CRC (broadcastInDim (Mat 1 C) ![1] r.bC1C b)

def addBias (x : FVec Ideal (Mat R C) .f32) (b : FVec Ideal (Vec C) .f32) : FVec Ideal (Mat R C) .f32 :=
  addf x (rowBcast r b)

def elu (x : FVec Ideal (Mat R C) .f32) : FVec Ideal (Mat R C) .f32 :=
  select (cmpf .ogt x (broadcastInDim (Mat R C) ![] r.b0RC (constant (F := Ideal) S0 .f32 0x00000000#32))) x
    (mulf (broadcastInDim (Mat R C) ![] r.b0RC (constant (F := Ideal) S0 .f32 0x3F800000#32))
      (Host.expm1 (select (cmpf .ogt x (broadcastInDim (Mat R C) ![] r.b0RC (constant (F := Ideal) S0 .f32 0x00000000#32)))
        (broadcastInDim (Mat R C) ![] r.b0RC (constant (F := Ideal) S0 .f32 0x00000000#32)) x)))

variable (σ : SoftShapes C)

def softmaxW (aw : FVec Ideal (Mat C 2) .f32) : FVec Ideal (Mat C 2) .f32 :=
  Host.divf
    (Host.exp (subf aw (broadcastInDim (Mat C 2) ![0, 1] σ.bC1C2 (broadcastInDim (Mat C 1) ![0] σ.bCC1
      (maximumf (broadcastInDim (Vec C) ![] σ.b0C (constant (F := Ideal) S0 .f32 0xFF800000#32))
        (Host.reduce FloatOps.maximumf aw (constant (F := Ideal) S0 .f32 0xFF800000#32) σ.red σ.pos))))))
    (broadcastInDim (Mat C 2) ![0, 1] σ.bC1C2 (broadcastInDim (Mat C 1) ![0] σ.bCC1
      (Host.reduceAdd
        (Host.exp (subf aw (broadcastInDim (Mat C 2) ![0, 1] σ.bC1C2 (broadcastInDim (Mat C 1) ![0] σ.bCC1
          (maximumf (broadcastInDim (Vec C) ![] σ.b0C (constant (F := Ideal) S0 .f32 0xFF800000#32))
            (Host.reduce FloatOps.maximumf aw (constant (F := Ideal) S0 .f32 0xFF800000#32) σ.red σ.pos))))))
        (constant (F := Ideal) S0 .f32 0x00000000#32) σ.red σ.pos)))

def colW0 (w : FVec Ideal (Mat C 2) .f32) : FVec Ideal (Vec C) .f32 :=
  shapeCast (Vec C) (extractStridedSlice (Mat C 1) ![0, 0] w σ.slice0) σ.cast
def colW1 (w : FVec Ideal (Mat C 2) .f32) : FVec Ideal (Vec C) .f32 :=
  shapeCast (Vec C) (extractStridedSlice (Mat C 1) ![0, 1] w σ.slice1) σ.cast

def aggr (aw : FVec Ideal (Mat C 2) .f32) (x1 x2 : FVec Ideal (Mat R C) .f32) : FVec Ideal (Mat R C) .f32 :=
  addf (mulf x1 (rowBcast r (colW0 σ (softmaxW σ aw)))) (mulf x2 (rowBcast r (colW1 σ (softmaxW σ aw))))

end Rows

section Layer

variable {E0 E E0' E' K C : Nat}

def mm (x : FVec Ideal (Mat 10000 K) .f32) (W : FVec Ideal (Mat K C) .f32) : FVec Ideal (Mat 10000 C) .f32 :=
  Host.dotGeneral (DotDims.plain 10000 K C) none x W

def convOn (h : EdgeShapes E0 E) (g : ConvShapes E C) (r : RowShapes 10000 C)
    (x : FVec Ideal (Mat 10000 K) .f32) (W : FVec Ideal (Mat K C) .f32) (b : FVec Ideal (Vec C) .f32) (s d : IVec (Vec E) 32) :
    FVec Ideal (Mat 10000 C) .f32 :=
  addBias r (convCore h g (mm x W) s d (normOf h s d)) b

def conv (h : EdgeShapes E0 E) (g : ConvShapes E C) (r : RowShapes 10000 C)
    (x : FVec Ideal (Mat 10000 K) .f32) (W : FVec Ideal (Mat K C) .f32) (b : FVec Ideal (Vec C) .f32) (e : IVec (Mat 2 E0) 32) :
    FVec Ideal (Mat 10000 C) .f32 :=
  convOn h g r x W b (srcOf h e) (dstOf h e)

def layer (h1 : EdgeShapes E0 E) (h2 : EdgeShapes E0' E') (g1 : ConvShapes E C) (g2 : ConvShapes E' C) (r : RowShapes 10000 C)
    (σ : SoftShapes C) (x : FVec Ideal (Mat 10000 K) .f32) (e1 : IVec (Mat 2 E0) 32) (e2 : IVec (Mat 2 E0') 32)
    (W1 : FVec Ideal (Mat K C) .f32) (b1 : FVec Ideal (Vec C) .f32) (W2 : FVec Ideal (Mat K C) .f32) (b2 : FVec Ideal (Vec C) .f32)
    (aw : FVec Ideal (Mat C 2) .f32) : FVec Ideal (Mat 10000 C) .f32 :=
  aggr r σ aw (elu r (conv h1 g1 r x W1 b1 e1)) (elu r (conv h2 g2 r x W2 b2 e2))

end Layer

theorem es1 : EdgeShapes 80000 90000 := ⟨by decide, by decide, by decide, by decide, by decide, by decide, by decide, by decide, by decide⟩
theorem es2 : EdgeShapes 160000 170000 := ⟨by decide, by decide, by decide, by decide, by decide, by decide, by decide, by decide, by decide⟩
theorem cs1_1024 : ConvShapes 90000 1024 := ⟨by decide, by decide, by decide, by decide⟩
theorem cs2_1024 : ConvShapes 170000 1024 := ⟨by decide, by decide, by decide, by decide⟩
theorem cs1_512 : ConvShapes 90000 512 := ⟨by decide, by decide, by decide, by decide⟩
theorem cs2_512 : ConvShapes 170000 512 := ⟨by decide, by decide, by decide, by decide⟩
theorem cs1_128 : ConvShapes 90000 128 := ⟨by decide, by decide, by decide, by decide⟩
theorem cs2_128 : ConvShapes 170000 128 := ⟨by decide, by decide, by decide, by decide⟩
theorem rs1024 : RowShapes 10000 1024 := ⟨by decide, by decide, by decide⟩
theorem rs512 : RowShapes 10000 512 := ⟨by decide, by decide, by decide⟩
theorem rs128 : RowShapes 10000 128 := ⟨by decide, by decide, by decide⟩
theorem ss1024 : SoftShapes 1024 := ⟨by decide, by decide, by decide, by decide, by decide, by decide, by decide, by decide⟩
theorem ss512 : SoftShapes 512 := ⟨by decide, by decide, by decide, by decide, by decide, by decide, by decide, by decide⟩
theorem ss128 : SoftShapes 128 := ⟨by decide, by decide, by decide, by decide, by decide, by decide, by decide, by decide⟩

def layer1 (x : FVec Ideal (Mat 10000 512) .f32) (e1 : IVec (Mat 2 80000) 32) (e2 : IVec (Mat 2 160000) 32)
    (W1 : FVec Ideal (Mat 512 1024) .f32) (b1 : FVec Ideal (Vec 1024) .f32) (W2 : FVec Ideal (Mat 512 1024) .f32)
    (b2 : FVec Ideal (Vec 1024) .f32) (aw : FVec Ideal (Mat 1024 2) .f32) : FVec Ideal (Mat 10000 1024) .f32 :=
  layer es1 es2 cs1_1024 cs2_1024 rs1024 ss1024 x e1 e2 W1 b1 W2 b2 aw

def layer2 (x : FVec Ideal (Mat 10000 1024) .f32) (e1 : IVec (Mat 2 80000) 32) (e2 : IVec (Mat 2 160000) 32)
    (W1 : FVec Ideal (Mat 1024 512) .f32) (b1 : FVec Ideal (Vec 512) .f32) (W2 : FVec Ideal (Mat 1024 512) .f32)
    (b2 : FVec Ideal (Vec 512) .f32) (aw : FVec Ideal (Mat 512 2) .f32) : FVec Ideal (Mat 10000 512) .f32 :=
  layer es1 es2 cs1_512 cs2_512 rs512 ss512 x e1 e2 W1 b1 W2 b2 aw

def layer3 (x : FVec Ideal (Mat 10000 512) .f32) (e1 : IVec (Mat 2 80000) 32) (e2 : IVec (Mat 2 160000) 32)
    (W1 : FVec Ideal (Mat 512 128) .f32) (b1 : FVec Ideal (Vec 128) .f32) (W2 : FVec Ideal (Mat 512 128) .f32)
    (b2 : FVec Ideal (Vec 128) .f32) (aw : FVec Ideal (Mat 128 2) .f32) : FVec Ideal (Mat 10000 128) .f32 :=
  layer es1 es2 cs1_128 cs2_128 rs128 ss128 x e1 e2 W1 b1 W2 b2 aw

def out (x : FVec Ideal (Mat 10000 512) .f32) (e1 : IVec (Mat 2 80000) 32) (e2 : IVec (Mat 2 160000) 32)
    (W11 : FVec Ideal (Mat 512 1024) .f32) (b11 : FVec Ideal (Vec 1024) .f32)
    (W12 : FVec Ideal (Mat 512 1024) .f32) (b12 : FVec Ideal (Vec 1024) .f32)
    (W21 : FVec Ideal (Mat 1024 512) .f32) (b21 : FVec Ideal (Vec 512) .f32)
    (W22 : FVec Ideal (Mat 1024 512) .f32) (b22 : FVec Ideal (Vec 512) .f32)
    (W31 : FVec Ideal (Mat 512 128) .f32) (b31 : FVec Ideal (Vec 128) .f32)
    (W32 : FVec Ideal (Mat 512 128) .f32) (b32 : FVec Ideal (Vec 128) .f32)
    (aw1 : FVec Ideal (Mat 1024 2) .f32) (aw2 : FVec Ideal (Mat 512 2) .f32) (aw3 : FVec Ideal (Mat 128 2) .f32) :
    FVec Ideal (Mat 10000 128) .f32 :=
  layer3 (layer2 (layer1 x e1 e2 W11 b11 W12 b12 aw1) e1 e2 W21 b21 W22 b22 aw2) e1 e2 W31 b31 W32 b32 aw3

end Cert.Hand.Spec

end
-- ==== Proof.KI.HostLib.lean ====
import proofs.«177890_j48524540510773_1_alg».proof.Proof.Gen.KernelIdeal.Launch
import proofs.«177890_j48524540510773_1_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem
open Cert.Hand

theorem rs10240_1024 : Spec.RowShapes 10240 1024 := ⟨by decide, by decide, by decide⟩
theorem rs10240_512 : Spec.RowShapes 10240 512 := ⟨by decide, by decide, by decide⟩
theorem rs10240_128 : Spec.RowShapes 10240 128 := ⟨by decide, by decide, by decide⟩

def rows10000 {c : ℕ} (x : (⟨2, ![10240, c]⟩ : Shape).Idx → EReal) : (⟨2, ![10000, c]⟩ : Shape).Idx → EReal :=
  fun j => x (ix2 ⟨(j 0).val, Nat.lt_of_lt_of_le (idx2_lt0 j) (by decide)⟩ (j 1))

theorem rows10000_apply {c : ℕ} (x : (⟨2, ![10240, c]⟩ : Shape).Idx → EReal) (i : Fin 10000) (k : Fin c) :
    rows10000 x (ix2 i k) = x (ix2 (Fin.castLE (by decide) i) k) := rfl

theorem slice_rows10000 {c : ℕ} (h : (⟨2, ![10240, c]⟩ : Shape).Slices ![0, 0] ⟨2, ![10000, c]⟩)
    (x : (⟨2, ![10240, c]⟩ : Shape).Idx → EReal) :
    extractStridedSlice ⟨2, ![10000, c]⟩ ![0, 0] x h = rows10000 x := by
  funext j
  obtain ⟨i, k, rfl⟩ : ∃ i k, j = ix2 i k := ⟨j 0, j 1, eq_ix2 j⟩
  exact slice2_axis0_apply 0 x h i k ⟨i.val, Nat.lt_of_lt_of_le i.isLt (by decide)⟩ (Nat.zero_add _).symm

end Cert.KernelIdeal.HandVal
-- ==== Proof.LibScatter2.lean ====
import Idealize.ShloMosaic.PureOps.Ideal
import Idealize.ShloMosaic.PureOps.Contract
import Idealize.ShloMosaic.Lib.ValueIdx

noncomputable section

namespace Idealize.ShloMosaic.PairOps

open Idealize.ShloMosaic Idealize.ShloMosaic.ValueIdx

theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

theorem resultIdx_pair_iff {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1) (idx : IVec ⟨2, ![E, 2]⟩ w) (e : Fin E) (i : Fin N) (j : Fin M) :
    d.resultIdx? (ix1 e) idx = some (ix2 i j) ↔
      (idx (ix2 e (0 : Fin 2))).toInt = (i.val : Int) ∧ (idx (ix2 e (1 : Fin 2))).toInt = (j.val : Int) := by
  have hsk : d.sKept = [] := by
    show (⟨2, ![N, M]⟩ : Shape).kept d.insertedWindowDims = []
    rw [hiw]; rfl
  have coord0 : ∀ X : Fin 1, ((ix1 e) X).val = e.val := fun X => by
    obtain rfl : X = 0 := Subsingleton.elim _ _
    rfl
  have hst : ∀ a : Fin 2, d.start (ix1 e) idx a = (idx (ix2 e a)).toInt := by
    intro a
    have ha : a ∈ d.scatterDimsToOperandDims := by
      rw [hsd]; match a with
      | ⟨0, _⟩ => exact List.mem_cons_self
      | ⟨1, _⟩ => exact List.mem_cons_of_mem _ List.mem_cons_self
    unfold ScatterDims.start
    rw [dif_pos ha]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf a d.scatterDimsToOperandDims = a.val
      rw [hsd]
      match a with
      | ⟨0, _⟩ => rfl
      | ⟨1, _⟩ => rfl
  have hw : ∀ a : Fin 2, d.window (ix1 e) a = 0 := fun a => by
    unfold ScatterDims.window; rw [dif_neg (by rw [hsk]; simp)]
  unfold ScatterDims.resultIdx?
  split
  ·
    rename_i h
    rw [Option.some.injEq]
    constructor
    · intro hf
      have h0 : (d.start (ix1 e) idx 0 + d.window (ix1 e) 0).toNat = i.val := congrArg (fun f => (f 0).val) hf
      have h1 : (d.start (ix1 e) idx 1 + d.window (ix1 e) 1).toNat = j.val := congrArg (fun f => (f 1).val) hf
      have hh0 := (h 0).1
      have hh1 := (h 1).1
      rw [hst, hw] at h0 hh0 h1 hh1
      exact ⟨by omega, by omega⟩
    · rintro ⟨hi, hj⟩
      funext a
      match a with
      | ⟨0, _⟩ =>
        apply Fin.ext
        show (d.start (ix1 e) idx 0 + d.window (ix1 e) 0).toNat = i.val
        rw [hst, hw, hi]; omega
      | ⟨1, _⟩ =>
        apply Fin.ext
        show (d.start (ix1 e) idx 1 + d.window (ix1 e) 1).toNat = j.val
        rw [hst, hw, hj]; omega
  ·
    rename_i h
    constructor
    · intro hf; exact absurd hf (by simp)
    · rintro ⟨hi, hj⟩
      exfalso; apply h
      intro a
      match a with
      | ⟨0, _⟩ =>
        show 0 ≤ d.start (ix1 e) idx 0 + d.window (ix1 e) 0 ∧ d.start (ix1 e) idx 0 + d.window (ix1 e) 0 < (N : Int)
        rw [hst, hw, hi]; have := i.isLt; omega
      | ⟨1, _⟩ =>
        show 0 ≤ d.start (ix1 e) idx 1 + d.window (ix1 e) 1 ∧ d.start (ix1 e) idx 1 + d.window (ix1 e) 1 < (M : Int)
        rw [hst, hw, hj]; have := j.isLt; omega

theorem scatterAdd_pair_apply {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j)
      = x (ix2 i j) + ∑ e : Fin E,
          if (idx (ix2 e (0 : Fin 2))).toInt = (i.val : Int) ∧ (idx (ix2 e (1 : Fin 2))).toInt = (j.val : Int)
          then upd (ix1 e) else 0 := by
  unfold Ideal.hostScatterAdd
  congr 1
  rw [Finset.sum_filter, sum_idx1]
  refine Finset.sum_congr rfl fun e _ => ?_
  by_cases he : (idx (ix2 e (0 : Fin 2))).toInt = (i.val : Int) ∧ (idx (ix2 e (1 : Fin 2))).toInt = (j.val : Int)
  · rw [if_pos he, if_pos ((resultIdx_pair_iff d hiw hsd hivd idx e i j).2 he)]
  · rw [if_neg he, if_neg fun h => he ((resultIdx_pair_iff d hiw hsd hivd idx e i j).1 h)]

theorem gather_vec_apply {α : Type} {N E w : Nat} (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 (⟨min (idx (ix2 e (0 : Fin 1))).toInt.toNat (N - 1), by omega⟩ : Fin N)) := by
  unfold Host.gather
  congr 1
  funext a
  obtain rfl : a = 0 := Subsingleton.elim _ _
  have coord0 : ∀ X : Fin 1, ((ix1 e) X).val = e.val := fun X => by
    obtain rfl : X = 0 := Subsingleton.elim _ _
    rfl
  apply Fin.ext
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  show d.start (ix1 e) idx 0 + d.batchCoord (ix1 e) 0 + d.offCoord (ix1 e) 0 = min (idx (ix2 e 0)).toInt.toNat (N - 1)
  rw [GatherDims.batchCoord_eq_zero _ _ _ (by rw [hob]; exact List.not_mem_nil), GatherDims.offCoord_eq_zero _ _ _ hk]
  simp only [Nat.add_zero]
  unfold GatherDims.start
  rw [dif_pos hm]
  show min (idx _).toInt.toNat (N - d.sliceSizes 0) = _
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    exact coord0 _
  | ⟨1, _⟩ =>
    unfold GatherDims.siIdx
    rw [dif_pos (by rw [hivd])]
    apply Fin.ext
    show List.idxOf (0 : Fin 1) d.startIndexMap = 0
    rw [hsim]; simp

end Idealize.ShloMosaic.PairOps

end
-- ==== Proof.KI.AdjSpec.lean ====
import proofs.«177890_j48524540510773_1_alg».proof.Proof.Spec
import proofs.«177890_j48524540510773_1_alg».proof.Proof.LibScatter2
import Idealize.ShloMosaic.PureOps.Ideal.Laws
import Idealize.ShloMosaic.Lib.ValueLayout
import Idealize.ShloMosaic.Lib.Pipeline.Value

noncomputable section

namespace Cert.KernelIdeal.HandVal

open Idealize.ShloMosaic Idealize.ShloMosaic.ValueIdx Cert.Hand.Spec

theorem bcast0_apply {α : Type} {t : Shape} (hb : S0.BroadcastsInDim t (![] : Fin 0 → Fin t.rank)) (c : S0.Idx → α) (j : t.Idx) :
    broadcastInDim t ![] hb c j = c ix0 :=
  broadcastInDim_apply _ hb c j ix0 (fun a => a.elim0)

theorem colRead {α : Type} {E : Nat} (hb : (Vec E).BroadcastsInDim (Mat E 1) (![0] : Fin 1 → Fin 2)) (v : (Vec E).Idx → α)
    (x : Fin E) (z : Fin 1) : broadcastInDim (Mat E 1) ![0] hb v (ix2 x z) = v (ix1 x) :=
  broadcastInDim_apply _ hb v _ (ix1 x) (fun a => by
    obtain rfl : a = 0 := Subsingleton.elim _ _
    show x.val = if E = 1 then 0 else x.val
    split
    · have := x.isLt; omega
    · rfl)

theorem wrapRead {E : Nat} (hb : S0.BroadcastsInDim (Vec E) (![] : Fin 0 → Fin 1)) (n : BitVec 32) (v : IVec (Vec E) 32)
    (k : (Vec E).Idx) (hk : 0 ≤ (v k).toInt) :
    select (cmpi .slt v (broadcastInDim (Vec E) ![] hb (constantI S0 32 0#32)))
      (addi v (broadcastInDim (Vec E) ![] hb (constantI S0 32 n))) v k = v k := by
  rw [select_apply]
  have hc : cmpi .slt v (broadcastInDim (Vec E) ![] hb (constantI S0 32 0#32)) k = 0#1 := by
    show IntOp.cmpi .slt (v k) (broadcastInDim (Vec E) ![] hb (constantI S0 32 0#32) k) = 0#1
    rw [bcast0_apply, constantI_apply]
    unfold IntOp.cmpi
    have hlt : (v k).slt 0#32 = false := by
      rw [BitVec.slt]; simp; omega
    simp [hlt]
  rw [hc, select_zero]

theorem pairRead0 {α : Type} {E : Nat} (hc : Shape.Concatenates [Mat E 1, Mat E 1] (Mat E 2) 1) (a b : (Mat E 1).Idx → α) (x : Fin E) :
    concatenate (Mat E 2) 1 [⟨Mat E 1, a⟩, ⟨Mat E 1, b⟩] hc (ix2 x (0 : Fin 2)) = a (ix2 x (0 : Fin 1)) :=
  concatenate_pair_apply_left 1 a b hc _ rfl (ix2 x 0) (fun c => by
    match c with
    | ⟨0, _⟩ => rfl
    | ⟨1, _⟩ => rfl)

theorem pairRead1 {α : Type} {E : Nat} (hc : Shape.Concatenates [Mat E 1, Mat E 1] (Mat E 2) 1) (a b : (Mat E 1).Idx → α) (x : Fin E) :
    concatenate (Mat E 2) 1 [⟨Mat E 1, a⟩, ⟨Mat E 1, b⟩] hc (ix2 x (1 : Fin 2)) = b (ix2 x (0 : Fin 1)) :=
  concatenate_pair_apply_right 1 a b hc _ rfl rfl (ix2 x 0) (fun c hne => by
    match c with
    | ⟨0, _⟩ => rfl
    | ⟨1, _⟩ => exact absurd rfl hne) rfl

structure AdjShapes (E : Nat) : Prop where
  b0NN : S0.BroadcastsInDim (Mat 10240 10240) (![] : Fin 0 → Fin 2)
  cat2 : Shape.Concatenates [Mat E 1, Mat E 1] (Mat E 2) 1
  scat2 : ScatterDims.WF (Mat 10240 10240) (Mat E 2) (Vec E) [] [0, 1] [0, 1] 1
  lt : FTy.bits .bf16 < FTy.bits .f32

theorem as1 : AdjShapes 90000 := ⟨by decide, by decide, by decide, by decide⟩
theorem as2 : AdjShapes 170000 := ⟨by decide, by decide, by decide, by decide⟩

section Canvas

variable {E0 E : Nat} (h : EdgeShapes E0 E) (a : AdjShapes E)

def wrapP (v : IVec (Vec E) 32) : IVec (Vec E) 32 :=
  select (cmpi .slt v (broadcastInDim (Vec E) ![] h.b0E (constantI S0 32 0#32)))
    (addi v (broadcastInDim (Vec E) ![] h.b0E (constantI S0 32 10240#32))) v

def scatPair : ScatterDims (Mat 10240 10240) (Mat E 2) (Vec E) where
  updateWindowDims := []
  insertedWindowDims := [0, 1]
  scatterDimsToOperandDims := [0, 1]
  indexVectorDim := 1
  wf := a.scat2

def adjOfVec (s d : IVec (Vec E) 32) (nrm : FVec Ideal (Vec E) .f32) : FVec Ideal (Mat 10240 10240) .bf16 :=
  truncf .bf16 (Host.scatterAdd (scatPair a)
    (broadcastInDim (Mat 10240 10240) ![] a.b0NN (constant (F := Ideal) S0 .f32 0x00000000#32))
    (concatenate (Mat E 2) 1 [⟨Mat E 1, col h (wrapP h d)⟩, ⟨Mat E 1, col h (wrapP h s)⟩] a.cat2) nrm) a.lt

def adjOf (e : IVec (Mat 2 E0) 32) : FVec Ideal (Mat 10240 10240) .bf16 :=
  adjOfVec h a (srcOf h e) (dstOf h e) (normOf h (srcOf h e) (dstOf h e))

theorem adjOfVec_apply (s d : IVec (Vec E) 32) (nrm : FVec Ideal (Vec E) .f32)
    (hs : ∀ x : Fin E, 0 ≤ (s (ix1 x)).toInt) (hd : ∀ x : Fin E, 0 ≤ (d (ix1 x)).toInt) (i j : Fin 10240) :
    adjOfVec h a s d nrm (ix2 i j)
      = ∑ x : Fin E, if (d (ix1 x)).toInt = (i.val : Int) ∧ (s (ix1 x)).toInt = (j.val : Int) then nrm (ix1 x) else 0 := by
  unfold adjOfVec
  rw [truncf_apply]
  show Ideal.hostScatterAdd (scatPair a) _ _ nrm (ix2 i j) = _
  rw [PairOps.scatterAdd_pair_apply (scatPair a) rfl rfl rfl, bcast0_apply, constant_apply, Ideal.ofBits_zero_f32, zero_add]
  refine Finset.sum_congr rfl fun x _ => ?_
  rw [pairRead0, pairRead1]
  unfold col wrapP
  rw [colRead, colRead, wrapRead _ _ _ _ (hd x), wrapRead _ _ _ _ (hs x)]

end Canvas

end Cert.KernelIdeal.HandVal

end
-- ==== Proof.KI.Host0Frame.lean ====
import proofs.«177890_j48524540510773_1_alg».proof.Proof.Gen.KernelIdeal.Launch
import Idealize.ShloMosaic.Lib.ValueIdx
import Idealize.ShloMosaic.Lib.KernelVsHost

set_option maxRecDepth 8000

noncomputable section

namespace Cert.KernelIdeal.HandVal

open Idealize.ShloMosaic Idealize.ShloMosaic.ValueIdx Cert.KernelIdeal Cert.KernelIdeal.Gen

abbrev host0Writes : List (Ref sig .tc) :=
  [main_v0, main_v1, main_v2, main_v3, main_v4, main_v5, main_v6, main_cst, main_v7, main_c, main_v8, main_v9, main_c_0, main_v10, main_v11, main_v12, main_v13, main_cst_1, main_v14, main_v15, main_cst_2, main_v16, main_v17, main_v18, main_c_3, main_v19, main_v20, main_c_4, main_v21, main_v22, main_v23, main_v24, main_v25, main_c_5, main_v26, main_v27, main_c_6, main_v28, main_v29, main_v30, main_v31, main_v32, main_v33, main_cst_7, main_v34, main_c_8, main_v35, main_v36, main_c_9, main_v37, main_v38, main_v39, main_c_10, main_v40, main_v41, main_c_11, main_v42, main_v43, main_v44, main_v45, main_v46, main_v47, main_v48, main_v49, main_v50, main_v51, main_v52, main_v53, main_v54, main_v55, main_v56, main_cst_12, main_v57, main_c_13, main_v58, main_v59, main_c_14, main_v60, main_v61, main_v62, main_v63, main_cst_15, main_v64, main_v65, main_cst_16, main_v66, main_v67, main_v68, main_c_17, main_v69, main_v70, main_c_18, main_v71, main_v72, main_v73, main_v74, main_v75, main_c_19, main_v76, main_v77, main_c_20, main_v78, main_v79, main_v80, main_v81, main_v82, main_v83, main_cst_21, main_v84, main_c_22, main_v85, main_v86, main_c_23, main_v87, main_v88, main_v89, main_c_24, main_v90, main_v91, main_c_25, main_v92, main_v93, main_v94, main_v95, main_v96, main_v97, main_v98, main_v99, main_c_26]

set_option maxHeartbeats 4000000 in
theorem host0_writes : (hostOps0 (F := Ideal)).Forall fun op => op.writes ⊆ (host0Writes.map (Proc.devRef (τ := τ) .tc)).toFinset := by
  unfold hostOps0
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem host0_frame (W : Valuation τ sig (Elt Ideal)) (r : Ref sig .tc) (hr : r ∉ host0Writes) :
    StableHlo.after (hostOps0 (F := Ideal)) W (Proc.devRef .tc r) = W (Proc.devRef .tc r) :=
  StableHlo.after_of_writes_sub _ W host0_writes hr

set_option maxHeartbeats 4000000 in
theorem host0_c26 (W : Valuation τ sig (Elt Ideal)) :
    StableHlo.after (hostOps0 (F := Ideal)) W (Proc.devRef .tc main_c_26) = (constantI S_ 32 0#32 : IVec S_ 32) := by
  unfold hostOps0
  after_results_simp

theorem host0_1_v100 (W : Valuation τ sig (Elt Ideal)) :
    StableHlo.after (hostOps0_1 (F := Ideal)) W (Proc.devRef .tc main_v100)
      = (pad S10240x512 ![0, 0] ![240, 0] ![0, 0] (W (Proc.devRef .tc main_arg0) : FVec Ideal S10000x512 .f32)
          (sitofp .f32 (W (Proc.devRef .tc main_c_26) : IVec S_ 32) : FVec Ideal S_ .f32)
          pads_S10000x512_S10240x512_02400_000 h_S_ : FVec Ideal S10240x512 .f32) := by
  unfold hostOps0_1
  after_results_simp <;> (try simp only [StableHlo.TRef.ofBuf, StableHlo.TRef.toBuf, cast_eq]) <;> rfl

theorem host0_2_v101 (W : Valuation τ sig (Elt Ideal)) :
    StableHlo.after (hostOps0_2 (F := Ideal)) W (Proc.devRef .tc main_v101)
      = (truncf .bf16 (W (Proc.devRef .tc main_v100) : FVec Ideal S10240x512 .f32) bitsLt_bf16_f32 : FVec Ideal S10240x512 .bf16) := by
  unfold hostOps0_2
  after_results_simp

theorem host0_2_v102 (W : Valuation τ sig (Elt Ideal)) :
    StableHlo.after (hostOps0_2 (F := Ideal)) W (Proc.devRef .tc main_v102)
      = (truncf .bf16 (W (Proc.devRef .tc main_arg3) : FVec Ideal S512x1024 .f32) bitsLt_bf16_f32 : FVec Ideal S512x1024 .bf16) := by
  unfold hostOps0_2
  after_results_simp

theorem host0_1_frame (W : Valuation τ sig (Elt Ideal)) (r : Ref sig .tc) (h1 : r ≠ main_call0_v0) (h2 : r ≠ main_v100) :
    StableHlo.after (hostOps0_1 (F := Ideal)) W (Proc.devRef .tc r) = W (Proc.devRef .tc r) := by
  unfold hostOps0_1
  simp only [StableHlo.after_cons, StableHlo.after_nil]
  rw [StableHlo.binary_result_ne (h := h2), StableHlo.unary_result_ne (h := h1)]

theorem host0_2_frame (W : Valuation τ sig (Elt Ideal)) (r : Ref sig .tc) (h1 : r ≠ main_v101) (h2 : r ≠ main_v102) :
    StableHlo.after (hostOps0_2 (F := Ideal)) W (Proc.devRef .tc r) = W (Proc.devRef .tc r) := by
  unfold hostOps0_2
  simp only [StableHlo.after_cons, StableHlo.after_nil]
  rw [StableHlo.unary_result_ne (h := h2), StableHlo.unary_result_ne (h := h1)]

def xpad (x : FVec Ideal S10000x512 .f32) : FVec Ideal S10240x512 .bf16 :=
  truncf .bf16 (pad S10240x512 ![0, 0] ![240, 0] ![0, 0] x (sitofp .f32 (constantI S_ 32 0#32 : IVec S_ 32) : FVec Ideal S_ .f32)
    pads_S10000x512_S10240x512_02400_000 h_S_) bitsLt_bf16_f32

theorem xpad_apply (x : FVec Ideal S10000x512 .f32) (i : Fin 10240) (k : Fin 512) :
    xpad x (ix2 i k) = if h : i.val < 10000 then x (ix2 ⟨i.val, h⟩ k) else 0 := by
  unfold xpad
  rw [truncf_apply]
  by_cases h : i.val < 10000
  · rw [dif_pos h]
    refine pad_apply_of_inside _ _ _ x _ _ _ (ix2 i k) (ix2 ⟨i.val, h⟩ k) (fun a => ?_)
    match a with
    | ⟨0, _⟩ => show i.val = 0 + i.val * (0 + 1); omega
    | ⟨1, _⟩ => show k.val = 0 + k.val * (0 + 1); omega
  · rw [dif_neg h]
    rw [pad_apply_of_not_inside _ _ _ x _ _ _ (ix2 i k) (0 : Fin 2) (by
      show ¬(0 ≤ i.val ∧ (i.val - 0) % (0 + 1) = 0 ∧ (i.val - 0) / (0 + 1) < 10000)
      omega)]
    show ((((0#32 : BitVec 32).toInt : ℝ)) : EReal) = 0
    simp

end Cert.KernelIdeal.HandVal

end
-- ==== Proof.KI.Host0Val.lean ====
import proofs.«177890_j48524540510773_1_alg».proof.Proof.Gen.KernelIdeal.Launch
import proofs.«177890_j48524540510773_1_alg».proof.Proof.KI.AdjSpec
import proofs.«177890_j48524540510773_1_alg».proof.Proof.KI.Host0Frame

set_option maxRecDepth 8000

noncomputable section

namespace Cert.KernelIdeal.HandVal

open Idealize.ShloMosaic Idealize.ShloMosaic.ValueIdx Cert.KernelIdeal Cert.KernelIdeal.Gen Cert.Hand.Spec

def adj1 (e : IVec S2x80000 32) : FVec Ideal S10240x10240 .bf16 := adjOf es1 as1 e

def adj2 (e : IVec S2x160000 32) : FVec Ideal S10240x10240 .bf16 := adjOf es2 as2 e

set_option maxHeartbeats 4000000 in
theorem host0_adj1 (W : Valuation τ sig (Elt Ideal)) :
    StableHlo.after (hostOps0 (F := Ideal)) W (Proc.devRef .tc main_v49) = adj1 (W (Proc.devRef .tc main_arg1)) := by
  unfold hostOps0
  after_results_simp
  rfl

set_option maxHeartbeats 4000000 in
theorem host0_adj2 (W : Valuation τ sig (Elt Ideal)) :
    StableHlo.after (hostOps0 (F := Ideal)) W (Proc.devRef .tc main_v99) = adj2 (W (Proc.devRef .tc main_arg2)) := by
  unfold hostOps0
  after_results_simp
  rfl

theorem host0_all (W : Valuation τ sig (Elt Ideal)) :
    let W' := StableHlo.after (hostOps0_2 (F := Ideal)) (StableHlo.after (hostOps0_1 (F := Ideal)) (StableHlo.after (hostOps0 (F := Ideal)) W))
    W' (Proc.devRef .tc main_v49) = adj1 (W (Proc.devRef .tc main_arg1))
    ∧ W' (Proc.devRef .tc main_v99) = adj2 (W (Proc.devRef .tc main_arg2))
    ∧ W' (Proc.devRef .tc main_v101) = xpad (W (Proc.devRef .tc main_arg0))
    ∧ W' (Proc.devRef .tc main_v102)
        = (truncf .bf16 (W (Proc.devRef .tc main_arg3) : FVec Ideal S512x1024 .f32) bitsLt_bf16_f32 : FVec Ideal S512x1024 .bf16) := by
  intro W'
  refine ⟨?_, ?_, ?_, ?_⟩
  · show StableHlo.after (hostOps0_2 (F := Ideal)) _ (Proc.devRef .tc main_v49) = _
    rw [host0_2_frame _ _ (by decide) (by decide), host0_1_frame _ _ (by decide) (by decide), host0_adj1]
  · show StableHlo.after (hostOps0_2 (F := Ideal)) _ (Proc.devRef .tc main_v99) = _
    rw [host0_2_frame _ _ (by decide) (by decide), host0_1_frame _ _ (by decide) (by decide), host0_adj2]
  · show StableHlo.after (hostOps0_2 (F := Ideal)) _ (Proc.devRef .tc main_v101) = _
    rw [host0_2_v101, host0_1_v100, host0_c26, host0_frame _ main_arg0 (by decide)]
    rfl
  · show StableHlo.after (hostOps0_2 (F := Ideal)) _ (Proc.devRef .tc main_v102) = _
    rw [host0_2_v102, host0_1_frame _ main_arg3 (by decide) (by decide), host0_frame _ main_arg3 (by decide)]

end Cert.KernelIdeal.HandVal

end
-- ==== Proof.KI.KSpec.lean ====
import proofs.«177890_j48524540510773_1_alg».proof.Proof.Spec
import proofs.«177890_j48524540510773_1_alg».proof.Proof.LibMatProd
import proofs.«177890_j48524540510773_1_alg».proof.Proof.KI.HostLib
import proofs.«177890_j48524540510773_1_alg».proof.Proof.KI.Host0Val

noncomputable section

namespace Cert.Hand.KSpec

open Idealize.ShloMosaic Idealize.ShloMosaic.ValueIdx
open Cert.Hand Cert.Hand.Spec Cert.KernelIdeal.HandVal MatProd

def layer1K (A1 A2 : FVec Ideal (Mat 10240 10240) .bf16) (X : FVec Ideal (Mat 10240 512) .bf16)
    (W1 : FVec Ideal (Mat 512 1024) .f32) (b1 : FVec Ideal (Vec 1024) .f32) (W2 : FVec Ideal (Mat 512 1024) .f32)
    (b2 : FVec Ideal (Vec 1024) .f32) (aw : FVec Ideal (Mat 1024 2) .f32) : FVec Ideal (Mat 10240 1024) .f32 :=
  Spec.aggr rs10240_1024 Spec.ss1024 aw
    (Spec.elu rs10240_1024 (Spec.addBias rs10240_1024 (mmP (mmP A1 X) W1) b1))
    (Spec.elu rs10240_1024 (Spec.addBias rs10240_1024 (mmP (mmP A2 X) W2) b2))

def layer2K (A1 A2 : FVec Ideal (Mat 10240 10240) .bf16) (H : FVec Ideal (Mat 10240 1024) .f32)
    (W1 : FVec Ideal (Mat 1024 512) .f32) (b1 : FVec Ideal (Vec 512) .f32) (W2 : FVec Ideal (Mat 1024 512) .f32)
    (b2 : FVec Ideal (Vec 512) .f32) (aw : FVec Ideal (Mat 512 2) .f32) : FVec Ideal (Mat 10240 512) .f32 :=
  Spec.aggr rs10240_512 Spec.ss512 aw
    (Spec.elu rs10240_512 (Spec.addBias rs10240_512 (mmP A1 (mmP H W1)) b1))
    (Spec.elu rs10240_512 (Spec.addBias rs10240_512 (mmP A2 (mmP H W2)) b2))

def layer3K (A1 A2 : FVec Ideal (Mat 10240 10240) .bf16) (H : FVec Ideal (Mat 10240 512) .f32)
    (W1 : FVec Ideal (Mat 512 128) .f32) (b1 : FVec Ideal (Vec 128) .f32) (W2 : FVec Ideal (Mat 512 128) .f32)
    (b2 : FVec Ideal (Vec 128) .f32) (aw : FVec Ideal (Mat 128 2) .f32) : FVec Ideal (Mat 10240 128) .f32 :=
  Spec.aggr rs10240_128 Spec.ss128 aw
    (Spec.elu rs10240_128 (Spec.addBias rs10240_128 (mmP A1 (mmP H W1)) b1))
    (Spec.elu rs10240_128 (Spec.addBias rs10240_128 (mmP A2 (mmP H W2)) b2))

def outOf (A1 A2 : FVec Ideal (Mat 10240 10240) .bf16) (X : FVec Ideal (Mat 10240 512) .bf16)
    (W11 : FVec Ideal (Mat 512 1024) .f32) (b11 : FVec Ideal (Vec 1024) .f32)
    (W12 : FVec Ideal (Mat 512 1024) .f32) (b12 : FVec Ideal (Vec 1024) .f32)
    (W21 : FVec Ideal (Mat 1024 512) .f32) (b21 : FVec Ideal (Vec 512) .f32)
    (W22 : FVec Ideal (Mat 1024 512) .f32) (b22 : FVec Ideal (Vec 512) .f32)
    (W31 : FVec Ideal (Mat 512 128) .f32) (b31 : FVec Ideal (Vec 128) .f32)
    (W32 : FVec Ideal (Mat 512 128) .f32) (b32 : FVec Ideal (Vec 128) .f32)
    (aw1 : FVec Ideal (Mat 1024 2) .f32) (aw2 : FVec Ideal (Mat 512 2) .f32) (aw3 : FVec Ideal (Mat 128 2) .f32) :
    FVec Ideal (Mat 10000 128) .f32 :=
  rows10000 (layer3K A1 A2 (layer2K A1 A2 (layer1K A1 A2 X W11 b11 W12 b12 aw1) W21 b21 W22 b22 aw2) W31 b31 W32 b32 aw3)

def out (x : FVec Ideal (Mat 10000 512) .f32) (e1 : IVec (Mat 2 80000) 32) (e2 : IVec (Mat 2 160000) 32)
    (W11 : FVec Ideal (Mat 512 1024) .f32) (b11 : FVec Ideal (Vec 1024) .f32)
    (W12 : FVec Ideal (Mat 512 1024) .f32) (b12 : FVec Ideal (Vec 1024) .f32)
    (W21 : FVec Ideal (Mat 1024 512) .f32) (b21 : FVec Ideal (Vec 512) .f32)
    (W22 : FVec Ideal (Mat 1024 512) .f32) (b22 : FVec Ideal (Vec 512) .f32)
    (W31 : FVec Ideal (Mat 512 128) .f32) (b31 : FVec Ideal (Vec 128) .f32)
    (W32 : FVec Ideal (Mat 512 128) .f32) (b32 : FVec Ideal (Vec 128) .f32)
    (aw1 : FVec Ideal (Mat 1024 2) .f32) (aw2 : FVec Ideal (Mat 512 2) .f32) (aw3 : FVec Ideal (Mat 128 2) .f32) :
    FVec Ideal (Mat 10000 128) .f32 :=
  outOf (adj1 e1) (adj2 e2) (xpad x) W11 b11 W12 b12 W21 b21 W22 b22 W31 b31 W32 b32 aw1 aw2 aw3

end Cert.Hand.KSpec

end
-- ==== Proof.KI.HostVal2.lean ====
import proofs.«177890_j48524540510773_1_alg».proof.Proof.KI.HostLib
import proofs.«177890_j48524540510773_1_alg».proof.Proof.KI.HostKeeps
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem
open Cert.Hand

theorem after_hostOps2_v107 (W : Valuation τ sig (Elt Ideal)) :
    StableHlo.after (hostOps2 (F := Ideal)) W (Proc.devRef .tc main_v107)
      = Spec.addBias rs10240_1024 (W (Proc.devRef .tc main_v104)) (W (Proc.devRef .tc main_arg4)) := by
  after_results
  rfl

theorem after_hostOps2_1_v108 (W : Valuation τ sig (Elt Ideal)) :
    StableHlo.after (hostOps2_1 (F := Ideal)) W (Proc.devRef .tc main_v108)
      = Spec.elu rs10240_1024 (W (Proc.devRef .tc main_v107)) := by
  after_results_simp
  simp only [StableHlo.TRef.ofBuf, StableHlo.TRef.toBuf, cast_eq]
  rfl

theorem after_hostOps2_2_v109 (W : Valuation τ sig (Elt Ideal)) :
    StableHlo.after (hostOps2_2 (F := Ideal)) W (Proc.devRef .tc main_v109)
      = (W (Proc.devRef .tc main_arg5) : FVec Ideal S512x1024 .f32) := by
  after_results
  rfl

theorem group2_v108 (W : Valuation τ sig (Elt Ideal)) :
    StableHlo.after (hostOps2_2 (F := Ideal)) (StableHlo.after (hostOps2_1 (F := Ideal)) (StableHlo.after (hostOps2 (F := Ideal)) W))
        (Proc.devRef .tc main_v108)
      = Spec.elu rs10240_1024 (Spec.addBias rs10240_1024 (W (Proc.devRef .tc main_v104)) (W (Proc.devRef .tc main_arg4))) := by
  rw [StableHlo.after_of_writes_sub (r := main_v108) _ _ hostOps2_2_writes (by decide),
    after_hostOps2_1_v108,
    after_hostOps2_v107]

theorem group2_v109 (W : Valuation τ sig (Elt Ideal)) :
    StableHlo.after (hostOps2_2 (F := Ideal)) (StableHlo.after (hostOps2_1 (F := Ideal)) (StableHlo.after (hostOps2 (F := Ideal)) W))
        (Proc.devRef .tc main_v109)
      = (W (Proc.devRef .tc main_arg5) : FVec Ideal S512x1024 .f32) := by
  rw [after_hostOps2_2_v109,
    StableHlo.after_of_writes_sub (r := main_arg5) _ _ hostOps2_1_writes (by decide),
    StableHlo.after_of_writes_sub (r := main_arg5) _ _ hostOps2_writes (by decide)]

end Cert.KernelIdeal.HandVal
-- ==== Proof.KI.HostVal4.lean ====
import proofs.«177890_j48524540510773_1_alg».proof.Proof.KI.HostLib
import proofs.«177890_j48524540510773_1_alg».proof.Proof.KI.HostKeeps
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem
open Cert.Hand

theorem after_hostOps4_v114 (W : Valuation τ sig (Elt Ideal)) :
    StableHlo.after (hostOps4 (F := Ideal)) W (Proc.devRef .tc main_v114)
      = Spec.addBias rs10240_1024 (W (Proc.devRef .tc main_v111)) (W (Proc.devRef .tc main_arg6)) := by
  after_results
  rfl

theorem after_hostOps4_1_v115 (W : Valuation τ sig (Elt Ideal)) :
    StableHlo.after (hostOps4_1 (F := Ideal)) W (Proc.devRef .tc main_v115)
      = Spec.elu rs10240_1024 (W (Proc.devRef .tc main_v114)) := by
  after_results_simp
  simp only [StableHlo.TRef.ofBuf, StableHlo.TRef.toBuf, cast_eq]
  rfl

theorem after_hostOps4_2_v138 (W : Valuation τ sig (Elt Ideal)) :
    StableHlo.after (hostOps4_2 (F := Ideal)) W (Proc.devRef .tc main_v138)
      = Spec.aggr rs10240_1024 Spec.ss1024 (W (Proc.devRef .tc main_arg15)) (W (Proc.devRef .tc main_v108))
          (W (Proc.devRef .tc main_v115)) := by
  after_results_simp
  rfl

theorem after_hostOps4_2_v139 (W : Valuation τ sig (Elt Ideal)) :
    StableHlo.after (hostOps4_2 (F := Ideal)) W (Proc.devRef .tc main_v139)
      = (W (Proc.devRef .tc main_arg7) : FVec Ideal S1024x512 .f32) := by
  after_results_simp
  rfl

theorem group4_v138 (W : Valuation τ sig (Elt Ideal)) :
    StableHlo.after (hostOps4_2 (F := Ideal)) (StableHlo.after (hostOps4_1 (F := Ideal)) (StableHlo.after (hostOps4 (F := Ideal)) W))
        (Proc.devRef .tc main_v138)
      = Spec.aggr rs10240_1024 Spec.ss1024 (W (Proc.devRef .tc main_arg15)) (W (Proc.devRef .tc main_v108))
          (Spec.elu rs10240_1024 (Spec.addBias rs10240_1024 (W (Proc.devRef .tc main_v111)) (W (Proc.devRef .tc main_arg6)))) := by
  rw [after_hostOps4_2_v138,
    StableHlo.after_of_writes_sub (r := main_arg15) _ _ hostOps4_1_writes (by decide),
    StableHlo.after_of_writes_sub (r := main_arg15) _ _ hostOps4_writes (by decide),
    StableHlo.after_of_writes_sub (r := main_v108) _ _ hostOps4_1_writes (by decide),
    StableHlo.after_of_writes_sub (r := main_v108) _ _ hostOps4_writes (by decide),
    after_hostOps4_1_v115,
    after_hostOps4_v114]

theorem group4_v139 (W : Valuation τ sig (Elt Ideal)) :
    StableHlo.after (hostOps4_2 (F := Ideal)) (StableHlo.after (hostOps4_1 (F := Ideal)) (StableHlo.after (hostOps4 (F := Ideal)) W))
        (Proc.devRef .tc main_v139)
      = (W (Proc.devRef .tc main_arg7) : FVec Ideal S1024x512 .f32) := by
  rw [after_hostOps4_2_v139,
    StableHlo.after_of_writes_sub (r := main_arg7) _ _ hostOps4_1_writes (by decide),
    StableHlo.after_of_writes_sub (r := main_arg7) _ _ hostOps4_writes (by decide)]

end Cert.KernelIdeal.HandVal
-- ==== Proof.KI.HostVal6.lean ====
import proofs.«177890_j48524540510773_1_alg».proof.Proof.KI.HostLib
import proofs.«177890_j48524540510773_1_alg».proof.Proof.KI.HostKeeps
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem
open Cert.Hand

theorem after_hostOps6_v144 (W : Valuation τ sig (Elt Ideal)) :
    StableHlo.after (hostOps6 (F := Ideal)) W (Proc.devRef .tc main_v144)
      = Spec.addBias rs10240_512 (W (Proc.devRef .tc main_v141)) (W (Proc.devRef .tc main_arg8)) := by
  after_results
  rfl

theorem after_hostOps6_1_v145 (W : Valuation τ sig (Elt Ideal)) :
    StableHlo.after (hostOps6_1 (F := Ideal)) W (Proc.devRef .tc main_v145)
      = Spec.elu rs10240_512 (W (Proc.devRef .tc main_v144)) := by
  after_results_simp
  simp only [StableHlo.TRef.ofBuf, StableHlo.TRef.toBuf, cast_eq]
  rfl

theorem after_hostOps6_2_v146 (W : Valuation τ sig (Elt Ideal)) :
    StableHlo.after (hostOps6_2 (F := Ideal)) W (Proc.devRef .tc main_v146)
      = (W (Proc.devRef .tc main_arg9) : FVec Ideal S1024x512 .f32) := by
  after_results
  rfl

theorem group6_v145 (W : Valuation τ sig (Elt Ideal)) :
    StableHlo.after (hostOps6_2 (F := Ideal)) (StableHlo.after (hostOps6_1 (F := Ideal)) (StableHlo.after (hostOps6 (F := Ideal)) W))
        (Proc.devRef .tc main_v145)
      = Spec.elu rs10240_512 (Spec.addBias rs10240_512 (W (Proc.devRef .tc main_v141)) (W (Proc.devRef .tc main_arg8))) := by
  rw [StableHlo.after_of_writes_sub (r := main_v145) _ _ hostOps6_2_writes (by decide),
    after_hostOps6_1_v145,
    after_hostOps6_v144]

theorem group6_v146 (W : Valuation τ sig (Elt Ideal)) :
    StableHlo.after (hostOps6_2 (F := Ideal)) (StableHlo.after (hostOps6_1 (F := Ideal)) (StableHlo.after (hostOps6 (F := Ideal)) W))
        (Proc.devRef .tc main_v146)
      = (W (Proc.devRef .tc main_arg9) : FVec Ideal S1024x512 .f32) := by
  rw [after_hostOps6_2_v146,
    StableHlo.after_of_writes_sub (r := main_arg9) _ _ hostOps6_1_writes (by decide),
    StableHlo.after_of_writes_sub (r := main_arg9) _ _ hostOps6_writes (by decide)]

end Cert.KernelIdeal.HandVal
-- ==== Proof.KI.HostVal8.lean ====
import proofs.«177890_j48524540510773_1_alg».proof.Proof.KI.HostLib
import proofs.«177890_j48524540510773_1_alg».proof.Proof.KI.HostKeeps
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem
open Cert.Hand

theorem after_hostOps8_v151 (W : Valuation τ sig (Elt Ideal)) :
    StableHlo.after (hostOps8 (F := Ideal)) W (Proc.devRef .tc main_v151)
      = Spec.addBias rs10240_512 (W (Proc.devRef .tc main_v148)) (W (Proc.devRef .tc main_arg10)) := by
  after_results
  rfl

theorem after_hostOps8_1_v152 (W : Valuation τ sig (Elt Ideal)) :
    StableHlo.after (hostOps8_1 (F := Ideal)) W (Proc.devRef .tc main_v152)
      = Spec.elu rs10240_512 (W (Proc.devRef .tc main_v151)) := by
  after_results_simp
  simp only [StableHlo.TRef.ofBuf, StableHlo.TRef.toBuf, cast_eq]
  rfl

theorem after_hostOps8_2_v175 (W : Valuation τ sig (Elt Ideal)) :
    StableHlo.after (hostOps8_2 (F := Ideal)) W (Proc.devRef .tc main_v175)
      = Spec.aggr rs10240_512 Spec.ss512 (W (Proc.devRef .tc main_arg16)) (W (Proc.devRef .tc main_v145))
          (W (Proc.devRef .tc main_v152)) := by
  after_results_simp
  rfl

theorem after_hostOps8_2_v176 (W : Valuation τ sig (Elt Ideal)) :
    StableHlo.after (hostOps8_2 (F := Ideal)) W (Proc.devRef .tc main_v176)
      = (W (Proc.devRef .tc main_arg11) : FVec Ideal S512x128 .f32) := by
  after_results_simp
  rfl

theorem group8_v175 (W : Valuation τ sig (Elt Ideal)) :
    StableHlo.after (hostOps8_2 (F := Ideal)) (StableHlo.after (hostOps8_1 (F := Ideal)) (StableHlo.after (hostOps8 (F := Ideal)) W))
        (Proc.devRef .tc main_v175)
      = Spec.aggr rs10240_512 Spec.ss512 (W (Proc.devRef .tc main_arg16)) (W (Proc.devRef .tc main_v145))
          (Spec.elu rs10240_512 (Spec.addBias rs10240_512 (W (Proc.devRef .tc main_v148)) (W (Proc.devRef .tc main_arg10)))) := by
  rw [after_hostOps8_2_v175,
    StableHlo.after_of_writes_sub (r := main_arg16) _ _ hostOps8_1_writes (by decide),
    StableHlo.after_of_writes_sub (r := main_arg16) _ _ hostOps8_writes (by decide),
    StableHlo.after_of_writes_sub (r := main_v145) _ _ hostOps8_1_writes (by decide),
    StableHlo.after_of_writes_sub (r := main_v145) _ _ hostOps8_writes (by decide),
    after_hostOps8_1_v152,
    after_hostOps8_v151]

theorem group8_v176 (W : Valuation τ sig (Elt Ideal)) :
    StableHlo.after (hostOps8_2 (F := Ideal)) (StableHlo.after (hostOps8_1 (F := Ideal)) (StableHlo.after (hostOps8 (F := Ideal)) W))
        (Proc.devRef .tc main_v176)
      = (W (Proc.devRef .tc main_arg11) : FVec Ideal S512x128 .f32) := by
  rw [after_hostOps8_2_v176,
    StableHlo.after_of_writes_sub (r := main_arg11) _ _ hostOps8_1_writes (by decide),
    StableHlo.after_of_writes_sub (r := main_arg11) _ _ hostOps8_writes (by decide)]

end Cert.KernelIdeal.HandVal
-- ==== Proof.KI.HostVal10.lean ====
import proofs.«177890_j48524540510773_1_alg».proof.Proof.KI.HostLib
import proofs.«177890_j48524540510773_1_alg».proof.Proof.KI.HostKeeps
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem
open Cert.Hand

theorem after_hostOps10_v181 (W : Valuation τ sig (Elt Ideal)) :
    StableHlo.after (hostOps10 (F := Ideal)) W (Proc.devRef .tc main_v181)
      = Spec.addBias rs10240_128 (W (Proc.devRef .tc main_v178)) (W (Proc.devRef .tc main_arg12)) := by
  after_results
  rfl

theorem after_hostOps10_1_v182 (W : Valuation τ sig (Elt Ideal)) :
    StableHlo.after (hostOps10_1 (F := Ideal)) W (Proc.devRef .tc main_v182)
      = Spec.elu rs10240_128 (W (Proc.devRef .tc main_v181)) := by
  after_results_simp
  simp only [StableHlo.TRef.ofBuf, StableHlo.TRef.toBuf, cast_eq]
  rfl

theorem after_hostOps10_2_v183 (W : Valuation τ sig (Elt Ideal)) :
    StableHlo.after (hostOps10_2 (F := Ideal)) W (Proc.devRef .tc main_v183)
      = (W (Proc.devRef .tc main_arg13) : FVec Ideal S512x128 .f32) := by
  after_results
  rfl

theorem group10_v182 (W : Valuation τ sig (Elt Ideal)) :
    StableHlo.after (hostOps10_2 (F := Ideal)) (StableHlo.after (hostOps10_1 (F := Ideal)) (StableHlo.after (hostOps10 (F := Ideal)) W))
        (Proc.devRef .tc main_v182)
      = Spec.elu rs10240_128 (Spec.addBias rs10240_128 (W (Proc.devRef .tc main_v178)) (W (Proc.devRef .tc main_arg12))) := by
  rw [StableHlo.after_of_writes_sub (r := main_v182) _ _ hostOps10_2_writes (by decide),
    after_hostOps10_1_v182,
    after_hostOps10_v181]

theorem group10_v183 (W : Valuation τ sig (Elt Ideal)) :
    StableHlo.after (hostOps10_2 (F := Ideal)) (StableHlo.after (hostOps10_1 (F := Ideal)) (StableHlo.after (hostOps10 (F := Ideal)) W))
        (Proc.devRef .tc main_v183)
      = (W (Proc.devRef .tc main_arg13) : FVec Ideal S512x128 .f32) := by
  rw [after_hostOps10_2_v183,
    StableHlo.after_of_writes_sub (r := main_arg13) _ _ hostOps10_1_writes (by decide),
    StableHlo.after_of_writes_sub (r := main_arg13) _ _ hostOps10_writes (by decide)]

end Cert.KernelIdeal.HandVal
-- ==== Proof.KI.HostVal12.lean ====
import proofs.«177890_j48524540510773_1_alg».proof.Proof.KI.HostLib
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.HandVal

open Cert.KernelIdeal Cert.KernelIdeal.Gen
open Idealize.ShloMosaic Idealize.ShloMosaic.TcCoe Idealize.ShloMosaic.ValueIdx
open Idealize.SL Idealize.SL.Sem
open Cert.Hand

theorem after_hostOps12_v188 (W : Valuation τ sig (Elt Ideal)) :
    StableHlo.after (hostOps12 (F := Ideal)) W (Proc.devRef .tc main_v188)
      = Spec.addBias rs10240_128 (W (Proc.devRef .tc main_v185)) (W (Proc.devRef .tc main_arg14)) := by
  after_results
  rfl

theorem after_hostOps12_1_v189 (W : Valuation τ sig (Elt Ideal)) :
    StableHlo.after (hostOps12_1 (F := Ideal)) W (Proc.devRef .tc main_v189)
      = Spec.elu rs10240_128 (W (Proc.devRef .tc main_v188)) := by
  after_results_simp
  simp only [StableHlo.TRef.ofBuf, StableHlo.TRef.toBuf, cast_eq]
  rfl

theorem after_hostOps12_2_v212 (W : Valuation τ sig (Elt Ideal)) :
    StableHlo.after (hostOps12_2 (F := Ideal)) W (Proc.devRef .tc main_v212)
      = rows10000 (Spec.aggr rs10240_128 Spec.ss128 (W (Proc.devRef .tc main_arg17)) (W (Proc.devRef .tc main_v182))
          (W (Proc.devRef .tc main_v189))) := by
  after_results_simp
  exact slice_rows10000 slices_S10240x128_S10000x128_0_0 _

theorem group12_v212 (W : Valuation τ sig (Elt Ideal)) :
    StableHlo.after (hostOps12_2 (F := Ideal)) (StableHlo.after (hostOps12_1 (F := Ideal)) (StableHlo.after (hostOps12 (F := Ideal)) W))
        (Proc.devRef .tc main_v212)
      = rows10000 (Spec.aggr rs10240_128 Spec.ss128 (W (Proc.devRef .tc main_arg17)) (W (Proc.devRef .tc main_v182))
          (Spec.elu rs10240_128 (Spec.addBias rs10240_128 (W (Proc.devRef .tc main_v185)) (W (Proc.devRef .tc main_arg14))))) := by
  have a1 : ∀ V : Valuation τ sig (Elt Ideal),
      StableHlo.after (hostOps12_1 (F := Ideal)) V (Proc.devRef .tc main_arg17) = V (Proc.devRef .tc main_arg17) :=
    fun V => by after_results_simp
  have a0 : ∀ V : Valuation τ sig (Elt Ideal),
      StableHlo.after (hostOps12 (F := Ideal)) V (Proc.devRef .tc main_arg17) = V (Proc.devRef .tc main_arg17) :=
    fun V => by after_results
  have x1 : ∀ V : Valuation τ sig (Elt Ideal),
      StableHlo.after (hostOps12_1 (F := Ideal)) V (Proc.devRef .tc main_v182) = V (Proc.devRef .tc main_v182) :=
    fun V => by after_results_simp
  have x0 : ∀ V : Valuation τ sig (Elt Ideal),
      StableHlo.after (hostOps12 (F := Ideal)) V (Proc.devRef .tc main_v182) = V (Proc.devRef .tc main_v182) :=
    fun V => by after_results
  rw [after_hostOps12_2_v212, a1, a0, x1, x0, after_hostOps12_1_v189, after_hostOps12_v188]

end Cert.KernelIdeal.HandVal
-- ==== Proof.KI.Compose.lean ====
import proofs.«177890_j48524540510773_1_alg».proof.Proof.KI.Keeps
import proofs.«177890_j48524540510773_1_alg».proof.Proof.KI.KSpec
import proofs.«177890_j48524540510773_1_alg».proof.Proof.KI.Host0Val
import proofs.«177890_j48524540510773_1_alg».proof.Proof.KI.HostVal2
import proofs.«177890_j48524540510773_1_alg».proof.Proof.KI.HostVal4
import proofs.«177890_j48524540510773_1_alg».proof.Proof.KI.HostVal6
import proofs.«177890_j48524540510773_1_alg».proof.Proof.KI.HostVal8
import proofs.«177890_j48524540510773_1_alg».proof.Proof.KI.HostVal10
import proofs.«177890_j48524540510773_1_alg».proof.Proof.KI.HostVal12

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Cert.Hand MatProd

variable (m : (ℓ : Loc nD τ sig) → Buf (Elt Ideal) ℓ) (ρ : Dev nD → PrngReg) (c : Dev nD)

abbrev in0 : FVec Ideal S10000x512 .f32 := m ((c : Thread nD τ).loc main_arg0)
abbrev in1 : IVec S2x80000 32 := m ((c : Thread nD τ).loc main_arg1)
abbrev in2 : IVec S2x160000 32 := m ((c : Thread nD τ).loc main_arg2)
abbrev in3 : FVec Ideal S512x1024 .f32 := m ((c : Thread nD τ).loc main_arg3)
abbrev in4 : FVec Ideal S1024 .f32 := m ((c : Thread nD τ).loc main_arg4)
abbrev in5 : FVec Ideal S512x1024 .f32 := m ((c : Thread nD τ).loc main_arg5)
abbrev in6 : FVec Ideal S1024 .f32 := m ((c : Thread nD τ).loc main_arg6)
abbrev in7 : FVec Ideal S1024x512 .f32 := m ((c : Thread nD τ).loc main_arg7)
abbrev in8 : FVec Ideal S512 .f32 := m ((c : Thread nD τ).loc main_arg8)
abbrev in9 : FVec Ideal S1024x512 .f32 := m ((c : Thread nD τ).loc main_arg9)
abbrev in10 : FVec Ideal S512 .f32 := m ((c : Thread nD τ).loc main_arg10)
abbrev in11 : FVec Ideal S512x128 .f32 := m ((c : Thread nD τ).loc main_arg11)
abbrev in12 : FVec Ideal S128 .f32 := m ((c : Thread nD τ).loc main_arg12)
abbrev in13 : FVec Ideal S512x128 .f32 := m ((c : Thread nD τ).loc main_arg13)
abbrev in14 : FVec Ideal S128 .f32 := m ((c : Thread nD τ).loc main_arg14)
abbrev in15 : FVec Ideal S1024x2 .f32 := m ((c : Thread nD τ).loc main_arg15)
abbrev in16 : FVec Ideal S512x2 .f32 := m ((c : Thread nD τ).loc main_arg16)
abbrev in17 : FVec Ideal S128x2 .f32 := m ((c : Thread nD τ).loc main_arg17)

abbrev vA1 : FVec Ideal S10240x10240 .bf16 := adj1 (in1 m c)
abbrev vA2 : FVec Ideal S10240x10240 .bf16 := adj2 (in2 m c)
abbrev vX : FVec Ideal S10240x512 .bf16 := xpad (in0 m c)
def vE1 : FVec Ideal S10240x1024 .f32 :=
  Spec.elu rs10240_1024 (Spec.addBias rs10240_1024 (mmP (mmP (vA1 m c) (vX m c)) (in3 m c)) (in4 m c))
def vH1 : FVec Ideal S10240x1024 .f32 :=
  KSpec.layer1K (vA1 m c) (vA2 m c) (vX m c) (in3 m c) (in4 m c) (in5 m c) (in6 m c) (in15 m c)
def vE2 : FVec Ideal S10240x512 .f32 :=
  Spec.elu rs10240_512 (Spec.addBias rs10240_512 (mmP (vA1 m c) (mmP (vH1 m c) (in7 m c))) (in8 m c))
def vH2 : FVec Ideal S10240x512 .f32 :=
  KSpec.layer2K (vA1 m c) (vA2 m c) (vH1 m c) (in7 m c) (in8 m c) (in9 m c) (in10 m c) (in16 m c)
def vE3 : FVec Ideal S10240x128 .f32 :=
  Spec.elu rs10240_128 (Spec.addBias rs10240_128 (mmP (vA1 m c) (mmP (vH2 m c) (in11 m c))) (in12 m c))
def vH3 : FVec Ideal S10240x128 .f32 :=
  KSpec.layer3K (vA1 m c) (vA2 m c) (vH2 m c) (in11 m c) (in12 m c) (in13 m c) (in14 m c) (in17 m c)

theorem W3_v49 : W3 m ρ c (Proc.devRef .tc main_v49) = vA1 m c := (host0_all (W0 m ρ c)).1
theorem W3_v99 : W3 m ρ c (Proc.devRef .tc main_v99) = vA2 m c := (host0_all (W0 m ρ c)).2.1
theorem W3_v101 : W3 m ρ c (Proc.devRef .tc main_v101) = vX m c := (host0_all (W0 m ρ c)).2.2.1
theorem W3_v102 : W3 m ρ c (Proc.devRef .tc main_v102) = in3 m c := (host0_all (W0 m ρ c)).2.2.2

theorem W4_v103 : W4 m ρ c (Proc.devRef .tc main_v103) = mmP (vA1 m c) (vX m c) := by
  rw [out0_at, W3_v49, W3_v101]
theorem W4_v102 : W4 m ρ c (Proc.devRef .tc main_v102) = in3 m c := (v102_at4 m ρ c).trans (W3_v102 m ρ c)
theorem W5_v104 : W5 m ρ c (Proc.devRef .tc main_v104) = mmP (mmP (vA1 m c) (vX m c)) (in3 m c) := by
  rw [out1_at, W4_v103, W4_v102]
theorem W8_v108 : W8 m ρ c (Proc.devRef .tc main_v108) = vE1 m c := by
  rw [show W8 m ρ c (Proc.devRef .tc main_v108) = _ from group2_v108 (W5 m ρ c), W5_v104, W5_arg m ρ c main_arg4 (by decide)]; rfl
theorem W8_v109 : W8 m ρ c (Proc.devRef .tc main_v109) = in5 m c := by
  rw [show W8 m ρ c (Proc.devRef .tc main_v109) = _ from group2_v109 (W5 m ρ c), W5_arg m ρ c main_arg5 (by decide)]
theorem W8_v99 : W8 m ρ c (Proc.devRef .tc main_v99) = vA2 m c := (v99_at8 m ρ c).trans (W3_v99 m ρ c)
theorem W8_v101 : W8 m ρ c (Proc.devRef .tc main_v101) = vX m c := (v101_at8 m ρ c).trans (W3_v101 m ρ c)
theorem W9_v110 : W9 m ρ c (Proc.devRef .tc main_v110) = mmP (vA2 m c) (vX m c) := by
  rw [out2_at, W8_v99, W8_v101]
theorem W9_v109 : W9 m ρ c (Proc.devRef .tc main_v109) = in5 m c := (v109_at9 m ρ c).trans (W8_v109 m ρ c)
theorem W10_v111 : W10 m ρ c (Proc.devRef .tc main_v111) = mmP (mmP (vA2 m c) (vX m c)) (in5 m c) := by
  rw [out3_at, W9_v110, W9_v109]
theorem W10_v108 : W10 m ρ c (Proc.devRef .tc main_v108) = vE1 m c := (v108_at10 m ρ c).trans (W8_v108 m ρ c)
theorem W13_v138 : W13 m ρ c (Proc.devRef .tc main_v138) = vH1 m c := by
  rw [show W13 m ρ c (Proc.devRef .tc main_v138) = _ from group4_v138 (W10 m ρ c), W10_v108, W10_v111, W10_arg m ρ c main_arg15 (by decide), W10_arg m ρ c main_arg6 (by decide)]; rfl
theorem W13_v139 : W13 m ρ c (Proc.devRef .tc main_v139) = in7 m c := by
  rw [show W13 m ρ c (Proc.devRef .tc main_v139) = _ from group4_v139 (W10 m ρ c), W10_arg m ρ c main_arg7 (by decide)]

theorem W14_v140 : W14 m ρ c (Proc.devRef .tc main_v140) = mmP (vH1 m c) (in7 m c) := by
  rw [out4_at, W13_v138, W13_v139]
theorem W14_v49 : W14 m ρ c (Proc.devRef .tc main_v49) = vA1 m c := (v49_at14 m ρ c).trans (W3_v49 m ρ c)
theorem W15_v141 : W15 m ρ c (Proc.devRef .tc main_v141) = mmP (vA1 m c) (mmP (vH1 m c) (in7 m c)) := by
  rw [out5_at, W14_v49, W14_v140]
theorem W18_v145 : W18 m ρ c (Proc.devRef .tc main_v145) = vE2 m c := by
  rw [show W18 m ρ c (Proc.devRef .tc main_v145) = _ from group6_v145 (W15 m ρ c), W15_v141, W15_arg m ρ c main_arg8 (by decide)]; rfl
theorem W18_v146 : W18 m ρ c (Proc.devRef .tc main_v146) = in9 m c := by
  rw [show W18 m ρ c (Proc.devRef .tc main_v146) = _ from group6_v146 (W15 m ρ c), W15_arg m ρ c main_arg9 (by decide)]
theorem W18_v138 : W18 m ρ c (Proc.devRef .tc main_v138) = vH1 m c := (v138_at18 m ρ c).trans (W13_v138 m ρ c)
theorem W19_v147 : W19 m ρ c (Proc.devRef .tc main_v147) = mmP (vH1 m c) (in9 m c) := by
  rw [out6_at, W18_v138, W18_v146]
theorem W19_v99 : W19 m ρ c (Proc.devRef .tc main_v99) = vA2 m c := (v99_at19 m ρ c).trans (W3_v99 m ρ c)
theorem W20_v148 : W20 m ρ c (Proc.devRef .tc main_v148) = mmP (vA2 m c) (mmP (vH1 m c) (in9 m c)) := by
  rw [out7_at, W19_v99, W19_v147]
theorem W20_v145 : W20 m ρ c (Proc.devRef .tc main_v145) = vE2 m c := (v145_at20 m ρ c).trans (W18_v145 m ρ c)
theorem W23_v175 : W23 m ρ c (Proc.devRef .tc main_v175) = vH2 m c := by
  rw [show W23 m ρ c (Proc.devRef .tc main_v175) = _ from group8_v175 (W20 m ρ c), W20_v145, W20_v148, W20_arg m ρ c main_arg16 (by decide), W20_arg m ρ c main_arg10 (by decide)]; rfl
theorem W23_v176 : W23 m ρ c (Proc.devRef .tc main_v176) = in11 m c := by
  rw [show W23 m ρ c (Proc.devRef .tc main_v176) = _ from group8_v176 (W20 m ρ c), W20_arg m ρ c main_arg11 (by decide)]

theorem W24_v177 : W24 m ρ c (Proc.devRef .tc main_v177) = mmP (vH2 m c) (in11 m c) := by
  rw [out8_at, W23_v175, W23_v176]
theorem W24_v49 : W24 m ρ c (Proc.devRef .tc main_v49) = vA1 m c := (v49_at24 m ρ c).trans (W3_v49 m ρ c)
theorem W25_v178 : W25 m ρ c (Proc.devRef .tc main_v178) = mmP (vA1 m c) (mmP (vH2 m c) (in11 m c)) := by
  rw [out9_at, W24_v49, W24_v177]
theorem W28_v182 : W28 m ρ c (Proc.devRef .tc main_v182) = vE3 m c := by
  rw [show W28 m ρ c (Proc.devRef .tc main_v182) = _ from group10_v182 (W25 m ρ c), W25_v178, W25_arg m ρ c main_arg12 (by decide)]; rfl
theorem W28_v183 : W28 m ρ c (Proc.devRef .tc main_v183) = in13 m c := by
  rw [show W28 m ρ c (Proc.devRef .tc main_v183) = _ from group10_v183 (W25 m ρ c), W25_arg m ρ c main_arg13 (by decide)]
theorem W28_v175 : W28 m ρ c (Proc.devRef .tc main_v175) = vH2 m c := (v175_at28 m ρ c).trans (W23_v175 m ρ c)
theorem W29_v184 : W29 m ρ c (Proc.devRef .tc main_v184) = mmP (vH2 m c) (in13 m c) := by
  rw [out10_at, W28_v175, W28_v183]
theorem W29_v99 : W29 m ρ c (Proc.devRef .tc main_v99) = vA2 m c := (v99_at29 m ρ c).trans (W3_v99 m ρ c)
theorem W30_v185 : W30 m ρ c (Proc.devRef .tc main_v185) = mmP (vA2 m c) (mmP (vH2 m c) (in13 m c)) := by
  rw [out11_at, W29_v99, W29_v184]
theorem W30_v182 : W30 m ρ c (Proc.devRef .tc main_v182) = vE3 m c := (v182_at30 m ρ c).trans (W28_v182 m ρ c)

theorem W33_v212 : W33 m ρ c (Proc.devRef .tc main_v212) = rows10000 (vH3 m c) := by
  rw [show W33 m ρ c (Proc.devRef .tc main_v212) = _ from group12_v212 (W30 m ρ c), W30_v182, W30_v185, W30_arg m ρ c main_arg17 (by decide), W30_arg m ρ c main_arg14 (by decide)]; rfl

theorem ker_read : Cert.KernelIdeal.Hand.Wlast (F := Ideal) m ρ c (Proc.devRef .tc main_v212)
    = Cert.Hand.KSpec.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) :=
  (W33_v212 m ρ c).trans rfl

end Cert.KernelIdeal.HandVal

end
-- ==== Proof.Ref.BlkB0.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkB0 {F : FTy → Type} [FloatOps F] : List (HloOp τ sig (Elt F)) :=
  [ StableHlo.unary main_arg1 main_v0 ((extractStridedSlice S1x80000 ![0, 0] · slices_S2x80000_S1x80000_0_0) : (⟨S2x80000, .i32⟩ : BufTy).Contents (Elt F) → (⟨S1x80000, .i32⟩ : BufTy).Contents (Elt F)),
    StableHlo.reshape main_v0 main_v1 rfl shapeCasts_S1x80000_S80000,
    StableHlo.unary main_arg1 main_v2 ((extractStridedSlice S1x80000 ![1, 0] · slices_S2x80000_S1x80000_1_0) : (⟨S2x80000, .i32⟩ : BufTy).Contents (Elt F) → (⟨S1x80000, .i32⟩ : BufTy).Contents (Elt F)),
    StableHlo.reshape main_v2 main_v3 rfl shapeCasts_S1x80000_S80000,
    StableHlo.unary main_arg2 main_v4 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v4 main_v5 rfl shapeCasts_S1x160000_S160000,
    StableHlo.unary main_arg2 main_v6 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v6 main_v7 rfl shapeCasts_S1x160000_S160000 ]

theorem blkB0_v1 (V : Valuation τ sig (Elt Ideal)) :
    after (blkB0 (F := Ideal)) V (Proc.devRef .tc main_v1) = Spec.row0 Spec.es1 (V (Proc.devRef .tc main_arg1)) := by
  unfold blkB0
  after_results_simp
  rfl

theorem blkB0_v3 (V : Valuation τ sig (Elt Ideal)) :
    after (blkB0 (F := Ideal)) V (Proc.devRef .tc main_v3) = Spec.row1 Spec.es1 (V (Proc.devRef .tc main_arg1)) := by
  unfold blkB0
  after_results_simp
  rfl

theorem blkB0_v5 (V : Valuation τ sig (Elt Ideal)) :
    after (blkB0 (F := Ideal)) V (Proc.devRef .tc main_v5) = Spec.row0 Spec.es2 (V (Proc.devRef .tc main_arg2)) := by
  unfold blkB0
  after_results_simp
  rfl

theorem blkB0_v7 (V : Valuation τ sig (Elt Ideal)) :
    after (blkB0 (F := Ideal)) V (Proc.devRef .tc main_v7) = Spec.row1 Spec.es2 (V (Proc.devRef .tc main_arg2)) := by
  unfold blkB0
  after_results_simp
  rfl

end Cert.ReferenceIdeal.HandVal

end
-- ==== Proof.Ref.BlkC11.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkC11 {F : FTy → Type} [FloatOps F] : List (HloOp τ sig (Elt F)) :=
  [ StableHlo.binary main_arg0 main_arg3 main_v8 ((fun l r => Host.dotGeneral dot_S10000x512_S512x1024_S10000x1024_1_0_0_1_n_n none l r) : (⟨S10000x512, .f32⟩ : BufTy).Contents (Elt F) → (⟨S512x1024, .f32⟩ : BufTy).Contents (Elt F) → (⟨S10000x1024, .f32⟩ : BufTy).Contents (Elt F)),
    StableHlo.nullary main_v9 (iotaInDim S10000 32 0),
    StableHlo.binary main_v1 main_v9 main_v10 ((fun a b => concatenate S90000 0 [⟨S80000, a⟩, ⟨S10000, b⟩] concatenates_S80000_S10000_S90000_d0) : (⟨S80000, .i32⟩ : BufTy).Contents (Elt F) → (⟨S10000, .i32⟩ : BufTy).Contents (Elt F) → (⟨S90000, .i32⟩ : BufTy).Contents (Elt F)),
    StableHlo.binary main_v3 main_v9 main_v11 ((fun a b => concatenate S90000 0 [⟨S80000, a⟩, ⟨S10000, b⟩] concatenates_S80000_S10000_S90000_d0) : (⟨S80000, .i32⟩ : BufTy).Contents (Elt F) → (⟨S10000, .i32⟩ : BufTy).Contents (Elt F) → (⟨S90000, .i32⟩ : BufTy).Contents (Elt F)),
    StableHlo.nullary main_cst (constant S_ .f32 0x00000000#32),
    StableHlo.unary main_cst main_v12 (broadcastInDim S10000 ![] bcast_S_S10000 : (⟨S_, .f32⟩ : BufTy).Contents (Elt F) → (⟨S10000, .f32⟩ : BufTy).Contents (Elt F)),
    StableHlo.nullary main_c (constantI S_ 32 0#32),
    StableHlo.unary main_c main_v13 (broadcastInDim S90000 ![] bcast_S_S90000 : (⟨S_, .i32⟩ : BufTy).Contents (Elt F) → (⟨S90000, .i32⟩ : BufTy).Contents (Elt F)),
    StableHlo.binary main_v11 main_v13 main_v14 (cmpi .slt : (⟨S90000, .i32⟩ : BufTy).Contents (Elt F) → (⟨S90000, .i32⟩ : BufTy).Contents (Elt F) → (⟨S90000, .i1⟩ : BufTy).Contents (Elt F)),
    StableHlo.nullary main_c_0 (constantI S_ 32 10000#32),
    StableHlo.unary main_c_0 main_v15 (broadcastInDim S90000 ![] bcast_S_S90000 : (⟨S_, .i32⟩ : BufTy).Contents (Elt F) → (⟨S90000, .i32⟩ : BufTy).Contents (Elt F)),
    StableHlo.binary main_v11 main_v15 main_v16 (addi : (⟨S90000, .i32⟩ : BufTy).Contents (Elt F) → (⟨S90000, .i32⟩ : BufTy).Contents (Elt F) → (⟨S90000, .i32⟩ : BufTy).Contents (Elt F)),
    StableHlo.ternary main_v14 main_v16 main_v11 main_v17 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v17 main_v18 (broadcastInDim S90000x1 ![0] bcast_S90000_S90000x1_0 : (⟨S90000, .i32⟩ : BufTy).Contents (Elt F) → (⟨S90000x1, .i32⟩ : BufTy).Contents (Elt F)),
    StableHlo.nullary main_cst_1 (constant S_ .f32 0x3F800000#32),
    StableHlo.unary main_cst_1 main_v19 (broadcastInDim S90000 ![] bcast_S_S90000 : (⟨S_, .f32⟩ : BufTy).Contents (Elt F) → (⟨S90000, .f32⟩ : BufTy).Contents (Elt F)),
    StableHlo.ternary main_v12 main_v18 main_v19 main_v20 ((fun x i u => Host.scatterAdd scatter_S10000_S90000x1_S90000_n_0_0_1 x i u) : (⟨S10000, .f32⟩ : BufTy).Contents (Elt F) → (⟨S90000x1, .i32⟩ : BufTy).Contents (Elt F) → (⟨S90000, .f32⟩ : BufTy).Contents (Elt F) → (⟨S10000, .f32⟩ : BufTy).Contents (Elt F)),
    StableHlo.nullary main_cst_2 (constant S_ .f32 0x3F800000#32),
    StableHlo.unary main_cst_2 main_v21 (broadcastInDim S10000 ![] bcast_S_S10000 : (⟨S_, .f32⟩ : BufTy).Contents (Elt F) → (⟨S10000, .f32⟩ : BufTy).Contents (Elt F)),
    StableHlo.binary main_v20 main_v21 main_v22 (maximumf : (⟨S10000, .f32⟩ : BufTy).Contents (Elt F) → (⟨S10000, .f32⟩ : BufTy).Contents (Elt F) → (⟨S10000, .f32⟩ : BufTy).Contents (Elt F)),
    StableHlo.unary main_v22 main_v23 (Host.rsqrt : (⟨S10000, .f32⟩ : BufTy).Contents (Elt F) → (⟨S10000, .f32⟩ : BufTy).Contents (Elt F)),
    StableHlo.nullary main_c_3 (constantI S_ 32 0#32),
    StableHlo.unary main_c_3 main_v24 (broadcastInDim S90000 ![] bcast_S_S90000 : (⟨S_, .i32⟩ : BufTy).Contents (Elt F) → (⟨S90000, .i32⟩ : BufTy).Contents (Elt F)),
    StableHlo.binary main_v10 main_v24 main_v25 (cmpi .slt : (⟨S90000, .i32⟩ : BufTy).Contents (Elt F) → (⟨S90000, .i32⟩ : BufTy).Contents (Elt F) → (⟨S90000, .i1⟩ : BufTy).Contents (Elt F)),
    StableHlo.nullary main_c_4 (constantI S_ 32 10000#32),
    StableHlo.unary main_c_4 main_v26 (broadcastInDim S90000 ![] bcast_S_S90000 : (⟨S_, .i32⟩ : BufTy).Contents (Elt F) → (⟨S90000, .i32⟩ : BufTy).Contents (Elt F)),
    StableHlo.binary main_v10 main_v26 main_v27 (addi : (⟨S90000, .i32⟩ : BufTy).Contents (Elt F) → (⟨S90000, .i32⟩ : BufTy).Contents (Elt F) → (⟨S90000, .i32⟩ : BufTy).Contents (Elt F)),
    StableHlo.ternary main_v25 main_v27 main_v10 main_v28 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v28 main_v29 (broadcastInDim S90000x1 ![0] bcast_S90000_S90000x1_0 : (⟨S90000, .i32⟩ : BufTy).Contents (Elt F) → (⟨S90000x1, .i32⟩ : BufTy).Contents (Elt F)),
    StableHlo.binary main_v23 main_v29 main_v30 ((fun x i => Host.gather gather_S10000_S90000x1_S90000_n_0_n_n_0_1_1 x i) : (⟨S10000, .f32⟩ : BufTy).Contents (Elt F) → (⟨S90000x1, .i32⟩ : BufTy).Contents (Elt F) → (⟨S90000, .f32⟩ : BufTy).Contents (Elt F)),
    StableHlo.nullary main_c_5 (constantI S_ 32 0#32),
    StableHlo.unary main_c_5 main_v31 (broadcastInDim S90000 ![] bcast_S_S90000 : (⟨S_, .i32⟩ : BufTy).Contents (Elt F) → (⟨S90000, .i32⟩ : BufTy).Contents (Elt F)),
    StableHlo.binary main_v11 main_v31 main_v32 (cmpi .slt : (⟨S90000, .i32⟩ : BufTy).Contents (Elt F) → (⟨S90000, .i32⟩ : BufTy).Contents (Elt F) → (⟨S90000, .i1⟩ : BufTy).Contents (Elt F)),
    StableHlo.nullary main_c_6 (constantI S_ 32 10000#32),
    StableHlo.unary main_c_6 main_v33 (broadcastInDim S90000 ![] bcast_S_S90000 : (⟨S_, .i32⟩ : BufTy).Contents (Elt F) → (⟨S90000, .i32⟩ : BufTy).Contents (Elt F)),
    StableHlo.binary main_v11 main_v33 main_v34 (addi : (⟨S90000, .i32⟩ : BufTy).Contents (Elt F) → (⟨S90000, .i32⟩ : BufTy).Contents (Elt F) → (⟨S90000, .i32⟩ : BufTy).Contents (Elt F)),
    StableHlo.ternary main_v32 main_v34 main_v11 main_v35 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v35 main_v36 (broadcastInDim S90000x1 ![0] bcast_S90000_S90000x1_0 : (⟨S90000, .i32⟩ : BufTy).Contents (Elt F) → (⟨S90000x1, .i32⟩ : BufTy).Contents (Elt F)),
    StableHlo.binary main_v23 main_v36 main_v37 ((fun x i => Host.gather gather_S10000_S90000x1_S90000_n_0_n_n_0_1_1 x i) : (⟨S10000, .f32⟩ : BufTy).Contents (Elt F) → (⟨S90000x1, .i32⟩ : BufTy).Contents (Elt F) → (⟨S90000, .f32⟩ : BufTy).Contents (Elt F)),
    StableHlo.binary main_v30 main_v37 main_v38 (mulf : (⟨S90000, .f32⟩ : BufTy).Contents (Elt F) → (⟨S90000, .f32⟩ : BufTy).Contents (Elt F) → (⟨S90000, .f32⟩ : BufTy).Contents (Elt F)),
    StableHlo.nullary main_c_7 (constantI S_ 32 0#32),
    StableHlo.unary main_c_7 main_v39 (broadcastInDim S90000 ![] bcast_S_S90000 : (⟨S_, .i32⟩ : BufTy).Contents (Elt F) → (⟨S90000, .i32⟩ : BufTy).Contents (Elt F)),
    StableHlo.binary main_v10 main_v39 main_v40 (cmpi .slt : (⟨S90000, .i32⟩ : BufTy).Contents (Elt F) → (⟨S90000, .i32⟩ : BufTy).Contents (Elt F) → (⟨S90000, .i1⟩ : BufTy).Contents (Elt F)),
    StableHlo.nullary main_c_8 (constantI S_ 32 10000#32),
    StableHlo.unary main_c_8 main_v41 (broadcastInDim S90000 ![] bcast_S_S90000 : (⟨S_, .i32⟩ : BufTy).Contents (Elt F) → (⟨S90000, .i32⟩ : BufTy).Contents (Elt F)),
    StableHlo.binary main_v10 main_v41 main_v42 (addi : (⟨S90000, .i32⟩ : BufTy).Contents (Elt F) → (⟨S90000, .i32⟩ : BufTy).Contents (Elt F) → (⟨S90000, .i32⟩ : BufTy).Contents (Elt F)),
    StableHlo.ternary main_v40 main_v42 main_v10 main_v43 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v43 main_v44 (broadcastInDim S90000x1 ![0] bcast_S90000_S90000x1_0 : (⟨S90000, .i32⟩ : BufTy).Contents (Elt F) → (⟨S90000x1, .i32⟩ : BufTy).Contents (Elt F)),
    StableHlo.binary main_v8 main_v44 main_v45 ((fun x i => Host.gather gather_S10000x1024_S90000x1_S90000x1024_1_0_n_n_0_1_11024 x i) : (⟨S10000x1024, .f32⟩ : BufTy).Contents (Elt F) → (⟨S90000x1, .i32⟩ : BufTy).Contents (Elt F) → (⟨S90000x1024, .f32⟩ : BufTy).Contents (Elt F)),
    StableHlo.unary main_v38 main_v46 (broadcastInDim S90000x1 ![0] bcast_S90000_S90000x1_0 : (⟨S90000, .f32⟩ : BufTy).Contents (Elt F) → (⟨S90000x1, .f32⟩ : BufTy).Contents (Elt F)),
    StableHlo.unary main_v46 main_v47 (broadcastInDim S90000x1024 ![0, 1] bcast_S90000x1_S90000x1024_0_1 : (⟨S90000x1, .f32⟩ : BufTy).Contents (Elt F) → (⟨S90000x1024, .f32⟩ : BufTy).Contents (Elt F)),
    StableHlo.binary main_v45 main_v47 main_v48 (mulf : (⟨S90000x1024, .f32⟩ : BufTy).Contents (Elt F) → (⟨S90000x1024, .f32⟩ : BufTy).Contents (Elt F) → (⟨S90000x1024, .f32⟩ : BufTy).Contents (Elt F)),
    StableHlo.nullary main_cst_9 (constant S_ .f32 0x00000000#32),
    StableHlo.unary main_cst_9 main_v49 (broadcastInDim S10000x1024 ![] bcast_S_S10000x1024 : (⟨S_, .f32⟩ : BufTy).Contents (Elt F) → (⟨S10000x1024, .f32⟩ : BufTy).Contents (Elt F)),
    StableHlo.unary main_v11 main_v50 (broadcastInDim S90000x1 ![0] bcast_S90000_S90000x1_0 : (⟨S90000, .i32⟩ : BufTy).Contents (Elt F) → (⟨S90000x1, .i32⟩ : BufTy).Contents (Elt F)),
    StableHlo.ternary main_v49 main_v50 main_v48 main_v51 ((fun x i u => Host.scatterAdd scatter_S10000x1024_S90000x1_S90000x1024_1_0_0_1 x i u) : (⟨S10000x1024, .f32⟩ : BufTy).Contents (Elt F) → (⟨S90000x1, .i32⟩ : BufTy).Contents (Elt F) → (⟨S90000x1024, .f32⟩ : BufTy).Contents (Elt F) → (⟨S10000x1024, .f32⟩ : BufTy).Contents (Elt F)),
    StableHlo.unary main_arg4 main_v52 (broadcastInDim S1x1024 ![1] bcast_S1024_S1x1024_1 : (⟨S1024, .f32⟩ : BufTy).Contents (Elt F) → (⟨S1x1024, .f32⟩ : BufTy).Contents (Elt F)),
    StableHlo.unary main_v52 main_v53 (broadcastInDim S10000x1024 ![0, 1] bcast_S1x1024_S10000x1024_0_1 : (⟨S1x1024, .f32⟩ : BufTy).Contents (Elt F) → (⟨S10000x1024, .f32⟩ : BufTy).Contents (Elt F)),
    StableHlo.binary main_v51 main_v53 main_v54 (addf : (⟨S10000x1024, .f32⟩ : BufTy).Contents (Elt F) → (⟨S10000x1024, .f32⟩ : BufTy).Contents (Elt F) → (⟨S10000x1024, .f32⟩ : BufTy).Contents (Elt F)) ]

set_option maxHeartbeats 8000000 in
theorem blkC11_v54 (V : Valuation τ sig (Elt Ideal)) :
    after (blkC11 (F := Ideal)) V (Proc.devRef .tc main_v54) = Spec.convOn Spec.es1 Spec.cs1_1024 Spec.rs1024 (V (Proc.devRef .tc main_arg0)) (V (Proc.devRef .tc main_arg3)) (V (Proc.devRef .tc main_arg4)) (Spec.withLoops Spec.es1 (V (Proc.devRef .tc main_v1))) (Spec.withLoops Spec.es1 (V (Proc.devRef .tc main_v3))) := by
  unfold blkC11
  after_results_simp
  rfl

end Cert.ReferenceIdeal.HandVal

end
-- ==== Proof.Ref.BlkE11.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkE11 {F : FTy → Type} [FloatOps F] : List (HloOp τ sig (Elt F)) :=
  [ StableHlo.TRef.nullary main_call0.cst (constant S_ .f32 0x00000000#32),
    StableHlo.TRef.unary main_call0.cst main_call0.v0 (broadcastInDim S10000x1024 ![] bcast_S_S10000x1024),
    StableHlo.TRef.binary (StableHlo.TRef.of main_v54 : StableHlo.TRef sig ⟨S10000x1024, .f32⟩) main_call0.v0 main_call0.v1 (cmpf .ogt),
    StableHlo.TRef.nullary main_call0.cst_0 (constant S_ .f32 0x00000000#32),
    StableHlo.TRef.unary main_call0.cst_0 main_call0.v2 (broadcastInDim S10000x1024 ![] bcast_S_S10000x1024),
    StableHlo.TRef.binary (StableHlo.TRef.of main_v54 : StableHlo.TRef sig ⟨S10000x1024, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S10000x1024 ![] bcast_S_S10000x1024),
    StableHlo.TRef.ternary main_call0.v3 main_call0.call0.v1 (StableHlo.TRef.of main_v54 : StableHlo.TRef sig ⟨S10000x1024, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S10000x1024 ![] bcast_S_S10000x1024),
    StableHlo.TRef.binary main_call0.v6 main_call0.v5 main_call0.v7 mulf,
    StableHlo.TRef.ternary main_call0.v1 (StableHlo.TRef.of main_v54 : StableHlo.TRef sig ⟨S10000x1024, .f32⟩) main_call0.v7 main_call0.call1.v0 select ]

set_option maxHeartbeats 8000000 in
theorem blkE11_v55 (V : Valuation τ sig (Elt Ideal)) :
    after (blkE11 (F := Ideal)) V (Proc.devRef .tc main_v55) = Spec.elu Spec.rs1024 (V (Proc.devRef .tc main_v54)) := by
  unfold blkE11
  after_results_simp
  rfl

end Cert.ReferenceIdeal.HandVal

end
-- ==== Proof.Ref.BlkC12.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkC12 {F : FTy → Type} [FloatOps F] : List (HloOp τ sig (Elt F)) :=
  [ StableHlo.binary main_arg0 main_arg5 main_v56 ((fun l r => Host.dotGeneral dot_S10000x512_S512x1024_S10000x1024_1_0_0_1_n_n none l r) : (⟨S10000x512, .f32⟩ : BufTy).Contents (Elt F) → (⟨S512x1024, .f32⟩ : BufTy).Contents (Elt F) → (⟨S10000x1024, .f32⟩ : BufTy).Contents (Elt F)),
    StableHlo.nullary main_v57 (iotaInDim S10000 32 0),
    StableHlo.binary main_v5 main_v57 main_v58 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.binary main_v7 main_v57 main_v59 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.nullary main_cst_10 (constant S_ .f32 0x00000000#32),
    StableHlo.unary main_cst_10 main_v60 (broadcastInDim S10000 ![] bcast_S_S10000 : (⟨S_, .f32⟩ : BufTy).Contents (Elt F) → (⟨S10000, .f32⟩ : BufTy).Contents (Elt F)),
    StableHlo.nullary main_c_11 (constantI S_ 32 0#32),
    StableHlo.unary main_c_11 main_v61 (broadcastInDim S170000 ![] bcast_S_S170000 : (⟨S_, .i32⟩ : BufTy).Contents (Elt F) → (⟨S170000, .i32⟩ : BufTy).Contents (Elt F)),
    StableHlo.binary main_v59 main_v61 main_v62 (cmpi .slt : (⟨S170000, .i32⟩ : BufTy).Contents (Elt F) → (⟨S170000, .i32⟩ : BufTy).Contents (Elt F) → (⟨S170000, .i1⟩ : BufTy).Contents (Elt F)),
    StableHlo.nullary main_c_12 (constantI S_ 32 10000#32),
    StableHlo.unary main_c_12 main_v63 (broadcastInDim S170000 ![] bcast_S_S170000 : (⟨S_, .i32⟩ : BufTy).Contents (Elt F) → (⟨S170000, .i32⟩ : BufTy).Contents (Elt F)),
    StableHlo.binary main_v59 main_v63 main_v64 (addi : (⟨S170000, .i32⟩ : BufTy).Contents (Elt F) → (⟨S170000, .i32⟩ : BufTy).Contents (Elt F) → (⟨S170000, .i32⟩ : BufTy).Contents (Elt F)),
    StableHlo.ternary main_v62 main_v64 main_v59 main_v65 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v65 main_v66 (broadcastInDim S170000x1 ![0] bcast_S170000_S170000x1_0 : (⟨S170000, .i32⟩ : BufTy).Contents (Elt F) → (⟨S170000x1, .i32⟩ : BufTy).Contents (Elt F)),
    StableHlo.nullary main_cst_13 (constant S_ .f32 0x3F800000#32),
    StableHlo.unary main_cst_13 main_v67 (broadcastInDim S170000 ![] bcast_S_S170000 : (⟨S_, .f32⟩ : BufTy).Contents (Elt F) → (⟨S170000, .f32⟩ : BufTy).Contents (Elt F)),
    StableHlo.ternary main_v60 main_v66 main_v67 main_v68 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    StableHlo.nullary main_cst_14 (constant S_ .f32 0x3F800000#32),
    StableHlo.unary main_cst_14 main_v69 (broadcastInDim S10000 ![] bcast_S_S10000 : (⟨S_, .f32⟩ : BufTy).Contents (Elt F) → (⟨S10000, .f32⟩ : BufTy).Contents (Elt F)),
    StableHlo.binary main_v68 main_v69 main_v70 (maximumf : (⟨S10000, .f32⟩ : BufTy).Contents (Elt F) → (⟨S10000, .f32⟩ : BufTy).Contents (Elt F) → (⟨S10000, .f32⟩ : BufTy).Contents (Elt F)),
    StableHlo.unary main_v70 main_v71 (Host.rsqrt : (⟨S10000, .f32⟩ : BufTy).Contents (Elt F) → (⟨S10000, .f32⟩ : BufTy).Contents (Elt F)),
    StableHlo.nullary main_c_15 (constantI S_ 32 0#32),
    StableHlo.unary main_c_15 main_v72 (broadcastInDim S170000 ![] bcast_S_S170000 : (⟨S_, .i32⟩ : BufTy).Contents (Elt F) → (⟨S170000, .i32⟩ : BufTy).Contents (Elt F)),
    StableHlo.binary main_v58 main_v72 main_v73 (cmpi .slt : (⟨S170000, .i32⟩ : BufTy).Contents (Elt F) → (⟨S170000, .i32⟩ : BufTy).Contents (Elt F) → (⟨S170000, .i1⟩ : BufTy).Contents (Elt F)),
    StableHlo.nullary main_c_16 (constantI S_ 32 10000#32),
    StableHlo.unary main_c_16 main_v74 (broadcastInDim S170000 ![] bcast_S_S170000 : (⟨S_, .i32⟩ : BufTy).Contents (Elt F) → (⟨S170000, .i32⟩ : BufTy).Contents (Elt F)),
    StableHlo.binary main_v58 main_v74 main_v75 (addi : (⟨S170000, .i32⟩ : BufTy).Contents (Elt F) → (⟨S170000, .i32⟩ : BufTy).Contents (Elt F) → (⟨S170000, .i32⟩ : BufTy).Contents (Elt F)),
    StableHlo.ternary main_v73 main_v75 main_v58 main_v76 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v76 main_v77 (broadcastInDim S170000x1 ![0] bcast_S170000_S170000x1_0 : (⟨S170000, .i32⟩ : BufTy).Contents (Elt F) → (⟨S170000x1, .i32⟩ : BufTy).Contents (Elt F)),
    StableHlo.binary main_v71 main_v77 main_v78 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.nullary main_c_17 (constantI S_ 32 0#32),
    StableHlo.unary main_c_17 main_v79 (broadcastInDim S170000 ![] bcast_S_S170000 : (⟨S_, .i32⟩ : BufTy).Contents (Elt F) → (⟨S170000, .i32⟩ : BufTy).Contents (Elt F)),
    StableHlo.binary main_v59 main_v79 main_v80 (cmpi .slt : (⟨S170000, .i32⟩ : BufTy).Contents (Elt F) → (⟨S170000, .i32⟩ : BufTy).Contents (Elt F) → (⟨S170000, .i1⟩ : BufTy).Contents (Elt F)),
    StableHlo.nullary main_c_18 (constantI S_ 32 10000#32),
    StableHlo.unary main_c_18 main_v81 (broadcastInDim S170000 ![] bcast_S_S170000 : (⟨S_, .i32⟩ : BufTy).Contents (Elt F) → (⟨S170000, .i32⟩ : BufTy).Contents (Elt F)),
    StableHlo.binary main_v59 main_v81 main_v82 (addi : (⟨S170000, .i32⟩ : BufTy).Contents (Elt F) → (⟨S170000, .i32⟩ : BufTy).Contents (Elt F) → (⟨S170000, .i32⟩ : BufTy).Contents (Elt F)),
    StableHlo.ternary main_v80 main_v82 main_v59 main_v83 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v83 main_v84 (broadcastInDim S170000x1 ![0] bcast_S170000_S170000x1_0 : (⟨S170000, .i32⟩ : BufTy).Contents (Elt F) → (⟨S170000x1, .i32⟩ : BufTy).Contents (Elt F)),
    StableHlo.binary main_v71 main_v84 main_v85 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.binary main_v78 main_v85 main_v86 (mulf : (⟨S170000, .f32⟩ : BufTy).Contents (Elt F) → (⟨S170000, .f32⟩ : BufTy).Contents (Elt F) → (⟨S170000, .f32⟩ : BufTy).Contents (Elt F)),
    StableHlo.nullary main_c_19 (constantI S_ 32 0#32),
    StableHlo.unary main_c_19 main_v87 (broadcastInDim S170000 ![] bcast_S_S170000 : (⟨S_, .i32⟩ : BufTy).Contents (Elt F) → (⟨S170000, .i32⟩ : BufTy).Contents (Elt F)),
    StableHlo.binary main_v58 main_v87 main_v88 (cmpi .slt : (⟨S170000, .i32⟩ : BufTy).Contents (Elt F) → (⟨S170000, .i32⟩ : BufTy).Contents (Elt F) → (⟨S170000, .i1⟩ : BufTy).Contents (Elt F)),
    StableHlo.nullary main_c_20 (constantI S_ 32 10000#32),
    StableHlo.unary main_c_20 main_v89 (broadcastInDim S170000 ![] bcast_S_S170000 : (⟨S_, .i32⟩ : BufTy).Contents (Elt F) → (⟨S170000, .i32⟩ : BufTy).Contents (Elt F)),
    StableHlo.binary main_v58 main_v89 main_v90 (addi : (⟨S170000, .i32⟩ : BufTy).Contents (Elt F) → (⟨S170000, .i32⟩ : BufTy).Contents (Elt F) → (⟨S170000, .i32⟩ : BufTy).Contents (Elt F)),
    StableHlo.ternary main_v88 main_v90 main_v58 main_v91 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v91 main_v92 (broadcastInDim S170000x1 ![0] bcast_S170000_S170000x1_0 : (⟨S170000, .i32⟩ : BufTy).Contents (Elt F) → (⟨S170000x1, .i32⟩ : BufTy).Contents (Elt F)),
    StableHlo.binary main_v56 main_v92 main_v93 ((fun x i => Host.gather gather_S10000x1024_S170000x1_S170000x1024_1_0_n_n_0_1_11024 x i) : (⟨S10000x1024, .f32⟩ : BufTy).Contents (Elt F) → (⟨S170000x1, .i32⟩ : BufTy).Contents (Elt F) → (⟨S170000x1024, .f32⟩ : BufTy).Contents (Elt F)),
    StableHlo.unary main_v86 main_v94 (broadcastInDim S170000x1 ![0] bcast_S170000_S170000x1_0 : (⟨S170000, .f32⟩ : BufTy).Contents (Elt F) → (⟨S170000x1, .f32⟩ : BufTy).Contents (Elt F)),
    StableHlo.unary main_v94 main_v95 (broadcastInDim S170000x1024 ![0, 1] bcast_S170000x1_S170000x1024_0_1 : (⟨S170000x1, .f32⟩ : BufTy).Contents (Elt F) → (⟨S170000x1024, .f32⟩ : BufTy).Contents (Elt F)),
    StableHlo.binary main_v93 main_v95 main_v96 (mulf : (⟨S170000x1024, .f32⟩ : BufTy).Contents (Elt F) → (⟨S170000x1024, .f32⟩ : BufTy).Contents (Elt F) → (⟨S170000x1024, .f32⟩ : BufTy).Contents (Elt F)),
    StableHlo.nullary main_cst_21 (constant S_ .f32 0x00000000#32),
    StableHlo.unary main_cst_21 main_v97 (broadcastInDim S10000x1024 ![] bcast_S_S10000x1024 : (⟨S_, .f32⟩ : BufTy).Contents (Elt F) → (⟨S10000x1024, .f32⟩ : BufTy).Contents (Elt F)),
    StableHlo.unary main_v59 main_v98 (broadcastInDim S170000x1 ![0] bcast_S170000_S170000x1_0 : (⟨S170000, .i32⟩ : BufTy).Contents (Elt F) → (⟨S170000x1, .i32⟩ : BufTy).Contents (Elt F)),
    StableHlo.ternary main_v97 main_v98 main_v96 main_v99 ((fun x i u => Host.scatterAdd scatter_S10000x1024_S170000x1_S170000x1024_1_0_0_1 x i u) : (⟨S10000x1024, .f32⟩ : BufTy).Contents (Elt F) → (⟨S170000x1, .i32⟩ : BufTy).Contents (Elt F) → (⟨S170000x1024, .f32⟩ : BufTy).Contents (Elt F) → (⟨S10000x1024, .f32⟩ : BufTy).Contents (Elt F)),
    StableHlo.unary main_arg6 main_v100 (broadcastInDim S1x1024 ![1] bcast_S1024_S1x1024_1 : (⟨S1024, .f32⟩ : BufTy).Contents (Elt F) → (⟨S1x1024, .f32⟩ : BufTy).Contents (Elt F)),
    StableHlo.unary main_v100 main_v101 (broadcastInDim S10000x1024 ![0, 1] bcast_S1x1024_S10000x1024_0_1 : (⟨S1x1024, .f32⟩ : BufTy).Contents (Elt F) → (⟨S10000x1024, .f32⟩ : BufTy).Contents (Elt F)),
    StableHlo.binary main_v99 main_v101 main_v102 (addf : (⟨S10000x1024, .f32⟩ : BufTy).Contents (Elt F) → (⟨S10000x1024, .f32⟩ : BufTy).Contents (Elt F) → (⟨S10000x1024, .f32⟩ : BufTy).Contents (Elt F)) ]

set_option maxHeartbeats 8000000 in
theorem blkC12_v102 (V : Valuation τ sig (Elt Ideal)) :
    after (blkC12 (F := Ideal)) V (Proc.devRef .tc main_v102) = Spec.convOn Spec.es2 Spec.cs2_1024 Spec.rs1024 (V (Proc.devRef .tc main_arg0)) (V (Proc.devRef .tc main_arg5)) (V (Proc.devRef .tc main_arg6)) (Spec.withLoops Spec.es2 (V (Proc.devRef .tc main_v5))) (Spec.withLoops Spec.es2 (V (Proc.devRef .tc main_v7))) := by
  unfold blkC12
  after_results_simp
  rfl

end Cert.ReferenceIdeal.HandVal

end
-- ==== Proof.Ref.BlkE12.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkE12 {F : FTy → Type} [FloatOps F] : List (HloOp τ sig (Elt F)) :=
  [ StableHlo.TRef.nullary main_call1.cst (constant S_ .f32 0x00000000#32),
    StableHlo.TRef.unary main_call1.cst main_call1.v0 (broadcastInDim S10000x1024 ![] bcast_S_S10000x1024),
    StableHlo.TRef.binary (StableHlo.TRef.of main_v102 : StableHlo.TRef sig ⟨S10000x1024, .f32⟩) main_call1.v0 main_call1.v1 (cmpf .ogt),
    StableHlo.TRef.nullary main_call1.cst_0 (constant S_ .f32 0x00000000#32),
    StableHlo.TRef.unary main_call1.cst_0 main_call1.v2 (broadcastInDim S10000x1024 ![] bcast_S_S10000x1024),
    StableHlo.TRef.binary (StableHlo.TRef.of main_v102 : StableHlo.TRef sig ⟨S10000x1024, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S10000x1024 ![] bcast_S_S10000x1024),
    StableHlo.TRef.ternary main_call1.v3 main_call1.call0.v1 (StableHlo.TRef.of main_v102 : StableHlo.TRef sig ⟨S10000x1024, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S10000x1024 ![] bcast_S_S10000x1024),
    StableHlo.TRef.binary main_call1.v6 main_call1.v5 main_call1.v7 mulf,
    StableHlo.TRef.ternary main_call1.v1 (StableHlo.TRef.of main_v102 : StableHlo.TRef sig ⟨S10000x1024, .f32⟩) main_call1.v7 main_call1.call1.v0 select ]

set_option maxHeartbeats 8000000 in
theorem blkE12_v103 (V : Valuation τ sig (Elt Ideal)) :
    after (blkE12 (F := Ideal)) V (Proc.devRef .tc main_v103) = Spec.elu Spec.rs1024 (V (Proc.devRef .tc main_v102)) := by
  unfold blkE12
  after_results_simp
  rfl

end Cert.ReferenceIdeal.HandVal

end
-- ==== Proof.Ref.BlkA1.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkA1 {F : FTy → Type} [FloatOps F] : List (HloOp τ sig (Elt F)) :=
  [ StableHlo.nullary main_cst_22 (constant S_ .f32 0xFF800000#32),
    StableHlo.binary main_arg15 main_cst_22 main_v104 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)),
    StableHlo.nullary main_cst_23 (constant S_ .f32 0xFF800000#32),
    StableHlo.unary main_cst_23 main_v105 (broadcastInDim S1024 ![] bcast_S_S1024 : (⟨S_, .f32⟩ : BufTy).Contents (Elt F) → (⟨S1024, .f32⟩ : BufTy).Contents (Elt F)),
    StableHlo.binary main_v105 main_v104 main_v106 (maximumf : (⟨S1024, .f32⟩ : BufTy).Contents (Elt F) → (⟨S1024, .f32⟩ : BufTy).Contents (Elt F) → (⟨S1024, .f32⟩ : BufTy).Contents (Elt F)),
    StableHlo.unary main_v106 main_v107 (broadcastInDim S1024x1 ![0] bcast_S1024_S1024x1_0 : (⟨S1024, .f32⟩ : BufTy).Contents (Elt F) → (⟨S1024x1, .f32⟩ : BufTy).Contents (Elt F)),
    StableHlo.unary main_v107 main_v108 (broadcastInDim S1024x2 ![0, 1] bcast_S1024x1_S1024x2_0_1 : (⟨S1024x1, .f32⟩ : BufTy).Contents (Elt F) → (⟨S1024x2, .f32⟩ : BufTy).Contents (Elt F)),
    StableHlo.binary main_arg15 main_v108 main_v109 (subf : (⟨S1024x2, .f32⟩ : BufTy).Contents (Elt F) → (⟨S1024x2, .f32⟩ : BufTy).Contents (Elt F) → (⟨S1024x2, .f32⟩ : BufTy).Contents (Elt F)),
    StableHlo.unary main_v109 main_v110 (Host.exp : (⟨S1024x2, .f32⟩ : BufTy).Contents (Elt F) → (⟨S1024x2, .f32⟩ : BufTy).Contents (Elt F)),
    StableHlo.nullary main_cst_24 (constant S_ .f32 0x00000000#32),
    StableHlo.binary main_v110 main_cst_24 main_v111 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    StableHlo.unary main_v111 main_v112 (broadcastInDim S1024x1 ![0] bcast_S1024_S1024x1_0 : (⟨S1024, .f32⟩ : BufTy).Contents (Elt F) → (⟨S1024x1, .f32⟩ : BufTy).Contents (Elt F)),
    StableHlo.unary main_v112 main_v113 (broadcastInDim S1024x2 ![0, 1] bcast_S1024x1_S1024x2_0_1 : (⟨S1024x1, .f32⟩ : BufTy).Contents (Elt F) → (⟨S1024x2, .f32⟩ : BufTy).Contents (Elt F)),
    StableHlo.binary main_v110 main_v113 main_v114 (Host.divf : (⟨S1024x2, .f32⟩ : BufTy).Contents (Elt F) → (⟨S1024x2, .f32⟩ : BufTy).Contents (Elt F) → (⟨S1024x2, .f32⟩ : BufTy).Contents (Elt F)),
    StableHlo.unary main_v114 main_v115 ((extractStridedSlice S1024x1 ![0, 0] · slices_S1024x2_S1024x1_0_0) : (⟨S1024x2, .f32⟩ : BufTy).Contents (Elt F) → (⟨S1024x1, .f32⟩ : BufTy).Contents (Elt F)),
    StableHlo.reshape main_v115 main_v116 rfl shapeCasts_S1024x1_S1024,
    StableHlo.unary main_v116 main_v117 (broadcastInDim S1x1024 ![1] bcast_S1024_S1x1024_1 : (⟨S1024, .f32⟩ : BufTy).Contents (Elt F) → (⟨S1x1024, .f32⟩ : BufTy).Contents (Elt F)),
    StableHlo.unary main_v117 main_v118 (broadcastInDim S10000x1024 ![0, 1] bcast_S1x1024_S10000x1024_0_1 : (⟨S1x1024, .f32⟩ : BufTy).Contents (Elt F) → (⟨S10000x1024, .f32⟩ : BufTy).Contents (Elt F)),
    StableHlo.binary main_v55 main_v118 main_v119 (mulf : (⟨S10000x1024, .f32⟩ : BufTy).Contents (Elt F) → (⟨S10000x1024, .f32⟩ : BufTy).Contents (Elt F) → (⟨S10000x1024, .f32⟩ : BufTy).Contents (Elt F)),
    StableHlo.unary main_v114 main_v120 ((extractStridedSlice S1024x1 ![0, 1] · slices_S1024x2_S1024x1_0_1) : (⟨S1024x2, .f32⟩ : BufTy).Contents (Elt F) → (⟨S1024x1, .f32⟩ : BufTy).Contents (Elt F)),
    StableHlo.reshape main_v120 main_v121 rfl shapeCasts_S1024x1_S1024,
    StableHlo.unary main_v121 main_v122 (broadcastInDim S1x1024 ![1] bcast_S1024_S1x1024_1 : (⟨S1024, .f32⟩ : BufTy).Contents (Elt F) → (⟨S1x1024, .f32⟩ : BufTy).Contents (Elt F)),
    StableHlo.unary main_v122 main_v123 (broadcastInDim S10000x1024 ![0, 1] bcast_S1x1024_S10000x1024_0_1 : (⟨S1x1024, .f32⟩ : BufTy).Contents (Elt F) → (⟨S10000x1024, .f32⟩ : BufTy).Contents (Elt F)),
    StableHlo.binary main_v103 main_v123 main_v124 (mulf : (⟨S10000x1024, .f32⟩ : BufTy).Contents (Elt F) → (⟨S10000x1024, .f32⟩ : BufTy).Contents (Elt F) → (⟨S10000x1024, .f32⟩ : BufTy).Contents (Elt F)),
    StableHlo.binary main_v119 main_v124 main_v125 (addf : (⟨S10000x1024, .f32⟩ : BufTy).Contents (Elt F) → (⟨S10000x1024, .f32⟩ : BufTy).Contents (Elt F) → (⟨S10000x1024, .f32⟩ : BufTy).Contents (Elt F)) ]

set_option maxHeartbeats 8000000 in
theorem blkA1_v125 (V : Valuation τ sig (Elt Ideal)) :
    after (blkA1 (F := Ideal)) V (Proc.devRef .tc main_v125) = Spec.aggr Spec.rs1024 Spec.ss1024 (V (Proc.devRef .tc main_arg15)) (V (Proc.devRef .tc main_v55)) (V (Proc.devRef .tc main_v103)) := by
  unfold blkA1
  after_results_simp
  rfl

end Cert.ReferenceIdeal.HandVal

end
-- ==== Proof.Ref.BlkC21.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkC21 {F : FTy → Type} [FloatOps F] : List (HloOp τ sig (Elt F)) :=
  [ StableHlo.binary main_v125 main_arg7 main_v126 ((fun l r => Host.dotGeneral dot_S10000x1024_S1024x512_S10000x512_1_0_0_1_n_n none l r) : (⟨S10000x1024, .f32⟩ : BufTy).Contents (Elt F) → (⟨S1024x512, .f32⟩ : BufTy).Contents (Elt F) → (⟨S10000x512, .f32⟩ : BufTy).Contents (Elt F)),
    StableHlo.nullary main_v127 (iotaInDim S10000 32 0),
    StableHlo.binary main_v1 main_v127 main_v128 ((fun a b => concatenate S90000 0 [⟨S80000, a⟩, ⟨S10000, b⟩] concatenates_S80000_S10000_S90000_d0) : (⟨S80000, .i32⟩ : BufTy).Contents (Elt F) → (⟨S10000, .i32⟩ : BufTy).Contents (Elt F) → (⟨S90000, .i32⟩ : BufTy).Contents (Elt F)),
    StableHlo.binary main_v3 main_v127 main_v129 ((fun a b => concatenate S90000 0 [⟨S80000, a⟩, ⟨S10000, b⟩] concatenates_S80000_S10000_S90000_d0) : (⟨S80000, .i32⟩ : BufTy).Contents (Elt F) → (⟨S10000, .i32⟩ : BufTy).Contents (Elt F) → (⟨S90000, .i32⟩ : BufTy).Contents (Elt F)),
    StableHlo.nullary main_cst_25 (constant S_ .f32 0x00000000#32),
    StableHlo.unary main_cst_25 main_v130 (broadcastInDim S10000 ![] bcast_S_S10000 : (⟨S_, .f32⟩ : BufTy).Contents (Elt F) → (⟨S10000, .f32⟩ : BufTy).Contents (Elt F)),
    StableHlo.nullary main_c_26 (constantI S_ 32 0#32),
    StableHlo.unary main_c_26 main_v131 (broadcastInDim S90000 ![] bcast_S_S90000 : (⟨S_, .i32⟩ : BufTy).Contents (Elt F) → (⟨S90000, .i32⟩ : BufTy).Contents (Elt F)),
    StableHlo.binary main_v129 main_v131 main_v132 (cmpi .slt : (⟨S90000, .i32⟩ : BufTy).Contents (Elt F) → (⟨S90000, .i32⟩ : BufTy).Contents (Elt F) → (⟨S90000, .i1⟩ : BufTy).Contents (Elt F)),
    StableHlo.nullary main_c_27 (constantI S_ 32 10000#32),
    StableHlo.unary main_c_27 main_v133 (broadcastInDim S90000 ![] bcast_S_S90000 : (⟨S_, .i32⟩ : BufTy).Contents (Elt F) → (⟨S90000, .i32⟩ : BufTy).Contents (Elt F)),
    StableHlo.binary main_v129 main_v133 main_v134 (addi : (⟨S90000, .i32⟩ : BufTy).Contents (Elt F) → (⟨S90000, .i32⟩ : BufTy).Contents (Elt F) → (⟨S90000, .i32⟩ : BufTy).Contents (Elt F)),
    StableHlo.ternary main_v132 main_v134 main_v129 main_v135 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v135 main_v136 (broadcastInDim S90000x1 ![0] bcast_S90000_S90000x1_0 : (⟨S90000, .i32⟩ : BufTy).Contents (Elt F) → (⟨S90000x1, .i32⟩ : BufTy).Contents (Elt F)),
    StableHlo.nullary main_cst_28 (constant S_ .f32 0x3F800000#32),
    StableHlo.unary main_cst_28 main_v137 (broadcastInDim S90000 ![] bcast_S_S90000 : (⟨S_, .f32⟩ : BufTy).Contents (Elt F) → (⟨S90000, .f32⟩ : BufTy).Contents (Elt F)),
    StableHlo.ternary main_v130 main_v136 main_v137 main_v138 ((fun x i u => Host.scatterAdd scatter_S10000_S90000x1_S90000_n_0_0_1 x i u) : (⟨S10000, .f32⟩ : BufTy).Contents (Elt F) → (⟨S90000x1, .i32⟩ : BufTy).Contents (Elt F) → (⟨S90000, .f32⟩ : BufTy).Contents (Elt F) → (⟨S10000, .f32⟩ : BufTy).Contents (Elt F)),
    StableHlo.nullary main_cst_29 (constant S_ .f32 0x3F800000#32),
    StableHlo.unary main_cst_29 main_v139 (broadcastInDim S10000 ![] bcast_S_S10000 : (⟨S_, .f32⟩ : BufTy).Contents (Elt F) → (⟨S10000, .f32⟩ : BufTy).Contents (Elt F)),
    StableHlo.binary main_v138 main_v139 main_v140 (maximumf : (⟨S10000, .f32⟩ : BufTy).Contents (Elt F) → (⟨S10000, .f32⟩ : BufTy).Contents (Elt F) → (⟨S10000, .f32⟩ : BufTy).Contents (Elt F)),
    StableHlo.unary main_v140 main_v141 (Host.rsqrt : (⟨S10000, .f32⟩ : BufTy).Contents (Elt F) → (⟨S10000, .f32⟩ : BufTy).Contents (Elt F)),
    StableHlo.nullary main_c_30 (constantI S_ 32 0#32),
    StableHlo.unary main_c_30 main_v142 (broadcastInDim S90000 ![] bcast_S_S90000 : (⟨S_, .i32⟩ : BufTy).Contents (Elt F) → (⟨S90000, .i32⟩ : BufTy).Contents (Elt F)),
    StableHlo.binary main_v128 main_v142 main_v143 (cmpi .slt : (⟨S90000, .i32⟩ : BufTy).Contents (Elt F) → (⟨S90000, .i32⟩ : BufTy).Contents (Elt F) → (⟨S90000, .i1⟩ : BufTy).Contents (Elt F)),
    StableHlo.nullary main_c_31 (constantI S_ 32 10000#32),
    StableHlo.unary main_c_31 main_v144 (broadcastInDim S90000 ![] bcast_S_S90000 : (⟨S_, .i32⟩ : BufTy).Contents (Elt F) → (⟨S90000, .i32⟩ : BufTy).Contents (Elt F)),
    StableHlo.binary main_v128 main_v144 main_v145 (addi : (⟨S90000, .i32⟩ : BufTy).Contents (Elt F) → (⟨S90000, .i32⟩ : BufTy).Contents (Elt F) → (⟨S90000, .i32⟩ : BufTy).Contents (Elt F)),
    StableHlo.ternary main_v143 main_v145 main_v128 main_v146 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v146 main_v147 (broadcastInDim S90000x1 ![0] bcast_S90000_S90000x1_0 : (⟨S90000, .i32⟩ : BufTy).Contents (Elt F) → (⟨S90000x1, .i32⟩ : BufTy).Contents (Elt F)),
    StableHlo.binary main_v141 main_v147 main_v148 ((fun x i => Host.gather gather_S10000_S90000x1_S90000_n_0_n_n_0_1_1 x i) : (⟨S10000, .f32⟩ : BufTy).Contents (Elt F) → (⟨S90000x1, .i32⟩ : BufTy).Contents (Elt F) → (⟨S90000, .f32⟩ : BufTy).Contents (Elt F)),
    StableHlo.nullary main_c_32 (constantI S_ 32 0#32),
    StableHlo.unary main_c_32 main_v149 (broadcastInDim S90000 ![] bcast_S_S90000 : (⟨S_, .i32⟩ : BufTy).Contents (Elt F) → (⟨S90000, .i32⟩ : BufTy).Contents (Elt F)),
    StableHlo.binary main_v129 main_v149 main_v150 (cmpi .slt : (⟨S90000, .i32⟩ : BufTy).Contents (Elt F) → (⟨S90000, .i32⟩ : BufTy).Contents (Elt F) → (⟨S90000, .i1⟩ : BufTy).Contents (Elt F)),
    StableHlo.nullary main_c_33 (constantI S_ 32 10000#32),
    StableHlo.unary main_c_33 main_v151 (broadcastInDim S90000 ![] bcast_S_S90000 : (⟨S_, .i32⟩ : BufTy).Contents (Elt F) → (⟨S90000, .i32⟩ : BufTy).Contents (Elt F)),
    StableHlo.binary main_v129 main_v151 main_v152 (addi : (⟨S90000, .i32⟩ : BufTy).Contents (Elt F) → (⟨S90000, .i32⟩ : BufTy).Contents (Elt F) → (⟨S90000, .i32⟩ : BufTy).Contents (Elt F)),
    StableHlo.ternary main_v150 main_v152 main_v129 main_v153 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v153 main_v154 (broadcastInDim S90000x1 ![0] bcast_S90000_S90000x1_0 : (⟨S90000, .i32⟩ : BufTy).Contents (Elt F) → (⟨S90000x1, .i32⟩ : BufTy).Contents (Elt F)),
    StableHlo.binary main_v141 main_v154 main_v155 ((fun x i => Host.gather gather_S10000_S90000x1_S90000_n_0_n_n_0_1_1 x i) : (⟨S10000, .f32⟩ : BufTy).Contents (Elt F) → (⟨S90000x1, .i32⟩ : BufTy).Contents (Elt F) → (⟨S90000, .f32⟩ : BufTy).Contents (Elt F)),
    StableHlo.binary main_v148 main_v155 main_v156 (mulf : (⟨S90000, .f32⟩ : BufTy).Contents (Elt F) → (⟨S90000, .f32⟩ : BufTy).Contents (Elt F) → (⟨S90000, .f32⟩ : BufTy).Contents (Elt F)),
    StableHlo.nullary main_c_34 (constantI S_ 32 0#32),
    StableHlo.unary main_c_34 main_v157 (broadcastInDim S90000 ![] bcast_S_S90000 : (⟨S_, .i32⟩ : BufTy).Contents (Elt F) → (⟨S90000, .i32⟩ : BufTy).Contents (Elt F)),
    StableHlo.binary main_v128 main_v157 main_v158 (cmpi .slt : (⟨S90000, .i32⟩ : BufTy).Contents (Elt F) → (⟨S90000, .i32⟩ : BufTy).Contents (Elt F) → (⟨S90000, .i1⟩ : BufTy).Contents (Elt F)),
    StableHlo.nullary main_c_35 (constantI S_ 32 10000#32),
    StableHlo.unary main_c_35 main_v159 (broadcastInDim S90000 ![] bcast_S_S90000 : (⟨S_, .i32⟩ : BufTy).Contents (Elt F) → (⟨S90000, .i32⟩ : BufTy).Contents (Elt F)),
    StableHlo.binary main_v128 main_v159 main_v160 (addi : (⟨S90000, .i32⟩ : BufTy).Contents (Elt F) → (⟨S90000, .i32⟩ : BufTy).Contents (Elt F) → (⟨S90000, .i32⟩ : BufTy).Contents (Elt F)),
    StableHlo.ternary main_v158 main_v160 main_v128 main_v161 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v161 main_v162 (broadcastInDim S90000x1 ![0] bcast_S90000_S90000x1_0 : (⟨S90000, .i32⟩ : BufTy).Contents (Elt F) → (⟨S90000x1, .i32⟩ : BufTy).Contents (Elt F)),
    StableHlo.binary main_v126 main_v162 main_v163 ((fun x i => Host.gather gather_S10000x512_S90000x1_S90000x512_1_0_n_n_0_1_1512 x i) : (⟨S10000x512, .f32⟩ : BufTy).Contents (Elt F) → (⟨S90000x1, .i32⟩ : BufTy).Contents (Elt F) → (⟨S90000x512, .f32⟩ : BufTy).Contents (Elt F)),
    StableHlo.unary main_v156 main_v164 (broadcastInDim S90000x1 ![0] bcast_S90000_S90000x1_0 : (⟨S90000, .f32⟩ : BufTy).Contents (Elt F) → (⟨S90000x1, .f32⟩ : BufTy).Contents (Elt F)),
    StableHlo.unary main_v164 main_v165 (broadcastInDim S90000x512 ![0, 1] bcast_S90000x1_S90000x512_0_1 : (⟨S90000x1, .f32⟩ : BufTy).Contents (Elt F) → (⟨S90000x512, .f32⟩ : BufTy).Contents (Elt F)),
    StableHlo.binary main_v163 main_v165 main_v166 (mulf : (⟨S90000x512, .f32⟩ : BufTy).Contents (Elt F) → (⟨S90000x512, .f32⟩ : BufTy).Contents (Elt F) → (⟨S90000x512, .f32⟩ : BufTy).Contents (Elt F)),
    StableHlo.nullary main_cst_36 (constant S_ .f32 0x00000000#32),
    StableHlo.unary main_cst_36 main_v167 (broadcastInDim S10000x512 ![] bcast_S_S10000x512 : (⟨S_, .f32⟩ : BufTy).Contents (Elt F) → (⟨S10000x512, .f32⟩ : BufTy).Contents (Elt F)),
    StableHlo.unary main_v129 main_v168 (broadcastInDim S90000x1 ![0] bcast_S90000_S90000x1_0 : (⟨S90000, .i32⟩ : BufTy).Contents (Elt F) → (⟨S90000x1, .i32⟩ : BufTy).Contents (Elt F)),
    StableHlo.ternary main_v167 main_v168 main_v166 main_v169 ((fun x i u => Host.scatterAdd scatter_S10000x512_S90000x1_S90000x512_1_0_0_1 x i u) : (⟨S10000x512, .f32⟩ : BufTy).Contents (Elt F) → (⟨S90000x1, .i32⟩ : BufTy).Contents (Elt F) → (⟨S90000x512, .f32⟩ : BufTy).Contents (Elt F) → (⟨S10000x512, .f32⟩ : BufTy).Contents (Elt F)),
    StableHlo.unary main_arg8 main_v170 (broadcastInDim S1x512 ![1] bcast_S512_S1x512_1 : (⟨S512, .f32⟩ : BufTy).Contents (Elt F) → (⟨S1x512, .f32⟩ : BufTy).Contents (Elt F)),
    StableHlo.unary main_v170 main_v171 (broadcastInDim S10000x512 ![0, 1] bcast_S1x512_S10000x512_0_1 : (⟨S1x512, .f32⟩ : BufTy).Contents (Elt F) → (⟨S10000x512, .f32⟩ : BufTy).Contents (Elt F)),
    StableHlo.binary main_v169 main_v171 main_v172 (addf : (⟨S10000x512, .f32⟩ : BufTy).Contents (Elt F) → (⟨S10000x512, .f32⟩ : BufTy).Contents (Elt F) → (⟨S10000x512, .f32⟩ : BufTy).Contents (Elt F)) ]

set_option maxHeartbeats 8000000 in
theorem blkC21_v172 (V : Valuation τ sig (Elt Ideal)) :
    after (blkC21 (F := Ideal)) V (Proc.devRef .tc main_v172) = Spec.convOn Spec.es1 Spec.cs1_512 Spec.rs512 (V (Proc.devRef .tc main_v125)) (V (Proc.devRef .tc main_arg7)) (V (Proc.devRef .tc main_arg8)) (Spec.withLoops Spec.es1 (V (Proc.devRef .tc main_v1))) (Spec.withLoops Spec.es1 (V (Proc.devRef .tc main_v3))) := by
  unfold blkC21
  after_results_simp
  rfl

end Cert.ReferenceIdeal.HandVal

end
-- ==== Proof.Ref.BlkE21.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkE21 {F : FTy → Type} [FloatOps F] : List (HloOp τ sig (Elt F)) :=
  [ StableHlo.TRef.nullary main_call2.cst (constant S_ .f32 0x00000000#32),
    StableHlo.TRef.unary main_call2.cst main_call2.v0 (broadcastInDim S10000x512 ![] bcast_S_S10000x512),
    StableHlo.TRef.binary (StableHlo.TRef.of main_v172 : StableHlo.TRef sig ⟨S10000x512, .f32⟩) main_call2.v0 main_call2.v1 (cmpf .ogt),
    StableHlo.TRef.nullary main_call2.cst_0 (constant S_ .f32 0x00000000#32),
    StableHlo.TRef.unary main_call2.cst_0 main_call2.v2 (broadcastInDim S10000x512 ![] bcast_S_S10000x512),
    StableHlo.TRef.binary (StableHlo.TRef.of main_v172 : StableHlo.TRef sig ⟨S10000x512, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S10000x512 ![] bcast_S_S10000x512),
    StableHlo.TRef.ternary main_call2.v3 main_call2.call0.v1 (StableHlo.TRef.of main_v172 : StableHlo.TRef sig ⟨S10000x512, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S10000x512 ![] bcast_S_S10000x512),
    StableHlo.TRef.binary main_call2.v6 main_call2.v5 main_call2.v7 mulf,
    StableHlo.TRef.ternary main_call2.v1 (StableHlo.TRef.of main_v172 : StableHlo.TRef sig ⟨S10000x512, .f32⟩) main_call2.v7 main_call2.call1.v0 select ]

set_option maxHeartbeats 8000000 in
theorem blkE21_v173 (V : Valuation τ sig (Elt Ideal)) :
    after (blkE21 (F := Ideal)) V (Proc.devRef .tc main_v173) = Spec.elu Spec.rs512 (V (Proc.devRef .tc main_v172)) := by
  unfold blkE21
  after_results_simp
  rfl

end Cert.ReferenceIdeal.HandVal

end
-- ==== Proof.Ref.BlkC22.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkC22 {F : FTy → Type} [FloatOps F] : List (HloOp τ sig (Elt F)) :=
  [ StableHlo.binary main_v125 main_arg9 main_v174 ((fun l r => Host.dotGeneral dot_S10000x1024_S1024x512_S10000x512_1_0_0_1_n_n none l r) : (⟨S10000x1024, .f32⟩ : BufTy).Contents (Elt F) → (⟨S1024x512, .f32⟩ : BufTy).Contents (Elt F) → (⟨S10000x512, .f32⟩ : BufTy).Contents (Elt F)),
    StableHlo.nullary main_v175 (iotaInDim S10000 32 0),
    StableHlo.binary main_v5 main_v175 main_v176 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.binary main_v7 main_v175 main_v177 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.nullary main_cst_37 (constant S_ .f32 0x00000000#32),
    StableHlo.unary main_cst_37 main_v178 (broadcastInDim S10000 ![] bcast_S_S10000 : (⟨S_, .f32⟩ : BufTy).Contents (Elt F) → (⟨S10000, .f32⟩ : BufTy).Contents (Elt F)),
    StableHlo.nullary main_c_38 (constantI S_ 32 0#32),
    StableHlo.unary main_c_38 main_v179 (broadcastInDim S170000 ![] bcast_S_S170000 : (⟨S_, .i32⟩ : BufTy).Contents (Elt F) → (⟨S170000, .i32⟩ : BufTy).Contents (Elt F)),
    StableHlo.binary main_v177 main_v179 main_v180 (cmpi .slt : (⟨S170000, .i32⟩ : BufTy).Contents (Elt F) → (⟨S170000, .i32⟩ : BufTy).Contents (Elt F) → (⟨S170000, .i1⟩ : BufTy).Contents (Elt F)),
    StableHlo.nullary main_c_39 (constantI S_ 32 10000#32),
    StableHlo.unary main_c_39 main_v181 (broadcastInDim S170000 ![] bcast_S_S170000 : (⟨S_, .i32⟩ : BufTy).Contents (Elt F) → (⟨S170000, .i32⟩ : BufTy).Contents (Elt F)),
    StableHlo.binary main_v177 main_v181 main_v182 (addi : (⟨S170000, .i32⟩ : BufTy).Contents (Elt F) → (⟨S170000, .i32⟩ : BufTy).Contents (Elt F) → (⟨S170000, .i32⟩ : BufTy).Contents (Elt F)),
    StableHlo.ternary main_v180 main_v182 main_v177 main_v183 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v183 main_v184 (broadcastInDim S170000x1 ![0] bcast_S170000_S170000x1_0 : (⟨S170000, .i32⟩ : BufTy).Contents (Elt F) → (⟨S170000x1, .i32⟩ : BufTy).Contents (Elt F)),
    StableHlo.nullary main_cst_40 (constant S_ .f32 0x3F800000#32),
    StableHlo.unary main_cst_40 main_v185 (broadcastInDim S170000 ![] bcast_S_S170000 : (⟨S_, .f32⟩ : BufTy).Contents (Elt F) → (⟨S170000, .f32⟩ : BufTy).Contents (Elt F)),
    StableHlo.ternary main_v178 main_v184 main_v185 main_v186 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    StableHlo.nullary main_cst_41 (constant S_ .f32 0x3F800000#32),
    StableHlo.unary main_cst_41 main_v187 (broadcastInDim S10000 ![] bcast_S_S10000 : (⟨S_, .f32⟩ : BufTy).Contents (Elt F) → (⟨S10000, .f32⟩ : BufTy).Contents (Elt F)),
    StableHlo.binary main_v186 main_v187 main_v188 (maximumf : (⟨S10000, .f32⟩ : BufTy).Contents (Elt F) → (⟨S10000, .f32⟩ : BufTy).Contents (Elt F) → (⟨S10000, .f32⟩ : BufTy).Contents (Elt F)),
    StableHlo.unary main_v188 main_v189 (Host.rsqrt : (⟨S10000, .f32⟩ : BufTy).Contents (Elt F) → (⟨S10000, .f32⟩ : BufTy).Contents (Elt F)),
    StableHlo.nullary main_c_42 (constantI S_ 32 0#32),
    StableHlo.unary main_c_42 main_v190 (broadcastInDim S170000 ![] bcast_S_S170000 : (⟨S_, .i32⟩ : BufTy).Contents (Elt F) → (⟨S170000, .i32⟩ : BufTy).Contents (Elt F)),
    StableHlo.binary main_v176 main_v190 main_v191 (cmpi .slt : (⟨S170000, .i32⟩ : BufTy).Contents (Elt F) → (⟨S170000, .i32⟩ : BufTy).Contents (Elt F) → (⟨S170000, .i1⟩ : BufTy).Contents (Elt F)),
    StableHlo.nullary main_c_43 (constantI S_ 32 10000#32),
    StableHlo.unary main_c_43 main_v192 (broadcastInDim S170000 ![] bcast_S_S170000 : (⟨S_, .i32⟩ : BufTy).Contents (Elt F) → (⟨S170000, .i32⟩ : BufTy).Contents (Elt F)),
    StableHlo.binary main_v176 main_v192 main_v193 (addi : (⟨S170000, .i32⟩ : BufTy).Contents (Elt F) → (⟨S170000, .i32⟩ : BufTy).Contents (Elt F) → (⟨S170000, .i32⟩ : BufTy).Contents (Elt F)),
    StableHlo.ternary main_v191 main_v193 main_v176 main_v194 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v194 main_v195 (broadcastInDim S170000x1 ![0] bcast_S170000_S170000x1_0 : (⟨S170000, .i32⟩ : BufTy).Contents (Elt F) → (⟨S170000x1, .i32⟩ : BufTy).Contents (Elt F)),
    StableHlo.binary main_v189 main_v195 main_v196 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.nullary main_c_44 (constantI S_ 32 0#32),
    StableHlo.unary main_c_44 main_v197 (broadcastInDim S170000 ![] bcast_S_S170000 : (⟨S_, .i32⟩ : BufTy).Contents (Elt F) → (⟨S170000, .i32⟩ : BufTy).Contents (Elt F)),
    StableHlo.binary main_v177 main_v197 main_v198 (cmpi .slt : (⟨S170000, .i32⟩ : BufTy).Contents (Elt F) → (⟨S170000, .i32⟩ : BufTy).Contents (Elt F) → (⟨S170000, .i1⟩ : BufTy).Contents (Elt F)),
    StableHlo.nullary main_c_45 (constantI S_ 32 10000#32),
    StableHlo.unary main_c_45 main_v199 (broadcastInDim S170000 ![] bcast_S_S170000 : (⟨S_, .i32⟩ : BufTy).Contents (Elt F) → (⟨S170000, .i32⟩ : BufTy).Contents (Elt F)),
    StableHlo.binary main_v177 main_v199 main_v200 (addi : (⟨S170000, .i32⟩ : BufTy).Contents (Elt F) → (⟨S170000, .i32⟩ : BufTy).Contents (Elt F) → (⟨S170000, .i32⟩ : BufTy).Contents (Elt F)),
    StableHlo.ternary main_v198 main_v200 main_v177 main_v201 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v201 main_v202 (broadcastInDim S170000x1 ![0] bcast_S170000_S170000x1_0 : (⟨S170000, .i32⟩ : BufTy).Contents (Elt F) → (⟨S170000x1, .i32⟩ : BufTy).Contents (Elt F)),
    StableHlo.binary main_v189 main_v202 main_v203 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.binary main_v196 main_v203 main_v204 (mulf : (⟨S170000, .f32⟩ : BufTy).Contents (Elt F) → (⟨S170000, .f32⟩ : BufTy).Contents (Elt F) → (⟨S170000, .f32⟩ : BufTy).Contents (Elt F)),
    StableHlo.nullary main_c_46 (constantI S_ 32 0#32),
    StableHlo.unary main_c_46 main_v205 (broadcastInDim S170000 ![] bcast_S_S170000 : (⟨S_, .i32⟩ : BufTy).Contents (Elt F) → (⟨S170000, .i32⟩ : BufTy).Contents (Elt F)),
    StableHlo.binary main_v176 main_v205 main_v206 (cmpi .slt : (⟨S170000, .i32⟩ : BufTy).Contents (Elt F) → (⟨S170000, .i32⟩ : BufTy).Contents (Elt F) → (⟨S170000, .i1⟩ : BufTy).Contents (Elt F)),
    StableHlo.nullary main_c_47 (constantI S_ 32 10000#32),
    StableHlo.unary main_c_47 main_v207 (broadcastInDim S170000 ![] bcast_S_S170000 : (⟨S_, .i32⟩ : BufTy).Contents (Elt F) → (⟨S170000, .i32⟩ : BufTy).Contents (Elt F)),
    StableHlo.binary main_v176 main_v207 main_v208 (addi : (⟨S170000, .i32⟩ : BufTy).Contents (Elt F) → (⟨S170000, .i32⟩ : BufTy).Contents (Elt F) → (⟨S170000, .i32⟩ : BufTy).Contents (Elt F)),
    StableHlo.ternary main_v206 main_v208 main_v176 main_v209 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v209 main_v210 (broadcastInDim S170000x1 ![0] bcast_S170000_S170000x1_0 : (⟨S170000, .i32⟩ : BufTy).Contents (Elt F) → (⟨S170000x1, .i32⟩ : BufTy).Contents (Elt F)),
    StableHlo.binary main_v174 main_v210 main_v211 ((fun x i => Host.gather gather_S10000x512_S170000x1_S170000x512_1_0_n_n_0_1_1512 x i) : (⟨S10000x512, .f32⟩ : BufTy).Contents (Elt F) → (⟨S170000x1, .i32⟩ : BufTy).Contents (Elt F) → (⟨S170000x512, .f32⟩ : BufTy).Contents (Elt F)),
    StableHlo.unary main_v204 main_v212 (broadcastInDim S170000x1 ![0] bcast_S170000_S170000x1_0 : (⟨S170000, .f32⟩ : BufTy).Contents (Elt F) → (⟨S170000x1, .f32⟩ : BufTy).Contents (Elt F)),
    StableHlo.unary main_v212 main_v213 (broadcastInDim S170000x512 ![0, 1] bcast_S170000x1_S170000x512_0_1 : (⟨S170000x1, .f32⟩ : BufTy).Contents (Elt F) → (⟨S170000x512, .f32⟩ : BufTy).Contents (Elt F)),
    StableHlo.binary main_v211 main_v213 main_v214 (mulf : (⟨S170000x512, .f32⟩ : BufTy).Contents (Elt F) → (⟨S170000x512, .f32⟩ : BufTy).Contents (Elt F) → (⟨S170000x512, .f32⟩ : BufTy).Contents (Elt F)),
    StableHlo.nullary main_cst_48 (constant S_ .f32 0x00000000#32),
    StableHlo.unary main_cst_48 main_v215 (broadcastInDim S10000x512 ![] bcast_S_S10000x512 : (⟨S_, .f32⟩ : BufTy).Contents (Elt F) → (⟨S10000x512, .f32⟩ : BufTy).Contents (Elt F)),
    StableHlo.unary main_v177 main_v216 (broadcastInDim S170000x1 ![0] bcast_S170000_S170000x1_0 : (⟨S170000, .i32⟩ : BufTy).Contents (Elt F) → (⟨S170000x1, .i32⟩ : BufTy).Contents (Elt F)),
    StableHlo.ternary main_v215 main_v216 main_v214 main_v217 ((fun x i u => Host.scatterAdd scatter_S10000x512_S170000x1_S170000x512_1_0_0_1 x i u) : (⟨S10000x512, .f32⟩ : BufTy).Contents (Elt F) → (⟨S170000x1, .i32⟩ : BufTy).Contents (Elt F) → (⟨S170000x512, .f32⟩ : BufTy).Contents (Elt F) → (⟨S10000x512, .f32⟩ : BufTy).Contents (Elt F)),
    StableHlo.unary main_arg10 main_v218 (broadcastInDim S1x512 ![1] bcast_S512_S1x512_1 : (⟨S512, .f32⟩ : BufTy).Contents (Elt F) → (⟨S1x512, .f32⟩ : BufTy).Contents (Elt F)),
    StableHlo.unary main_v218 main_v219 (broadcastInDim S10000x512 ![0, 1] bcast_S1x512_S10000x512_0_1 : (⟨S1x512, .f32⟩ : BufTy).Contents (Elt F) → (⟨S10000x512, .f32⟩ : BufTy).Contents (Elt F)),
    StableHlo.binary main_v217 main_v219 main_v220 (addf : (⟨S10000x512, .f32⟩ : BufTy).Contents (Elt F) → (⟨S10000x512, .f32⟩ : BufTy).Contents (Elt F) → (⟨S10000x512, .f32⟩ : BufTy).Contents (Elt F)) ]

set_option maxHeartbeats 8000000 in
theorem blkC22_v220 (V : Valuation τ sig (Elt Ideal)) :
    after (blkC22 (F := Ideal)) V (Proc.devRef .tc main_v220) = Spec.convOn Spec.es2 Spec.cs2_512 Spec.rs512 (V (Proc.devRef .tc main_v125)) (V (Proc.devRef .tc main_arg9)) (V (Proc.devRef .tc main_arg10)) (Spec.withLoops Spec.es2 (V (Proc.devRef .tc main_v5))) (Spec.withLoops Spec.es2 (V (Proc.devRef .tc main_v7))) := by
  unfold blkC22
  after_results_simp
  rfl

end Cert.ReferenceIdeal.HandVal

end
-- ==== Proof.Ref.BlkE22.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkE22 {F : FTy → Type} [FloatOps F] : List (HloOp τ sig (Elt F)) :=
  [ StableHlo.TRef.nullary main_call3.cst (constant S_ .f32 0x00000000#32),
    StableHlo.TRef.unary main_call3.cst main_call3.v0 (broadcastInDim S10000x512 ![] bcast_S_S10000x512),
    StableHlo.TRef.binary (StableHlo.TRef.of main_v220 : StableHlo.TRef sig ⟨S10000x512, .f32⟩) main_call3.v0 main_call3.v1 (cmpf .ogt),
    StableHlo.TRef.nullary main_call3.cst_0 (constant S_ .f32 0x00000000#32),
    StableHlo.TRef.unary main_call3.cst_0 main_call3.v2 (broadcastInDim S10000x512 ![] bcast_S_S10000x512),
    StableHlo.TRef.binary (StableHlo.TRef.of main_v220 : StableHlo.TRef sig ⟨S10000x512, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S10000x512 ![] bcast_S_S10000x512),
    StableHlo.TRef.ternary main_call3.v3 main_call3.call0.v1 (StableHlo.TRef.of main_v220 : StableHlo.TRef sig ⟨S10000x512, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S10000x512 ![] bcast_S_S10000x512),
    StableHlo.TRef.binary main_call3.v6 main_call3.v5 main_call3.v7 mulf,
    StableHlo.TRef.ternary main_call3.v1 (StableHlo.TRef.of main_v220 : StableHlo.TRef sig ⟨S10000x512, .f32⟩) main_call3.v7 main_call3.call1.v0 select ]

set_option maxHeartbeats 8000000 in
theorem blkE22_v221 (V : Valuation τ sig (Elt Ideal)) :
    after (blkE22 (F := Ideal)) V (Proc.devRef .tc main_v221) = Spec.elu Spec.rs512 (V (Proc.devRef .tc main_v220)) := by
  unfold blkE22
  after_results_simp
  rfl

end Cert.ReferenceIdeal.HandVal

end
-- ==== Proof.Ref.BlkA2.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkA2 {F : FTy → Type} [FloatOps F] : List (HloOp τ sig (Elt F)) :=
  [ StableHlo.nullary main_cst_49 (constant S_ .f32 0xFF800000#32),
    StableHlo.binary main_arg16 main_cst_49 main_v222 ((fun x v => Host.reduce FloatOps.maximumf x v reducesTo_S512x2_S512_d1 h_S_) : (⟨S512x2, .f32⟩ : BufTy).Contents (Elt F) → (⟨S_, .f32⟩ : BufTy).Contents (Elt F) → (⟨S512, .f32⟩ : BufTy).Contents (Elt F)),
    StableHlo.nullary main_cst_50 (constant S_ .f32 0xFF800000#32),
    StableHlo.unary main_cst_50 main_v223 (broadcastInDim S512 ![] bcast_S_S512 : (⟨S_, .f32⟩ : BufTy).Contents (Elt F) → (⟨S512, .f32⟩ : BufTy).Contents (Elt F)),
    StableHlo.binary main_v223 main_v222 main_v224 (maximumf : (⟨S512, .f32⟩ : BufTy).Contents (Elt F) → (⟨S512, .f32⟩ : BufTy).Contents (Elt F) → (⟨S512, .f32⟩ : BufTy).Contents (Elt F)),
    StableHlo.unary main_v224 main_v225 (broadcastInDim S512x1 ![0] bcast_S512_S512x1_0 : (⟨S512, .f32⟩ : BufTy).Contents (Elt F) → (⟨S512x1, .f32⟩ : BufTy).Contents (Elt F)),
    StableHlo.unary main_v225 main_v226 (broadcastInDim S512x2 ![0, 1] bcast_S512x1_S512x2_0_1 : (⟨S512x1, .f32⟩ : BufTy).Contents (Elt F) → (⟨S512x2, .f32⟩ : BufTy).Contents (Elt F)),
    StableHlo.binary main_arg16 main_v226 main_v227 (subf : (⟨S512x2, .f32⟩ : BufTy).Contents (Elt F) → (⟨S512x2, .f32⟩ : BufTy).Contents (Elt F) → (⟨S512x2, .f32⟩ : BufTy).Contents (Elt F)),
    StableHlo.unary main_v227 main_v228 (Host.exp : (⟨S512x2, .f32⟩ : BufTy).Contents (Elt F) → (⟨S512x2, .f32⟩ : BufTy).Contents (Elt F)),
    StableHlo.nullary main_cst_51 (constant S_ .f32 0x00000000#32),
    StableHlo.binary main_v228 main_cst_51 main_v229 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    StableHlo.unary main_v229 main_v230 (broadcastInDim S512x1 ![0] bcast_S512_S512x1_0 : (⟨S512, .f32⟩ : BufTy).Contents (Elt F) → (⟨S512x1, .f32⟩ : BufTy).Contents (Elt F)),
    StableHlo.unary main_v230 main_v231 (broadcastInDim S512x2 ![0, 1] bcast_S512x1_S512x2_0_1 : (⟨S512x1, .f32⟩ : BufTy).Contents (Elt F) → (⟨S512x2, .f32⟩ : BufTy).Contents (Elt F)),
    StableHlo.binary main_v228 main_v231 main_v232 (Host.divf : (⟨S512x2, .f32⟩ : BufTy).Contents (Elt F) → (⟨S512x2, .f32⟩ : BufTy).Contents (Elt F) → (⟨S512x2, .f32⟩ : BufTy).Contents (Elt F)),
    StableHlo.unary main_v232 main_v233 ((extractStridedSlice S512x1 ![0, 0] · slices_S512x2_S512x1_0_0) : (⟨S512x2, .f32⟩ : BufTy).Contents (Elt F) → (⟨S512x1, .f32⟩ : BufTy).Contents (Elt F)),
    StableHlo.reshape main_v233 main_v234 rfl shapeCasts_S512x1_S512,
    StableHlo.unary main_v234 main_v235 (broadcastInDim S1x512 ![1] bcast_S512_S1x512_1 : (⟨S512, .f32⟩ : BufTy).Contents (Elt F) → (⟨S1x512, .f32⟩ : BufTy).Contents (Elt F)),
    StableHlo.unary main_v235 main_v236 (broadcastInDim S10000x512 ![0, 1] bcast_S1x512_S10000x512_0_1 : (⟨S1x512, .f32⟩ : BufTy).Contents (Elt F) → (⟨S10000x512, .f32⟩ : BufTy).Contents (Elt F)),
    StableHlo.binary main_v173 main_v236 main_v237 (mulf : (⟨S10000x512, .f32⟩ : BufTy).Contents (Elt F) → (⟨S10000x512, .f32⟩ : BufTy).Contents (Elt F) → (⟨S10000x512, .f32⟩ : BufTy).Contents (Elt F)),
    StableHlo.unary main_v232 main_v238 ((extractStridedSlice S512x1 ![0, 1] · slices_S512x2_S512x1_0_1) : (⟨S512x2, .f32⟩ : BufTy).Contents (Elt F) → (⟨S512x1, .f32⟩ : BufTy).Contents (Elt F)),
    StableHlo.reshape main_v238 main_v239 rfl shapeCasts_S512x1_S512,
    StableHlo.unary main_v239 main_v240 (broadcastInDim S1x512 ![1] bcast_S512_S1x512_1 : (⟨S512, .f32⟩ : BufTy).Contents (Elt F) → (⟨S1x512, .f32⟩ : BufTy).Contents (Elt F)),
    StableHlo.unary main_v240 main_v241 (broadcastInDim S10000x512 ![0, 1] bcast_S1x512_S10000x512_0_1 : (⟨S1x512, .f32⟩ : BufTy).Contents (Elt F) → (⟨S10000x512, .f32⟩ : BufTy).Contents (Elt F)),
    StableHlo.binary main_v221 main_v241 main_v242 (mulf : (⟨S10000x512, .f32⟩ : BufTy).Contents (Elt F) → (⟨S10000x512, .f32⟩ : BufTy).Contents (Elt F) → (⟨S10000x512, .f32⟩ : BufTy).Contents (Elt F)),
    StableHlo.binary main_v237 main_v242 main_v243 (addf : (⟨S10000x512, .f32⟩ : BufTy).Contents (Elt F) → (⟨S10000x512, .f32⟩ : BufTy).Contents (Elt F) → (⟨S10000x512, .f32⟩ : BufTy).Contents (Elt F)) ]

set_option maxHeartbeats 8000000 in
theorem blkA2_v243 (V : Valuation τ sig (Elt Ideal)) :
    after (blkA2 (F := Ideal)) V (Proc.devRef .tc main_v243) = Spec.aggr Spec.rs512 Spec.ss512 (V (Proc.devRef .tc main_arg16)) (V (Proc.devRef .tc main_v173)) (V (Proc.devRef .tc main_v221)) := by
  unfold blkA2
  after_results_simp
  rfl

end Cert.ReferenceIdeal.HandVal

end
-- ==== Proof.Ref.BlkC31.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkC31 {F : FTy → Type} [FloatOps F] : List (HloOp τ sig (Elt F)) :=
  [ StableHlo.binary main_v243 main_arg11 main_v244 ((fun l r => Host.dotGeneral dot_S10000x512_S512x128_S10000x128_1_0_0_1_n_n none l r) : (⟨S10000x512, .f32⟩ : BufTy).Contents (Elt F) → (⟨S512x128, .f32⟩ : BufTy).Contents (Elt F) → (⟨S10000x128, .f32⟩ : BufTy).Contents (Elt F)),
    StableHlo.nullary main_v245 (iotaInDim S10000 32 0),
    StableHlo.binary main_v1 main_v245 main_v246 ((fun a b => concatenate S90000 0 [⟨S80000, a⟩, ⟨S10000, b⟩] concatenates_S80000_S10000_S90000_d0) : (⟨S80000, .i32⟩ : BufTy).Contents (Elt F) → (⟨S10000, .i32⟩ : BufTy).Contents (Elt F) → (⟨S90000, .i32⟩ : BufTy).Contents (Elt F)),
    StableHlo.binary main_v3 main_v245 main_v247 ((fun a b => concatenate S90000 0 [⟨S80000, a⟩, ⟨S10000, b⟩] concatenates_S80000_S10000_S90000_d0) : (⟨S80000, .i32⟩ : BufTy).Contents (Elt F) → (⟨S10000, .i32⟩ : BufTy).Contents (Elt F) → (⟨S90000, .i32⟩ : BufTy).Contents (Elt F)),
    StableHlo.nullary main_cst_52 (constant S_ .f32 0x00000000#32),
    StableHlo.unary main_cst_52 main_v248 (broadcastInDim S10000 ![] bcast_S_S10000 : (⟨S_, .f32⟩ : BufTy).Contents (Elt F) → (⟨S10000, .f32⟩ : BufTy).Contents (Elt F)),
    StableHlo.nullary main_c_53 (constantI S_ 32 0#32),
    StableHlo.unary main_c_53 main_v249 (broadcastInDim S90000 ![] bcast_S_S90000 : (⟨S_, .i32⟩ : BufTy).Contents (Elt F) → (⟨S90000, .i32⟩ : BufTy).Contents (Elt F)),
    StableHlo.binary main_v247 main_v249 main_v250 (cmpi .slt : (⟨S90000, .i32⟩ : BufTy).Contents (Elt F) → (⟨S90000, .i32⟩ : BufTy).Contents (Elt F) → (⟨S90000, .i1⟩ : BufTy).Contents (Elt F)),
    StableHlo.nullary main_c_54 (constantI S_ 32 10000#32),
    StableHlo.unary main_c_54 main_v251 (broadcastInDim S90000 ![] bcast_S_S90000 : (⟨S_, .i32⟩ : BufTy).Contents (Elt F) → (⟨S90000, .i32⟩ : BufTy).Contents (Elt F)),
    StableHlo.binary main_v247 main_v251 main_v252 (addi : (⟨S90000, .i32⟩ : BufTy).Contents (Elt F) → (⟨S90000, .i32⟩ : BufTy).Contents (Elt F) → (⟨S90000, .i32⟩ : BufTy).Contents (Elt F)),
    StableHlo.ternary main_v250 main_v252 main_v247 main_v253 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v253 main_v254 (broadcastInDim S90000x1 ![0] bcast_S90000_S90000x1_0 : (⟨S90000, .i32⟩ : BufTy).Contents (Elt F) → (⟨S90000x1, .i32⟩ : BufTy).Contents (Elt F)),
    StableHlo.nullary main_cst_55 (constant S_ .f32 0x3F800000#32),
    StableHlo.unary main_cst_55 main_v255 (broadcastInDim S90000 ![] bcast_S_S90000 : (⟨S_, .f32⟩ : BufTy).Contents (Elt F) → (⟨S90000, .f32⟩ : BufTy).Contents (Elt F)),
    StableHlo.ternary main_v248 main_v254 main_v255 main_v256 ((fun x i u => Host.scatterAdd scatter_S10000_S90000x1_S90000_n_0_0_1 x i u) : (⟨S10000, .f32⟩ : BufTy).Contents (Elt F) → (⟨S90000x1, .i32⟩ : BufTy).Contents (Elt F) → (⟨S90000, .f32⟩ : BufTy).Contents (Elt F) → (⟨S10000, .f32⟩ : BufTy).Contents (Elt F)),
    StableHlo.nullary main_cst_56 (constant S_ .f32 0x3F800000#32),
    StableHlo.unary main_cst_56 main_v257 (broadcastInDim S10000 ![] bcast_S_S10000 : (⟨S_, .f32⟩ : BufTy).Contents (Elt F) → (⟨S10000, .f32⟩ : BufTy).Contents (Elt F)),
    StableHlo.binary main_v256 main_v257 main_v258 (maximumf : (⟨S10000, .f32⟩ : BufTy).Contents (Elt F) → (⟨S10000, .f32⟩ : BufTy).Contents (Elt F) → (⟨S10000, .f32⟩ : BufTy).Contents (Elt F)),
    StableHlo.unary main_v258 main_v259 (Host.rsqrt : (⟨S10000, .f32⟩ : BufTy).Contents (Elt F) → (⟨S10000, .f32⟩ : BufTy).Contents (Elt F)),
    StableHlo.nullary main_c_57 (constantI S_ 32 0#32),
    StableHlo.unary main_c_57 main_v260 (broadcastInDim S90000 ![] bcast_S_S90000 : (⟨S_, .i32⟩ : BufTy).Contents (Elt F) → (⟨S90000, .i32⟩ : BufTy).Contents (Elt F)),
    StableHlo.binary main_v246 main_v260 main_v261 (cmpi .slt : (⟨S90000, .i32⟩ : BufTy).Contents (Elt F) → (⟨S90000, .i32⟩ : BufTy).Contents (Elt F) → (⟨S90000, .i1⟩ : BufTy).Contents (Elt F)),
    StableHlo.nullary main_c_58 (constantI S_ 32 10000#32),
    StableHlo.unary main_c_58 main_v262 (broadcastInDim S90000 ![] bcast_S_S90000 : (⟨S_, .i32⟩ : BufTy).Contents (Elt F) → (⟨S90000, .i32⟩ : BufTy).Contents (Elt F)),
    StableHlo.binary main_v246 main_v262 main_v263 (addi : (⟨S90000, .i32⟩ : BufTy).Contents (Elt F) → (⟨S90000, .i32⟩ : BufTy).Contents (Elt F) → (⟨S90000, .i32⟩ : BufTy).Contents (Elt F)),
    StableHlo.ternary main_v261 main_v263 main_v246 main_v264 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v264 main_v265 (broadcastInDim S90000x1 ![0] bcast_S90000_S90000x1_0 : (⟨S90000, .i32⟩ : BufTy).Contents (Elt F) → (⟨S90000x1, .i32⟩ : BufTy).Contents (Elt F)),
    StableHlo.binary main_v259 main_v265 main_v266 ((fun x i => Host.gather gather_S10000_S90000x1_S90000_n_0_n_n_0_1_1 x i) : (⟨S10000, .f32⟩ : BufTy).Contents (Elt F) → (⟨S90000x1, .i32⟩ : BufTy).Contents (Elt F) → (⟨S90000, .f32⟩ : BufTy).Contents (Elt F)),
    StableHlo.nullary main_c_59 (constantI S_ 32 0#32),
    StableHlo.unary main_c_59 main_v267 (broadcastInDim S90000 ![] bcast_S_S90000 : (⟨S_, .i32⟩ : BufTy).Contents (Elt F) → (⟨S90000, .i32⟩ : BufTy).Contents (Elt F)),
    StableHlo.binary main_v247 main_v267 main_v268 (cmpi .slt : (⟨S90000, .i32⟩ : BufTy).Contents (Elt F) → (⟨S90000, .i32⟩ : BufTy).Contents (Elt F) → (⟨S90000, .i1⟩ : BufTy).Contents (Elt F)),
    StableHlo.nullary main_c_60 (constantI S_ 32 10000#32),
    StableHlo.unary main_c_60 main_v269 (broadcastInDim S90000 ![] bcast_S_S90000 : (⟨S_, .i32⟩ : BufTy).Contents (Elt F) → (⟨S90000, .i32⟩ : BufTy).Contents (Elt F)),
    StableHlo.binary main_v247 main_v269 main_v270 (addi : (⟨S90000, .i32⟩ : BufTy).Contents (Elt F) → (⟨S90000, .i32⟩ : BufTy).Contents (Elt F) → (⟨S90000, .i32⟩ : BufTy).Contents (Elt F)),
    StableHlo.ternary main_v268 main_v270 main_v247 main_v271 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v271 main_v272 (broadcastInDim S90000x1 ![0] bcast_S90000_S90000x1_0 : (⟨S90000, .i32⟩ : BufTy).Contents (Elt F) → (⟨S90000x1, .i32⟩ : BufTy).Contents (Elt F)),
    StableHlo.binary main_v259 main_v272 main_v273 ((fun x i => Host.gather gather_S10000_S90000x1_S90000_n_0_n_n_0_1_1 x i) : (⟨S10000, .f32⟩ : BufTy).Contents (Elt F) → (⟨S90000x1, .i32⟩ : BufTy).Contents (Elt F) → (⟨S90000, .f32⟩ : BufTy).Contents (Elt F)),
    StableHlo.binary main_v266 main_v273 main_v274 (mulf : (⟨S90000, .f32⟩ : BufTy).Contents (Elt F) → (⟨S90000, .f32⟩ : BufTy).Contents (Elt F) → (⟨S90000, .f32⟩ : BufTy).Contents (Elt F)),
    StableHlo.nullary main_c_61 (constantI S_ 32 0#32),
    StableHlo.unary main_c_61 main_v275 (broadcastInDim S90000 ![] bcast_S_S90000 : (⟨S_, .i32⟩ : BufTy).Contents (Elt F) → (⟨S90000, .i32⟩ : BufTy).Contents (Elt F)),
    StableHlo.binary main_v246 main_v275 main_v276 (cmpi .slt : (⟨S90000, .i32⟩ : BufTy).Contents (Elt F) → (⟨S90000, .i32⟩ : BufTy).Contents (Elt F) → (⟨S90000, .i1⟩ : BufTy).Contents (Elt F)),
    StableHlo.nullary main_c_62 (constantI S_ 32 10000#32),
    StableHlo.unary main_c_62 main_v277 (broadcastInDim S90000 ![] bcast_S_S90000 : (⟨S_, .i32⟩ : BufTy).Contents (Elt F) → (⟨S90000, .i32⟩ : BufTy).Contents (Elt F)),
    StableHlo.binary main_v246 main_v277 main_v278 (addi : (⟨S90000, .i32⟩ : BufTy).Contents (Elt F) → (⟨S90000, .i32⟩ : BufTy).Contents (Elt F) → (⟨S90000, .i32⟩ : BufTy).Contents (Elt F)),
    StableHlo.ternary main_v276 main_v278 main_v246 main_v279 (select : (⟨S90000, .i1⟩ : BufTy).Contents (Elt F) → (⟨S90000, .i32⟩ : BufTy).Contents (Elt F) → (⟨S90000, .i32⟩ : BufTy).Contents (Elt F) → (⟨S90000, .i32⟩ : BufTy).Contents (Elt F)),
    StableHlo.unary main_v279 main_v280 (broadcastInDim S90000x1 ![0] bcast_S90000_S90000x1_0 : (⟨S90000, .i32⟩ : BufTy).Contents (Elt F) → (⟨S90000x1, .i32⟩ : BufTy).Contents (Elt F)),
    StableHlo.binary main_v244 main_v280 main_v281 ((fun x i => Host.gather gather_S10000x128_S90000x1_S90000x128_1_0_n_n_0_1_1128 x i) : (⟨S10000x128, .f32⟩ : BufTy).Contents (Elt F) → (⟨S90000x1, .i32⟩ : BufTy).Contents (Elt F) → (⟨S90000x128, .f32⟩ : BufTy).Contents (Elt F)),
    StableHlo.unary main_v274 main_v282 (broadcastInDim S90000x1 ![0] bcast_S90000_S90000x1_0 : (⟨S90000, .f32⟩ : BufTy).Contents (Elt F) → (⟨S90000x1, .f32⟩ : BufTy).Contents (Elt F)),
    StableHlo.unary main_v282 main_v283 (broadcastInDim S90000x128 ![0, 1] bcast_S90000x1_S90000x128_0_1 : (⟨S90000x1, .f32⟩ : BufTy).Contents (Elt F) → (⟨S90000x128, .f32⟩ : BufTy).Contents (Elt F)),
    StableHlo.binary main_v281 main_v283 main_v284 (mulf : (⟨S90000x128, .f32⟩ : BufTy).Contents (Elt F) → (⟨S90000x128, .f32⟩ : BufTy).Contents (Elt F) → (⟨S90000x128, .f32⟩ : BufTy).Contents (Elt F)),
    StableHlo.nullary main_cst_63 (constant S_ .f32 0x00000000#32),
    StableHlo.unary main_cst_63 main_v285 (broadcastInDim S10000x128 ![] bcast_S_S10000x128 : (⟨S_, .f32⟩ : BufTy).Contents (Elt F) → (⟨S10000x128, .f32⟩ : BufTy).Contents (Elt F)),
    StableHlo.unary main_v247 main_v286 (broadcastInDim S90000x1 ![0] bcast_S90000_S90000x1_0 : (⟨S90000, .i32⟩ : BufTy).Contents (Elt F) → (⟨S90000x1, .i32⟩ : BufTy).Contents (Elt F)),
    StableHlo.ternary main_v285 main_v286 main_v284 main_v287 ((fun x i u => Host.scatterAdd scatter_S10000x128_S90000x1_S90000x128_1_0_0_1 x i u) : (⟨S10000x128, .f32⟩ : BufTy).Contents (Elt F) → (⟨S90000x1, .i32⟩ : BufTy).Contents (Elt F) → (⟨S90000x128, .f32⟩ : BufTy).Contents (Elt F) → (⟨S10000x128, .f32⟩ : BufTy).Contents (Elt F)),
    StableHlo.unary main_arg12 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S10000x128 ![0, 1] bcast_S1x128_S10000x128_0_1 : (⟨S1x128, .f32⟩ : BufTy).Contents (Elt F) → (⟨S10000x128, .f32⟩ : BufTy).Contents (Elt F)),
    StableHlo.binary main_v287 main_v289 main_v290 (addf : (⟨S10000x128, .f32⟩ : BufTy).Contents (Elt F) → (⟨S10000x128, .f32⟩ : BufTy).Contents (Elt F) → (⟨S10000x128, .f32⟩ : BufTy).Contents (Elt F)) ]

set_option maxHeartbeats 8000000 in
theorem blkC31_v290 (V : Valuation τ sig (Elt Ideal)) :
    after (blkC31 (F := Ideal)) V (Proc.devRef .tc main_v290) = Spec.convOn Spec.es1 Spec.cs1_128 Spec.rs128 (V (Proc.devRef .tc main_v243)) (V (Proc.devRef .tc main_arg11)) (V (Proc.devRef .tc main_arg12)) (Spec.withLoops Spec.es1 (V (Proc.devRef .tc main_v1))) (Spec.withLoops Spec.es1 (V (Proc.devRef .tc main_v3))) := by
  unfold blkC31
  after_results_simp
  rfl

end Cert.ReferenceIdeal.HandVal

end
-- ==== Proof.Ref.BlkE31.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkE31 {F : FTy → Type} [FloatOps F] : List (HloOp τ sig (Elt F)) :=
  [ StableHlo.TRef.nullary main_call4.cst (constant S_ .f32 0x00000000#32),
    StableHlo.TRef.unary main_call4.cst main_call4.v0 (broadcastInDim S10000x128 ![] bcast_S_S10000x128),
    StableHlo.TRef.binary (StableHlo.TRef.of main_v290 : StableHlo.TRef sig ⟨S10000x128, .f32⟩) main_call4.v0 main_call4.v1 (cmpf .ogt),
    StableHlo.TRef.nullary main_call4.cst_0 (constant S_ .f32 0x00000000#32),
    StableHlo.TRef.unary main_call4.cst_0 main_call4.v2 (broadcastInDim S10000x128 ![] bcast_S_S10000x128),
    StableHlo.TRef.binary (StableHlo.TRef.of main_v290 : StableHlo.TRef sig ⟨S10000x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S10000x128 ![] bcast_S_S10000x128),
    StableHlo.TRef.ternary main_call4.v3 main_call4.call0.v1 (StableHlo.TRef.of main_v290 : StableHlo.TRef sig ⟨S10000x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S10000x128 ![] bcast_S_S10000x128),
    StableHlo.TRef.binary main_call4.v6 main_call4.v5 main_call4.v7 mulf,
    StableHlo.TRef.ternary main_call4.v1 (StableHlo.TRef.of main_v290 : StableHlo.TRef sig ⟨S10000x128, .f32⟩) main_call4.v7 main_call4.call1.v0 select ]

set_option maxHeartbeats 8000000 in
theorem blkE31_v291 (V : Valuation τ sig (Elt Ideal)) :
    after (blkE31 (F := Ideal)) V (Proc.devRef .tc main_v291) = Spec.elu Spec.rs128 (V (Proc.devRef .tc main_v290)) := by
  unfold blkE31
  after_results_simp
  rfl

end Cert.ReferenceIdeal.HandVal

end
-- ==== Proof.Ref.BlkC32.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkC32 {F : FTy → Type} [FloatOps F] : List (HloOp τ sig (Elt F)) :=
  [ StableHlo.binary main_v243 main_arg13 main_v292 ((fun l r => Host.dotGeneral dot_S10000x512_S512x128_S10000x128_1_0_0_1_n_n none l r) : (⟨S10000x512, .f32⟩ : BufTy).Contents (Elt F) → (⟨S512x128, .f32⟩ : BufTy).Contents (Elt F) → (⟨S10000x128, .f32⟩ : BufTy).Contents (Elt F)),
    StableHlo.nullary main_v293 (iotaInDim S10000 32 0),
    StableHlo.binary main_v5 main_v293 main_v294 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.binary main_v7 main_v293 main_v295 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.nullary main_cst_64 (constant S_ .f32 0x00000000#32),
    StableHlo.unary main_cst_64 main_v296 (broadcastInDim S10000 ![] bcast_S_S10000 : (⟨S_, .f32⟩ : BufTy).Contents (Elt F) → (⟨S10000, .f32⟩ : BufTy).Contents (Elt F)),
    StableHlo.nullary main_c_65 (constantI S_ 32 0#32),
    StableHlo.unary main_c_65 main_v297 (broadcastInDim S170000 ![] bcast_S_S170000 : (⟨S_, .i32⟩ : BufTy).Contents (Elt F) → (⟨S170000, .i32⟩ : BufTy).Contents (Elt F)),
    StableHlo.binary main_v295 main_v297 main_v298 (cmpi .slt : (⟨S170000, .i32⟩ : BufTy).Contents (Elt F) → (⟨S170000, .i32⟩ : BufTy).Contents (Elt F) → (⟨S170000, .i1⟩ : BufTy).Contents (Elt F)),
    StableHlo.nullary main_c_66 (constantI S_ 32 10000#32),
    StableHlo.unary main_c_66 main_v299 (broadcastInDim S170000 ![] bcast_S_S170000 : (⟨S_, .i32⟩ : BufTy).Contents (Elt F) → (⟨S170000, .i32⟩ : BufTy).Contents (Elt F)),
    StableHlo.binary main_v295 main_v299 main_v300 (addi : (⟨S170000, .i32⟩ : BufTy).Contents (Elt F) → (⟨S170000, .i32⟩ : BufTy).Contents (Elt F) → (⟨S170000, .i32⟩ : BufTy).Contents (Elt F)),
    StableHlo.ternary main_v298 main_v300 main_v295 main_v301 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v301 main_v302 (broadcastInDim S170000x1 ![0] bcast_S170000_S170000x1_0 : (⟨S170000, .i32⟩ : BufTy).Contents (Elt F) → (⟨S170000x1, .i32⟩ : BufTy).Contents (Elt F)),
    StableHlo.nullary main_cst_67 (constant S_ .f32 0x3F800000#32),
    StableHlo.unary main_cst_67 main_v303 (broadcastInDim S170000 ![] bcast_S_S170000 : (⟨S_, .f32⟩ : BufTy).Contents (Elt F) → (⟨S170000, .f32⟩ : BufTy).Contents (Elt F)),
    StableHlo.ternary main_v296 main_v302 main_v303 main_v304 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    StableHlo.nullary main_cst_68 (constant S_ .f32 0x3F800000#32),
    StableHlo.unary main_cst_68 main_v305 (broadcastInDim S10000 ![] bcast_S_S10000 : (⟨S_, .f32⟩ : BufTy).Contents (Elt F) → (⟨S10000, .f32⟩ : BufTy).Contents (Elt F)),
    StableHlo.binary main_v304 main_v305 main_v306 (maximumf : (⟨S10000, .f32⟩ : BufTy).Contents (Elt F) → (⟨S10000, .f32⟩ : BufTy).Contents (Elt F) → (⟨S10000, .f32⟩ : BufTy).Contents (Elt F)),
    StableHlo.unary main_v306 main_v307 (Host.rsqrt : (⟨S10000, .f32⟩ : BufTy).Contents (Elt F) → (⟨S10000, .f32⟩ : BufTy).Contents (Elt F)),
    StableHlo.nullary main_c_69 (constantI S_ 32 0#32),
    StableHlo.unary main_c_69 main_v308 (broadcastInDim S170000 ![] bcast_S_S170000 : (⟨S_, .i32⟩ : BufTy).Contents (Elt F) → (⟨S170000, .i32⟩ : BufTy).Contents (Elt F)),
    StableHlo.binary main_v294 main_v308 main_v309 (cmpi .slt : (⟨S170000, .i32⟩ : BufTy).Contents (Elt F) → (⟨S170000, .i32⟩ : BufTy).Contents (Elt F) → (⟨S170000, .i1⟩ : BufTy).Contents (Elt F)),
    StableHlo.nullary main_c_70 (constantI S_ 32 10000#32),
    StableHlo.unary main_c_70 main_v310 (broadcastInDim S170000 ![] bcast_S_S170000 : (⟨S_, .i32⟩ : BufTy).Contents (Elt F) → (⟨S170000, .i32⟩ : BufTy).Contents (Elt F)),
    StableHlo.binary main_v294 main_v310 main_v311 (addi : (⟨S170000, .i32⟩ : BufTy).Contents (Elt F) → (⟨S170000, .i32⟩ : BufTy).Contents (Elt F) → (⟨S170000, .i32⟩ : BufTy).Contents (Elt F)),
    StableHlo.ternary main_v309 main_v311 main_v294 main_v312 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v312 main_v313 (broadcastInDim S170000x1 ![0] bcast_S170000_S170000x1_0 : (⟨S170000, .i32⟩ : BufTy).Contents (Elt F) → (⟨S170000x1, .i32⟩ : BufTy).Contents (Elt F)),
    StableHlo.binary main_v307 main_v313 main_v314 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.nullary main_c_71 (constantI S_ 32 0#32),
    StableHlo.unary main_c_71 main_v315 (broadcastInDim S170000 ![] bcast_S_S170000 : (⟨S_, .i32⟩ : BufTy).Contents (Elt F) → (⟨S170000, .i32⟩ : BufTy).Contents (Elt F)),
    StableHlo.binary main_v295 main_v315 main_v316 (cmpi .slt : (⟨S170000, .i32⟩ : BufTy).Contents (Elt F) → (⟨S170000, .i32⟩ : BufTy).Contents (Elt F) → (⟨S170000, .i1⟩ : BufTy).Contents (Elt F)),
    StableHlo.nullary main_c_72 (constantI S_ 32 10000#32),
    StableHlo.unary main_c_72 main_v317 (broadcastInDim S170000 ![] bcast_S_S170000 : (⟨S_, .i32⟩ : BufTy).Contents (Elt F) → (⟨S170000, .i32⟩ : BufTy).Contents (Elt F)),
    StableHlo.binary main_v295 main_v317 main_v318 (addi : (⟨S170000, .i32⟩ : BufTy).Contents (Elt F) → (⟨S170000, .i32⟩ : BufTy).Contents (Elt F) → (⟨S170000, .i32⟩ : BufTy).Contents (Elt F)),
    StableHlo.ternary main_v316 main_v318 main_v295 main_v319 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v319 main_v320 (broadcastInDim S170000x1 ![0] bcast_S170000_S170000x1_0 : (⟨S170000, .i32⟩ : BufTy).Contents (Elt F) → (⟨S170000x1, .i32⟩ : BufTy).Contents (Elt F)),
    StableHlo.binary main_v307 main_v320 main_v321 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.binary main_v314 main_v321 main_v322 (mulf : (⟨S170000, .f32⟩ : BufTy).Contents (Elt F) → (⟨S170000, .f32⟩ : BufTy).Contents (Elt F) → (⟨S170000, .f32⟩ : BufTy).Contents (Elt F)),
    StableHlo.nullary main_c_73 (constantI S_ 32 0#32),
    StableHlo.unary main_c_73 main_v323 (broadcastInDim S170000 ![] bcast_S_S170000 : (⟨S_, .i32⟩ : BufTy).Contents (Elt F) → (⟨S170000, .i32⟩ : BufTy).Contents (Elt F)),
    StableHlo.binary main_v294 main_v323 main_v324 (cmpi .slt : (⟨S170000, .i32⟩ : BufTy).Contents (Elt F) → (⟨S170000, .i32⟩ : BufTy).Contents (Elt F) → (⟨S170000, .i1⟩ : BufTy).Contents (Elt F)),
    StableHlo.nullary main_c_74 (constantI S_ 32 10000#32),
    StableHlo.unary main_c_74 main_v325 (broadcastInDim S170000 ![] bcast_S_S170000 : (⟨S_, .i32⟩ : BufTy).Contents (Elt F) → (⟨S170000, .i32⟩ : BufTy).Contents (Elt F)),
    StableHlo.binary main_v294 main_v325 main_v326 (addi : (⟨S170000, .i32⟩ : BufTy).Contents (Elt F) → (⟨S170000, .i32⟩ : BufTy).Contents (Elt F) → (⟨S170000, .i32⟩ : BufTy).Contents (Elt F)),
    StableHlo.ternary main_v324 main_v326 main_v294 main_v327 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v327 main_v328 (broadcastInDim S170000x1 ![0] bcast_S170000_S170000x1_0 : (⟨S170000, .i32⟩ : BufTy).Contents (Elt F) → (⟨S170000x1, .i32⟩ : BufTy).Contents (Elt F)),
    StableHlo.binary main_v292 main_v328 main_v329 ((fun x i => Host.gather gather_S10000x128_S170000x1_S170000x128_1_0_n_n_0_1_1128 x i) : (⟨S10000x128, .f32⟩ : BufTy).Contents (Elt F) → (⟨S170000x1, .i32⟩ : BufTy).Contents (Elt F) → (⟨S170000x128, .f32⟩ : BufTy).Contents (Elt F)),
    StableHlo.unary main_v322 main_v330 (broadcastInDim S170000x1 ![0] bcast_S170000_S170000x1_0 : (⟨S170000, .f32⟩ : BufTy).Contents (Elt F) → (⟨S170000x1, .f32⟩ : BufTy).Contents (Elt F)),
    StableHlo.unary main_v330 main_v331 (broadcastInDim S170000x128 ![0, 1] bcast_S170000x1_S170000x128_0_1 : (⟨S170000x1, .f32⟩ : BufTy).Contents (Elt F) → (⟨S170000x128, .f32⟩ : BufTy).Contents (Elt F)),
    StableHlo.binary main_v329 main_v331 main_v332 (mulf : (⟨S170000x128, .f32⟩ : BufTy).Contents (Elt F) → (⟨S170000x128, .f32⟩ : BufTy).Contents (Elt F) → (⟨S170000x128, .f32⟩ : BufTy).Contents (Elt F)),
    StableHlo.nullary main_cst_75 (constant S_ .f32 0x00000000#32),
    StableHlo.unary main_cst_75 main_v333 (broadcastInDim S10000x128 ![] bcast_S_S10000x128 : (⟨S_, .f32⟩ : BufTy).Contents (Elt F) → (⟨S10000x128, .f32⟩ : BufTy).Contents (Elt F)),
    StableHlo.unary main_v295 main_v334 (broadcastInDim S170000x1 ![0] bcast_S170000_S170000x1_0 : (⟨S170000, .i32⟩ : BufTy).Contents (Elt F) → (⟨S170000x1, .i32⟩ : BufTy).Contents (Elt F)),
    StableHlo.ternary main_v333 main_v334 main_v332 main_v335 ((fun x i u => Host.scatterAdd scatter_S10000x128_S170000x1_S170000x128_1_0_0_1 x i u) : (⟨S10000x128, .f32⟩ : BufTy).Contents (Elt F) → (⟨S170000x1, .i32⟩ : BufTy).Contents (Elt F) → (⟨S170000x128, .f32⟩ : BufTy).Contents (Elt F) → (⟨S10000x128, .f32⟩ : BufTy).Contents (Elt F)),
    StableHlo.unary main_arg14 main_v336 (broadcastInDim S1x128 ![1] bcast_S128_S1x128_1 : (⟨S128, .f32⟩ : BufTy).Contents (Elt F) → (⟨S1x128, .f32⟩ : BufTy).Contents (Elt F)),
    StableHlo.unary main_v336 main_v337 (broadcastInDim S10000x128 ![0, 1] bcast_S1x128_S10000x128_0_1 : (⟨S1x128, .f32⟩ : BufTy).Contents (Elt F) → (⟨S10000x128, .f32⟩ : BufTy).Contents (Elt F)),
    StableHlo.binary main_v335 main_v337 main_v338 (addf : (⟨S10000x128, .f32⟩ : BufTy).Contents (Elt F) → (⟨S10000x128, .f32⟩ : BufTy).Contents (Elt F) → (⟨S10000x128, .f32⟩ : BufTy).Contents (Elt F)) ]

set_option maxHeartbeats 8000000 in
theorem blkC32_v338 (V : Valuation τ sig (Elt Ideal)) :
    after (blkC32 (F := Ideal)) V (Proc.devRef .tc main_v338) = Spec.convOn Spec.es2 Spec.cs2_128 Spec.rs128 (V (Proc.devRef .tc main_v243)) (V (Proc.devRef .tc main_arg13)) (V (Proc.devRef .tc main_arg14)) (Spec.withLoops Spec.es2 (V (Proc.devRef .tc main_v5))) (Spec.withLoops Spec.es2 (V (Proc.devRef .tc main_v7))) := by
  unfold blkC32
  after_results_simp
  rfl

end Cert.ReferenceIdeal.HandVal

end
-- ==== Proof.Ref.BlkE32.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkE32 {F : FTy → Type} [FloatOps F] : List (HloOp τ sig (Elt F)) :=
  [ StableHlo.TRef.nullary main_call5.cst (constant S_ .f32 0x00000000#32),
    StableHlo.TRef.unary main_call5.cst main_call5.v0 (broadcastInDim S10000x128 ![] bcast_S_S10000x128),
    StableHlo.TRef.binary (StableHlo.TRef.of main_v338 : StableHlo.TRef sig ⟨S10000x128, .f32⟩) main_call5.v0 main_call5.v1 (cmpf .ogt),
    StableHlo.TRef.nullary main_call5.cst_0 (constant S_ .f32 0x00000000#32),
    StableHlo.TRef.unary main_call5.cst_0 main_call5.v2 (broadcastInDim S10000x128 ![] bcast_S_S10000x128),
    StableHlo.TRef.binary (StableHlo.TRef.of main_v338 : StableHlo.TRef sig ⟨S10000x128, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S10000x128 ![] bcast_S_S10000x128),
    StableHlo.TRef.ternary main_call5.v3 main_call5.call0.v1 (StableHlo.TRef.of main_v338 : StableHlo.TRef sig ⟨S10000x128, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S10000x128 ![] bcast_S_S10000x128),
    StableHlo.TRef.binary main_call5.v6 main_call5.v5 main_call5.v7 mulf,
    StableHlo.TRef.ternary main_call5.v1 (StableHlo.TRef.of main_v338 : StableHlo.TRef sig ⟨S10000x128, .f32⟩) main_call5.v7 main_call5.call1.v0 select ]

set_option maxHeartbeats 8000000 in
theorem blkE32_v339 (V : Valuation τ sig (Elt Ideal)) :
    after (blkE32 (F := Ideal)) V (Proc.devRef .tc main_v339) = Spec.elu Spec.rs128 (V (Proc.devRef .tc main_v338)) := by
  unfold blkE32
  after_results_simp
  rfl

end Cert.ReferenceIdeal.HandVal

end
-- ==== Proof.Ref.BlkA3.lean ====
import proofs.«177890_j48524540510773_1_alg».proof.Proof.Gen.ReferenceIdeal
import Idealize.ShloMosaic.Lib.StableHlo.Run
import proofs.«177890_j48524540510773_1_alg».proof.Proof.Spec

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

def blkA3 {F : FTy → Type} [FloatOps F] : List (HloOp τ sig (Elt F)) :=
  [ StableHlo.nullary main_cst_76 (constant S_ .f32 0xFF800000#32),
    StableHlo.binary main_arg17 main_cst_76 main_v340 ((fun x v => Host.reduce FloatOps.maximumf x v reducesTo_S128x2_S128_d1 h_S_) : (⟨S128x2, .f32⟩ : BufTy).Contents (Elt F) → (⟨S_, .f32⟩ : BufTy).Contents (Elt F) → (⟨S128, .f32⟩ : BufTy).Contents (Elt F)),
    StableHlo.nullary main_cst_77 (constant S_ .f32 0xFF800000#32),
    StableHlo.unary main_cst_77 main_v341 (broadcastInDim S128 ![] bcast_S_S128 : (⟨S_, .f32⟩ : BufTy).Contents (Elt F) → (⟨S128, .f32⟩ : BufTy).Contents (Elt F)),
    StableHlo.binary main_v341 main_v340 main_v342 (maximumf : (⟨S128, .f32⟩ : BufTy).Contents (Elt F) → (⟨S128, .f32⟩ : BufTy).Contents (Elt F) → (⟨S128, .f32⟩ : BufTy).Contents (Elt F)),
    StableHlo.unary main_v342 main_v343 (broadcastInDim S128x1 ![0] bcast_S128_S128x1_0 : (⟨S128, .f32⟩ : BufTy).Contents (Elt F) → (⟨S128x1, .f32⟩ : BufTy).Contents (Elt F)),
    StableHlo.unary main_v343 main_v344 (broadcastInDim S128x2 ![0, 1] bcast_S128x1_S128x2_0_1 : (⟨S128x1, .f32⟩ : BufTy).Contents (Elt F) → (⟨S128x2, .f32⟩ : BufTy).Contents (Elt F)),
    StableHlo.binary main_arg17 main_v344 main_v345 (subf : (⟨S128x2, .f32⟩ : BufTy).Contents (Elt F) → (⟨S128x2, .f32⟩ : BufTy).Contents (Elt F) → (⟨S128x2, .f32⟩ : BufTy).Contents (Elt F)),
    StableHlo.unary main_v345 main_v346 (Host.exp : (⟨S128x2, .f32⟩ : BufTy).Contents (Elt F) → (⟨S128x2, .f32⟩ : BufTy).Contents (Elt F)),
    StableHlo.nullary main_cst_78 (constant S_ .f32 0x00000000#32),
    StableHlo.binary main_v346 main_cst_78 main_v347 ((fun x v => Host.reduceAdd x v reducesTo_S128x2_S128_d1 h_S_) : (⟨S128x2, .f32⟩ : BufTy).Contents (Elt F) → (⟨S_, .f32⟩ : BufTy).Contents (Elt F) → (⟨S128, .f32⟩ : BufTy).Contents (Elt F)),
    StableHlo.unary main_v347 main_v348 (broadcastInDim S128x1 ![0] bcast_S128_S128x1_0 : (⟨S128, .f32⟩ : BufTy).Contents (Elt F) → (⟨S128x1, .f32⟩ : BufTy).Contents (Elt F)),
    StableHlo.unary main_v348 main_v349 (broadcastInDim S128x2 ![0, 1] bcast_S128x1_S128x2_0_1 : (⟨S128x1, .f32⟩ : BufTy).Contents (Elt F) → (⟨S128x2, .f32⟩ : BufTy).Contents (Elt F)),
    StableHlo.binary main_v346 main_v349 main_v350 (Host.divf : (⟨S128x2, .f32⟩ : BufTy).Contents (Elt F) → (⟨S128x2, .f32⟩ : BufTy).Contents (Elt F) → (⟨S128x2, .f32⟩ : BufTy).Contents (Elt F)),
    StableHlo.unary main_v350 main_v351 ((extractStridedSlice S128x1 ![0, 0] · slices_S128x2_S128x1_0_0) : (⟨S128x2, .f32⟩ : BufTy).Contents (Elt F) → (⟨S128x1, .f32⟩ : BufTy).Contents (Elt F)),
    StableHlo.reshape main_v351 main_v352 rfl shapeCasts_S128x1_S128,
    StableHlo.unary main_v352 main_v353 (broadcastInDim S1x128 ![1] bcast_S128_S1x128_1 : (⟨S128, .f32⟩ : BufTy).Contents (Elt F) → (⟨S1x128, .f32⟩ : BufTy).Contents (Elt F)),
    StableHlo.unary main_v353 main_v354 (broadcastInDim S10000x128 ![0, 1] bcast_S1x128_S10000x128_0_1 : (⟨S1x128, .f32⟩ : BufTy).Contents (Elt F) → (⟨S10000x128, .f32⟩ : BufTy).Contents (Elt F)),
    StableHlo.binary main_v291 main_v354 main_v355 (mulf : (⟨S10000x128, .f32⟩ : BufTy).Contents (Elt F) → (⟨S10000x128, .f32⟩ : BufTy).Contents (Elt F) → (⟨S10000x128, .f32⟩ : BufTy).Contents (Elt F)),
    StableHlo.unary main_v350 main_v356 ((extractStridedSlice S128x1 ![0, 1] · slices_S128x2_S128x1_0_1) : (⟨S128x2, .f32⟩ : BufTy).Contents (Elt F) → (⟨S128x1, .f32⟩ : BufTy).Contents (Elt F)),
    StableHlo.reshape main_v356 main_v357 rfl shapeCasts_S128x1_S128,
    StableHlo.unary main_v357 main_v358 (broadcastInDim S1x128 ![1] bcast_S128_S1x128_1 : (⟨S128, .f32⟩ : BufTy).Contents (Elt F) → (⟨S1x128, .f32⟩ : BufTy).Contents (Elt F)),
    StableHlo.unary main_v358 main_v359 (broadcastInDim S10000x128 ![0, 1] bcast_S1x128_S10000x128_0_1 : (⟨S1x128, .f32⟩ : BufTy).Contents (Elt F) → (⟨S10000x128, .f32⟩ : BufTy).Contents (Elt F)),
    StableHlo.binary main_v339 main_v359 main_v360 (mulf : (⟨S10000x128, .f32⟩ : BufTy).Contents (Elt F) → (⟨S10000x128, .f32⟩ : BufTy).Contents (Elt F) → (⟨S10000x128, .f32⟩ : BufTy).Contents (Elt F)),
    StableHlo.binary main_v355 main_v360 main_v361 (addf : (⟨S10000x128, .f32⟩ : BufTy).Contents (Elt F) → (⟨S10000x128, .f32⟩ : BufTy).Contents (Elt F) → (⟨S10000x128, .f32⟩ : BufTy).Contents (Elt F)) ]

set_option maxHeartbeats 8000000 in
theorem blkA3_v361 (V : Valuation τ sig (Elt Ideal)) :
    after (blkA3 (F := Ideal)) V (Proc.devRef .tc main_v361) = Spec.aggr Spec.rs128 Spec.ss128 (V (Proc.devRef .tc main_arg17)) (V (Proc.devRef .tc main_v291)) (V (Proc.devRef .tc main_v339)) := by
  unfold blkA3
  after_results_simp
  rfl

end Cert.ReferenceIdeal.HandVal

end
-- ==== Proof.Ref.Ops.lean ====
import proofs.«177890_j48524540510773_1_alg».proof.Proof.Ref.BlkB0
import proofs.«177890_j48524540510773_1_alg».proof.Proof.Ref.BlkC11
import proofs.«177890_j48524540510773_1_alg».proof.Proof.Ref.BlkE11
import proofs.«177890_j48524540510773_1_alg».proof.Proof.Ref.BlkC12
import proofs.«177890_j48524540510773_1_alg».proof.Proof.Ref.BlkE12
import proofs.«177890_j48524540510773_1_alg».proof.Proof.Ref.BlkA1
import proofs.«177890_j48524540510773_1_alg».proof.Proof.Ref.BlkC21
import proofs.«177890_j48524540510773_1_alg».proof.Proof.Ref.BlkE21
import proofs.«177890_j48524540510773_1_alg».proof.Proof.Ref.BlkC22
import proofs.«177890_j48524540510773_1_alg».proof.Proof.Ref.BlkE22
import proofs.«177890_j48524540510773_1_alg».proof.Proof.Ref.BlkA2
import proofs.«177890_j48524540510773_1_alg».proof.Proof.Ref.BlkC31
import proofs.«177890_j48524540510773_1_alg».proof.Proof.Ref.BlkE31
import proofs.«177890_j48524540510773_1_alg».proof.Proof.Ref.BlkC32
import proofs.«177890_j48524540510773_1_alg».proof.Proof.Ref.BlkE32
import proofs.«177890_j48524540510773_1_alg».proof.Proof.Ref.BlkA3

noncomputable section

namespace Cert.ReferenceIdeal.Hand

open Cert.ReferenceIdeal Cert.ReferenceIdeal.Gen Cert.ReferenceIdeal.HandVal Idealize.ShloMosaic Idealize.ShloMosaic.TcCoe Idealize.SL.Sem

variable {F : FTy → Type} [FloatOps F]

-- The reference program's operations, in order: its sixteen stretches end to end.
abbrev ops : List (HloOp τ sig (Elt F)) :=
  blkB0 ++ (blkC11 ++ (blkE11 ++ (blkC12 ++ (blkE12 ++ (blkA1 ++ (blkC21 ++ (blkE21 ++ (blkC22 ++ (blkE22 ++ (blkA2 ++ (blkC31 ++ (blkE31 ++ (blkC32 ++ (blkE32 ++ (blkA3)))))))))))))))

end Cert.ReferenceIdeal.Hand

end
-- ==== Proof.Ref.Run.lean ====
import proofs.«177890_j48524540510773_1_alg».proof.Proof.Ref.Ops

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def seqWin {Λ : Labels} : List Nat → List (HloOp τ sig (Elt F)) → Prog (TpuEff nD τ sig (Elt F) Λ .tc) PUnit
  | [], l => seq l
  | n :: ns, l => seq (l.take n) >>= fun _ => seqWin ns (l.drop n)

-- A line run in consecutive windows, whatever their lengths, is the line run whole.
theorem seqWin_eq {Λ : Labels} : ∀ (ns : List Nat) (l : List (HloOp τ sig (Elt F))),
    (seqWin ns l : Prog (TpuEff nD τ sig (Elt F) Λ .tc) PUnit) = seq l
  | [], _ => rfl
  | n :: ns, l => by rw [seqWin, seqWin_eq ns, ← seq_append, List.take_append_drop]

theorem main_eq (c : Dev nD) : main (F := F) c = seq ops := by
  rw [← seqWin_eq [60, 74, 74, 74, 74, 74, 74] ops]
  rfl

theorem scopedRefs_eq : (Finset.univ.filter fun b : Ref sig .tc => b.isScoped) = ∅ := by decide
theorem scopedSems_eq : (Finset.univ.filter fun sm : SemLoc sig => sm.isScoped .tc) = ∅ := by decide

-- The three facts the run asks of every operation.
structure Good (op : HloOp τ sig (Elt F)) : Prop where
  sub : op.bufs ⊆ tcRefs τ sig
  fresh : op.fresh = ∅
  high : ∀ b ∈ op.writes, ∃ r : Ref sig .tc, b = Proc.devRef .tc r ∧ 18 ≤ r.idx.val

macro "good" : tactic =>
  `(tactic| ((repeat' refine And.intro ?_ ?_) <;> exact Good.mk (by with_reducible first | exact nullary_bufs_sub .. | exact unary_bufs_sub .. | exact binary_bufs_sub .. | exact ternary_bufs_sub .. | exact reshape_bufs_sub ..) rfl fun b hb => ⟨_, Finset.mem_singleton.mp hb, by decide⟩))

theorem blkB0_good : (HandVal.blkB0 (F := F)).Forall Good := by good
theorem blkC11_good : (HandVal.blkC11 (F := F)).Forall Good := by good
theorem blkE11_good : (HandVal.blkE11 (F := F)).Forall Good := by good
theorem blkC12_good : (HandVal.blkC12 (F := F)).Forall Good := by good
theorem blkE12_good : (HandVal.blkE12 (F := F)).Forall Good := by good
theorem blkA1_good : (HandVal.blkA1 (F := F)).Forall Good := by good
theorem blkC21_good : (HandVal.blkC21 (F := F)).Forall Good := by good
theorem blkE21_good : (HandVal.blkE21 (F := F)).Forall Good := by good
theorem blkC22_good : (HandVal.blkC22 (F := F)).Forall Good := by good
theorem blkE22_good : (HandVal.blkE22 (F := F)).Forall Good := by good
theorem blkA2_good : (HandVal.blkA2 (F := F)).Forall Good := by good
theorem blkC31_good : (HandVal.blkC31 (F := F)).Forall Good := by good
theorem blkE31_good : (HandVal.blkE31 (F := F)).Forall Good := by good
theorem blkC32_good : (HandVal.blkC32 (F := F)).Forall Good := by good
theorem blkE32_good : (HandVal.blkE32 (F := F)).Forall Good := by good
theorem blkA3_good : (HandVal.blkA3 (F := F)).Forall Good := by good

theorem ops_good : (ops : List (HloOp τ sig (Elt F))).Forall Good := by
  simp only [ops, List.forall_append]
  exact ⟨blkB0_good, blkC11_good, blkE11_good, blkC12_good, blkE12_good, blkA1_good, blkC21_good, blkE21_good, blkC22_good, blkE22_good, blkA2_good, blkC31_good, blkE31_good, blkC32_good, blkE32_good, blkA3_good⟩

-- No operation writes an argument, so the arguments come through unchanged.
theorem after_ops_arg (V : Valuation τ sig (Elt F)) (r : Ref sig .tc) (hr : r.idx.val < 18) :
    after ops V (Proc.devRef .tc r) = V (Proc.devRef .tc r) :=
  after_of_forall_not_mem ops V fun op hop hb => by
    obtain ⟨r', he, h18⟩ := (List.forall_iff_forall_mem.mp ops_good op hop).high _ hb
    cases Proc.devRef_injective _ he
    omega

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v361) = after ops (launchContents m c) (Proc.devRef .tc main_v361)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      refine ⟨h c main_v361, ?_⟩
      repeat' refine And.intro ?_ ?_
      all_goals exact (h c _).trans (after_ops_arg _ _ (by decide)))
    (run_seq scopedRefs_eq scopedSems_eq defs main (fun _ => ops) main_eq (fun _ => ops_good.imp fun _ h => h.sub) m ρ
      fun _ op h => (List.forall_iff_forall_mem.mp ops_good op h).fresh)

end Cert.ReferenceIdeal.Hand

end
-- ==== Proof.Ref.KeepLib.lean ====
import proofs.«177890_j48524540510773_1_alg».proof.Proof.Gen.ReferenceIdeal
import Idealize.ShloMosaic.Lib.StableHlo.Run
import Idealize.ShloMosaic.PureOps.Ideal

noncomputable section

namespace Cert.ReferenceIdeal.HandVal

open Cert.ReferenceIdeal Cert.ReferenceIdeal.Gen Idealize.ShloMosaic Idealize.ShloMosaic.TcCoe Idealize.SL.Sem Idealize.ShloMosaic.StableHlo

def WritesIn (lo hi : Nat) (l : List (HloOp τ sig (Elt Ideal))) : Prop :=
  l.Forall fun op => ∀ b ∈ op.writes, ∃ r : Ref sig .tc, b = Proc.devRef .tc r ∧ lo ≤ r.idx.val ∧ r.idx.val < hi

-- A buffer outside the range a line writes keeps its contents.
theorem after_of_writesIn {lo hi : Nat} {l : List (HloOp τ sig (Elt Ideal))} (h : WritesIn lo hi l)
    (V : Valuation τ sig (Elt Ideal)) (r : Ref sig .tc) (hr : r.idx.val < lo ∨ hi ≤ r.idx.val) :
    after l V (no_index (Proc.devRef .tc r)) = V (Proc.devRef .tc r) :=
  after_of_forall_not_mem l V fun op hop hb => by
    obtain ⟨r', he, h1, h2⟩ := List.forall_iff_forall_mem.mp h op hop _ hb
    have e : r = r' := Proc.devRef_injective _ he
    subst e
    omega

-- What a line leaves in one buffer, as a function of the contents before it, restated for rewriting at that buffer.
theorem after_at {l : List (HloOp τ sig (Elt Ideal))} {b : DevRef τ sig} {x : Valuation τ sig (Elt Ideal) → _}
    (h : ∀ V, after l V b = x V) (V : Valuation τ sig (Elt Ideal)) : after l V (no_index b) = x V := h V

macro "writes_in_range" : tactic =>
  `(tactic| ((repeat' refine And.intro ?_ ?_) <;>
      exact fun b hb => ⟨_, Finset.mem_singleton.mp hb, by decide, by decide⟩))

end Cert.ReferenceIdeal.HandVal

end
-- ==== Proof.Ref.Keep.lean ====
import proofs.«177890_j48524540510773_1_alg».proof.Proof.Ref.KeepLib
import proofs.«177890_j48524540510773_1_alg».proof.Proof.Ref.BlkB0
import proofs.«177890_j48524540510773_1_alg».proof.Proof.Ref.BlkC11
import proofs.«177890_j48524540510773_1_alg».proof.Proof.Ref.BlkE11
import proofs.«177890_j48524540510773_1_alg».proof.Proof.Ref.BlkC12
import proofs.«177890_j48524540510773_1_alg».proof.Proof.Ref.BlkE12
import proofs.«177890_j48524540510773_1_alg».proof.Proof.Ref.BlkA1
import proofs.«177890_j48524540510773_1_alg».proof.Proof.Ref.BlkC21
import proofs.«177890_j48524540510773_1_alg».proof.Proof.Ref.BlkE21
import proofs.«177890_j48524540510773_1_alg».proof.Proof.Ref.BlkC22
import proofs.«177890_j48524540510773_1_alg».proof.Proof.Ref.BlkE22
import proofs.«177890_j48524540510773_1_alg».proof.Proof.Ref.BlkA2
import proofs.«177890_j48524540510773_1_alg».proof.Proof.Ref.BlkC31
import proofs.«177890_j48524540510773_1_alg».proof.Proof.Ref.BlkE31
import proofs.«177890_j48524540510773_1_alg».proof.Proof.Ref.BlkC32
import proofs.«177890_j48524540510773_1_alg».proof.Proof.Ref.BlkE32
import proofs.«177890_j48524540510773_1_alg».proof.Proof.Ref.BlkA3

noncomputable section

namespace Cert.ReferenceIdeal.HandVal

open Cert.ReferenceIdeal Cert.ReferenceIdeal.Gen Idealize.ShloMosaic Idealize.ShloMosaic.TcCoe Idealize.SL.Sem Idealize.ShloMosaic.StableHlo

theorem blkB0_writes : WritesIn 18 26 (blkB0 (F := Ideal)) := by
  unfold WritesIn blkB0
  writes_in_range

theorem blkC11_writes : WritesIn 26 85 (blkC11 (F := Ideal)) := by
  unfold WritesIn blkC11
  writes_in_range

theorem blkE11_writes : WritesIn 85 100 (blkE11 (F := Ideal)) := by
  unfold WritesIn blkE11
  writes_in_range

theorem blkC12_writes : WritesIn 100 159 (blkC12 (F := Ideal)) := by
  unfold WritesIn blkC12
  writes_in_range

theorem blkE12_writes : WritesIn 159 174 (blkE12 (F := Ideal)) := by
  unfold WritesIn blkE12
  writes_in_range

theorem blkA1_writes : WritesIn 174 199 (blkA1 (F := Ideal)) := by
  unfold WritesIn blkA1
  writes_in_range

theorem blkC21_writes : WritesIn 199 258 (blkC21 (F := Ideal)) := by
  unfold WritesIn blkC21
  writes_in_range

theorem blkE21_writes : WritesIn 258 273 (blkE21 (F := Ideal)) := by
  unfold WritesIn blkE21
  writes_in_range

theorem blkC22_writes : WritesIn 273 332 (blkC22 (F := Ideal)) := by
  unfold WritesIn blkC22
  writes_in_range

theorem blkE22_writes : WritesIn 332 347 (blkE22 (F := Ideal)) := by
  unfold WritesIn blkE22
  writes_in_range

theorem blkA2_writes : WritesIn 347 372 (blkA2 (F := Ideal)) := by
  unfold WritesIn blkA2
  writes_in_range

theorem blkC31_writes : WritesIn 372 431 (blkC31 (F := Ideal)) := by
  unfold WritesIn blkC31
  writes_in_range

theorem blkE31_writes : WritesIn 431 446 (blkE31 (F := Ideal)) := by
  unfold WritesIn blkE31
  writes_in_range

theorem blkC32_writes : WritesIn 446 505 (blkC32 (F := Ideal)) := by
  unfold WritesIn blkC32
  writes_in_range

theorem blkE32_writes : WritesIn 505 520 (blkE32 (F := Ideal)) := by
  unfold WritesIn blkE32
  writes_in_range

theorem blkA3_writes : WritesIn 520 545 (blkA3 (F := Ideal)) := by
  unfold WritesIn blkA3
  writes_in_range

end Cert.ReferenceIdeal.HandVal

end
-- ==== Proof.Ref.Value.lean ====
import proofs.«177890_j48524540510773_1_alg».proof.Proof.Ref.Ops
import proofs.«177890_j48524540510773_1_alg».proof.Proof.Ref.Keep

noncomputable section

namespace Cert.ReferenceIdeal.HandVal

open Cert.ReferenceIdeal Cert.ReferenceIdeal.Gen Idealize.ShloMosaic Idealize.ShloMosaic.TcCoe Idealize.SL.Sem Idealize.ShloMosaic.StableHlo
open Cert.Hand

theorem after_append' {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem ref_val (W : Valuation τ sig (Elt Ideal)) :
    after (Hand.ops (F := Ideal)) W (Proc.devRef .tc main_v361) = Spec.out (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  simp only [Hand.ops, after_append']
  simp (disch := decide) only [after_at blkA3_v361, after_at blkE32_v339, after_at blkC32_v338, after_at blkE31_v291, after_at blkC31_v290,
    after_at blkA2_v243, after_at blkE22_v221, after_at blkC22_v220, after_at blkE21_v173, after_at blkC21_v172,
    after_at blkA1_v125, after_at blkE12_v103, after_at blkC12_v102, after_at blkE11_v55, after_at blkC11_v54,
    after_at blkB0_v1, after_at blkB0_v3, after_at blkB0_v5, after_at blkB0_v7,
    after_of_writesIn blkA3_writes, after_of_writesIn blkE32_writes, after_of_writesIn blkC32_writes, after_of_writesIn blkE31_writes,
    after_of_writesIn blkC31_writes, after_of_writesIn blkA2_writes, after_of_writesIn blkE22_writes, after_of_writesIn blkC22_writes,
    after_of_writesIn blkE21_writes, after_of_writesIn blkC21_writes, after_of_writesIn blkA1_writes, after_of_writesIn blkE12_writes,
    after_of_writesIn blkC12_writes, after_of_writesIn blkE11_writes, after_of_writesIn blkC11_writes, after_of_writesIn blkB0_writes]
  simp only [Spec.out, Spec.layer3, Spec.layer2, Spec.layer1, Spec.layer, Spec.conv, Spec.srcOf, Spec.dstOf]

end Cert.ReferenceIdeal.HandVal

end
-- ==== Proof.LibRowGatherScatter.lean ====
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  ·
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  ·
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  rw [Finset.sum_filter, sum_idx2]
  refine Finset.sum_congr rfl fun e _ => ?_
  by_cases he : (idx (ix2 e (0 : Fin 1))).toInt = (i.val : Int)
  ·
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  ·
    rw [if_neg he]
    refine Finset.sum_eq_zero fun k' _ => ?_
    rw [if_neg fun h => he ((resultIdx_rows_iff d huw hiw hsd hivd idx e k' i k).1 h).1]

private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.SpecRead.lean ====
import proofs.«177890_j48524540510773_1_alg».proof.Proof.Spec
import proofs.«177890_j48524540510773_1_alg».proof.Proof.LibRowGatherScatter
import proofs.«177890_j48524540510773_1_alg».proof.Proof.LibScatter2
import Idealize.ShloMosaic.Lib.Pipeline.Value
import Idealize.ShloMosaic.Lib.IdealHost
import Idealize.ShloMosaic.Lib.Affine
import Idealize.ShloMosaic.PureOps.Ideal.Laws

noncomputable section

namespace Cert.Hand.Spec

open Idealize.ShloMosaic Idealize.ShloMosaic.ValueIdx

def InRange {E : Nat} (v : IVec (Vec E) 32) : Prop := ∀ j : Fin E, 0 ≤ (v (ix1 j)).toInt ∧ (v (ix1 j)).toInt < 10000

def EdgesInRange {E0 : Nat} (e : IVec (Mat 2 E0) 32) : Prop := ∀ i, 0 ≤ (e i).toInt ∧ (e i).toInt < 10000

def node {E : Nat} (v : IVec (Vec E) 32) (j : Fin E) : Fin 10000 := ⟨min (v (ix1 j)).toInt.toNat (10000 - 1), by omega⟩

theorem bcastF_apply {T : Shape} (hb : S0.BroadcastsInDim T ![]) (b : BitVec 32) (j : T.Idx) :
    broadcastInDim T ![] hb (constant (F := Ideal) S0 .f32 b) j = Ideal.ofBits .f32 b := rfl

section Edges

variable {E0 E : Nat} (h : EdgeShapes E0 E)

theorem col_apply {α : Type} (v : (Vec E).Idx → α) (e : Fin E) (z : Fin 1) : col h v (ix2 e z) = v (ix1 e) := by
  unfold col
  refine broadcastInDim_apply _ _ _ _ (ix1 e) fun a => ?_
  match a with
  | ⟨0, _⟩ =>
    show e.val = if E = 1 then 0 else e.val
    split
    · have := e.isLt; omega
    · rfl

include h in
theorem extent_eq : E = E0 + 10000 := by
  have := h.cat.2.2
  simpa using this.symm

theorem withLoops_apply_lt (v : IVec (Vec E0) 32) (j : Fin E) (hj : j.val < E0) : withLoops h v (ix1 j) = v (ix1 ⟨j.val, hj⟩) := by
  unfold withLoops
  refine concatenate_pair_apply_left (t := Vec E) (s₁ := Vec E0) (s₂ := Vec 10000) 0 v (iotaInDim (Vec 10000) 32 0) h.cat
    (ix1 j) rfl (ix1 ⟨j.val, hj⟩) fun b => ?_
  match b with
  | ⟨0, _⟩ => rfl

theorem withLoops_apply_ge (v : IVec (Vec E0) 32) (j : Fin E) (hj : E0 ≤ j.val) :
    withLoops h v (ix1 j) = BitVec.ofNat 32 (j.val - E0) := by
  have hE := extent_eq h
  unfold withLoops
  rw [concatenate_pair_apply_right (t := Vec E) (s₁ := Vec E0) (s₂ := Vec 10000) 0 v (iotaInDim (Vec 10000) 32 0) h.cat
    (ix1 j) rfl rfl (ix1 (⟨j.val - E0, by have := j.isLt; omega⟩ : Fin 10000))
    (fun b hb => absurd (Subsingleton.elim _ _) hb) (by show (j.val - E0) + E0 = j.val; omega)]
  rfl

theorem withLoops_inRange (v : IVec (Vec E0) 32) (hv : ∀ i, 0 ≤ (v i).toInt ∧ (v i).toInt < 10000) : InRange (withLoops h v) := by
  intro j
  have hE := extent_eq h
  by_cases hj : j.val < E0
  · rw [withLoops_apply_lt h v j hj]; exact hv _
  · rw [withLoops_apply_ge h v j (Nat.le_of_not_lt hj)]
    have hlt : j.val - E0 < 10000 := by have := j.isLt; omega
    have h1 : (BitVec.ofNat 32 (j.val - E0)).toInt = ((j.val - E0 : Nat) : Int) := by
      have hp : (2 : Nat) ^ 32 = 4294967296 := by norm_num
      have hmod : (j.val - E0) % 2 ^ 32 = j.val - E0 := Nat.mod_eq_of_lt (by omega)
      rw [BitVec.toInt_eq_toNat_cond, BitVec.toNat_ofNat, hmod, if_pos (by omega)]
    rw [h1]; omega

theorem srcOf_inRange (e : IVec (Mat 2 E0) 32) (he : EdgesInRange e) : InRange (srcOf h e) :=
  withLoops_inRange h _ fun i => he _

theorem dstOf_inRange (e : IVec (Mat 2 E0) 32) (he : EdgesInRange e) : InRange (dstOf h e) :=
  withLoops_inRange h _ fun i => he _

theorem wrap_eq (v : IVec (Vec E) 32) (hv : InRange v) : wrap h v = v := by
  funext j
  obtain ⟨k, rfl⟩ : ∃ k : Fin E, j = ix1 k := ⟨j 0, eq_ix1 j⟩
  unfold wrap
  rw [select_apply]
  have hc : cmpi .slt v (broadcastInDim (Vec E) ![] h.b0E (constantI S0 32 0#32)) (ix1 k) = 0#1 := by
    apply eq_zero_of_ne_one
    show ¬ IntOp.cmpi .slt (v (ix1 k)) 0#32 = 1#1
    rw [IntOp.cmpi_slt]
    have := (hv k).1
    simp only [BitVec.toInt_zero]; omega
  rw [hc, select_zero]

theorem deg_apply (d : IVec (Vec E) 32) (hd : InRange d) (i : Fin 10000) :
    deg h d (ix1 i) = ∑ j : Fin E, if (d (ix1 j)).toInt = (i.val : Int) then (1 : EReal) else 0 := by
  unfold deg
  rw [wrap_eq h d hd]
  show Ideal.hostScatterAdd (scatVec h) _ _ _ (ix1 i) = _
  rw [RowOps.scatterAdd_vec_apply (scatVec h) rfl rfl rfl rfl, bcastF_apply, Ideal.ofBits_zero_f32, zero_add]
  refine Finset.sum_congr rfl fun j _ => ?_
  rw [col_apply, bcastF_apply, Ideal.ofBits_one_f32]

theorem dinv_apply (d : IVec (Vec E) 32) (i : Fin 10000) :
    dinv h d (ix1 i) = Ideal.rsqrt (max (deg h d (ix1 i)) 1) := by
  unfold dinv
  show Ideal.rsqrt (max (deg h d (ix1 i)) (broadcastInDim (Vec 10000) ![] h.b0N (constant (F := Ideal) S0 .f32 0x3F800000#32) (ix1 i))) = _
  rw [bcastF_apply, Ideal.ofBits_one_f32]

theorem gatherVec_apply (x : FVec Ideal (Vec 10000) .f32) (v : IVec (Vec E) 32) (j : Fin E) :
    Host.gather (gathVec h) x (col h v) (ix1 j) = x (ix1 (node v j)) := by
  rw [PairOps.gather_vec_apply (gathVec h) rfl rfl rfl rfl rfl x (col h v) j (by decide)]
  refine congrArg x (congrArg ix1 (Fin.ext ?_))
  show min (col h v (ix2 j 0)).toInt.toNat (10000 - 1) = min (v (ix1 j)).toInt.toNat (10000 - 1)
  rw [col_apply]

theorem normOf_apply (s d : IVec (Vec E) 32) (hs : InRange s) (hd : InRange d) (j : Fin E) :
    normOf h s d (ix1 j) = dinv h d (ix1 (node s j)) * dinv h d (ix1 (node d j)) := by
  unfold normOf
  rw [wrap_eq h s hs, wrap_eq h d hd, mulf_apply, gatherVec_apply, gatherVec_apply]

variable {C : Nat} (g : ConvShapes E C)

theorem bcastCols_apply (y : FVec Ideal (Mat E 1) .f32) (e : Fin E) (c : Fin C) :
    broadcastInDim (Mat E C) ![0, 1] g.bE1EC y (ix2 e c) = y (ix2 e 0) := by
  refine broadcastInDim_apply _ _ _ _ (ix2 e 0) fun a => ?_
  match a with
  | ⟨0, _⟩ =>
    show e.val = if E = 1 then 0 else e.val
    split
    · have := e.isLt; omega
    · rfl
  | ⟨1, _⟩ => rfl

theorem gatherRows_apply (H : FVec Ideal (Mat 10000 C) .f32) (v : IVec (Vec E) 32) (j : Fin E) (c : Fin C) :
    Host.gather (gathRows g) H (col h v) (ix2 j c) = H (ix2 (node v j) c) := by
  rw [RowOps.gather_rows_apply (gathRows g) rfl rfl rfl rfl rfl rfl H (col h v) j c (by decide)]
  refine congrArg H (congrArg (fun n => ix2 n c) (Fin.ext ?_))
  show min (col h v (ix2 j 0)).toInt.toNat (10000 - 1) = min (v (ix1 j)).toInt.toNat (10000 - 1)
  rw [col_apply]

theorem convCore_apply (H : FVec Ideal (Mat 10000 C) .f32) (s d : IVec (Vec E) 32) (norm : FVec Ideal (Vec E) .f32)
    (hs : InRange s) (i : Fin 10000) (c : Fin C) :
    convCore h g H s d norm (ix2 i c)
      = ∑ j : Fin E, if (d (ix1 j)).toInt = (i.val : Int) then H (ix2 (node s j) c) * norm (ix1 j) else 0 := by
  unfold convCore
  rw [wrap_eq h s hs]
  show Ideal.hostScatterAdd (scatRows g) _ _ _ (ix2 i c) = _
  rw [RowOps.scatterAdd_rows_apply (scatRows g) rfl rfl rfl rfl, bcastF_apply, Ideal.ofBits_zero_f32, zero_add]
  refine Finset.sum_congr rfl fun j _ => ?_
  rw [col_apply h d, mulf_apply, gatherRows_apply h g, bcastCols_apply g, col_apply]

end Edges

section Rows

variable {R C : Nat} (r : RowShapes R C)

theorem rowBcast_apply (b : FVec Ideal (Vec C) .f32) (i : Fin R) (c : Fin C) : rowBcast r b (ix2 i c) = b (ix1 c) := by
  unfold rowBcast
  rw [broadcastInDim_apply _ _ _ (ix2 i c) (ix2 (0 : Fin 1) c) (fun a => by
    match a with
    | ⟨0, _⟩ => rfl
    | ⟨1, _⟩ =>
      show c.val = if C = 1 then 0 else c.val
      split
      · have := c.isLt; omega
      · rfl)]
  refine broadcastInDim_apply _ _ _ _ (ix1 c) fun a => ?_
  match a with
  | ⟨0, _⟩ =>
    show c.val = if C = 1 then 0 else c.val
    split
    · have := c.isLt; omega
    · rfl

theorem addBias_apply (x : FVec Ideal (Mat R C) .f32) (b : FVec Ideal (Vec C) .f32) (i : Fin R) (c : Fin C) :
    addBias r x b (ix2 i c) = x (ix2 i c) + b (ix1 c) := by
  unfold addBias
  rw [addf_apply, rowBcast_apply]

def eluS (t : EReal) : EReal :=
  Scalar.select (FloatOps.cmpf (F := Ideal) (φ := .f32) .ogt t (Ideal.ofBits .f32 0x00000000#32)) t
    (Ideal.ofBits .f32 0x3F800000#32
      * (Ideal.exp (Scalar.select (FloatOps.cmpf (F := Ideal) (φ := .f32) .ogt t (Ideal.ofBits .f32 0x00000000#32))
          (Ideal.ofBits .f32 0x00000000#32) t) - 1))

theorem elu_apply (x : FVec Ideal (Mat R C) .f32) (j : (Mat R C).Idx) : elu r x j = eluS (x j) := rfl

variable (σ : SoftShapes C)

def sw0 (aw : FVec Ideal (Mat C 2) .f32) (c : Fin C) : EReal := colW0 σ (softmaxW σ aw) (ix1 c)
def sw1 (aw : FVec Ideal (Mat C 2) .f32) (c : Fin C) : EReal := colW1 σ (softmaxW σ aw) (ix1 c)

theorem aggr_apply (aw : FVec Ideal (Mat C 2) .f32) (x1 x2 : FVec Ideal (Mat R C) .f32) (i : Fin R) (c : Fin C) :
    aggr r σ aw x1 x2 (ix2 i c) = x1 (ix2 i c) * sw0 σ aw c + x2 (ix2 i c) * sw1 σ aw c := by
  unfold aggr
  rw [addf_apply, mulf_apply, mulf_apply, rowBcast_apply, rowBcast_apply]
  rfl

end Rows

section Layer

variable {E0 E E0' E' K C : Nat}

theorem mm_apply (x : FVec Ideal (Mat 10000 K) .f32) (W : FVec Ideal (Mat K C) .f32) (i : Fin 10000) (c : Fin C) :
    mm x W (ix2 i c) = ∑ k : Fin K, x (ix2 i k) * W (ix2 k c) := by
  unfold mm
  show FloatOps.dotGeneral (DotDims.plain 10000 K C) none .single x W (ix2 i c) = _
  rw [Ideal.dotGeneral_apply]
  rw [← Equiv.sum_comp (contrEquiv1 (DotDims.plain 10000 K C) K rfl rfl).symm]
  refine Finset.sum_congr rfl fun k _ => ?_
  have hk := contrEquiv1_symm_val (DotDims.plain 10000 K C) K rfl rfl k
  congr 2
  · funext a
    match a with
    | ⟨0, _⟩ => rfl
    | ⟨1, _⟩ => exact Fin.ext hk
  · funext a
    match a with
    | ⟨0, _⟩ => exact Fin.ext hk
    | ⟨1, _⟩ => rfl

theorem convOn_apply (h : EdgeShapes E0 E) (g : ConvShapes E C) (r : RowShapes 10000 C)
    (x : FVec Ideal (Mat 10000 K) .f32) (W : FVec Ideal (Mat K C) .f32) (b : FVec Ideal (Vec C) .f32) (s d : IVec (Vec E) 32)
    (hs : InRange s) (hd : InRange d) (i : Fin 10000) (c : Fin C) :
    convOn h g r x W b s d (ix2 i c)
      = (∑ j : Fin E, if (d (ix1 j)).toInt = (i.val : Int)
          then (∑ k : Fin K, x (ix2 (node s j) k) * W (ix2 k c)) * (dinv h d (ix1 (node s j)) * dinv h d (ix1 (node d j)))
          else 0) + b (ix1 c) := by
  unfold convOn
  rw [addBias_apply, convCore_apply h g _ s d _ hs]
  congr 1
  refine Finset.sum_congr rfl fun j _ => ?_
  rw [mm_apply, normOf_apply h s d hs hd]

theorem conv_apply (h : EdgeShapes E0 E) (g : ConvShapes E C) (r : RowShapes 10000 C)
    (x : FVec Ideal (Mat 10000 K) .f32) (W : FVec Ideal (Mat K C) .f32) (b : FVec Ideal (Vec C) .f32) (e : IVec (Mat 2 E0) 32)
    (he : EdgesInRange e) (i : Fin 10000) (c : Fin C) :
    conv h g r x W b e (ix2 i c)
      = (∑ j : Fin E, if (dstOf h e (ix1 j)).toInt = (i.val : Int)
          then (∑ k : Fin K, x (ix2 (node (srcOf h e) j) k) * W (ix2 k c))
            * (dinv h (dstOf h e) (ix1 (node (srcOf h e) j)) * dinv h (dstOf h e) (ix1 (node (dstOf h e) j)))
          else 0) + b (ix1 c) :=
  convOn_apply h g r x W b _ _ (srcOf_inRange h e he) (dstOf_inRange h e he) i c

end Layer

end Cert.Hand.Spec

end
-- ==== Proof.LibIdealReal.lean ====
import Idealize.ShloMosaic.PureOps.Ideal
import Idealize.ShloMosaic.PureOps.Ideal.Laws

namespace IdealReal

open Idealize.ShloMosaic
open scoped BigOperators

def IsReal (x : EReal) : Prop := ∃ r : ℝ, x = r

theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem IsReal.coe_toReal {x : EReal} (h : IsReal x) : ((x.toReal : ℝ) : EReal) = x := by
  obtain ⟨r, rfl⟩ := h
  rw [EReal.toReal_coe]

theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {x y : EReal} (p : Prop) [Decidable p] (hx : IsReal x) (hy : IsReal y) :
    IsReal (if p then x else y) := by
  split_ifs <;> assumption

theorem IsReal.sum {ι : Type*} (s : Finset ι) (f : ι → EReal) (hf : ∀ i ∈ s, IsReal (f i)) :
    IsReal (∑ i ∈ s, f i) := by
  refine ⟨∑ i ∈ s, (f i).toReal, ?_⟩
  rw [coe_finset_sum]
  exact Finset.sum_congr rfl fun i hi => ((hf i hi).coe_toReal).symm

theorem IsReal.sum_mul {ι : Type*} (s : Finset ι) (f g : ι → EReal) (hf : ∀ i ∈ s, IsReal (f i))
    (hg : ∀ i ∈ s, IsReal (g i)) : IsReal (∑ i ∈ s, f i * g i) := by
  exact IsReal.sum s _ fun i hi => (hf i hi).mul (hg i hi)

theorem sum_one_eq_card {ι : Type*} (s : Finset ι) : (∑ _i ∈ s, (1 : EReal)) = ((s.card : ℝ) : EReal) := by
  have h := coe_finset_sum s (fun _ => (1 : ℝ))
  rw [Finset.sum_const, nsmul_eq_mul, mul_one] at h
  rw [h]
  exact Finset.sum_congr rfl fun _ _ => EReal.coe_one.symm

section Fields
variable {φ : FTy} {x y : Ideal φ}

theorem IsReal.addf (hx : IsReal x) (hy : IsReal y) : IsReal (FloatOps.addf x y) := hx.add hy
theorem IsReal.subf (hx : IsReal x) (hy : IsReal y) : IsReal (FloatOps.subf x y) := hx.sub hy
theorem IsReal.mulf (hx : IsReal x) (hy : IsReal y) : IsReal (FloatOps.mulf x y) := hx.mul hy
theorem IsReal.maximumf (hx : IsReal x) (hy : IsReal y) : IsReal (FloatOps.maximumf x y) := hx.max hy
theorem IsReal.minimumf (hx : IsReal x) (hy : IsReal y) : IsReal (FloatOps.minimumf x y) := hx.min hy
theorem IsReal.negf (hx : IsReal x) : IsReal (FloatOps.negf x) := hx.neg
theorem IsReal.extf (ψ : FTy) (h : φ.bits < ψ.bits) (hx : IsReal x) :
    IsReal (FloatOps.extf (F := Ideal) ψ h x) := hx
theorem IsReal.truncf (ψ : FTy) (h : ψ.bits < φ.bits) (hx : IsReal x) :
    IsReal (FloatOps.truncf (F := Ideal) ψ h x) := hx

end Fields

theorem div_coe_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem IsReal.div_of_ne_zero {x y : EReal} (hx : IsReal x) (hy : ∃ r : ℝ, r ≠ 0 ∧ y = r) :
    IsReal (Ideal.div x y) := by
  obtain ⟨a, rfl⟩ := hx
  obtain ⟨b, hb, rfl⟩ := hy
  exact ⟨a / b, div_coe_coe a hb⟩

theorem IsReal.div_of_pos {x y : EReal} (hx : IsReal x) (hy : ∃ r : ℝ, 0 < r ∧ y = r) :
    IsReal (Ideal.div x y) := by
  obtain ⟨b, hb, rfl⟩ := hy
  exact hx.div_of_ne_zero ⟨b, hb.ne', rfl⟩

theorem IsReal.hostDivf {φ : FTy} {x y : Ideal φ} (hx : IsReal x) (hy : ∃ r : ℝ, 0 < r ∧ y = r) :
    IsReal (FloatOps.hostDivf x y) := hx.div_of_pos hy

theorem IsReal.divf {φ : FTy} {x y : Ideal φ} (hx : IsReal x) (hy : ∃ r : ℝ, 0 < r ∧ y = r) :
    IsReal (FloatOps.divf x y) := hx.div_of_pos hy

theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem inv_sqrt_pos {r : ℝ} (hr : 0 < r) : 0 < (Real.sqrt r)⁻¹ := by
  exact inv_pos.mpr (Real.sqrt_pos.mpr hr)

theorem rsqrt_pos_real_of_one_le {x : EReal} (hx : ∃ r : ℝ, 1 ≤ r ∧ x = r) :
    ∃ q : ℝ, 0 < q ∧ Ideal.rsqrt x = q := by
  obtain ⟨r, hr, rfl⟩ := hx
  have h0 : 0 < r := lt_of_lt_of_le one_pos hr
  exact ⟨_, inv_sqrt_pos h0, rsqrt_coe_of_pos h0⟩

theorem IsReal.exp {x : EReal} (hx : IsReal x) : IsReal (Ideal.exp x) := by
  obtain ⟨r, rfl⟩ := hx
  exact ⟨Real.exp r, rfl⟩

theorem exp_pos_real {x : EReal} (hx : IsReal x) : ∃ q : ℝ, 0 < q ∧ Ideal.exp x = q := by
  obtain ⟨r, rfl⟩ := hx
  exact ⟨Real.exp r, Real.exp_pos r, rfl⟩

theorem IsReal.expm1 {x : EReal} (hx : IsReal x) : IsReal (Ideal.expm1 x) := by
  exact hx.exp.sub isReal_one

theorem IsReal.select {x y : EReal} (c : BitVec 1) (hx : IsReal x) (hy : IsReal y) :
    IsReal (Scalar.select c x y) := by
  unfold Scalar.select
  split_ifs <;> assumption

theorem ofBits_f32_zero : Ideal.ofBits .f32 0x00000000#32 = 0 := Ideal.ofBits_zero_f32

theorem ofBits_f32_one : Ideal.ofBits .f32 0x3F800000#32 = 1 := by
  simp [Ideal.ofBits, Ideal.ieee]
  rw [← EReal.coe_mul]
  norm_num

theorem isReal_ofBits_f32_zero : IsReal (Ideal.ofBits .f32 0x00000000#32) := ofBits_f32_zero ▸ isReal_zero
theorem isReal_ofBits_f32_one : IsReal (Ideal.ofBits .f32 0x3F800000#32) := ofBits_f32_one ▸ isReal_one

end IdealReal
-- ==== Proof.SpecReal.lean ====
import proofs.«177890_j48524540510773_1_alg».proof.Proof.Spec
import proofs.«177890_j48524540510773_1_alg».proof.Proof.SpecRead
import proofs.«177890_j48524540510773_1_alg».proof.Proof.LibIdealReal

noncomputable section

namespace Cert.Hand.Spec

open Idealize.ShloMosaic Idealize.ShloMosaic.ValueIdx

open IdealReal

section Arithmetic

theorem sum_pos_real {ι : Type*} (s : Finset ι) (hs : s.Nonempty) (f : ι → EReal)
    (hf : ∀ i ∈ s, ∃ q : ℝ, 0 < q ∧ f i = q) : ∃ q : ℝ, 0 < q ∧ ∑ i ∈ s, f i = q := by
  refine ⟨∑ i ∈ s, (f i).toReal, Finset.sum_pos (fun i hi => ?_) hs, ?_⟩
  · obtain ⟨q, hq, e⟩ := hf i hi
    rw [e, EReal.toReal_coe]; exact hq
  · rw [coe_finset_sum]
    refine Finset.sum_congr rfl fun i hi => ?_
    obtain ⟨q, _, e⟩ := hf i hi
    rw [e, EReal.toReal_coe]

theorem div_pos_real {x y : EReal} (hx : ∃ q : ℝ, 0 < q ∧ x = q) (hy : ∃ q : ℝ, 0 < q ∧ y = q) :
    ∃ q : ℝ, 0 < q ∧ Ideal.div x y = q := by
  obtain ⟨a, ha, rfl⟩ := hx
  obtain ⟨b, hb, rfl⟩ := hy
  exact ⟨a / b, div_pos ha hb, div_coe_coe a hb.ne'⟩

theorem isReal_of_pos {x : EReal} (hx : ∃ q : ℝ, 0 < q ∧ x = q) : IsReal x := by
  obtain ⟨q, _, e⟩ := hx
  exact ⟨q, e⟩

theorem ofBits_f32_negInf : Ideal.ofBits .f32 0xFF800000#32 = ⊥ := by simp [Ideal.ofBits, Ideal.ieee]

theorem fold_maximumf_real {ι : Type*} [DecidableEq ι] (f : ι → EReal) (b : EReal) (hb : b = ⊥) (s : Finset ι)
    (hf : ∀ i ∈ s, IsReal (f i)) :
    s = ∅ ∨ IsReal (s.fold (FloatOps.maximumf (F := Ideal) (φ := .f32)) b f) := by
  induction s using Finset.induction_on with
  | empty => exact Or.inl rfl
  | insert a s ha ih =>
    right
    rw [Finset.fold_insert ha]
    have hfa : IsReal (f a) := hf a (Finset.mem_insert_self a s)
    rcases ih (fun i hi => hf i (Finset.mem_insert_of_mem hi)) with e | hr
    · subst e
      rw [Finset.fold_empty, hb]
      show IsReal (max (f a) ⊥)
      rw [max_bot_right]; exact hfa
    · exact hfa.max hr

end Arithmetic

section Edges

variable {E0 E : Nat} (h : EdgeShapes E0 E)

theorem deg_eq_card (d : IVec (Vec E) 32) (hd : InRange d) (i : Fin 10000) :
    deg h d (ix1 i) = (((Finset.univ.filter fun j : Fin E => (d (ix1 j)).toInt = (i.val : Int)).card : ℝ) : EReal) := by
  rw [deg_apply h d hd i, ← Finset.sum_filter, sum_one_eq_card]

theorem deg_nonneg (d : IVec (Vec E) 32) (hd : InRange d) (i : Fin 10000) : ∃ r : ℝ, 0 ≤ r ∧ deg h d (ix1 i) = r :=
  ⟨_, Nat.cast_nonneg _, deg_eq_card h d hd i⟩

theorem max_deg_one (d : IVec (Vec E) 32) (hd : InRange d) (i : Fin 10000) :
    ∃ r : ℝ, 1 ≤ r ∧ max (deg h d (ix1 i)) 1 = r := by
  obtain ⟨r, _, e⟩ := deg_nonneg h d hd i
  rw [e]
  rcases le_total r 1 with h1 | h1
  · exact ⟨1, le_rfl, by rw [max_eq_right (by exact_mod_cast h1)]; exact EReal.coe_one.symm⟩
  · exact ⟨r, h1, max_eq_left (by exact_mod_cast h1)⟩

theorem dinv_pos (d : IVec (Vec E) 32) (hd : InRange d) (i : Fin 10000) : ∃ q : ℝ, 0 < q ∧ dinv h d (ix1 i) = q := by
  rw [dinv_apply h d i]
  exact rsqrt_pos_real_of_one_le (max_deg_one h d hd i)

theorem normOf_pos (s d : IVec (Vec E) 32) (hs : InRange s) (hd : InRange d) (j : Fin E) :
    ∃ q : ℝ, 0 < q ∧ normOf h s d (ix1 j) = q := by
  rw [normOf_apply h s d hs hd j]
  obtain ⟨a, ha, ea⟩ := dinv_pos h d hd (node s j)
  obtain ⟨b, hb, eb⟩ := dinv_pos h d hd (node d j)
  exact ⟨a * b, mul_pos ha hb, by rw [ea, eb, EReal.coe_mul]⟩

theorem normOf_real (s d : IVec (Vec E) 32) (hs : InRange s) (hd : InRange d) (j : (Vec E).Idx) : IsReal (normOf h s d j) := by
  obtain ⟨i, rfl⟩ : ∃ i : Fin E, j = ix1 i := ⟨j 0, eq_ix1 j⟩
  exact isReal_of_pos (normOf_pos h s d hs hd i)

variable {C : Nat} (g : ConvShapes E C)

theorem convCore_real (H : FVec Ideal (Mat 10000 C) .f32) (s d : IVec (Vec E) 32) (norm : FVec Ideal (Vec E) .f32)
    (hs : InRange s) (hH : ∀ j, IsReal (H j)) (hn : ∀ j, IsReal (norm j)) (j : (Mat 10000 C).Idx) :
    IsReal (convCore h g H s d norm j) := by
  obtain ⟨i, c, rfl⟩ : ∃ (i : Fin 10000) (c : Fin C), j = ix2 i c := ⟨j 0, j 1, eq_ix2 j⟩
  rw [convCore_apply h g H s d norm hs]
  exact IsReal.sum _ _ fun e _ => IsReal.ite _ ((hH _).mul (hn _)) isReal_zero

end Edges

section Rows

variable {R C : Nat} (r : RowShapes R C)

theorem addBias_real (x : FVec Ideal (Mat R C) .f32) (b : FVec Ideal (Vec C) .f32) (hx : ∀ j, IsReal (x j)) (hb : ∀ j, IsReal (b j))
    (j : (Mat R C).Idx) : IsReal (addBias r x b j) := by
  obtain ⟨i, c, rfl⟩ : ∃ (i : Fin R) (c : Fin C), j = ix2 i c := ⟨j 0, j 1, eq_ix2 j⟩
  rw [addBias_apply]; exact (hx _).add (hb _)

theorem eluS_real {t : EReal} (ht : IsReal t) : IsReal (eluS t) := by
  unfold eluS
  exact IsReal.select _ ht
    (isReal_ofBits_f32_one.mul ((IsReal.exp (IsReal.select _ isReal_ofBits_f32_zero ht)).sub isReal_one))

theorem elu_real (x : FVec Ideal (Mat R C) .f32) (hx : ∀ j, IsReal (x j)) (j : (Mat R C).Idx) : IsReal (elu r x j) := by
  rw [elu_apply]; exact eluS_real (hx j)

variable (σ : SoftShapes C)

theorem rowMax_real (hR : (Mat C 2).Reduces [1] (Vec C)) (aw : FVec Ideal (Mat C 2) .f32) (haw : ∀ j, IsReal (aw j))
    (k : (Vec C).Idx) :
    IsReal (maximumf (broadcastInDim (Vec C) ![] σ.b0C (constant (F := Ideal) S0 .f32 0xFF800000#32))
      (Host.reduce (FloatOps.maximumf (F := Ideal) (φ := .f32)) aw (constant (F := Ideal) S0 .f32 0xFF800000#32) σ.red σ.pos) k) := by
  show IsReal (max (Ideal.ofBits .f32 0xFF800000#32)
    (Host.reduce (FloatOps.maximumf (F := Ideal) (φ := .f32)) aw (constant (F := Ideal) S0 .f32 0xFF800000#32) σ.red σ.pos k))
  rw [ofBits_f32_negInf, max_bot_left, Host.reduce_eq_fold_single _ _ _ σ.red hR σ.pos k]
  rcases fold_maximumf_real (aw ∘ hR.lift k) _ ofBits_f32_negInf Finset.univ (fun i _ => haw _) with he | hr
  · exact absurd he (Finset.Nonempty.ne_empty ⟨⟨0, by show (0 : ℕ) < 2; decide⟩, Finset.mem_univ _⟩)
  · exact hr

theorem rowSum_pos (hR : (Mat C 2).Reduces [1] (Vec C)) (A : FVec Ideal (Mat C 2) .f32) (hA : ∀ j, ∃ q : ℝ, 0 < q ∧ A j = q)
    (k : (Vec C).Idx) :
    ∃ q : ℝ, 0 < q ∧ Host.reduceAdd A (constant (F := Ideal) S0 .f32 0x00000000#32) σ.red σ.pos k = q := by
  show ∃ q : ℝ, 0 < q ∧ Ideal.hostReduceAdd σ.red A (Ideal.ofBits .f32 0x00000000#32) k = q
  rw [Ideal.hostReduceAdd_single σ.red hR, Ideal.ofBits_zero_f32, zero_add]
  exact sum_pos_real _ ⟨⟨0, by show (0 : ℕ) < 2; decide⟩, Finset.mem_univ _⟩ _ (fun i _ => hA _)

theorem softmaxW_pos (hR : (Mat C 2).Reduces [1] (Vec C)) (aw : FVec Ideal (Mat C 2) .f32) (haw : ∀ j, IsReal (aw j))
    (j : (Mat C 2).Idx) : ∃ q : ℝ, 0 < q ∧ softmaxW σ aw j = q := by
  have hnum : ∀ i : (Mat C 2).Idx, ∃ q : ℝ, 0 < q ∧
      Host.exp (subf aw (broadcastInDim (Mat C 2) ![0, 1] σ.bC1C2 (broadcastInDim (Mat C 1) ![0] σ.bCC1
        (maximumf (broadcastInDim (Vec C) ![] σ.b0C (constant (F := Ideal) S0 .f32 0xFF800000#32))
          (Host.reduce (FloatOps.maximumf (F := Ideal) (φ := .f32)) aw (constant (F := Ideal) S0 .f32 0xFF800000#32) σ.red σ.pos))))) i = q :=
    fun i => exp_pos_real ((haw i).sub (rowMax_real σ hR aw haw _))
  exact div_pos_real (hnum j) (rowSum_pos σ hR _ hnum _)

theorem sw0_pos (hR : (Mat C 2).Reduces [1] (Vec C)) (aw : FVec Ideal (Mat C 2) .f32) (haw : ∀ j, IsReal (aw j)) (c : Fin C) :
    ∃ q : ℝ, 0 < q ∧ sw0 σ aw c = q := softmaxW_pos σ hR aw haw _
theorem sw1_pos (hR : (Mat C 2).Reduces [1] (Vec C)) (aw : FVec Ideal (Mat C 2) .f32) (haw : ∀ j, IsReal (aw j)) (c : Fin C) :
    ∃ q : ℝ, 0 < q ∧ sw1 σ aw c = q := softmaxW_pos σ hR aw haw _
theorem sw0_real (hR : (Mat C 2).Reduces [1] (Vec C)) (aw : FVec Ideal (Mat C 2) .f32) (haw : ∀ j, IsReal (aw j)) (c : Fin C) :
    IsReal (sw0 σ aw c) := isReal_of_pos (sw0_pos σ hR aw haw c)
theorem sw1_real (hR : (Mat C 2).Reduces [1] (Vec C)) (aw : FVec Ideal (Mat C 2) .f32) (haw : ∀ j, IsReal (aw j)) (c : Fin C) :
    IsReal (sw1 σ aw c) := isReal_of_pos (sw1_pos σ hR aw haw c)

theorem aggr_real (hR : (Mat C 2).Reduces [1] (Vec C)) (aw : FVec Ideal (Mat C 2) .f32) (x1 x2 : FVec Ideal (Mat R C) .f32)
    (haw : ∀ j, IsReal (aw j)) (h1 : ∀ j, IsReal (x1 j)) (h2 : ∀ j, IsReal (x2 j)) (j : (Mat R C).Idx) :
    IsReal (aggr r σ aw x1 x2 j) := by
  obtain ⟨i, c, rfl⟩ : ∃ (i : Fin R) (c : Fin C), j = ix2 i c := ⟨j 0, j 1, eq_ix2 j⟩
  rw [aggr_apply]
  exact ((h1 _).mul (sw0_real σ hR aw haw _)).add ((h2 _).mul (sw1_real σ hR aw haw _))

end Rows

section Layer

variable {E0 E E0' E' K C : Nat}

theorem mm_real (x : FVec Ideal (Mat 10000 K) .f32) (W : FVec Ideal (Mat K C) .f32) (hx : ∀ j, IsReal (x j)) (hW : ∀ j, IsReal (W j))
    (j : (Mat 10000 C).Idx) : IsReal (mm x W j) := by
  obtain ⟨i, c, rfl⟩ : ∃ (i : Fin 10000) (c : Fin C), j = ix2 i c := ⟨j 0, j 1, eq_ix2 j⟩
  rw [mm_apply]
  exact IsReal.sum_mul _ _ _ (fun k _ => hx _) (fun k _ => hW _)

theorem convOn_real (h : EdgeShapes E0 E) (g : ConvShapes E C) (r : RowShapes 10000 C)
    (x : FVec Ideal (Mat 10000 K) .f32) (W : FVec Ideal (Mat K C) .f32) (b : FVec Ideal (Vec C) .f32) (s d : IVec (Vec E) 32)
    (hs : InRange s) (hd : InRange d) (hx : ∀ j, IsReal (x j)) (hW : ∀ j, IsReal (W j)) (hb : ∀ j, IsReal (b j))
    (j : (Mat 10000 C).Idx) : IsReal (convOn h g r x W b s d j) :=
  addBias_real r _ b (convCore_real h g _ _ _ _ hs (mm_real x W hx hW) (normOf_real h _ _ hs hd)) hb j

theorem conv_real (h : EdgeShapes E0 E) (g : ConvShapes E C) (r : RowShapes 10000 C)
    (x : FVec Ideal (Mat 10000 K) .f32) (W : FVec Ideal (Mat K C) .f32) (b : FVec Ideal (Vec C) .f32) (e : IVec (Mat 2 E0) 32)
    (he : EdgesInRange e) (hx : ∀ j, IsReal (x j)) (hW : ∀ j, IsReal (W j)) (hb : ∀ j, IsReal (b j)) (j : (Mat 10000 C).Idx) :
    IsReal (conv h g r x W b e j) :=
  convOn_real h g r x W b _ _ (srcOf_inRange h e he) (dstOf_inRange h e he) hx hW hb j

theorem layer_real (h1 : EdgeShapes E0 E) (h2 : EdgeShapes E0' E') (g1 : ConvShapes E C) (g2 : ConvShapes E' C) (r : RowShapes 10000 C)
    (σ : SoftShapes C) (hR : (Mat C 2).Reduces [1] (Vec C))
    (x : FVec Ideal (Mat 10000 K) .f32) (e1 : IVec (Mat 2 E0) 32) (e2 : IVec (Mat 2 E0') 32)
    (W1 : FVec Ideal (Mat K C) .f32) (b1 : FVec Ideal (Vec C) .f32) (W2 : FVec Ideal (Mat K C) .f32) (b2 : FVec Ideal (Vec C) .f32)
    (aw : FVec Ideal (Mat C 2) .f32) (he1 : EdgesInRange e1) (he2 : EdgesInRange e2) (hx : ∀ j, IsReal (x j))
    (hW1 : ∀ j, IsReal (W1 j)) (hb1 : ∀ j, IsReal (b1 j)) (hW2 : ∀ j, IsReal (W2 j)) (hb2 : ∀ j, IsReal (b2 j))
    (haw : ∀ j, IsReal (aw j)) (j : (Mat 10000 C).Idx) :
    IsReal (layer h1 h2 g1 g2 r σ x e1 e2 W1 b1 W2 b2 aw j) :=
  aggr_real r σ hR aw _ _ haw
    (elu_real r _ (conv_real h1 g1 r x W1 b1 e1 he1 hx hW1 hb1))
    (elu_real r _ (conv_real h2 g2 r x W2 b2 e2 he2 hx hW2 hb2)) j

end Layer

theorem red1024 : (Mat 1024 2).Reduces [1] (Vec 1024) := by decide
theorem red512 : (Mat 512 2).Reduces [1] (Vec 512) := by decide
theorem red128 : (Mat 128 2).Reduces [1] (Vec 128) := by decide

section Network

variable {x : FVec Ideal (Mat 10000 512) .f32} {e1 : IVec (Mat 2 80000) 32} {e2 : IVec (Mat 2 160000) 32}
  {W11 : FVec Ideal (Mat 512 1024) .f32} {b11 : FVec Ideal (Vec 1024) .f32}
  {W12 : FVec Ideal (Mat 512 1024) .f32} {b12 : FVec Ideal (Vec 1024) .f32}
  {W21 : FVec Ideal (Mat 1024 512) .f32} {b21 : FVec Ideal (Vec 512) .f32}
  {W22 : FVec Ideal (Mat 1024 512) .f32} {b22 : FVec Ideal (Vec 512) .f32}
  {W31 : FVec Ideal (Mat 512 128) .f32} {b31 : FVec Ideal (Vec 128) .f32}
  {W32 : FVec Ideal (Mat 512 128) .f32} {b32 : FVec Ideal (Vec 128) .f32}
  {aw1 : FVec Ideal (Mat 1024 2) .f32} {aw2 : FVec Ideal (Mat 512 2) .f32} {aw3 : FVec Ideal (Mat 128 2) .f32}

theorem layer1_real (he1 : EdgesInRange e1) (he2 : EdgesInRange e2) (hx : ∀ j, IsReal (x j))
    (hW1 : ∀ j, IsReal (W11 j)) (hb1 : ∀ j, IsReal (b11 j)) (hW2 : ∀ j, IsReal (W12 j)) (hb2 : ∀ j, IsReal (b12 j))
    (haw : ∀ j, IsReal (aw1 j)) (j : (Mat 10000 1024).Idx) : IsReal (layer1 x e1 e2 W11 b11 W12 b12 aw1 j) :=
  layer_real es1 es2 cs1_1024 cs2_1024 rs1024 ss1024 red1024 x e1 e2 W11 b11 W12 b12 aw1 he1 he2 hx hW1 hb1 hW2 hb2 haw j

theorem layer2_real {y : FVec Ideal (Mat 10000 1024) .f32} (he1 : EdgesInRange e1) (he2 : EdgesInRange e2) (hy : ∀ j, IsReal (y j))
    (hW1 : ∀ j, IsReal (W21 j)) (hb1 : ∀ j, IsReal (b21 j)) (hW2 : ∀ j, IsReal (W22 j)) (hb2 : ∀ j, IsReal (b22 j))
    (haw : ∀ j, IsReal (aw2 j)) (j : (Mat 10000 512).Idx) : IsReal (layer2 y e1 e2 W21 b21 W22 b22 aw2 j) :=
  layer_real es1 es2 cs1_512 cs2_512 rs512 ss512 red512 y e1 e2 W21 b21 W22 b22 aw2 he1 he2 hy hW1 hb1 hW2 hb2 haw j

end Network

end Cert.Hand.Spec

end
-- ==== Proof.LibGcnSum.lean ====
import Mathlib.Data.EReal.Basic
import Mathlib.Data.EReal.Operations
import Mathlib.Algebra.BigOperators.Fin
import Mathlib.Algebra.BigOperators.Ring.Finset
import Mathlib.Algebra.BigOperators.Group.Finset.Basic
import Mathlib.Algebra.BigOperators.Group.Finset.Piecewise
import Mathlib.Logic.Equiv.Fin.Basic

namespace GcnSum

open scoped BigOperators

section Additive
variable {M : Type*} [AddCommMonoid M]

theorem sum_fin_add_of_zero {n p : ℕ} (f : Fin (n + p) → M)
    (hz : ∀ i : Fin (n + p), n ≤ i.val → f i = 0) :
    ∑ i, f i = ∑ i : Fin n, f (Fin.castAdd p i) := by
  rw [Fin.sum_univ_add, Finset.sum_eq_zero (fun i _ => hz (Fin.natAdd n i) (by simp)), add_zero]

theorem sum_fin_of_le_of_zero {n m : ℕ} (hnm : n ≤ m) (f : Fin m → M)
    (hz : ∀ i : Fin m, n ≤ i.val → f i = 0) :
    ∑ i, f i = ∑ i : Fin n, f (Fin.castLE hnm i) := by
  obtain ⟨p, rfl⟩ := Nat.exists_eq_add_of_le hnm
  rw [sum_fin_add_of_zero f hz]
  exact Finset.sum_congr rfl fun i _ => congrArg f (Fin.ext rfl)

theorem sum_fin_mul_blocks {b t : ℕ} (f : Fin (b * t) → M) :
    ∑ i, f i = ∑ q : Fin b, ∑ r : Fin t, f (finProdFinEquiv (q, r)) := by
  rw [← Equiv.sum_comp finProdFinEquiv f, Fintype.sum_prod_type]

end Additive

section Real
variable {E I J K : Type*} [Fintype E] [Fintype J] [Fintype K] [DecidableEq I] [DecidableEq J]

theorem scatter_contract (d : E → I) (s : E → J) (w : E → ℝ) (h : J → ℝ) (i : I) :
    ∑ j, (∑ e, if d e = i ∧ s e = j then w e else 0) * h j
      = ∑ e, if d e = i then w e * h (s e) else 0 := by
  simp_rw [Finset.sum_mul]
  rw [Finset.sum_comm]
  refine Finset.sum_congr rfl fun e _ => ?_
  by_cases hd : d e = i
  · simp [hd]
  · simp [hd]

theorem contract_comm (a : J → ℝ) (x : J → K → ℝ) (y : K → ℝ) :
    ∑ k, (∑ j, a j * x j k) * y k = ∑ j, a j * ∑ k, x j k * y k := by
  simp_rw [Finset.sum_mul, Finset.mul_sum]
  rw [Finset.sum_comm]
  exact Finset.sum_congr rfl fun j _ => Finset.sum_congr rfl fun k _ => mul_assoc _ _ _

end Real

section Coe

theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem coe_ite_zero (p : Prop) [Decidable p] (a : ℝ) :
    ((if p then a else 0 : ℝ) : EReal) = if p then (a : EReal) else 0 := by
  split_ifs <;> simp

theorem exists_real_sum {ι : Type*} (s : Finset ι) (f : ι → EReal) (hf : ∀ i ∈ s, ∃ r : ℝ, f i = r) :
    ∃ r : ℝ, ∑ i ∈ s, f i = r := by
  refine ⟨∑ i ∈ s, (f i).toReal, ?_⟩
  rw [coe_sum]
  refine Finset.sum_congr rfl fun i hi => ?_
  obtain ⟨r, hr⟩ := hf i hi
  rw [hr, EReal.toReal_coe]

theorem exists_real_mul {x y : EReal} (hx : ∃ r : ℝ, x = r) (hy : ∃ r : ℝ, y = r) :
    ∃ r : ℝ, x * y = r := by
  obtain ⟨a, rfl⟩ := hx
  obtain ⟨b, rfl⟩ := hy
  exact ⟨a * b, (EReal.coe_mul a b).symm⟩

end Coe

section EReal
variable {E I J K : Type*} [Fintype E] [Fintype J] [Fintype K] [DecidableEq I] [DecidableEq J]

theorem scatter_contract_ereal (d : E → I) (s : E → J) (w : E → EReal) (h : J → EReal)
    (hw : ∀ e, ∃ r : ℝ, w e = r) (hh : ∀ j, ∃ r : ℝ, h j = r) (i : I) :
    ∑ j, (∑ e, if d e = i ∧ s e = j then w e else 0) * h j
      = ∑ e, if d e = i then w e * h (s e) else 0 := by
  choose wr hwr using hw
  choose hr hhr using hh
  have key := congrArg (fun t : ℝ => (t : EReal)) (scatter_contract d s wr hr i)
  simp only [coe_sum, EReal.coe_mul, coe_ite_zero] at key
  simp only [hwr, hhr]
  exact key

theorem contract_comm_ereal (a : J → EReal) (x : J → K → EReal) (y : K → EReal)
    (ha : ∀ j, ∃ r : ℝ, a j = r) (hx : ∀ j k, ∃ r : ℝ, x j k = r) (hy : ∀ k, ∃ r : ℝ, y k = r) :
    ∑ k, (∑ j, a j * x j k) * y k = ∑ j, a j * ∑ k, x j k * y k := by
  choose ar har using ha
  choose xr hxr using hx
  choose yr hyr using hy
  have key := congrArg (fun t : ℝ => (t : EReal)) (contract_comm ar xr yr)
  simp only [coe_sum, EReal.coe_mul] at key
  simp only [har, hxr, hyr]
  exact key

theorem mul_sum_ereal {ι : Type*} (t : Finset ι) (c : EReal) (f : ι → EReal) (hc : ∃ r : ℝ, c = r)
    (hf : ∀ i ∈ t, ∃ r : ℝ, f i = r) : c * ∑ i ∈ t, f i = ∑ i ∈ t, c * f i := by
  obtain ⟨c', rfl⟩ := hc
  have hfg : ∀ i ∈ t, f i = ((f i).toReal : EReal) := fun i hi => by
    obtain ⟨r, hr⟩ := hf i hi
    rw [hr, EReal.toReal_coe]
  rw [Finset.sum_congr rfl hfg, ← coe_sum, ← EReal.coe_mul, Finset.mul_sum, coe_sum]
  refine Finset.sum_congr rfl fun i hi => ?_
  rw [EReal.coe_mul, ← hfg i hi]

end EReal

end GcnSum
-- ==== Proof.LibGcnConv.lean ====
import proofs.«177890_j48524540510773_1_alg».proof.Proof.LibGcnSum
import proofs.«177890_j48524540510773_1_alg».proof.Proof.LibIdealReal

namespace GcnConv

open IdealReal GcnSum
open scoped BigOperators

theorem block_lt {b t N : ℕ} (hN : b * t = N) (q : Fin b) (r : Fin t) : r.val + t * q.val < N := by
  subst hN
  exact (finProdFinEquiv (q, r)).isLt

section Adj
variable {E K : Type*} [Fintype E] [Fintype K] {n N : ℕ}
variable (d s : E → ℕ) (w : E → EReal) (A : Fin N → Fin N → EReal)

theorem adj_isReal (hw : ∀ e, IsReal (w e))
    (hA : ∀ i j, A i j = ∑ e, if d e = i.val ∧ s e = j.val then w e else 0) (i j : Fin N) :
    IsReal (A i j) := by
  rw [hA]
  exact IsReal.sum _ _ fun e _ => IsReal.ite _ (hw e) isReal_zero

theorem adj_col_zero (hs : ∀ e, s e < n)
    (hA : ∀ i j, A i j = ∑ e, if d e = i.val ∧ s e = j.val then w e else 0) (i j : Fin N)
    (hj : n ≤ j.val) : A i j = 0 := by
  rw [hA]
  refine Finset.sum_eq_zero fun e _ => if_neg ?_
  rintro ⟨_, h⟩
  have := hs e
  omega

theorem conv_AH (hsN : ∀ e, s e < N) (hw : ∀ e, IsReal (w e))
    (hA : ∀ i j, A i j = ∑ e, if d e = i.val ∧ s e = j.val then w e else 0)
    (Hp : Fin N → EReal) (hH : ∀ j, IsReal (Hp j)) (i : Fin N) :
    ∑ j, A i j * Hp j = ∑ e, if d e = i.val then Hp ⟨s e, hsN e⟩ * w e else 0 := by
  have key := scatter_contract_ereal (I := ℕ) (J := Fin N) d (fun e => (⟨s e, hsN e⟩ : Fin N)) w Hp hw hH i.val
  have hAij : ∀ j, A i j = ∑ e, if d e = i.val ∧ (⟨s e, hsN e⟩ : Fin N) = j then w e else 0 := fun j => by
    rw [hA]
    exact Finset.sum_congr rfl fun e _ => if_congr (and_congr Iff.rfl ⟨fun h => Fin.ext h, fun h => congrArg Fin.val h⟩) rfl rfl
  calc ∑ j, A i j * Hp j
      = ∑ j, (∑ e, if d e = i.val ∧ (⟨s e, hsN e⟩ : Fin N) = j then w e else 0) * Hp j :=
        Finset.sum_congr rfl fun j _ => by rw [hAij j]
    _ = ∑ e, if d e = i.val then w e * Hp ⟨s e, hsN e⟩ else 0 := key
    _ = ∑ e, if d e = i.val then Hp ⟨s e, hsN e⟩ * w e else 0 :=
        Finset.sum_congr rfl fun e _ => by rw [EReal.mul_comm (w e)]

theorem conv_AXW (hsN : ∀ e, s e < N) (hw : ∀ e, IsReal (w e))
    (hA : ∀ i j, A i j = ∑ e, if d e = i.val ∧ s e = j.val then w e else 0)
    (Xp : Fin N → K → EReal) (hX : ∀ j k, IsReal (Xp j k)) (W : K → EReal) (hW : ∀ k, IsReal (W k))
    (i : Fin N) :
    ∑ k, (∑ j, A i j * Xp j k) * W k
      = ∑ e, if d e = i.val then (∑ k, Xp ⟨s e, hsN e⟩ k * W k) * w e else 0 := by
  rw [contract_comm_ereal (A i) Xp W (adj_isReal d s w A hw hA i) hX hW]
  exact conv_AH d s w A hsN hw hA (fun j => ∑ k, Xp j k * W k)
    (fun j => IsReal.sum_mul _ _ _ (fun k _ => hX j k) (fun k _ => hW k)) i

theorem conv_AH_below (hnN : n ≤ N) (hs : ∀ e, s e < n) (hw : ∀ e, IsReal (w e))
    (hA : ∀ i j, A i j = ∑ e, if d e = i.val ∧ s e = j.val then w e else 0)
    (Hp : Fin N → EReal) (hH : ∀ j : Fin N, j.val < n → IsReal (Hp j)) (i : Fin N) :
    ∑ j, A i j * Hp j
      = ∑ e, if d e = i.val then Hp ⟨s e, lt_of_lt_of_le (hs e) hnN⟩ * w e else 0 := by
  have h1 : ∀ j : Fin N, A i j * Hp j = A i j * (if j.val < n then Hp j else 0) := fun j => by
    by_cases hj : j.val < n
    · rw [if_pos hj]
    · rw [if_neg hj, adj_col_zero d s w A hs hA i j (not_lt.mp hj), zero_mul, zero_mul]
  rw [Finset.sum_congr rfl fun j _ => h1 j,
    conv_AH d s w A (fun e => lt_of_lt_of_le (hs e) hnN) hw hA (fun j => if j.val < n then Hp j else 0)
      (fun j => by
        by_cases hj : j.val < n
        · rw [if_pos hj]; exact hH j hj
        · rw [if_neg hj]; exact isReal_zero) i]
  exact Finset.sum_congr rfl fun e _ => by rw [if_pos (show s e < n from hs e)]

theorem conv_AH_read (hnN : n ≤ N) (hs : ∀ e, s e < n) (hw : ∀ e, IsReal (w e))
    (hA : ∀ i j, A i j = ∑ e, if d e = i.val ∧ s e = j.val then w e else 0)
    (Hp : Fin N → EReal) (H : Fin n → EReal) (hH : ∀ j, IsReal (H j))
    (hHp : ∀ (j : Fin N) (hj : j.val < n), Hp j = H ⟨j.val, hj⟩) (i : Fin N) :
    ∑ j, A i j * Hp j = ∑ e, if d e = i.val then H ⟨s e, hs e⟩ * w e else 0 := by
  rw [conv_AH_below d s w A hnN hs hw hA Hp (fun j hj => by rw [hHp j hj]; exact hH _) i]
  exact Finset.sum_congr rfl fun e _ => by rw [hHp ⟨s e, lt_of_lt_of_le (hs e) hnN⟩ (hs e)]

theorem conv_AXW_read (hnN : n ≤ N) (hs : ∀ e, s e < n) (hw : ∀ e, IsReal (w e))
    (hA : ∀ i j, A i j = ∑ e, if d e = i.val ∧ s e = j.val then w e else 0)
    (Xp : Fin N → K → EReal) (X : Fin n → K → EReal) (hX : ∀ j k, IsReal (X j k))
    (hXp : ∀ (j : Fin N) (hj : j.val < n) (k : K), Xp j k = X ⟨j.val, hj⟩ k)
    (W : K → EReal) (hW : ∀ k, IsReal (W k)) (i : Fin N) :
    ∑ k, (∑ j, A i j * Xp j k) * W k
      = ∑ e, if d e = i.val then (∑ k, X ⟨s e, hs e⟩ k * W k) * w e else 0 := by
  have h1 : ∀ (j : Fin N) (k : K), A i j * Xp j k = A i j * (if j.val < n then Xp j k else 0) :=
    fun j k => by
      by_cases hj : j.val < n
      · rw [if_pos hj]
      · rw [if_neg hj, adj_col_zero d s w A hs hA i j (not_lt.mp hj), zero_mul, zero_mul]
  have h2 : ∀ k, ∑ j, A i j * Xp j k = ∑ j, A i j * (if j.val < n then Xp j k else 0) :=
    fun k => Finset.sum_congr rfl fun j _ => h1 j k
  rw [Finset.sum_congr rfl fun k _ => by rw [h2 k],
    conv_AXW d s w A (fun e => lt_of_lt_of_le (hs e) hnN) hw hA
      (fun j k => if j.val < n then Xp j k else 0)
      (fun j k => by
        by_cases hj : j.val < n
        · rw [if_pos hj, hXp j hj k]; exact hX _ k
        · rw [if_neg hj]; exact isReal_zero) W hW i]
  refine Finset.sum_congr rfl fun e _ => ?_
  have h3 : ∀ k, (if s e < n then Xp ⟨s e, lt_of_lt_of_le (hs e) hnN⟩ k else 0) = X ⟨s e, hs e⟩ k :=
    fun k => by rw [if_pos (hs e), hXp ⟨s e, lt_of_lt_of_le (hs e) hnN⟩ (hs e) k]
  rw [Finset.sum_congr rfl fun k _ => by rw [h3 k]]

end Adj

end GcnConv
-- ==== Proof.LibGcnConvInt.lean ====
import proofs.«177890_j48524540510773_1_alg».proof.Proof.LibGcnConv

namespace GcnConv

open IdealReal GcnSum
open scoped BigOperators

section Int
variable {E K : Type*} [Fintype E] [Fintype K] {n N : ℕ}
variable (dI sI : E → ℤ) (w : E → EReal) (A : Fin N → Fin N → EReal)

theorem adj_int_to_nat (hd0 : ∀ e, 0 ≤ dI e) (hs0 : ∀ e, 0 ≤ sI e)
    (hA : ∀ i j, A i j = ∑ e, if dI e = (i.val : ℤ) ∧ sI e = (j.val : ℤ) then w e else 0) (i j : Fin N) :
    A i j = ∑ e, if (dI e).toNat = i.val ∧ (sI e).toNat = j.val then w e else 0 := by
  rw [hA]
  refine Finset.sum_congr rfl fun e _ => if_congr ?_ rfl rfl
  have := hd0 e
  have := hs0 e
  constructor
  · rintro ⟨h1, h2⟩; exact ⟨by omega, by omega⟩
  · rintro ⟨h1, h2⟩; exact ⟨by omega, by omega⟩

theorem conv_AXW_int (hnN : n ≤ N) (hd0 : ∀ e, 0 ≤ dI e) (hs : ∀ e, 0 ≤ sI e ∧ sI e < (n : ℤ))
    (hw : ∀ e, IsReal (w e))
    (hA : ∀ i j, A i j = ∑ e, if dI e = (i.val : ℤ) ∧ sI e = (j.val : ℤ) then w e else 0)
    (nd : E → Fin n) (hnd : ∀ e, ((nd e).val : ℤ) = sI e)
    (Xp : Fin N → K → EReal) (X : Fin n → K → EReal) (hX : ∀ j k, IsReal (X j k))
    (hXp : ∀ (j : Fin N) (hj : j.val < n) (k : K), Xp j k = X ⟨j.val, hj⟩ k)
    (W : K → EReal) (hW : ∀ k, IsReal (W k)) (i : Fin N) :
    ∑ k, (∑ j, A i j * Xp j k) * W k
      = ∑ e, if dI e = (i.val : ℤ) then (∑ k, X (nd e) k * W k) * w e else 0 := by
  have hsn : ∀ e, (sI e).toNat < n := fun e => by have := hs e; omega
  rw [conv_AXW_read (fun e => (dI e).toNat) (fun e => (sI e).toNat) w A hnN hsn hw
    (adj_int_to_nat dI sI w A hd0 (fun e => (hs e).1) hA) Xp X hX hXp W hW i]
  refine Finset.sum_congr rfl fun e _ => ?_
  have hnde : (⟨(sI e).toNat, hsn e⟩ : Fin n) = nd e := Fin.ext (by
    have := hnd e; have := hs e; show (sI e).toNat = (nd e).val; omega)
  rw [hnde]
  exact if_congr (by have := hd0 e; omega) rfl rfl

theorem conv_AH_int (hnN : n ≤ N) (hd0 : ∀ e, 0 ≤ dI e) (hs : ∀ e, 0 ≤ sI e ∧ sI e < (n : ℤ))
    (hw : ∀ e, IsReal (w e))
    (hA : ∀ i j, A i j = ∑ e, if dI e = (i.val : ℤ) ∧ sI e = (j.val : ℤ) then w e else 0)
    (nd : E → Fin n) (hnd : ∀ e, ((nd e).val : ℤ) = sI e)
    (Hp : Fin N → EReal) (H : Fin n → EReal) (hH : ∀ j, IsReal (H j))
    (hHp : ∀ (j : Fin N) (hj : j.val < n), Hp j = H ⟨j.val, hj⟩) (i : Fin N) :
    ∑ j, A i j * Hp j = ∑ e, if dI e = (i.val : ℤ) then H (nd e) * w e else 0 := by
  have hsn : ∀ e, (sI e).toNat < n := fun e => by have := hs e; omega
  rw [conv_AH_read (fun e => (dI e).toNat) (fun e => (sI e).toNat) w A hnN hsn hw
    (adj_int_to_nat dI sI w A hd0 (fun e => (hs e).1) hA) Hp H hH hHp i]
  refine Finset.sum_congr rfl fun e _ => ?_
  have hnde : (⟨(sI e).toNat, hsn e⟩ : Fin n) = nd e := Fin.ext (by
    have := hnd e; have := hs e; show (sI e).toNat = (nd e).val; omega)
  rw [hnde]
  exact if_congr (by have := hd0 e; omega) rfl rfl

theorem conv_AHW_int (hnN : n ≤ N) (hd0 : ∀ e, 0 ≤ dI e) (hs : ∀ e, 0 ≤ sI e ∧ sI e < (n : ℤ))
    (hw : ∀ e, IsReal (w e))
    (hA : ∀ i j, A i j = ∑ e, if dI e = (i.val : ℤ) ∧ sI e = (j.val : ℤ) then w e else 0)
    (nd : E → Fin n) (hnd : ∀ e, ((nd e).val : ℤ) = sI e)
    (Xp : Fin N → K → EReal) (X : Fin n → K → EReal) (hX : ∀ j k, IsReal (X j k))
    (hXp : ∀ (j : Fin N) (hj : j.val < n) (k : K), Xp j k = X ⟨j.val, hj⟩ k)
    (W : K → EReal) (hW : ∀ k, IsReal (W k)) (i : Fin N) :
    ∑ j, A i j * (∑ k, Xp j k * W k)
      = ∑ e, if dI e = (i.val : ℤ) then (∑ k, X (nd e) k * W k) * w e else 0 :=
  conv_AH_int dI sI w A hnN hd0 hs hw hA nd hnd (fun j => ∑ k, Xp j k * W k) (fun j => ∑ k, X j k * W k)
    (fun j => IsReal.sum_mul _ _ _ (fun k _ => hX j k) (fun k _ => hW k))
    (fun j hj => Finset.sum_congr rfl fun k _ => by rw [hXp j hj k]) i

end Int

end GcnConv
-- ==== Proof.Bridge.lean ====
import proofs.«177890_j48524540510773_1_alg».proof.Proof.SpecRead
import proofs.«177890_j48524540510773_1_alg».proof.Proof.SpecReal
import proofs.«177890_j48524540510773_1_alg».proof.Proof.KI.KSpec
import proofs.«177890_j48524540510773_1_alg».proof.Proof.LibGcnConvInt

noncomputable section

namespace Cert.Hand.Bridge

open Idealize.ShloMosaic Idealize.ShloMosaic.ValueIdx
open Cert.Hand Cert.Hand.Spec Cert.KernelIdeal.HandVal MatProd IdealReal GcnConv

def Agree {C : ℕ} (P : (Mat 10240 C).Idx → EReal) (S : (Mat 10000 C).Idx → EReal) : Prop :=
  ∀ (j : Fin 10240) (hj : j.val < 10000) (k : Fin C), P (ix2 j k) = S (ix2 ⟨j.val, hj⟩ k)

theorem agree_of_rows {C : ℕ} {P : (Mat 10240 C).Idx → EReal} {S : (Mat 10000 C).Idx → EReal}
    (h : ∀ (i : Fin 10000) (c : Fin C), P (ix2 (Fin.castLE (by decide) i) c) = S (ix2 i c)) : Agree P S :=
  fun j hj k => by
    have h1 := h ⟨j.val, hj⟩ k
    have h2 : Fin.castLE (by decide : 10000 ≤ 10240) (⟨j.val, hj⟩ : Fin 10000) = j := Fin.ext rfl
    rwa [h2] at h1

theorem xpad_agree (x : FVec Ideal (Mat 10000 512) .f32) : Agree (xpad x) x := fun j hj k => by
  rw [xpad_apply, dif_pos hj]

section Conv

variable {E0 E K C : ℕ} (h : EdgeShapes E0 E) (a : AdjShapes E) (g : ConvShapes E C) (r : RowShapes 10000 C)

theorem node_val (v : IVec (Vec E) 32) (hv : InRange v) (j : Fin E) : ((node v j).val : ℤ) = (v (ix1 j)).toInt := by
  have hj := hv j
  show ((min (v (ix1 j)).toInt.toNat (10000 - 1) : ℕ) : ℤ) = (v (ix1 j)).toInt
  omega

theorem adjOf_read (e : IVec (Mat 2 E0) 32) (he : EdgesInRange e) (i j : Fin 10240) :
    adjOf h a e (ix2 i j)
      = ∑ x : Fin E, if (dstOf h e (ix1 x)).toInt = (i.val : ℤ) ∧ (srcOf h e (ix1 x)).toInt = (j.val : ℤ)
          then normOf h (srcOf h e) (dstOf h e) (ix1 x) else 0 := by
  unfold adjOf
  exact adjOfVec_apply h a _ _ _ (fun x => (srcOf_inRange h e he x).1) (fun x => (dstOf_inRange h e he x).1) i j

theorem conv_read (e : IVec (Mat 2 E0) 32) (he : EdgesInRange e) (X : FVec Ideal (Mat 10000 K) .f32)
    (W : FVec Ideal (Mat K C) .f32) (b : FVec Ideal (Vec C) .f32) (i : Fin 10000) (c : Fin C) :
    conv h g r X W b e (ix2 i c)
      = (∑ x : Fin E, if (dstOf h e (ix1 x)).toInt = (i.val : ℤ)
          then (∑ k : Fin K, X (ix2 (node (srcOf h e) x) k) * W (ix2 k c)) * normOf h (srcOf h e) (dstOf h e) (ix1 x)
          else 0) + b (ix1 c) := by
  rw [conv_apply h g r X W b e he i c]
  refine congrArg (fun t => t + b (ix1 c)) (Finset.sum_congr rfl fun x _ => ?_)
  rw [normOf_apply h _ _ (srcOf_inRange h e he) (dstOf_inRange h e he) x]

theorem convAXW_eq {φ : FTy} (e : IVec (Mat 2 E0) 32) (he : EdgesInRange e)
    (Xp : FVec Ideal (Mat 10240 K) φ) (X : FVec Ideal (Mat 10000 K) .f32) (hX : ∀ j, IsReal (X j)) (hXp : Agree Xp X)
    (W : FVec Ideal (Mat K C) .f32) (hW : ∀ j, IsReal (W j)) (b : FVec Ideal (Vec C) .f32) (i : Fin 10000) (c : Fin C) :
    mmP (mmP (adjOf h a e) Xp) W (ix2 (Fin.castLE (by decide) i) c) + b (ix1 c) = conv h g r X W b e (ix2 i c) := by
  have hs := srcOf_inRange h e he
  have hd := dstOf_inRange h e he
  rw [conv_read h g r e he X W b i c, mmP_apply]
  refine congrArg (fun t => t + b (ix1 c)) ?_
  simp only [mmP_apply]
  exact conv_AXW_int (E := Fin E) (K := Fin K) (n := 10000) (N := 10240)
    (fun x => (dstOf h e (ix1 x)).toInt) (fun x => (srcOf h e (ix1 x)).toInt)
    (fun x => normOf h (srcOf h e) (dstOf h e) (ix1 x)) (fun i j => adjOf h a e (ix2 i j))
    (by decide) (fun x => (hd x).1) (fun x => ⟨(hs x).1, by have := (hs x).2; omega⟩)
    (fun x => normOf_real h _ _ hs hd _) (fun i j => adjOf_read h a e he i j)
    (node (srcOf h e)) (fun x => node_val _ hs x)
    (fun j k => Xp (ix2 j k)) (fun j k => X (ix2 j k)) (fun j k => hX _) hXp (fun k => W (ix2 k c)) (fun k => hW _)
    (Fin.castLE (by decide) i)

theorem convAHW_eq {φ : FTy} (e : IVec (Mat 2 E0) 32) (he : EdgesInRange e)
    (Xp : FVec Ideal (Mat 10240 K) φ) (X : FVec Ideal (Mat 10000 K) .f32) (hX : ∀ j, IsReal (X j)) (hXp : Agree Xp X)
    (W : FVec Ideal (Mat K C) .f32) (hW : ∀ j, IsReal (W j)) (b : FVec Ideal (Vec C) .f32) (i : Fin 10000) (c : Fin C) :
    mmP (adjOf h a e) (mmP Xp W) (ix2 (Fin.castLE (by decide) i) c) + b (ix1 c) = conv h g r X W b e (ix2 i c) := by
  have hs := srcOf_inRange h e he
  have hd := dstOf_inRange h e he
  rw [conv_read h g r e he X W b i c, mmP_apply]
  refine congrArg (fun t => t + b (ix1 c)) ?_
  simp only [mmP_apply]
  exact conv_AHW_int (E := Fin E) (K := Fin K) (n := 10000) (N := 10240)
    (fun x => (dstOf h e (ix1 x)).toInt) (fun x => (srcOf h e (ix1 x)).toInt)
    (fun x => normOf h (srcOf h e) (dstOf h e) (ix1 x)) (fun i j => adjOf h a e (ix2 i j))
    (by decide) (fun x => (hd x).1) (fun x => ⟨(hs x).1, by have := (hs x).2; omega⟩)
    (fun x => normOf_real h _ _ hs hd _) (fun i j => adjOf_read h a e he i j)
    (node (srcOf h e)) (fun x => node_val _ hs x)
    (fun j k => Xp (ix2 j k)) (fun j k => X (ix2 j k)) (fun j k => hX _) hXp (fun k => W (ix2 k c)) (fun k => hW _)
    (Fin.castLE (by decide) i)

end Conv

theorem layer_rows {C : ℕ} (rP : RowShapes 10240 C) (r : RowShapes 10000 C) (σ : SoftShapes C)
    (aw : FVec Ideal (Mat C 2) .f32) (P1 P2 : FVec Ideal (Mat 10240 C) .f32) (b1 b2 : FVec Ideal (Vec C) .f32)
    (S1 S2 : FVec Ideal (Mat 10000 C) .f32)
    (h1 : ∀ (i : Fin 10000) (c : Fin C), P1 (ix2 (Fin.castLE (by decide) i) c) + b1 (ix1 c) = S1 (ix2 i c))
    (h2 : ∀ (i : Fin 10000) (c : Fin C), P2 (ix2 (Fin.castLE (by decide) i) c) + b2 (ix1 c) = S2 (ix2 i c))
    (i : Fin 10000) (c : Fin C) :
    aggr rP σ aw (elu rP (addBias rP P1 b1)) (elu rP (addBias rP P2 b2)) (ix2 (Fin.castLE (by decide) i) c)
      = aggr r σ aw (elu r S1) (elu r S2) (ix2 i c) := by
  rw [aggr_apply, aggr_apply, elu_apply, elu_apply, elu_apply, elu_apply, addBias_apply, addBias_apply, h1 i c, h2 i c]

section Network

variable (x : FVec Ideal (Mat 10000 512) .f32) (e1 : IVec (Mat 2 80000) 32) (e2 : IVec (Mat 2 160000) 32)
  (W11 : FVec Ideal (Mat 512 1024) .f32) (b11 : FVec Ideal (Vec 1024) .f32)
  (W12 : FVec Ideal (Mat 512 1024) .f32) (b12 : FVec Ideal (Vec 1024) .f32)
  (W21 : FVec Ideal (Mat 1024 512) .f32) (b21 : FVec Ideal (Vec 512) .f32)
  (W22 : FVec Ideal (Mat 1024 512) .f32) (b22 : FVec Ideal (Vec 512) .f32)
  (W31 : FVec Ideal (Mat 512 128) .f32) (b31 : FVec Ideal (Vec 128) .f32)
  (W32 : FVec Ideal (Mat 512 128) .f32) (b32 : FVec Ideal (Vec 128) .f32)
  (aw1 : FVec Ideal (Mat 1024 2) .f32) (aw2 : FVec Ideal (Mat 512 2) .f32) (aw3 : FVec Ideal (Mat 128 2) .f32)

theorem layer1_rows (he1 : EdgesInRange e1) (he2 : EdgesInRange e2) (hx : ∀ j, IsReal (x j))
    (hW11 : ∀ j, IsReal (W11 j)) (hW12 : ∀ j, IsReal (W12 j)) (i : Fin 10000) (c : Fin 1024) :
    KSpec.layer1K (adj1 e1) (adj2 e2) (xpad x) W11 b11 W12 b12 aw1 (ix2 (Fin.castLE (by decide) i) c)
      = Spec.layer1 x e1 e2 W11 b11 W12 b12 aw1 (ix2 i c) := by
  unfold KSpec.layer1K Spec.layer1 Spec.layer adj1 adj2
  exact layer_rows rs10240_1024 rs1024 ss1024 aw1 _ _ b11 b12 _ _
    (fun i c => convAXW_eq es1 as1 cs1_1024 rs1024 e1 he1 (xpad x) x hx (xpad_agree x) W11 hW11 b11 i c)
    (fun i c => convAXW_eq es2 as2 cs2_1024 rs1024 e2 he2 (xpad x) x hx (xpad_agree x) W12 hW12 b12 i c) i c

theorem layer2_rows (Hp : FVec Ideal (Mat 10240 1024) .f32) (y : FVec Ideal (Mat 10000 1024) .f32)
    (hy : ∀ j, IsReal (y j)) (hag : Agree Hp y) (he1 : EdgesInRange e1) (he2 : EdgesInRange e2)
    (hW21 : ∀ j, IsReal (W21 j)) (hW22 : ∀ j, IsReal (W22 j)) (i : Fin 10000) (c : Fin 512) :
    KSpec.layer2K (adj1 e1) (adj2 e2) Hp W21 b21 W22 b22 aw2 (ix2 (Fin.castLE (by decide) i) c)
      = Spec.layer2 y e1 e2 W21 b21 W22 b22 aw2 (ix2 i c) := by
  unfold KSpec.layer2K Spec.layer2 Spec.layer adj1 adj2
  exact layer_rows rs10240_512 rs512 ss512 aw2 _ _ b21 b22 _ _
    (fun i c => convAHW_eq es1 as1 cs1_512 rs512 e1 he1 Hp y hy hag W21 hW21 b21 i c)
    (fun i c => convAHW_eq es2 as2 cs2_512 rs512 e2 he2 Hp y hy hag W22 hW22 b22 i c) i c

theorem layer3_rows (Hp : FVec Ideal (Mat 10240 512) .f32) (z : FVec Ideal (Mat 10000 512) .f32)
    (hz : ∀ j, IsReal (z j)) (hag : Agree Hp z) (he1 : EdgesInRange e1) (he2 : EdgesInRange e2)
    (hW31 : ∀ j, IsReal (W31 j)) (hW32 : ∀ j, IsReal (W32 j)) (i : Fin 10000) (c : Fin 128) :
    KSpec.layer3K (adj1 e1) (adj2 e2) Hp W31 b31 W32 b32 aw3 (ix2 (Fin.castLE (by decide) i) c)
      = Spec.layer3 z e1 e2 W31 b31 W32 b32 aw3 (ix2 i c) := by
  unfold KSpec.layer3K Spec.layer3 Spec.layer adj1 adj2
  exact layer_rows rs10240_128 rs128 ss128 aw3 _ _ b31 b32 _ _
    (fun i c => convAHW_eq es1 as1 cs1_128 rs128 e1 he1 Hp z hz hag W31 hW31 b31 i c)
    (fun i c => convAHW_eq es2 as2 cs2_128 rs128 e2 he2 Hp z hz hag W32 hW32 b32 i c) i c

theorem kspec_eq_spec (hx : ∀ j, IsReal (x j))
    (hW11 : ∀ j, IsReal (W11 j)) (hb11 : ∀ j, IsReal (b11 j)) (hW12 : ∀ j, IsReal (W12 j)) (hb12 : ∀ j, IsReal (b12 j))
    (hW21 : ∀ j, IsReal (W21 j)) (hb21 : ∀ j, IsReal (b21 j)) (hW22 : ∀ j, IsReal (W22 j)) (hb22 : ∀ j, IsReal (b22 j))
    (hW31 : ∀ j, IsReal (W31 j)) (hb31 : ∀ j, IsReal (b31 j)) (hW32 : ∀ j, IsReal (W32 j)) (hb32 : ∀ j, IsReal (b32 j))
    (haw1 : ∀ j, IsReal (aw1 j)) (haw2 : ∀ j, IsReal (aw2 j)) (haw3 : ∀ j, IsReal (aw3 j))
    (he1 : EdgesInRange e1) (he2 : EdgesInRange e2) :
    KSpec.out x e1 e2 W11 b11 W12 b12 W21 b21 W22 b22 W31 b31 W32 b32 aw1 aw2 aw3
      = Spec.out x e1 e2 W11 b11 W12 b12 W21 b21 W22 b22 W31 b31 W32 b32 aw1 aw2 aw3 := by
  funext idx
  obtain ⟨i, c, rfl⟩ : ∃ (i : Fin 10000) (c : Fin 128), idx = ix2 i c := ⟨idx 0, idx 1, eq_ix2 idx⟩
  have R1 : ∀ j, IsReal (Spec.layer1 x e1 e2 W11 b11 W12 b12 aw1 j) :=
    fun j => layer1_real he1 he2 hx hW11 hb11 hW12 hb12 haw1 j
  have L1 : Agree (KSpec.layer1K (adj1 e1) (adj2 e2) (xpad x) W11 b11 W12 b12 aw1)
      (Spec.layer1 x e1 e2 W11 b11 W12 b12 aw1) :=
    agree_of_rows (layer1_rows x e1 e2 W11 b11 W12 b12 aw1 he1 he2 hx hW11 hW12)
  have R2 : ∀ j, IsReal (Spec.layer2 (Spec.layer1 x e1 e2 W11 b11 W12 b12 aw1) e1 e2 W21 b21 W22 b22 aw2 j) :=
    fun j => layer2_real he1 he2 R1 hW21 hb21 hW22 hb22 haw2 j
  have L2 : Agree (KSpec.layer2K (adj1 e1) (adj2 e2) (KSpec.layer1K (adj1 e1) (adj2 e2) (xpad x) W11 b11 W12 b12 aw1)
        W21 b21 W22 b22 aw2)
      (Spec.layer2 (Spec.layer1 x e1 e2 W11 b11 W12 b12 aw1) e1 e2 W21 b21 W22 b22 aw2) :=
    agree_of_rows (layer2_rows e1 e2 W21 b21 W22 b22 aw2 _ _ R1 L1 he1 he2 hW21 hW22)
  unfold KSpec.out KSpec.outOf Spec.out
  rw [rows10000_apply]
  exact layer3_rows e1 e2 W31 b31 W32 b32 aw3 _ _ R2 L2 he1 he2 hW31 hW32 i c

end Network

end Cert.Hand.Bridge

end
-- ==== Proof.PreDecode.lean ====
import proofs.«177890_j48524540510773_1_alg».proof.Pre_finite_inputs
import Idealize.ShloMosaic.PureOps.Ideal
import Idealize.ShloMosaic.Lib.ReduceAll
import Idealize.ShloMosaic.Lib.ValueIdx

noncomputable section

namespace Cert.Hand.Pre

open Idealize.ShloMosaic Idealize.ShloMosaic.ValueIdx Cert.Pre_finite_inputs

instance : Subsingleton S_.Idx := ⟨fun a b => funext fun d => d.elim0⟩

theorem real_of_abs_lt_top (x : EReal) (h : max x (-x) < ⊤) : ∃ r : ℝ, x = (r : EReal) := by
  obtain ⟨h1, h2⟩ := max_lt_iff.1 h
  induction x using EReal.rec with
  | bot => exact absurd h2 (by simp)
  | coe r => exact ⟨r, rfl⟩
  | top => exact absurd h1 (lt_irrefl _)

theorem real_of_entry (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  simp only [Ideal.cmp] at h'
  refine real_of_abs_lt_top x ?_
  by_contra hn
  rw [decide_eq_false hn] at h'
  exact absurd h' (by decide)

theorem range_of_entry (w : BitVec 32)
    (h : IntOp.andi (IntOp.cmpi .sge w 0#32) (IntOp.cmpi .slt w 10000#32) = 1#1) :
    0 ≤ w.toInt ∧ w.toInt < 10000 := by
  obtain ⟨h0, h1⟩ := IntOp.andi_eq_one.1 h
  have ob : ∀ b : Bool, BitVec.ofBool b = 1#1 → b = true := by decide
  have h0' := ob _ h0
  have h1' := ob _ h1
  simp only [BitVec.sle, BitVec.slt, decide_eq_true_eq] at h0' h1'
  have e0 : (0#32 : BitVec 32).toInt = 0 := by decide
  have e1 : (10000#32 : BitVec 32).toInt = 10000 := by decide
  exact ⟨e0 ▸ h0', e1 ▸ h1'⟩

theorem andi_apply_eq_one {s : Shape} (p q : IVec s 1) (j : s.Idx) : andi p q j = 1#1 ↔ p j = 1#1 ∧ q j = 1#1 :=
  IntOp.andi_eq_one

theorem real_of_all {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi
          (cmpf .olt (Host.absf x) (broadcastInDim s ![] hb (constant (F := Ideal) S_ .f32 0x7F800000#32)))
          (constantI S_ 1 1#1) hr hS ix0 = 1#1) :
    ∀ i, ∃ r : ℝ, x i = (r : EReal) := by
  intro i
  exact real_of_entry (x i) (Host.reduce_andi_all _ _ hr hS ix0 e i)

theorem range_of_all {s : Shape} {axes : List (Fin s.rank)} (x : IVec s 32)
    (hb : S_.BroadcastsInDim s (![] : Fin 0 → Fin s.rank)) (hr : s.ReducesTo axes S_) (hS : 0 < S_.numel)
    (e : Host.reduce IntOp.andi
          (andi (cmpi .sge x (broadcastInDim s ![] hb (constantI S_ 32 0#32)))
                (cmpi .slt x (broadcastInDim s ![] hb (constantI S_ 32 10000#32))))
          (constantI S_ 1 1#1) hr hS ix0 = 1#1) :
    ∀ i, 0 ≤ (x i).toInt ∧ (x i).toInt < 10000 := by
  intro i
  exact range_of_entry (x i) (Host.reduce_andi_all _ _ hr hS ix0 e i)

structure Decoded
    (a0 : FVec Ideal S10000x512 .f32) (a1 : IVec S2x80000 32) (a2 : IVec S2x160000 32)
    (a3 : FVec Ideal S512x1024 .f32) (a4 : FVec Ideal S1024 .f32) (a5 : FVec Ideal S512x1024 .f32)
    (a6 : FVec Ideal S1024 .f32) (a7 : FVec Ideal S1024x512 .f32) (a8 : FVec Ideal S512 .f32)
    (a9 : FVec Ideal S1024x512 .f32) (a10 : FVec Ideal S512 .f32) (a11 : FVec Ideal S512x128 .f32)
    (a12 : FVec Ideal S128 .f32) (a13 : FVec Ideal S512x128 .f32) (a14 : FVec Ideal S128 .f32)
    (a15 : FVec Ideal S1024x2 .f32) (a16 : FVec Ideal S512x2 .f32) (a17 : FVec Ideal S128x2 .f32) : Prop where
  real0 : ∀ i, ∃ r : ℝ, a0 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  real11 : ∀ i, ∃ r : ℝ, a11 i = (r : EReal)
  real12 : ∀ i, ∃ r : ℝ, a12 i = (r : EReal)
  real13 : ∀ i, ∃ r : ℝ, a13 i = (r : EReal)
  real14 : ∀ i, ∃ r : ℝ, a14 i = (r : EReal)
  real15 : ∀ i, ∃ r : ℝ, a15 i = (r : EReal)
  real16 : ∀ i, ∃ r : ℝ, a16 i = (r : EReal)
  real17 : ∀ i, ∃ r : ℝ, a17 i = (r : EReal)
  range1 : ∀ i, 0 ≤ (a1 i).toInt ∧ (a1 i).toInt < 10000
  range2 : ∀ i, 0 ≤ (a2 i).toInt ∧ (a2 i).toInt < 10000

variable [Cert.Pre_finite_inputs.Facts]
variable {a0 : FVec Ideal S10000x512 .f32} {a1 : IVec S2x80000 32} {a2 : IVec S2x160000 32} {a3 : FVec Ideal S512x1024 .f32} {a4 : FVec Ideal S1024 .f32} {a5 : FVec Ideal S512x1024 .f32} {a6 : FVec Ideal S1024 .f32} {a7 : FVec Ideal S1024x512 .f32} {a8 : FVec Ideal S512 .f32} {a9 : FVec Ideal S1024x512 .f32} {a10 : FVec Ideal S512 .f32} {a11 : FVec Ideal S512x128 .f32} {a12 : FVec Ideal S128 .f32} {a13 : FVec Ideal S512x128 .f32} {a14 : FVec Ideal S128 .f32} {a15 : FVec Ideal S1024x2 .f32} {a16 : FVec Ideal S512x2 .f32} {a17 : FVec Ideal S128x2 .f32}

theorem decode (h : Cert.Pre_finite_inputs.fn (F := Ideal) a0 a1 a2 a3 a4 a5 a6 a7 a8 a9 a10 a11 a12 a13 a14 a15 a16 a17 = fun _ => 1#1) :
    Decoded a0 a1 a2 a3 a4 a5 a6 a7 a8 a9 a10 a11 a12 a13 a14 a15 a16 a17 := by
  have e := congrFun h ix0
  dsimp only [fn, fn_part1, fn_part2, fn_part3, fn_part4, fn_part5] at e
  simp only [andi_apply_eq_one] at e
  obtain ⟨⟨⟨⟨⟨⟨⟨⟨⟨⟨⟨⟨⟨⟨⟨⟨⟨c0, c3⟩, c4⟩, c5⟩, c6⟩, c7⟩, c8⟩, c9⟩, c10⟩, c11⟩, c12⟩, c13⟩, c14⟩, c15⟩, c16⟩, c17⟩, c1⟩, c2⟩ := e
  exact
    { real0 := real_of_all a0 _ _ _ c0, real3 := real_of_all a3 _ _ _ c3, real4 := real_of_all a4 _ _ _ c4
      real5 := real_of_all a5 _ _ _ c5, real6 := real_of_all a6 _ _ _ c6, real7 := real_of_all a7 _ _ _ c7
      real8 := real_of_all a8 _ _ _ c8, real9 := real_of_all a9 _ _ _ c9, real10 := real_of_all a10 _ _ _ c10
      real11 := real_of_all a11 _ _ _ c11, real12 := real_of_all a12 _ _ _ c12, real13 := real_of_all a13 _ _ _ c13
      real14 := real_of_all a14 _ _ _ c14, real15 := real_of_all a15 _ _ _ c15, real16 := real_of_all a16 _ _ _ c16
      real17 := real_of_all a17 _ _ _ c17
      range1 := range_of_all a1 _ _ _ c1, range2 := range_of_all a2 _ _ _ c2 }

variable (h : Cert.Pre_finite_inputs.fn (F := Ideal) a0 a1 a2 a3 a4 a5 a6 a7 a8 a9 a10 a11 a12 a13 a14 a15 a16 a17 = fun _ => 1#1)
include h

theorem finite_arg0 : ∀ i, ∃ r : ℝ, a0 i = (r : EReal) := (decode h).real0
theorem finite_arg3 : ∀ i, ∃ r : ℝ, a3 i = (r : EReal) := (decode h).real3
theorem finite_arg4 : ∀ i, ∃ r : ℝ, a4 i = (r : EReal) := (decode h).real4
theorem finite_arg5 : ∀ i, ∃ r : ℝ, a5 i = (r : EReal) := (decode h).real5
theorem finite_arg6 : ∀ i, ∃ r : ℝ, a6 i = (r : EReal) := (decode h).real6
theorem finite_arg7 : ∀ i, ∃ r : ℝ, a7 i = (r : EReal) := (decode h).real7
theorem finite_arg8 : ∀ i, ∃ r : ℝ, a8 i = (r : EReal) := (decode h).real8
theorem finite_arg9 : ∀ i, ∃ r : ℝ, a9 i = (r : EReal) := (decode h).real9
theorem finite_arg10 : ∀ i, ∃ r : ℝ, a10 i = (r : EReal) := (decode h).real10
theorem finite_arg11 : ∀ i, ∃ r : ℝ, a11 i = (r : EReal) := (decode h).real11
theorem finite_arg12 : ∀ i, ∃ r : ℝ, a12 i = (r : EReal) := (decode h).real12
theorem finite_arg13 : ∀ i, ∃ r : ℝ, a13 i = (r : EReal) := (decode h).real13
theorem finite_arg14 : ∀ i, ∃ r : ℝ, a14 i = (r : EReal) := (decode h).real14
theorem finite_arg15 : ∀ i, ∃ r : ℝ, a15 i = (r : EReal) := (decode h).real15
theorem finite_arg16 : ∀ i, ∃ r : ℝ, a16 i = (r : EReal) := (decode h).real16
theorem finite_arg17 : ∀ i, ∃ r : ℝ, a17 i = (r : EReal) := (decode h).real17

theorem range_arg1 : ∀ i, 0 ≤ (a1 i).toInt ∧ (a1 i).toInt < 10000 := (decode h).range1
theorem range_arg2 : ∀ i, 0 ≤ (a2 i).toInt ∧ (a2 i).toInt < 10000 := (decode h).range2

end Cert.Hand.Pre

end
-- ==== Proof.lean ====
import proofs.«177890_j48524540510773_1_alg».proof.Defs
import proofs.«177890_j48524540510773_1_alg».proof.Proof.Gen.Kernel
import proofs.«177890_j48524540510773_1_alg».proof.Proof.Gen.KernelIdeal
import proofs.«177890_j48524540510773_1_alg».proof.Proof.Gen.ReferenceIdeal
import proofs.«177890_j48524540510773_1_alg».proof.Proof.Gen.Pre_finite_inputs
import proofs.«177890_j48524540510773_1_alg».proof.Proof.K.Run
import proofs.«177890_j48524540510773_1_alg».proof.Proof.KI.Run
import proofs.«177890_j48524540510773_1_alg».proof.Proof.KI.Compose
import proofs.«177890_j48524540510773_1_alg».proof.Proof.Ref.Run
import proofs.«177890_j48524540510773_1_alg».proof.Proof.Ref.Value
import proofs.«177890_j48524540510773_1_alg».proof.Proof.Bridge
import proofs.«177890_j48524540510773_1_alg».proof.Proof.PreDecode
import Idealize.ShloMosaic.Adequacy
import Idealize.ShloMosaic.Init

noncomputable section

namespace Cert.Proof

open Idealize.ShloMosaic Idealize.ShloMosaic.TcCoe Idealize.SL.Sem

open Cert.Kernel Cert.Kernel.Hand in
theorem frame_k : Cert.frame_Kernel (hKernel := Cert.Kernel.Gen.facts) (hPre_finite_inputs := Cert.Pre_finite_inputs.Gen.facts) :=
  fun m ρ _ =>
  (θ_run defs _ _).mono
    (fun _ h c => ⟨(h c main_arg0 (by decide)).trans (Wlast_main_arg0 m ρ c),
      (h c main_arg1 (by decide)).trans (Wlast_main_arg1 m ρ c),
      (h c main_arg2 (by decide)).trans (Wlast_main_arg2 m ρ c),
      (h c main_arg3 (by decide)).trans (Wlast_main_arg3 m ρ c),
      (h c main_arg4 (by decide)).trans (Wlast_main_arg4 m ρ c),
      (h c main_arg5 (by decide)).trans (Wlast_main_arg5 m ρ c),
      (h c main_arg6 (by decide)).trans (Wlast_main_arg6 m ρ c),
      (h c main_arg7 (by decide)).trans (Wlast_main_arg7 m ρ c),
      (h c main_arg8 (by decide)).trans (Wlast_main_arg8 m ρ c),
      (h c main_arg9 (by decide)).trans (Wlast_main_arg9 m ρ c),
      (h c main_arg10 (by decide)).trans (Wlast_main_arg10 m ρ c),
      (h c main_arg11 (by decide)).trans (Wlast_main_arg11 m ρ c),
      (h c main_arg12 (by decide)).trans (Wlast_main_arg12 m ρ c),
      (h c main_arg13 (by decide)).trans (Wlast_main_arg13 m ρ c),
      (h c main_arg14 (by decide)).trans (Wlast_main_arg14 m ρ c),
      (h c main_arg15 (by decide)).trans (Wlast_main_arg15 m ρ c),
      (h c main_arg16 (by decide)).trans (Wlast_main_arg16 m ρ c),
      (h c main_arg17 (by decide)).trans (Wlast_main_arg17 m ρ c)⟩)
    (run_main (F := Bits) m ρ)

open Cert.KernelIdeal Cert.KernelIdeal.Hand in
theorem frame_ki : Cert.frame_KernelIdeal (hKernelIdeal := Cert.KernelIdeal.Gen.facts) (hPre_finite_inputs := Cert.Pre_finite_inputs.Gen.facts) :=
  fun m ρ _ =>
  (θ_run defs _ _).mono
    (fun _ h c => ⟨(h c main_arg0 (by decide)).trans (Wlast_main_arg0 m ρ c),
      (h c main_arg1 (by decide)).trans (Wlast_main_arg1 m ρ c),
      (h c main_arg2 (by decide)).trans (Wlast_main_arg2 m ρ c),
      (h c main_arg3 (by decide)).trans (Wlast_main_arg3 m ρ c),
      (h c main_arg4 (by decide)).trans (Wlast_main_arg4 m ρ c),
      (h c main_arg5 (by decide)).trans (Wlast_main_arg5 m ρ c),
      (h c main_arg6 (by decide)).trans (Wlast_main_arg6 m ρ c),
      (h c main_arg7 (by decide)).trans (Wlast_main_arg7 m ρ c),
      (h c main_arg8 (by decide)).trans (Wlast_main_arg8 m ρ c),
      (h c main_arg9 (by decide)).trans (Wlast_main_arg9 m ρ c),
      (h c main_arg10 (by decide)).trans (Wlast_main_arg10 m ρ c),
      (h c main_arg11 (by decide)).trans (Wlast_main_arg11 m ρ c),
      (h c main_arg12 (by decide)).trans (Wlast_main_arg12 m ρ c),
      (h c main_arg13 (by decide)).trans (Wlast_main_arg13 m ρ c),
      (h c main_arg14 (by decide)).trans (Wlast_main_arg14 m ρ c),
      (h c main_arg15 (by decide)).trans (Wlast_main_arg15 m ρ c),
      (h c main_arg16 (by decide)).trans (Wlast_main_arg16 m ρ c),
      (h c main_arg17 (by decide)).trans (Wlast_main_arg17 m ρ c)⟩)
    (run_main (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

open Cert.KernelIdeal Cert.KernelIdeal.Hand in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Hand.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)), ?_, ?_⟩
  · refine (θ_run defs _ _).mono (fun _ h c => ⟨?_, (h c main_arg0 (by decide)).trans (Wlast_main_arg0 m ρ c),
      (h c main_arg1 (by decide)).trans (Wlast_main_arg1 m ρ c),
      (h c main_arg2 (by decide)).trans (Wlast_main_arg2 m ρ c),
      (h c main_arg3 (by decide)).trans (Wlast_main_arg3 m ρ c),
      (h c main_arg4 (by decide)).trans (Wlast_main_arg4 m ρ c),
      (h c main_arg5 (by decide)).trans (Wlast_main_arg5 m ρ c),
      (h c main_arg6 (by decide)).trans (Wlast_main_arg6 m ρ c),
      (h c main_arg7 (by decide)).trans (Wlast_main_arg7 m ρ c),
      (h c main_arg8 (by decide)).trans (Wlast_main_arg8 m ρ c),
      (h c main_arg9 (by decide)).trans (Wlast_main_arg9 m ρ c),
      (h c main_arg10 (by decide)).trans (Wlast_main_arg10 m ρ c),
      (h c main_arg11 (by decide)).trans (Wlast_main_arg11 m ρ c),
      (h c main_arg12 (by decide)).trans (Wlast_main_arg12 m ρ c),
      (h c main_arg13 (by decide)).trans (Wlast_main_arg13 m ρ c),
      (h c main_arg14 (by decide)).trans (Wlast_main_arg14 m ρ c),
      (h c main_arg15 (by decide)).trans (Wlast_main_arg15 m ρ c),
      (h c main_arg16 (by decide)).trans (Wlast_main_arg16 m ρ c),
      (h c main_arg17 (by decide)).trans (Wlast_main_arg17 m ρ c)⟩)
      (run_main (F := Ideal) m ρ)
    refine ((h c main_v212 (by decide)).trans (Cert.KernelIdeal.HandVal.ker_read m ρ c)).trans ?_
    have hp := hpre c
    exact Cert.Hand.Bridge.kspec_eq_spec _ _ _ _ _ _ _ _ _ _ _ _ _ _ _ _ _ _
      (Cert.Hand.Pre.finite_arg0 hp) (Cert.Hand.Pre.finite_arg3 hp) (Cert.Hand.Pre.finite_arg4 hp) (Cert.Hand.Pre.finite_arg5 hp) (Cert.Hand.Pre.finite_arg6 hp) (Cert.Hand.Pre.finite_arg7 hp) (Cert.Hand.Pre.finite_arg8 hp) (Cert.Hand.Pre.finite_arg9 hp) (Cert.Hand.Pre.finite_arg10 hp) (Cert.Hand.Pre.finite_arg11 hp) (Cert.Hand.Pre.finite_arg12 hp) (Cert.Hand.Pre.finite_arg13 hp) (Cert.Hand.Pre.finite_arg14 hp) (Cert.Hand.Pre.finite_arg15 hp) (Cert.Hand.Pre.finite_arg16 hp) (Cert.Hand.Pre.finite_arg17 hp)
      (Cert.Hand.Pre.range_arg1 hp) (Cert.Hand.Pre.range_arg2 hp)
  · refine (θ_run Cert.ReferenceIdeal.defs _ _).mono (fun _ h c => ⟨?_, (h c).2⟩)
      (Cert.ReferenceIdeal.Hand.run (F := Ideal) m' ρ')
    refine ((h c).1.trans (Cert.ReferenceIdeal.HandVal.ref_val _)).trans ?_
    obtain ⟨e0, e1, e2, e3, e4, e5, e6, e7, e8, e9, e10, e11, e12, e13, e14, e15, e16, e17⟩ := hagree c
    show Cert.Hand.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
